-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x300000 : Shape := ⟨2, ![2, 300000]⟩
abbrev S300000x256 : Shape := ⟨2, ![300000, 256]⟩
abbrev S2x100000 : Shape := ⟨2, ![2, 100000]⟩
abbrev S100000x256 : Shape := ⟨2, ![100000, 256]⟩
abbrev S_ : Shape := ⟨0, ![]⟩
abbrev S256x256 : Shape := ⟨2, ![256, 256]⟩
abbrev S256 : Shape := ⟨1, ![256]⟩
abbrev S1x300000 : Shape := ⟨2, ![1, 300000]⟩
abbrev S300000 : Shape := ⟨1, ![300000]⟩
abbrev S1x100000 : Shape := ⟨2, ![1, 100000]⟩
abbrev S100000 : Shape := ⟨1, ![100000]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S300000x256 : S_.BroadcastsInDim S300000x256 (![] : Fin 0 → Fin S300000x256.rank)
  reducesTo_S300000x256_S_d0_1 : S300000x256.ReducesTo [0, 1] S_
  bcast_S_S100000x256 : S_.BroadcastsInDim S100000x256 (![] : Fin 0 → Fin S100000x256.rank)
  reducesTo_S100000x256_S_d0_1 : S100000x256.ReducesTo [0, 1] S_
  reducesTo_S_S_d : S_.ReducesTo [] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  slices_S2x300000_S1x300000_0_0 : S2x300000.Slices ![0, 0] S1x300000
  shapeCasts_S1x300000_S300000 : S1x300000.ShapeCasts S300000
  bcast_S_S300000 : S_.BroadcastsInDim S300000 (![] : Fin 0 → Fin S300000.rank)
  reducesTo_S300000_S_d0 : S300000.ReducesTo [0] S_
  slices_S2x100000_S1x100000_0_0 : S2x100000.Slices ![0, 0] S1x100000
  shapeCasts_S1x100000_S100000 : S1x100000.ShapeCasts S100000
  bcast_S_S100000 : S_.BroadcastsInDim S100000 (![] : Fin 0 → Fin S100000.rank)
  reducesTo_S100000_S_d0 : S100000.ReducesTo [0] S_

variable [Facts]

def fn_part7 {F : FTy → Type} [FloatOps F] (main_v110 : IVec S_ 1) (main_v119 : IVec S100000 1) (main_c_45 : IVec S_ 1) : IVec S_ 1 :=
  let main_v120 : IVec S_ 1 := (fun x v => Host.reduce IntOp.andi x v reducesTo_S100000_S_d0 h_S_) main_v119 main_c_45
  let main_v121 : IVec S_ 1 := andi main_v110 main_v120
  main_v121

def fn_part6 {F : FTy → Type} [FloatOps F] (main_arg1 : IVec S2x300000 32) (main_arg3 : IVec S2x100000 32) (main_v99 : IVec S_ 1) (main_v101 : IVec S300000 32) : IVec S_ 1 :=
  let main_c_40 : IVec S_ 32 := constantI S_ 32 4294917296#32
  let main_v102 : IVec S300000 32 := broadcastInDim S300000 ![] bcast_S_S300000 main_c_40
  let main_v103 : IVec S300000 1 := cmpi .sge main_v101 main_v102
  let main_v104 : IVec S1x300000 32 := (extractStridedSlice S1x300000 ![0, 0] · slices_S2x300000_S1x300000_0_0) main_arg1
  let main_v105 : IVec S300000 32 := shapeCast S300000 main_v104 shapeCasts_S1x300000_S300000
  let main_c_41 : IVec S_ 32 := constantI S_ 32 50000#32
  let main_v106 : IVec S300000 32 := broadcastInDim S300000 ![] bcast_S_S300000 main_c_41
  let main_v107 : IVec S300000 1 := cmpi .slt main_v105 main_v106
  let main_v108 : IVec S300000 1 := andi main_v103 main_v107
  let main_c_42 : IVec S_ 1 := constantI S_ 1 1#1
  let main_v109 : IVec S_ 1 := (fun x v => Host.reduce IntOp.andi x v reducesTo_S300000_S_d0 h_S_) main_v108 main_c_42
  let main_v110 : IVec S_ 1 := andi main_v99 main_v109
  let main_v111 : IVec S1x100000 32 := (extractStridedSlice S1x100000 ![0, 0] · slices_S2x100000_S1x100000_0_0) main_arg3
  let main_v112 : IVec S100000 32 := shapeCast S100000 main_v111 shapeCasts_S1x100000_S100000
  let main_c_43 : IVec S_ 32 := constantI S_ 32 4294917296#32
  let main_v113 : IVec S100000 32 := broadcastInDim S100000 ![] bcast_S_S100000 main_c_43
  let main_v114 : IVec S100000 1 := cmpi .sge main_v112 main_v113
  let main_v115 : IVec S1x100000 32 := (extractStridedSlice S1x100000 ![0, 0] · slices_S2x100000_S1x100000_0_0) main_arg3
  let main_v116 : IVec S100000 32 := shapeCast S100000 main_v115 shapeCasts_S1x100000_S100000
  let main_c_44 : IVec S_ 32 := constantI S_ 32 50000#32
  let main_v117 : IVec S100000 32 := broadcastInDim S100000 ![] bcast_S_S100000 main_c_44
  let main_v118 : IVec S100000 1 := cmpi .slt main_v116 main_v117
  let main_v119 : IVec S100000 1 := andi main_v114 main_v118
  let main_c_45 : IVec S_ 1 := constantI S_ 1 1#1
  fn_part7 (F := F) main_v110 main_v119 main_c_45

def fn_part5 {F : FTy → Type} [FloatOps F] (main_arg1 : IVec S2x300000 32) (main_arg3 : IVec S2x100000 32) (main_arg20 : FVec F S256 .f32) (main_arg21 : FVec F S_ .f32) (main_arg22 : FVec F S_ .f32) (main_v81 : IVec S_ 1) (main_v84 : IVec S256 1) : IVec S_ 1 :=
  let main_c_33 : IVec S_ 1 := constantI S_ 1 1#1
  let main_v85 : IVec S_ 1 := (fun x v => Host.reduce IntOp.andi x v reducesTo_S256_S_d0 h_S_) main_v84 main_c_33
  let main_v86 : IVec S_ 1 := andi main_v81 main_v85
  let main_v87 : FVec F S256 .f32 := Host.absf main_arg20
  let main_cst_34 : FVec F S_ .f32 := constant S_ .f32 0x7F800000#32
  let main_v88 : FVec F S256 .f32 := broadcastInDim S256 ![] bcast_S_S256 main_cst_34
  let main_v89 : IVec S256 1 := cmpf .olt main_v87 main_v88
  let main_c_35 : IVec S_ 1 := constantI S_ 1 1#1
  let main_v90 : IVec S_ 1 := (fun x v => Host.reduce IntOp.andi x v reducesTo_S256_S_d0 h_S_) main_v89 main_c_35
  let main_v91 : IVec S_ 1 := andi main_v86 main_v90
  let main_v92 : FVec F S_ .f32 := Host.absf main_arg21
  let main_cst_36 : FVec F S_ .f32 := constant S_ .f32 0x7F800000#32
  let main_v93 : IVec S_ 1 := cmpf .olt main_v92 main_cst_36
  let main_c_37 : IVec S_ 1 := constantI S_ 1 1#1
  let main_v94 : IVec S_ 1 := (fun x v => Host.reduce IntOp.andi x v reducesTo_S_S_d h_S_) main_v93 main_c_37
  let main_v95 : IVec S_ 1 := andi main_v91 main_v94
  let main_v96 : FVec F S_ .f32 := Host.absf main_arg22
  let main_cst_38 : FVec F S_ .f32 := constant S_ .f32 0x7F800000#32
  let main_v97 : IVec S_ 1 := cmpf .olt main_v96 main_cst_38
  let main_c_39 : IVec S_ 1 := constantI S_ 1 1#1
  let main_v98 : IVec S_ 1 := (fun x v => Host.reduce IntOp.andi x v reducesTo_S_S_d h_S_) main_v97 main_c_39
  let main_v99 : IVec S_ 1 := andi main_v95 main_v98
  let main_v100 : IVec S1x300000 32 := (extractStridedSlice S1x300000 ![0, 0] · slices_S2x300000_S1x300000_0_0) main_arg1
  let main_v101 : IVec S300000 32 := shapeCast S300000 main_v100 shapeCasts_S1x300000_S300000
  fn_part6 (F := F) main_arg1 main_arg3 main_v99 main_v101

def fn_part4 {F : FTy → Type} [FloatOps F] (main_arg1 : IVec S2x300000 32) (main_arg3 : IVec S2x100000 32) (main_arg17 : FVec F S256x256 .f32) (main_arg18 : FVec F S256 .f32) (main_arg19 : FVec F S256 .f32) (main_arg20 : FVec F S256 .f32) (main_arg21 : FVec F S_ .f32) (main_arg22 : FVec F S_ .f32) (main_v66 : IVec S_ 1) (main_v67 : FVec F S256 .f32) : IVec S_ 1 :=
  let main_cst_26 : FVec F S_ .f32 := constant S_ .f32 0x7F800000#32
  let main_v68 : FVec F S256 .f32 := broadcastInDim S256 ![] bcast_S_S256 main_cst_26
  let main_v69 : IVec S256 1 := cmpf .olt main_v67 main_v68
  let main_c_27 : IVec S_ 1 := constantI S_ 1 1#1
  let main_v70 : IVec S_ 1 := (fun x v => Host.reduce IntOp.andi x v reducesTo_S256_S_d0 h_S_) main_v69 main_c_27
  let main_v71 : IVec S_ 1 := andi main_v66 main_v70
  let main_v72 : FVec F S256x256 .f32 := Host.absf main_arg17
  let main_cst_28 : FVec F S_ .f32 := constant S_ .f32 0x7F800000#32
  let main_v73 : FVec F S256x256 .f32 := broadcastInDim S256x256 ![] bcast_S_S256x256 main_cst_28
  let main_v74 : IVec S256x256 1 := cmpf .olt main_v72 main_v73
  let main_c_29 : IVec S_ 1 := constantI S_ 1 1#1
  let main_v75 : IVec S_ 1 := (fun x v => Host.reduce IntOp.andi x v reducesTo_S256x256_S_d0_1 h_S_) main_v74 main_c_29
  let main_v76 : IVec S_ 1 := andi main_v71 main_v75
  let main_v77 : FVec F S256 .f32 := Host.absf main_arg18
  let main_cst_30 : FVec F S_ .f32 := constant S_ .f32 0x7F800000#32
  let main_v78 : FVec F S256 .f32 := broadcastInDim S256 ![] bcast_S_S256 main_cst_30
  let main_v79 : IVec S256 1 := cmpf .olt main_v77 main_v78
  let main_c_31 : IVec S_ 1 := constantI S_ 1 1#1
  let main_v80 : IVec S_ 1 := (fun x v => Host.reduce IntOp.andi x v reducesTo_S256_S_d0 h_S_) main_v79 main_c_31
  let main_v81 : IVec S_ 1 := andi main_v76 main_v80
  let main_v82 : FVec F S256 .f32 := Host.absf main_arg19
  let main_cst_32 : FVec F S_ .f32 := constant S_ .f32 0x7F800000#32
  let main_v83 : FVec F S256 .f32 := broadcastInDim S256 ![] bcast_S_S256 main_cst_32
  let main_v84 : IVec S256 1 := cmpf .olt main_v82 main_v83
  fn_part5 (F := F) main_arg1 main_arg3 main_arg20 main_arg21 main_arg22 main_v81 main_v84

def fn_part3 {F : FTy → Type} [FloatOps F] (main_arg1 : IVec S2x300000 32) (main_arg3 : IVec S2x100000 32) (main_arg13 : FVec F S256x256 .f32) (main_arg14 : FVec F S256 .f32) (main_arg15 : FVec F S256 .f32) (main_arg16 : FVec F S256 .f32) (main_arg17 : FVec F S256x256 .f32) (main_arg18 : FVec F S256 .f32) (main_arg19 : FVec F S256 .f32) (main_arg20 : FVec F S256 .f32) (main_arg21 : FVec F S_ .f32) (main_arg22 : FVec F S_ .f32) (main_v47 : IVec S_ 1) (main_v49 : IVec S_ 1) (main_c_19 : IVec S_ 1) : IVec S_ 1 :=
  let main_v50 : IVec S_ 1 := (fun x v => Host.reduce IntOp.andi x v reducesTo_S_S_d h_S_) main_v49 main_c_19
  let main_v51 : IVec S_ 1 := andi main_v47 main_v50
  let main_v52 : FVec F S256x256 .f32 := Host.absf main_arg13
  let main_cst_20 : FVec F S_ .f32 := constant S_ .f32 0x7F800000#32
  let main_v53 : FVec F S256x256 .f32 := broadcastInDim S256x256 ![] bcast_S_S256x256 main_cst_20
  let main_v54 : IVec S256x256 1 := cmpf .olt main_v52 main_v53
  let main_c_21 : IVec S_ 1 := constantI S_ 1 1#1
  let main_v55 : IVec S_ 1 := (fun x v => Host.reduce IntOp.andi x v reducesTo_S256x256_S_d0_1 h_S_) main_v54 main_c_21
  let main_v56 : IVec S_ 1 := andi main_v51 main_v55
  let main_v57 : FVec F S256 .f32 := Host.absf main_arg14
  let main_cst_22 : FVec F S_ .f32 := constant S_ .f32 0x7F800000#32
  let main_v58 : FVec F S256 .f32 := broadcastInDim S256 ![] bcast_S_S256 main_cst_22
  let main_v59 : IVec S256 1 := cmpf .olt main_v57 main_v58
  let main_c_23 : IVec S_ 1 := constantI S_ 1 1#1
  let main_v60 : IVec S_ 1 := (fun x v => Host.reduce IntOp.andi x v reducesTo_S256_S_d0 h_S_) main_v59 main_c_23
  let main_v61 : IVec S_ 1 := andi main_v56 main_v60
  let main_v62 : FVec F S256 .f32 := Host.absf main_arg15
  let main_cst_24 : FVec F S_ .f32 := constant S_ .f32 0x7F800000#32
  let main_v63 : FVec F S256 .f32 := broadcastInDim S256 ![] bcast_S_S256 main_cst_24
  let main_v64 : IVec S256 1 := cmpf .olt main_v62 main_v63
  let main_c_25 : IVec S_ 1 := constantI S_ 1 1#1
  let main_v65 : IVec S_ 1 := (fun x v => Host.reduce IntOp.andi x v reducesTo_S256_S_d0 h_S_) main_v64 main_c_25
  let main_v66 : IVec S_ 1 := andi main_v61 main_v65
  let main_v67 : FVec F S256 .f32 := Host.absf main_arg16
  fn_part4 (F := F) main_arg1 main_arg3 main_arg17 main_arg18 main_arg19 main_arg20 main_arg21 main_arg22 main_v66 main_v67

def fn_part2 {F : FTy → Type} [FloatOps F] (main_arg1 : IVec S2x300000 32) (main_arg3 : IVec S2x100000 32) (main_arg10 : FVec F S256x256 .f32) (main_arg11 : FVec F S256 .f32) (main_arg12 : FVec F S_ .f32) (main_arg13 : FVec F S256x256 .f32) (main_arg14 : FVec F S256 .f32) (main_arg15 : FVec F S256 .f32) (main_arg16 : FVec F S256 .f32) (main_arg17 : FVec F S256x256 .f32) (main_arg18 : FVec F S256 .f32) (main_arg19 : FVec F S256 .f32) (main_arg20 : FVec F S256 .f32) (main_arg21 : FVec F S_ .f32) (main_arg22 : FVec F S_ .f32) (main_v32 : IVec S_ 1) (main_v33 : FVec F S256 .f32) : IVec S_ 1 :=
  let main_cst_12 : FVec F S_ .f32 := constant S_ .f32 0x7F800000#32
  let main_v34 : FVec F S256 .f32 := broadcastInDim S256 ![] bcast_S_S256 main_cst_12
  let main_v35 : IVec S256 1 := cmpf .olt main_v33 main_v34
  let main_c_13 : IVec S_ 1 := constantI S_ 1 1#1
  let main_v36 : IVec S_ 1 := (fun x v => Host.reduce IntOp.andi x v reducesTo_S256_S_d0 h_S_) main_v35 main_c_13
  let main_v37 : IVec S_ 1 := andi main_v32 main_v36
  let main_v38 : FVec F S256x256 .f32 := Host.absf main_arg10
  let main_cst_14 : FVec F S_ .f32 := constant S_ .f32 0x7F800000#32
  let main_v39 : FVec F S256x256 .f32 := broadcastInDim S256x256 ![] bcast_S_S256x256 main_cst_14
  let main_v40 : IVec S256x256 1 := cmpf .olt main_v38 main_v39
  let main_c_15 : IVec S_ 1 := constantI S_ 1 1#1
  let main_v41 : IVec S_ 1 := (fun x v => Host.reduce IntOp.andi x v reducesTo_S256x256_S_d0_1 h_S_) main_v40 main_c_15
  let main_v42 : IVec S_ 1 := andi main_v37 main_v41
  let main_v43 : FVec F S256 .f32 := Host.absf main_arg11
  let main_cst_16 : FVec F S_ .f32 := constant S_ .f32 0x7F800000#32
  let main_v44 : FVec F S256 .f32 := broadcastInDim S256 ![] bcast_S_S256 main_cst_16
  let main_v45 : IVec S256 1 := cmpf .olt main_v43 main_v44
  let main_c_17 : IVec S_ 1 := constantI S_ 1 1#1
  let main_v46 : IVec S_ 1 := (fun x v => Host.reduce IntOp.andi x v reducesTo_S256_S_d0 h_S_) main_v45 main_c_17
  let main_v47 : IVec S_ 1 := andi main_v42 main_v46
  let main_v48 : FVec F S_ .f32 := Host.absf main_arg12
  let main_cst_18 : FVec F S_ .f32 := constant S_ .f32 0x7F800000#32
  let main_v49 : IVec S_ 1 := cmpf .olt main_v48 main_cst_18
  let main_c_19 : IVec S_ 1 := constantI S_ 1 1#1
  fn_part3 (F := F) main_arg1 main_arg3 main_arg13 main_arg14 main_arg15 main_arg16 main_arg17 main_arg18 main_arg19 main_arg20 main_arg21 main_arg22 main_v47 main_v49 main_c_19

def fn_part1 {F : FTy → Type} [FloatOps F] (main_arg1 : IVec S2x300000 32) (main_arg3 : IVec S2x100000 32) (main_arg6 : FVec F S256x256 .f32) (main_arg7 : FVec F S256 .f32) (main_arg8 : FVec F S256 .f32) (main_arg9 : FVec F S256 .f32) (main_arg10 : FVec F S256x256 .f32) (main_arg11 : FVec F S256 .f32) (main_arg12 : FVec F S_ .f32) (main_arg13 : FVec F S256x256 .f32) (main_arg14 : FVec F S256 .f32) (main_arg15 : FVec F S256 .f32) (main_arg16 : FVec F S256 .f32) (main_arg17 : FVec F S256x256 .f32) (main_arg18 : FVec F S256 .f32) (main_arg19 : FVec F S256 .f32) (main_arg20 : FVec F S256 .f32) (main_arg21 : FVec F S_ .f32) (main_arg22 : FVec F S_ .f32) (main_v13 : IVec S_ 1) (main_v15 : IVec S_ 1) (main_c_5 : IVec S_ 1) : IVec S_ 1 :=
  let main_v16 : IVec S_ 1 := (fun x v => Host.reduce IntOp.andi x v reducesTo_S_S_d h_S_) main_v15 main_c_5
  let main_v17 : IVec S_ 1 := andi main_v13 main_v16
  let main_v18 : FVec F S256x256 .f32 := Host.absf main_arg6
  let main_cst_6 : FVec F S_ .f32 := constant S_ .f32 0x7F800000#32
  let main_v19 : FVec F S256x256 .f32 := broadcastInDim S256x256 ![] bcast_S_S256x256 main_cst_6
  let main_v20 : IVec S256x256 1 := cmpf .olt main_v18 main_v19
  let main_c_7 : IVec S_ 1 := constantI S_ 1 1#1
  let main_v21 : IVec S_ 1 := (fun x v => Host.reduce IntOp.andi x v reducesTo_S256x256_S_d0_1 h_S_) main_v20 main_c_7
  let main_v22 : IVec S_ 1 := andi main_v17 main_v21
  let main_v23 : FVec F S256 .f32 := Host.absf main_arg7
  let main_cst_8 : FVec F S_ .f32 := constant S_ .f32 0x7F800000#32
  let main_v24 : FVec F S256 .f32 := broadcastInDim S256 ![] bcast_S_S256 main_cst_8
  let main_v25 : IVec S256 1 := cmpf .olt main_v23 main_v24
  let main_c_9 : IVec S_ 1 := constantI S_ 1 1#1
  let main_v26 : IVec S_ 1 := (fun x v => Host.reduce IntOp.andi x v reducesTo_S256_S_d0 h_S_) main_v25 main_c_9
  let main_v27 : IVec S_ 1 := andi main_v22 main_v26
  let main_v28 : FVec F S256 .f32 := Host.absf main_arg8
  let main_cst_10 : FVec F S_ .f32 := constant S_ .f32 0x7F800000#32
  let main_v29 : FVec F S256 .f32 := broadcastInDim S256 ![] bcast_S_S256 main_cst_10
  let main_v30 : IVec S256 1 := cmpf .olt main_v28 main_v29
  let main_c_11 : IVec S_ 1 := constantI S_ 1 1#1
  let main_v31 : IVec S_ 1 := (fun x v => Host.reduce IntOp.andi x v reducesTo_S256_S_d0 h_S_) main_v30 main_c_11
  let main_v32 : IVec S_ 1 := andi main_v27 main_v31
  let main_v33 : FVec F S256 .f32 := Host.absf main_arg9
  fn_part2 (F := F) main_arg1 main_arg3 main_arg10 main_arg11 main_arg12 main_arg13 main_arg14 main_arg15 main_arg16 main_arg17 main_arg18 main_arg19 main_arg20 main_arg21 main_arg22 main_v32 main_v33

def fn {F : FTy → Type} [FloatOps F] (main_arg0 : FVec F S50000x256 .f32) (main_arg1 : IVec S2x300000 32) (main_arg2 : FVec F S300000x256 .f32) (main_arg3 : IVec S2x100000 32) (main_arg4 : FVec F S100000x256 .f32) (main_arg5 : FVec F S_ .f32) (main_arg6 : FVec F S256x256 .f32) (main_arg7 : FVec F S256 .f32) (main_arg8 : FVec F S256 .f32) (main_arg9 : FVec F S256 .f32) (main_arg10 : FVec F S256x256 .f32) (main_arg11 : FVec F S256 .f32) (main_arg12 : FVec F S_ .f32) (main_arg13 : FVec F S256x256 .f32) (main_arg14 : FVec F S256 .f32) (main_arg15 : FVec F S256 .f32) (main_arg16 : FVec F S256 .f32) (main_arg17 : FVec F S256x256 .f32) (main_arg18 : FVec F S256 .f32) (main_arg19 : FVec F S256 .f32) (main_arg20 : FVec F S256 .f32) (main_arg21 : FVec F S_ .f32) (main_arg22 : FVec F S_ .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S300000x256 .f32 := Host.absf main_arg2
  let main_cst_0 : FVec F S_ .f32 := constant S_ .f32 0x7F800000#32
  let main_v5 : FVec F S300000x256 .f32 := broadcastInDim S300000x256 ![] bcast_S_S300000x256 main_cst_0
  let main_v6 : IVec S300000x256 1 := cmpf .olt main_v4 main_v5
  let main_c_1 : IVec S_ 1 := constantI S_ 1 1#1
  let main_v7 : IVec S_ 1 := (fun x v => Host.reduce IntOp.andi x v reducesTo_S300000x256_S_d0_1 h_S_) main_v6 main_c_1
  let main_v8 : IVec S_ 1 := andi main_v3 main_v7
  let main_v9 : FVec F S100000x256 .f32 := Host.absf main_arg4
  let main_cst_2 : FVec F S_ .f32 := constant S_ .f32 0x7F800000#32
  let main_v10 : FVec F S100000x256 .f32 := broadcastInDim S100000x256 ![] bcast_S_S100000x256 main_cst_2
  let main_v11 : IVec S100000x256 1 := cmpf .olt main_v9 main_v10
  let main_c_3 : IVec S_ 1 := constantI S_ 1 1#1
  let main_v12 : IVec S_ 1 := (fun x v => Host.reduce IntOp.andi x v reducesTo_S100000x256_S_d0_1 h_S_) main_v11 main_c_3
  let main_v13 : IVec S_ 1 := andi main_v8 main_v12
  let main_v14 : FVec F S_ .f32 := Host.absf main_arg5
  let main_cst_4 : FVec F S_ .f32 := constant S_ .f32 0x7F800000#32
  let main_v15 : IVec S_ 1 := cmpf .olt main_v14 main_cst_4
  let main_c_5 : IVec S_ 1 := constantI S_ 1 1#1
  fn_part1 (F := F) main_arg1 main_arg3 main_arg6 main_arg7 main_arg8 main_arg9 main_arg10 main_arg11 main_arg12 main_arg13 main_arg14 main_arg15 main_arg16 main_arg17 main_arg18 main_arg19 main_arg20 main_arg21 main_arg22 main_v13 main_v15 main_c_5
-- ==== Kernel.lean ====
abbrev S50000x256 : Shape := ⟨2, ![50000, 256]⟩
abbrev S2x300000 : Shape := ⟨2, ![2, 300000]⟩
abbrev S300000x256 : Shape := ⟨2, ![300000, 256]⟩
abbrev S2x100000 : Shape := ⟨2, ![2, 100000]⟩
abbrev S100000x256 : Shape := ⟨2, ![100000, 256]⟩
abbrev S_ : Shape := ⟨0, ![]⟩
abbrev S256x256 : Shape := ⟨2, ![256, 256]⟩
abbrev S256 : Shape := ⟨1, ![256]⟩
abbrev S1x300000 : Shape := ⟨2, ![1, 300000]⟩
abbrev S300000 : Shape := ⟨1, ![300000]⟩
abbrev S300000x1 : Shape := ⟨2, ![300000, 1]⟩
abbrev S1 : Shape := ⟨1, ![1]⟩
abbrev S1x1 : Shape := ⟨2, ![1, 1]⟩
abbrev S1x256 : Shape := ⟨2, ![1, 256]⟩
abbrev S2000x256 : Shape := ⟨2, ![2000, 256]⟩
abbrev S5000x256 : Shape := ⟨2, ![5000, 256]⟩
abbrev S1x100000 : Shape := ⟨2, ![1, 100000]⟩
abbrev S100000 : Shape := ⟨1, ![100000]⟩
abbrev S100000x1 : Shape := ⟨2, ![100000, 1]⟩

abbrev nBuf : Space → Nat
  | .hbm => 172
  | .vmem => 68
  | .smem => 0
  | _ => 0

abbrev hbmTy0_0 (i : Nat) : BufTy := match i % 128 with
  | 0 => ⟨S50000x256, .f32⟩
  | 1 => ⟨S2x300000, .i32⟩
  | 2 => ⟨S300000x256, .f32⟩
  | 3 => ⟨S2x100000, .i32⟩
  | 4 => ⟨S100000x256, .f32⟩
  | 5 => ⟨S_, .f32⟩
  | 6 => ⟨S256x256, .f32⟩
  | 7 => ⟨S256, .f32⟩
  | 8 => ⟨S256, .f32⟩
  | 9 => ⟨S256, .f32⟩
  | 10 => ⟨S256x256, .f32⟩
  | 11 => ⟨S256, .f32⟩
  | 12 => ⟨S_, .f32⟩
  | 13 => ⟨S256x256, .f32⟩
  | 14 => ⟨S256, .f32⟩
  | 15 => ⟨S256, .f32⟩
  | 16 => ⟨S256, .f32⟩
  | 17 => ⟨S256x256, .f32⟩
  | 18 => ⟨S256, .f32⟩
  | 19 => ⟨S256, .f32⟩
  | 20 => ⟨S256, .f32⟩
  | 21 => ⟨S_, .f32⟩
  | 22 => ⟨S_, .f32⟩
  | 23 => ⟨S1x300000, .i32⟩
  | 24 => ⟨S300000, .i32⟩
  | 25 => ⟨S_, .i32⟩
  | 26 => ⟨S300000, .i32⟩
  | 27 => ⟨S300000, .i1⟩
  | 28 => ⟨S_, .i32⟩
  | 29 => ⟨S300000, .i32⟩
  | 30 => ⟨S300000, .i32⟩
  | 31 => ⟨S300000, .i32⟩
  | 32 => ⟨S300000x1, .i32⟩
  | 33 => ⟨S1, .i32⟩
  | 34 => ⟨S_, .i32⟩
  | 35 => ⟨S300000x1, .i32⟩
  | 36 => ⟨S300000x1, .i1⟩
  | 37 => ⟨S1x1, .i32⟩
  | 38 => ⟨S300000x1, .i32⟩
  | 39 => ⟨S300000x1, .i1⟩
  | 40 => ⟨S300000x1, .i1⟩
  | 41 => ⟨S_, .i1⟩
  | 42 => ⟨S300000, .i1⟩
  | 43 => ⟨S300000x256, .f32⟩
  | 44 => ⟨S300000x256, .i1⟩
  | 45 => ⟨S_, .f32⟩
  | 46 => ⟨S300000x256, .f32⟩
  | 47 => ⟨S300000x256, .f32⟩
  | 48 => ⟨S300000x256, .f32⟩
  | 49 => ⟨S_, .f32⟩
  | 50 => ⟨S300000x256, .f32⟩
  | 51 => ⟨S300000x256, .f32⟩
  | 52 => ⟨S1x300000, .i32⟩
  | 53 => ⟨S300000, .i32⟩
  | 54 => ⟨S_, .f32⟩
  | 55 => ⟨S50000x256, .f32⟩
  | 56 => ⟨S300000x1, .i32⟩
  | 57 => ⟨S50000x256, .f32⟩
  | 58 => ⟨S_, .f32⟩
  | 59 => ⟨S_, .f32⟩
  | 60 => ⟨S1x1, .f32⟩
  | 61 => ⟨S1x256, .f32⟩
  | 62 => ⟨S1x256, .f32⟩
  | 63 => ⟨S50000x256, .f32⟩
  | 64 => ⟨S1x256, .f32⟩
  | 65 => ⟨S1x256, .f32⟩
  | 66 => ⟨S256, .f32⟩
  | 67 => ⟨S_, .f32⟩
  | 68 => ⟨S256, .f32⟩
  | 69 => ⟨S256, .f32⟩
  | 70 => ⟨S256, .f32⟩
  | 71 => ⟨S_, .f32⟩
  | 72 => ⟨S256, .f32⟩
  | 73 => ⟨S256, .f32⟩
  | 74 => ⟨S256, .f32⟩
  | 75 => ⟨S256, .f32⟩
  | 76 => ⟨S_, .f32⟩
  | 77 => ⟨S256, .f32⟩
  | 78 => ⟨S256, .f32⟩
  | 79 => ⟨S1x256, .f32⟩
  | 80 => ⟨S1x256, .f32⟩
  | 81 => ⟨S1x256, .f32⟩
  | 82 => ⟨S1x256, .f32⟩
  | 83 => ⟨S1x256, .f32⟩
  | 84 => ⟨S50000x256, .f32⟩
  | 85 => ⟨S1x100000, .i32⟩
  | 86 => ⟨S100000, .i32⟩
  | 87 => ⟨S_, .i32⟩
  | 88 => ⟨S100000, .i32⟩
  | 89 => ⟨S100000, .i1⟩
  | 90 => ⟨S_, .i32⟩
  | 91 => ⟨S100000, .i32⟩
  | 92 => ⟨S100000, .i32⟩
  | 93 => ⟨S100000, .i32⟩
  | 94 => ⟨S100000x1, .i32⟩
  | 95 => ⟨S1, .i32⟩
  | 96 => ⟨S_, .i32⟩
  | 97 => ⟨S100000x1, .i32⟩
  | 98 => ⟨S100000x1, .i1⟩
  | 99 => ⟨S1x1, .i32⟩
  | 100 => ⟨S100000x1, .i32⟩
  | 101 => ⟨S100000x1, .i1⟩
  | 102 => ⟨S100000x1, .i1⟩
  | 103 => ⟨S_, .i1⟩
  | 104 => ⟨S100000, .i1⟩
  | 105 => ⟨S100000x256, .f32⟩
  | 106 => ⟨S100000x256, .i1⟩
  | 107 => ⟨S_, .f32⟩
  | 108 => ⟨S100000x256, .f32⟩
  | 109 => ⟨S100000x256, .f32⟩
  | 110 => ⟨S100000x256, .f32⟩
  | 111 => ⟨S_, .f32⟩
  | 112 => ⟨S100000x256, .f32⟩
  | 113 => ⟨S100000x256, .f32⟩
  | 114 => ⟨S1x100000, .i32⟩
  | 115 => ⟨S100000, .i32⟩
  | 116 => ⟨S_, .f32⟩
  | 117 => ⟨S50000x256, .f32⟩
  | 118 => ⟨S100000x1, .i32⟩
  | 119 => ⟨S50000x256, .f32⟩
  | 120 => ⟨S_, .f32⟩
  | 121 => ⟨S_, .f32⟩
  | 122 => ⟨S1x1, .f32⟩
  | 123 => ⟨S1x256, .f32⟩
  | 124 => ⟨S1x256, .f32⟩
  | 125 => ⟨S50000x256, .f32⟩
  | 126 => ⟨S1x256, .f32⟩
  | 127 => ⟨S1x256, .f32⟩
  | _ => ⟨S50000x256, .f32⟩

abbrev hbmTy0_1 (i : Nat) : BufTy := match i % 128 with
  | 0 => ⟨S256, .f32⟩
  | 1 => ⟨S_, .f32⟩
  | 2 => ⟨S256, .f32⟩
  | 3 => ⟨S256, .f32⟩
  | 4 => ⟨S256, .f32⟩
  | 5 => ⟨S_, .f32⟩
  | 6 => ⟨S256, .f32⟩
  | 7 => ⟨S256, .f32⟩
  | 8 => ⟨S256, .f32⟩
  | 9 => ⟨S256, .f32⟩
  | 10 => ⟨S_, .f32⟩
  | 11 => ⟨S256, .f32⟩
  | 12 => ⟨S256, .f32⟩
  | 13 => ⟨S1x256, .f32⟩
  | 14 => ⟨S1x256, .f32⟩
  | 15 => ⟨S1x256, .f32⟩
  | 16 => ⟨S1x256, .f32⟩
  | 17 => ⟨S1x256, .f32⟩
  | 18 => ⟨S50000x256, .f32⟩
  | 19 => ⟨S1x1, .f32⟩
  | 20 => ⟨S1x256, .f32⟩
  | 21 => ⟨S1x1, .f32⟩
  | 22 => ⟨S1x256, .f32⟩
  | 23 => ⟨S50000x256, .f32⟩
  | 24 => ⟨S1x256, .f32⟩
  | 25 => ⟨S1x256, .f32⟩
  | 26 => ⟨S256, .f32⟩
  | 27 => ⟨S_, .f32⟩
  | 28 => ⟨S256, .f32⟩
  | 29 => ⟨S256, .f32⟩
  | 30 => ⟨S256, .f32⟩
  | 31 => ⟨S_, .f32⟩
  | 32 => ⟨S256, .f32⟩
  | 33 => ⟨S256, .f32⟩
  | 34 => ⟨S256, .f32⟩
  | 35 => ⟨S256, .f32⟩
  | 36 => ⟨S_, .f32⟩
  | 37 => ⟨S256, .f32⟩
  | 38 => ⟨S256, .f32⟩
  | 39 => ⟨S1x256, .f32⟩
  | 40 => ⟨S1x256, .f32⟩
  | 41 => ⟨S1x256, .f32⟩
  | 42 => ⟨S1x256, .f32⟩
  | 43 => ⟨S50000x256, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S1x256, .f32⟩
  | .local _ .vmem, ⟨5, _⟩ => ⟨S256x256, .f32⟩
  | .local _ .vmem, ⟨6, _⟩ => ⟨S1x256, .f32⟩
  | .local _ .vmem, ⟨7, _⟩ => ⟨S2000x256, .f32⟩
  | .local _ .vmem, ⟨8, _⟩ => ⟨S2000x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S5000x256, .f32⟩
  | .local _ .vmem, ⟨14, _⟩ => ⟨S5000x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S256x256, .f32⟩
  | .local _ .vmem, ⟨20, _⟩ => ⟨S1x256, .f32⟩
  | .local _ .vmem, ⟨21, _⟩ => ⟨S5000x256, .f32⟩
  | .local _ .vmem, ⟨22, _⟩ => ⟨S5000x256, .f32⟩
  | .local _ .vmem, ⟨23, _⟩ => ⟨S2000x256, .f32⟩
  | .local _ .vmem, ⟨24, _⟩ => ⟨S2000x256, .f32⟩
  | .local _ .vmem, ⟨25, _⟩ => ⟨S2000x256, .f32⟩
  | .local _ .vmem, ⟨26, _⟩ => ⟨S2000x256, .f32⟩
  | .local _ .vmem, ⟨27, _⟩ => ⟨S1x256, .f32⟩
  | .local _ .vmem, ⟨28, _⟩ => ⟨S256x256, .f32⟩
  | .local _ .vmem, ⟨29, _⟩ => ⟨S1x256, .f32⟩
  | .local _ .vmem, ⟨30, _⟩ => ⟨S2000x256, .f32⟩
  | .local _ .vmem, ⟨31, _⟩ => ⟨S2000x256, .f32⟩
  | .local _ .vmem, ⟨32, _⟩ => ⟨S1x256, .f32⟩
  | .local _ .vmem, ⟨33, _⟩ => ⟨S1x256, .f32⟩
  | .local _ .vmem, ⟨34, _⟩ => ⟨S1x256, .f32⟩
  | .local _ .vmem, ⟨35, _⟩ => ⟨S1x256, .f32⟩
  | .local _ .vmem, ⟨36, _⟩ => ⟨S5000x256, .f32⟩
  | .local _ .vmem, ⟨37, _⟩ => ⟨S5000x256, .f32⟩
  | .local _ .vmem, ⟨38, _⟩ => ⟨S1x256, .f32⟩
  | .local _ .vmem, ⟨39, _⟩ => ⟨S1x256, .f32⟩
  | .local _ .vmem, ⟨40, _⟩ => ⟨S1x256, .f32⟩
  | .local _ .vmem, ⟨41, _⟩ => ⟨S1x256, .f32⟩
  | .local _ .vmem, ⟨42, _⟩ => ⟨S256x256, .f32⟩
  | .local _ .vmem, ⟨43, _⟩ => ⟨S1x256, .f32⟩
  | .local _ .vmem, ⟨44, _⟩ => ⟨S5000x256, .f32⟩
  | .local _ .vmem, ⟨45, _⟩ => ⟨S5000x256, .f32⟩
  | .local _ .vmem, ⟨46, _⟩ => ⟨S2000x256, .f32⟩
  | .local _ .vmem, ⟨47, _⟩ => ⟨S2000x256, .f32⟩
  | .local _ .vmem, ⟨48, _⟩ => ⟨S2000x256, .f32⟩
  | .local _ .vmem, ⟨49, _⟩ => ⟨S2000x256, .f32⟩
  | .local _ .vmem, ⟨50, _⟩ => ⟨S2000x256, .f32⟩
  | .local _ .vmem, ⟨51, _⟩ => ⟨S2000x256, .f32⟩
  | .local _ .vmem, ⟨52, _⟩ => ⟨S1x256, .f32⟩
  | .local _ .vmem, ⟨53, _⟩ => ⟨S1x256, .f32⟩
  | .local _ .vmem, ⟨54, _⟩ => ⟨S2000x256, .f32⟩
  | .local _ .vmem, ⟨55, _⟩ => ⟨S2000x256, .f32⟩
  | .local _ .vmem, ⟨56, _⟩ => ⟨S1x256, .f32⟩
  | .local _ .vmem, ⟨57, _⟩ => ⟨S1x256, .f32⟩
  | .local _ .vmem, ⟨58, _⟩ => ⟨S1x256, .f32⟩
  | .local _ .vmem, ⟨59, _⟩ => ⟨S1x256, .f32⟩
  | .local _ .vmem, ⟨60, _⟩ => ⟨S5000x256, .f32⟩
  | .local _ .vmem, ⟨61, _⟩ => ⟨S5000x256, .f32⟩
  | .local _ .vmem, ⟨62, _⟩ => ⟨S1x256, .f32⟩
  | .local _ .vmem, ⟨63, _⟩ => ⟨S1x256, .f32⟩
  | .local _ .vmem, ⟨64, _⟩ => ⟨S1x256, .f32⟩
  | .local _ .vmem, ⟨65, _⟩ => ⟨S1x256, .f32⟩
  | .local _ .vmem, ⟨66, _⟩ => ⟨S5000x256, .f32⟩
  | .local _ .vmem, ⟨67, _⟩ => ⟨S5000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | _, _ => false

abbrev semScoped : Fin 0 → Bool
  | ⟨_, h⟩ => absurd h (Nat.not_lt_zero _)

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  ofTc nBuf bufTy 0 62 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_call0_c : Ref sig .tc := ⟨.hbm, 25, rfl⟩
abbrev main_call0_v0 : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_c_1 : Ref sig .tc := ⟨.hbm, 33, rfl⟩
abbrev main_call0_c_2 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_3 : Ref sig .tc := ⟨.hbm, 41, rfl⟩
abbrev main_call0_v12 : Ref sig .tc := ⟨.hbm, 42, rfl⟩
abbrev main_call0_v13 : Ref sig .tc := ⟨.hbm, 43, rfl⟩
abbrev main_call0_v14 : Ref sig .tc := ⟨.hbm, 44, rfl⟩
abbrev main_call0_cst : Ref sig .tc := ⟨.hbm, 45, rfl⟩
abbrev main_call0_v15 : Ref sig .tc := ⟨.hbm, 46, rfl⟩
abbrev main_v2 : Ref sig .tc := ⟨.hbm, 47, rfl⟩
abbrev main_v3 : Ref sig .tc := ⟨.hbm, 48, rfl⟩
abbrev main_call1_cst : Ref sig .tc := ⟨.hbm, 49, rfl⟩
abbrev main_call1_v0 : Ref sig .tc := ⟨.hbm, 50, rfl⟩
abbrev main_v4 : Ref sig .tc := ⟨.hbm, 51, rfl⟩
abbrev main_v5 : Ref sig .tc := ⟨.hbm, 52, rfl⟩
abbrev main_v6 : Ref sig .tc := ⟨.hbm, 53, rfl⟩
abbrev main_cst : Ref sig .tc := ⟨.hbm, 54, rfl⟩
abbrev main_v7 : Ref sig .tc := ⟨.hbm, 55, rfl⟩
abbrev main_v8 : Ref sig .tc := ⟨.hbm, 56, rfl⟩
abbrev main_v9 : Ref sig .tc := ⟨.hbm, 57, rfl⟩
abbrev main_cst_0 : Ref sig .tc := ⟨.hbm, 58, rfl⟩
abbrev main_v10 : Ref sig .tc := ⟨.hbm, 59, rfl⟩
abbrev main_v11 : Ref sig .tc := ⟨.hbm, 60, rfl⟩
abbrev main_v12 : Ref sig .tc := ⟨.hbm, 61, rfl⟩
abbrev main_v13 : Ref sig .tc := ⟨.hbm, 62, rfl⟩
abbrev main_v14_0 : Ref sig .tc := ⟨.hbm, 63, rfl⟩
abbrev main_v14_1 : Ref sig .tc := ⟨.hbm, 64, rfl⟩
abbrev main_v14_2 : Ref sig .tc := ⟨.hbm, 65, rfl⟩
abbrev main_v15 : Ref sig .tc := ⟨.hbm, 66, rfl⟩
abbrev main_cst_1 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩
abbrev main_cst_2 : Ref sig .tc := ⟨.hbm, 71, rfl⟩
abbrev main_v19 : Ref sig .tc := ⟨.hbm, 72, rfl⟩
abbrev main_v20 : Ref sig .tc := ⟨.hbm, 73, rfl⟩
abbrev main_v21 : Ref sig .tc := ⟨.hbm, 74, rfl⟩
abbrev main_v22 : Ref sig .tc := ⟨.hbm, 75, rfl⟩
abbrev main_cst_3 : Ref sig .tc := ⟨.hbm, 76, rfl⟩
abbrev main_v23 : Ref sig .tc := ⟨.hbm, 77, rfl⟩
abbrev main_v24 : Ref sig .tc := ⟨.hbm, 78, rfl⟩
abbrev main_v25 : Ref sig .tc := ⟨.hbm, 79, rfl⟩
abbrev main_v26 : Ref sig .tc := ⟨.hbm, 80, rfl⟩
abbrev main_v27 : Ref sig .tc := ⟨.hbm, 81, rfl⟩
abbrev main_v28 : Ref sig .tc := ⟨.hbm, 82, rfl⟩
abbrev main_v29 : Ref sig .tc := ⟨.hbm, 83, rfl⟩
abbrev main_v30 : Ref sig .tc := ⟨.hbm, 84, rfl⟩
abbrev main_v31 : Ref sig .tc := ⟨.hbm, 85, rfl⟩
abbrev main_v32 : Ref sig .tc := ⟨.hbm, 86, rfl⟩
abbrev main_call2_c : Ref sig .tc := ⟨.hbm, 87, rfl⟩
abbrev main_call2_v0 : Ref sig .tc := ⟨.hbm, 88, rfl⟩
abbrev main_call2_v1 : Ref sig .tc := ⟨.hbm, 89, rfl⟩
abbrev main_call2_c_0 : Ref sig .tc := ⟨.hbm, 90, rfl⟩
abbrev main_call2_v2 : Ref sig .tc := ⟨.hbm, 91, rfl⟩
abbrev main_call2_v3 : Ref sig .tc := ⟨.hbm, 92, rfl⟩
abbrev main_call2_v4 : Ref sig .tc := ⟨.hbm, 93, rfl⟩
abbrev main_call2_v5 : Ref sig .tc := ⟨.hbm, 94, rfl⟩
abbrev main_call2_c_1 : Ref sig .tc := ⟨.hbm, 95, rfl⟩
abbrev main_call2_c_2 : Ref sig .tc := ⟨.hbm, 96, rfl⟩
abbrev main_call2_v6 : Ref sig .tc := ⟨.hbm, 97, rfl⟩
abbrev main_call2_v7 : Ref sig .tc := ⟨.hbm, 98, rfl⟩
abbrev main_call2_v8 : Ref sig .tc := ⟨.hbm, 99, rfl⟩
abbrev main_call2_v9 : Ref sig .tc := ⟨.hbm, 100, rfl⟩
abbrev main_call2_v10 : Ref sig .tc := ⟨.hbm, 101, rfl⟩
abbrev main_call2_v11 : Ref sig .tc := ⟨.hbm, 102, rfl⟩
abbrev main_call2_c_3 : Ref sig .tc := ⟨.hbm, 103, rfl⟩
abbrev main_call2_v12 : Ref sig .tc := ⟨.hbm, 104, rfl⟩
abbrev main_call2_v13 : Ref sig .tc := ⟨.hbm, 105, rfl⟩
abbrev main_call2_v14 : Ref sig .tc := ⟨.hbm, 106, rfl⟩
abbrev main_call2_cst : Ref sig .tc := ⟨.hbm, 107, rfl⟩
abbrev main_call2_v15 : Ref sig .tc := ⟨.hbm, 108, rfl⟩
abbrev main_v33 : Ref sig .tc := ⟨.hbm, 109, rfl⟩
abbrev main_v34 : Ref sig .tc := ⟨.hbm, 110, rfl⟩
abbrev main_call3_cst : Ref sig .tc := ⟨.hbm, 111, rfl⟩
abbrev main_call3_v0 : Ref sig .tc := ⟨.hbm, 112, rfl⟩
abbrev main_v35 : Ref sig .tc := ⟨.hbm, 113, rfl⟩
abbrev main_v36 : Ref sig .tc := ⟨.hbm, 114, rfl⟩
abbrev main_v37 : Ref sig .tc := ⟨.hbm, 115, rfl⟩
abbrev main_cst_4 : Ref sig .tc := ⟨.hbm, 116, rfl⟩
abbrev main_v38 : Ref sig .tc := ⟨.hbm, 117, rfl⟩
abbrev main_v39 : Ref sig .tc := ⟨.hbm, 118, rfl⟩
abbrev main_v40 : Ref sig .tc := ⟨.hbm, 119, rfl⟩
abbrev main_cst_5 : Ref sig .tc := ⟨.hbm, 120, rfl⟩
abbrev main_v41 : Ref sig .tc := ⟨.hbm, 121, rfl⟩
abbrev main_v42 : Ref sig .tc := ⟨.hbm, 122, rfl⟩
abbrev main_v43 : Ref sig .tc := ⟨.hbm, 123, rfl⟩
abbrev main_v44 : Ref sig .tc := ⟨.hbm, 124, rfl⟩
abbrev main_v45_0 : Ref sig .tc := ⟨.hbm, 125, rfl⟩
abbrev main_v45_1 : Ref sig .tc := ⟨.hbm, 126, rfl⟩
abbrev main_v45_2 : Ref sig .tc := ⟨.hbm, 127, rfl⟩
abbrev main_v46 : Ref sig .tc := ⟨.hbm, 128, rfl⟩
abbrev main_cst_6 : Ref sig .tc := ⟨.hbm, 129, rfl⟩
abbrev main_v47 : Ref sig .tc := ⟨.hbm, 130, rfl⟩
abbrev main_v48 : Ref sig .tc := ⟨.hbm, 131, rfl⟩
abbrev main_v49 : Ref sig .tc := ⟨.hbm, 132, rfl⟩
abbrev main_cst_7 : Ref sig .tc := ⟨.hbm, 133, rfl⟩
abbrev main_v50 : Ref sig .tc := ⟨.hbm, 134, rfl⟩
abbrev main_v51 : Ref sig .tc := ⟨.hbm, 135, rfl⟩
abbrev main_v52 : Ref sig .tc := ⟨.hbm, 136, rfl⟩
abbrev main_v53 : Ref sig .tc := ⟨.hbm, 137, rfl⟩
abbrev main_cst_8 : Ref sig .tc := ⟨.hbm, 138, rfl⟩
abbrev main_v54 : Ref sig .tc := ⟨.hbm, 139, rfl⟩
abbrev main_v55 : Ref sig .tc := ⟨.hbm, 140, rfl⟩
abbrev main_v56 : Ref sig .tc := ⟨.hbm, 141, rfl⟩
abbrev main_v57 : Ref sig .tc := ⟨.hbm, 142, rfl⟩
abbrev main_v58 : Ref sig .tc := ⟨.hbm, 143, rfl⟩
abbrev main_v59 : Ref sig .tc := ⟨.hbm, 144, rfl⟩
abbrev main_v60 : Ref sig .tc := ⟨.hbm, 145, rfl⟩
abbrev main_v61 : Ref sig .tc := ⟨.hbm, 146, rfl⟩
abbrev main_v62 : Ref sig .tc := ⟨.hbm, 147, rfl⟩
abbrev main_v63 : Ref sig .tc := ⟨.hbm, 148, rfl⟩
abbrev main_v64 : Ref sig .tc := ⟨.hbm, 149, rfl⟩
abbrev main_v65 : Ref sig .tc := ⟨.hbm, 150, rfl⟩
abbrev main_v66_0 : Ref sig .tc := ⟨.hbm, 151, rfl⟩
abbrev main_v66_1 : Ref sig .tc := ⟨.hbm, 152, rfl⟩
abbrev main_v66_2 : Ref sig .tc := ⟨.hbm, 153, rfl⟩
abbrev main_v67 : Ref sig .tc := ⟨.hbm, 154, rfl⟩
abbrev main_cst_9 : Ref sig .tc := ⟨.hbm, 155, rfl⟩
abbrev main_v68 : Ref sig .tc := ⟨.hbm, 156, rfl⟩
abbrev main_v69 : Ref sig .tc := ⟨.hbm, 157, rfl⟩
abbrev main_v70 : Ref sig .tc := ⟨.hbm, 158, rfl⟩
abbrev main_cst_10 : Ref sig .tc := ⟨.hbm, 159, rfl⟩
abbrev main_v71 : Ref sig .tc := ⟨.hbm, 160, rfl⟩
abbrev main_v72 : Ref sig .tc := ⟨.hbm, 161, rfl⟩
abbrev main_v73 : Ref sig .tc := ⟨.hbm, 162, rfl⟩
abbrev main_v74 : Ref sig .tc := ⟨.hbm, 163, rfl⟩
abbrev main_cst_11 : Ref sig .tc := ⟨.hbm, 164, rfl⟩
abbrev main_v75 : Ref sig .tc := ⟨.hbm, 165, rfl⟩
abbrev main_v76 : Ref sig .tc := ⟨.hbm, 166, rfl⟩
abbrev main_v77 : Ref sig .tc := ⟨.hbm, 167, rfl⟩
abbrev main_v78 : Ref sig .tc := ⟨.hbm, 168, rfl⟩
abbrev main_v79 : Ref sig .tc := ⟨.hbm, 169, rfl⟩
abbrev main_v80 : Ref sig .tc := ⟨.hbm, 170, rfl⟩
abbrev main_v81 : Ref sig .tc := ⟨.hbm, 171, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_scratch0 : Ref sig .tc := ⟨.vmem, 11, rfl⟩
abbrev cc0_scratch1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg7_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg5_1 : Ref sig .tc := ⟨.vmem, 31, rfl⟩
abbrev cc2_stg6_0 : Ref sig .tc := ⟨.vmem, 32, rfl⟩
abbrev cc2_stg7_0 : Ref sig .tc := ⟨.vmem, 33, rfl⟩
abbrev cc2_scratch0 : Ref sig .tc := ⟨.vmem, 34, rfl⟩
abbrev cc2_scratch1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg2_0 : Ref sig .tc := ⟨.vmem, 39, rfl⟩
abbrev cc3_stg3_0 : Ref sig .tc := ⟨.vmem, 40, rfl⟩
abbrev cc3_stg4_0 : Ref sig .tc := ⟨.vmem, 41, rfl⟩
abbrev cc3_stg5_0 : Ref sig .tc := ⟨.vmem, 42, rfl⟩
abbrev cc3_stg6_0 : Ref sig .tc := ⟨.vmem, 43, rfl⟩
abbrev cc3_stg7_0 : Ref sig .tc := ⟨.vmem, 44, rfl⟩
abbrev cc3_stg7_1 : Ref sig .tc := ⟨.vmem, 45, rfl⟩
abbrev cc4_stg0_0 : Ref sig .tc := ⟨.vmem, 46, rfl⟩
abbrev cc4_stg0_1 : Ref sig .tc := ⟨.vmem, 47, rfl⟩
abbrev cc4_stg1_0 : Ref sig .tc := ⟨.vmem, 48, rfl⟩
abbrev cc4_stg1_1 : Ref sig .tc := ⟨.vmem, 49, rfl⟩
abbrev cc4_stg2_0 : Ref sig .tc := ⟨.vmem, 50, rfl⟩
abbrev cc4_stg2_1 : Ref sig .tc := ⟨.vmem, 51, rfl⟩
abbrev cc4_stg3_0 : Ref sig .tc := ⟨.vmem, 52, rfl⟩
abbrev cc4_stg4_0 : Ref sig .tc := ⟨.vmem, 53, rfl⟩
abbrev cc4_stg5_0 : Ref sig .tc := ⟨.vmem, 54, rfl⟩
abbrev cc4_stg5_1 : Ref sig .tc := ⟨.vmem, 55, rfl⟩
abbrev cc4_stg6_0 : Ref sig .tc := ⟨.vmem, 56, rfl⟩
abbrev cc4_stg7_0 : Ref sig .tc := ⟨.vmem, 57, rfl⟩
abbrev cc4_scratch0 : Ref sig .tc := ⟨.vmem, 58, rfl⟩
abbrev cc4_scratch1 : Ref sig .tc := ⟨.vmem, 59, rfl⟩
abbrev cc5_stg0_0 : Ref sig .tc := ⟨.vmem, 60, rfl⟩
abbrev cc5_stg0_1 : Ref sig .tc := ⟨.vmem, 61, rfl⟩
abbrev cc5_stg1_0 : Ref sig .tc := ⟨.vmem, 62, rfl⟩
abbrev cc5_stg2_0 : Ref sig .tc := ⟨.vmem, 63, rfl⟩
abbrev cc5_stg3_0 : Ref sig .tc := ⟨.vmem, 64, rfl⟩
abbrev cc5_stg4_0 : Ref sig .tc := ⟨.vmem, 65, rfl⟩
abbrev cc5_stg5_0 : Ref sig .tc := ⟨.vmem, 66, rfl⟩
abbrev cc5_stg5_1 : Ref sig .tc := ⟨.vmem, 67, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem7_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem3_0 : DmaSem sig := 26
abbrev cc2_sem4_0 : DmaSem sig := 27
abbrev cc2_sem5_0 : DmaSem sig := 28
abbrev cc2_sem5_1 : DmaSem sig := 29
abbrev cc2_sem6_0 : DmaSem sig := 30
abbrev cc2_sem7_0 : DmaSem sig := 31
abbrev cc3_sem0_0 : DmaSem sig := 32
abbrev cc3_sem0_1 : DmaSem sig := 33
abbrev cc3_sem1_0 : DmaSem sig := 34
abbrev cc3_sem2_0 : DmaSem sig := 35
abbrev cc3_sem3_0 : DmaSem sig := 36
abbrev cc3_sem4_0 : DmaSem sig := 37
abbrev cc3_sem5_0 : DmaSem sig := 38
abbrev cc3_sem6_0 : DmaSem sig := 39
abbrev cc3_sem7_0 : DmaSem sig := 40
abbrev cc3_sem7_1 : DmaSem sig := 41
abbrev cc4_sem0_0 : DmaSem sig := 42
abbrev cc4_sem0_1 : DmaSem sig := 43
abbrev cc4_sem1_0 : DmaSem sig := 44
abbrev cc4_sem1_1 : DmaSem sig := 45
abbrev cc4_sem2_0 : DmaSem sig := 46
abbrev cc4_sem2_1 : DmaSem sig := 47
abbrev cc4_sem3_0 : DmaSem sig := 48
abbrev cc4_sem4_0 : DmaSem sig := 49
abbrev cc4_sem5_0 : DmaSem sig := 50
abbrev cc4_sem5_1 : DmaSem sig := 51
abbrev cc4_sem6_0 : DmaSem sig := 52
abbrev cc4_sem7_0 : DmaSem sig := 53
abbrev cc5_sem0_0 : DmaSem sig := 54
abbrev cc5_sem0_1 : DmaSem sig := 55
abbrev cc5_sem1_0 : DmaSem sig := 56
abbrev cc5_sem2_0 : DmaSem sig := 57
abbrev cc5_sem3_0 : DmaSem sig := 58
abbrev cc5_sem4_0 : DmaSem sig := 59
abbrev cc5_sem5_0 : DmaSem sig := 60
abbrev cc5_sem5_1 : DmaSem sig := 61

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c24_i32 : BitVec 32 := 24#32
  let v35 : BitVec 1 := Scalar.cmpi .eq arg0 c24_i32
  let v36 : BitVec 32 := Scalar.extui v35
  let c0_i32_22 : BitVec 32 := 0#32
  let v37 : BitVec 1 := Scalar.cmpi .ne v36 c0_i32_22
  v37

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![25], ![false]⟩

def k2_cond2 (i : grid2.Coords) : BitVec 1 :=
  let arg0 : BitVec 32 := BitVec.ofNat 32 (i 0).val
  let c24_i32 : BitVec 32 := 24#32
  let v35 : BitVec 1 := Scalar.cmpi .eq arg0 c24_i32
  let v36 : BitVec 32 := Scalar.extui v35
  let c0_i32_22 : BitVec 32 := 0#32
  let v37 : BitVec 1 := Scalar.cmpi .ne v36 c0_i32_22
  v37

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S256x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S5000x256 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![25], ![false]⟩

def k4_cond2 (i : grid4.Coords) : BitVec 1 :=
  let arg0 : BitVec 32 := BitVec.ofNat 32 (i 0).val
  let c24_i32 : BitVec 32 := 24#32
  let v34 : BitVec 1 := Scalar.cmpi .eq arg0 c24_i32
  let v35 : BitVec 32 := Scalar.extui v34
  let c0_i32_21 : BitVec 32 := 0#32
  let v36 : BitVec 1 := Scalar.cmpi .ne v35 c0_i32_21
  v36

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x256 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 1 → Memref sig .tc .vmem S1x256 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x256 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x256 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  slices_S2x300000_S1x300000_0_0 : S2x300000.Slices ![0, 0] S1x300000
  shapeCasts_S1x300000_S300000 : S1x300000.ShapeCasts S300000
  bcast_S_S300000 : S_.BroadcastsInDim S300000 (![] : Fin 0 → Fin S300000.rank)
  bcast_S300000_S300000x1_0 : S300000.BroadcastsInDim S300000x1 (![0] : Fin 1 → Fin S300000x1.rank)
  bcast_S_S300000x1 : S_.BroadcastsInDim S300000x1 (![] : Fin 0 → Fin S300000x1.rank)
  bcast_S1_S1x1_1 : S1.BroadcastsInDim S1x1 (![1] : Fin 1 → Fin S1x1.rank)
  bcast_S1x1_S300000x1_0_1 : S1x1.BroadcastsInDim S300000x1 (![0, 1] : Fin 2 → Fin S300000x1.rank)
  reducesTo_S300000x1_S300000_d1 : S300000x1.ReducesTo [1] S300000
  h_S_ : 0 < S_.numel
  bcast_S300000_S300000x256_0 : S300000.BroadcastsInDim S300000x256 (![0] : Fin 1 → Fin S300000x256.rank)
  bcast_S_S300000x256 : S_.BroadcastsInDim S300000x256 (![] : Fin 0 → Fin S300000x256.rank)
  slices_S2x300000_S1x300000_1_0 : S2x300000.Slices ![1, 0] S1x300000
  bcast_S_S50000x256 : S_.BroadcastsInDim S50000x256 (![] : Fin 0 → Fin S50000x256.rank)
  shapeCasts_S_S1x1 : S_.ShapeCasts S1x1
  bcast_S1x1_S1x256_0_1 : S1x1.BroadcastsInDim S1x256 (![0, 1] : Fin 2 → Fin S1x256.rank)
  shapeCasts_S256_S1x256 : S256.ShapeCasts S1x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S2000x256_S2000x256_0_0 : ∀ a, (![0, 0] : Fin 2 → Nat) a + S2000x256.size a ≤ S2000x256.size a
  h_S2000x256 : 0 < S2000x256.numel
  broadcasts_S1x256_S2000x256 : S1x256.Broadcasts S2000x256
  shapeCasts_S2000x256_S2000x256 : S2000x256.ShapeCasts S2000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  reduces_S2000x256_S256 : S2000x256.Reduces [0] S256
  shapeCasts_S1x256_S256 : S1x256.ShapeCasts S256
  bcast_S_S256 : S_.BroadcastsInDim S256 (![] : Fin 0 → Fin S256.rank)
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  broadcasts_S1x256_S5000x256 : S1x256.Broadcasts S5000x256
  slices_S2x100000_S1x100000_0_0 : S2x100000.Slices ![0, 0] S1x100000
  shapeCasts_S1x100000_S100000 : S1x100000.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S1x1_S100000x1_0_1 : S1x1.BroadcastsInDim S100000x1 (![0, 1] : Fin 2 → Fin S100000x1.rank)
  reducesTo_S100000x1_S100000_d1 : S100000x1.ReducesTo [1] S100000
  bcast_S100000_S100000x256_0 : S100000.BroadcastsInDim S100000x256 (![0] : Fin 1 → Fin S100000x256.rank)
  bcast_S_S100000x256 : S_.BroadcastsInDim S100000x256 (![] : Fin 0 → Fin S100000x256.rank)
  slices_S2x100000_S1x100000_1_0 : S2x100000.Slices ![1, 0] S1x100000
  gather_S50000x256_S300000x1_S300000x256_1_0_n_n_0_1_1256_wf : GatherDims.WF S50000x256 S300000x1 S300000x256 [1] [0] [] [0] [] 1 ![1, 256]
  scatter_S50000x256_S300000x1_S300000x256_1_0_0_1_wf : ScatterDims.WF S50000x256 S300000x1 S300000x256 [1] [0] [0] 1
  dot_S2000x256_S256x256_S2000x256_1_0_0_1_n_n_wf : DotDims.WF S2000x256 S256x256 S2000x256 [1] [0] [0] [1] [] []
  dot_S5000x256_S256x256_S5000x256_1_0_0_1_n_n_wf : DotDims.WF S5000x256 S256x256 S5000x256 [1] [0] [0] [1] [] []
  gather_S50000x256_S100000x1_S100000x256_1_0_n_n_0_1_1256_wf : GatherDims.WF S50000x256 S100000x1 S100000x256 [1] [0] [] [0] [] 1 ![1, 256]
  scatter_S50000x256_S100000x1_S100000x256_1_0_0_1_wf : ScatterDims.WF S50000x256 S100000x1 S100000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S50000x256.size a
  hwx0_1 : ∀ i : grid0.Coords, EltTy.bits .f32 = 32 ∨ (Rect.block (s := S50000x256) S2000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .f32 = 32 ∨ (Rect.block (s := S256x256) S256x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x256.size a ≤ S50000x256.size a
  hwx1_7 : ∀ i : grid1.Coords, EltTy.bits .f32 = 32 ∨ (Rect.block (s := S50000x256) S5000x256.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S50000x256.size a
  hwx2_1 : ∀ i : grid2.Coords, EltTy.bits .f32 = 32 ∨ (Rect.block (s := S50000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x256.size a ≤ S50000x256.size a
  hwx2_5 : ∀ i : grid2.Coords, EltTy.bits .f32 = 32 ∨ (Rect.block (s := S50000x256) S2000x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x256.size a ≤ S1x256.size a
  hwx2_6 : ∀ i : grid2.Coords, EltTy.bits .f32 = 32 ∨ (Rect.block (s := S1x256) S1x256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x256.size a ≤ S1x256.size a
  hwx2_7 : ∀ i : grid2.Coords, EltTy.bits .f32 = 32 ∨ (Rect.block (s := S1x256) S1x256.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x256.size a ≤ S50000x256.size a
  hwx3_0 : ∀ i : grid3.Coords, EltTy.bits .f32 = 32 ∨ (Rect.block (s := S50000x256) S5000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S256x256.size a ≤ S256x256.size a
  hwx3_5 : ∀ i : grid3.Coords, EltTy.bits .f32 = 32 ∨ (Rect.block (s := S256x256) S256x256.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x256.size a ≤ S1x256.size a
  hwx3_6 : ∀ i : grid3.Coords, EltTy.bits .f32 = 32 ∨ (Rect.block (s := S1x256) S1x256.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x256.size a ≤ S50000x256.size a
  hwx3_7 : ∀ i : grid3.Coords, EltTy.bits .f32 = 32 ∨ (Rect.block (s := S50000x256) S5000x256.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x256.size a ≤ S50000x256.size a
  hwx4_1 : ∀ i : grid4.Coords, EltTy.bits .f32 = 32 ∨ (Rect.block (s := S50000x256) S2000x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x256.size a ≤ S50000x256.size a
  hwx4_2 : ∀ i : grid4.Coords, EltTy.bits .f32 = 32 ∨ (Rect.block (s := S50000x256) S2000x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x256.size a ≤ S1x256.size a
  hwx4_3 : ∀ i : grid4.Coords, EltTy.bits .f32 = 32 ∨ (Rect.block (s := S1x256) S1x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x256.size a ≤ S1x256.size a
  hwx4_4 : ∀ i : grid4.Coords, EltTy.bits .f32 = 32 ∨ (Rect.block (s := S1x256) S1x256.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x256.size a ≤ S50000x256.size a
  hwx4_5 : ∀ i : grid4.Coords, EltTy.bits .f32 = 32 ∨ (Rect.block (s := S50000x256) S2000x256.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x256.size a ≤ S1x256.size a
  hwx4_6 : ∀ i : grid4.Coords, EltTy.bits .f32 = 32 ∨ (Rect.block (s := S1x256) S1x256.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x256.size a ≤ S1x256.size a
  hwx4_7 : ∀ i : grid4.Coords, EltTy.bits .f32 = 32 ∨ (Rect.block (s := S1x256) S1x256.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x256.size a ≤ S50000x256.size a
  hwx5_0 : ∀ i : grid5.Coords, EltTy.bits .f32 = 32 ∨ (Rect.block (s := S50000x256) S5000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x256.size a ≤ S1x256.size a
  hwx5_1 : ∀ i : grid5.Coords, EltTy.bits .f32 = 32 ∨ (Rect.block (s := S1x256) S1x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x256.size a ≤ S1x256.size a
  hwx5_3 : ∀ i : grid5.Coords, EltTy.bits .f32 = 32 ∨ (Rect.block (s := S1x256) S1x256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x256.size a ≤ S1x256.size a
  hwx5_4 : ∀ i : grid5.Coords, EltTy.bits .f32 = 32 ∨ (Rect.block (s := S1x256) S1x256.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x256.size a ≤ S50000x256.size a
  hwx5_5 : ∀ i : grid5.Coords, EltTy.bits .f32 = 32 ∨ (Rect.block (s := S50000x256) S5000x256.size (cc5_transform_5 i) (hinb5_5 i)).WholeWords (EltTy.packing .f32)

variable [Facts₀]

def gather_S50000x256_S300000x1_S300000x256_1_0_n_n_0_1_1256 : GatherDims S50000x256 S300000x1 S300000x256 where
  offsetDims := [1]
  collapsedSliceDims := [0]
  operandBatchingDims := []
  startIndicesBatchingDims := []
  startIndexMap := [0]
  indexVectorDim := 1
  sliceSizes := ![1, 256]
  wf := gather_S50000x256_S300000x1_S300000x256_1_0_n_n_0_1_1256_wf
def scatter_S50000x256_S300000x1_S300000x256_1_0_0_1 : ScatterDims S50000x256 S300000x1 S300000x256 where
  updateWindowDims := [1]
  insertedWindowDims := [0]
  scatterDimsToOperandDims := [0]
  indexVectorDim := 1
  wf := scatter_S50000x256_S300000x1_S300000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def gather_S50000x256_S100000x1_S100000x256_1_0_n_n_0_1_1256 : GatherDims S50000x256 S100000x1 S100000x256 where
  offsetDims := [1]
  collapsedSliceDims := [0]
  operandBatchingDims := []
  startIndicesBatchingDims := []
  startIndexMap := [0]
  indexVectorDim := 1
  sliceSizes := ![1, 256]
  wf := gather_S50000x256_S100000x1_S100000x256_1_0_n_n_0_1_1256_wf
def scatter_S50000x256_S100000x1_S100000x256_1_0_0_1 : ScatterDims S50000x256 S100000x1 S100000x256 where
  updateWindowDims := [1]
  insertedWindowDims := [0]
  scatterDimsToOperandDims := [0]
  indexVectorDim := 1
  wf := scatter_S50000x256_S100000x1_S100000x256_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14_0) S2000x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v14_1) S1x256.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14_2) S1x256.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | ⟨_ + 8, h⟩ => absurd h (Nat.not_lt.2 (Nat.le_add_left _ _))

abbrev win1_0 : Pipeline.Window sig grid1 :=
  Pipeline.Window.ofSpec (Memref.whole main_v14_0) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v30) S5000x256.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_arg0) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v43) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg13) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v44) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v45_0) S2000x256.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v45_1) S1x256.size cc2_transform_6 reads2_6 true true 1 stage2_6 sem2_6
    hrank2 hreads2_6 hinb2_6 nbuf2_6 (Memref.isWhole_whole _) hwx2_6 hstage2_6

abbrev win2_7 : Pipeline.Window sig grid2 :=
  Pipeline.Window.ofSpec (Memref.whole main_v45_2) S1x256.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev idle2 : Fin 8 → grid2.Coords → Bool := fun | 0 => fun _ => false | 1 => fun _ => false | 2 => fun _ => false | 3 => fun _ => false | 4 => fun _ => false | 5 => fun _ => false | 6 => fun i => !(k2_cond2 i == 1#1) | 7 => fun i => !(k2_cond2 i == 1#1) | ⟨_ + 8, h⟩ => absurd h (Nat.not_lt.2 (Nat.le_add_left _ _))

abbrev win3_0 : Pipeline.Window sig grid3 :=
  Pipeline.Window.ofSpec (Memref.whole main_v45_0) S5000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v56) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v57) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v58) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v59) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg17) S256x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v60) S1x256.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v61) S5000x256.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_arg0) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v30) S2000x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v61) S2000x256.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v63) S1x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v65) S1x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v66_0) S2000x256.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v66_1) S1x256.size cc4_transform_6 reads4_6 true true 1 stage4_6 sem4_6
    hrank4 hreads4_6 hinb4_6 nbuf4_6 (Memref.isWhole_whole _) hwx4_6 hstage4_6

abbrev win4_7 : Pipeline.Window sig grid4 :=
  Pipeline.Window.ofSpec (Memref.whole main_v66_2) S1x256.size cc4_transform_7 reads4_7 true true 1 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev idle4 : Fin 8 → grid4.Coords → Bool := fun | 0 => fun _ => false | 1 => fun _ => false | 2 => fun _ => false | 3 => fun _ => false | 4 => fun _ => false | 5 => fun _ => false | 6 => fun i => !(k4_cond2 i == 1#1) | 7 => fun i => !(k4_cond2 i == 1#1) | ⟨_ + 8, h⟩ => absurd h (Nat.not_lt.2 (Nat.le_add_left _ _))

abbrev win5_0 : Pipeline.Window sig grid5 :=
  Pipeline.Window.ofSpec (Memref.whole main_v66_0) S5000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v77) S1x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v78) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v79) S1x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v80) S1x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v81) S5000x256.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S50000x256 : Shape := ⟨2, ![50000, 256]⟩
abbrev S2x300000 : Shape := ⟨2, ![2, 300000]⟩
abbrev S300000x256 : Shape := ⟨2, ![300000, 256]⟩
abbrev S2x100000 : Shape := ⟨2, ![2, 100000]⟩
abbrev S100000x256 : Shape := ⟨2, ![100000, 256]⟩
abbrev S_ : Shape := ⟨0, ![]⟩
abbrev S256x256 : Shape := ⟨2, ![256, 256]⟩
abbrev S256 : Shape := ⟨1, ![256]⟩
abbrev S1x300000 : Shape := ⟨2, ![1, 300000]⟩
abbrev S300000 : Shape := ⟨1, ![300000]⟩
abbrev S300000x1 : Shape := ⟨2, ![300000, 1]⟩
abbrev S1x256 : Shape := ⟨2, ![1, 256]⟩
abbrev S1x100000 : Shape := ⟨2, ![1, 100000]⟩
abbrev S100000 : Shape := ⟨1, ![100000]⟩
abbrev S100000x1 : Shape := ⟨2, ![100000, 1]⟩

abbrev nBuf : Space → Nat
  | .hbm => 238
  | .vmem => 0
  | .smem => 0
  | _ => 0

abbrev hbmTy0_0 (i : Nat) : BufTy := match i % 128 with
  | 0 => ⟨S50000x256, .f32⟩
  | 1 => ⟨S2x300000, .i32⟩
  | 2 => ⟨S300000x256, .f32⟩
  | 3 => ⟨S2x100000, .i32⟩
  | 4 => ⟨S100000x256, .f32⟩
  | 5 => ⟨S_, .f32⟩
  | 6 => ⟨S256x256, .f32⟩
  | 7 => ⟨S256, .f32⟩
  | 8 => ⟨S256, .f32⟩
  | 9 => ⟨S256, .f32⟩
  | 10 => ⟨S256x256, .f32⟩
  | 11 => ⟨S256, .f32⟩
  | 12 => ⟨S_, .f32⟩
  | 13 => ⟨S256x256, .f32⟩
  | 14 => ⟨S256, .f32⟩
  | 15 => ⟨S256, .f32⟩
  | 16 => ⟨S256, .f32⟩
  | 17 => ⟨S256x256, .f32⟩
  | 18 => ⟨S256, .f32⟩
  | 19 => ⟨S256, .f32⟩
  | 20 => ⟨S256, .f32⟩
  | 21 => ⟨S_, .f32⟩
  | 22 => ⟨S_, .f32⟩
  | 23 => ⟨S1x300000, .i32⟩
  | 24 => ⟨S300000, .i32⟩
  | 25 => ⟨S_, .i32⟩
  | 26 => ⟨S300000, .i32⟩
  | 27 => ⟨S300000, .i1⟩
  | 28 => ⟨S_, .i32⟩
  | 29 => ⟨S300000, .i32⟩
  | 30 => ⟨S300000, .i32⟩
  | 31 => ⟨S300000, .i32⟩
  | 32 => ⟨S300000x1, .i32⟩
  | 33 => ⟨S300000x256, .f32⟩
  | 34 => ⟨S300000x256, .f32⟩
  | 35 => ⟨S_, .f32⟩
  | 36 => ⟨S300000x256, .f32⟩
  | 37 => ⟨S300000x256, .f32⟩
  | 38 => ⟨S1x300000, .i32⟩
  | 39 => ⟨S300000, .i32⟩
  | 40 => ⟨S_, .f32⟩
  | 41 => ⟨S50000x256, .f32⟩
  | 42 => ⟨S300000x1, .i32⟩
  | 43 => ⟨S50000x256, .f32⟩
  | 44 => ⟨S_, .f32⟩
  | 45 => ⟨S_, .f32⟩
  | 46 => ⟨S50000x256, .f32⟩
  | 47 => ⟨S50000x256, .f32⟩
  | 48 => ⟨S50000x256, .f32⟩
  | 49 => ⟨S50000x256, .f32⟩
  | 50 => ⟨S1x256, .f32⟩
  | 51 => ⟨S50000x256, .f32⟩
  | 52 => ⟨S50000x256, .f32⟩
  | 53 => ⟨S_, .f32⟩
  | 54 => ⟨S256, .f32⟩
  | 55 => ⟨S_, .f32⟩
  | 56 => ⟨S256, .f32⟩
  | 57 => ⟨S256, .f32⟩
  | 58 => ⟨S_, .i32⟩
  | 59 => ⟨S_, .f32⟩
  | 60 => ⟨S256, .f32⟩
  | 61 => ⟨S1x256, .f32⟩
  | 62 => ⟨S_, .f32⟩
  | 63 => ⟨S1x256, .f32⟩
  | 64 => ⟨S1x256, .f32⟩
  | 65 => ⟨S50000x256, .f32⟩
  | 66 => ⟨S50000x256, .f32⟩
  | 67 => ⟨S50000x256, .f32⟩
  | 68 => ⟨S_, .f32⟩
  | 69 => ⟨S_, .f32⟩
  | 70 => ⟨S_, .f32⟩
  | 71 => ⟨S_, .f32⟩
  | 72 => ⟨S256, .f32⟩
  | 73 => ⟨S256, .f32⟩
  | 74 => ⟨S256, .f32⟩
  | 75 => ⟨S_, .f32⟩
  | 76 => ⟨S_, .i1⟩
  | 77 => ⟨S_, .f32⟩
  | 78 => ⟨S_, .f32⟩
  | 79 => ⟨S256, .f32⟩
  | 80 => ⟨S256, .f32⟩
  | 81 => ⟨S1x256, .f32⟩
  | 82 => ⟨S50000x256, .f32⟩
  | 83 => ⟨S50000x256, .f32⟩
  | 84 => ⟨S1x256, .f32⟩
  | 85 => ⟨S50000x256, .f32⟩
  | 86 => ⟨S50000x256, .f32⟩
  | 87 => ⟨S_, .f32⟩
  | 88 => ⟨S256, .f32⟩
  | 89 => ⟨S256, .f32⟩
  | 90 => ⟨S256, .f32⟩
  | 91 => ⟨S1x256, .f32⟩
  | 92 => ⟨S50000x256, .f32⟩
  | 93 => ⟨S50000x256, .f32⟩
  | 94 => ⟨S1x256, .f32⟩
  | 95 => ⟨S50000x256, .f32⟩
  | 96 => ⟨S50000x256, .f32⟩
  | 97 => ⟨S_, .f32⟩
  | 98 => ⟨S50000x256, .f32⟩
  | 99 => ⟨S50000x256, .f32⟩
  | 100 => ⟨S50000x256, .f32⟩
  | 101 => ⟨S1x256, .f32⟩
  | 102 => ⟨S50000x256, .f32⟩
  | 103 => ⟨S50000x256, .f32⟩
  | 104 => ⟨S1x100000, .i32⟩
  | 105 => ⟨S100000, .i32⟩
  | 106 => ⟨S_, .i32⟩
  | 107 => ⟨S100000, .i32⟩
  | 108 => ⟨S100000, .i1⟩
  | 109 => ⟨S_, .i32⟩
  | 110 => ⟨S100000, .i32⟩
  | 111 => ⟨S100000, .i32⟩
  | 112 => ⟨S100000, .i32⟩
  | 113 => ⟨S100000x1, .i32⟩
  | 114 => ⟨S100000x256, .f32⟩
  | 115 => ⟨S100000x256, .f32⟩
  | 116 => ⟨S_, .f32⟩
  | 117 => ⟨S100000x256, .f32⟩
  | 118 => ⟨S100000x256, .f32⟩
  | 119 => ⟨S1x100000, .i32⟩
  | 120 => ⟨S100000, .i32⟩
  | 121 => ⟨S_, .f32⟩
  | 122 => ⟨S50000x256, .f32⟩
  | 123 => ⟨S100000x1, .i32⟩
  | 124 => ⟨S50000x256, .f32⟩
  | 125 => ⟨S_, .f32⟩
  | 126 => ⟨S_, .f32⟩
  | 127 => ⟨S50000x256, .f32⟩
  | _ => ⟨S50000x256, .f32⟩

abbrev hbmTy0_1 (i : Nat) : BufTy := match i % 128 with
  | 0 => ⟨S50000x256, .f32⟩
  | 1 => ⟨S50000x256, .f32⟩
  | 2 => ⟨S50000x256, .f32⟩
  | 3 => ⟨S1x256, .f32⟩
  | 4 => ⟨S50000x256, .f32⟩
  | 5 => ⟨S50000x256, .f32⟩
  | 6 => ⟨S_, .f32⟩
  | 7 => ⟨S256, .f32⟩
  | 8 => ⟨S_, .f32⟩
  | 9 => ⟨S256, .f32⟩
  | 10 => ⟨S256, .f32⟩
  | 11 => ⟨S_, .i32⟩
  | 12 => ⟨S_, .f32⟩
  | 13 => ⟨S256, .f32⟩
  | 14 => ⟨S1x256, .f32⟩
  | 15 => ⟨S_, .f32⟩
  | 16 => ⟨S1x256, .f32⟩
  | 17 => ⟨S1x256, .f32⟩
  | 18 => ⟨S50000x256, .f32⟩
  | 19 => ⟨S50000x256, .f32⟩
  | 20 => ⟨S50000x256, .f32⟩
  | 21 => ⟨S_, .f32⟩
  | 22 => ⟨S_, .f32⟩
  | 23 => ⟨S_, .f32⟩
  | 24 => ⟨S_, .f32⟩
  | 25 => ⟨S256, .f32⟩
  | 26 => ⟨S256, .f32⟩
  | 27 => ⟨S256, .f32⟩
  | 28 => ⟨S_, .f32⟩
  | 29 => ⟨S_, .i1⟩
  | 30 => ⟨S_, .f32⟩
  | 31 => ⟨S_, .f32⟩
  | 32 => ⟨S256, .f32⟩
  | 33 => ⟨S256, .f32⟩
  | 34 => ⟨S1x256, .f32⟩
  | 35 => ⟨S50000x256, .f32⟩
  | 36 => ⟨S50000x256, .f32⟩
  | 37 => ⟨S1x256, .f32⟩
  | 38 => ⟨S50000x256, .f32⟩
  | 39 => ⟨S50000x256, .f32⟩
  | 40 => ⟨S_, .f32⟩
  | 41 => ⟨S256, .f32⟩
  | 42 => ⟨S256, .f32⟩
  | 43 => ⟨S256, .f32⟩
  | 44 => ⟨S1x256, .f32⟩
  | 45 => ⟨S50000x256, .f32⟩
  | 46 => ⟨S50000x256, .f32⟩
  | 47 => ⟨S1x256, .f32⟩
  | 48 => ⟨S50000x256, .f32⟩
  | 49 => ⟨S50000x256, .f32⟩
  | 50 => ⟨S_, .f32⟩
  | 51 => ⟨S50000x256, .f32⟩
  | 52 => ⟨S50000x256, .f32⟩
  | 53 => ⟨S50000x256, .f32⟩
  | 54 => ⟨S1x256, .f32⟩
  | 55 => ⟨S50000x256, .f32⟩
  | 56 => ⟨S50000x256, .f32⟩
  | 57 => ⟨S50000x256, .f32⟩
  | 58 => ⟨S50000x256, .f32⟩
  | 59 => ⟨S50000x256, .f32⟩
  | 60 => ⟨S50000x256, .f32⟩
  | 61 => ⟨S50000x256, .f32⟩
  | 62 => ⟨S50000x256, .f32⟩
  | 63 => ⟨S_, .f32⟩
  | 64 => ⟨S256, .f32⟩
  | 65 => ⟨S_, .f32⟩
  | 66 => ⟨S256, .f32⟩
  | 67 => ⟨S256, .f32⟩
  | 68 => ⟨S_, .i32⟩
  | 69 => ⟨S_, .f32⟩
  | 70 => ⟨S256, .f32⟩
  | 71 => ⟨S1x256, .f32⟩
  | 72 => ⟨S_, .f32⟩
  | 73 => ⟨S1x256, .f32⟩
  | 74 => ⟨S1x256, .f32⟩
  | 75 => ⟨S50000x256, .f32⟩
  | 76 => ⟨S50000x256, .f32⟩
  | 77 => ⟨S50000x256, .f32⟩
  | 78 => ⟨S_, .f32⟩
  | 79 => ⟨S_, .f32⟩
  | 80 => ⟨S_, .f32⟩
  | 81 => ⟨S_, .f32⟩
  | 82 => ⟨S256, .f32⟩
  | 83 => ⟨S256, .f32⟩
  | 84 => ⟨S256, .f32⟩
  | 85 => ⟨S_, .f32⟩
  | 86 => ⟨S_, .i1⟩
  | 87 => ⟨S_, .f32⟩
  | 88 => ⟨S_, .f32⟩
  | 89 => ⟨S256, .f32⟩
  | 90 => ⟨S256, .f32⟩
  | 91 => ⟨S1x256, .f32⟩
  | 92 => ⟨S50000x256, .f32⟩
  | 93 => ⟨S50000x256, .f32⟩
  | 94 => ⟨S1x256, .f32⟩
  | 95 => ⟨S50000x256, .f32⟩
  | 96 => ⟨S50000x256, .f32⟩
  | 97 => ⟨S_, .f32⟩
  | 98 => ⟨S256, .f32⟩
  | 99 => ⟨S256, .f32⟩
  | 100 => ⟨S256, .f32⟩
  | 101 => ⟨S1x256, .f32⟩
  | 102 => ⟨S50000x256, .f32⟩
  | 103 => ⟨S50000x256, .f32⟩
  | 104 => ⟨S1x256, .f32⟩
  | 105 => ⟨S50000x256, .f32⟩
  | 106 => ⟨S50000x256, .f32⟩
  | 107 => ⟨S_, .f32⟩
  | 108 => ⟨S50000x256, .f32⟩
  | 109 => ⟨S50000x256, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_c : Ref sig .tc := ⟨.hbm, 25, rfl⟩
abbrev main_v2 : Ref sig .tc := ⟨.hbm, 26, rfl⟩
abbrev main_v3 : Ref sig .tc := ⟨.hbm, 27, rfl⟩
abbrev main_c_0 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_call0_cst : Ref sig .tc := ⟨.hbm, 35, rfl⟩
abbrev main_call0_v0 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_cst : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_cst_1 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_cst_2 : Ref sig .tc := ⟨.hbm, 53, rfl⟩
abbrev main_v24 : Ref sig .tc := ⟨.hbm, 54, rfl⟩
abbrev main_cst_3 : Ref sig .tc := ⟨.hbm, 55, rfl⟩
abbrev main_v25 : Ref sig .tc := ⟨.hbm, 56, rfl⟩
abbrev main_v26 : Ref sig .tc := ⟨.hbm, 57, rfl⟩
abbrev main_c_4 : Ref sig .tc := ⟨.hbm, 58, rfl⟩
abbrev main_call1_cst : Ref sig .tc := ⟨.hbm, 59, rfl⟩
abbrev main_call1_v0 : Ref sig .tc := ⟨.hbm, 60, rfl⟩
abbrev main_call1_v1 : Ref sig .tc := ⟨.hbm, 61, rfl⟩
abbrev main_call1_cst_0 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_call1_v5 : Ref sig .tc := ⟨.hbm, 66, rfl⟩
abbrev main_call1_v6 : Ref sig .tc := ⟨.hbm, 67, rfl⟩
abbrev main_call1_v7 : Ref sig .tc := ⟨.hbm, 68, rfl⟩
abbrev main_call1_cst_1 : Ref sig .tc := ⟨.hbm, 69, rfl⟩
abbrev main_call1_v8 : Ref sig .tc := ⟨.hbm, 70, rfl⟩
abbrev main_call1_cst_2 : Ref sig .tc := ⟨.hbm, 71, rfl⟩
abbrev main_call1_v9 : Ref sig .tc := ⟨.hbm, 72, rfl⟩
abbrev main_call1_v10 : Ref sig .tc := ⟨.hbm, 73, rfl⟩
abbrev main_call1_v11 : Ref sig .tc := ⟨.hbm, 74, rfl⟩
abbrev main_call1_cst_3 : Ref sig .tc := ⟨.hbm, 75, rfl⟩
abbrev main_call1_v12 : Ref sig .tc := ⟨.hbm, 76, rfl⟩
abbrev main_call1_cst_4 : Ref sig .tc := ⟨.hbm, 77, rfl⟩
abbrev main_call1_call0_v0 : Ref sig .tc := ⟨.hbm, 78, rfl⟩
abbrev main_call1_call0_v1 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_cst_5 : Ref sig .tc := ⟨.hbm, 87, rfl⟩
abbrev main_v34 : Ref sig .tc := ⟨.hbm, 88, rfl⟩
abbrev main_v35 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_call2_cst : Ref sig .tc := ⟨.hbm, 97, rfl⟩
abbrev main_call2_v0 : Ref sig .tc := ⟨.hbm, 98, rfl⟩
abbrev main_v43 : Ref sig .tc := ⟨.hbm, 99, rfl⟩
abbrev main_v44 : Ref sig .tc := ⟨.hbm, 100, rfl⟩
abbrev main_v45 : Ref sig .tc := ⟨.hbm, 101, rfl⟩
abbrev main_v46 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_c_6 : Ref sig .tc := ⟨.hbm, 106, rfl⟩
abbrev main_v50 : Ref sig .tc := ⟨.hbm, 107, rfl⟩
abbrev main_v51 : Ref sig .tc := ⟨.hbm, 108, rfl⟩
abbrev main_c_7 : Ref sig .tc := ⟨.hbm, 109, rfl⟩
abbrev main_v52 : Ref sig .tc := ⟨.hbm, 110, rfl⟩
abbrev main_v53 : Ref sig .tc := ⟨.hbm, 111, rfl⟩
abbrev main_v54 : Ref sig .tc := ⟨.hbm, 112, rfl⟩
abbrev main_v55 : Ref sig .tc := ⟨.hbm, 113, rfl⟩
abbrev main_v56 : Ref sig .tc := ⟨.hbm, 114, rfl⟩
abbrev main_v57 : Ref sig .tc := ⟨.hbm, 115, rfl⟩
abbrev main_call3_cst : Ref sig .tc := ⟨.hbm, 116, rfl⟩
abbrev main_call3_v0 : Ref sig .tc := ⟨.hbm, 117, rfl⟩
abbrev main_v58 : Ref sig .tc := ⟨.hbm, 118, rfl⟩
abbrev main_v59 : Ref sig .tc := ⟨.hbm, 119, rfl⟩
abbrev main_v60 : Ref sig .tc := ⟨.hbm, 120, rfl⟩
abbrev main_cst_8 : Ref sig .tc := ⟨.hbm, 121, rfl⟩
abbrev main_v61 : Ref sig .tc := ⟨.hbm, 122, rfl⟩
abbrev main_v62 : Ref sig .tc := ⟨.hbm, 123, rfl⟩
abbrev main_v63 : Ref sig .tc := ⟨.hbm, 124, rfl⟩
abbrev main_cst_9 : Ref sig .tc := ⟨.hbm, 125, rfl⟩
abbrev main_v64 : Ref sig .tc := ⟨.hbm, 126, rfl⟩
abbrev main_v65 : Ref sig .tc := ⟨.hbm, 127, rfl⟩
abbrev main_v66 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_v70 : Ref sig .tc := ⟨.hbm, 132, rfl⟩
abbrev main_v71 : Ref sig .tc := ⟨.hbm, 133, rfl⟩
abbrev main_cst_10 : Ref sig .tc := ⟨.hbm, 134, rfl⟩
abbrev main_v72 : Ref sig .tc := ⟨.hbm, 135, rfl⟩
abbrev main_cst_11 : Ref sig .tc := ⟨.hbm, 136, rfl⟩
abbrev main_v73 : Ref sig .tc := ⟨.hbm, 137, rfl⟩
abbrev main_v74 : Ref sig .tc := ⟨.hbm, 138, rfl⟩
abbrev main_c_12 : Ref sig .tc := ⟨.hbm, 139, rfl⟩
abbrev main_call4_cst : Ref sig .tc := ⟨.hbm, 140, rfl⟩
abbrev main_call4_v0 : Ref sig .tc := ⟨.hbm, 141, rfl⟩
abbrev main_call4_v1 : Ref sig .tc := ⟨.hbm, 142, rfl⟩
abbrev main_call4_cst_0 : Ref sig .tc := ⟨.hbm, 143, rfl⟩
abbrev main_call4_v2 : Ref sig .tc := ⟨.hbm, 144, rfl⟩
abbrev main_call4_v3 : Ref sig .tc := ⟨.hbm, 145, rfl⟩
abbrev main_call4_v4 : Ref sig .tc := ⟨.hbm, 146, rfl⟩
abbrev main_call4_v5 : Ref sig .tc := ⟨.hbm, 147, rfl⟩
abbrev main_call4_v6 : Ref sig .tc := ⟨.hbm, 148, rfl⟩
abbrev main_call4_v7 : Ref sig .tc := ⟨.hbm, 149, rfl⟩
abbrev main_call4_cst_1 : Ref sig .tc := ⟨.hbm, 150, rfl⟩
abbrev main_call4_v8 : Ref sig .tc := ⟨.hbm, 151, rfl⟩
abbrev main_call4_cst_2 : Ref sig .tc := ⟨.hbm, 152, rfl⟩
abbrev main_call4_v9 : Ref sig .tc := ⟨.hbm, 153, rfl⟩
abbrev main_call4_v10 : Ref sig .tc := ⟨.hbm, 154, rfl⟩
abbrev main_call4_v11 : Ref sig .tc := ⟨.hbm, 155, rfl⟩
abbrev main_call4_cst_3 : Ref sig .tc := ⟨.hbm, 156, rfl⟩
abbrev main_call4_v12 : Ref sig .tc := ⟨.hbm, 157, rfl⟩
abbrev main_call4_cst_4 : Ref sig .tc := ⟨.hbm, 158, rfl⟩
abbrev main_call4_call0_v0 : Ref sig .tc := ⟨.hbm, 159, rfl⟩
abbrev main_call4_call0_v1 : Ref sig .tc := ⟨.hbm, 160, rfl⟩
abbrev main_v75 : Ref sig .tc := ⟨.hbm, 161, rfl⟩
abbrev main_v76 : Ref sig .tc := ⟨.hbm, 162, rfl⟩
abbrev main_v77 : Ref sig .tc := ⟨.hbm, 163, rfl⟩
abbrev main_v78 : Ref sig .tc := ⟨.hbm, 164, rfl⟩
abbrev main_v79 : Ref sig .tc := ⟨.hbm, 165, rfl⟩
abbrev main_v80 : Ref sig .tc := ⟨.hbm, 166, rfl⟩
abbrev main_v81 : Ref sig .tc := ⟨.hbm, 167, rfl⟩
abbrev main_cst_13 : Ref sig .tc := ⟨.hbm, 168, rfl⟩
abbrev main_v82 : Ref sig .tc := ⟨.hbm, 169, rfl⟩
abbrev main_v83 : Ref sig .tc := ⟨.hbm, 170, rfl⟩
abbrev main_v84 : Ref sig .tc := ⟨.hbm, 171, rfl⟩
abbrev main_v85 : Ref sig .tc := ⟨.hbm, 172, rfl⟩
abbrev main_v86 : Ref sig .tc := ⟨.hbm, 173, rfl⟩
abbrev main_v87 : Ref sig .tc := ⟨.hbm, 174, rfl⟩
abbrev main_v88 : Ref sig .tc := ⟨.hbm, 175, rfl⟩
abbrev main_v89 : Ref sig .tc := ⟨.hbm, 176, rfl⟩
abbrev main_v90 : Ref sig .tc := ⟨.hbm, 177, rfl⟩
abbrev main_call5_cst : Ref sig .tc := ⟨.hbm, 178, rfl⟩
abbrev main_call5_v0 : Ref sig .tc := ⟨.hbm, 179, rfl⟩
abbrev main_v91 : Ref sig .tc := ⟨.hbm, 180, rfl⟩
abbrev main_v92 : Ref sig .tc := ⟨.hbm, 181, rfl⟩
abbrev main_v93 : Ref sig .tc := ⟨.hbm, 182, rfl⟩
abbrev main_v94 : Ref sig .tc := ⟨.hbm, 183, rfl⟩
abbrev main_v95 : Ref sig .tc := ⟨.hbm, 184, rfl⟩
abbrev main_v96 : Ref sig .tc := ⟨.hbm, 185, rfl⟩
abbrev main_v97 : Ref sig .tc := ⟨.hbm, 186, rfl⟩
abbrev main_v98 : Ref sig .tc := ⟨.hbm, 187, rfl⟩
abbrev main_v99 : Ref sig .tc := ⟨.hbm, 188, rfl⟩
abbrev main_v100 : Ref sig .tc := ⟨.hbm, 189, rfl⟩
abbrev main_v101 : Ref sig .tc := ⟨.hbm, 190, rfl⟩
abbrev main_cst_14 : Ref sig .tc := ⟨.hbm, 191, rfl⟩
abbrev main_v102 : Ref sig .tc := ⟨.hbm, 192, rfl⟩
abbrev main_cst_15 : Ref sig .tc := ⟨.hbm, 193, rfl⟩
abbrev main_v103 : Ref sig .tc := ⟨.hbm, 194, rfl⟩
abbrev main_v104 : Ref sig .tc := ⟨.hbm, 195, rfl⟩
abbrev main_c_16 : Ref sig .tc := ⟨.hbm, 196, rfl⟩
abbrev main_call6_cst : Ref sig .tc := ⟨.hbm, 197, rfl⟩
abbrev main_call6_v0 : Ref sig .tc := ⟨.hbm, 198, rfl⟩
abbrev main_call6_v1 : Ref sig .tc := ⟨.hbm, 199, rfl⟩
abbrev main_call6_cst_0 : Ref sig .tc := ⟨.hbm, 200, rfl⟩
abbrev main_call6_v2 : Ref sig .tc := ⟨.hbm, 201, rfl⟩
abbrev main_call6_v3 : Ref sig .tc := ⟨.hbm, 202, rfl⟩
abbrev main_call6_v4 : Ref sig .tc := ⟨.hbm, 203, rfl⟩
abbrev main_call6_v5 : Ref sig .tc := ⟨.hbm, 204, rfl⟩
abbrev main_call6_v6 : Ref sig .tc := ⟨.hbm, 205, rfl⟩
abbrev main_call6_v7 : Ref sig .tc := ⟨.hbm, 206, rfl⟩
abbrev main_call6_cst_1 : Ref sig .tc := ⟨.hbm, 207, rfl⟩
abbrev main_call6_v8 : Ref sig .tc := ⟨.hbm, 208, rfl⟩
abbrev main_call6_cst_2 : Ref sig .tc := ⟨.hbm, 209, rfl⟩
abbrev main_call6_v9 : Ref sig .tc := ⟨.hbm, 210, rfl⟩
abbrev main_call6_v10 : Ref sig .tc := ⟨.hbm, 211, rfl⟩
abbrev main_call6_v11 : Ref sig .tc := ⟨.hbm, 212, rfl⟩
abbrev main_call6_cst_3 : Ref sig .tc := ⟨.hbm, 213, rfl⟩
abbrev main_call6_v12 : Ref sig .tc := ⟨.hbm, 214, rfl⟩
abbrev main_call6_cst_4 : Ref sig .tc := ⟨.hbm, 215, rfl⟩
abbrev main_call6_call0_v0 : Ref sig .tc := ⟨.hbm, 216, rfl⟩
abbrev main_call6_call0_v1 : Ref sig .tc := ⟨.hbm, 217, rfl⟩
abbrev main_v105 : Ref sig .tc := ⟨.hbm, 218, rfl⟩
abbrev main_v106 : Ref sig .tc := ⟨.hbm, 219, rfl⟩
abbrev main_v107 : Ref sig .tc := ⟨.hbm, 220, rfl⟩
abbrev main_v108 : Ref sig .tc := ⟨.hbm, 221, rfl⟩
abbrev main_v109 : Ref sig .tc := ⟨.hbm, 222, rfl⟩
abbrev main_v110 : Ref sig .tc := ⟨.hbm, 223, rfl⟩
abbrev main_v111 : Ref sig .tc := ⟨.hbm, 224, rfl⟩
abbrev main_cst_17 : Ref sig .tc := ⟨.hbm, 225, rfl⟩
abbrev main_v112 : Ref sig .tc := ⟨.hbm, 226, rfl⟩
abbrev main_v113 : Ref sig .tc := ⟨.hbm, 227, rfl⟩
abbrev main_v114 : Ref sig .tc := ⟨.hbm, 228, rfl⟩
abbrev main_v115 : Ref sig .tc := ⟨.hbm, 229, rfl⟩
abbrev main_v116 : Ref sig .tc := ⟨.hbm, 230, rfl⟩
abbrev main_v117 : Ref sig .tc := ⟨.hbm, 231, rfl⟩
abbrev main_v118 : Ref sig .tc := ⟨.hbm, 232, rfl⟩
abbrev main_v119 : Ref sig .tc := ⟨.hbm, 233, rfl⟩
abbrev main_v120 : Ref sig .tc := ⟨.hbm, 234, rfl⟩
abbrev main_call7_cst : Ref sig .tc := ⟨.hbm, 235, rfl⟩
abbrev main_call7_v0 : Ref sig .tc := ⟨.hbm, 236, rfl⟩
abbrev main_v121 : Ref sig .tc := ⟨.hbm, 237, rfl⟩

abbrev nD : Nat := 1
abbrev τ : Topo := Topo.v7x

variable {F : FTy → Type} [FloatOps F]

class Facts₀ : Prop where
  slices_S2x300000_S1x300000_0_0 : S2x300000.Slices ![0, 0] S1x300000
  shapeCasts_S1x300000_S300000 : S1x300000.ShapeCasts S300000
  bcast_S_S300000 : S_.BroadcastsInDim S300000 (![] : Fin 0 → Fin S300000.rank)
  bcast_S300000_S300000x1_0 : S300000.BroadcastsInDim S300000x1 (![0] : Fin 1 → Fin S300000x1.rank)
  bcast_S_S300000x256 : S_.BroadcastsInDim S300000x256 (![] : Fin 0 → Fin S300000x256.rank)
  slices_S2x300000_S1x300000_1_0 : S2x300000.Slices ![1, 0] S1x300000
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S256_d0 : S50000x256.ReducesTo [0] S256
  h_S_ : 0 < S_.numel
  bcast_S_S256 : S_.BroadcastsInDim S256 (![] : Fin 0 → Fin S256.rank)
  bcast_S_S1x256 : S_.BroadcastsInDim S1x256 (![] : Fin 0 → Fin S1x256.rank)
  slices_S2x100000_S1x100000_0_0 : S2x100000.Slices ![0, 0] S1x100000
  shapeCasts_S1x100000_S100000 : S1x100000.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  bcast_S_S100000x256 : S_.BroadcastsInDim S100000x256 (![] : Fin 0 → Fin S100000x256.rank)
  slices_S2x100000_S1x100000_1_0 : S2x100000.Slices ![1, 0] S1x100000
  gather_S50000x256_S300000x1_S300000x256_1_0_n_n_0_1_1256_wf : GatherDims.WF S50000x256 S300000x1 S300000x256 [1] [0] [] [0] [] 1 ![1, 256]
  scatter_S50000x256_S300000x1_S300000x256_1_0_0_1_wf : ScatterDims.WF S50000x256 S300000x1 S300000x256 [1] [0] [0] 1
  dot_S50000x256_S256x256_S50000x256_1_0_0_1_n_n_wf : DotDims.WF S50000x256 S256x256 S50000x256 [1] [0] [0] [1] [] []
  gather_S50000x256_S100000x1_S100000x256_1_0_n_n_0_1_1256_wf : GatherDims.WF S50000x256 S100000x1 S100000x256 [1] [0] [] [0] [] 1 ![1, 256]
  scatter_S50000x256_S100000x1_S100000x256_1_0_0_1_wf : ScatterDims.WF S50000x256 S100000x1 S100000x256 [1] [0] [0] 1

variable [Facts₀]

def gather_S50000x256_S300000x1_S300000x256_1_0_n_n_0_1_1256 : GatherDims S50000x256 S300000x1 S300000x256 where
  offsetDims := [1]
  collapsedSliceDims := [0]
  operandBatchingDims := []
  startIndicesBatchingDims := []
  startIndexMap := [0]
  indexVectorDim := 1
  sliceSizes := ![1, 256]
  wf := gather_S50000x256_S300000x1_S300000x256_1_0_n_n_0_1_1256_wf
def scatter_S50000x256_S300000x1_S300000x256_1_0_0_1 : ScatterDims S50000x256 S300000x1 S300000x256 where
  updateWindowDims := [1]
  insertedWindowDims := [0]
  scatterDimsToOperandDims := [0]
  indexVectorDim := 1
  wf := scatter_S50000x256_S300000x1_S300000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S100000x1_S100000x256_1_0_n_n_0_1_1256 : GatherDims S50000x256 S100000x1 S100000x256 where
  offsetDims := [1]
  collapsedSliceDims := [0]
  operandBatchingDims := []
  startIndicesBatchingDims := []
  startIndexMap := [0]
  indexVectorDim := 1
  sliceSizes := ![1, 256]
  wf := gather_S50000x256_S100000x1_S100000x256_1_0_n_n_0_1_1256_wf
def scatter_S50000x256_S100000x1_S100000x256_1_0_0_1 : ScatterDims S50000x256 S100000x1 S100000x256 where
  updateWindowDims := [1]
  insertedWindowDims := [0]
  scatterDimsToOperandDims := [0]
  indexVectorDim := 1
  wf := scatter_S50000x256_S100000x1_S100000x256_1_0_0_1_wf

class Facts : Prop extends Facts₀ where

variable [Facts]
-- ==== Proof.KI.AggrK.lean ====
import proofs.«422945_j10866267259114_2_alg».proof.KernelIdeal

noncomputable section

namespace Cert.KernelIdeal.Hand

open Cert.KernelIdeal
open Idealize.ShloMosaic

variable {F : FTy → Type} [FloatOps F] [Facts₀]
open Facts₀

def takeK300 (x : FVec F S50000x256 .f32) (idx : IVec S300000 32) : FVec F S300000x256 .f32 :=
  let c : IVec S_ 32 := constantI S_ 32 0#32
  let v0 : IVec S300000 32 := broadcastInDim S300000 ![] bcast_S_S300000 c
  let v1 : IVec S300000 1 := cmpi .slt idx v0
  let c_0 : IVec S_ 32 := constantI S_ 32 50000#32
  let v2 : IVec S300000 32 := broadcastInDim S300000 ![] bcast_S_S300000 c_0
  let v3 : IVec S300000 32 := addi idx v2
  let v4 : IVec S300000 32 := select v1 v3 idx
  let v5 : IVec S300000x1 32 := broadcastInDim S300000x1 ![0] bcast_S300000_S300000x1_0 v4
  let c_1 : IVec S1 32 := constantI S1 32 49999#32
  let c_2 : IVec S_ 32 := constantI S_ 32 0#32
  let v6 : IVec S300000x1 32 := broadcastInDim S300000x1 ![] bcast_S_S300000x1 c_2
  let v7 : IVec S300000x1 1 := cmpi .sge v5 v6
  let v8 : IVec S1x1 32 := broadcastInDim S1x1 ![1] bcast_S1_S1x1_1 c_1
  let v9 : IVec S300000x1 32 := broadcastInDim S300000x1 ![0, 1] bcast_S1x1_S300000x1_0_1 v8
  let v10 : IVec S300000x1 1 := cmpi .sle v5 v9
  let v11 : IVec S300000x1 1 := andi v7 v10
  let c_3 : IVec S_ 1 := constantI S_ 1 1#1
  let v12 : IVec S300000 1 := Host.reduce IntOp.andi v11 c_3 reducesTo_S300000x1_S300000_d1 h_S_
  let v13 : FVec F S300000x256 .f32 := Host.gather gather_S50000x256_S300000x1_S300000x256_1_0_n_n_0_1_1256 x v5
  let v14 : IVec S300000x256 1 := broadcastInDim S300000x256 ![0] bcast_S300000_S300000x256_0 v12
  let cst : FVec F S_ .f32 := constant S_ .f32 0x7FC00000#32
  let v15 : FVec F S300000x256 .f32 := broadcastInDim S300000x256 ![] bcast_S_S300000x256 cst
  select v14 v13 v15

def takeK100 (x : FVec F S50000x256 .f32) (idx : IVec S100000 32) : FVec F S100000x256 .f32 :=
  let c : IVec S_ 32 := constantI S_ 32 0#32
  let v0 : IVec S100000 32 := broadcastInDim S100000 ![] bcast_S_S100000 c
  let v1 : IVec S100000 1 := cmpi .slt idx v0
  let c_0 : IVec S_ 32 := constantI S_ 32 50000#32
  let v2 : IVec S100000 32 := broadcastInDim S100000 ![] bcast_S_S100000 c_0
  let v3 : IVec S100000 32 := addi idx v2
  let v4 : IVec S100000 32 := select v1 v3 idx
  let v5 : IVec S100000x1 32 := broadcastInDim S100000x1 ![0] bcast_S100000_S100000x1_0 v4
  let c_1 : IVec S1 32 := constantI S1 32 49999#32
  let c_2 : IVec S_ 32 := constantI S_ 32 0#32
  let v6 : IVec S100000x1 32 := broadcastInDim S100000x1 ![] bcast_S_S100000x1 c_2
  let v7 : IVec S100000x1 1 := cmpi .sge v5 v6
  let v8 : IVec S1x1 32 := broadcastInDim S1x1 ![1] bcast_S1_S1x1_1 c_1
  let v9 : IVec S100000x1 32 := broadcastInDim S100000x1 ![0, 1] bcast_S1x1_S100000x1_0_1 v8
  let v10 : IVec S100000x1 1 := cmpi .sle v5 v9
  let v11 : IVec S100000x1 1 := andi v7 v10
  let c_3 : IVec S_ 1 := constantI S_ 1 1#1
  let v12 : IVec S100000 1 := Host.reduce IntOp.andi v11 c_3 reducesTo_S100000x1_S100000_d1 h_S_
  let v13 : FVec F S100000x256 .f32 := Host.gather gather_S50000x256_S100000x1_S100000x256_1_0_n_n_0_1_1256 x v5
  let v14 : IVec S100000x256 1 := broadcastInDim S100000x256 ![0] bcast_S100000_S100000x256_0 v12
  let cst : FVec F S_ .f32 := constant S_ .f32 0x7FC00000#32
  let v15 : FVec F S100000x256 .f32 := broadcastInDim S100000x256 ![] bcast_S_S100000x256 cst
  select v14 v13 v15

def aggrK300 (x : FVec F S50000x256 .f32) (ei : IVec S2x300000 32) (ea : FVec F S300000x256 .f32) : FVec F S50000x256 .f32 :=
  let s0 : IVec S1x300000 32 := extractStridedSlice S1x300000 ![0, 0] ei slices_S2x300000_S1x300000_0_0
  let src : IVec S300000 32 := fun i => shapeCast S300000 s0 shapeCasts_S1x300000_S300000 i
  let g : FVec F S300000x256 .f32 := takeK300 x src
  let m : FVec F S300000x256 .f32 := addf g ea
  let zc : FVec F S_ .f32 := constant S_ .f32 0x00000000#32
  let z : FVec F S300000x256 .f32 := broadcastInDim S300000x256 ![] bcast_S_S300000x256 zc
  let r : FVec F S300000x256 .f32 := maximumf m z
  let s1 : IVec S1x300000 32 := extractStridedSlice S1x300000 ![1, 0] ei slices_S2x300000_S1x300000_1_0
  let dst : IVec S300000 32 := fun i => shapeCast S300000 s1 shapeCasts_S1x300000_S300000 i
  let oc : FVec F S_ .f32 := constant S_ .f32 0x00000000#32
  let o : FVec F S50000x256 .f32 := broadcastInDim S50000x256 ![] bcast_S_S50000x256 oc
  let col : IVec S300000x1 32 := broadcastInDim S300000x1 ![0] bcast_S300000_S300000x1_0 dst
  Host.scatterAdd scatter_S50000x256_S300000x1_S300000x256_1_0_0_1 o col r

def aggrK100 (x : FVec F S50000x256 .f32) (ei : IVec S2x100000 32) (ea : FVec F S100000x256 .f32) : FVec F S50000x256 .f32 :=
  let s0 : IVec S1x100000 32 := extractStridedSlice S1x100000 ![0, 0] ei slices_S2x100000_S1x100000_0_0
  let src : IVec S100000 32 := fun i => shapeCast S100000 s0 shapeCasts_S1x100000_S100000 i
  let g : FVec F S100000x256 .f32 := takeK100 x src
  let m : FVec F S100000x256 .f32 := addf g ea
  let zc : FVec F S_ .f32 := constant S_ .f32 0x00000000#32
  let z : FVec F S100000x256 .f32 := broadcastInDim S100000x256 ![] bcast_S_S100000x256 zc
  let r : FVec F S100000x256 .f32 := maximumf m z
  let s1 : IVec S1x100000 32 := extractStridedSlice S1x100000 ![1, 0] ei slices_S2x100000_S1x100000_1_0
  let dst : IVec S100000 32 := fun i => shapeCast S100000 s1 shapeCasts_S1x100000_S100000 i
  let oc : FVec F S_ .f32 := constant S_ .f32 0x00000000#32
  let o : FVec F S50000x256 .f32 := broadcastInDim S50000x256 ![] bcast_S_S50000x256 oc
  let col : IVec S100000x1 32 := broadcastInDim S100000x1 ![0] bcast_S100000_S100000x1_0 dst
  Host.scatterAdd scatter_S50000x256_S100000x1_S100000x256_1_0_0_1 o col r

end Cert.KernelIdeal.Hand

end
-- ==== Proof.RI.AggrR.lean ====
import proofs.«422945_j10866267259114_2_alg».proof.ReferenceIdeal

noncomputable section

namespace Cert.ReferenceIdeal.Hand

open Cert.ReferenceIdeal
open Idealize.ShloMosaic

variable {F : FTy → Type} [FloatOps F] [Facts₀]
open Facts₀

def aggrR300 (x : FVec F S50000x256 .f32) (ei : IVec S2x300000 32) (ea : FVec F S300000x256 .f32) : FVec F S50000x256 .f32 :=
  let s0 : IVec S1x300000 32 := extractStridedSlice S1x300000 ![0, 0] ei slices_S2x300000_S1x300000_0_0
  let src : IVec S300000 32 := fun i => shapeCast S300000 s0 shapeCasts_S1x300000_S300000 i
  let c : IVec S_ 32 := constantI S_ 32 0#32
  let v0 : IVec S300000 32 := broadcastInDim S300000 ![] bcast_S_S300000 c
  let v1 : IVec S300000 1 := cmpi .slt src v0
  let c_0 : IVec S_ 32 := constantI S_ 32 50000#32
  let v2 : IVec S300000 32 := broadcastInDim S300000 ![] bcast_S_S300000 c_0
  let v3 : IVec S300000 32 := addi src v2
  let v4 : IVec S300000 32 := select v1 v3 src
  let v5 : IVec S300000x1 32 := broadcastInDim S300000x1 ![0] bcast_S300000_S300000x1_0 v4
  let g : FVec F S300000x256 .f32 := Host.gather gather_S50000x256_S300000x1_S300000x256_1_0_n_n_0_1_1256 x v5
  let m : FVec F S300000x256 .f32 := addf g ea
  let zc : FVec F S_ .f32 := constant S_ .f32 0x00000000#32
  let z : FVec F S300000x256 .f32 := broadcastInDim S300000x256 ![] bcast_S_S300000x256 zc
  let r : FVec F S300000x256 .f32 := maximumf m z
  let s1 : IVec S1x300000 32 := extractStridedSlice S1x300000 ![1, 0] ei slices_S2x300000_S1x300000_1_0
  let dst : IVec S300000 32 := fun i => shapeCast S300000 s1 shapeCasts_S1x300000_S300000 i
  let oc : FVec F S_ .f32 := constant S_ .f32 0x00000000#32
  let o : FVec F S50000x256 .f32 := broadcastInDim S50000x256 ![] bcast_S_S50000x256 oc
  let col : IVec S300000x1 32 := broadcastInDim S300000x1 ![0] bcast_S300000_S300000x1_0 dst
  Host.scatterAdd scatter_S50000x256_S300000x1_S300000x256_1_0_0_1 o col r

def aggrR100 (x : FVec F S50000x256 .f32) (ei : IVec S2x100000 32) (ea : FVec F S100000x256 .f32) : FVec F S50000x256 .f32 :=
  let s0 : IVec S1x100000 32 := extractStridedSlice S1x100000 ![0, 0] ei slices_S2x100000_S1x100000_0_0
  let src : IVec S100000 32 := fun i => shapeCast S100000 s0 shapeCasts_S1x100000_S100000 i
  let c : IVec S_ 32 := constantI S_ 32 0#32
  let v0 : IVec S100000 32 := broadcastInDim S100000 ![] bcast_S_S100000 c
  let v1 : IVec S100000 1 := cmpi .slt src v0
  let c_0 : IVec S_ 32 := constantI S_ 32 50000#32
  let v2 : IVec S100000 32 := broadcastInDim S100000 ![] bcast_S_S100000 c_0
  let v3 : IVec S100000 32 := addi src v2
  let v4 : IVec S100000 32 := select v1 v3 src
  let v5 : IVec S100000x1 32 := broadcastInDim S100000x1 ![0] bcast_S100000_S100000x1_0 v4
  let g : FVec F S100000x256 .f32 := Host.gather gather_S50000x256_S100000x1_S100000x256_1_0_n_n_0_1_1256 x v5
  let m : FVec F S100000x256 .f32 := addf g ea
  let zc : FVec F S_ .f32 := constant S_ .f32 0x00000000#32
  let z : FVec F S100000x256 .f32 := broadcastInDim S100000x256 ![] bcast_S_S100000x256 zc
  let r : FVec F S100000x256 .f32 := maximumf m z
  let s1 : IVec S1x100000 32 := extractStridedSlice S1x100000 ![1, 0] ei slices_S2x100000_S1x100000_1_0
  let dst : IVec S100000 32 := fun i => shapeCast S100000 s1 shapeCasts_S1x100000_S100000 i
  let oc : FVec F S_ .f32 := constant S_ .f32 0x00000000#32
  let o : FVec F S50000x256 .f32 := broadcastInDim S50000x256 ![] bcast_S_S50000x256 oc
  let col : IVec S100000x1 32 := broadcastInDim S100000x1 ![0] bcast_S100000_S100000x1_0 dst
  Host.scatterAdd scatter_S50000x256_S100000x1_S100000x256_1_0_0_1 o col r

end Cert.ReferenceIdeal.Hand

end
-- ==== Proof.RI.OpsTable.lean ====
/- A table, no argument: the 215 host operations of the reference program's @main, in order, in 5 consecutive lists, each operation
   spelled as its statement in the program spells it, a called function's operations written at the call over the call's
   arguments and buffer record. A list ends with the statement that writes main_v15, main_v47, main_v63, main_v95 (the last list with @main's last).
   The program prints @main in windows: main_part0 ends with the first 4 of opsC (of 21); main_part1 ends with the first 8 of opsE (of 53); main_part2 ends with the first 53 of opsE (of 53).
   Beside each list, the references its operations write, one per operation, in order. -/
import proofs.«422945_j10866267259114_2_alg».proof.ReferenceIdeal
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo
open Facts₀ Facts

variable {F : FTy → Type} [FloatOps F] [Facts]

/-- Operations 1 … 21 of 215: up to the statement that writes main_v15. -/
abbrev opsA : List (HloOp τ sig (Elt F)) :=
  [ StableHlo.unary main_arg1 main_v0 ((extractStridedSlice S1x300000 ![0, 0] · slices_S2x300000_S1x300000_0_0) : (⟨S2x300000, .i32⟩ : BufTy).Contents (Elt F) → (⟨S1x300000, .i32⟩ : BufTy).Contents (Elt F)),
    StableHlo.reshape main_v0 main_v1 rfl shapeCasts_S1x300000_S300000,
    StableHlo.nullary main_c (constantI S_ 32 0#32),
    StableHlo.unary main_c main_v2 (broadcastInDim S300000 ![] bcast_S_S300000 : (⟨S_, .i32⟩ : BufTy).Contents (Elt F) → (⟨S300000, .i32⟩ : BufTy).Contents (Elt F)),
    StableHlo.binary main_v1 main_v2 main_v3 (cmpi .slt : (⟨S300000, .i32⟩ : BufTy).Contents (Elt F) → (⟨S300000, .i32⟩ : BufTy).Contents (Elt F) → (⟨S300000, .i1⟩ : BufTy).Contents (Elt F)),
    StableHlo.nullary main_c_0 (constantI S_ 32 50000#32),
    StableHlo.unary main_c_0 main_v4 (broadcastInDim S300000 ![] bcast_S_S300000 : (⟨S_, .i32⟩ : BufTy).Contents (Elt F) → (⟨S300000, .i32⟩ : BufTy).Contents (Elt F)),
    StableHlo.binary main_v1 main_v4 main_v5 (addi : (⟨S300000, .i32⟩ : BufTy).Contents (Elt F) → (⟨S300000, .i32⟩ : BufTy).Contents (Elt F) → (⟨S300000, .i32⟩ : BufTy).Contents (Elt F)),
    StableHlo.ternary main_v3 main_v5 main_v1 main_v6 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v6 main_v7 (broadcastInDim S300000x1 ![0] bcast_S300000_S300000x1_0 : (⟨S300000, .i32⟩ : BufTy).Contents (Elt F) → (⟨S300000x1, .i32⟩ : BufTy).Contents (Elt F)),
    StableHlo.binary main_arg0 main_v7 main_v8 ((fun x i => Host.gather gather_S50000x256_S300000x1_S300000x256_1_0_n_n_0_1_1256 x i) : (⟨S50000x256, .f32⟩ : BufTy).Contents (Elt F) → (⟨S300000x1, .i32⟩ : BufTy).Contents (Elt F) → (⟨S300000x256, .f32⟩ : BufTy).Contents (Elt F)),
    StableHlo.binary main_v8 main_arg2 main_v9 (addf : (⟨S300000x256, .f32⟩ : BufTy).Contents (Elt F) → (⟨S300000x256, .f32⟩ : BufTy).Contents (Elt F) → (⟨S300000x256, .f32⟩ : BufTy).Contents (Elt F)),
    StableHlo.TRef.nullary main_call0.cst (constant S_ .f32 0x00000000#32),
    StableHlo.TRef.unary main_call0.cst main_call0.v0 (broadcastInDim S300000x256 ![] bcast_S_S300000x256),
    StableHlo.TRef.binary (.of main_v9 : StableHlo.TRef sig ⟨S300000x256, .f32⟩) main_call0.v0 main_call0.v1 maximumf,
    StableHlo.unary main_arg1 main_v11 ((extractStridedSlice S1x300000 ![1, 0] · slices_S2x300000_S1x300000_1_0) : (⟨S2x300000, .i32⟩ : BufTy).Contents (Elt F) → (⟨S1x300000, .i32⟩ : BufTy).Contents (Elt F)),
    StableHlo.reshape main_v11 main_v12 rfl shapeCasts_S1x300000_S300000,
    StableHlo.nullary main_cst (constant S_ .f32 0x00000000#32),
    StableHlo.unary main_cst main_v13 (broadcastInDim S50000x256 ![] bcast_S_S50000x256 : (⟨S_, .f32⟩ : BufTy).Contents (Elt F) → (⟨S50000x256, .f32⟩ : BufTy).Contents (Elt F)),
    StableHlo.unary main_v12 main_v14 (broadcastInDim S300000x1 ![0] bcast_S300000_S300000x1_0 : (⟨S300000, .i32⟩ : BufTy).Contents (Elt F) → (⟨S300000x1, .i32⟩ : BufTy).Contents (Elt F)),
    StableHlo.ternary main_v13 main_v14 main_v10 main_v15 ((fun x i u => Host.scatterAdd scatter_S50000x256_S300000x1_S300000x256_1_0_0_1 x i u) : (⟨S50000x256, .f32⟩ : BufTy).Contents (Elt F) → (⟨S300000x1, .i32⟩ : BufTy).Contents (Elt F) → (⟨S300000x256, .f32⟩ : BufTy).Contents (Elt F) → (⟨S50000x256, .f32⟩ : BufTy).Contents (Elt F)) ]

/-- The references `opsA`'s operations write. -/
abbrev opsA_W : List (Ref sig .tc) :=
  [main_v0, main_v1, main_c, main_v2, main_v3, main_c_0, main_v4, main_v5, main_v6, main_v7, main_v8, main_v9, main_call0_cst, main_call0_v0, main_v10, main_v11, main_v12, main_cst, main_v13, main_v14, main_v15]

/-- Operations 22 … 81 of 215: up to the statement that writes main_v47. -/
abbrev opsB : List (HloOp τ sig (Elt F)) :=
  [ StableHlo.nullary main_cst_1 (constant S_ .f32 0x3F800000#32),
    StableHlo.binary main_cst_1 main_arg5 main_v16 (addf : (⟨S_, .f32⟩ : BufTy).Contents (Elt F) → (⟨S_, .f32⟩ : BufTy).Contents (Elt F) → (⟨S_, .f32⟩ : BufTy).Contents (Elt F)),
    StableHlo.unary main_v16 main_v17 (broadcastInDim S50000x256 ![] bcast_S_S50000x256 : (⟨S_, .f32⟩ : BufTy).Contents (Elt F) → (⟨S50000x256, .f32⟩ : BufTy).Contents (Elt F)),
    StableHlo.binary main_v17 main_arg0 main_v18 (mulf : (⟨S50000x256, .f32⟩ : BufTy).Contents (Elt F) → (⟨S50000x256, .f32⟩ : BufTy).Contents (Elt F) → (⟨S50000x256, .f32⟩ : BufTy).Contents (Elt F)),
    StableHlo.binary main_v18 main_v15 main_v19 (addf : (⟨S50000x256, .f32⟩ : BufTy).Contents (Elt F) → (⟨S50000x256, .f32⟩ : BufTy).Contents (Elt F) → (⟨S50000x256, .f32⟩ : BufTy).Contents (Elt F)),
    StableHlo.binary main_v19 main_arg6 main_v20 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg7 main_v21 (broadcastInDim S1x256 ![1] bcast_S256_S1x256_1 : (⟨S256, .f32⟩ : BufTy).Contents (Elt F) → (⟨S1x256, .f32⟩ : BufTy).Contents (Elt F)),
    StableHlo.unary main_v21 main_v22 (broadcastInDim S50000x256 ![0, 1] bcast_S1x256_S50000x256_0_1 : (⟨S1x256, .f32⟩ : BufTy).Contents (Elt F) → (⟨S50000x256, .f32⟩ : BufTy).Contents (Elt F)),
    StableHlo.binary main_v20 main_v22 main_v23 (addf : (⟨S50000x256, .f32⟩ : BufTy).Contents (Elt F) → (⟨S50000x256, .f32⟩ : BufTy).Contents (Elt F) → (⟨S50000x256, .f32⟩ : BufTy).Contents (Elt F)),
    StableHlo.nullary main_cst_2 (constant S_ .f32 0x00000000#32),
    StableHlo.binary main_v23 main_cst_2 main_v24 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_3 (constant S_ .f32 0x47435000#32),
    StableHlo.unary main_cst_3 main_v25 (broadcastInDim S256 ![] bcast_S_S256 : (⟨S_, .f32⟩ : BufTy).Contents (Elt F) → (⟨S256, .f32⟩ : BufTy).Contents (Elt F)),
    StableHlo.binary main_v24 main_v25 main_v26 (Host.divf : (⟨S256, .f32⟩ : BufTy).Contents (Elt F) → (⟨S256, .f32⟩ : BufTy).Contents (Elt F) → (⟨S256, .f32⟩ : BufTy).Contents (Elt F)),
    StableHlo.nullary main_c_4 (constantI S_ 32 0#32),
    StableHlo.TRef.nullary main_call1.cst (constant S_ .f32 0x00000000#32),
    StableHlo.TRef.binary (.of main_v23 : StableHlo.TRef sig ⟨S50000x256, .f32⟩) main_call1.cst main_call1.v0 (fun x v => Host.reduceAdd x v reducesTo_S50000x256_S256_d0 h_S_),
    StableHlo.TRef.unary main_call1.v0 main_call1.v1 (broadcastInDim S1x256 ![1] bcast_S256_S1x256_1),
    StableHlo.TRef.nullary main_call1.cst_0 (constant S_ .f32 0x47435000#32),
    StableHlo.TRef.unary main_call1.cst_0 main_call1.v2 (broadcastInDim S1x256 ![] bcast_S_S1x256),
    StableHlo.TRef.binary main_call1.v1 main_call1.v2 main_call1.v3 Host.divf,
    StableHlo.TRef.unary main_call1.v3 main_call1.v4 (broadcastInDim S50000x256 ![0, 1] bcast_S1x256_S50000x256_0_1),
    StableHlo.TRef.binary (.of main_v23 : StableHlo.TRef sig ⟨S50000x256, .f32⟩) main_call1.v4 main_call1.v5 subf,
    StableHlo.TRef.binary main_call1.v5 main_call1.v5 main_call1.v6 mulf,
    StableHlo.TRef.unary (.of main_c_4 : StableHlo.TRef sig ⟨S_, .i32⟩) main_call1.v7 (sitofp .f32),
    StableHlo.TRef.nullary main_call1.cst_1 (constant S_ .f32 0x47435000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S50000x256_S256_d0 h_S_),
    StableHlo.TRef.unary main_call1.v8 main_call1.v10 (broadcastInDim S256 ![] bcast_S_S256),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S256 ![] bcast_S_S256),
    StableHlo.TRef.ternary main_call1.v12 main_call1.v11 main_call1.call0.v1 main_call1.call0.v2 (fun p a b => select (broadcastInDim S256 ![] bcast_S_S256 p) a b),
    StableHlo.unary main_v26 main_v28 (broadcastInDim S1x256 ![1] bcast_S256_S1x256_1 : (⟨S256, .f32⟩ : BufTy).Contents (Elt F) → (⟨S1x256, .f32⟩ : BufTy).Contents (Elt F)),
    StableHlo.unary main_v28 main_v29 (broadcastInDim S50000x256 ![0, 1] bcast_S1x256_S50000x256_0_1 : (⟨S1x256, .f32⟩ : BufTy).Contents (Elt F) → (⟨S50000x256, .f32⟩ : BufTy).Contents (Elt F)),
    StableHlo.binary main_v23 main_v29 main_v30 (subf : (⟨S50000x256, .f32⟩ : BufTy).Contents (Elt F) → (⟨S50000x256, .f32⟩ : BufTy).Contents (Elt F) → (⟨S50000x256, .f32⟩ : BufTy).Contents (Elt F)),
    StableHlo.unary main_arg8 main_v31 (broadcastInDim S1x256 ![1] bcast_S256_S1x256_1 : (⟨S256, .f32⟩ : BufTy).Contents (Elt F) → (⟨S1x256, .f32⟩ : BufTy).Contents (Elt F)),
    StableHlo.unary main_v31 main_v32 (broadcastInDim S50000x256 ![0, 1] bcast_S1x256_S50000x256_0_1 : (⟨S1x256, .f32⟩ : BufTy).Contents (Elt F) → (⟨S50000x256, .f32⟩ : BufTy).Contents (Elt F)),
    StableHlo.binary main_v32 main_v30 main_v33 (mulf : (⟨S50000x256, .f32⟩ : BufTy).Contents (Elt F) → (⟨S50000x256, .f32⟩ : BufTy).Contents (Elt F) → (⟨S50000x256, .f32⟩ : BufTy).Contents (Elt F)),
    StableHlo.nullary main_cst_5 (constant S_ .f32 0x3727C5AC#32),
    StableHlo.unary main_cst_5 main_v34 (broadcastInDim S256 ![] bcast_S_S256 : (⟨S_, .f32⟩ : BufTy).Contents (Elt F) → (⟨S256, .f32⟩ : BufTy).Contents (Elt F)),
    StableHlo.binary main_v27 main_v34 main_v35 (addf : (⟨S256, .f32⟩ : BufTy).Contents (Elt F) → (⟨S256, .f32⟩ : BufTy).Contents (Elt F) → (⟨S256, .f32⟩ : BufTy).Contents (Elt F)),
    StableHlo.unary main_v35 main_v36 (Host.rsqrt : (⟨S256, .f32⟩ : BufTy).Contents (Elt F) → (⟨S256, .f32⟩ : BufTy).Contents (Elt F)),
    StableHlo.unary main_v36 main_v37 (broadcastInDim S1x256 ![1] bcast_S256_S1x256_1 : (⟨S256, .f32⟩ : BufTy).Contents (Elt F) → (⟨S1x256, .f32⟩ : BufTy).Contents (Elt F)),
    StableHlo.unary main_v37 main_v38 (broadcastInDim S50000x256 ![0, 1] bcast_S1x256_S50000x256_0_1 : (⟨S1x256, .f32⟩ : BufTy).Contents (Elt F) → (⟨S50000x256, .f32⟩ : BufTy).Contents (Elt F)),
    StableHlo.binary main_v33 main_v38 main_v39 (mulf : (⟨S50000x256, .f32⟩ : BufTy).Contents (Elt F) → (⟨S50000x256, .f32⟩ : BufTy).Contents (Elt F) → (⟨S50000x256, .f32⟩ : BufTy).Contents (Elt F)),
    StableHlo.unary main_arg9 main_v40 (broadcastInDim S1x256 ![1] bcast_S256_S1x256_1 : (⟨S256, .f32⟩ : BufTy).Contents (Elt F) → (⟨S1x256, .f32⟩ : BufTy).Contents (Elt F)),
    StableHlo.unary main_v40 main_v41 (broadcastInDim S50000x256 ![0, 1] bcast_S1x256_S50000x256_0_1 : (⟨S1x256, .f32⟩ : BufTy).Contents (Elt F) → (⟨S50000x256, .f32⟩ : BufTy).Contents (Elt F)),
    StableHlo.binary main_v39 main_v41 main_v42 (addf : (⟨S50000x256, .f32⟩ : BufTy).Contents (Elt F) → (⟨S50000x256, .f32⟩ : BufTy).Contents (Elt F) → (⟨S50000x256, .f32⟩ : BufTy).Contents (Elt F)),
    StableHlo.TRef.nullary main_call2.cst (constant S_ .f32 0x00000000#32),
    StableHlo.TRef.unary main_call2.cst main_call2.v0 (broadcastInDim S50000x256 ![] bcast_S_S50000x256),
    StableHlo.TRef.binary (.of main_v42 : StableHlo.TRef sig ⟨S50000x256, .f32⟩) main_call2.v0 main_call2.v1 maximumf,
    StableHlo.binary main_v43 main_arg10 main_v44 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg11 main_v45 (broadcastInDim S1x256 ![1] bcast_S256_S1x256_1 : (⟨S256, .f32⟩ : BufTy).Contents (Elt F) → (⟨S1x256, .f32⟩ : BufTy).Contents (Elt F)),
    StableHlo.unary main_v45 main_v46 (broadcastInDim S50000x256 ![0, 1] bcast_S1x256_S50000x256_0_1 : (⟨S1x256, .f32⟩ : BufTy).Contents (Elt F) → (⟨S50000x256, .f32⟩ : BufTy).Contents (Elt F)),
    StableHlo.binary main_v44 main_v46 main_v47 (addf : (⟨S50000x256, .f32⟩ : BufTy).Contents (Elt F) → (⟨S50000x256, .f32⟩ : BufTy).Contents (Elt F) → (⟨S50000x256, .f32⟩ : BufTy).Contents (Elt F)) ]

/-- The references `opsB`'s operations write. -/
abbrev opsB_W : List (Ref sig .tc) :=
  [main_cst_1, main_v16, main_v17, main_v18, main_v19, main_v20, main_v21, main_v22, main_v23, main_cst_2, main_v24, main_cst_3, main_v25, main_v26, main_c_4, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v27, main_v28, main_v29, main_v30, main_v31, main_v32, main_v33, main_cst_5, main_v34, main_v35, main_v36, main_v37, main_v38, main_v39, main_v40, main_v41, main_v42, main_call2_cst, main_call2_v0, main_v43, main_v44, main_v45, main_v46, main_v47]

/-- Operations 82 … 102 of 215: up to the statement that writes main_v63. -/
abbrev opsC : List (HloOp τ sig (Elt F)) :=
  [ StableHlo.unary main_arg3 main_v48 ((extractStridedSlice S1x100000 ![0, 0] · slices_S2x100000_S1x100000_0_0) : (⟨S2x100000, .i32⟩ : BufTy).Contents (Elt F) → (⟨S1x100000, .i32⟩ : BufTy).Contents (Elt F)),
    StableHlo.reshape main_v48 main_v49 rfl shapeCasts_S1x100000_S100000,
    StableHlo.nullary main_c_6 (constantI S_ 32 0#32),
    StableHlo.unary main_c_6 main_v50 (broadcastInDim S100000 ![] bcast_S_S100000 : (⟨S_, .i32⟩ : BufTy).Contents (Elt F) → (⟨S100000, .i32⟩ : BufTy).Contents (Elt F)),
    StableHlo.binary main_v49 main_v50 main_v51 (cmpi .slt : (⟨S100000, .i32⟩ : BufTy).Contents (Elt F) → (⟨S100000, .i32⟩ : BufTy).Contents (Elt F) → (⟨S100000, .i1⟩ : BufTy).Contents (Elt F)),
    StableHlo.nullary main_c_7 (constantI S_ 32 50000#32),
    StableHlo.unary main_c_7 main_v52 (broadcastInDim S100000 ![] bcast_S_S100000 : (⟨S_, .i32⟩ : BufTy).Contents (Elt F) → (⟨S100000, .i32⟩ : BufTy).Contents (Elt F)),
    StableHlo.binary main_v49 main_v52 main_v53 (addi : (⟨S100000, .i32⟩ : BufTy).Contents (Elt F) → (⟨S100000, .i32⟩ : BufTy).Contents (Elt F) → (⟨S100000, .i32⟩ : BufTy).Contents (Elt F)),
    StableHlo.ternary main_v51 main_v53 main_v49 main_v54 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v54 main_v55 (broadcastInDim S100000x1 ![0] bcast_S100000_S100000x1_0 : (⟨S100000, .i32⟩ : BufTy).Contents (Elt F) → (⟨S100000x1, .i32⟩ : BufTy).Contents (Elt F)),
    StableHlo.binary main_arg0 main_v55 main_v56 ((fun x i => Host.gather gather_S50000x256_S100000x1_S100000x256_1_0_n_n_0_1_1256 x i) : (⟨S50000x256, .f32⟩ : BufTy).Contents (Elt F) → (⟨S100000x1, .i32⟩ : BufTy).Contents (Elt F) → (⟨S100000x256, .f32⟩ : BufTy).Contents (Elt F)),
    StableHlo.binary main_v56 main_arg4 main_v57 (addf : (⟨S100000x256, .f32⟩ : BufTy).Contents (Elt F) → (⟨S100000x256, .f32⟩ : BufTy).Contents (Elt F) → (⟨S100000x256, .f32⟩ : BufTy).Contents (Elt F)),
    StableHlo.TRef.nullary main_call3.cst (constant S_ .f32 0x00000000#32),
    StableHlo.TRef.unary main_call3.cst main_call3.v0 (broadcastInDim S100000x256 ![] bcast_S_S100000x256),
    StableHlo.TRef.binary (.of main_v57 : StableHlo.TRef sig ⟨S100000x256, .f32⟩) main_call3.v0 main_call3.v1 maximumf,
    StableHlo.unary main_arg3 main_v59 ((extractStridedSlice S1x100000 ![1, 0] · slices_S2x100000_S1x100000_1_0) : (⟨S2x100000, .i32⟩ : BufTy).Contents (Elt F) → (⟨S1x100000, .i32⟩ : BufTy).Contents (Elt F)),
    StableHlo.reshape main_v59 main_v60 rfl shapeCasts_S1x100000_S100000,
    StableHlo.nullary main_cst_8 (constant S_ .f32 0x00000000#32),
    StableHlo.unary main_cst_8 main_v61 (broadcastInDim S50000x256 ![] bcast_S_S50000x256 : (⟨S_, .f32⟩ : BufTy).Contents (Elt F) → (⟨S50000x256, .f32⟩ : BufTy).Contents (Elt F)),
    StableHlo.unary main_v60 main_v62 (broadcastInDim S100000x1 ![0] bcast_S100000_S100000x1_0 : (⟨S100000, .i32⟩ : BufTy).Contents (Elt F) → (⟨S100000x1, .i32⟩ : BufTy).Contents (Elt F)),
    StableHlo.ternary main_v61 main_v62 main_v58 main_v63 ((fun x i u => Host.scatterAdd scatter_S50000x256_S100000x1_S100000x256_1_0_0_1 x i u) : (⟨S50000x256, .f32⟩ : BufTy).Contents (Elt F) → (⟨S100000x1, .i32⟩ : BufTy).Contents (Elt F) → (⟨S100000x256, .f32⟩ : BufTy).Contents (Elt F) → (⟨S50000x256, .f32⟩ : BufTy).Contents (Elt F)) ]

/-- The references `opsC`'s operations write. -/
abbrev opsC_W : List (Ref sig .tc) :=
  [main_v48, main_v49, main_c_6, main_v50, main_v51, main_c_7, main_v52, main_v53, main_v54, main_v55, main_v56, main_v57, main_call3_cst, main_call3_v0, main_v58, main_v59, main_v60, main_cst_8, main_v61, main_v62, main_v63]

/-- Operations 103 … 162 of 215: up to the statement that writes main_v95. -/
abbrev opsD : List (HloOp τ sig (Elt F)) :=
  [ StableHlo.nullary main_cst_9 (constant S_ .f32 0x3F800000#32),
    StableHlo.binary main_cst_9 main_arg12 main_v64 (addf : (⟨S_, .f32⟩ : BufTy).Contents (Elt F) → (⟨S_, .f32⟩ : BufTy).Contents (Elt F) → (⟨S_, .f32⟩ : BufTy).Contents (Elt F)),
    StableHlo.unary main_v64 main_v65 (broadcastInDim S50000x256 ![] bcast_S_S50000x256 : (⟨S_, .f32⟩ : BufTy).Contents (Elt F) → (⟨S50000x256, .f32⟩ : BufTy).Contents (Elt F)),
    StableHlo.binary main_v65 main_arg0 main_v66 (mulf : (⟨S50000x256, .f32⟩ : BufTy).Contents (Elt F) → (⟨S50000x256, .f32⟩ : BufTy).Contents (Elt F) → (⟨S50000x256, .f32⟩ : BufTy).Contents (Elt F)),
    StableHlo.binary main_v66 main_v63 main_v67 (addf : (⟨S50000x256, .f32⟩ : BufTy).Contents (Elt F) → (⟨S50000x256, .f32⟩ : BufTy).Contents (Elt F) → (⟨S50000x256, .f32⟩ : BufTy).Contents (Elt F)),
    StableHlo.binary main_v67 main_arg13 main_v68 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg14 main_v69 (broadcastInDim S1x256 ![1] bcast_S256_S1x256_1 : (⟨S256, .f32⟩ : BufTy).Contents (Elt F) → (⟨S1x256, .f32⟩ : BufTy).Contents (Elt F)),
    StableHlo.unary main_v69 main_v70 (broadcastInDim S50000x256 ![0, 1] bcast_S1x256_S50000x256_0_1 : (⟨S1x256, .f32⟩ : BufTy).Contents (Elt F) → (⟨S50000x256, .f32⟩ : BufTy).Contents (Elt F)),
    StableHlo.binary main_v68 main_v70 main_v71 (addf : (⟨S50000x256, .f32⟩ : BufTy).Contents (Elt F) → (⟨S50000x256, .f32⟩ : BufTy).Contents (Elt F) → (⟨S50000x256, .f32⟩ : BufTy).Contents (Elt F)),
    StableHlo.nullary main_cst_10 (constant S_ .f32 0x00000000#32),
    StableHlo.binary main_v71 main_cst_10 main_v72 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_11 (constant S_ .f32 0x47435000#32),
    StableHlo.unary main_cst_11 main_v73 (broadcastInDim S256 ![] bcast_S_S256 : (⟨S_, .f32⟩ : BufTy).Contents (Elt F) → (⟨S256, .f32⟩ : BufTy).Contents (Elt F)),
    StableHlo.binary main_v72 main_v73 main_v74 (Host.divf : (⟨S256, .f32⟩ : BufTy).Contents (Elt F) → (⟨S256, .f32⟩ : BufTy).Contents (Elt F) → (⟨S256, .f32⟩ : BufTy).Contents (Elt F)),
    StableHlo.nullary main_c_12 (constantI S_ 32 0#32),
    StableHlo.TRef.nullary main_call4.cst (constant S_ .f32 0x00000000#32),
    StableHlo.TRef.binary (.of main_v71 : StableHlo.TRef sig ⟨S50000x256, .f32⟩) main_call4.cst main_call4.v0 (fun x v => Host.reduceAdd x v reducesTo_S50000x256_S256_d0 h_S_),
    StableHlo.TRef.unary main_call4.v0 main_call4.v1 (broadcastInDim S1x256 ![1] bcast_S256_S1x256_1),
    StableHlo.TRef.nullary main_call4.cst_0 (constant S_ .f32 0x47435000#32),
    StableHlo.TRef.unary main_call4.cst_0 main_call4.v2 (broadcastInDim S1x256 ![] bcast_S_S1x256),
    StableHlo.TRef.binary main_call4.v1 main_call4.v2 main_call4.v3 Host.divf,
    StableHlo.TRef.unary main_call4.v3 main_call4.v4 (broadcastInDim S50000x256 ![0, 1] bcast_S1x256_S50000x256_0_1),
    StableHlo.TRef.binary (.of main_v71 : StableHlo.TRef sig ⟨S50000x256, .f32⟩) main_call4.v4 main_call4.v5 subf,
    StableHlo.TRef.binary main_call4.v5 main_call4.v5 main_call4.v6 mulf,
    StableHlo.TRef.unary (.of main_c_12 : StableHlo.TRef sig ⟨S_, .i32⟩) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x256_S256_d0 h_S_),
    StableHlo.TRef.unary main_call4.v8 main_call4.v10 (broadcastInDim S256 ![] bcast_S_S256),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S256 ![] bcast_S_S256),
    StableHlo.TRef.ternary main_call4.v12 main_call4.v11 main_call4.call0.v1 main_call4.call0.v2 (fun p a b => select (broadcastInDim S256 ![] bcast_S_S256 p) a b),
    StableHlo.unary main_v74 main_v76 (broadcastInDim S1x256 ![1] bcast_S256_S1x256_1 : (⟨S256, .f32⟩ : BufTy).Contents (Elt F) → (⟨S1x256, .f32⟩ : BufTy).Contents (Elt F)),
    StableHlo.unary main_v76 main_v77 (broadcastInDim S50000x256 ![0, 1] bcast_S1x256_S50000x256_0_1 : (⟨S1x256, .f32⟩ : BufTy).Contents (Elt F) → (⟨S50000x256, .f32⟩ : BufTy).Contents (Elt F)),
    StableHlo.binary main_v71 main_v77 main_v78 (subf : (⟨S50000x256, .f32⟩ : BufTy).Contents (Elt F) → (⟨S50000x256, .f32⟩ : BufTy).Contents (Elt F) → (⟨S50000x256, .f32⟩ : BufTy).Contents (Elt F)),
    StableHlo.unary main_arg15 main_v79 (broadcastInDim S1x256 ![1] bcast_S256_S1x256_1 : (⟨S256, .f32⟩ : BufTy).Contents (Elt F) → (⟨S1x256, .f32⟩ : BufTy).Contents (Elt F)),
    StableHlo.unary main_v79 main_v80 (broadcastInDim S50000x256 ![0, 1] bcast_S1x256_S50000x256_0_1 : (⟨S1x256, .f32⟩ : BufTy).Contents (Elt F) → (⟨S50000x256, .f32⟩ : BufTy).Contents (Elt F)),
    StableHlo.binary main_v80 main_v78 main_v81 (mulf : (⟨S50000x256, .f32⟩ : BufTy).Contents (Elt F) → (⟨S50000x256, .f32⟩ : BufTy).Contents (Elt F) → (⟨S50000x256, .f32⟩ : BufTy).Contents (Elt F)),
    StableHlo.nullary main_cst_13 (constant S_ .f32 0x3727C5AC#32),
    StableHlo.unary main_cst_13 main_v82 (broadcastInDim S256 ![] bcast_S_S256 : (⟨S_, .f32⟩ : BufTy).Contents (Elt F) → (⟨S256, .f32⟩ : BufTy).Contents (Elt F)),
    StableHlo.binary main_v75 main_v82 main_v83 (addf : (⟨S256, .f32⟩ : BufTy).Contents (Elt F) → (⟨S256, .f32⟩ : BufTy).Contents (Elt F) → (⟨S256, .f32⟩ : BufTy).Contents (Elt F)),
    StableHlo.unary main_v83 main_v84 (Host.rsqrt : (⟨S256, .f32⟩ : BufTy).Contents (Elt F) → (⟨S256, .f32⟩ : BufTy).Contents (Elt F)),
    StableHlo.unary main_v84 main_v85 (broadcastInDim S1x256 ![1] bcast_S256_S1x256_1 : (⟨S256, .f32⟩ : BufTy).Contents (Elt F) → (⟨S1x256, .f32⟩ : BufTy).Contents (Elt F)),
    StableHlo.unary main_v85 main_v86 (broadcastInDim S50000x256 ![0, 1] bcast_S1x256_S50000x256_0_1 : (⟨S1x256, .f32⟩ : BufTy).Contents (Elt F) → (⟨S50000x256, .f32⟩ : BufTy).Contents (Elt F)),
    StableHlo.binary main_v81 main_v86 main_v87 (mulf : (⟨S50000x256, .f32⟩ : BufTy).Contents (Elt F) → (⟨S50000x256, .f32⟩ : BufTy).Contents (Elt F) → (⟨S50000x256, .f32⟩ : BufTy).Contents (Elt F)),
    StableHlo.unary main_arg16 main_v88 (broadcastInDim S1x256 ![1] bcast_S256_S1x256_1 : (⟨S256, .f32⟩ : BufTy).Contents (Elt F) → (⟨S1x256, .f32⟩ : BufTy).Contents (Elt F)),
    StableHlo.unary main_v88 main_v89 (broadcastInDim S50000x256 ![0, 1] bcast_S1x256_S50000x256_0_1 : (⟨S1x256, .f32⟩ : BufTy).Contents (Elt F) → (⟨S50000x256, .f32⟩ : BufTy).Contents (Elt F)),
    StableHlo.binary main_v87 main_v89 main_v90 (addf : (⟨S50000x256, .f32⟩ : BufTy).Contents (Elt F) → (⟨S50000x256, .f32⟩ : BufTy).Contents (Elt F) → (⟨S50000x256, .f32⟩ : BufTy).Contents (Elt F)),
    StableHlo.TRef.nullary main_call5.cst (constant S_ .f32 0x00000000#32),
    StableHlo.TRef.unary main_call5.cst main_call5.v0 (broadcastInDim S50000x256 ![] bcast_S_S50000x256),
    StableHlo.TRef.binary (.of main_v90 : StableHlo.TRef sig ⟨S50000x256, .f32⟩) main_call5.v0 main_call5.v1 maximumf,
    StableHlo.binary main_v91 main_arg17 main_v92 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg18 main_v93 (broadcastInDim S1x256 ![1] bcast_S256_S1x256_1 : (⟨S256, .f32⟩ : BufTy).Contents (Elt F) → (⟨S1x256, .f32⟩ : BufTy).Contents (Elt F)),
    StableHlo.unary main_v93 main_v94 (broadcastInDim S50000x256 ![0, 1] bcast_S1x256_S50000x256_0_1 : (⟨S1x256, .f32⟩ : BufTy).Contents (Elt F) → (⟨S50000x256, .f32⟩ : BufTy).Contents (Elt F)),
    StableHlo.binary main_v92 main_v94 main_v95 (addf : (⟨S50000x256, .f32⟩ : BufTy).Contents (Elt F) → (⟨S50000x256, .f32⟩ : BufTy).Contents (Elt F) → (⟨S50000x256, .f32⟩ : BufTy).Contents (Elt F)) ]

/-- The references `opsD`'s operations write. -/
abbrev opsD_W : List (Ref sig .tc) :=
  [main_cst_9, main_v64, main_v65, main_v66, main_v67, main_v68, main_v69, main_v70, main_v71, main_cst_10, main_v72, main_cst_11, main_v73, main_v74, main_c_12, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v75, main_v76, main_v77, main_v78, main_v79, main_v80, main_v81, main_cst_13, main_v82, main_v83, main_v84, main_v85, main_v86, main_v87, main_v88, main_v89, main_v90, main_call5_cst, main_call5_v0, main_v91, main_v92, main_v93, main_v94, main_v95]

/-- Operations 163 … 215 of 215: up to the statement that writes main_v121. -/
abbrev opsE : List (HloOp τ sig (Elt F)) :=
  [ StableHlo.unary main_arg21 main_v96 (broadcastInDim S50000x256 ![] bcast_S_S50000x256 : (⟨S_, .f32⟩ : BufTy).Contents (Elt F) → (⟨S50000x256, .f32⟩ : BufTy).Contents (Elt F)),
    StableHlo.binary main_v96 main_v47 main_v97 (mulf : (⟨S50000x256, .f32⟩ : BufTy).Contents (Elt F) → (⟨S50000x256, .f32⟩ : BufTy).Contents (Elt F) → (⟨S50000x256, .f32⟩ : BufTy).Contents (Elt F)),
    StableHlo.binary main_arg0 main_v97 main_v98 (addf : (⟨S50000x256, .f32⟩ : BufTy).Contents (Elt F) → (⟨S50000x256, .f32⟩ : BufTy).Contents (Elt F) → (⟨S50000x256, .f32⟩ : BufTy).Contents (Elt F)),
    StableHlo.unary main_arg22 main_v99 (broadcastInDim S50000x256 ![] bcast_S_S50000x256 : (⟨S_, .f32⟩ : BufTy).Contents (Elt F) → (⟨S50000x256, .f32⟩ : BufTy).Contents (Elt F)),
    StableHlo.binary main_v99 main_v95 main_v100 (mulf : (⟨S50000x256, .f32⟩ : BufTy).Contents (Elt F) → (⟨S50000x256, .f32⟩ : BufTy).Contents (Elt F) → (⟨S50000x256, .f32⟩ : BufTy).Contents (Elt F)),
    StableHlo.binary main_v98 main_v100 main_v101 (addf : (⟨S50000x256, .f32⟩ : BufTy).Contents (Elt F) → (⟨S50000x256, .f32⟩ : BufTy).Contents (Elt F) → (⟨S50000x256, .f32⟩ : BufTy).Contents (Elt F)),
    StableHlo.nullary main_cst_14 (constant S_ .f32 0x00000000#32),
    StableHlo.binary main_v101 main_cst_14 main_v102 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_15 (constant S_ .f32 0x47435000#32),
    StableHlo.unary main_cst_15 main_v103 (broadcastInDim S256 ![] bcast_S_S256 : (⟨S_, .f32⟩ : BufTy).Contents (Elt F) → (⟨S256, .f32⟩ : BufTy).Contents (Elt F)),
    StableHlo.binary main_v102 main_v103 main_v104 (Host.divf : (⟨S256, .f32⟩ : BufTy).Contents (Elt F) → (⟨S256, .f32⟩ : BufTy).Contents (Elt F) → (⟨S256, .f32⟩ : BufTy).Contents (Elt F)),
    StableHlo.nullary main_c_16 (constantI S_ 32 0#32),
    StableHlo.TRef.nullary main_call6.cst (constant S_ .f32 0x00000000#32),
    StableHlo.TRef.binary (.of main_v101 : StableHlo.TRef sig ⟨S50000x256, .f32⟩) main_call6.cst main_call6.v0 (fun x v => Host.reduceAdd x v reducesTo_S50000x256_S256_d0 h_S_),
    StableHlo.TRef.unary main_call6.v0 main_call6.v1 (broadcastInDim S1x256 ![1] bcast_S256_S1x256_1),
    StableHlo.TRef.nullary main_call6.cst_0 (constant S_ .f32 0x47435000#32),
    StableHlo.TRef.unary main_call6.cst_0 main_call6.v2 (broadcastInDim S1x256 ![] bcast_S_S1x256),
    StableHlo.TRef.binary main_call6.v1 main_call6.v2 main_call6.v3 Host.divf,
    StableHlo.TRef.unary main_call6.v3 main_call6.v4 (broadcastInDim S50000x256 ![0, 1] bcast_S1x256_S50000x256_0_1),
    StableHlo.TRef.binary (.of main_v101 : StableHlo.TRef sig ⟨S50000x256, .f32⟩) main_call6.v4 main_call6.v5 subf,
    StableHlo.TRef.binary main_call6.v5 main_call6.v5 main_call6.v6 mulf,
    StableHlo.TRef.unary (.of main_c_16 : StableHlo.TRef sig ⟨S_, .i32⟩) main_call6.v7 (sitofp .f32),
    StableHlo.TRef.nullary main_call6.cst_1 (constant S_ .f32 0x47435000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S50000x256_S256_d0 h_S_),
    StableHlo.TRef.unary main_call6.v8 main_call6.v10 (broadcastInDim S256 ![] bcast_S_S256),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S256 ![] bcast_S_S256),
    StableHlo.TRef.ternary main_call6.v12 main_call6.v11 main_call6.call0.v1 main_call6.call0.v2 (fun p a b => select (broadcastInDim S256 ![] bcast_S_S256 p) a b),
    StableHlo.unary main_v104 main_v106 (broadcastInDim S1x256 ![1] bcast_S256_S1x256_1 : (⟨S256, .f32⟩ : BufTy).Contents (Elt F) → (⟨S1x256, .f32⟩ : BufTy).Contents (Elt F)),
    StableHlo.unary main_v106 main_v107 (broadcastInDim S50000x256 ![0, 1] bcast_S1x256_S50000x256_0_1 : (⟨S1x256, .f32⟩ : BufTy).Contents (Elt F) → (⟨S50000x256, .f32⟩ : BufTy).Contents (Elt F)),
    StableHlo.binary main_v101 main_v107 main_v108 (subf : (⟨S50000x256, .f32⟩ : BufTy).Contents (Elt F) → (⟨S50000x256, .f32⟩ : BufTy).Contents (Elt F) → (⟨S50000x256, .f32⟩ : BufTy).Contents (Elt F)),
    StableHlo.unary main_arg19 main_v109 (broadcastInDim S1x256 ![1] bcast_S256_S1x256_1 : (⟨S256, .f32⟩ : BufTy).Contents (Elt F) → (⟨S1x256, .f32⟩ : BufTy).Contents (Elt F)),
    StableHlo.unary main_v109 main_v110 (broadcastInDim S50000x256 ![0, 1] bcast_S1x256_S50000x256_0_1 : (⟨S1x256, .f32⟩ : BufTy).Contents (Elt F) → (⟨S50000x256, .f32⟩ : BufTy).Contents (Elt F)),
    StableHlo.binary main_v110 main_v108 main_v111 (mulf : (⟨S50000x256, .f32⟩ : BufTy).Contents (Elt F) → (⟨S50000x256, .f32⟩ : BufTy).Contents (Elt F) → (⟨S50000x256, .f32⟩ : BufTy).Contents (Elt F)),
    StableHlo.nullary main_cst_17 (constant S_ .f32 0x3727C5AC#32),
    StableHlo.unary main_cst_17 main_v112 (broadcastInDim S256 ![] bcast_S_S256 : (⟨S_, .f32⟩ : BufTy).Contents (Elt F) → (⟨S256, .f32⟩ : BufTy).Contents (Elt F)),
    StableHlo.binary main_v105 main_v112 main_v113 (addf : (⟨S256, .f32⟩ : BufTy).Contents (Elt F) → (⟨S256, .f32⟩ : BufTy).Contents (Elt F) → (⟨S256, .f32⟩ : BufTy).Contents (Elt F)),
    StableHlo.unary main_v113 main_v114 (Host.rsqrt : (⟨S256, .f32⟩ : BufTy).Contents (Elt F) → (⟨S256, .f32⟩ : BufTy).Contents (Elt F)),
    StableHlo.unary main_v114 main_v115 (broadcastInDim S1x256 ![1] bcast_S256_S1x256_1 : (⟨S256, .f32⟩ : BufTy).Contents (Elt F) → (⟨S1x256, .f32⟩ : BufTy).Contents (Elt F)),
    StableHlo.unary main_v115 main_v116 (broadcastInDim S50000x256 ![0, 1] bcast_S1x256_S50000x256_0_1 : (⟨S1x256, .f32⟩ : BufTy).Contents (Elt F) → (⟨S50000x256, .f32⟩ : BufTy).Contents (Elt F)),
    StableHlo.binary main_v111 main_v116 main_v117 (mulf : (⟨S50000x256, .f32⟩ : BufTy).Contents (Elt F) → (⟨S50000x256, .f32⟩ : BufTy).Contents (Elt F) → (⟨S50000x256, .f32⟩ : BufTy).Contents (Elt F)),
    StableHlo.unary main_arg20 main_v118 (broadcastInDim S1x256 ![1] bcast_S256_S1x256_1 : (⟨S256, .f32⟩ : BufTy).Contents (Elt F) → (⟨S1x256, .f32⟩ : BufTy).Contents (Elt F)),
    StableHlo.unary main_v118 main_v119 (broadcastInDim S50000x256 ![0, 1] bcast_S1x256_S50000x256_0_1 : (⟨S1x256, .f32⟩ : BufTy).Contents (Elt F) → (⟨S50000x256, .f32⟩ : BufTy).Contents (Elt F)),
    StableHlo.binary main_v117 main_v119 main_v120 (addf : (⟨S50000x256, .f32⟩ : BufTy).Contents (Elt F) → (⟨S50000x256, .f32⟩ : BufTy).Contents (Elt F) → (⟨S50000x256, .f32⟩ : BufTy).Contents (Elt F)),
    StableHlo.TRef.nullary main_call7.cst (constant S_ .f32 0x00000000#32),
    StableHlo.TRef.unary main_call7.cst main_call7.v0 (broadcastInDim S50000x256 ![] bcast_S_S50000x256),
    StableHlo.TRef.binary (.of main_v120 : StableHlo.TRef sig ⟨S50000x256, .f32⟩) main_call7.v0 main_call7.v1 maximumf ]

/-- The references `opsE`'s operations write. -/
abbrev opsE_W : List (Ref sig .tc) :=
  [main_v96, main_v97, main_v98, main_v99, main_v100, main_v101, main_cst_14, main_v102, main_cst_15, main_v103, main_v104, main_c_16, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v105, main_v106, main_v107, main_v108, main_v109, main_v110, main_v111, main_cst_17, main_v112, main_v113, main_v114, main_v115, main_v116, main_v117, main_v118, main_v119, main_v120, main_call7_cst, main_call7_v0, main_v121]

end Cert.ReferenceIdeal.Hand

end
-- ==== Proof.RI.Ops.lean ====
import proofs.«422945_j10866267259114_2_alg».proof.Proof.RI.OpsTable
import Idealize.ShloMosaic.Lib.Pipeline.Frame

noncomputable section

namespace Cert.ReferenceIdeal.Hand

open Cert.ReferenceIdeal Idealize.ShloMosaic Idealize.ShloMosaic.TcCoe Idealize.SL.Sem Idealize.ShloMosaic.StableHlo
open Facts₀ Facts

variable {F : FTy → Type} [FloatOps F] [Facts]

abbrev ops : List (HloOp τ sig (Elt F)) := opsA ++ (opsB ++ (opsC ++ (opsD ++ opsE)))

set_option maxRecDepth 8192 in
set_option maxHeartbeats 4000000 in

theorem main_part0_eq (c : Dev nD) : main_part0 (F := F) c = seq (opsA ++ (opsB ++ opsC.take 4)) := rfl

set_option maxRecDepth 8192 in
set_option maxHeartbeats 4000000 in

theorem main_part1_eq (c : Dev nD) : main_part1 (F := F) c = seq (opsC.drop 4 ++ (opsD ++ opsE.take 8)) := rfl

set_option maxRecDepth 8192 in
set_option maxHeartbeats 4000000 in

theorem main_part2_eq (c : Dev nD) : main_part2 (F := F) c = seq (opsE.drop 8) := rfl

theorem ops_windows : (ops : List (HloOp τ sig (Elt F)))
    = (opsA ++ (opsB ++ opsC.take 4)) ++ ((opsC.drop 4 ++ (opsD ++ opsE.take 8)) ++ opsE.drop 8) := by
  conv_lhs => rw [ops, ← List.take_append_drop 4 (opsC (F := F)), ← List.take_append_drop 8 (opsE (F := F))]
  simp only [List.append_assoc]

theorem main_eq (c : Dev nD) : main (F := F) c = seq ops := by
  rw [ops_windows, seq_append (opsA ++ (opsB ++ opsC.take 4)), seq_append (opsC.drop 4 ++ (opsD ++ opsE.take 8)),
    ← main_part0_eq c, ← main_part1_eq c, ← main_part2_eq c]
  rfl

end Cert.ReferenceIdeal.Hand

end
-- ==== Proof.RI.Run.lean ====
import proofs.«422945_j10866267259114_2_alg».proof.Proof.RI.Ops

noncomputable section

namespace Cert.ReferenceIdeal.Hand

open Cert.ReferenceIdeal Idealize.ShloMosaic Idealize.ShloMosaic.TcCoe Idealize.SL.Sem Idealize.ShloMosaic.StableHlo
open Facts₀ Facts

variable {F : FTy → Type} [FloatOps F] [Facts]

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig := by
  simp only [List.Forall, nullary_bufs_sub, unary_bufs_sub, binary_bufs_sub, ternary_bufs_sub, reshape_bufs_sub, and_self]

theorem opsA_fresh : (opsA : List (HloOp τ sig (Elt F))).Forall fun op => op.fresh = ∅ := by
  simp only [List.Forall]; repeat' constructor

theorem opsA_writes : (opsA : List (HloOp τ sig (Elt F))).Forall fun op =>
    op.writes ⊆ (opsA_W.map (Proc.devRef (τ := τ) .tc)).toFinset := by
  simp only [List.Forall, nullary_writes, unary_writes, binary_writes, ternary_writes, reshape_writes,
    Finset.singleton_subset_iff, List.mem_toFinset]
  repeat' constructor
  all_goals exact List.mem_map_of_mem (by decide)

theorem opsB_sub : (opsB : List (HloOp τ sig (Elt F))).Forall fun op => op.bufs ⊆ tcRefs τ sig := by
  simp only [List.Forall, nullary_bufs_sub, unary_bufs_sub, binary_bufs_sub, ternary_bufs_sub, reshape_bufs_sub, and_self]

theorem opsB_fresh : (opsB : List (HloOp τ sig (Elt F))).Forall fun op => op.fresh = ∅ := by
  simp only [List.Forall]; repeat' constructor

theorem opsB_writes : (opsB : List (HloOp τ sig (Elt F))).Forall fun op =>
    op.writes ⊆ (opsB_W.map (Proc.devRef (τ := τ) .tc)).toFinset := by
  simp only [List.Forall, nullary_writes, unary_writes, binary_writes, ternary_writes, reshape_writes,
    Finset.singleton_subset_iff, List.mem_toFinset]
  repeat' constructor
  all_goals exact List.mem_map_of_mem (by decide)

theorem opsC_sub : (opsC : List (HloOp τ sig (Elt F))).Forall fun op => op.bufs ⊆ tcRefs τ sig := by
  simp only [List.Forall, nullary_bufs_sub, unary_bufs_sub, binary_bufs_sub, ternary_bufs_sub, reshape_bufs_sub, and_self]

theorem opsC_fresh : (opsC : List (HloOp τ sig (Elt F))).Forall fun op => op.fresh = ∅ := by
  simp only [List.Forall]; repeat' constructor

theorem opsC_writes : (opsC : List (HloOp τ sig (Elt F))).Forall fun op =>
    op.writes ⊆ (opsC_W.map (Proc.devRef (τ := τ) .tc)).toFinset := by
  simp only [List.Forall, nullary_writes, unary_writes, binary_writes, ternary_writes, reshape_writes,
    Finset.singleton_subset_iff, List.mem_toFinset]
  repeat' constructor
  all_goals exact List.mem_map_of_mem (by decide)

theorem opsD_sub : (opsD : List (HloOp τ sig (Elt F))).Forall fun op => op.bufs ⊆ tcRefs τ sig := by
  simp only [List.Forall, nullary_bufs_sub, unary_bufs_sub, binary_bufs_sub, ternary_bufs_sub, reshape_bufs_sub, and_self]

theorem opsD_fresh : (opsD : List (HloOp τ sig (Elt F))).Forall fun op => op.fresh = ∅ := by
  simp only [List.Forall]; repeat' constructor

theorem opsD_writes : (opsD : List (HloOp τ sig (Elt F))).Forall fun op =>
    op.writes ⊆ (opsD_W.map (Proc.devRef (τ := τ) .tc)).toFinset := by
  simp only [List.Forall, nullary_writes, unary_writes, binary_writes, ternary_writes, reshape_writes,
    Finset.singleton_subset_iff, List.mem_toFinset]
  repeat' constructor
  all_goals exact List.mem_map_of_mem (by decide)

theorem opsE_sub : (opsE : List (HloOp τ sig (Elt F))).Forall fun op => op.bufs ⊆ tcRefs τ sig := by
  simp only [List.Forall, nullary_bufs_sub, unary_bufs_sub, binary_bufs_sub, ternary_bufs_sub, reshape_bufs_sub, and_self]

theorem opsE_fresh : (opsE : List (HloOp τ sig (Elt F))).Forall fun op => op.fresh = ∅ := by
  simp only [List.Forall]; repeat' constructor

theorem opsE_writes : (opsE : List (HloOp τ sig (Elt F))).Forall fun op =>
    op.writes ⊆ (opsE_W.map (Proc.devRef (τ := τ) .tc)).toFinset := by
  simp only [List.Forall, nullary_writes, unary_writes, binary_writes, ternary_writes, reshape_writes,
    Finset.singleton_subset_iff, List.mem_toFinset]
  repeat' constructor
  all_goals exact List.mem_map_of_mem (by decide)

theorem ops_sub : (ops : List (HloOp τ sig (Elt F))).Forall fun op => op.bufs ⊆ tcRefs τ sig := by
  rw [List.forall_iff_forall_mem]
  intro op h
  simp only [ops, List.mem_append] at h
  rcases h with h | h | h | h | h
  · exact List.forall_iff_forall_mem.1 opsA_sub op h
  · exact List.forall_iff_forall_mem.1 opsB_sub op h
  · exact List.forall_iff_forall_mem.1 opsC_sub op h
  · exact List.forall_iff_forall_mem.1 opsD_sub op h
  · exact List.forall_iff_forall_mem.1 opsE_sub op h

theorem ops_fresh : ∀ op ∈ (ops : List (HloOp τ sig (Elt F))), op.fresh = ∅ := by
  intro op h
  simp only [ops, List.mem_append] at h
  rcases h with h | h | h | h | h
  · exact List.forall_iff_forall_mem.1 opsA_fresh op h
  · exact List.forall_iff_forall_mem.1 opsB_fresh op h
  · exact List.forall_iff_forall_mem.1 opsC_fresh op h
  · exact List.forall_iff_forall_mem.1 opsD_fresh op h
  · exact List.forall_iff_forall_mem.1 opsE_fresh op h

theorem after_ops (V : Valuation τ sig (Elt F)) :
    after ops V = after opsE (after opsD (after opsC (after opsB (after opsA V)))) := by
  simp only [ops, after_append]

theorem after_segments_of_not_written (V : Valuation τ sig (Elt F)) {r : Ref sig .tc}
    (hA : r ∉ opsA_W) (hB : r ∉ opsB_W) (hC : r ∉ opsC_W) (hD : r ∉ opsD_W) (hE : r ∉ opsE_W) :
    after opsE (after opsD (after opsC (after opsB (after opsA V)))) (Proc.devRef .tc r) = V (Proc.devRef .tc r) := by
  rw [after_of_writes_sub opsE _ opsE_writes hE, after_of_writes_sub opsD _ opsD_writes hD,
    after_of_writes_sub opsC _ opsC_writes hC, after_of_writes_sub opsB _ opsB_writes hB,
    after_of_writes_sub opsA _ opsA_writes hA]

theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v121)
        = after opsE (after opsD (after opsC (after opsB (after opsA (fun b => m (c, b)))))) (Proc.devRef .tc main_v121)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun r h c => by
      have kept : ∀ x : Ref sig .tc, x ∉ opsA_W → x ∉ opsB_W → x ∉ opsC_W → x ∉ opsD_W → x ∉ opsE_W →
          r.2.mem ((c.tc : Thread nD τ).loc x) = m ((c.tc : Thread nD τ).loc x) :=
        fun x hA hB hC hD hE =>
          (h c x).trans ((congrFun (after_ops _) _).trans (after_segments_of_not_written _ hA hB hC hD hE))
      refine ⟨(h c main_v121).trans (congrFun (after_ops _) _),
        ?_, ?_, ?_, ?_, ?_, ?_, ?_, ?_, ?_, ?_, ?_, ?_, ?_, ?_, ?_, ?_, ?_, ?_, ?_, ?_, ?_, ?_, ?_⟩
      all_goals exact kept _ (by decide) (by decide) (by decide) (by decide) (by decide))
    (run_seq scopedRefs_eq scopedSems_eq defs main (fun _ => ops) main_eq (fun _ => ops_sub) m ρ (fun _ => ops_fresh))

end Cert.ReferenceIdeal.Hand

end
-- ==== Proof.Spec.lean ====
import Idealize.ShloMosaic.PureOps.Ideal
import Idealize.ShloMosaic.Lib.ValueIdx

noncomputable section

namespace Cert.Spec

open Idealize.ShloMosaic Idealize.ShloMosaic.ValueIdx
open scoped BigOperators

abbrev SND : Shape := ⟨2, ![50000, 256]⟩
abbrev SDD : Shape := ⟨2, ![256, 256]⟩
abbrev SD : Shape := ⟨1, ![256]⟩
abbrev S1D : Shape := ⟨2, ![1, 256]⟩

abbrev Arr (S : Shape) : Type := S.Idx → EReal

def ofRow (a : S1D.Idx → EReal) : SD.Idx → EReal := fun j => a (ix2 0 (j 0))
def toRow (a : SD.Idx → EReal) : S1D.Idx → EReal := fun i => a (ix1 (i 1))
theorem ofRow_toRow (a : SD.Idx → EReal) : ofRow (toRow a) = a := by
  funext j; exact congrArg a (eq_ix1 j).symm

def combRow (s : SD.Idx → EReal) (x aggr : SND.Idx → EReal) : SND.Idx → EReal := fun i => s (ix1 (i 1)) * x i + aggr i

def zeroW : EReal := Ideal.ofBits .f32 0x00000000#32
def oneW : EReal := Ideal.ofBits .f32 0x3F800000#32
def nW : EReal := Ideal.ofBits .f32 0x47435000#32
def epsW : EReal := Ideal.ofBits .f32 0x3727C5AC#32

def lin (a : Arr SND) (W : Arr SDD) (b : Arr SD) : Arr SND :=
  fun i => (∑ k : Fin 256, a (ix2 (i 0) k) * W (ix2 k (i 1))) + b (ix1 (i 1))

def comb (e : EReal) (x aggr : Arr SND) : Arr SND := fun i => (oneW + e) * x i + aggr i

theorem combRow_const (e : EReal) (x aggr : Arr SND) : combRow (fun _ => oneW + e) x aggr = comb e x aggr := rfl

def colsum (h : Arr SND) : Arr SD := fun j => ∑ r : Fin 50000, h (ix2 r (j 0))

def mean (h : Arr SND) : Arr SD := fun j => Ideal.div (colsum h j) nW

def varK (h : Arr SND) : Arr SD :=
  fun j => max (Ideal.div (colsum (fun i => h i * h i) j) nW - mean h j * mean h j) zeroW

def varR (h : Arr SND) : Arr SD :=
  fun j => Ideal.div (∑ r : Fin 50000, (h (ix2 r (j 0)) - mean h j) * (h (ix2 r (j 0)) - mean h j)) nW

def bnRelu (h : Arr SND) (mu v g bt : Arr SD) : Arr SND :=
  fun i => max (g (ix1 (i 1)) * (h i - mu (ix1 (i 1))) * Ideal.rsqrt (v (ix1 (i 1)) + epsW) + bt (ix1 (i 1))) zeroW

def layer (var : Arr SND → Arr SD) (x aggr : Arr SND) (e : EReal) (W1 : Arr SDD) (b1 g1 bt1 : Arr SD) (W2 : Arr SDD) (b2 : Arr SD) :
    Arr SND :=
  lin (bnRelu (lin (comb e x aggr) W1 b1) (mean (lin (comb e x aggr) W1 b1)) (var (lin (comb e x aggr) W1 b1)) g1 bt1) W2 b2

def resid (x hd hu : Arr SND) (a1 a2 : EReal) : Arr SND := fun i => x i + a1 * hd i + a2 * hu i

def out (var : Arr SND → Arr SD) (x aggrD aggrU : Arr SND)
    (eD : EReal) (W1d : Arr SDD) (b1d g1d bt1d : Arr SD) (W2d : Arr SDD) (b2d : Arr SD)
    (eU : EReal) (W1u : Arr SDD) (b1u g1u bt1u : Arr SD) (W2u : Arr SDD) (b2u : Arr SD)
    (bng bnb : Arr SD) (a1 a2 : EReal) : Arr SND :=
  bnRelu (resid x (layer var x aggrD eD W1d b1d g1d bt1d W2d b2d) (layer var x aggrU eU W1u b1u g1u bt1u W2u b2u) a1 a2)
    (mean (resid x (layer var x aggrD eD W1d b1d g1d bt1d W2d b2d) (layer var x aggrU eU W1u b1u g1u bt1u W2u b2u) a1 a2))
    (var (resid x (layer var x aggrD eD W1d b1d g1d bt1d W2d b2d) (layer var x aggrU eU W1u b1u g1u bt1u W2u b2u) a1 a2))
    bng bnb

end Cert.Spec

end
-- ==== Proof.RI.Res.lean ====
import proofs.«422945_j10866267259114_2_alg».proof.ReferenceIdeal
import proofs.«422945_j10866267259114_2_alg».proof.Proof.Spec
import Idealize.ShloMosaic.PureOps.Ideal.Laws
import Idealize.ShloMosaic.Lib.ValueIdx
import Idealize.ShloMosaic.Lib.Pipeline.Value
import Idealize.ShloMosaic.Lib.StackMember

noncomputable section

namespace Cert.ReferenceIdeal.Hand

open Cert.ReferenceIdeal
open Idealize.ShloMosaic Idealize.ShloMosaic.ValueIdx
open scoped BigOperators

section Terms

variable {F : FTy → Type} [FloatOps F] [Facts₀]
open Facts₀

def devR (h : FVec F S50000x256 .f32) : FVec F S50000x256 .f32 :=
  let cst : FVec F S_ .f32 := constant S_ .f32 0x00000000#32
  let v0 : FVec F S256 .f32 := Host.reduceAdd h cst reducesTo_S50000x256_S256_d0 h_S_
  let v1 : FVec F S1x256 .f32 := broadcastInDim S1x256 ![1] bcast_S256_S1x256_1 v0
  let cst_0 : FVec F S_ .f32 := constant S_ .f32 0x47435000#32
  let v2 : FVec F S1x256 .f32 := broadcastInDim S1x256 ![] bcast_S_S1x256 cst_0
  let v3 : FVec F S1x256 .f32 := Host.divf v1 v2
  let v4 : FVec F S50000x256 .f32 := broadcastInDim S50000x256 ![0, 1] bcast_S1x256_S50000x256_0_1 v3
  subf h v4

def varFn (h : FVec F S50000x256 .f32) (c : IVec S_ 32) : FVec F S256 .f32 :=
  let v5 : FVec F S50000x256 .f32 := devR h
  let v6 : FVec F S50000x256 .f32 := mulf v5 v5
  let v7 : FVec F S_ .f32 := sitofp .f32 c
  let cst_1 : FVec F S_ .f32 := constant S_ .f32 0x47435000#32
  let v8 : FVec F S_ .f32 := subf cst_1 v7
  let cst_2 : FVec F S_ .f32 := constant S_ .f32 0x00000000#32
  let v9 : FVec F S256 .f32 := Host.reduceAdd v6 cst_2 reducesTo_S50000x256_S256_d0 h_S_
  let v10 : FVec F S256 .f32 := broadcastInDim S256 ![] bcast_S_S256 v8
  let v11 : FVec F S256 .f32 := Host.divf v9 v10
  let cst_3 : FVec F S_ .f32 := constant S_ .f32 0x00000000#32
  let v12 : IVec S_ 1 := cmpf .ogt v8 cst_3
  let cst_4 : FVec F S_ .f32 := constant S_ .f32 0x7FC00000#32
  let w0 : FVec F S_ .f32 := id cst_4
  let w1 : FVec F S256 .f32 := broadcastInDim S256 ![] bcast_S_S256 w0
  select (broadcastInDim S256 ![] bcast_S_S256 v12) v11 w1

def bnReluR (h : FVec F S50000x256 .f32) (mu v g bt : FVec F S256 .f32) : FVec F S50000x256 .f32 :=
  let v28 : FVec F S1x256 .f32 := broadcastInDim S1x256 ![1] bcast_S256_S1x256_1 mu
  let v29 : FVec F S50000x256 .f32 := broadcastInDim S50000x256 ![0, 1] bcast_S1x256_S50000x256_0_1 v28
  let v30 : FVec F S50000x256 .f32 := subf h v29
  let v31 : FVec F S1x256 .f32 := broadcastInDim S1x256 ![1] bcast_S256_S1x256_1 g
  let v32 : FVec F S50000x256 .f32 := broadcastInDim S50000x256 ![0, 1] bcast_S1x256_S50000x256_0_1 v31
  let v33 : FVec F S50000x256 .f32 := mulf v32 v30
  let cst_5 : FVec F S_ .f32 := constant S_ .f32 0x3727C5AC#32
  let v34 : FVec F S256 .f32 := broadcastInDim S256 ![] bcast_S_S256 cst_5
  let v35 : FVec F S256 .f32 := addf v v34
  let v36 : FVec F S256 .f32 := Host.rsqrt v35
  let v37 : FVec F S1x256 .f32 := broadcastInDim S1x256 ![1] bcast_S256_S1x256_1 v36
  let v38 : FVec F S50000x256 .f32 := broadcastInDim S50000x256 ![0, 1] bcast_S1x256_S50000x256_0_1 v37
  let v39 : FVec F S50000x256 .f32 := mulf v33 v38
  let v40 : FVec F S1x256 .f32 := broadcastInDim S1x256 ![1] bcast_S256_S1x256_1 bt
  let v41 : FVec F S50000x256 .f32 := broadcastInDim S50000x256 ![0, 1] bcast_S1x256_S50000x256_0_1 v40
  let v42 : FVec F S50000x256 .f32 := addf v39 v41
  let rc : FVec F S_ .f32 := constant S_ .f32 0x00000000#32
  let r0 : FVec F S50000x256 .f32 := broadcastInDim S50000x256 ![] bcast_S_S50000x256 rc
  maximumf v42 r0

def meanR (h : FVec F S50000x256 .f32) : FVec F S256 .f32 :=
  let cst_2 : FVec F S_ .f32 := constant S_ .f32 0x00000000#32
  let v24 : FVec F S256 .f32 := Host.reduceAdd h cst_2 reducesTo_S50000x256_S256_d0 h_S_
  let cst_3 : FVec F S_ .f32 := constant S_ .f32 0x47435000#32
  let v25 : FVec F S256 .f32 := broadcastInDim S256 ![] bcast_S_S256 cst_3
  Host.divf v24 v25

def linR (a : FVec F S50000x256 .f32) (W : FVec F S256x256 .f32) (b : FVec F S256 .f32) : FVec F S50000x256 .f32 :=
  let v20 : FVec F S50000x256 .f32 := Host.dotGeneral dot_S50000x256_S256x256_S50000x256_1_0_0_1_n_n none a W
  let v21 : FVec F S1x256 .f32 := broadcastInDim S1x256 ![1] bcast_S256_S1x256_1 b
  let v22 : FVec F S50000x256 .f32 := broadcastInDim S50000x256 ![0, 1] bcast_S1x256_S50000x256_0_1 v21
  addf v20 v22

def layerR (x aggr : FVec F S50000x256 .f32) (e : FVec F S_ .f32) (W1 : FVec F S256x256 .f32) (b1 g1 bt1 : FVec F S256 .f32)
    (W2 : FVec F S256x256 .f32) (b2 : FVec F S256 .f32) : FVec F S50000x256 .f32 :=
  let cst_1 : FVec F S_ .f32 := constant S_ .f32 0x3F800000#32
  let v16 : FVec F S_ .f32 := addf cst_1 e
  let v17 : FVec F S50000x256 .f32 := broadcastInDim S50000x256 ![] bcast_S_S50000x256 v16
  let v18 : FVec F S50000x256 .f32 := mulf v17 x
  let v19 : FVec F S50000x256 .f32 := addf v18 aggr
  let v23 : FVec F S50000x256 .f32 := linR v19 W1 b1
  let v26 : FVec F S256 .f32 := meanR v23
  let c_4 : IVec S_ 32 := constantI S_ 32 0#32
  let v27 : FVec F S256 .f32 := varFn v23 c_4
  let v43 : FVec F S50000x256 .f32 := bnReluR v23 v26 v27 g1 bt1
  linR v43 W2 b2

def finalR (x hd hu : FVec F S50000x256 .f32) (a1 a2 : FVec F S_ .f32) (g b : FVec F S256 .f32) : FVec F S50000x256 .f32 :=
  let v96 : FVec F S50000x256 .f32 := broadcastInDim S50000x256 ![] bcast_S_S50000x256 a1
  let v97 : FVec F S50000x256 .f32 := mulf v96 hd
  let v98 : FVec F S50000x256 .f32 := addf x v97
  let v99 : FVec F S50000x256 .f32 := broadcastInDim S50000x256 ![] bcast_S_S50000x256 a2
  let v100 : FVec F S50000x256 .f32 := mulf v99 hu
  let v101 : FVec F S50000x256 .f32 := addf v98 v100
  let v104 : FVec F S256 .f32 := meanR v101
  let c_16 : IVec S_ 32 := constantI S_ 32 0#32
  let v105 : FVec F S256 .f32 := varFn v101 c_16
  bnReluR v101 v104 v105 g b

end Terms

section AtIdeal

variable [Facts₀]
open Facts₀ Cert.Spec

section Bcast
variable {α : Type}

theorem bc0_apply {t : Shape} (h : S_.BroadcastsInDim t (![] : Fin 0 → Fin t.rank)) (v : S_.Idx → α) (i : t.Idx) :
    broadcastInDim t ![] h v i = v ix0 :=
  broadcastInDim_apply _ h v i ix0 fun a => a.elim0

theorem bcRow_apply (b : S256.Idx → α) (i : S1x256.Idx) :
    broadcastInDim S1x256 ![1] bcast_S256_S1x256_1 b i = b (ix1 (i 1)) :=
  broadcastInDim_apply _ bcast_S256_S1x256_1 b i (ix1 (i 1)) fun a => by
    match a with
    | ⟨0, _⟩ => exact (if_neg (show ¬ ((256 : ℕ) = 1) by decide)).symm

theorem bcRows_apply (a : S1x256.Idx → α) (i : S50000x256.Idx) :
    broadcastInDim S50000x256 ![0, 1] bcast_S1x256_S50000x256_0_1 a i = a (ix2 0 (i 1)) :=
  broadcastInDim_apply _ bcast_S1x256_S50000x256_0_1 a i (ix2 0 (i 1)) fun ax => by
    match ax with
    | ⟨0, _⟩ => exact (if_pos rfl).symm
    | ⟨1, _⟩ => exact (if_neg (show ¬ ((256 : ℕ) = 1) by decide)).symm

theorem bcCol_apply (b : S256.Idx → α) (i : S50000x256.Idx) :
    broadcastInDim S50000x256 ![0, 1] bcast_S1x256_S50000x256_0_1 (broadcastInDim S1x256 ![1] bcast_S256_S1x256_1 b) i
      = b (ix1 (i 1)) := by
  rw [bcRows_apply, bcRow_apply]

end Bcast

theorem dot_eq_plain : dot_S50000x256_S256x256_S50000x256_1_0_0_1_n_n = DotDims.plain 50000 256 256 := rfl

theorem nW_val : Cert.Spec.nW = ((50000 : ℝ) : EReal) := by
  unfold Cert.Spec.nW
  simp [Ideal.ofBits, Ideal.ieee, -EReal.coe_mul]; norm_num

theorem nW_pos : (0 : EReal) < Cert.Spec.nW := by
  rw [nW_val]; exact_mod_cast (by norm_num : (0 : ℝ) < 50000)

theorem sitofp_zero : FloatOps.sitofp (F := Ideal) .f32 (0#32 : BitVec 32) = (0 : EReal) := by
  show (((0#32 : BitVec 32).toInt : ℝ) : EReal) = 0
  simp

theorem hostDivf_apply {s : Shape} {φ : FTy} (a b : FVec Ideal s φ) (i : s.Idx) : Host.divf a b i = Ideal.div (a i) (b i) := rfl

theorem colsumR_apply (h : FVec Ideal S50000x256 .f32) (j : S256.Idx) :
    Host.reduceAdd (F := Ideal) h (constant S_ .f32 0x00000000#32) reducesTo_S50000x256_S256_d0 h_S_ j
      = ∑ r : Fin 50000, h (ix2 r (j 0)) := by
  show Ideal.hostReduceAdd reducesTo_S50000x256_S256_d0 h (Ideal.ofBits .f32 0x00000000#32) j = _
  rw [Ideal.hostReduceAdd_single reducesTo_S50000x256_S256_d0 (by decide : S50000x256.Reduces [0] S256),
    Ideal.ofBits_zero_f32, zero_add]
  refine Finset.sum_congr rfl fun r _ => congrArg h ?_
  funext ax
  match ax with
  | ⟨0, _⟩ => rfl
  | ⟨1, _⟩ => rfl

theorem linR_eq (a : FVec Ideal S50000x256 .f32) (W : FVec Ideal S256x256 .f32) (b : FVec Ideal S256 .f32) :
    linR (F := Ideal) a W b = Cert.Spec.lin a W b := by
  funext i
  obtain ⟨r, j, rfl⟩ : ∃ r j, i = ix2 r j := ⟨i 0, i 1, eq_ix2 i⟩
  show Host.dotGeneral dot_S50000x256_S256x256_S50000x256_1_0_0_1_n_n none a W (ix2 r j)
      + broadcastInDim S50000x256 ![0, 1] bcast_S1x256_S50000x256_0_1 (broadcastInDim S1x256 ![1] bcast_S256_S1x256_1 b) (ix2 r j) = _
  rw [bcCol_apply, dot_eq_plain, StackMember.dotGeneral_plain_apply]
  rfl

theorem meanR_eq (h : FVec Ideal S50000x256 .f32) : meanR (F := Ideal) h = Cert.Spec.mean h := by
  funext j
  dsimp only [meanR]
  rw [hostDivf_apply, colsumR_apply]
  rfl

theorem devR_apply (h : FVec Ideal S50000x256 .f32) (i : S50000x256.Idx) :
    devR (F := Ideal) h i = h i - Cert.Spec.mean h (ix1 (i 1)) := by
  dsimp only [devR]
  rw [subf_apply, bcRows_apply, hostDivf_apply, bcRow_apply, colsumR_apply]
  rfl

theorem varFn_eq (h : FVec Ideal S50000x256 .f32) : varFn (F := Ideal) h (constantI S_ 32 0#32) = Cert.Spec.varR h := by
  funext j
  obtain ⟨c, rfl⟩ : ∃ c, j = ix1 c := ⟨j 0, eq_ix1 j⟩
  dsimp only [varFn]
  rw [select_apply]
  have hc : (broadcastInDim S256 ![] bcast_S_S256
      (cmpf .ogt (subf (constant (F := Ideal) S_ .f32 0x47435000#32) (sitofp .f32 (constantI S_ 32 0#32)))
        (constant (F := Ideal) S_ .f32 0x00000000#32))) (ix1 c) = 1#1 := by
    show Ideal.cmp .ogt (Cert.Spec.nW - FloatOps.sitofp (F := Ideal) .f32 (0#32 : BitVec 32)) (Ideal.ofBits .f32 0x00000000#32) = 1#1
    rw [sitofp_zero, sub_zero, Ideal.ofBits_zero_f32]
    simp [Ideal.cmp, nW_pos]
  rw [hc, select_one, hostDivf_apply, colsumR_apply]
  show Ideal.div (∑ r : Fin 50000, devR (F := Ideal) h (ix2 r c) * devR (F := Ideal) h (ix2 r c))
      (Cert.Spec.nW - FloatOps.sitofp (F := Ideal) .f32 (0#32 : BitVec 32)) = _
  rw [sitofp_zero, sub_zero]
  simp only [devR_apply]
  rfl

theorem bnReluR_eq (h : FVec Ideal S50000x256 .f32) (mu v g bt : FVec Ideal S256 .f32) :
    bnReluR (F := Ideal) h mu v g bt = Cert.Spec.bnRelu h mu v g bt := by
  funext i
  dsimp only [bnReluR]
  simp only [maximumf_apply, addf_apply, mulf_apply, subf_apply]
  rw [bcCol_apply, bcCol_apply, bcCol_apply, bcCol_apply]
  rfl

theorem combR_eq (x aggr : FVec Ideal S50000x256 .f32) (e : FVec Ideal S_ .f32) :
    addf (mulf (broadcastInDim S50000x256 ![] bcast_S_S50000x256 (addf (constant S_ .f32 0x3F800000#32) e)) x) aggr
      = Cert.Spec.comb (e ix0) x aggr := by
  funext i
  simp only [addf_apply, mulf_apply]
  rw [bc0_apply]
  rfl

theorem residR_eq (x hd hu : FVec Ideal S50000x256 .f32) (a1 a2 : FVec Ideal S_ .f32) :
    addf (addf x (mulf (broadcastInDim S50000x256 ![] bcast_S_S50000x256 a1) hd))
        (mulf (broadcastInDim S50000x256 ![] bcast_S_S50000x256 a2) hu)
      = Cert.Spec.resid x hd hu (a1 ix0) (a2 ix0) := by
  funext i
  simp only [addf_apply, mulf_apply]
  rw [bc0_apply, bc0_apply]
  rfl

theorem layerR_eq (x aggr : FVec Ideal S50000x256 .f32) (e : FVec Ideal S_ .f32) (W1 : FVec Ideal S256x256 .f32)
    (b1 g1 bt1 : FVec Ideal S256 .f32) (W2 : FVec Ideal S256x256 .f32) (b2 : FVec Ideal S256 .f32) :
    layerR (F := Ideal) x aggr e W1 b1 g1 bt1 W2 b2 = Cert.Spec.layer Cert.Spec.varR x aggr (e ix0) W1 b1 g1 bt1 W2 b2 := by
  dsimp only [layerR, Cert.Spec.layer]
  rw [combR_eq, linR_eq, linR_eq, meanR_eq, varFn_eq, bnReluR_eq]

theorem finalR_eq (x hd hu : FVec Ideal S50000x256 .f32) (a1 a2 : FVec Ideal S_ .f32) (g b : FVec Ideal S256 .f32) :
    finalR (F := Ideal) x hd hu a1 a2 g b
      = Cert.Spec.bnRelu (Cert.Spec.resid x hd hu (a1 ix0) (a2 ix0)) (Cert.Spec.mean (Cert.Spec.resid x hd hu (a1 ix0) (a2 ix0)))
          (Cert.Spec.varR (Cert.Spec.resid x hd hu (a1 ix0) (a2 ix0))) g b := by
  dsimp only [finalR]
  rw [residR_eq, meanR_eq, varFn_eq, bnReluR_eq]

end AtIdeal

end Cert.ReferenceIdeal.Hand

end
-- ==== Proof.RI.Read.lean ====
import proofs.«422945_j10866267259114_2_alg».proof.Proof.RI.Run
import proofs.«422945_j10866267259114_2_alg».proof.Proof.RI.AggrR
import proofs.«422945_j10866267259114_2_alg».proof.Proof.RI.Res
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo
open Facts₀ Facts

variable {F : FTy → Type} [FloatOps F] [Facts]

set_option maxHeartbeats 4000000 in

theorem readA (W : Valuation τ sig (Elt F)) :
    (after opsA W (Proc.devRef .tc main_v15) : FVec F S50000x256 .f32)
      = aggrR300 (W main_arg0) (W main_arg1) (W main_arg2) := by
  after_results_simp
  rfl

set_option maxHeartbeats 4000000 in

theorem readB (W : Valuation τ sig (Elt F)) :
    (after opsB W (Proc.devRef .tc main_v47) : FVec F S50000x256 .f32)
      = layerR (W main_arg0) (W main_v15) (W main_arg5) (W main_arg6) (W main_arg7) (W main_arg8) (W main_arg9) (W main_arg10)
          (W main_arg11) := by
  after_results_simp
  rfl

set_option maxHeartbeats 4000000 in

theorem readC (W : Valuation τ sig (Elt F)) :
    (after opsC W (Proc.devRef .tc main_v63) : FVec F S50000x256 .f32)
      = aggrR100 (W main_arg0) (W main_arg3) (W main_arg4) := by
  after_results_simp
  rfl

set_option maxHeartbeats 4000000 in

theorem readD (W : Valuation τ sig (Elt F)) :
    (after opsD W (Proc.devRef .tc main_v95) : FVec F S50000x256 .f32)
      = layerR (W main_arg0) (W main_v63) (W main_arg12) (W main_arg13) (W main_arg14) (W main_arg15) (W main_arg16) (W main_arg17)
          (W main_arg18) := by
  after_results_simp
  rfl

set_option maxHeartbeats 4000000 in

theorem readE (W : Valuation τ sig (Elt F)) :
    (after opsE W (Proc.devRef .tc main_v121) : FVec F S50000x256 .f32)
      = finalR (W main_arg0) (W main_v47) (W main_v95) (W main_arg21) (W main_arg22) (W main_arg19) (W main_arg20) := by
  after_results_simp
  rfl

theorem keep1 (m0 : Valuation τ sig (Elt F)) (r : Ref sig .tc) (hA : r ∉ opsA_W) :
    after opsA m0 (Proc.devRef .tc r) = m0 (Proc.devRef .tc r) :=
  after_of_writes_sub opsA _ opsA_writes hA

theorem keep2 (m0 : Valuation τ sig (Elt F)) (r : Ref sig .tc) (hA : r ∉ opsA_W) (hB : r ∉ opsB_W) :
    after opsB (after opsA m0) (Proc.devRef .tc r) = m0 (Proc.devRef .tc r) :=
  (after_of_writes_sub opsB _ opsB_writes hB).trans (keep1 m0 r hA)

theorem keep3 (m0 : Valuation τ sig (Elt F)) (r : Ref sig .tc) (hA : r ∉ opsA_W) (hB : r ∉ opsB_W) (hC : r ∉ opsC_W) :
    after opsC (after opsB (after opsA m0)) (Proc.devRef .tc r) = m0 (Proc.devRef .tc r) :=
  (after_of_writes_sub opsC _ opsC_writes hC).trans (keep2 m0 r hA hB)

theorem keep4 (m0 : Valuation τ sig (Elt F)) (r : Ref sig .tc) (hA : r ∉ opsA_W) (hB : r ∉ opsB_W) (hC : r ∉ opsC_W)
    (hD : r ∉ opsD_W) :
    after opsD (after opsC (after opsB (after opsA m0))) (Proc.devRef .tc r) = m0 (Proc.devRef .tc r) :=
  (after_of_writes_sub opsD _ opsD_writes hD).trans (keep3 m0 r hA hB hC)

theorem keep_v47 (W : Valuation τ sig (Elt F)) :
    after opsD (after opsC W) (Proc.devRef .tc main_v47) = W (Proc.devRef .tc main_v47) :=
  (after_of_writes_sub opsD _ opsD_writes (by decide)).trans (after_of_writes_sub opsC _ opsC_writes (by decide))

theorem result_eq (m0 : Valuation τ sig (Elt F)) :
    (after opsE (after opsD (after opsC (after opsB (after opsA m0)))) (Proc.devRef .tc main_v121) : FVec F S50000x256 .f32)
      = finalR (m0 main_arg0)
          (layerR (m0 main_arg0) (aggrR300 (m0 main_arg0) (m0 main_arg1) (m0 main_arg2)) (m0 main_arg5) (m0 main_arg6)
            (m0 main_arg7) (m0 main_arg8) (m0 main_arg9) (m0 main_arg10) (m0 main_arg11))
          (layerR (m0 main_arg0) (aggrR100 (m0 main_arg0) (m0 main_arg3) (m0 main_arg4)) (m0 main_arg12) (m0 main_arg13)
            (m0 main_arg14) (m0 main_arg15) (m0 main_arg16) (m0 main_arg17) (m0 main_arg18))
          (m0 main_arg21) (m0 main_arg22) (m0 main_arg19) (m0 main_arg20) := by
  rw [readE, readD, readC, keep_v47, readB, readA]
  rw [keep4 m0 main_arg0 (by decide) (by decide) (by decide) (by decide),
    keep4 m0 main_arg19 (by decide) (by decide) (by decide) (by decide),
    keep4 m0 main_arg20 (by decide) (by decide) (by decide) (by decide),
    keep4 m0 main_arg21 (by decide) (by decide) (by decide) (by decide),
    keep4 m0 main_arg22 (by decide) (by decide) (by decide) (by decide),
    keep3 m0 main_arg0 (by decide) (by decide) (by decide),
    keep3 m0 main_arg12 (by decide) (by decide) (by decide),
    keep3 m0 main_arg13 (by decide) (by decide) (by decide),
    keep3 m0 main_arg14 (by decide) (by decide) (by decide),
    keep3 m0 main_arg15 (by decide) (by decide) (by decide),
    keep3 m0 main_arg16 (by decide) (by decide) (by decide),
    keep3 m0 main_arg17 (by decide) (by decide) (by decide),
    keep3 m0 main_arg18 (by decide) (by decide) (by decide),
    keep2 m0 main_arg0 (by decide) (by decide),
    keep2 m0 main_arg3 (by decide) (by decide),
    keep2 m0 main_arg4 (by decide) (by decide),
    keep1 m0 main_arg0 (by decide),
    keep1 m0 main_arg5 (by decide),
    keep1 m0 main_arg6 (by decide),
    keep1 m0 main_arg7 (by decide),
    keep1 m0 main_arg8 (by decide),
    keep1 m0 main_arg9 (by decide),
    keep1 m0 main_arg10 (by decide),
    keep1 m0 main_arg11 (by decide)]

end Cert.ReferenceIdeal.Hand

end
-- ==== Proof.Alg.Var.lean ====
import proofs.«422945_j10866267259114_2_alg».proof.Proof.Spec
import Idealize.ShloMosaic.PureOps.Ideal
import Idealize.ShloMosaic.PureOps.Ideal.Laws
import Mathlib.Data.EReal.Basic
import Mathlib.Data.EReal.Operations
import Mathlib.Algebra.BigOperators.Group.Finset.Basic
import Mathlib.Algebra.BigOperators.Ring.Finset
import Mathlib.Algebra.Order.BigOperators.Group.Finset

noncomputable section

namespace Cert.Alg

open Idealize.ShloMosaic Idealize.ShloMosaic.ValueIdx
open scoped BigOperators

theorem zeroW_eq : Spec.zeroW = 0 := Ideal.ofBits_zero_f32

theorem oneW_eq : Spec.oneW = 1 := by
  unfold Spec.oneW
  simp [Ideal.ofBits, Ideal.ieee, -EReal.coe_mul]; norm_num

theorem nW_eq : Spec.nW = ((50000 : ℝ) : EReal) := by
  unfold Spec.nW
  simp [Ideal.ofBits, Ideal.ieee, -EReal.coe_mul]; norm_num

def epsR : ℝ := 10995116 / 1099511627776

theorem epsR_pos : 0 < epsR := by unfold epsR; norm_num

theorem epsW_eq : Spec.epsW = ((epsR : ℝ) : EReal) := by
  unfold Spec.epsW epsR
  simp [Ideal.ofBits, Ideal.ieee, -EReal.coe_mul]; norm_num

abbrev IsReal (x : EReal) : Prop := ∃ r : ℝ, x = (r : EReal)

theorem isReal_add {x y : EReal} (hx : IsReal x) (hy : IsReal y) : IsReal (x + y) := by
  obtain ⟨a, rfl⟩ := hx; obtain ⟨b, rfl⟩ := hy; exact ⟨a + b, (EReal.coe_add a b).symm⟩

theorem isReal_mul {x y : EReal} (hx : IsReal x) (hy : IsReal y) : IsReal (x * y) := by
  obtain ⟨a, rfl⟩ := hx; obtain ⟨b, rfl⟩ := hy; exact ⟨a * b, (EReal.coe_mul a b).symm⟩

theorem isReal_sub {x y : EReal} (hx : IsReal x) (hy : IsReal y) : IsReal (x - y) := by
  obtain ⟨a, rfl⟩ := hx; obtain ⟨b, rfl⟩ := hy; exact ⟨a - b, (EReal.coe_sub a b).symm⟩

theorem isReal_max {x y : EReal} (hx : IsReal x) (hy : IsReal y) : IsReal (max x y) := by
  rcases max_choice x y with h | h <;> rw [h] <;> assumption

theorem isReal_sum {ι : Type} (s : Finset ι) (g : ι → EReal) (h : ∀ i ∈ s, IsReal (g i)) : IsReal (∑ i ∈ s, g i) := by
  classical
  induction s using Finset.induction_on with
  | empty => exact ⟨0, by simp⟩
  | insert a s ha ih =>
    rw [Finset.sum_insert ha]
    exact isReal_add (h a (Finset.mem_insert_self a s)) (ih fun i hi => h i (Finset.mem_insert_of_mem hi))

theorem isReal_zeroW : IsReal Spec.zeroW := ⟨0, zeroW_eq⟩
theorem isReal_oneW : IsReal Spec.oneW := ⟨1, oneW_eq⟩
theorem isReal_divN {x : EReal} (hx : IsReal x) : IsReal (Ideal.div x Spec.nW) := by
  obtain ⟨a, rfl⟩ := hx
  rw [nW_eq, Ideal.div_coe (by norm_num : (50000 : ℝ) ≠ 0)]
  exact ⟨a * (1 / 50000), (EReal.coe_mul _ _).symm⟩

theorem isReal_rsqrt {r : ℝ} (h : 0 < r) : IsReal (Ideal.rsqrt (r : EReal)) := by
  rw [Ideal.rsqrt_coe, if_neg (not_lt.mpr h.le), if_neg h.ne']
  exact ⟨_, rfl⟩

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sum_sq_dev (g : Fin 50000 → ℝ) (m : ℝ) :
    ∑ r, (g r - m) * (g r - m) = (∑ r, g r * g r) - 2 * m * (∑ r, g r) + 50000 * (m * m) := by
  have e : ∀ r, (g r - m) * (g r - m) = g r * g r - 2 * m * g r + m * m := fun r => by ring
  simp only [e, Finset.sum_add_distrib, Finset.sum_sub_distrib, ← Finset.mul_sum, Finset.sum_const, Finset.card_univ,
    Fintype.card_fin, nsmul_eq_mul]
  ring

theorem real_var (g : Fin 50000 → ℝ) :
    (∑ r, g r * g r) * (1 / 50000) - ((∑ r, g r) * (1 / 50000)) * ((∑ r, g r) * (1 / 50000)) =
      (∑ r, (g r - (∑ r, g r) * (1 / 50000)) * (g r - (∑ r, g r) * (1 / 50000))) * (1 / 50000) := by
  rw [sum_sq_dev]; ring

theorem real_var_nonneg (g : Fin 50000 → ℝ) (m : ℝ) : 0 ≤ (∑ r, (g r - m) * (g r - m)) * (1 / 50000) :=
  mul_nonneg (Finset.sum_nonneg fun r _ => mul_self_nonneg _) (by norm_num)

def Fin_ {S : Shape} (a : Spec.Arr S) : Prop := ∀ i, ∃ r : ℝ, a i = (r : EReal)

theorem Fin_.lift {S : Shape} {a : Spec.Arr S} (h : Fin_ a) : ∃ f : S.Idx → ℝ, a = fun i => (f i : EReal) := by
  choose f hf using h
  exact ⟨f, funext hf⟩

section Cols
variable (f : Spec.SND.Idx → ℝ) (j : Spec.SD.Idx)

theorem colsum_coe : Spec.colsum (fun i => (f i : EReal)) j = ((∑ r : Fin 50000, f (ix2 r (j 0)) : ℝ) : EReal) := by
  unfold Spec.colsum; rw [coe_sum]

theorem mean_coe :
    Spec.mean (fun i => (f i : EReal)) j = (((∑ r : Fin 50000, f (ix2 r (j 0))) * (1 / 50000) : ℝ) : EReal) := by
  unfold Spec.mean
  rw [colsum_coe, nW_eq, Ideal.div_coe (by norm_num : (50000 : ℝ) ≠ 0), ← EReal.coe_mul]

theorem varR_coe :
    Spec.varR (fun i => (f i : EReal)) j =
      (((∑ r : Fin 50000, (f (ix2 r (j 0)) - (∑ r : Fin 50000, f (ix2 r (j 0))) * (1 / 50000)) *
          (f (ix2 r (j 0)) - (∑ r : Fin 50000, f (ix2 r (j 0))) * (1 / 50000))) * (1 / 50000) : ℝ) : EReal) := by
  unfold Spec.varR
  rw [mean_coe]
  simp only [← EReal.coe_sub, ← EReal.coe_mul, ← coe_sum]
  rw [nW_eq, Ideal.div_coe (by norm_num : (50000 : ℝ) ≠ 0), ← EReal.coe_mul]

theorem varK_coe :
    Spec.varK (fun i => (f i : EReal)) j =
      max (((∑ r : Fin 50000, f (ix2 r (j 0)) * f (ix2 r (j 0))) * (1 / 50000) -
          ((∑ r : Fin 50000, f (ix2 r (j 0))) * (1 / 50000)) * ((∑ r : Fin 50000, f (ix2 r (j 0))) * (1 / 50000)) : ℝ) : EReal) 0 := by
  unfold Spec.varK
  rw [mean_coe, zeroW_eq]
  simp only [← EReal.coe_mul]
  rw [colsum_coe (fun i => f i * f i), nW_eq, Ideal.div_coe (by norm_num : (50000 : ℝ) ≠ 0), ← EReal.coe_mul, ← EReal.coe_sub]

end Cols

theorem varK_eq_varR {h : Spec.Arr Spec.SND} (hh : Fin_ h) : Spec.varK h = Spec.varR h := by
  obtain ⟨f, rfl⟩ := hh.lift
  funext j
  rw [varK_coe, varR_coe, real_var]
  exact max_eq_left (EReal.coe_nonneg.mpr (real_var_nonneg _ _))

theorem varR_nonneg {h : Spec.Arr Spec.SND} (hh : Fin_ h) (j : Spec.SD.Idx) : 0 ≤ Spec.varR h j := by
  obtain ⟨f, rfl⟩ := hh.lift
  rw [varR_coe]
  exact EReal.coe_nonneg.mpr (real_var_nonneg _ _)

theorem fin_lin {a : Spec.Arr Spec.SND} {W : Spec.Arr Spec.SDD} {b : Spec.Arr Spec.SD} (ha : Fin_ a) (hW : Fin_ W) (hb : Fin_ b) :
    Fin_ (Spec.lin a W b) := fun i =>
  isReal_add (isReal_sum _ _ fun k _ => isReal_mul (ha _) (hW _)) (hb _)

theorem fin_comb {e : EReal} {x aggr : Spec.Arr Spec.SND} (he : IsReal e) (hx : Fin_ x) (ha : Fin_ aggr) :
    Fin_ (Spec.comb e x aggr) := fun i =>
  isReal_add (isReal_mul (isReal_add isReal_oneW he) (hx i)) (ha i)

theorem fin_colsum {h : Spec.Arr Spec.SND} (hh : Fin_ h) : Fin_ (Spec.colsum h) := fun _ =>
  isReal_sum _ _ fun _ _ => hh _

theorem fin_mean {h : Spec.Arr Spec.SND} (hh : Fin_ h) : Fin_ (Spec.mean h) := fun j =>
  isReal_divN (fin_colsum hh j)

theorem fin_varR {h : Spec.Arr Spec.SND} (hh : Fin_ h) : Fin_ (Spec.varR h) := fun j =>
  isReal_divN (isReal_sum _ _ fun _ _ => isReal_mul (isReal_sub (hh _) (fin_mean hh j)) (isReal_sub (hh _) (fin_mean hh j)))

theorem fin_bnRelu {h : Spec.Arr Spec.SND} {mu v g bt : Spec.Arr Spec.SD} (hh : Fin_ h) (hmu : Fin_ mu) (hv : Fin_ v)
    (hv0 : ∀ j, 0 ≤ v j) (hg : Fin_ g) (hbt : Fin_ bt) : Fin_ (Spec.bnRelu h mu v g bt) := fun i => by
  have hrs : IsReal (Ideal.rsqrt (v (ix1 (i 1)) + Spec.epsW)) := by
    obtain ⟨r, hr⟩ := hv (ix1 (i 1))
    have hr0 : 0 ≤ r := EReal.coe_nonneg.mp (hr ▸ hv0 (ix1 (i 1)))
    rw [hr, epsW_eq, ← EReal.coe_add]
    exact isReal_rsqrt (add_pos_of_nonneg_of_pos hr0 epsR_pos)
  exact isReal_max (isReal_add (isReal_mul (isReal_mul (hg _) (isReal_sub (hh i) (hmu _))) hrs) (hbt _)) isReal_zeroW

theorem fin_resid {x hd hu : Spec.Arr Spec.SND} {a1 a2 : EReal} (hx : Fin_ x) (hd' : Fin_ hd) (hu' : Fin_ hu) (h1 : IsReal a1)
    (h2 : IsReal a2) : Fin_ (Spec.resid x hd hu a1 a2) := fun i =>
  isReal_add (isReal_add (hx i) (isReal_mul h1 (hd' i))) (isReal_mul h2 (hu' i))

theorem fin_layer {x aggr : Spec.Arr Spec.SND} {e : EReal} {W1 : Spec.Arr Spec.SDD} {b1 g1 bt1 : Spec.Arr Spec.SD}
    {W2 : Spec.Arr Spec.SDD} {b2 : Spec.Arr Spec.SD} (hx : Fin_ x) (ha : Fin_ aggr) (he : IsReal e) (hW1 : Fin_ W1) (hb1 : Fin_ b1)
    (hg1 : Fin_ g1) (hbt1 : Fin_ bt1) (hW2 : Fin_ W2) (hb2 : Fin_ b2) :
    Fin_ (Spec.layer Spec.varR x aggr e W1 b1 g1 bt1 W2 b2) := by
  have h1 : Fin_ (Spec.lin (Spec.comb e x aggr) W1 b1) := fin_lin (fin_comb he hx ha) hW1 hb1
  exact fin_lin (fin_bnRelu h1 (fin_mean h1) (fin_varR h1) (varR_nonneg h1) hg1 hbt1) hW2 hb2

theorem layer_varK_eq_varR {x aggr : Spec.Arr Spec.SND} {e : EReal} {W1 : Spec.Arr Spec.SDD} {b1 : Spec.Arr Spec.SD}
    (g1 bt1 : Spec.Arr Spec.SD) (W2 : Spec.Arr Spec.SDD) (b2 : Spec.Arr Spec.SD) (hx : Fin_ x) (ha : Fin_ aggr) (he : IsReal e)
    (hW1 : Fin_ W1) (hb1 : Fin_ b1) :
    Spec.layer Spec.varK x aggr e W1 b1 g1 bt1 W2 b2 = Spec.layer Spec.varR x aggr e W1 b1 g1 bt1 W2 b2 := by
  unfold Spec.layer
  rw [varK_eq_varR (fin_lin (fin_comb he hx ha) hW1 hb1)]

theorem out_varK_eq_varR' {x aggrD aggrU : Spec.Arr Spec.SND} {eD : EReal} {W1d : Spec.Arr Spec.SDD} {b1d g1d bt1d : Spec.Arr Spec.SD}
    {W2d : Spec.Arr Spec.SDD} {b2d : Spec.Arr Spec.SD} {eU : EReal} {W1u : Spec.Arr Spec.SDD} {b1u g1u bt1u : Spec.Arr Spec.SD}
    {W2u : Spec.Arr Spec.SDD} {b2u : Spec.Arr Spec.SD} (bng bnb : Spec.Arr Spec.SD) {a1 a2 : EReal}
    (hx : Fin_ x) (hD : Fin_ aggrD) (hU : Fin_ aggrU)
    (heD : ∃ r : ℝ, eD = (r : EReal)) (hW1d : Fin_ W1d) (hb1d : Fin_ b1d) (hg1d : Fin_ g1d) (hbt1d : Fin_ bt1d) (hW2d : Fin_ W2d)
    (hb2d : Fin_ b2d)
    (heU : ∃ r : ℝ, eU = (r : EReal)) (hW1u : Fin_ W1u) (hb1u : Fin_ b1u) (hg1u : Fin_ g1u) (hbt1u : Fin_ bt1u) (hW2u : Fin_ W2u)
    (hb2u : Fin_ b2u)
    (ha1 : ∃ r : ℝ, a1 = (r : EReal)) (ha2 : ∃ r : ℝ, a2 = (r : EReal)) :
    Spec.out Spec.varK x aggrD aggrU eD W1d b1d g1d bt1d W2d b2d eU W1u b1u g1u bt1u W2u b2u bng bnb a1 a2 =
      Spec.out Spec.varR x aggrD aggrU eD W1d b1d g1d bt1d W2d b2d eU W1u b1u g1u bt1u W2u b2u bng bnb a1 a2 := by
  unfold Spec.out
  rw [layer_varK_eq_varR g1d bt1d W2d b2d hx hD heD hW1d hb1d, layer_varK_eq_varR g1u bt1u W2u b2u hx hU heU hW1u hb1u]
  rw [varK_eq_varR (fin_resid hx (fin_layer hx hD heD hW1d hb1d hg1d hbt1d hW2d hb2d)
    (fin_layer hx hU heU hW1u hb1u hg1u hbt1u hW2u hb2u) ha1 ha2)]

end Cert.Alg

end
-- ==== Proof.Alg.PreDecode.lean ====
import proofs.«422945_j10866267259114_2_alg».proof.Pre_finite_inputs
import proofs.«422945_j10866267259114_2_alg».proof.Proof.Gen.Pre_finite_inputs
import proofs.«422945_j10866267259114_2_alg».proof.Proof.Alg.Var
import Idealize.ShloMosaic.Lib.StableHlo.Predicate
import Idealize.ShloMosaic.Lib.ReduceAll
import Idealize.ShloMosaic.Lib.Pipeline.Value

noncomputable section

namespace Cert.Alg

open Idealize.ShloMosaic Idealize.ShloMosaic.ValueIdx Cert.Pre_finite_inputs
open scoped BigOperators

instance subsingleton_S_ : Subsingleton S_.Idx := ⟨fun _ _ => funext fun d => d.elim0⟩

theorem infW_eq : Ideal.ofBits .f32 0x7F800000#32 = ⊤ := by
  simp [Ideal.ofBits, Ideal.ieee]

theorem cmp_olt_eq_one {x y : EReal} : Ideal.cmp .olt x y = 1#1 ↔ x < y := by
  simp only [Ideal.cmp, StableHlo.Predicate.ofBool_eq_one_iff, decide_eq_true_eq]

theorem isReal_of_abs_lt_top {x : EReal} (h : max x (-x) < ⊤) : IsReal x := by
  induction x using EReal.rec with
  | bot => simp at h
  | coe r => exact ⟨r, rfl⟩
  | top => simp at h

theorem isReal_of_test {x : EReal}
    (h : FloatOps.cmpf (F := Ideal) (φ := .f32) .olt (FloatOps.hostAbsf (F := Ideal) (φ := .f32) x)
      (FloatOps.ofBits (F := Ideal) .f32 0x7F800000#32) = 1#1) : IsReal x := by
  have h' : Ideal.cmp .olt (max x (-x)) (Ideal.ofBits .f32 0x7F800000#32) = 1#1 := h
  rw [infW_eq, cmp_olt_eq_one] at h'
  exact isReal_of_abs_lt_top h'

theorem sge_eq_one {a b : BitVec 32} : IntOp.cmpi .sge a b = 1#1 ↔ b.toInt ≤ a.toInt := by
  simp only [IntOp.cmpi, BitVec.sle, StableHlo.Predicate.ofBool_eq_one_iff, decide_eq_true_eq]

theorem slt_eq_one {a b : BitVec 32} : IntOp.cmpi .slt a b = 1#1 ↔ a.toInt < b.toInt := by
  simp only [IntOp.cmpi, BitVec.slt, StableHlo.Predicate.ofBool_eq_one_iff, decide_eq_true_eq]

theorem real_of_all {S : Shape} {axes : List (Fin S.rank)} (a : FVec Ideal S .f32)
    (hb : S_.BroadcastsInDim S (![] : Fin 0 → Fin S.rank)) (hr : S.ReducesTo axes S_) (hu : 0 < S_.numel) (init : IVec S_ 1)
    (j : S_.Idx)
    (e : Host.reduce IntOp.andi (cmpf .olt (Host.absf a) (broadcastInDim S ![] hb (constant S_ .f32 0x7F800000#32))) init hr hu j
      = 1#1) : ∀ i, IsReal (a i) := fun i =>
  isReal_of_test (Host.reduce_andi_all _ init hr hu j e i)

theorem real_of_all0 {axes : List (Fin S_.rank)} (a : FVec Ideal S_ .f32) (hr : S_.ReducesTo axes S_) (hu : 0 < S_.numel)
    (init : IVec S_ 1) (j : S_.Idx)
    (e : Host.reduce IntOp.andi (cmpf .olt (Host.absf a) (constant S_ .f32 0x7F800000#32)) init hr hu j = 1#1) :
    IsReal (a ix0) :=
  isReal_of_test (Host.reduce_andi_all _ init hr hu j e ix0)

theorem slicedRow0_apply {n : Nat} (a : IVec ⟨2, ![2, n]⟩ 32) (hs : (⟨2, ![2, n]⟩ : Shape).Slices ![0, 0] ⟨2, ![1, n]⟩)
    (hc : (⟨2, ![1, n]⟩ : Shape).ShapeCasts ⟨1, ![n]⟩) (k : Fin n) :
    shapeCast ⟨1, ![n]⟩ (extractStridedSlice ⟨2, ![1, n]⟩ ![0, 0] a hs) hc (ix1 k) = a (ix2 0 k) := by
  rw [shapeCast_apply _ hc (ix1 k) (ix2 0 k) (by rw [Shape.rowMajor_val_two, Shape.rowMajor_val_one]; show (0 : ℕ) * n + k.val = k.val; omega)]
  exact extractStridedSlice_apply _ a hs (ix2 0 k) (ix2 0 k) (fun b => by fin_cases b <;> simp)

theorem range_of_all {n : Nat} (a : IVec ⟨2, ![2, n]⟩ 32) (hs : (⟨2, ![2, n]⟩ : Shape).Slices ![0, 0] ⟨2, ![1, n]⟩)
    (hc : (⟨2, ![1, n]⟩ : Shape).ShapeCasts ⟨1, ![n]⟩) (hb : S_.BroadcastsInDim ⟨1, ![n]⟩ (![] : Fin 0 → Fin 1))
    (hr : (⟨1, ![n]⟩ : Shape).ReducesTo [0] S_) (hu : 0 < S_.numel) (init : IVec S_ 1) (j : S_.Idx)
    (e : Host.reduce IntOp.andi
      (andi
        (cmpi .sge (shapeCast ⟨1, ![n]⟩ (extractStridedSlice ⟨2, ![1, n]⟩ ![0, 0] a hs) hc)
          (broadcastInDim ⟨1, ![n]⟩ ![] hb (constantI S_ 32 4294917296#32)))
        (cmpi .slt (shapeCast ⟨1, ![n]⟩ (extractStridedSlice ⟨2, ![1, n]⟩ ![0, 0] a hs) hc)
          (broadcastInDim ⟨1, ![n]⟩ ![] hb (constantI S_ 32 50000#32))))
      init hr hu j = 1#1) :
    ∀ k : Fin n, -50000 ≤ (a (ix2 0 k)).toInt ∧ (a (ix2 0 k)).toInt < 50000 := fun k => by
  have h1 := Host.reduce_andi_all _ init hr hu j e (ix1 k)
  have h2 : IntOp.andi (IntOp.cmpi .sge (shapeCast ⟨1, ![n]⟩ (extractStridedSlice ⟨2, ![1, n]⟩ ![0, 0] a hs) hc (ix1 k)) 4294917296#32)
      (IntOp.cmpi .slt (shapeCast ⟨1, ![n]⟩ (extractStridedSlice ⟨2, ![1, n]⟩ ![0, 0] a hs) hc (ix1 k)) 50000#32) = 1#1 := h1
  rw [slicedRow0_apply, IntOp.andi_eq_one, sge_eq_one, slt_eq_one] at h2
  have c1 : (4294917296#32 : BitVec 32).toInt = -50000 := by decide
  have c2 : (50000#32 : BitVec 32).toInt = 50000 := by decide
  rw [c1, c2] at h2
  exact h2

structure PreFacts (a0 : FVec Ideal S50000x256 .f32) (a1 : IVec S2x300000 32) (a2 : FVec Ideal S300000x256 .f32) (a3 : IVec S2x100000 32)
    (a4 : FVec Ideal S100000x256 .f32) (a5 : FVec Ideal S_ .f32) (a6 : FVec Ideal S256x256 .f32) (a7 a8 a9 : FVec Ideal S256 .f32)
    (a10 : FVec Ideal S256x256 .f32) (a11 : FVec Ideal S256 .f32) (a12 : FVec Ideal S_ .f32) (a13 : FVec Ideal S256x256 .f32)
    (a14 a15 a16 : FVec Ideal S256 .f32) (a17 : FVec Ideal S256x256 .f32) (a18 a19 a20 : FVec Ideal S256 .f32)
    (a21 a22 : FVec Ideal S_ .f32) : Prop where
  h0 : Fin_ (S := Spec.SND) a0
  h2 : ∀ i, IsReal (a2 i)
  h4 : ∀ i, IsReal (a4 i)
  h5 : IsReal (a5 ix0)
  h6 : Fin_ (S := Spec.SDD) a6
  h7 : Fin_ (S := Spec.SD) a7
  h8 : Fin_ (S := Spec.SD) a8
  h9 : Fin_ (S := Spec.SD) a9
  h10 : Fin_ (S := Spec.SDD) a10
  h11 : Fin_ (S := Spec.SD) a11
  h12 : IsReal (a12 ix0)
  h13 : Fin_ (S := Spec.SDD) a13
  h14 : Fin_ (S := Spec.SD) a14
  h15 : Fin_ (S := Spec.SD) a15
  h16 : Fin_ (S := Spec.SD) a16
  h17 : Fin_ (S := Spec.SDD) a17
  h18 : Fin_ (S := Spec.SD) a18
  h19 : Fin_ (S := Spec.SD) a19
  h20 : Fin_ (S := Spec.SD) a20
  h21 : IsReal (a21 ix0)
  h22 : IsReal (a22 ix0)
  r1 : ∀ k : Fin 300000, -50000 ≤ (a1 (ix2 0 k)).toInt ∧ (a1 (ix2 0 k)).toInt < 50000
  r3 : ∀ k : Fin 100000, -50000 ≤ (a3 (ix2 0 k)).toInt ∧ (a3 (ix2 0 k)).toInt < 50000

theorem andi_apply_eq_one {s : Shape} (x y : IVec s 1) (i : s.Idx) : andi x y i = 1#1 ↔ x i = 1#1 ∧ y i = 1#1 :=
  IntOp.andi_eq_one

theorem pre_decode [Cert.Pre_finite_inputs.Facts] (a0 : FVec Ideal S50000x256 .f32) (a1 : IVec S2x300000 32) (a2 : FVec Ideal S300000x256 .f32) (a3 : IVec S2x100000 32)
    (a4 : FVec Ideal S100000x256 .f32) (a5 : FVec Ideal S_ .f32) (a6 : FVec Ideal S256x256 .f32) (a7 a8 a9 : FVec Ideal S256 .f32)
    (a10 : FVec Ideal S256x256 .f32) (a11 : FVec Ideal S256 .f32) (a12 : FVec Ideal S_ .f32) (a13 : FVec Ideal S256x256 .f32)
    (a14 a15 a16 : FVec Ideal S256 .f32) (a17 : FVec Ideal S256x256 .f32) (a18 a19 a20 : FVec Ideal S256 .f32)
    (a21 a22 : FVec Ideal S_ .f32)
    (h : Cert.Pre_finite_inputs.fn (F := Ideal) a0 a1 a2 a3 a4 a5 a6 a7 a8 a9 a10 a11 a12 a13 a14 a15 a16 a17 a18 a19 a20 a21 a22 = fun _ => 1#1) :
    PreFacts a0 a1 a2 a3 a4 a5 a6 a7 a8 a9 a10 a11 a12 a13 a14 a15 a16 a17 a18 a19 a20 a21 a22 := by
  have e := congrFun h ix0
  dsimp only [fn, fn_part1, fn_part2, fn_part3, fn_part4, fn_part5, fn_part6, fn_part7] at e
  simp only [andi_apply_eq_one] at e
  obtain ⟨⟨⟨⟨⟨⟨⟨⟨⟨⟨⟨⟨⟨⟨⟨⟨⟨⟨⟨⟨⟨⟨e0, e2⟩, e4⟩, e5⟩, e6⟩, e7⟩, e8⟩, e9⟩, e10⟩, e11⟩, e12⟩, e13⟩, e14⟩, e15⟩, e16⟩, e17⟩, e18⟩, e19⟩, e20⟩,
    e21⟩, e22⟩, r1⟩, r3⟩ := e
  exact
    { h0 := real_of_all a0 _ _ _ _ _ e0
      h2 := real_of_all a2 _ _ _ _ _ e2
      h4 := real_of_all a4 _ _ _ _ _ e4
      h5 := real_of_all0 a5 _ _ _ _ e5
      h6 := real_of_all a6 _ _ _ _ _ e6
      h7 := real_of_all a7 _ _ _ _ _ e7
      h8 := real_of_all a8 _ _ _ _ _ e8
      h9 := real_of_all a9 _ _ _ _ _ e9
      h10 := real_of_all a10 _ _ _ _ _ e10
      h11 := real_of_all a11 _ _ _ _ _ e11
      h12 := real_of_all0 a12 _ _ _ _ e12
      h13 := real_of_all a13 _ _ _ _ _ e13
      h14 := real_of_all a14 _ _ _ _ _ e14
      h15 := real_of_all a15 _ _ _ _ _ e15
      h16 := real_of_all a16 _ _ _ _ _ e16
      h17 := real_of_all a17 _ _ _ _ _ e17
      h18 := real_of_all a18 _ _ _ _ _ e18
      h19 := real_of_all a19 _ _ _ _ _ e19
      h20 := real_of_all a20 _ _ _ _ _ e20
      h21 := real_of_all0 a21 _ _ _ _ e21
      h22 := real_of_all0 a22 _ _ _ _ e22
      r1 := range_of_all a1 _ _ _ _ _ _ _ r1
      r3 := range_of_all a3 _ _ _ _ _ _ _ r3 }

end Cert.Alg

end
-- ==== Proof.LibTakeFill.lean ====
import Idealize.ShloMosaic.PureOps
import Idealize.ShloMosaic.PureOps.Reduce
import Idealize.ShloMosaic.Lib.StableHlo.Predicate

namespace Cert.TakeFill

open Idealize.ShloMosaic

theorem foldl_andi_ones {ι : Type} (f : ι → BitVec 1) (hf : ∀ n, f n = 1#1) :
    ∀ l : List ι, l.foldl (fun r n => IntOp.andi r (f n)) 1#1 = 1#1
  | [] => rfl
  | a :: l => by
    have h1 : IntOp.andi 1#1 (f a) = 1#1 := by rw [hf a]; decide
    rw [List.foldl_cons, h1]
    exact foldl_andi_ones f hf l

theorem reduce_andi_ones {s t u : Shape} {axes : List (Fin s.rank)} (x : s.Idx → BitVec 1) (init : u.Idx → BitVec 1)
    (h : s.ReducesTo axes t) (hu : 0 < u.numel) (hx : ∀ i, x i = 1#1) (hinit : ∀ k, init k = 1#1) :
    Host.reduce IntOp.andi x init h hu = fun _ => 1#1 := by
  funext j
  rw [Host.reduce_eq_foldl, hinit]
  exact foldl_andi_ones x hx _

theorem select_ones {s : Shape} {α : Type} (c : IVec s 1) (a b : s.Idx → α) (hc : ∀ i, c i = 1#1) : select c a b = a := by
  funext i
  show Scalar.select (c i) (a i) (b i) = a i
  rw [hc i]
  rfl

theorem ofBool_eq_one (b : Bool) : BitVec.ofBool b = 1#1 ↔ b = true := by cases b <;> decide

theorem cmpi_sge_iff (a b : BitVec 32) : IntOp.cmpi .sge a b = 1#1 ↔ b.toInt ≤ a.toInt := by
  unfold IntOp.cmpi; rw [ofBool_eq_one, BitVec.sle_iff_toInt_le]
theorem cmpi_sle_iff (a b : BitVec 32) : IntOp.cmpi .sle a b = 1#1 ↔ a.toInt ≤ b.toInt := by
  unfold IntOp.cmpi; rw [ofBool_eq_one, BitVec.sle_iff_toInt_le]
theorem cmpi_slt_iff (a b : BitVec 32) : IntOp.cmpi .slt a b = 1#1 ↔ a.toInt < b.toInt := by
  unfold IntOp.cmpi; rw [ofBool_eq_one, BitVec.slt_iff_toInt_lt]

theorem norm_in_range (n : Nat) (hn0 : 0 < n) (hn : n < 2 ^ 31) (w : BitVec 32)
    (hlo : -(n : Int) ≤ w.toInt) (hhi : w.toInt < (n : Int)) :
    IntOp.cmpi .sge (Scalar.select (IntOp.cmpi .slt w 0#32) (IntOp.addi w (BitVec.ofNat 32 n)) w) 0#32 = 1#1
    ∧ IntOp.cmpi .sle (Scalar.select (IntOp.cmpi .slt w 0#32) (IntOp.addi w (BitVec.ofNat 32 n)) w) (BitVec.ofNat 32 (n - 1)) = 1#1 := by
  have hnI : (BitVec.ofNat 32 n).toInt = (n : Int) := StableHlo.Predicate.toInt_ofNat_small n hn
  have hn1I : (BitVec.ofNat 32 (n - 1)).toInt = ((n - 1 : Nat) : Int) := StableHlo.Predicate.toInt_ofNat_small (n - 1) (by omega)
  have h0I : (0#32 : BitVec 32).toInt = 0 := by decide
  rw [cmpi_sge_iff, cmpi_sle_iff, h0I, hn1I]
  by_cases hneg : w.toInt < 0
  · have hc : IntOp.cmpi .slt w 0#32 = 1#1 := (cmpi_slt_iff _ _).2 (by rw [h0I]; exact hneg)
    have hadd : (IntOp.addi w (BitVec.ofNat 32 n)).toInt = w.toInt + n := by
      show (w + BitVec.ofNat 32 n).toInt = _
      rw [BitVec.toInt_add, hnI]
      apply Int.bmod_eq_of_le <;> omega
    rw [hc]
    show 0 ≤ (IntOp.addi w (BitVec.ofNat 32 n)).toInt ∧ (IntOp.addi w (BitVec.ofNat 32 n)).toInt ≤ _
    rw [hadd]; omega
  · have hc : IntOp.cmpi .slt w 0#32 ≠ 1#1 := fun h => hneg (by have := (cmpi_slt_iff _ _).1 h; rwa [h0I] at this)
    have hsel : Scalar.select (IntOp.cmpi .slt w 0#32) (IntOp.addi w (BitVec.ofNat 32 n)) w = w := if_neg hc
    rw [hsel]; omega

end Cert.TakeFill
-- ==== Proof.LibScatterRead.lean ====
import Idealize.ShloMosaic.Lib.ValueIdx

noncomputable section

open scoped BigOperators

namespace Cert.SparseMM

open Idealize.ShloMosaic Idealize.ShloMosaic.ValueIdx

theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    constructor
    · intro e a
      have e' := congrFun (Option.some.inj e) a
      rw [← e']
      exact (Int.toNat_of_nonneg (h a).1).symm
    · intro e
      refine congrArg some (funext fun a => Fin.ext ?_)
      show (d.start j idx a + (d.window j a : Int)).toNat = (i a).val
      rw [e a]
      exact Int.toNat_natCast _
  · rename_i h
    constructor
    · intro e
      cases e
    · intro e
      refine absurd (fun a => ?_) h
      rw [e a]
      exact ⟨Int.natCast_nonneg _, by exact_mod_cast (i a).isLt⟩

section Rows

abbrev rowDims (R B N : Nat) (wf : ScatterDims.WF ⟨2, ![R, B]⟩ ⟨2, ![N, 1]⟩ ⟨2, ![N, B]⟩ [1] [0] [0] 1) :
    ScatterDims ⟨2, ![R, B]⟩ ⟨2, ![N, 1]⟩ ⟨2, ![N, B]⟩ where
  updateWindowDims := [1]
  insertedWindowDims := [0]
  scatterDimsToOperandDims := [0]
  indexVectorDim := 1
  wf := wf

variable {R B N w : Nat} (wf : ScatterDims.WF ⟨2, ![R, B]⟩ ⟨2, ![N, 1]⟩ ⟨2, ![N, B]⟩ [1] [0] [0] 1)

theorem row_start0 (idx : IVec ⟨2, ![N, 1]⟩ w) (k : Fin N) (b : Fin B) :
    (rowDims R B N wf).start (ix2 k b) idx 0 = (idx (ix2 k 0)).toInt := by
  unfold ScatterDims.start
  rw [dif_pos (show (0 : Fin 2) ∈ ([0] : List (Fin 2)) by decide)]
  have hsi : (rowDims R B N wf).siIdx (ix2 k b) ⟨List.idxOf (0 : Fin 2) (rowDims R B N wf).scatterDimsToOperandDims,
      List.idxOf_lt_length_iff.2 (show (0 : Fin 2) ∈ ([0] : List (Fin 2)) by decide)⟩ = ix2 k 0 := by
    funext a; refine Fin.ext ?_
    match a with
    | ⟨0, _⟩ => rfl
    | ⟨1, _⟩ => rfl
  rw [hsi]

theorem row_start1 (idx : IVec ⟨2, ![N, 1]⟩ w) (j : (⟨2, ![N, B]⟩ : Shape).Idx) :
    (rowDims R B N wf).start j idx 1 = 0 := by
  unfold ScatterDims.start
  exact dif_neg (show ¬ ((1 : Fin 2) ∈ ([0] : List (Fin 2))) by decide)

theorem row_window0 (j : (⟨2, ![N, B]⟩ : Shape).Idx) : (rowDims R B N wf).window j 0 = 0 := by
  unfold ScatterDims.window
  exact dif_neg (show ¬ ((0 : Fin 2) ∈ ((List.finRange 2).filter (· ∉ ([0] : List (Fin 2))))) by decide)

theorem row_window1 (k : Fin N) (b : Fin B) : (rowDims R B N wf).window (ix2 k b) 1 = b.val := by
  unfold ScatterDims.window
  have h1 : (1 : Fin 2) ∈ (rowDims R B N wf).sKept :=
    show (1 : Fin 2) ∈ ((List.finRange 2).filter (· ∉ ([0] : List (Fin 2)))) by decide
  rw [dif_pos h1]
  rfl

theorem row_lands_iff (idx : IVec ⟨2, ![N, 1]⟩ w) (k : Fin N) (b' : Fin B) (r : Fin R) (b : Fin B) :
    (rowDims R B N wf).resultIdx? (ix2 k b') idx = some (ix2 r b) ↔
      (idx (ix2 k 0)).toInt = (r.val : Int) ∧ b' = b := by
  rw [resultIdx?_eq_some_iff]
  constructor
  · intro h
    have h0 := h 0
    have h1 := h 1
    rw [row_start0, row_window0, Nat.cast_zero, add_zero] at h0
    rw [row_start1, row_window1, zero_add] at h1
    exact ⟨h0, Fin.ext (by exact_mod_cast h1)⟩
  · intro h a
    match a with
    | ⟨0, _⟩ =>
      show (rowDims R B N wf).start (ix2 k b') idx 0 + ((rowDims R B N wf).window (ix2 k b') 0 : Int) = (r.val : Int)
      rw [row_start0, row_window0, Nat.cast_zero, add_zero]; exact h.1
    | ⟨1, _⟩ =>
      show (rowDims R B N wf).start (ix2 k b') idx 1 + ((rowDims R B N wf).window (ix2 k b') 1 : Int) = (b.val : Int)
      rw [row_start1, row_window1, zero_add, h.2]

theorem scatterAdd_rows_apply {φ : FTy} (x : FVec Ideal ⟨2, ![R, B]⟩ φ) (idx : IVec ⟨2, ![N, 1]⟩ w)
    (upd : FVec Ideal ⟨2, ![N, B]⟩ φ) (r : Fin R) (b : Fin B) :
    Host.scatterAdd (rowDims R B N wf) x idx upd (ix2 r b)
      = x (ix2 r b) + ∑ k ∈ Finset.univ.filter (fun k : Fin N => (idx (ix2 k 0)).toInt = (r.val : Int)), upd (ix2 k b) := by
  show Ideal.hostScatterAdd (rowDims R B N wf) x idx upd (ix2 r b) = _
  unfold Ideal.hostScatterAdd
  refine congrArg (x (ix2 r b) + ·) ?_
  have lands : ∀ j : (⟨2, ![N, B]⟩ : Shape).Idx, (rowDims R B N wf).resultIdx? j idx = some (ix2 r b) →
      (idx (ix2 (j 0 : Fin N) 0)).toInt = (r.val : Int) ∧ (j 1 : Fin B) = b := by
    intro j hj
    rw [eq_ix2 j] at hj
    exact (row_lands_iff wf idx (j 0) (j 1) r b).mp hj
  refine Finset.sum_bij' (fun j _ => (j 0 : Fin N)) (fun k _ => ix2 k b) ?_ ?_ ?_ ?_ ?_
  · intro j hj
    exact Finset.mem_filter.mpr ⟨Finset.mem_univ _, (lands j (Finset.mem_filter.mp hj).2).1⟩
  · intro k hk
    exact Finset.mem_filter.mpr ⟨Finset.mem_univ _,
      (row_lands_iff wf idx k b r b).mpr ⟨(Finset.mem_filter.mp hk).2, rfl⟩⟩
  · intro j hj
    have hb := (lands j (Finset.mem_filter.mp hj).2).2
    show ix2 (j 0 : Fin N) b = j
    rw [← hb]
    exact (eq_ix2 j).symm
  · intro k _
    rfl
  · intro j hj
    have hb := (lands j (Finset.mem_filter.mp hj).2).2
    show upd j = upd (ix2 (j 0 : Fin N) b)
    rw [← hb]
    exact congrArg upd (eq_ix2 j)

end Rows

end Cert.SparseMM

end
-- ==== Proof.Alg.Take.lean ====
import proofs.«422945_j10866267259114_2_alg».proof.Proof.KI.AggrK
import proofs.«422945_j10866267259114_2_alg».proof.Proof.RI.AggrR
import proofs.«422945_j10866267259114_2_alg».proof.Proof.Alg.Var
import proofs.«422945_j10866267259114_2_alg».proof.Proof.LibTakeFill
import proofs.«422945_j10866267259114_2_alg».proof.Proof.LibScatterRead
import Idealize.ShloMosaic.PureOps.Ideal
import Idealize.ShloMosaic.Lib.ValueIdx
import Idealize.ShloMosaic.Lib.Affine
import Idealize.ShloMosaic.Lib.Pipeline.Value

noncomputable section

namespace Cert.Alg

open Idealize.ShloMosaic Idealize.ShloMosaic.ValueIdx
open scoped BigOperators

variable [Cert.KernelIdeal.Facts₀] [Cert.ReferenceIdeal.Facts₀]

theorem Take.row0_apply {N : Nat} (ei : IVec ⟨2, ![2, N]⟩ 32) (hs : (⟨2, ![2, N]⟩ : Shape).Slices ![0, 0] ⟨2, ![1, N]⟩)
    (hc : (⟨2, ![1, N]⟩ : Shape).ShapeCasts ⟨1, ![N]⟩) (j : (⟨1, ![N]⟩ : Shape).Idx) :
    shapeCast ⟨1, ![N]⟩ (extractStridedSlice ⟨2, ![1, N]⟩ ![0, 0] ei hs) hc j = ei (ix2 0 (j 0)) := by
  refine (shapeCast_dropUnit_apply (n := 1) ![N] _ hc j).trans ?_
  refine extractStridedSlice_apply _ _ _ _ (ix2 0 (j 0)) fun a => ?_
  fin_cases a
  · rfl
  · show (j 0).val = 0 + (j 0).val
    omega

theorem Take.takeK300_eq {F : FTy → Type} [FloatOps F] (x : FVec F ⟨2, ![50000, 256]⟩ .f32) (idx : IVec ⟨1, ![300000]⟩ 32)
    (h : ∀ j, -50000 ≤ (idx j).toInt ∧ (idx j).toInt < 50000) :
    Cert.KernelIdeal.Hand.takeK300 (F := F) x idx
      = Host.gather Cert.KernelIdeal.gather_S50000x256_S300000x1_S300000x256_1_0_n_n_0_1_1256 x
          (broadcastInDim Cert.KernelIdeal.S300000x1 ![0] Cert.KernelIdeal.Facts₀.bcast_S300000_S300000x1_0
            (select (cmpi .slt idx (broadcastInDim Cert.KernelIdeal.S300000 ![] Cert.KernelIdeal.Facts₀.bcast_S_S300000
                        (constantI Cert.KernelIdeal.S_ 32 0#32)))
              (addi idx (broadcastInDim Cert.KernelIdeal.S300000 ![] Cert.KernelIdeal.Facts₀.bcast_S_S300000
                        (constantI Cert.KernelIdeal.S_ 32 50000#32))) idx)) := by
  have hlo : ∀ j, -((50000 : ℕ) : ℤ) ≤ (idx j).toInt := fun j => by have := (h j).1; omega
  have hhi : ∀ j, (idx j).toInt < ((50000 : ℕ) : ℤ) := fun j => by have := (h j).2; omega
  unfold Cert.KernelIdeal.Hand.takeK300
  refine Cert.TakeFill.select_ones _ _ _ fun i => ?_
  refine congrFun (Cert.TakeFill.reduce_andi_ones _ _ _ _ (fun i' => ?_) (fun _ => rfl)) _
  refine IntOp.andi_eq_one.2 ⟨?_, ?_⟩
  · exact (Cert.TakeFill.norm_in_range 50000 (by norm_num) (by norm_num) _ (hlo _) (hhi _)).1
  · exact (Cert.TakeFill.norm_in_range 50000 (by norm_num) (by norm_num) _ (hlo _) (hhi _)).2

theorem aggrK300_eq_aggrR300 {F : FTy → Type} [FloatOps F]
    (x : FVec F ⟨2, ![50000, 256]⟩ .f32) (ei : IVec ⟨2, ![2, 300000]⟩ 32) (ea : FVec F ⟨2, ![300000, 256]⟩ .f32)
    (h : ∀ e : Fin 300000, -50000 ≤ (ei (ix2 0 e)).toInt ∧ (ei (ix2 0 e)).toInt < 50000) :
    Cert.KernelIdeal.Hand.aggrK300 (F := F) x ei ea = Cert.ReferenceIdeal.Hand.aggrR300 (F := F) x ei ea := by
  unfold Cert.KernelIdeal.Hand.aggrK300 Cert.ReferenceIdeal.Hand.aggrR300
  dsimp only
  rw [Take.takeK300_eq x _ fun j => by rw [Take.row0_apply]; exact h (j 0)]
  rfl

theorem fin_aggrR300 (x : Spec.Arr Spec.SND) (ei : IVec ⟨2, ![2, 300000]⟩ 32) (ea : FVec Ideal ⟨2, ![300000, 256]⟩ .f32)
    (hx : Fin_ x) (hea : ∀ i, IsReal (ea i)) :
    Fin_ (Cert.ReferenceIdeal.Hand.aggrR300 (F := Ideal) x ei ea) := by
  intro i
  obtain ⟨r, b, rfl⟩ : ∃ (r : Fin 50000) (b : Fin 256), i = ix2 r b := ⟨i 0, i 1, eq_ix2 i⟩
  show IsReal (Host.scatterAdd (F := Ideal) (φ := .f32) (Cert.SparseMM.rowDims 50000 256 300000
      Cert.ReferenceIdeal.Facts₀.scatter_S50000x256_S300000x1_S300000x256_1_0_0_1_wf) _ _ _ (ix2 r b))
  rw [Cert.SparseMM.scatterAdd_rows_apply]
  refine isReal_add ⟨0, Ideal.ofBits_zero_f32⟩ (isReal_sum _ _ fun k _ => ?_)
  exact isReal_max (isReal_add (hx _) (hea _)) ⟨0, Ideal.ofBits_zero_f32⟩

theorem Take.takeK100_eq {F : FTy → Type} [FloatOps F] (x : FVec F ⟨2, ![50000, 256]⟩ .f32) (idx : IVec ⟨1, ![100000]⟩ 32)
    (h : ∀ j, -50000 ≤ (idx j).toInt ∧ (idx j).toInt < 50000) :
    Cert.KernelIdeal.Hand.takeK100 (F := F) x idx
      = Host.gather Cert.KernelIdeal.gather_S50000x256_S100000x1_S100000x256_1_0_n_n_0_1_1256 x
          (broadcastInDim Cert.KernelIdeal.S100000x1 ![0] Cert.KernelIdeal.Facts₀.bcast_S100000_S100000x1_0
            (select (cmpi .slt idx (broadcastInDim Cert.KernelIdeal.S100000 ![] Cert.KernelIdeal.Facts₀.bcast_S_S100000
                        (constantI Cert.KernelIdeal.S_ 32 0#32)))
              (addi idx (broadcastInDim Cert.KernelIdeal.S100000 ![] Cert.KernelIdeal.Facts₀.bcast_S_S100000
                        (constantI Cert.KernelIdeal.S_ 32 50000#32))) idx)) := by
  have hlo : ∀ j, -((50000 : ℕ) : ℤ) ≤ (idx j).toInt := fun j => by have := (h j).1; omega
  have hhi : ∀ j, (idx j).toInt < ((50000 : ℕ) : ℤ) := fun j => by have := (h j).2; omega
  unfold Cert.KernelIdeal.Hand.takeK100
  refine Cert.TakeFill.select_ones _ _ _ fun i => ?_
  refine congrFun (Cert.TakeFill.reduce_andi_ones _ _ _ _ (fun i' => ?_) (fun _ => rfl)) _
  refine IntOp.andi_eq_one.2 ⟨?_, ?_⟩
  · exact (Cert.TakeFill.norm_in_range 50000 (by norm_num) (by norm_num) _ (hlo _) (hhi _)).1
  · exact (Cert.TakeFill.norm_in_range 50000 (by norm_num) (by norm_num) _ (hlo _) (hhi _)).2

theorem aggrK100_eq_aggrR100 {F : FTy → Type} [FloatOps F]
    (x : FVec F ⟨2, ![50000, 256]⟩ .f32) (ei : IVec ⟨2, ![2, 100000]⟩ 32) (ea : FVec F ⟨2, ![100000, 256]⟩ .f32)
    (h : ∀ e : Fin 100000, -50000 ≤ (ei (ix2 0 e)).toInt ∧ (ei (ix2 0 e)).toInt < 50000) :
    Cert.KernelIdeal.Hand.aggrK100 (F := F) x ei ea = Cert.ReferenceIdeal.Hand.aggrR100 (F := F) x ei ea := by
  unfold Cert.KernelIdeal.Hand.aggrK100 Cert.ReferenceIdeal.Hand.aggrR100
  dsimp only
  rw [Take.takeK100_eq x _ fun j => by rw [Take.row0_apply]; exact h (j 0)]
  rfl

theorem fin_aggrR100 (x : Spec.Arr Spec.SND) (ei : IVec ⟨2, ![2, 100000]⟩ 32) (ea : FVec Ideal ⟨2, ![100000, 256]⟩ .f32)
    (hx : Fin_ x) (hea : ∀ i, IsReal (ea i)) :
    Fin_ (Cert.ReferenceIdeal.Hand.aggrR100 (F := Ideal) x ei ea) := by
  intro i
  obtain ⟨r, b, rfl⟩ : ∃ (r : Fin 50000) (b : Fin 256), i = ix2 r b := ⟨i 0, i 1, eq_ix2 i⟩
  show IsReal (Host.scatterAdd (F := Ideal) (φ := .f32) (Cert.SparseMM.rowDims 50000 256 100000
      Cert.ReferenceIdeal.Facts₀.scatter_S50000x256_S100000x1_S100000x256_1_0_0_1_wf) _ _ _ (ix2 r b))
  rw [Cert.SparseMM.scatterAdd_rows_apply]
  refine isReal_add ⟨0, Ideal.ofBits_zero_f32⟩ (isReal_sum _ _ fun k _ => ?_)
  exact isReal_max (isReal_add (hx _) (hea _)) ⟨0, Ideal.ofBits_zero_f32⟩

end Cert.Alg

end
-- ==== Proof.Alg.Main.lean ====
import proofs.«422945_j10866267259114_2_alg».proof.Proof.Alg.Var
import proofs.«422945_j10866267259114_2_alg».proof.Proof.Alg.PreDecode
import proofs.«422945_j10866267259114_2_alg».proof.Proof.KI.AggrK
import proofs.«422945_j10866267259114_2_alg».proof.Proof.RI.AggrR
import proofs.«422945_j10866267259114_2_alg».proof.Proof.Alg.Take

noncomputable section

namespace Cert.Alg

open Idealize.ShloMosaic Idealize.ShloMosaic.ValueIdx Cert.Pre_finite_inputs

theorem outK_eq_outR [Cert.KernelIdeal.Facts₀] [Cert.ReferenceIdeal.Facts₀] (a0 : FVec Ideal S50000x256 .f32) (a1 : IVec S2x300000 32) (a2 : FVec Ideal S300000x256 .f32) (a3 : IVec S2x100000 32)
    (a4 : FVec Ideal S100000x256 .f32) (a5 : FVec Ideal S_ .f32) (a6 : FVec Ideal S256x256 .f32) (a7 a8 a9 : FVec Ideal S256 .f32)
    (a10 : FVec Ideal S256x256 .f32) (a11 : FVec Ideal S256 .f32) (a12 : FVec Ideal S_ .f32) (a13 : FVec Ideal S256x256 .f32)
    (a14 a15 a16 : FVec Ideal S256 .f32) (a17 : FVec Ideal S256x256 .f32) (a18 a19 a20 : FVec Ideal S256 .f32)
    (a21 a22 : FVec Ideal S_ .f32)
    (hp : PreFacts a0 a1 a2 a3 a4 a5 a6 a7 a8 a9 a10 a11 a12 a13 a14 a15 a16 a17 a18 a19 a20 a21 a22) :
    Spec.out Spec.varK a0 (Cert.KernelIdeal.Hand.aggrK300 (F := Ideal) a0 a1 a2) (Cert.KernelIdeal.Hand.aggrK100 (F := Ideal) a0 a3 a4)
        (a5 ix0) a6 a7 a8 a9 a10 a11 (a12 ix0) a13 a14 a15 a16 a17 a18 a19 a20 (a21 ix0) (a22 ix0) =
      Spec.out Spec.varR a0 (Cert.ReferenceIdeal.Hand.aggrR300 (F := Ideal) a0 a1 a2)
        (Cert.ReferenceIdeal.Hand.aggrR100 (F := Ideal) a0 a3 a4)
        (a5 ix0) a6 a7 a8 a9 a10 a11 (a12 ix0) a13 a14 a15 a16 a17 a18 a19 a20 (a21 ix0) (a22 ix0) := by
  rw [aggrK300_eq_aggrR300 a0 a1 a2 hp.r1, aggrK100_eq_aggrR100 a0 a3 a4 hp.r3]
  exact out_varK_eq_varR' a19 a20 hp.h0 (fin_aggrR300 a0 a1 a2 hp.h0 hp.h2) (fin_aggrR100 a0 a3 a4 hp.h0 hp.h4)
    hp.h5 hp.h6 hp.h7 hp.h8 hp.h9 hp.h10 hp.h11 hp.h12 hp.h13 hp.h14 hp.h15 hp.h16 hp.h17 hp.h18 hp.h21 hp.h22

end Cert.Alg

end
-- ==== Proof.K.Lin.lean ====
import proofs.«422945_j10866267259114_2_alg».proof.Proof.Gen.Kernel.Launch
import proofs.«422945_j10866267259114_2_alg».proof.Proof.Gen.Kernel.Skeleton
import proofs.«422945_j10866267259114_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

namespace Lin

abbrev atFirst (i : grid0.Coords) : Prop :=
  (Scalar.cmpi .ne (Scalar.extui (Scalar.cmpi .eq (BitVec.ofNat 32 (i 0).val) 0#32)) 0#32) = 1#1
abbrev atLast (i : grid0.Coords) : Prop := k0_cond2 i = 1#1

-- What the stores of a run leave in the five buffers; u stands for the two rows a run does not store into.
def leaves (Llin : List (View.Piece (Elt F) S2000x256 .f32)) (Lacc Lacc2 : List (View.Piece (Elt F) S1x256 .f32)) (u : Vec F S1x256 .f32) : Vec F S2000x256 .f32 × Vec F S1x256 .f32 × Vec F S1x256 .f32 × Vec F S1x256 .f32 × Vec F S1x256 .f32 :=
  (View.canon Llin, u, u, View.canon Lacc, View.canon Lacc2)
def leavesLast (Llin : List (View.Piece (Elt F) S2000x256 .f32)) (Lsum Lsq Lacc Lacc2 : List (View.Piece (Elt F) S1x256 .f32)) : Vec F S2000x256 .f32 × Vec F S1x256 .f32 × Vec F S1x256 .f32 × Vec F S1x256 .f32 × Vec F S1x256 .f32 :=
  (View.canon Llin, View.canon Lsum, View.canon Lsq, View.canon Lacc, View.canon Lacc2)

-- Stores that tile a buffer determine its contents, whatever it held before.
theorem owns_canon {S : Shape} (c : Dev nD) (m : Memref sig .tc .vmem S .f32) (L : List (View.Piece (Elt F) S .f32)) (h : ∀ y, ∃ p ∈ L, y ∈ p.1.set) :
    iprop(∃ f, m.view.loc (c : Thread nD τ) ↦[m.view.set]{fullShare} m.view.writes (Elt F) f L) ⊢ (owns (c : Thread nD τ) m fullShare (View.canon L) : sProp 𝕄) := by
  unfold owns; iintro ⟨%f, H⟩; iexists _; isplitr; swap; · iexact H
  ipureintro; exact View.read_writes_eq_canon _ _ _ h

section Body

variable (c : Dev nD) (i : grid0.Coords)
  (xM : Memref sig .tc .vmem S2000x256 .f32) (hxM : xM.IsWhole)
  (aM : Memref sig .tc .vmem S2000x256 .f32) (haM : aM.IsWhole)
  (sM : Memref sig .tc .vmem S1x256 .f32) (hsM : sM.IsWhole)
  (wM : Memref sig .tc .vmem S256x256 .f32) (hwM : wM.IsWhole)
  (bM : Memref sig .tc .vmem S1x256 .f32) (hbM : bM.IsWhole)
  (linM : Memref sig .tc .vmem S2000x256 .f32) (hlinM : linM.IsWhole)
  (sumM : Memref sig .tc .vmem S1x256 .f32) (hsumM : sumM.IsWhole)
  (sqM : Memref sig .tc .vmem S1x256 .f32) (hsqM : sqM.IsWhole)
  (accM : Memref sig .tc .vmem S1x256 .f32) (haccM : accM.IsWhole)
  (acc2M : Memref sig .tc .vmem S1x256 .f32) (hacc2M : acc2M.IsWhole)
  (x : Vec F S2000x256 .f32) (a : Vec F S2000x256 .f32) (s : Vec F S1x256 .f32) (w : Vec F S256x256 .f32) (b : Vec F S1x256 .f32)

local notation "theBody" => cc0__combine_linear_stats_kernel i xM hxM aM haM sM hsM wM hwM bM hbM linM hlinM sumM hsumM sqM hsqM accM haccM acc2M hacc2M

set_option maxHeartbeats 1000000 in
noncomputable def runFirst (hF : atFirst i) (hL : ¬atLast i) :
    Σ' (Llin : List (View.Piece (Elt F) S2000x256 .f32)) (Lacc : List (View.Piece (Elt F) S1x256 .f32)),
      { Lacc2 : List (View.Piece (Elt F) S1x256 .f32) //
        ∀ (ysum ysq : Vec F S1x256 .f32) (E : Set ℕ) (K : PUnit → sProp 𝕄),
          iprop(owns (c : Thread nD τ) xM fullShare x ∗ owns (c : Thread nD τ) aM fullShare a ∗ owns (c : Thread nD τ) sM fullShare s ∗ owns (c : Thread nD τ) wM fullShare w ∗ owns (c : Thread nD τ) bM fullShare b
              ∗ (∃ d, owns (c : Thread nD τ) linM fullShare d) ∗ owns (c : Thread nD τ) sumM fullShare ysum ∗ owns (c : Thread nD τ) sqM fullShare ysq ∗ (∃ d, owns (c : Thread nD τ) accM fullShare d) ∗ (∃ d, owns (c : Thread nD τ) acc2M fullShare d)
              ∗ (iprop(owns (c : Thread nD τ) xM fullShare x ∗ owns (c : Thread nD τ) aM fullShare a ∗ owns (c : Thread nD τ) sM fullShare s ∗ owns (c : Thread nD τ) wM fullShare w ∗ owns (c : Thread nD τ) bM fullShare b
                  ∗ (∃ f, linM.view.loc (c : Thread nD τ) ↦[linM.view.set]{fullShare} linM.view.writes (Elt F) f Llin) ∗ owns (c : Thread nD τ) sumM fullShare ysum ∗ owns (c : Thread nD τ) sqM fullShare ysq
                  ∗ (∃ f, accM.view.loc (c : Thread nD τ) ↦[accM.view.set]{fullShare} accM.view.writes (Elt F) f Lacc) ∗ (∃ f, acc2M.view.loc (c : Thread nD τ) ↦[acc2M.view.set]{fullShare} acc2M.view.writes (Elt F) f Lacc2)) -∗ K ⟨⟩))
            ⊢ wp frame (wpE (defs₀ (F := F)) Variants.none c none) E theBody K } := by
  refine ⟨?_, ?_, ?_, fun ysum ysq E K => ?run⟩
  case run =>
    simp only [cc0__combine_linear_stats_kernel_eq_skeleton]; unfold cc0__combine_linear_stats_kernel_skel
    simp only [k0_part1_eq_skeleton]; unfold k0_part1_skel
    unfold owns
    iintro ⟨⟨%fx, %hfx, Hx⟩, ⟨%fa, %hfa, Ha⟩, ⟨%fs, %hfs, Hs⟩, ⟨%fw, %hfw, Hw⟩, ⟨%fb, %hfb, Hb⟩, ⟨%dl, %fl, -, Hl⟩, ⟨%f6, %hf6, H6⟩, ⟨%f7, %hf7, H7⟩, ⟨%d9, %f9, -, H9⟩, ⟨%d10, %f10, -, H10⟩, Hk⟩
    obtain rfl := hxM.eq_unread hfx; obtain rfl := haM.eq_unread hfa; obtain rfl := hsM.eq_unread hfs; obtain rfl := hwM.eq_unread hfw; obtain rfl := hbM.eq_unread hfb
    obtain rfl := hsumM.eq_unread hf6; obtain rfl := hsqM.eq_unread hf7
    sl_exec (disch := first | exact hF | exact hL)
    sl_step
    iapply Hk
    isplitl [Hx]
    · iexists _; isplitr; · ipureintro; exact hxM.read_unread _
      iexact Hx
    isplitl [Ha]
    · iexists _; isplitr; · ipureintro; exact haM.read_unread _
      iexact Ha
    isplitl [Hs]
    · iexists _; isplitr; · ipureintro; exact hsM.read_unread _
      iexact Hs
    isplitl [Hw]
    · iexists _; isplitr; · ipureintro; exact hwM.read_unread _
      iexact Hw
    isplitl [Hb]
    · iexists _; isplitr; · ipureintro; exact hbM.read_unread _
      iexact Hb
    isplitl [Hl]; · iexists _; iexact Hl
    isplitl [H6]
    · iexists _; isplitr; · ipureintro; exact hsumM.read_unread _
      iexact H6
    isplitl [H7]
    · iexists _; isplitr; · ipureintro; exact hsqM.read_unread _
      iexact H7
    isplitl [H9]; · iexists _; iexact H9
    iexists _; iexact H10

set_option maxHeartbeats 1000000 in
noncomputable def runMid (hF : ¬atFirst i) (hL : ¬atLast i) (p p2 : Vec F S1x256 .f32) :
    Σ' (Llin : List (View.Piece (Elt F) S2000x256 .f32)) (Lacc : List (View.Piece (Elt F) S1x256 .f32)),
      { Lacc2 : List (View.Piece (Elt F) S1x256 .f32) //
        ∀ (ysum ysq : Vec F S1x256 .f32) (E : Set ℕ) (K : PUnit → sProp 𝕄),
          iprop(owns (c : Thread nD τ) xM fullShare x ∗ owns (c : Thread nD τ) aM fullShare a ∗ owns (c : Thread nD τ) sM fullShare s ∗ owns (c : Thread nD τ) wM fullShare w ∗ owns (c : Thread nD τ) bM fullShare b
              ∗ (∃ d, owns (c : Thread nD τ) linM fullShare d) ∗ owns (c : Thread nD τ) sumM fullShare ysum ∗ owns (c : Thread nD τ) sqM fullShare ysq ∗ owns (c : Thread nD τ) accM fullShare p ∗ owns (c : Thread nD τ) acc2M fullShare p2
              ∗ (iprop(owns (c : Thread nD τ) xM fullShare x ∗ owns (c : Thread nD τ) aM fullShare a ∗ owns (c : Thread nD τ) sM fullShare s ∗ owns (c : Thread nD τ) wM fullShare w ∗ owns (c : Thread nD τ) bM fullShare b
                  ∗ (∃ f, linM.view.loc (c : Thread nD τ) ↦[linM.view.set]{fullShare} linM.view.writes (Elt F) f Llin) ∗ owns (c : Thread nD τ) sumM fullShare ysum ∗ owns (c : Thread nD τ) sqM fullShare ysq
                  ∗ (∃ f, accM.view.loc (c : Thread nD τ) ↦[accM.view.set]{fullShare} accM.view.writes (Elt F) f Lacc) ∗ (∃ f, acc2M.view.loc (c : Thread nD τ) ↦[acc2M.view.set]{fullShare} acc2M.view.writes (Elt F) f Lacc2)) -∗ K ⟨⟩))
            ⊢ wp frame (wpE (defs₀ (F := F)) Variants.none c none) E theBody K } := by
  refine ⟨?_, ?_, ?_, fun ysum ysq E K => ?run⟩
  case run =>
    simp only [cc0__combine_linear_stats_kernel_eq_skeleton]; unfold cc0__combine_linear_stats_kernel_skel
    simp only [k0_part1_eq_skeleton]; unfold k0_part1_skel
    unfold owns
    iintro ⟨⟨%fx, %hfx, Hx⟩, ⟨%fa, %hfa, Ha⟩, ⟨%fs, %hfs, Hs⟩, ⟨%fw, %hfw, Hw⟩, ⟨%fb, %hfb, Hb⟩, ⟨%dl, %fl, -, Hl⟩, ⟨%f6, %hf6, H6⟩, ⟨%f7, %hf7, H7⟩, ⟨%f9, %hf9, H9⟩, ⟨%f10, %hf10, H10⟩, Hk⟩
    obtain rfl := hxM.eq_unread hfx; obtain rfl := haM.eq_unread hfa; obtain rfl := hsM.eq_unread hfs; obtain rfl := hwM.eq_unread hfw; obtain rfl := hbM.eq_unread hfb
    obtain rfl := hsumM.eq_unread hf6; obtain rfl := hsqM.eq_unread hf7
    obtain rfl := haccM.eq_unread hf9; obtain rfl := hacc2M.eq_unread hf10
    sl_exec (disch := first | exact hF | exact hL)
    sl_step
    iapply Hk
    isplitl [Hx]
    · iexists _; isplitr; · ipureintro; exact hxM.read_unread _
      iexact Hx
    isplitl [Ha]
    · iexists _; isplitr; · ipureintro; exact haM.read_unread _
      iexact Ha
    isplitl [Hs]
    · iexists _; isplitr; · ipureintro; exact hsM.read_unread _
      iexact Hs
    isplitl [Hw]
    · iexists _; isplitr; · ipureintro; exact hwM.read_unread _
      iexact Hw
    isplitl [Hb]
    · iexists _; isplitr; · ipureintro; exact hbM.read_unread _
      iexact Hb
    isplitl [Hl]; · iexists _; iexact Hl
    isplitl [H6]
    · iexists _; isplitr; · ipureintro; exact hsumM.read_unread _
      iexact H6
    isplitl [H7]
    · iexists _; isplitr; · ipureintro; exact hsqM.read_unread _
      iexact H7
    isplitl [H9]; · iexists _; iexact H9
    iexists _; iexact H10

set_option maxHeartbeats 1000000 in
noncomputable def runLast (hF : ¬atFirst i) (hL : atLast i) (p p2 : Vec F S1x256 .f32) :
    Σ' (Llin : List (View.Piece (Elt F) S2000x256 .f32)) (Lsum : List (View.Piece (Elt F) S1x256 .f32)) (Lsq : List (View.Piece (Elt F) S1x256 .f32)) (Lacc : List (View.Piece (Elt F) S1x256 .f32)),
      { Lacc2 : List (View.Piece (Elt F) S1x256 .f32) //
        ∀ (E : Set ℕ) (K : PUnit → sProp 𝕄),
          iprop(owns (c : Thread nD τ) xM fullShare x ∗ owns (c : Thread nD τ) aM fullShare a ∗ owns (c : Thread nD τ) sM fullShare s ∗ owns (c : Thread nD τ) wM fullShare w ∗ owns (c : Thread nD τ) bM fullShare b
              ∗ (∃ d, owns (c : Thread nD τ) linM fullShare d) ∗ (∃ d, owns (c : Thread nD τ) sumM fullShare d) ∗ (∃ d, owns (c : Thread nD τ) sqM fullShare d) ∗ owns (c : Thread nD τ) accM fullShare p ∗ owns (c : Thread nD τ) acc2M fullShare p2
              ∗ (iprop(owns (c : Thread nD τ) xM fullShare x ∗ owns (c : Thread nD τ) aM fullShare a ∗ owns (c : Thread nD τ) sM fullShare s ∗ owns (c : Thread nD τ) wM fullShare w ∗ owns (c : Thread nD τ) bM fullShare b
                  ∗ (∃ f, linM.view.loc (c : Thread nD τ) ↦[linM.view.set]{fullShare} linM.view.writes (Elt F) f Llin) ∗ (∃ f, sumM.view.loc (c : Thread nD τ) ↦[sumM.view.set]{fullShare} sumM.view.writes (Elt F) f Lsum) ∗ (∃ f, sqM.view.loc (c : Thread nD τ) ↦[sqM.view.set]{fullShare} sqM.view.writes (Elt F) f Lsq)
                  ∗ (∃ f, accM.view.loc (c : Thread nD τ) ↦[accM.view.set]{fullShare} accM.view.writes (Elt F) f Lacc) ∗ (∃ f, acc2M.view.loc (c : Thread nD τ) ↦[acc2M.view.set]{fullShare} acc2M.view.writes (Elt F) f Lacc2)) -∗ K ⟨⟩))
            ⊢ wp frame (wpE (defs₀ (F := F)) Variants.none c none) E theBody K } := by
  refine ⟨?_, ?_, ?_, ?_, ?_, fun E K => ?run⟩
  case run =>
    simp only [cc0__combine_linear_stats_kernel_eq_skeleton]; unfold cc0__combine_linear_stats_kernel_skel
    simp only [k0_part1_eq_skeleton]; unfold k0_part1_skel
    unfold owns
    iintro ⟨⟨%fx, %hfx, Hx⟩, ⟨%fa, %hfa, Ha⟩, ⟨%fs, %hfs, Hs⟩, ⟨%fw, %hfw, Hw⟩, ⟨%fb, %hfb, Hb⟩, ⟨%dl, %fl, -, Hl⟩, ⟨%d6, %f6, -, H6⟩, ⟨%d7, %f7, -, H7⟩, ⟨%f9, %hf9, H9⟩, ⟨%f10, %hf10, H10⟩, Hk⟩
    obtain rfl := hxM.eq_unread hfx; obtain rfl := haM.eq_unread hfa; obtain rfl := hsM.eq_unread hfs; obtain rfl := hwM.eq_unread hfw; obtain rfl := hbM.eq_unread hfb
    obtain rfl := haccM.eq_unread hf9; obtain rfl := hacc2M.eq_unread hf10
    sl_exec (disch := first | exact hF | exact hL)
    sl_step
    iapply Hk
    isplitl [Hx]
    · iexists _; isplitr; · ipureintro; exact hxM.read_unread _
      iexact Hx
    isplitl [Ha]
    · iexists _; isplitr; · ipureintro; exact haM.read_unread _
      iexact Ha
    isplitl [Hs]
    · iexists _; isplitr; · ipureintro; exact hsM.read_unread _
      iexact Hs
    isplitl [Hw]
    · iexists _; isplitr; · ipureintro; exact hwM.read_unread _
      iexact Hw
    isplitl [Hb]
    · iexists _; isplitr; · ipureintro; exact hbM.read_unread _
      iexact Hb
    isplitl [Hl]; · iexists _; iexact Hl
    isplitl [H6]; · iexists _; iexact H6
    isplitl [H7]; · iexists _; iexact H7
    isplitl [H9]; · iexists _; iexact H9
    iexists _; iexact H10

local notation "firstRun" => runFirst c i xM hxM aM haM sM hsM wM hwM bM hbM linM hlinM sumM hsumM sqM hsqM accM haccM acc2M hacc2M x a s w b
local notation "midRun" => runMid c i xM hxM aM haM sM hsM wM hwM bM hbM linM hlinM sumM hsumM sqM hsqM accM haccM acc2M hacc2M x a s w b
local notation "lastRun" => runLast c i xM hxM aM haM sM hsM wM hwM bM hbM linM hlinM sumM hsumM sqM hsqM accM haccM acc2M hacc2M x a s w b

-- The stores of a run into each buffer tile it.
theorem first_cover (hF : atFirst i) (hL : ¬atLast i) :
    (∀ y, ∃ pc ∈ (firstRun hF hL).1, y ∈ pc.1.set) ∧ (∀ y, ∃ pc ∈ (firstRun hF hL).2.1, y ∈ pc.1.set) ∧ (∀ y, ∃ pc ∈ (firstRun hF hL).2.2.1, y ∈ pc.1.set) :=
  ⟨View.cover_of_tiledL _ S2000x256.size (by sl_kernel_rfl), View.cover_of_tiledL _ S1x256.size (by sl_kernel_rfl), View.cover_of_tiledL _ S1x256.size (by sl_kernel_rfl)⟩
theorem mid_cover (hF : ¬atFirst i) (hL : ¬atLast i) (p p2 : Vec F S1x256 .f32) :
    (∀ y, ∃ pc ∈ (midRun hF hL p p2).1, y ∈ pc.1.set) ∧ (∀ y, ∃ pc ∈ (midRun hF hL p p2).2.1, y ∈ pc.1.set) ∧ (∀ y, ∃ pc ∈ (midRun hF hL p p2).2.2.1, y ∈ pc.1.set) :=
  ⟨View.cover_of_tiledL _ S2000x256.size (by sl_kernel_rfl), View.cover_of_tiledL _ S1x256.size (by sl_kernel_rfl), View.cover_of_tiledL _ S1x256.size (by sl_kernel_rfl)⟩
theorem last_cover (hF : ¬atFirst i) (hL : atLast i) (p p2 : Vec F S1x256 .f32) :
    (∀ y, ∃ pc ∈ (lastRun hF hL p p2).1, y ∈ pc.1.set) ∧ (∀ y, ∃ pc ∈ (lastRun hF hL p p2).2.1, y ∈ pc.1.set) ∧ (∀ y, ∃ pc ∈ (lastRun hF hL p p2).2.2.1, y ∈ pc.1.set) ∧ (∀ y, ∃ pc ∈ (lastRun hF hL p p2).2.2.2.1, y ∈ pc.1.set) ∧ (∀ y, ∃ pc ∈ (lastRun hF hL p p2).2.2.2.2.1, y ∈ pc.1.set) :=
  ⟨View.cover_of_tiledL _ S2000x256.size (by sl_kernel_rfl), View.cover_of_tiledL _ S1x256.size (by sl_kernel_rfl), View.cover_of_tiledL _ S1x256.size (by sl_kernel_rfl), View.cover_of_tiledL _ S1x256.size (by sl_kernel_rfl), View.cover_of_tiledL _ S1x256.size (by sl_kernel_rfl)⟩

end Body

end Lin

end Cert.Kernel.Hand

end
-- ==== Proof.K.Reg0.lean ====
import proofs.«422945_j10866267259114_2_alg».proof.Proof.K.Lin

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

open Lin

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

namespace Reg0

theorem atFirst_iff : ∀ t : Fin cfg0.N, atFirst (grid0.coords t) ↔ t.val = 0 :=
  (by decide +kernel : ∀ t : Fin grid0.N, atFirst (grid0.coords t) ↔ t.val = 0)
theorem atLast_iff : ∀ t : Fin cfg0.N, atLast (grid0.coords t) ↔ t.val = 24 :=
  (by decide +kernel : ∀ t : Fin grid0.N, atLast (grid0.coords t) ↔ t.val = 24)

theorem sum_idle : ∀ t : Fin cfg0.N, ¬atLast (grid0.coords t) → cfg0.idle 6 (grid0.coords t) = true := by decide +kernel

theorem sum_noFlush : ∀ t : Fin cfg0.N, ¬atLast (grid0.coords t) → (cfg0.win 6).flush t = false := by decide +kernel

theorem sum_live : ∀ t : Fin cfg0.N, atLast (grid0.coords t) → cfg0.idle 6 (grid0.coords t) = false := by decide +kernel

theorem sq_idle : ∀ t : Fin cfg0.N, ¬atLast (grid0.coords t) → cfg0.idle 7 (grid0.coords t) = true := by decide +kernel
theorem sq_noFlush : ∀ t : Fin cfg0.N, ¬atLast (grid0.coords t) → (cfg0.win 7).flush t = false := by decide +kernel
theorem sq_live : ∀ t : Fin cfg0.N, atLast (grid0.coords t) → cfg0.idle 7 (grid0.coords t) = false := by decide +kernel

abbrev xStg (t : Fin cfg0.N) : Memref sig .tc .vmem S2000x256 .f32 := win0_0.stage (cfg0.slots t 0)
abbrev xStg_whole (t : Fin cfg0.N) : (xStg t).IsWhole := hstage0_0 ((cfg0.slots t 0).cast nbuf0_0)
abbrev aggrStg (t : Fin cfg0.N) : Memref sig .tc .vmem S2000x256 .f32 := win0_1.stage (cfg0.slots t 1)
abbrev aggrStg_whole (t : Fin cfg0.N) : (aggrStg t).IsWhole := hstage0_1 ((cfg0.slots t 1).cast nbuf0_1)
abbrev scaleStg (t : Fin cfg0.N) : Memref sig .tc .vmem S1x256 .f32 := win0_2.stage (cfg0.slots t 2)
abbrev scaleStg_whole (t : Fin cfg0.N) : (scaleStg t).IsWhole := hstage0_2 ((cfg0.slots t 2).cast nbuf0_2)
abbrev wStg (t : Fin cfg0.N) : Memref sig .tc .vmem S256x256 .f32 := win0_3.stage (cfg0.slots t 3)
abbrev wStg_whole (t : Fin cfg0.N) : (wStg t).IsWhole := hstage0_3 ((cfg0.slots t 3).cast nbuf0_3)
abbrev biasStg (t : Fin cfg0.N) : Memref sig .tc .vmem S1x256 .f32 := win0_4.stage (cfg0.slots t 4)
abbrev biasStg_whole (t : Fin cfg0.N) : (biasStg t).IsWhole := hstage0_4 ((cfg0.slots t 4).cast nbuf0_4)
abbrev linStg (t : Fin cfg0.N) : Memref sig .tc .vmem S2000x256 .f32 := win0_5.stage (cfg0.slots t 5)
abbrev linStg_whole (t : Fin cfg0.N) : (linStg t).IsWhole := hstage0_5 ((cfg0.slots t 5).cast nbuf0_5)
abbrev sumStg (t : Fin cfg0.N) : Memref sig .tc .vmem S1x256 .f32 := win0_6.stage (cfg0.slots t 6)
abbrev sumStg_whole (t : Fin cfg0.N) : (sumStg t).IsWhole := hstage0_6 ((cfg0.slots t 6).cast nbuf0_6)
abbrev sqStg (t : Fin cfg0.N) : Memref sig .tc .vmem S1x256 .f32 := win0_7.stage (cfg0.slots t 7)
abbrev sqStg_whole (t : Fin cfg0.N) : (sqStg t).IsWhole := hstage0_7 ((cfg0.slots t 7).cast nbuf0_7)

abbrev accSumM : Memref sig .tc .vmem S1x256 .f32 := Memref.whole cc0_scratch0
abbrev accSqM : Memref sig .tc .vmem S1x256 .f32 := Memref.whole cc0_scratch1
abbrev rowView : View sig .tc .vmem S1x256 .f32 := accSumM.view

theorem PhiA_split (c : Dev nD) :
    (Pipeline.ΦA spec0 c : sProp 𝕄)
      = iprop(iprop(iprop((∃ d, owns (c : Thread nD τ) accSumM fullShare d) ∗ (∃ d, owns (c : Thread nD τ) accSqM fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [accSumM, accSqM, owns_whole]; try rfl

theorem bodyAt_eq (t : Fin cfg0.N) : bodyAt0 (F := F) t = cc0__combine_linear_stats_kernel (grid0.coords t) (xStg t) (xStg_whole t) (aggrStg t) (aggrStg_whole t) (scaleStg t) (scaleStg_whole t) (wStg t) (wStg_whole t) (biasStg t) (biasStg_whole t) (linStg t) (linStg_whole t) (sumStg t) (sumStg_whole t) (sqStg t) (sqStg_whole t) accSumM (Memref.isWhole_whole _) accSqM (Memref.isWhole_whole _) := rfl

abbrev xBlk (c : Dev nD) (t : Fin cfg0.N) : Vec F S2000x256 .f32 := iblk0 V c 0 t
abbrev aggrBlk (c : Dev nD) (t : Fin cfg0.N) : Vec F S2000x256 .f32 := iblk0 V c 1 t
abbrev scaleBlk (c : Dev nD) (t : Fin cfg0.N) : Vec F S1x256 .f32 := iblk0 V c 2 t
abbrev wBlk (c : Dev nD) (t : Fin cfg0.N) : Vec F S256x256 .f32 := iblk0 V c 3 t
abbrev biasBlk (c : Dev nD) (t : Fin cfg0.N) : Vec F S1x256 .f32 := iblk0 V c 4 t

theorem first_of (t : Fin cfg0.N) (h : t.val = 0) : atFirst (grid0.coords t) := (atFirst_iff t).mpr h
theorem notFirst_of (t : Fin cfg0.N) (h : t.val ≠ 0) : ¬atFirst (grid0.coords t) := fun hf => h ((atFirst_iff t).mp hf)
theorem last_of (t : Fin cfg0.N) (h : t.val = 24) : atLast (grid0.coords t) := (atLast_iff t).mpr h
theorem notLast_of (t : Fin cfg0.N) (h : t.val ≠ 24) : ¬atLast (grid0.coords t) := fun hl => h ((atLast_iff t).mp hl)

abbrev Outs (F : FTy → Type) [FloatOps F] : Type :=
  Vec F S2000x256 .f32 × Vec F S1x256 .f32 × Vec F S1x256 .f32 × Vec F S1x256 .f32 × Vec F S1x256 .f32

def unread : Vec F S1x256 .f32 := rowView.read (Elt F) rowView.junk

-- The three runs on the operands of point t.
def firstAt (c : Dev nD) (t : Fin cfg0.N) (h0 : t.val = 0) :=
  runFirst c (grid0.coords t) (xStg t) (xStg_whole t) (aggrStg t) (aggrStg_whole t) (scaleStg t) (scaleStg_whole t) (wStg t) (wStg_whole t) (biasStg t) (biasStg_whole t) (linStg t) (linStg_whole t) (sumStg t) (sumStg_whole t) (sqStg t) (sqStg_whole t) accSumM (Memref.isWhole_whole _) accSqM (Memref.isWhole_whole _) (xBlk V c t) (aggrBlk V c t) (scaleBlk V c t) (wBlk V c t) (biasBlk V c t) (first_of t h0) (notLast_of t (by omega))
def midAt (c : Dev nD) (t : Fin cfg0.N) (h0 : t.val ≠ 0) (h24 : t.val ≠ 24) (p p2 : Vec F S1x256 .f32) :=
  runMid c (grid0.coords t) (xStg t) (xStg_whole t) (aggrStg t) (aggrStg_whole t) (scaleStg t) (scaleStg_whole t) (wStg t) (wStg_whole t) (biasStg t) (biasStg_whole t) (linStg t) (linStg_whole t) (sumStg t) (sumStg_whole t) (sqStg t) (sqStg_whole t) accSumM (Memref.isWhole_whole _) accSqM (Memref.isWhole_whole _) (xBlk V c t) (aggrBlk V c t) (scaleBlk V c t) (wBlk V c t) (biasBlk V c t) (notFirst_of t h0) (notLast_of t h24) p p2
def lastAt (c : Dev nD) (t : Fin cfg0.N) (h24 : t.val = 24) (p p2 : Vec F S1x256 .f32) :=
  runLast c (grid0.coords t) (xStg t) (xStg_whole t) (aggrStg t) (aggrStg_whole t) (scaleStg t) (scaleStg_whole t) (wStg t) (wStg_whole t) (biasStg t) (biasStg_whole t) (linStg t) (linStg_whole t) (sumStg t) (sumStg_whole t) (sqStg t) (sqStg_whole t) accSumM (Memref.isWhole_whole _) accSqM (Memref.isWhole_whole _) (xBlk V c t) (aggrBlk V c t) (scaleBlk V c t) (wBlk V c t) (biasBlk V c t) (notFirst_of t (by omega)) (last_of t h24) p p2

def leftFirst (c : Dev nD) (t : Fin cfg0.N) (h0 : t.val = 0) : Outs F :=
  leaves (firstAt V c t h0).1 (firstAt V c t h0).2.1 (firstAt V c t h0).2.2.1 unread
def leftMid (c : Dev nD) (t : Fin cfg0.N) (h0 : t.val ≠ 0) (h24 : t.val ≠ 24) (p p2 : Vec F S1x256 .f32) : Outs F :=
  leaves (midAt V c t h0 h24 p p2).1 (midAt V c t h0 h24 p p2).2.1 (midAt V c t h0 h24 p p2).2.2.1 unread
def leftLast (c : Dev nD) (t : Fin cfg0.N) (h24 : t.val = 24) (p p2 : Vec F S1x256 .f32) : Outs F :=
  leavesLast (lastAt V c t h24 p p2).1 (lastAt V c t h24 p p2).2.1 (lastAt V c t h24 p p2).2.2.1 (lastAt V c t h24 p p2).2.2.2.1 (lastAt V c t h24 p p2).2.2.2.2.1

def outsAt (c : Dev nD) : (n : ℕ) → n < cfg0.N → Outs F
  | 0, hn => leftFirst V c ⟨0, hn⟩ rfl
  | n + 1, hn =>
    if h24 : n + 1 = 24 then
      leftLast V c ⟨n + 1, hn⟩ h24 (outsAt c n (Nat.lt_of_succ_lt hn)).2.2.2.1 (outsAt c n (Nat.lt_of_succ_lt hn)).2.2.2.2
    else
      leftMid V c ⟨n + 1, hn⟩ (Nat.succ_ne_zero n) h24 (outsAt c n (Nat.lt_of_succ_lt hn)).2.2.2.1 (outsAt c n (Nat.lt_of_succ_lt hn)).2.2.2.2

theorem outsAt_first (c : Dev nD) (t : Fin cfg0.N) (h0 : t.val = 0) : outsAt V c t.val t.isLt = leftFirst V c t h0 := by
  obtain ⟨n, hn⟩ := t
  cases n with
  | zero => rfl
  | succ n => exact absurd h0 (Nat.succ_ne_zero n)

theorem outsAt_mid (c : Dev nD) (t : Fin cfg0.N) (h0 : t.val ≠ 0) (h24 : t.val ≠ 24) :
    outsAt V c t.val t.isLt = leftMid V c t h0 h24 (outsAt V c (t.val - 1) (Nat.lt_of_le_of_lt (Nat.sub_le _ _) t.isLt)).2.2.2.1 (outsAt V c (t.val - 1) (Nat.lt_of_le_of_lt (Nat.sub_le _ _) t.isLt)).2.2.2.2 := by
  obtain ⟨n, hn⟩ := t
  cases n with
  | zero => exact absurd rfl h0
  | succ n => exact (dif_neg h24).trans rfl

theorem outsAt_last (c : Dev nD) (t : Fin cfg0.N) (h24 : t.val = 24) :
    outsAt V c t.val t.isLt = leftLast V c t h24 (outsAt V c (t.val - 1) (Nat.lt_of_le_of_lt (Nat.sub_le _ _) t.isLt)).2.2.2.1 (outsAt V c (t.val - 1) (Nat.lt_of_le_of_lt (Nat.sub_le _ _) t.isLt)).2.2.2.2 := by
  obtain ⟨n, hn⟩ := t
  cases n with
  | zero => exact absurd (show (0 : ℕ) = 24 from h24) (by omega)
  | succ n => exact (dif_pos h24).trans rfl

def PhiS (c : Dev nD) : (n : ℕ) → n ≤ cfg0.N → sProp 𝕄
  | 0, _ => Pipeline.ΦA spec0 c
  | n + 1, hn => iprop(iprop(iprop(owns (c : Thread nD τ) accSumM fullShare (outsAt V c n hn).2.2.2.1 ∗ owns (c : Thread nD τ) accSqM fullShare (outsAt V c n hn).2.2.2.2)
      ∗ Pipeline.scopedRestBut (Ix := Unit) (Name := ℕ) (U := UR sig nD τ) (Lvl := ℕ) (Val := Elt F) spec0 c [cc0_scratch0, cc0_scratch1]) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(iprop(owns (c : Thread nD τ) accSumM fullShare (outsAt V c n hn).2.2.2.1 ∗ owns (c : Thread nD τ) accSqM fullShare (outsAt V c n hn).2.2.2.2)
      ∗ Pipeline.scopedRestBut (Ix := Unit) (Name := ℕ) (U := UR sig nD τ) (Lvl := ℕ) (Val := Elt F) spec0 c [cc0_scratch0, cc0_scratch1]) ∗ (∃ r, prngReg c r)) := rfl

theorem PhiS_pos (c : Dev nD) (n : ℕ) (h : n ≤ cfg0.N) (hz : n ≠ 0) :
    PhiS V c n h = iprop(iprop(iprop(owns (c : Thread nD τ) accSumM fullShare (outsAt V c (n - 1) (by omega)).2.2.2.1 ∗ owns (c : Thread nD τ) accSqM fullShare (outsAt V c (n - 1) (by omega)).2.2.2.2)
      ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

end Reg0

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (Reg0.outsAt V c t.val t.isLt).1
    | ⟨6, _⟩ => (Reg0.outsAt V c t.val t.isLt).2.1
    | ⟨7, _⟩ => (Reg0.outsAt V c t.val t.isLt).2.2.1
  Φ t := Reg0.PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem share0 (c : Dev nD) (w : Fin cfg0.W) : (dat0 V c).q w = fullShare := rfl

theorem owed0 (c : Dev nD) (t : Fin (cfg0.N + 1)) : (dat0 V c).owed t = 0 := rfl

theorem recorded0 (c : Dev nD) (t : Fin (cfg0.N + 1)) : (dat0 V c).recorded t = Set.univ := rfl

namespace Reg0

theorem Phi_castSucc (c : Dev nD) (t : Fin cfg0.N) : (dat0 V c).Φ t.castSucc = PhiS V c t.val (Nat.le_of_lt t.isLt) := by
  dsimp only [dat0]; simp only [Fin.coe_castSucc]

theorem after_x (c : Dev nD) (t : Fin cfg0.N) : (dat0 V c).after 0 t = iblk0 V c 0 t := by dsimp only [dat0]
theorem after_aggr (c : Dev nD) (t : Fin cfg0.N) : (dat0 V c).after 1 t = iblk0 V c 1 t := by dsimp only [dat0]
theorem after_scale (c : Dev nD) (t : Fin cfg0.N) : (dat0 V c).after 2 t = iblk0 V c 2 t := by dsimp only [dat0]
theorem after_w (c : Dev nD) (t : Fin cfg0.N) : (dat0 V c).after 3 t = iblk0 V c 3 t := by dsimp only [dat0]
theorem after_bias (c : Dev nD) (t : Fin cfg0.N) : (dat0 V c).after 4 t = iblk0 V c 4 t := by dsimp only [dat0]
theorem after_lin (c : Dev nD) (t : Fin cfg0.N) : (dat0 V c).after 5 t = (outsAt V c t.val t.isLt).1 := by dsimp only [dat0]
theorem after_sum (c : Dev nD) (t : Fin cfg0.N) : (dat0 V c).after 6 t = (outsAt V c t.val t.isLt).2.1 := by dsimp only [dat0]
theorem after_sq (c : Dev nD) (t : Fin cfg0.N) : (dat0 V c).after 7 t = (outsAt V c t.val t.isLt).2.2.1 := by dsimp only [dat0]

theorem before_x (c : Dev nD) (t : Fin cfg0.N) (d) : (dat0 V c).before 0 t d = iblk0 V c 0 t :=
  ((dat0 V c).before_in_eq_fetched 0 rfl (fun _ => rfl) (fun _ _ _ => rfl)
      (fun t => by rw [after_x]; unfold Dat.blockOf iblk0; rw [A_eq0]; try rfl) t d).trans
    (by unfold Dat.fetched Dat.blockOf iblk0; rw [A_eq0]; try rfl)
theorem before_aggr (c : Dev nD) (t : Fin cfg0.N) (d) : (dat0 V c).before 1 t d = iblk0 V c 1 t :=
  ((dat0 V c).before_in_eq_fetched 1 rfl (fun _ => rfl) (fun _ _ _ => rfl)
      (fun t => by rw [after_aggr]; unfold Dat.blockOf iblk0; rw [A_eq0]; try rfl) t d).trans
    (by unfold Dat.fetched Dat.blockOf iblk0; rw [A_eq0]; try rfl)
theorem before_scale (c : Dev nD) (t : Fin cfg0.N) (d) : (dat0 V c).before 2 t d = iblk0 V c 2 t :=
  ((dat0 V c).before_in_eq_fetched 2 rfl (fun _ => rfl) (fun _ _ _ => rfl)
      (fun t => by rw [after_scale]; unfold Dat.blockOf iblk0; rw [A_eq0]; try rfl) t d).trans
    (by unfold Dat.fetched Dat.blockOf iblk0; rw [A_eq0]; try rfl)
theorem before_w (c : Dev nD) (t : Fin cfg0.N) (d) : (dat0 V c).before 3 t d = iblk0 V c 3 t :=
  ((dat0 V c).before_in_eq_fetched 3 rfl (fun _ => rfl) (fun _ _ _ => rfl)
      (fun t => by rw [after_w]; unfold Dat.blockOf iblk0; rw [A_eq0]; try rfl) t d).trans
    (by unfold Dat.fetched Dat.blockOf iblk0; rw [A_eq0]; try rfl)
theorem before_bias (c : Dev nD) (t : Fin cfg0.N) (d) : (dat0 V c).before 4 t d = iblk0 V c 4 t :=
  ((dat0 V c).before_in_eq_fetched 4 rfl (fun _ => rfl) (fun _ _ _ => rfl)
      (fun t => by rw [after_bias]; unfold Dat.blockOf iblk0; rw [A_eq0]; try rfl) t d).trans
    (by unfold Dat.fetched Dat.blockOf iblk0; rw [A_eq0]; try rfl)

theorem leaves_x (c : Dev nD) (t : Fin cfg0.N) : (dat0 V c).leavesExact 0 t = owns (c : Thread nD τ) (xStg t) fullShare (iblk0 V c 0 t) := by
  rw [← after_x V c t]
theorem leaves_aggr (c : Dev nD) (t : Fin cfg0.N) : (dat0 V c).leavesExact 1 t = owns (c : Thread nD τ) (aggrStg t) fullShare (iblk0 V c 1 t) := by
  rw [← after_aggr V c t]
theorem leaves_scale (c : Dev nD) (t : Fin cfg0.N) : (dat0 V c).leavesExact 2 t = owns (c : Thread nD τ) (scaleStg t) fullShare (iblk0 V c 2 t) := by
  rw [← after_scale V c t]
theorem leaves_w (c : Dev nD) (t : Fin cfg0.N) : (dat0 V c).leavesExact 3 t = owns (c : Thread nD τ) (wStg t) fullShare (iblk0 V c 3 t) := by
  rw [← after_w V c t]
theorem leaves_bias (c : Dev nD) (t : Fin cfg0.N) : (dat0 V c).leavesExact 4 t = owns (c : Thread nD τ) (biasStg t) fullShare (iblk0 V c 4 t) := by
  rw [← after_bias V c t]
theorem leaves_lin (c : Dev nD) (t : Fin cfg0.N) : (dat0 V c).leavesExact 5 t = owns (c : Thread nD τ) (linStg t) fullShare (outsAt V c t.val t.isLt).1 := by
  rw [← after_lin V c t]

def bodyPre (c : Dev nD) (t : Fin cfg0.N) : sProp 𝕄 :=
  iprop((dat0 V c).Φ t.castSucc ∗ (dat0 V c).owesAt () t.castSucc
    ∗ (∃ d, owns (c : Thread nD τ) (xStg t) fullShare ((dat0 V c).before 0 t d))
    ∗ (∃ d, owns (c : Thread nD τ) (aggrStg t) fullShare ((dat0 V c).before 1 t d))
    ∗ (∃ d, owns (c : Thread nD τ) (scaleStg t) fullShare ((dat0 V c).before 2 t d))
    ∗ (∃ d, owns (c : Thread nD τ) (wStg t) fullShare ((dat0 V c).before 3 t d))
    ∗ (∃ d, owns (c : Thread nD τ) (biasStg t) fullShare ((dat0 V c).before 4 t d))
    ∗ (∃ d, owns (c : Thread nD τ) (linStg t) fullShare ((dat0 V c).before 5 t d))
    ∗ (∃ d, owns (c : Thread nD τ) (sumStg t) fullShare ((dat0 V c).before 6 t d))
    ∗ (∃ d, owns (c : Thread nD τ) (sqStg t) fullShare ((dat0 V c).before 7 t d)))

def bodyPost (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t ∗ (dat0 V c).leavesExact 4 t ∗ (dat0 V c).leavesExact 5 t ∗ (dat0 V c).leavesExact 6 t ∗ (dat0 V c).leavesExact 7 t)

set_option maxHeartbeats 4800000 in
theorem sound_body (c : Dev nD) (t : Fin cfg0.N) :
    bodyPre V c t ⊢ wp frame (wpE (defs₀ (F := F)) Variants.none c none) Set.univ (bodyAt0 t) (fun _ => bodyPost V c t) := by
  unfold bodyPre bodyPost; rw [bodyAt_eq]
  simp only [before_x, before_aggr, before_scale, before_w, before_bias]
  rw [show (dat0 V c).owesAt () t.succ = (dat0 V c).owesAt () t.castSucc from rfl]
  rw [show (dat0 V c).Φ t.succ = PhiS V c (t.val + 1) t.isLt from rfl, PhiS_succ]
  rw [leaves_x, leaves_aggr, leaves_scale, leaves_w, leaves_bias, leaves_lin]
  have hN : t.val < 25 := lt_of_lt_of_eq t.isLt (show cfg0.N = 25 from N_0)
  by_cases h0 : t.val = 0
  · rw [Dat.leavesExact_idle (dat0 V c) 6 t (sum_idle t (notLast_of t (by omega))) (sum_noFlush t (notLast_of t (by omega)))]
    rw [Dat.leavesExact_idle (dat0 V c) 7 t (sq_idle t (notLast_of t (by omega))) (sq_noFlush t (notLast_of t (by omega)))]
    rw [outsAt_first V c t h0]
    unfold leftFirst leaves; dsimp only
    rw [Phi_castSucc V c t, PhiS_zero V c _ _ h0, PhiA_split]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((firstAt V c t h0).2.2.2 _ _ Set.univ _)
    iframe H0 H1 H2 H3 H4
    isplitl [H5]; · iexists _; iexact H5
    isplitl [H6]; · iexact H6
    isplitl [H7]; · iexact H7
    isplitl [HS0]; · iexact HS0
    isplitl [HS1]; · iexact HS1
    iintro ⟨H0, H1, H2, H3, H4, H5, H6, H7, HS0, HS1⟩
    isplitl [HS0 HS1 Hrest Hg]
    · isplitl [HS0 HS1 Hrest]
      · isplitl [HS0 HS1]
        · isplitl [HS0]
          · iapply owns_canon _ _ (firstAt V c t h0).2.1 (first_cover ..).2.1; iexact HS0
          iapply owns_canon _ _ (firstAt V c t h0).2.2.1 (first_cover ..).2.2; iexact HS1
        iexact Hrest
      iexact Hg
    iframe Ho H0 H1 H2 H3 H4
    isplitl [H5]
    · iapply owns_canon _ _ (firstAt V c t h0).1 (first_cover ..).1; iexact H5
    isplitl [H6]; · iexists _; iexact H6
    iexists _; iexact H7
  · by_cases h24 : t.val = 24
    · rw [show (dat0 V c).leavesExact 6 t = owns (c : Thread nD τ) (sumStg t) fullShare ((dat0 V c).after 6 t) from by
        unfold Dat.leavesExact; rw [sum_live t (last_of t h24)], after_sum]
      rw [show (dat0 V c).leavesExact 7 t = owns (c : Thread nD τ) (sqStg t) fullShare ((dat0 V c).after 7 t) from by
        unfold Dat.leavesExact; rw [sq_live t (last_of t h24)], after_sq]
      rw [outsAt_last V c t h24]
      unfold leftLast leavesLast; dsimp only
      rw [Phi_castSucc V c t, PhiS_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((lastAt V c t h24 _ _).2.2.2.2.2 Set.univ _)
      iframe H0 H1 H2 H3 H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, H5, H6, H7, HS0, HS1⟩
      isplitl [HS0 HS1 Hrest Hg]
      · isplitl [HS0 HS1 Hrest]
        · isplitl [HS0 HS1]
          · isplitl [HS0]
            · iapply owns_canon _ _ (lastAt V c t h24 _ _).2.2.2.1 (last_cover ..).2.2.2.1; iexact HS0
            iapply owns_canon _ _ (lastAt V c t h24 _ _).2.2.2.2.1 (last_cover ..).2.2.2.2; iexact HS1
          iexact Hrest
        iexact Hg
      iframe Ho H0 H1 H2 H3 H4
      isplitl [H5]
      · iapply owns_canon _ _ (lastAt V c t h24 _ _).1 (last_cover ..).1; iexact H5
      isplitl [H6]
      · iapply owns_canon _ _ (lastAt V c t h24 _ _).2.1 (last_cover ..).2.1; iexact H6
      iapply owns_canon _ _ (lastAt V c t h24 _ _).2.2.1 (last_cover ..).2.2.1; iexact H7
    · rw [Dat.leavesExact_idle (dat0 V c) 6 t (sum_idle t (notLast_of t h24)) (sum_noFlush t (notLast_of t h24))]
      rw [Dat.leavesExact_idle (dat0 V c) 7 t (sq_idle t (notLast_of t h24)) (sq_noFlush t (notLast_of t h24))]
      rw [outsAt_mid V c t h0 h24]
      unfold leftMid leaves; dsimp only
      rw [Phi_castSucc V c t, PhiS_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((midAt V c t h0 h24 _ _).2.2.2 _ _ Set.univ _)
      iframe H0 H1 H2 H3 H4
      isplitl [H5]; · iexists _; iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 Hrest Hg]
      · isplitl [HS0 HS1 Hrest]
        · isplitl [HS0 HS1]
          · isplitl [HS0]
            · iapply owns_canon _ _ (midAt V c t h0 h24 _ _).2.1 (mid_cover ..).2.1; iexact HS0
            iapply owns_canon _ _ (midAt V c t h0 h24 _ _).2.2.1 (mid_cover ..).2.2; iexact HS1
          iexact Hrest
        iexact Hg
      iframe Ho H0 H1 H2 H3 H4
      isplitl [H5]
      · iapply owns_canon _ _ (midAt V c t h0 h24 _ _).1 (mid_cover ..).1; iexact H5
      isplitl [H6]; · iexists _; iexact H6
      iexists _; iexact H7

end Reg0

theorem body_obligation0 (c : Dev nD) : BodyObligation (dat0 (F := F) V c) (defs₀ (F := F)) Variants.none () Set.univ := fun t => by
  rw [bigSep_W0, bigSep_W0]
  exact Reg0.sound_body V c t

theorem hin0 (c : Dev nD) : Pipeline.ΦA spec0 c ⊢ (dat0 V c).Φ 0 := by
  rw [show (dat0 V c).Φ 0 = Reg0.PhiS V c 0 (Nat.zero_le _) from rfl, Reg0.PhiS_zero V c 0 _ rfl]
  try exact Idealize.SL.BI.Entails.refl _

namespace Reg0

theorem Phi_out (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA_split]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg
end Reg0

theorem hout0 (c : Dev nD) : (dat0 V c).Φ (Fin.last cfg0.N) ⊢ Pipeline.ΦA spec0 c :=
  Reg0.Phi_out V c _ (by rw [Fin.val_last]; have : cfg0.N = 25 := N_0; omega)

end Cert.Kernel.Hand

end
-- ==== Proof.K.Body1.lean ====
import proofs.«422945_j10866267259114_2_alg».proof.Proof.Gen.Kernel.Skeleton
import Idealize.ShloMosaic.Lib.Pipeline.FrameBody
import Idealize.ShloMosaic.Lib.Tactic

noncomputable section

namespace Cert.Kernel.Hand.Body1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

abbrev rowsAll : Rect S5000x256 := Rect.unit (s := S5000x256) ![0, 0] S5000x256.size inb_S5000x256_S5000x256_0_0
abbrev rowAll : Rect S1x256 := Rect.unit (s := S1x256) ![0, 0] S1x256.size inb_S1x256_S1x256_0_0
abbrev weightAll : Rect S256x256 := Rect.unit (s := S256x256) ![0, 0] S256x256.size inb_S256x256_S256x256_0_0

/-- What the body's one store leaves in the output block, from the input blocks in window order. -/
def bnReluLinear (h : Vec F S5000x256 .f32) (mu var g bt : Vec F S1x256 .f32) (W : Vec F S256x256 .f32)
    (b : Vec F S1x256 .f32) : Vec F S5000x256 .f32 :=
  View.canon [⟨rowsAll, k1_pay1 (View.ld h rowsAll) (View.ld g rowAll) (View.ld mu rowAll) (View.ld var rowAll)
    (View.ld bt rowAll) (View.ld W weightAll) (View.ld b rowAll)⟩]

/-- The kernel's second call has the same body as its first. -/
theorem body3_eq : @cc3__bn_relu_linear_kernel F _ = @cc1__bn_relu_linear_kernel F _ := rfl

set_option maxHeartbeats 1000000 in
/-- The body (`k`, either call's) on whole memrefs: the inputs come back as they were, the output holds `bnReluLinear` of them. -/
theorem kernel_runs {k} (hk : k = @cc1__bn_relu_linear_kernel F _) (c : Dev nD) (E : Set ℕ) {i : grid1.Coords}
    {a1 : Memref sig .tc .vmem S5000x256 .f32} {w1 : a1.IsWhole} {a2 : Memref sig .tc .vmem S1x256 .f32} {w2 : a2.IsWhole}
    {a3 : Memref sig .tc .vmem S1x256 .f32} {w3 : a3.IsWhole} {a4 : Memref sig .tc .vmem S1x256 .f32} {w4 : a4.IsWhole}
    {a5 : Memref sig .tc .vmem S1x256 .f32} {w5 : a5.IsWhole} {a6 : Memref sig .tc .vmem S256x256 .f32} {w6 : a6.IsWhole}
    {a7 : Memref sig .tc .vmem S1x256 .f32} {w7 : a7.IsWhole} {a8 : Memref sig .tc .vmem S5000x256 .f32} {w8 : a8.IsWhole}
    (h : Vec F S5000x256 .f32) (mu var g bt : Vec F S1x256 .f32) (W : Vec F S256x256 .f32) (b : Vec F S1x256 .f32)
    {K : PUnit → sProp 𝕄} :
    iprop(owns c.tc a1 fullShare h ∗ owns c.tc a2 fullShare mu ∗ owns c.tc a3 fullShare var
        ∗ owns c.tc a4 fullShare g ∗ owns c.tc a5 fullShare bt ∗ owns c.tc a6 fullShare W
        ∗ owns c.tc a7 fullShare b ∗ (∃ d, owns c.tc a8 fullShare d)
        ∗ (iprop(owns c.tc a1 fullShare h ∗ owns c.tc a2 fullShare mu ∗ owns c.tc a3 fullShare var
            ∗ owns c.tc a4 fullShare g ∗ owns c.tc a5 fullShare bt ∗ owns c.tc a6 fullShare W
            ∗ owns c.tc a7 fullShare b ∗ owns c.tc a8 fullShare (bnReluLinear h mu var g bt W b)) -∗ K ⟨⟩))
      ⊢ wp frame (wpE (defs₀ (F := F)) Variants.none c none) E (k i a1 w1 a2 w2 a3 w3 a4 w4 a5 w5 a6 w6 a7 w7 a8 w8) K := by
  subst hk
  simp only [cc1__bn_relu_linear_kernel_eq_skeleton]; unfold cc1__bn_relu_linear_kernel_skel owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%d8, %f8, -, H8⟩, Hk⟩
  subst e1 e2 e3 e4 e5 e6 e7
  sl_exec
  sl_step
  iapply Hk
  isplitl [H1]; iexists f1; isplitr; ipureintro; rfl; iexact H1
  isplitl [H2]; iexists f2; isplitr; ipureintro; rfl; iexact H2
  isplitl [H3]; iexists f3; isplitr; ipureintro; rfl; iexact H3
  isplitl [H4]; iexists f4; isplitr; ipureintro; rfl; iexact H4
  isplitl [H5]; iexists f5; isplitr; ipureintro; rfl; iexact H5
  isplitl [H6]; iexists f6; isplitr; ipureintro; rfl; iexact H6
  isplitl [H7]; iexists f7; isplitr; ipureintro; rfl; iexact H7
  iexists _; isplitr; swap; iexact H8
  ipureintro; exact View.read_writes_eq_canon _ _ _ (View.cover_of_tiled _ S5000x256.size (by rfl))

end Cert.Kernel.Hand.Body1

end
-- ==== Proof.K.Reg1.lean ====
import proofs.«422945_j10866267259114_2_alg».proof.Proof.K.Body1
import proofs.«422945_j10866267259114_2_alg».proof.Proof.Gen.Kernel.Launch
import proofs.«422945_j10866267259114_2_alg».proof.Proof.Gen.Kernel.Points
import Idealize.ShloMosaic.Lib.Pipeline.RegionsLoop
import Idealize.ShloMosaic.Lib.Pipeline.FrameSuffix
import Idealize.ShloMosaic.Lib.Ring

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data: arrays as found; the body leaves each input block in place and fills the output block; nothing else moves. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => Body1.bnReluLinear (iblk1 V c 0 t) (iblk1 V c 1 t) (iblk1 V c 2 t) (iblk1 V c 3 t) (iblk1 V c 4 t)
        (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := rfl

/-- An input window holds its block at every point, since the body leaves it in place. -/
theorem Reg1.before (c : Dev nD) (t : Fin cfg1.N) : ∀ w : Fin 8, w ≠ 7 → ∀ d, (dat1 V c).before w t d = (dat1 V c).after w t := by
  intro w; fin_cases w <;> intro h d <;> first
    | exact absurd rfl h
    | exact Dat.before_in_eq_fetched _ _ rfl (fun _ => rfl) (fun _ _ _ => rfl) (fun _ => rfl) t d

/-- At every point the inputs hold their blocks, so the body runs; the invariant and the debts pass through unread. -/
theorem body_obligation1 (c : Dev nD) : BodyObligation (dat1 (F := F) V c) (defs₀ (F := F)) Variants.none () Set.univ := fun t => by
  rw [bigSep_W1, bigSep_W1]
  simp (disch := decide) only [Reg1.before V c t]
  dsimp only [dat1, Dat.bound]
  change _ ⊢ wp _ _ _ (bodyAt1 t) _
  unfold bodyAt1
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply Body1.kernel_runs rfl c Set.univ (iblk1 V c 0 t) (iblk1 V c 1 t) (iblk1 V c 2 t) (iblk1 V c 3 t) (iblk1 V c 4 t)
    (iblk1 V c 5 t) (iblk1 V c 6 t)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro H
  isplitl [HΦ]; · iexact HΦ
  isplitl [Ho]; · iexact Ho
  iexact H

theorem hin1 (c : Dev nD) : Pipeline.ΦA spec1 c ⊢ (dat1 V c).Φ 0 := .rfl

theorem hout1 (c : Dev nD) : (dat1 V c).Φ (Fin.last cfg1.N) ⊢ Pipeline.ΦA spec1 c := .rfl

theorem share1 (c : Dev nD) (w : Fin cfg1.W) : (dat1 V c).q w = fullShare := rfl

theorem owed1 (c : Dev nD) (t : Fin (cfg1.N + 1)) : (dat1 V c).owed t = 0 := rfl

theorem recorded1 (c : Dev nD) (t : Fin (cfg1.N + 1)) : (dat1 V c).recorded t = Set.univ := rfl

end Cert.Kernel.Hand

end
-- ==== Proof.K.Reg2.lean ====
import proofs.«422945_j10866267259114_2_alg».proof.Proof.K.Lin

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

open Lin

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

namespace Reg2

theorem atFirst_iff : ∀ t : Fin cfg2.N, atFirst (grid2.coords t) ↔ t.val = 0 :=
  (by decide +kernel : ∀ t : Fin grid2.N, atFirst (grid2.coords t) ↔ t.val = 0)
theorem atLast_iff : ∀ t : Fin cfg2.N, atLast (grid2.coords t) ↔ t.val = 24 :=
  (by decide +kernel : ∀ t : Fin grid2.N, atLast (grid2.coords t) ↔ t.val = 24)

theorem sum_idle : ∀ t : Fin cfg2.N, ¬atLast (grid2.coords t) → cfg2.idle 6 (grid2.coords t) = true := by decide +kernel

theorem sum_noFlush : ∀ t : Fin cfg2.N, ¬atLast (grid2.coords t) → (cfg2.win 6).flush t = false := by decide +kernel

theorem sum_live : ∀ t : Fin cfg2.N, atLast (grid2.coords t) → cfg2.idle 6 (grid2.coords t) = false := by decide +kernel

theorem sq_idle : ∀ t : Fin cfg2.N, ¬atLast (grid2.coords t) → cfg2.idle 7 (grid2.coords t) = true := by decide +kernel
theorem sq_noFlush : ∀ t : Fin cfg2.N, ¬atLast (grid2.coords t) → (cfg2.win 7).flush t = false := by decide +kernel
theorem sq_live : ∀ t : Fin cfg2.N, atLast (grid2.coords t) → cfg2.idle 7 (grid2.coords t) = false := by decide +kernel

abbrev xStg (t : Fin cfg2.N) : Memref sig .tc .vmem S2000x256 .f32 := win2_0.stage (cfg2.slots t 0)
abbrev xStg_whole (t : Fin cfg2.N) : (xStg t).IsWhole := hstage2_0 ((cfg2.slots t 0).cast nbuf2_0)
abbrev aggrStg (t : Fin cfg2.N) : Memref sig .tc .vmem S2000x256 .f32 := win2_1.stage (cfg2.slots t 1)
abbrev aggrStg_whole (t : Fin cfg2.N) : (aggrStg t).IsWhole := hstage2_1 ((cfg2.slots t 1).cast nbuf2_1)
abbrev scaleStg (t : Fin cfg2.N) : Memref sig .tc .vmem S1x256 .f32 := win2_2.stage (cfg2.slots t 2)
abbrev scaleStg_whole (t : Fin cfg2.N) : (scaleStg t).IsWhole := hstage2_2 ((cfg2.slots t 2).cast nbuf2_2)
abbrev wStg (t : Fin cfg2.N) : Memref sig .tc .vmem S256x256 .f32 := win2_3.stage (cfg2.slots t 3)
abbrev wStg_whole (t : Fin cfg2.N) : (wStg t).IsWhole := hstage2_3 ((cfg2.slots t 3).cast nbuf2_3)
abbrev biasStg (t : Fin cfg2.N) : Memref sig .tc .vmem S1x256 .f32 := win2_4.stage (cfg2.slots t 4)
abbrev biasStg_whole (t : Fin cfg2.N) : (biasStg t).IsWhole := hstage2_4 ((cfg2.slots t 4).cast nbuf2_4)
abbrev linStg (t : Fin cfg2.N) : Memref sig .tc .vmem S2000x256 .f32 := win2_5.stage (cfg2.slots t 5)
abbrev linStg_whole (t : Fin cfg2.N) : (linStg t).IsWhole := hstage2_5 ((cfg2.slots t 5).cast nbuf2_5)
abbrev sumStg (t : Fin cfg2.N) : Memref sig .tc .vmem S1x256 .f32 := win2_6.stage (cfg2.slots t 6)
abbrev sumStg_whole (t : Fin cfg2.N) : (sumStg t).IsWhole := hstage2_6 ((cfg2.slots t 6).cast nbuf2_6)
abbrev sqStg (t : Fin cfg2.N) : Memref sig .tc .vmem S1x256 .f32 := win2_7.stage (cfg2.slots t 7)
abbrev sqStg_whole (t : Fin cfg2.N) : (sqStg t).IsWhole := hstage2_7 ((cfg2.slots t 7).cast nbuf2_7)

abbrev accSumM : Memref sig .tc .vmem S1x256 .f32 := Memref.whole cc2_scratch0
abbrev accSqM : Memref sig .tc .vmem S1x256 .f32 := Memref.whole cc2_scratch1
abbrev rowView : View sig .tc .vmem S1x256 .f32 := accSumM.view

theorem PhiA_split (c : Dev nD) :
    (Pipeline.ΦA spec2 c : sProp 𝕄)
      = iprop(iprop(iprop((∃ d, owns (c : Thread nD τ) accSumM fullShare d) ∗ (∃ d, owns (c : Thread nD τ) accSqM fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [accSumM, accSqM, owns_whole]; try rfl

theorem bodyAt_eq (t : Fin cfg2.N) : bodyAt2 (F := F) t = cc0__combine_linear_stats_kernel (grid2.coords t) (xStg t) (xStg_whole t) (aggrStg t) (aggrStg_whole t) (scaleStg t) (scaleStg_whole t) (wStg t) (wStg_whole t) (biasStg t) (biasStg_whole t) (linStg t) (linStg_whole t) (sumStg t) (sumStg_whole t) (sqStg t) (sqStg_whole t) accSumM (Memref.isWhole_whole _) accSqM (Memref.isWhole_whole _) := rfl

abbrev xBlk (c : Dev nD) (t : Fin cfg2.N) : Vec F S2000x256 .f32 := iblk2 V c 0 t
abbrev aggrBlk (c : Dev nD) (t : Fin cfg2.N) : Vec F S2000x256 .f32 := iblk2 V c 1 t
abbrev scaleBlk (c : Dev nD) (t : Fin cfg2.N) : Vec F S1x256 .f32 := iblk2 V c 2 t
abbrev wBlk (c : Dev nD) (t : Fin cfg2.N) : Vec F S256x256 .f32 := iblk2 V c 3 t
abbrev biasBlk (c : Dev nD) (t : Fin cfg2.N) : Vec F S1x256 .f32 := iblk2 V c 4 t

theorem first_of (t : Fin cfg2.N) (h : t.val = 0) : atFirst (grid2.coords t) := (atFirst_iff t).mpr h
theorem notFirst_of (t : Fin cfg2.N) (h : t.val ≠ 0) : ¬atFirst (grid2.coords t) := fun hf => h ((atFirst_iff t).mp hf)
theorem last_of (t : Fin cfg2.N) (h : t.val = 24) : atLast (grid2.coords t) := (atLast_iff t).mpr h
theorem notLast_of (t : Fin cfg2.N) (h : t.val ≠ 24) : ¬atLast (grid2.coords t) := fun hl => h ((atLast_iff t).mp hl)

abbrev Outs (F : FTy → Type) [FloatOps F] : Type :=
  Vec F S2000x256 .f32 × Vec F S1x256 .f32 × Vec F S1x256 .f32 × Vec F S1x256 .f32 × Vec F S1x256 .f32

def unread : Vec F S1x256 .f32 := rowView.read (Elt F) rowView.junk

-- The three runs on the operands of point t.
def firstAt (c : Dev nD) (t : Fin cfg2.N) (h0 : t.val = 0) :=
  runFirst c (grid2.coords t) (xStg t) (xStg_whole t) (aggrStg t) (aggrStg_whole t) (scaleStg t) (scaleStg_whole t) (wStg t) (wStg_whole t) (biasStg t) (biasStg_whole t) (linStg t) (linStg_whole t) (sumStg t) (sumStg_whole t) (sqStg t) (sqStg_whole t) accSumM (Memref.isWhole_whole _) accSqM (Memref.isWhole_whole _) (xBlk V c t) (aggrBlk V c t) (scaleBlk V c t) (wBlk V c t) (biasBlk V c t) (first_of t h0) (notLast_of t (by omega))
def midAt (c : Dev nD) (t : Fin cfg2.N) (h0 : t.val ≠ 0) (h24 : t.val ≠ 24) (p p2 : Vec F S1x256 .f32) :=
  runMid c (grid2.coords t) (xStg t) (xStg_whole t) (aggrStg t) (aggrStg_whole t) (scaleStg t) (scaleStg_whole t) (wStg t) (wStg_whole t) (biasStg t) (biasStg_whole t) (linStg t) (linStg_whole t) (sumStg t) (sumStg_whole t) (sqStg t) (sqStg_whole t) accSumM (Memref.isWhole_whole _) accSqM (Memref.isWhole_whole _) (xBlk V c t) (aggrBlk V c t) (scaleBlk V c t) (wBlk V c t) (biasBlk V c t) (notFirst_of t h0) (notLast_of t h24) p p2
def lastAt (c : Dev nD) (t : Fin cfg2.N) (h24 : t.val = 24) (p p2 : Vec F S1x256 .f32) :=
  runLast c (grid2.coords t) (xStg t) (xStg_whole t) (aggrStg t) (aggrStg_whole t) (scaleStg t) (scaleStg_whole t) (wStg t) (wStg_whole t) (biasStg t) (biasStg_whole t) (linStg t) (linStg_whole t) (sumStg t) (sumStg_whole t) (sqStg t) (sqStg_whole t) accSumM (Memref.isWhole_whole _) accSqM (Memref.isWhole_whole _) (xBlk V c t) (aggrBlk V c t) (scaleBlk V c t) (wBlk V c t) (biasBlk V c t) (notFirst_of t (by omega)) (last_of t h24) p p2

def leftFirst (c : Dev nD) (t : Fin cfg2.N) (h0 : t.val = 0) : Outs F :=
  leaves (firstAt V c t h0).1 (firstAt V c t h0).2.1 (firstAt V c t h0).2.2.1 unread
def leftMid (c : Dev nD) (t : Fin cfg2.N) (h0 : t.val ≠ 0) (h24 : t.val ≠ 24) (p p2 : Vec F S1x256 .f32) : Outs F :=
  leaves (midAt V c t h0 h24 p p2).1 (midAt V c t h0 h24 p p2).2.1 (midAt V c t h0 h24 p p2).2.2.1 unread
def leftLast (c : Dev nD) (t : Fin cfg2.N) (h24 : t.val = 24) (p p2 : Vec F S1x256 .f32) : Outs F :=
  leavesLast (lastAt V c t h24 p p2).1 (lastAt V c t h24 p p2).2.1 (lastAt V c t h24 p p2).2.2.1 (lastAt V c t h24 p p2).2.2.2.1 (lastAt V c t h24 p p2).2.2.2.2.1

def outsAt (c : Dev nD) : (n : ℕ) → n < cfg2.N → Outs F
  | 0, hn => leftFirst V c ⟨0, hn⟩ rfl
  | n + 1, hn =>
    if h24 : n + 1 = 24 then
      leftLast V c ⟨n + 1, hn⟩ h24 (outsAt c n (Nat.lt_of_succ_lt hn)).2.2.2.1 (outsAt c n (Nat.lt_of_succ_lt hn)).2.2.2.2
    else
      leftMid V c ⟨n + 1, hn⟩ (Nat.succ_ne_zero n) h24 (outsAt c n (Nat.lt_of_succ_lt hn)).2.2.2.1 (outsAt c n (Nat.lt_of_succ_lt hn)).2.2.2.2

theorem outsAt_first (c : Dev nD) (t : Fin cfg2.N) (h0 : t.val = 0) : outsAt V c t.val t.isLt = leftFirst V c t h0 := by
  obtain ⟨n, hn⟩ := t
  cases n with
  | zero => rfl
  | succ n => exact absurd h0 (Nat.succ_ne_zero n)

theorem outsAt_mid (c : Dev nD) (t : Fin cfg2.N) (h0 : t.val ≠ 0) (h24 : t.val ≠ 24) :
    outsAt V c t.val t.isLt = leftMid V c t h0 h24 (outsAt V c (t.val - 1) (Nat.lt_of_le_of_lt (Nat.sub_le _ _) t.isLt)).2.2.2.1 (outsAt V c (t.val - 1) (Nat.lt_of_le_of_lt (Nat.sub_le _ _) t.isLt)).2.2.2.2 := by
  obtain ⟨n, hn⟩ := t
  cases n with
  | zero => exact absurd rfl h0
  | succ n => exact (dif_neg h24).trans rfl

theorem outsAt_last (c : Dev nD) (t : Fin cfg2.N) (h24 : t.val = 24) :
    outsAt V c t.val t.isLt = leftLast V c t h24 (outsAt V c (t.val - 1) (Nat.lt_of_le_of_lt (Nat.sub_le _ _) t.isLt)).2.2.2.1 (outsAt V c (t.val - 1) (Nat.lt_of_le_of_lt (Nat.sub_le _ _) t.isLt)).2.2.2.2 := by
  obtain ⟨n, hn⟩ := t
  cases n with
  | zero => exact absurd (show (0 : ℕ) = 24 from h24) (by omega)
  | succ n => exact (dif_pos h24).trans rfl

def PhiS (c : Dev nD) : (n : ℕ) → n ≤ cfg2.N → sProp 𝕄
  | 0, _ => Pipeline.ΦA spec2 c
  | n + 1, hn => iprop(iprop(iprop(owns (c : Thread nD τ) accSumM fullShare (outsAt V c n hn).2.2.2.1 ∗ owns (c : Thread nD τ) accSqM fullShare (outsAt V c n hn).2.2.2.2)
      ∗ Pipeline.scopedRestBut (Ix := Unit) (Name := ℕ) (U := UR sig nD τ) (Lvl := ℕ) (Val := Elt F) spec2 c [cc2_scratch0, cc2_scratch1]) ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(iprop(iprop(owns (c : Thread nD τ) accSumM fullShare (outsAt V c n hn).2.2.2.1 ∗ owns (c : Thread nD τ) accSqM fullShare (outsAt V c n hn).2.2.2.2)
      ∗ Pipeline.scopedRestBut (Ix := Unit) (Name := ℕ) (U := UR sig nD τ) (Lvl := ℕ) (Val := Elt F) spec2 c [cc2_scratch0, cc2_scratch1]) ∗ (∃ r, prngReg c r)) := rfl

theorem PhiS_pos (c : Dev nD) (n : ℕ) (h : n ≤ cfg2.N) (hz : n ≠ 0) :
    PhiS V c n h = iprop(iprop(iprop(owns (c : Thread nD τ) accSumM fullShare (outsAt V c (n - 1) (by omega)).2.2.2.1 ∗ owns (c : Thread nD τ) accSqM fullShare (outsAt V c (n - 1) (by omega)).2.2.2.2)
      ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact absurd rfl hz
  | succ n => rfl

end Reg2

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (Reg2.outsAt V c t.val t.isLt).1
    | ⟨6, _⟩ => (Reg2.outsAt V c t.val t.isLt).2.1
    | ⟨7, _⟩ => (Reg2.outsAt V c t.val t.isLt).2.2.1
  Φ t := Reg2.PhiS V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem share2 (c : Dev nD) (w : Fin cfg2.W) : (dat2 V c).q w = fullShare := rfl

theorem owed2 (c : Dev nD) (t : Fin (cfg2.N + 1)) : (dat2 V c).owed t = 0 := rfl

theorem recorded2 (c : Dev nD) (t : Fin (cfg2.N + 1)) : (dat2 V c).recorded t = Set.univ := rfl

namespace Reg2

theorem Phi_castSucc (c : Dev nD) (t : Fin cfg2.N) : (dat2 V c).Φ t.castSucc = PhiS V c t.val (Nat.le_of_lt t.isLt) := by
  dsimp only [dat2]; simp only [Fin.coe_castSucc]

theorem after_x (c : Dev nD) (t : Fin cfg2.N) : (dat2 V c).after 0 t = iblk2 V c 0 t := by dsimp only [dat2]
theorem after_aggr (c : Dev nD) (t : Fin cfg2.N) : (dat2 V c).after 1 t = iblk2 V c 1 t := by dsimp only [dat2]
theorem after_scale (c : Dev nD) (t : Fin cfg2.N) : (dat2 V c).after 2 t = iblk2 V c 2 t := by dsimp only [dat2]
theorem after_w (c : Dev nD) (t : Fin cfg2.N) : (dat2 V c).after 3 t = iblk2 V c 3 t := by dsimp only [dat2]
theorem after_bias (c : Dev nD) (t : Fin cfg2.N) : (dat2 V c).after 4 t = iblk2 V c 4 t := by dsimp only [dat2]
theorem after_lin (c : Dev nD) (t : Fin cfg2.N) : (dat2 V c).after 5 t = (outsAt V c t.val t.isLt).1 := by dsimp only [dat2]
theorem after_sum (c : Dev nD) (t : Fin cfg2.N) : (dat2 V c).after 6 t = (outsAt V c t.val t.isLt).2.1 := by dsimp only [dat2]
theorem after_sq (c : Dev nD) (t : Fin cfg2.N) : (dat2 V c).after 7 t = (outsAt V c t.val t.isLt).2.2.1 := by dsimp only [dat2]

theorem before_x (c : Dev nD) (t : Fin cfg2.N) (d) : (dat2 V c).before 0 t d = iblk2 V c 0 t :=
  ((dat2 V c).before_in_eq_fetched 0 rfl (fun _ => rfl) (fun _ _ _ => rfl)
      (fun t => by rw [after_x]; unfold Dat.blockOf iblk2; rw [A_eq2]; try rfl) t d).trans
    (by unfold Dat.fetched Dat.blockOf iblk2; rw [A_eq2]; try rfl)
theorem before_aggr (c : Dev nD) (t : Fin cfg2.N) (d) : (dat2 V c).before 1 t d = iblk2 V c 1 t :=
  ((dat2 V c).before_in_eq_fetched 1 rfl (fun _ => rfl) (fun _ _ _ => rfl)
      (fun t => by rw [after_aggr]; unfold Dat.blockOf iblk2; rw [A_eq2]; try rfl) t d).trans
    (by unfold Dat.fetched Dat.blockOf iblk2; rw [A_eq2]; try rfl)
theorem before_scale (c : Dev nD) (t : Fin cfg2.N) (d) : (dat2 V c).before 2 t d = iblk2 V c 2 t :=
  ((dat2 V c).before_in_eq_fetched 2 rfl (fun _ => rfl) (fun _ _ _ => rfl)
      (fun t => by rw [after_scale]; unfold Dat.blockOf iblk2; rw [A_eq2]; try rfl) t d).trans
    (by unfold Dat.fetched Dat.blockOf iblk2; rw [A_eq2]; try rfl)
theorem before_w (c : Dev nD) (t : Fin cfg2.N) (d) : (dat2 V c).before 3 t d = iblk2 V c 3 t :=
  ((dat2 V c).before_in_eq_fetched 3 rfl (fun _ => rfl) (fun _ _ _ => rfl)
      (fun t => by rw [after_w]; unfold Dat.blockOf iblk2; rw [A_eq2]; try rfl) t d).trans
    (by unfold Dat.fetched Dat.blockOf iblk2; rw [A_eq2]; try rfl)
theorem before_bias (c : Dev nD) (t : Fin cfg2.N) (d) : (dat2 V c).before 4 t d = iblk2 V c 4 t :=
  ((dat2 V c).before_in_eq_fetched 4 rfl (fun _ => rfl) (fun _ _ _ => rfl)
      (fun t => by rw [after_bias]; unfold Dat.blockOf iblk2; rw [A_eq2]; try rfl) t d).trans
    (by unfold Dat.fetched Dat.blockOf iblk2; rw [A_eq2]; try rfl)

theorem leaves_x (c : Dev nD) (t : Fin cfg2.N) : (dat2 V c).leavesExact 0 t = owns (c : Thread nD τ) (xStg t) fullShare (iblk2 V c 0 t) := by
  rw [← after_x V c t]
theorem leaves_aggr (c : Dev nD) (t : Fin cfg2.N) : (dat2 V c).leavesExact 1 t = owns (c : Thread nD τ) (aggrStg t) fullShare (iblk2 V c 1 t) := by
  rw [← after_aggr V c t]
theorem leaves_scale (c : Dev nD) (t : Fin cfg2.N) : (dat2 V c).leavesExact 2 t = owns (c : Thread nD τ) (scaleStg t) fullShare (iblk2 V c 2 t) := by
  rw [← after_scale V c t]
theorem leaves_w (c : Dev nD) (t : Fin cfg2.N) : (dat2 V c).leavesExact 3 t = owns (c : Thread nD τ) (wStg t) fullShare (iblk2 V c 3 t) := by
  rw [← after_w V c t]
theorem leaves_bias (c : Dev nD) (t : Fin cfg2.N) : (dat2 V c).leavesExact 4 t = owns (c : Thread nD τ) (biasStg t) fullShare (iblk2 V c 4 t) := by
  rw [← after_bias V c t]
theorem leaves_lin (c : Dev nD) (t : Fin cfg2.N) : (dat2 V c).leavesExact 5 t = owns (c : Thread nD τ) (linStg t) fullShare (outsAt V c t.val t.isLt).1 := by
  rw [← after_lin V c t]

def bodyPre (c : Dev nD) (t : Fin cfg2.N) : sProp 𝕄 :=
  iprop((dat2 V c).Φ t.castSucc ∗ (dat2 V c).owesAt () t.castSucc
    ∗ (∃ d, owns (c : Thread nD τ) (xStg t) fullShare ((dat2 V c).before 0 t d))
    ∗ (∃ d, owns (c : Thread nD τ) (aggrStg t) fullShare ((dat2 V c).before 1 t d))
    ∗ (∃ d, owns (c : Thread nD τ) (scaleStg t) fullShare ((dat2 V c).before 2 t d))
    ∗ (∃ d, owns (c : Thread nD τ) (wStg t) fullShare ((dat2 V c).before 3 t d))
    ∗ (∃ d, owns (c : Thread nD τ) (biasStg t) fullShare ((dat2 V c).before 4 t d))
    ∗ (∃ d, owns (c : Thread nD τ) (linStg t) fullShare ((dat2 V c).before 5 t d))
    ∗ (∃ d, owns (c : Thread nD τ) (sumStg t) fullShare ((dat2 V c).before 6 t d))
    ∗ (∃ d, owns (c : Thread nD τ) (sqStg t) fullShare ((dat2 V c).before 7 t d)))

def bodyPost (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t ∗ (dat2 V c).leavesExact 3 t ∗ (dat2 V c).leavesExact 4 t ∗ (dat2 V c).leavesExact 5 t ∗ (dat2 V c).leavesExact 6 t ∗ (dat2 V c).leavesExact 7 t)

set_option maxHeartbeats 4800000 in
theorem sound_body (c : Dev nD) (t : Fin cfg2.N) :
    bodyPre V c t ⊢ wp frame (wpE (defs₀ (F := F)) Variants.none c none) Set.univ (bodyAt2 t) (fun _ => bodyPost V c t) := by
  unfold bodyPre bodyPost; rw [bodyAt_eq]
  simp only [before_x, before_aggr, before_scale, before_w, before_bias]
  rw [show (dat2 V c).owesAt () t.succ = (dat2 V c).owesAt () t.castSucc from rfl]
  rw [show (dat2 V c).Φ t.succ = PhiS V c (t.val + 1) t.isLt from rfl, PhiS_succ]
  rw [leaves_x, leaves_aggr, leaves_scale, leaves_w, leaves_bias, leaves_lin]
  have hN : t.val < 25 := lt_of_lt_of_eq t.isLt (show cfg2.N = 25 from N_2)
  by_cases h0 : t.val = 0
  · rw [Dat.leavesExact_idle (dat2 V c) 6 t (sum_idle t (notLast_of t (by omega))) (sum_noFlush t (notLast_of t (by omega)))]
    rw [Dat.leavesExact_idle (dat2 V c) 7 t (sq_idle t (notLast_of t (by omega))) (sq_noFlush t (notLast_of t (by omega)))]
    rw [outsAt_first V c t h0]
    unfold leftFirst leaves; dsimp only
    rw [Phi_castSucc V c t, PhiS_zero V c _ _ h0, PhiA_split]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((firstAt V c t h0).2.2.2 _ _ Set.univ _)
    iframe H0 H1 H2 H3 H4
    isplitl [H5]; · iexists _; iexact H5
    isplitl [H6]; · iexact H6
    isplitl [H7]; · iexact H7
    isplitl [HS0]; · iexact HS0
    isplitl [HS1]; · iexact HS1
    iintro ⟨H0, H1, H2, H3, H4, H5, H6, H7, HS0, HS1⟩
    isplitl [HS0 HS1 Hrest Hg]
    · isplitl [HS0 HS1 Hrest]
      · isplitl [HS0 HS1]
        · isplitl [HS0]
          · iapply owns_canon _ _ (firstAt V c t h0).2.1 (first_cover ..).2.1; iexact HS0
          iapply owns_canon _ _ (firstAt V c t h0).2.2.1 (first_cover ..).2.2; iexact HS1
        iexact Hrest
      iexact Hg
    iframe Ho H0 H1 H2 H3 H4
    isplitl [H5]
    · iapply owns_canon _ _ (firstAt V c t h0).1 (first_cover ..).1; iexact H5
    isplitl [H6]; · iexists _; iexact H6
    iexists _; iexact H7
  · by_cases h24 : t.val = 24
    · rw [show (dat2 V c).leavesExact 6 t = owns (c : Thread nD τ) (sumStg t) fullShare ((dat2 V c).after 6 t) from by
        unfold Dat.leavesExact; rw [sum_live t (last_of t h24)], after_sum]
      rw [show (dat2 V c).leavesExact 7 t = owns (c : Thread nD τ) (sqStg t) fullShare ((dat2 V c).after 7 t) from by
        unfold Dat.leavesExact; rw [sq_live t (last_of t h24)], after_sq]
      rw [outsAt_last V c t h24]
      unfold leftLast leavesLast; dsimp only
      rw [Phi_castSucc V c t, PhiS_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((lastAt V c t h24 _ _).2.2.2.2.2 Set.univ _)
      iframe H0 H1 H2 H3 H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, H5, H6, H7, HS0, HS1⟩
      isplitl [HS0 HS1 Hrest Hg]
      · isplitl [HS0 HS1 Hrest]
        · isplitl [HS0 HS1]
          · isplitl [HS0]
            · iapply owns_canon _ _ (lastAt V c t h24 _ _).2.2.2.1 (last_cover ..).2.2.2.1; iexact HS0
            iapply owns_canon _ _ (lastAt V c t h24 _ _).2.2.2.2.1 (last_cover ..).2.2.2.2; iexact HS1
          iexact Hrest
        iexact Hg
      iframe Ho H0 H1 H2 H3 H4
      isplitl [H5]
      · iapply owns_canon _ _ (lastAt V c t h24 _ _).1 (last_cover ..).1; iexact H5
      isplitl [H6]
      · iapply owns_canon _ _ (lastAt V c t h24 _ _).2.1 (last_cover ..).2.1; iexact H6
      iapply owns_canon _ _ (lastAt V c t h24 _ _).2.2.1 (last_cover ..).2.2.1; iexact H7
    · rw [Dat.leavesExact_idle (dat2 V c) 6 t (sum_idle t (notLast_of t h24)) (sum_noFlush t (notLast_of t h24))]
      rw [Dat.leavesExact_idle (dat2 V c) 7 t (sq_idle t (notLast_of t h24)) (sq_noFlush t (notLast_of t h24))]
      rw [outsAt_mid V c t h0 h24]
      unfold leftMid leaves; dsimp only
      rw [Phi_castSucc V c t, PhiS_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((midAt V c t h0 h24 _ _).2.2.2 _ _ Set.univ _)
      iframe H0 H1 H2 H3 H4
      isplitl [H5]; · iexists _; iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 Hrest Hg]
      · isplitl [HS0 HS1 Hrest]
        · isplitl [HS0 HS1]
          · isplitl [HS0]
            · iapply owns_canon _ _ (midAt V c t h0 h24 _ _).2.1 (mid_cover ..).2.1; iexact HS0
            iapply owns_canon _ _ (midAt V c t h0 h24 _ _).2.2.1 (mid_cover ..).2.2; iexact HS1
          iexact Hrest
        iexact Hg
      iframe Ho H0 H1 H2 H3 H4
      isplitl [H5]
      · iapply owns_canon _ _ (midAt V c t h0 h24 _ _).1 (mid_cover ..).1; iexact H5
      isplitl [H6]; · iexists _; iexact H6
      iexists _; iexact H7

end Reg2

theorem body_obligation2 (c : Dev nD) : BodyObligation (dat2 (F := F) V c) (defs₀ (F := F)) Variants.none () Set.univ := fun t => by
  rw [bigSep_W2, bigSep_W2]
  exact Reg2.sound_body V c t

theorem hin2 (c : Dev nD) : Pipeline.ΦA spec2 c ⊢ (dat2 V c).Φ 0 := by
  rw [show (dat2 V c).Φ 0 = Reg2.PhiS V c 0 (Nat.zero_le _) from rfl, Reg2.PhiS_zero V c 0 _ rfl]
  try exact Idealize.SL.BI.Entails.refl _

namespace Reg2

theorem Phi_out (c : Dev nD) (t : Fin (cfg2.N + 1)) (ht : t.val ≠ 0) : (dat2 V c).Φ t ⊢ Pipeline.ΦA spec2 c := by
  rw [show (dat2 V c).Φ t = PhiS V c t.val (Nat.le_of_lt_succ t.isLt) from rfl, PhiS_pos V c _ _ ht, PhiA_split]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg
end Reg2

theorem hout2 (c : Dev nD) : (dat2 V c).Φ (Fin.last cfg2.N) ⊢ Pipeline.ΦA spec2 c :=
  Reg2.Phi_out V c _ (by rw [Fin.val_last]; have : cfg2.N = 25 := N_2; omega)

end Cert.Kernel.Hand

end
-- ==== Proof.K.Reg3.lean ====
import proofs.«422945_j10866267259114_2_alg».proof.Proof.K.Body1
import proofs.«422945_j10866267259114_2_alg».proof.Proof.Gen.Kernel.Launch
import proofs.«422945_j10866267259114_2_alg».proof.Proof.Gen.Kernel.Points
import Idealize.ShloMosaic.Lib.Pipeline.RegionsLoop
import Idealize.ShloMosaic.Lib.Pipeline.FrameSuffix
import Idealize.ShloMosaic.Lib.Ring

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The proof data: arrays as found; the body leaves each input block in place and fills the output block; nothing else moves. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => Body1.bnReluLinear (iblk3 V c 0 t) (iblk3 V c 1 t) (iblk3 V c 2 t) (iblk3 V c 3 t) (iblk3 V c 4 t)
        (iblk3 V c 5 t) (iblk3 V c 6 t)
  Φ _ := Pipeline.ΦA spec3 c
  q _ := fullShare
  owed _ := 0

theorem A_eq3 (c : Dev nD) (w : Fin cfg3.W) : (dat3 V c).A w = V c (Pipeline.arrRef spec3 w) := rfl

/-- An input window holds its block at every point, since the body leaves it in place. -/
theorem Reg3.before (c : Dev nD) (t : Fin cfg3.N) : ∀ w : Fin 8, w ≠ 7 → ∀ d, (dat3 V c).before w t d = (dat3 V c).after w t := by
  intro w; fin_cases w <;> intro h d <;> first
    | exact absurd rfl h
    | exact Dat.before_in_eq_fetched _ _ rfl (fun _ => rfl) (fun _ _ _ => rfl) (fun _ => rfl) t d

/-- At every point the inputs hold their blocks, so the body runs; the invariant and the debts pass through unread. -/
theorem body_obligation3 (c : Dev nD) : BodyObligation (dat3 (F := F) V c) (defs₀ (F := F)) Variants.none () Set.univ := fun t => by
  rw [bigSep_W3, bigSep_W3]
  simp (disch := decide) only [Reg3.before V c t]
  dsimp only [dat3, Dat.bound]
  change _ ⊢ wp _ _ _ (bodyAt3 t) _
  unfold bodyAt3
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply Body1.kernel_runs Body1.body3_eq c Set.univ (iblk3 V c 0 t) (iblk3 V c 1 t) (iblk3 V c 2 t) (iblk3 V c 3 t) (iblk3 V c 4 t)
    (iblk3 V c 5 t) (iblk3 V c 6 t)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro H
  isplitl [HΦ]; · iexact HΦ
  isplitl [Ho]; · iexact Ho
  iexact H

theorem hin3 (c : Dev nD) : Pipeline.ΦA spec3 c ⊢ (dat3 V c).Φ 0 := .rfl

theorem hout3 (c : Dev nD) : (dat3 V c).Φ (Fin.last cfg3.N) ⊢ Pipeline.ΦA spec3 c := .rfl

theorem share3 (c : Dev nD) (w : Fin cfg3.W) : (dat3 V c).q w = fullShare := rfl

theorem owed3 (c : Dev nD) (t : Fin (cfg3.N + 1)) : (dat3 V c).owed t = 0 := rfl

theorem recorded3 (c : Dev nD) (t : Fin (cfg3.N + 1)) : (dat3 V c).recorded t = Set.univ := rfl

end Cert.Kernel.Hand

end
-- ==== Proof.K.Reg4.lean ====
import proofs.«422945_j10866267259114_2_alg».proof.Proof.Gen.Kernel.Launch
import proofs.«422945_j10866267259114_2_alg».proof.Proof.Gen.Kernel.Skeleton
import proofs.«422945_j10866267259114_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev atFirst4 (i : grid4.Coords) : Prop :=
  (Scalar.cmpi .ne (Scalar.extui (Scalar.cmpi .eq (BitVec.ofNat 32 (i 0).val) 0#32)) 0#32) = 1#1

theorem atFirst4_iff : ∀ t : Fin cfg4.N, atFirst4 (grid4.coords t) ↔ t.val = 0 :=
  (by decide +kernel : ∀ t : Fin grid4.N, atFirst4 (grid4.coords t) ↔ t.val = 0)

abbrev atLast4 (i : grid4.Coords) : Prop := k4_cond2 i = 1#1

theorem atLast4_iff : ∀ t : Fin cfg4.N, atLast4 (grid4.coords t) ↔ t.val = 24 :=
  (by decide +kernel : ∀ t : Fin grid4.N, atLast4 (grid4.coords t) ↔ t.val = 24)

theorem live4_0 : ∀ t : Fin cfg4.N, cfg4.idle 0 (grid4.coords t) = false := by decide +kernel
theorem live4_1 : ∀ t : Fin cfg4.N, cfg4.idle 1 (grid4.coords t) = false := by decide +kernel
theorem live4_2 : ∀ t : Fin cfg4.N, cfg4.idle 2 (grid4.coords t) = false := by decide +kernel
theorem live4_3 : ∀ t : Fin cfg4.N, cfg4.idle 3 (grid4.coords t) = false := by decide +kernel
theorem live4_4 : ∀ t : Fin cfg4.N, cfg4.idle 4 (grid4.coords t) = false := by decide +kernel
theorem live4_5 : ∀ t : Fin cfg4.N, cfg4.idle 5 (grid4.coords t) = false := by decide +kernel

theorem idle4_6 : ∀ t : Fin cfg4.N, ¬atLast4 (grid4.coords t) → cfg4.idle 6 (grid4.coords t) = true := by decide +kernel
theorem keep4_6 : ∀ t : Fin cfg4.N, ¬atLast4 (grid4.coords t) → (cfg4.win 6).flush t = false := by decide +kernel
theorem live4_6 : ∀ t : Fin cfg4.N, atLast4 (grid4.coords t) → cfg4.idle 6 (grid4.coords t) = false := by decide +kernel
theorem idle4_7 : ∀ t : Fin cfg4.N, ¬atLast4 (grid4.coords t) → cfg4.idle 7 (grid4.coords t) = true := by decide +kernel
theorem keep4_7 : ∀ t : Fin cfg4.N, ¬atLast4 (grid4.coords t) → (cfg4.win 7).flush t = false := by decide +kernel
theorem live4_7 : ∀ t : Fin cfg4.N, atLast4 (grid4.coords t) → cfg4.idle 7 (grid4.coords t) = false := by decide +kernel

abbrev ms4_0 (t : Fin cfg4.N) : Memref sig .tc .vmem S2000x256 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S2000x256 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S2000x256 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x256 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x256 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S2000x256 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S1x256 .f32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S1x256 .f32 := win4_7.stage (cfg4.slots t 7)
abbrev hs4_7 (t : Fin cfg4.N) : (ms4_7 t).IsWhole := hstage4_7 ((cfg4.slots t 7).cast nbuf4_7)

abbrev accSum4 : Memref sig .tc .vmem S1x256 .f32 := Memref.whole cc4_scratch0
abbrev accSq4 : Memref sig .tc .vmem S1x256 .f32 := Memref.whole cc4_scratch1

abbrev blkView4 : View sig .tc .vmem S2000x256 .f32 := (Memref.whole cc4_stg5_0 : Memref sig .tc .vmem S2000x256 .f32).view
abbrev rowView4 : View sig .tc .vmem S1x256 .f32 := accSum4.view

abbrev others4 (c : Dev nD) : sProp 𝕄 :=
  Pipeline.scopedRestBut (Ix := Unit) (Name := ℕ) (U := UR sig nD τ) (Lvl := ℕ) (Val := Elt F) spec4 c [cc4_scratch0, cc4_scratch1]

theorem PhiA4_eq (c : Dev nD) :
    (Pipeline.ΦA spec4 c : sProp 𝕄)
      = iprop(iprop(iprop((∃ d, owns (c : Thread nD τ) accSum4 fullShare d) ∗ (∃ d, owns (c : Thread nD τ) accSq4 fullShare d)) ∗ others4 c) ∗ (∃ r, prngReg c r)) := by
  unfold Pipeline.ΦA; rw [scopedRest4_split]; simp only [accSum4, accSq4, owns_whole]; try rfl

def blkLeft4 (L : List (View.Piece (Elt F) S2000x256 .f32)) : Vec F S2000x256 .f32 := blkView4.read (Elt F) (blkView4.writes (Elt F) blkView4.junk L)
def rowLeft4 (L : List (View.Piece (Elt F) S1x256 .f32)) : Vec F S1x256 .f32 := rowView4.read (Elt F) (rowView4.writes (Elt F) rowView4.junk L)

-- What the stores of a run leave in the five buffers it may store into.
def left4 (L5 : List (View.Piece (Elt F) S2000x256 .f32)) (L6 L7 LS0 LS1 : List (View.Piece (Elt F) S1x256 .f32)) : Vec F S2000x256 .f32 × Vec F S1x256 .f32 × Vec F S1x256 .f32 × Vec F S1x256 .f32 × Vec F S1x256 .f32 :=
  (blkLeft4 L5, rowLeft4 L6, rowLeft4 L7, rowLeft4 LS0, rowLeft4 LS1)

-- Stores that tile a buffer determine its contents, whatever it held before.
theorem owns_left4 {S : Shape} (c : Dev nD) (m : Memref sig .tc .vmem S .f32) (v' : View sig .tc .vmem S .f32) (L : List (View.Piece (Elt F) S .f32)) (h : ∀ y, ∃ p ∈ L, y ∈ p.1.set) :
    iprop(∃ f, m.view.loc (c : Thread nD τ) ↦[m.view.set]{fullShare} m.view.writes (Elt F) f L) ⊢ (owns (c : Thread nD τ) m fullShare (v'.read (Elt F) (v'.writes (Elt F) v'.junk L)) : sProp 𝕄) := by
  unfold owns; iintro ⟨%f, H⟩; iexists _; isplitr; swap; · iexact H
  ipureintro; exact View.read_writes_of_cover _ _ _ _ _ h

section Operands
variable (c : Dev nD) (i : grid4.Coords)
  (arg1 : Memref sig .tc .vmem S2000x256 .f32) (harg1 : arg1.IsWhole) (arg2 : Memref sig .tc .vmem S2000x256 .f32) (harg2 : arg2.IsWhole) (arg3 : Memref sig .tc .vmem S2000x256 .f32) (harg3 : arg3.IsWhole) (arg4 : Memref sig .tc .vmem S1x256 .f32) (harg4 : arg4.IsWhole) (arg5 : Memref sig .tc .vmem S1x256 .f32) (harg5 : arg5.IsWhole)
  (arg6 : Memref sig .tc .vmem S2000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole)

section First
variable (hc0 : atFirst4 i) (hc1 : ¬atLast4 i) (x h1 h2 : Vec F S2000x256 .f32) (a1 a2 : Vec F S1x256 .f32)

-- First point: the accumulators start from zero; the two statistics rows are not touched.
set_option maxHeartbeats 4000000 in
noncomputable def runFirst4 :
    Σ' (L5 : List (View.Piece (Elt F) S2000x256 .f32)) (L6 : List (View.Piece (Elt F) S1x256 .f32)) (L7 : List (View.Piece (Elt F) S1x256 .f32)) (LS0 : List (View.Piece (Elt F) S1x256 .f32)), { LS1 : List (View.Piece (Elt F) S1x256 .f32) //
      ∀ (y6 : Vec F S1x256 .f32) (y7 : Vec F S1x256 .f32) (E : Set ℕ) (K : PUnit → sProp 𝕄),
        iprop(owns (c : Thread nD τ) arg1 fullShare x ∗ owns (c : Thread nD τ) arg2 fullShare h1 ∗ owns (c : Thread nD τ) arg3 fullShare h2 ∗ owns (c : Thread nD τ) arg4 fullShare a1 ∗ owns (c : Thread nD τ) arg5 fullShare a2
            ∗ (∃ d, owns (c : Thread nD τ) arg6 fullShare d) ∗ owns (c : Thread nD τ) arg7 fullShare y6 ∗ owns (c : Thread nD τ) arg8 fullShare y7
            ∗ (∃ d, owns (c : Thread nD τ) arg9 fullShare d) ∗ (∃ d, owns (c : Thread nD τ) arg10 fullShare d)
            ∗ (iprop(owns (c : Thread nD τ) arg1 fullShare x ∗ owns (c : Thread nD τ) arg2 fullShare h1 ∗ owns (c : Thread nD τ) arg3 fullShare h2 ∗ owns (c : Thread nD τ) arg4 fullShare a1 ∗ owns (c : Thread nD τ) arg5 fullShare a2
                ∗ (∃ f, arg6.view.loc (c : Thread nD τ) ↦[arg6.view.set]{fullShare} arg6.view.writes (Elt F) f L5) ∗ owns (c : Thread nD τ) arg7 fullShare y6 ∗ owns (c : Thread nD τ) arg8 fullShare y7
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc4__residual_stats_kernel i arg1 harg1 arg2 harg2 arg3 harg3 arg4 harg4 arg5 harg5 arg6 harg6 arg7 harg7 arg8 harg8 arg9 harg9 arg10 harg10) K } := by
  refine ⟨?_, [], [], ?_, ?_, fun y6 y7 E K => ?run⟩
  case run =>
    simp only [cc4__residual_stats_kernel_eq_skeleton]; unfold cc4__residual_stats_kernel_skel
    simp only [k4_part1_eq_skeleton]; unfold k4_part1_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%d9, %f9, -, H9⟩, ⟨%d10, %f10, -, H10⟩, Hk⟩
    obtain rfl := harg1.eq_unread hf1; obtain rfl := harg2.eq_unread hf2; obtain rfl := harg3.eq_unread hf3
    obtain rfl := harg4.eq_unread hf4; obtain rfl := harg5.eq_unread hf5
    obtain rfl := harg7.eq_unread hf7; obtain rfl := harg8.eq_unread hf8
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    iexists _; iexact H10

-- The stores of a run into each buffer tile it.
theorem first_cover4 :
    (∀ y, ∃ pc ∈ (runFirst4 c i arg1 harg1 arg2 harg2 arg3 harg3 arg4 harg4 arg5 harg5 arg6 harg6 arg7 harg7 arg8 harg8 arg9 harg9 arg10 harg10 hc0 hc1 x h1 h2 a1 a2).1, y ∈ pc.1.set)
      ∧ (∀ y, ∃ pc ∈ (runFirst4 c i arg1 harg1 arg2 harg2 arg3 harg3 arg4 harg4 arg5 harg5 arg6 harg6 arg7 harg7 arg8 harg8 arg9 harg9 arg10 harg10 hc0 hc1 x h1 h2 a1 a2).2.2.2.1, y ∈ pc.1.set)
      ∧ (∀ y, ∃ pc ∈ (runFirst4 c i arg1 harg1 arg2 harg2 arg3 harg3 arg4 harg4 arg5 harg5 arg6 harg6 arg7 harg7 arg8 harg8 arg9 harg9 arg10 harg10 hc0 hc1 x h1 h2 a1 a2).2.2.2.2.1, y ∈ pc.1.set) :=
  ⟨View.cover_of_tiledL _ S2000x256.size (by sl_kernel_rfl), View.cover_of_tiledL _ S1x256.size (by sl_kernel_rfl), View.cover_of_tiledL _ S1x256.size (by sl_kernel_rfl)⟩

end First

section Mid
variable (hc0 : ¬atFirst4 i) (hc1 : ¬atLast4 i) (x h1 h2 : Vec F S2000x256 .f32) (a1 a2 s q : Vec F S1x256 .f32)

-- A middle point: the accumulators come in at s, q and are advanced by the point's block.
set_option maxHeartbeats 4000000 in
noncomputable def runMid4 :
    Σ' (L5 : List (View.Piece (Elt F) S2000x256 .f32)) (L6 : List (View.Piece (Elt F) S1x256 .f32)) (L7 : List (View.Piece (Elt F) S1x256 .f32)) (LS0 : List (View.Piece (Elt F) S1x256 .f32)), { LS1 : List (View.Piece (Elt F) S1x256 .f32) //
      ∀ (y6 : Vec F S1x256 .f32) (y7 : Vec F S1x256 .f32) (E : Set ℕ) (K : PUnit → sProp 𝕄),
        iprop(owns (c : Thread nD τ) arg1 fullShare x ∗ owns (c : Thread nD τ) arg2 fullShare h1 ∗ owns (c : Thread nD τ) arg3 fullShare h2 ∗ owns (c : Thread nD τ) arg4 fullShare a1 ∗ owns (c : Thread nD τ) arg5 fullShare a2
            ∗ (∃ d, owns (c : Thread nD τ) arg6 fullShare d) ∗ owns (c : Thread nD τ) arg7 fullShare y6 ∗ owns (c : Thread nD τ) arg8 fullShare y7
            ∗ owns (c : Thread nD τ) arg9 fullShare s ∗ owns (c : Thread nD τ) arg10 fullShare q
            ∗ (iprop(owns (c : Thread nD τ) arg1 fullShare x ∗ owns (c : Thread nD τ) arg2 fullShare h1 ∗ owns (c : Thread nD τ) arg3 fullShare h2 ∗ owns (c : Thread nD τ) arg4 fullShare a1 ∗ owns (c : Thread nD τ) arg5 fullShare a2
                ∗ (∃ f, arg6.view.loc (c : Thread nD τ) ↦[arg6.view.set]{fullShare} arg6.view.writes (Elt F) f L5) ∗ owns (c : Thread nD τ) arg7 fullShare y6 ∗ owns (c : Thread nD τ) arg8 fullShare y7
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc4__residual_stats_kernel i arg1 harg1 arg2 harg2 arg3 harg3 arg4 harg4 arg5 harg5 arg6 harg6 arg7 harg7 arg8 harg8 arg9 harg9 arg10 harg10) K } := by
  refine ⟨?_, [], [], ?_, ?_, fun y6 y7 E K => ?run⟩
  case run =>
    simp only [cc4__residual_stats_kernel_eq_skeleton]; unfold cc4__residual_stats_kernel_skel
    simp only [k4_part1_eq_skeleton]; unfold k4_part1_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, ⟨%f10, %hf10, H10⟩, Hk⟩
    obtain rfl := harg1.eq_unread hf1; obtain rfl := harg2.eq_unread hf2; obtain rfl := harg3.eq_unread hf3
    obtain rfl := harg4.eq_unread hf4; obtain rfl := harg5.eq_unread hf5
    obtain rfl := harg7.eq_unread hf7; obtain rfl := harg8.eq_unread hf8
    obtain rfl := harg9.eq_unread hf9; obtain rfl := harg10.eq_unread hf10
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    iexists _; iexact H10

theorem mid_cover4 :
    (∀ y, ∃ pc ∈ (runMid4 c i arg1 harg1 arg2 harg2 arg3 harg3 arg4 harg4 arg5 harg5 arg6 harg6 arg7 harg7 arg8 harg8 arg9 harg9 arg10 harg10 hc0 hc1 x h1 h2 a1 a2 s q).1, y ∈ pc.1.set)
      ∧ (∀ y, ∃ pc ∈ (runMid4 c i arg1 harg1 arg2 harg2 arg3 harg3 arg4 harg4 arg5 harg5 arg6 harg6 arg7 harg7 arg8 harg8 arg9 harg9 arg10 harg10 hc0 hc1 x h1 h2 a1 a2 s q).2.2.2.1, y ∈ pc.1.set)
      ∧ (∀ y, ∃ pc ∈ (runMid4 c i arg1 harg1 arg2 harg2 arg3 harg3 arg4 harg4 arg5 harg5 arg6 harg6 arg7 harg7 arg8 harg8 arg9 harg9 arg10 harg10 hc0 hc1 x h1 h2 a1 a2 s q).2.2.2.2.1, y ∈ pc.1.set) :=
  ⟨View.cover_of_tiledL _ S2000x256.size (by sl_kernel_rfl), View.cover_of_tiledL _ S1x256.size (by sl_kernel_rfl), View.cover_of_tiledL _ S1x256.size (by sl_kernel_rfl)⟩

end Mid

section Last
variable (hc0 : ¬atFirst4 i) (hc1 : atLast4 i) (x h1 h2 : Vec F S2000x256 .f32) (a1 a2 s q : Vec F S1x256 .f32)

-- Last point: as a middle point, and the advanced accumulators are also stored into the two statistics rows.
set_option maxHeartbeats 4000000 in
noncomputable def runLast4 :
    Σ' (L5 : List (View.Piece (Elt F) S2000x256 .f32)) (L6 : List (View.Piece (Elt F) S1x256 .f32)) (L7 : List (View.Piece (Elt F) S1x256 .f32)) (LS0 : List (View.Piece (Elt F) S1x256 .f32)), { LS1 : List (View.Piece (Elt F) S1x256 .f32) //
      ∀ (E : Set ℕ) (K : PUnit → sProp 𝕄),
        iprop(owns (c : Thread nD τ) arg1 fullShare x ∗ owns (c : Thread nD τ) arg2 fullShare h1 ∗ owns (c : Thread nD τ) arg3 fullShare h2 ∗ owns (c : Thread nD τ) arg4 fullShare a1 ∗ owns (c : Thread nD τ) arg5 fullShare a2
            ∗ (∃ d, owns (c : Thread nD τ) arg6 fullShare d) ∗ (∃ d, owns (c : Thread nD τ) arg7 fullShare d) ∗ (∃ d, owns (c : Thread nD τ) arg8 fullShare d)
            ∗ owns (c : Thread nD τ) arg9 fullShare s ∗ owns (c : Thread nD τ) arg10 fullShare q
            ∗ (iprop(owns (c : Thread nD τ) arg1 fullShare x ∗ owns (c : Thread nD τ) arg2 fullShare h1 ∗ owns (c : Thread nD τ) arg3 fullShare h2 ∗ owns (c : Thread nD τ) arg4 fullShare a1 ∗ owns (c : Thread nD τ) arg5 fullShare a2
                ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc4__residual_stats_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc4__residual_stats_kernel_eq_skeleton]; unfold cc4__residual_stats_kernel_skel
    simp only [k4_part1_eq_skeleton]; unfold k4_part1_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, Hk⟩
    obtain rfl := harg1.eq_unread hf1; obtain rfl := harg2.eq_unread hf2; obtain rfl := harg3.eq_unread hf3
    obtain rfl := harg4.eq_unread hf4; obtain rfl := harg5.eq_unread hf5
    obtain rfl := harg9.eq_unread hf9; obtain rfl := harg10.eq_unread hf10
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    isplitl [H9]; · iexists _; iexact H9
    iexists _; iexact H10

theorem last_cover4 :
    (∀ y, ∃ pc ∈ (runLast4 c i arg1 harg1 arg2 harg2 arg3 harg3 arg4 harg4 arg5 harg5 arg6 harg6 arg7 harg7 arg8 harg8 arg9 harg9 arg10 harg10 hc0 hc1 x h1 h2 a1 a2 s q).1, y ∈ pc.1.set)
      ∧ (∀ y, ∃ pc ∈ (runLast4 c i arg1 harg1 arg2 harg2 arg3 harg3 arg4 harg4 arg5 harg5 arg6 harg6 arg7 harg7 arg8 harg8 arg9 harg9 arg10 harg10 hc0 hc1 x h1 h2 a1 a2 s q).2.1, y ∈ pc.1.set)
      ∧ (∀ y, ∃ pc ∈ (runLast4 c i arg1 harg1 arg2 harg2 arg3 harg3 arg4 harg4 arg5 harg5 arg6 harg6 arg7 harg7 arg8 harg8 arg9 harg9 arg10 harg10 hc0 hc1 x h1 h2 a1 a2 s q).2.2.1, y ∈ pc.1.set)
      ∧ (∀ y, ∃ pc ∈ (runLast4 c i arg1 harg1 arg2 harg2 arg3 harg3 arg4 harg4 arg5 harg5 arg6 harg6 arg7 harg7 arg8 harg8 arg9 harg9 arg10 harg10 hc0 hc1 x h1 h2 a1 a2 s q).2.2.2.1, y ∈ pc.1.set)
      ∧ (∀ y, ∃ pc ∈ (runLast4 c i arg1 harg1 arg2 harg2 arg3 harg3 arg4 harg4 arg5 harg5 arg6 harg6 arg7 harg7 arg8 harg8 arg9 harg9 arg10 harg10 hc0 hc1 x h1 h2 a1 a2 s q).2.2.2.2.1, y ∈ pc.1.set) :=
  ⟨View.cover_of_tiledL _ S2000x256.size (by sl_kernel_rfl), View.cover_of_tiledL _ S1x256.size (by sl_kernel_rfl), View.cover_of_tiledL _ S1x256.size (by sl_kernel_rfl), View.cover_of_tiledL _ S1x256.size (by sl_kernel_rfl), View.cover_of_tiledL _ S1x256.size (by sl_kernel_rfl)⟩

end Last

end Operands

theorem notFirst4_of_ne (t : Fin cfg4.N) (h : t.val ≠ 0) : ¬atFirst4 (grid4.coords t) := fun h' => h ((atFirst4_iff t).mp h')
theorem notLast4_of_ne (t : Fin cfg4.N) (h : t.val ≠ 24) : ¬atLast4 (grid4.coords t) := fun h' => h ((atLast4_iff t).mp h')

def iblk4 (V : (c : Dev nD) → (b : Ref sig .tc) → Buf (Elt F) ((c : Thread nD τ).loc b)) (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

variable (V : (c : Dev nD) → (b : Ref sig .tc) → Buf (Elt F) ((c : Thread nD τ).loc b))

section AtPoint
variable (c : Dev nD) (t : Fin cfg4.N)

-- The three runs on the operands of point t, and what each leaves.
def firstAt4 (hc0 : atFirst4 (grid4.coords t)) (hc1 : ¬atLast4 (grid4.coords t)) :=
  runFirst4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) accSum4 (Memref.isWhole_whole _) accSq4 (Memref.isWhole_whole _) hc0 hc1 (iblk4 V c 0 t) (iblk4 V c 1 t) (iblk4 V c 2 t) (iblk4 V c 3 t) (iblk4 V c 4 t)
def midAt4 (hc0 : ¬atFirst4 (grid4.coords t)) (hc1 : ¬atLast4 (grid4.coords t)) (s q : Vec F S1x256 .f32) :=
  runMid4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) accSum4 (Memref.isWhole_whole _) accSq4 (Memref.isWhole_whole _) hc0 hc1 (iblk4 V c 0 t) (iblk4 V c 1 t) (iblk4 V c 2 t) (iblk4 V c 3 t) (iblk4 V c 4 t) s q
def lastAt4 (hc0 : ¬atFirst4 (grid4.coords t)) (hc1 : atLast4 (grid4.coords t)) (s q : Vec F S1x256 .f32) :=
  runLast4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) accSum4 (Memref.isWhole_whole _) accSq4 (Memref.isWhole_whole _) hc0 hc1 (iblk4 V c 0 t) (iblk4 V c 1 t) (iblk4 V c 2 t) (iblk4 V c 3 t) (iblk4 V c 4 t) s q

def leftFirst4 (hc0 : atFirst4 (grid4.coords t)) (hc1 : ¬atLast4 (grid4.coords t)) : Vec F S2000x256 .f32 × Vec F S1x256 .f32 × Vec F S1x256 .f32 × Vec F S1x256 .f32 × Vec F S1x256 .f32 :=
  left4 (firstAt4 V c t hc0 hc1).1 (firstAt4 V c t hc0 hc1).2.1 (firstAt4 V c t hc0 hc1).2.2.1 (firstAt4 V c t hc0 hc1).2.2.2.1 (firstAt4 V c t hc0 hc1).2.2.2.2.1
def leftMid4 (hc0 : ¬atFirst4 (grid4.coords t)) (hc1 : ¬atLast4 (grid4.coords t)) (s q : Vec F S1x256 .f32) : Vec F S2000x256 .f32 × Vec F S1x256 .f32 × Vec F S1x256 .f32 × Vec F S1x256 .f32 × Vec F S1x256 .f32 :=
  left4 (midAt4 V c t hc0 hc1 s q).1 (midAt4 V c t hc0 hc1 s q).2.1 (midAt4 V c t hc0 hc1 s q).2.2.1 (midAt4 V c t hc0 hc1 s q).2.2.2.1 (midAt4 V c t hc0 hc1 s q).2.2.2.2.1
def leftLast4 (hc0 : ¬atFirst4 (grid4.coords t)) (hc1 : atLast4 (grid4.coords t)) (s q : Vec F S1x256 .f32) : Vec F S2000x256 .f32 × Vec F S1x256 .f32 × Vec F S1x256 .f32 × Vec F S1x256 .f32 × Vec F S1x256 .f32 :=
  left4 (lastAt4 V c t hc0 hc1 s q).1 (lastAt4 V c t hc0 hc1 s q).2.1 (lastAt4 V c t hc0 hc1 s q).2.2.1 (lastAt4 V c t hc0 hc1 s q).2.2.2.1 (lastAt4 V c t hc0 hc1 s q).2.2.2.2.1

end AtPoint

-- The accumulation: what the point at position n leaves, from what the point before left in the accumulators.
def outsAt4 (c : Dev nD) : (n : ℕ) → n < cfg4.N → Vec F S2000x256 .f32 × Vec F S1x256 .f32 × Vec F S1x256 .f32 × Vec F S1x256 .f32 × Vec F S1x256 .f32
  | 0, hn => leftFirst4 V c ⟨0, hn⟩ ((atFirst4_iff ⟨0, hn⟩).mpr rfl) (notLast4_of_ne ⟨0, hn⟩ (show (0 : ℕ) ≠ 24 by decide))
  | n + 1, hn =>
    if h : n + 1 = 24 then
      leftLast4 V c ⟨n + 1, hn⟩ (notFirst4_of_ne ⟨n + 1, hn⟩ (Nat.succ_ne_zero n)) ((atLast4_iff ⟨n + 1, hn⟩).mpr h) (outsAt4 c n (Nat.lt_of_succ_lt hn)).2.2.2.1 (outsAt4 c n (Nat.lt_of_succ_lt hn)).2.2.2.2
    else
      leftMid4 V c ⟨n + 1, hn⟩ (notFirst4_of_ne ⟨n + 1, hn⟩ (Nat.succ_ne_zero n)) (notLast4_of_ne ⟨n + 1, hn⟩ h) (outsAt4 c n (Nat.lt_of_succ_lt hn)).2.2.2.1 (outsAt4 c n (Nat.lt_of_succ_lt hn)).2.2.2.2

theorem outsAt4_first (c : Dev nD) (t : Fin cfg4.N) (h : t.val = 0) :
    outsAt4 V c t.val t.isLt = leftFirst4 V c t ((atFirst4_iff t).mpr h) (notLast4_of_ne t (by omega)) := by
  obtain ⟨n, hn⟩ := t
  cases n with
  | zero => rfl
  | succ n => exact absurd h (Nat.succ_ne_zero n)

theorem outsAt4_mid (c : Dev nD) (t : Fin cfg4.N) (h0 : t.val ≠ 0) (h1 : t.val ≠ 24) :
    outsAt4 V c t.val t.isLt = leftMid4 V c t (notFirst4_of_ne t h0) (notLast4_of_ne t h1) (outsAt4 V c (t.val - 1) (Nat.lt_of_le_of_lt (Nat.sub_le _ _) t.isLt)).2.2.2.1 (outsAt4 V c (t.val - 1) (Nat.lt_of_le_of_lt (Nat.sub_le _ _) t.isLt)).2.2.2.2 := by
  obtain ⟨n, hn⟩ := t
  cases n with
  | zero => exact absurd rfl h0
  | succ n => exact (dif_neg h1).trans rfl

theorem outsAt4_last (c : Dev nD) (t : Fin cfg4.N) (h0 : t.val ≠ 0) (h1 : t.val = 24) :
    outsAt4 V c t.val t.isLt = leftLast4 V c t (notFirst4_of_ne t h0) ((atLast4_iff t).mpr h1) (outsAt4 V c (t.val - 1) (Nat.lt_of_le_of_lt (Nat.sub_le _ _) t.isLt)).2.2.2.1 (outsAt4 V c (t.val - 1) (Nat.lt_of_le_of_lt (Nat.sub_le _ _) t.isLt)).2.2.2.2 := by
  obtain ⟨n, hn⟩ := t
  cases n with
  | zero => exact absurd rfl h0
  | succ n => exact (dif_pos h1).trans rfl

-- The invariant: before the first point anything; afterwards the accumulators at what the point before left.
def PhiS4 (c : Dev nD) : (n : ℕ) → n ≤ cfg4.N → sProp 𝕄
  | 0, _ => Pipeline.ΦA spec4 c
  | n + 1, hn => iprop(iprop(iprop(owns (c : Thread nD τ) accSum4 fullShare ((outsAt4 V c n hn).2.2.2.1) ∗ owns (c : Thread nD τ) accSq4 fullShare ((outsAt4 V c n hn).2.2.2.2)) ∗ others4 c) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) accSum4 fullShare ((outsAt4 V c n hn).2.2.2.1) ∗ owns (c : Thread nD τ) accSq4 fullShare ((outsAt4 V c n hn).2.2.2.2)) ∗ others4 c) ∗ (∃ r, prngReg c r)) := rfl

theorem PhiS4_pos (c : Dev nD) (n : ℕ) (h : n ≤ cfg4.N) (hz : n ≠ 0) :
    PhiS4 V c n h = iprop(iprop(iprop(owns (c : Thread nD τ) accSum4 fullShare ((outsAt4 V c (n - 1) (by omega)).2.2.2.1) ∗ owns (c : Thread nD τ) accSq4 fullShare ((outsAt4 V c (n - 1) (by omega)).2.2.2.2)) ∗ others4 c) ∗ (∃ r, prngReg c r)) := by
  cases n with
  | zero => exact absurd rfl hz
  | succ n => rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => (outsAt4 V c t.val t.isLt).1
    | ⟨6, _⟩ => (outsAt4 V c t.val t.isLt).2.1
    | ⟨7, _⟩ => (outsAt4 V c t.val t.isLt).2.2.1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem share4 (c : Dev nD) (w : Fin cfg4.W) : (dat4 V c).q w = fullShare := by
  dsimp only [dat4]

theorem owed4 (c : Dev nD) (t : Fin (cfg4.N + 1)) : (dat4 V c).owed t = 0 := by
  dsimp only [dat4]

theorem recorded4 (c : Dev nD) (t : Fin (cfg4.N + 1)) : (dat4 V c).recorded t = Set.univ := rfl

theorem Phi4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = (outsAt4 V c t.val t.isLt).1 := by dsimp only [dat4]
theorem after4_6 (c : Dev nD) (t : Fin cfg4.N) : (dat4 V c).after 6 t = (outsAt4 V c t.val t.isLt).2.1 := by dsimp only [dat4]
theorem after4_7 (c : Dev nD) (t : Fin cfg4.N) : (dat4 V c).after 7 t = (outsAt4 V c t.val t.isLt).2.2.1 := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl)
      (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl)
      (fun t => by rw [after4_1]; unfold Dat.blockOf iblk4; rw [A_eq4]; try rfl) t d).trans
    (by unfold Dat.fetched Dat.blockOf iblk4; rw [A_eq4]; try rfl)
theorem before4_2 (c : Dev nD) (t : Fin cfg4.N) (d) : (dat4 V c).before 2 t d = iblk4 V c 2 t :=
  ((dat4 V c).before_in_eq_fetched 2 rfl (fun _ => rfl) (fun _ _ _ => rfl)
      (fun t => by rw [after4_2]; unfold Dat.blockOf iblk4; rw [A_eq4]; try rfl) t d).trans
    (by unfold Dat.fetched Dat.blockOf iblk4; rw [A_eq4]; try rfl)
theorem before4_3 (c : Dev nD) (t : Fin cfg4.N) (d) : (dat4 V c).before 3 t d = iblk4 V c 3 t :=
  ((dat4 V c).before_in_eq_fetched 3 rfl (fun _ => rfl) (fun _ _ _ => rfl)
      (fun t => by rw [after4_3]; unfold Dat.blockOf iblk4; rw [A_eq4]; try rfl) t d).trans
    (by unfold Dat.fetched Dat.blockOf iblk4; rw [A_eq4]; try rfl)
theorem before4_4 (c : Dev nD) (t : Fin cfg4.N) (d) : (dat4 V c).before 4 t d = iblk4 V c 4 t :=
  ((dat4 V c).before_in_eq_fetched 4 rfl (fun _ => rfl) (fun _ _ _ => rfl)
      (fun t => by rw [after4_4]; unfold Dat.blockOf iblk4; rw [A_eq4]; try rfl) t d).trans
    (by unfold Dat.fetched Dat.blockOf iblk4; rw [A_eq4]; try rfl)

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d))
    ∗ (∃ d, owns (c : Thread nD τ) (ms4_7 t) fullShare ((dat4 V c).before 7 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t
    ∗ (dat4 V c).leavesExact 7 t)

-- The body at any point: by position it is one of the three runs, and the stores of that run determine each buffer it stores into.
set_option maxHeartbeats 8000000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).owesAt () t.succ = (dat4 V c).owesAt () t.castSucc from rfl]
  rw [show (dat4 V c).Φ t.succ = PhiS4 V c (t.val + 1) t.isLt from rfl, PhiS4_succ]
  have hN : t.val < 25 := lt_of_lt_of_eq t.isLt (show cfg4.N = 25 from N_4)
  rw [show (dat4 V c).leavesExact 0 t = owns (c : Thread nD τ) (ms4_0 t) fullShare ((dat4 V c).after 0 t) from by
    unfold Dat.leavesExact; rw [live4_0 t], after4_0]
  rw [show (dat4 V c).leavesExact 1 t = owns (c : Thread nD τ) (ms4_1 t) fullShare ((dat4 V c).after 1 t) from by
    unfold Dat.leavesExact; rw [live4_1 t], after4_1]
  rw [show (dat4 V c).leavesExact 2 t = owns (c : Thread nD τ) (ms4_2 t) fullShare ((dat4 V c).after 2 t) from by
    unfold Dat.leavesExact; rw [live4_2 t], after4_2]
  rw [show (dat4 V c).leavesExact 3 t = owns (c : Thread nD τ) (ms4_3 t) fullShare ((dat4 V c).after 3 t) from by
    unfold Dat.leavesExact; rw [live4_3 t], after4_3]
  rw [show (dat4 V c).leavesExact 4 t = owns (c : Thread nD τ) (ms4_4 t) fullShare ((dat4 V c).after 4 t) from by
    unfold Dat.leavesExact; rw [live4_4 t], after4_4]
  rw [show (dat4 V c).leavesExact 5 t = owns (c : Thread nD τ) (ms4_5 t) fullShare ((dat4 V c).after 5 t) from by
    unfold Dat.leavesExact; rw [live4_5 t], after4_5]
  by_cases hz : t.val = 0
  ·
    have hc0 : atFirst4 (grid4.coords t) := (atFirst4_iff t).mpr hz
    have hc1 : ¬atLast4 (grid4.coords t) := notLast4_of_ne t (by omega)
    rw [Dat.leavesExact_idle (dat4 V c) 6 t (idle4_6 t hc1) (keep4_6 t hc1), Dat.leavesExact_idle (dat4 V c) 7 t (idle4_7 t hc1) (keep4_7 t hc1)]
    rw [outsAt4_first V c t hz]
    unfold leftFirst4 left4 blkLeft4 rowLeft4; dsimp only
    rw [Phi4_castSucc V c t, PhiS4_zero V c _ _ hz, PhiA4_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((firstAt4 V c t hc0 hc1).2.2.2.2.2 _ _ Set.univ _)
    iframe H0 H1 H2 H3 H4
    isplitl [H5]; · iexists _; iexact H5
    isplitl [H6]; · iexact H6
    isplitl [H7]; · iexact H7
    isplitl [HS0]; · iexact HS0
    isplitl [HS1]; · iexact HS1
    iintro ⟨H0, H1, H2, H3, H4, H5, H6, H7, HS0, HS1⟩
    isplitl [HS0 HS1 Hrest Hg]
    · isplitl [HS0 HS1 Hrest]
      · isplitl [HS0 HS1]
        · isplitl [HS0]
          · iapply owns_left4 _ _ rowView4 (firstAt4 V c t hc0 hc1).2.2.2.1 (first_cover4 ..).2.1; iexact HS0
          · iapply owns_left4 _ _ rowView4 (firstAt4 V c t hc0 hc1).2.2.2.2.1 (first_cover4 ..).2.2; iexact HS1
        · iexact Hrest
      · iexact Hg
    iframe Ho H0 H1 H2 H3 H4
    isplitl [H5]
    · iapply owns_left4 _ _ blkView4 (firstAt4 V c t hc0 hc1).1 (first_cover4 ..).1; iexact H5
    isplitl [H6]; · iexists _; iexact H6
    iexists _; iexact H7
  · by_cases hl : t.val = 24
    ·
      have hc0 : ¬atFirst4 (grid4.coords t) := notFirst4_of_ne t hz
      have hc1 : atLast4 (grid4.coords t) := (atLast4_iff t).mpr hl
      rw [show (dat4 V c).leavesExact 6 t = owns (c : Thread nD τ) (ms4_6 t) fullShare ((dat4 V c).after 6 t) from by
        unfold Dat.leavesExact; rw [live4_6 t hc1], after4_6]
      rw [show (dat4 V c).leavesExact 7 t = owns (c : Thread nD τ) (ms4_7 t) fullShare ((dat4 V c).after 7 t) from by
        unfold Dat.leavesExact; rw [live4_7 t hc1], after4_7]
      rw [outsAt4_last V c t hz hl]
      unfold leftLast4 left4 blkLeft4 rowLeft4; dsimp only
      rw [Phi4_castSucc V c t, PhiS4_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((lastAt4 V c t hc0 hc1 _ _).2.2.2.2.2 Set.univ _)
      iframe H0 H1 H2 H3 H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, H5, H6, H7, HS0, HS1⟩
      isplitl [HS0 HS1 Hrest Hg]
      · isplitl [HS0 HS1 Hrest]
        · isplitl [HS0 HS1]
          · isplitl [HS0]
            · iapply owns_left4 _ _ rowView4 (lastAt4 V c t hc0 hc1 _ _).2.2.2.1 (last_cover4 ..).2.2.2.1; iexact HS0
            · iapply owns_left4 _ _ rowView4 (lastAt4 V c t hc0 hc1 _ _).2.2.2.2.1 (last_cover4 ..).2.2.2.2; iexact HS1
          · iexact Hrest
        · iexact Hg
      iframe Ho H0 H1 H2 H3 H4
      isplitl [H5]
      · iapply owns_left4 _ _ blkView4 (lastAt4 V c t hc0 hc1 _ _).1 (last_cover4 ..).1; iexact H5
      isplitl [H6]
      · iapply owns_left4 _ _ rowView4 (lastAt4 V c t hc0 hc1 _ _).2.1 (last_cover4 ..).2.1; iexact H6
      iapply owns_left4 _ _ rowView4 (lastAt4 V c t hc0 hc1 _ _).2.2.1 (last_cover4 ..).2.2.1; iexact H7
    ·
      have hc0 : ¬atFirst4 (grid4.coords t) := notFirst4_of_ne t hz
      have hc1 : ¬atLast4 (grid4.coords t) := notLast4_of_ne t hl
      rw [Dat.leavesExact_idle (dat4 V c) 6 t (idle4_6 t hc1) (keep4_6 t hc1), Dat.leavesExact_idle (dat4 V c) 7 t (idle4_7 t hc1) (keep4_7 t hc1)]
      rw [outsAt4_mid V c t hz hl]
      unfold leftMid4 left4 blkLeft4 rowLeft4; dsimp only
      rw [Phi4_castSucc V c t, PhiS4_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((midAt4 V c t hc0 hc1 _ _).2.2.2.2.2 _ _ Set.univ _)
      iframe H0 H1 H2 H3 H4
      isplitl [H5]; · iexists _; iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 Hrest Hg]
      · isplitl [HS0 HS1 Hrest]
        · isplitl [HS0 HS1]
          · isplitl [HS0]
            · iapply owns_left4 _ _ rowView4 (midAt4 V c t hc0 hc1 _ _).2.2.2.1 (mid_cover4 ..).2.1; iexact HS0
            · iapply owns_left4 _ _ rowView4 (midAt4 V c t hc0 hc1 _ _).2.2.2.2.1 (mid_cover4 ..).2.2; iexact HS1
          · iexact Hrest
        · iexact Hg
      iframe Ho H0 H1 H2 H3 H4
      isplitl [H5]
      · iapply owns_left4 _ _ blkView4 (midAt4 V c t hc0 hc1 _ _).1 (mid_cover4 ..).1; iexact H5
      isplitl [H6]; · iexists _; iexact H6
      iexists _; iexact H7

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

theorem Phi4_out (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨⟨HS0, HS1⟩, Hrest⟩, Hg⟩
  isplitl [HS0 HS1 Hrest]
  · isplitl [HS0 HS1]
    · isplitl [HS0]
      · iexists _; iexact HS0
      · iexists _; iexact HS1
    · iexact Hrest
  · iexact Hg

theorem hout4 (c : Dev nD) : (dat4 V c).Φ (Fin.last cfg4.N) ⊢ Pipeline.ΦA spec4 c :=
  Phi4_out V c _ (by rw [Fin.val_last]; have : cfg4.N = 25 := N_4; omega)

end Cert.Kernel.Hand

end
-- ==== Proof.K.Reg5.lean ====
import proofs.«422945_j10866267259114_2_alg».proof.Proof.Gen.Kernel.Launch
import proofs.«422945_j10866267259114_2_alg».proof.Proof.Gen.Kernel.Skeleton
import proofs.«422945_j10866267259114_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

namespace Reg5

abbrev rowsAll : Rect S5000x256 := Rect.unit (s := S5000x256) ![0, 0] S5000x256.size inb_S5000x256_S5000x256_0_0
abbrev rowAll : Rect S1x256 := Rect.unit (s := S1x256) ![0, 0] S1x256.size inb_S1x256_S1x256_0_0

/-- What the body's one store leaves in the output block, from the input blocks in window order. -/
def bnRelu (h : Vec F S5000x256 .f32) (mu var g bt : Vec F S1x256 .f32) : Vec F S5000x256 .f32 :=
  View.canon [⟨rowsAll, k5_pay1 (View.ld h rowsAll) (View.ld g rowAll) (View.ld mu rowAll) (View.ld var rowAll)
    (View.ld bt rowAll)⟩]

set_option maxHeartbeats 1000000 in
/-- The body on whole memrefs: the inputs come back as they were, the output holds `bnRelu` of them. -/
theorem kernel_runs (c : Dev nD) (E : Set ℕ) {i : grid5.Coords}
    {a1 : Memref sig .tc .vmem S5000x256 .f32} {w1 : a1.IsWhole} {a2 : Memref sig .tc .vmem S1x256 .f32} {w2 : a2.IsWhole}
    {a3 : Memref sig .tc .vmem S1x256 .f32} {w3 : a3.IsWhole} {a4 : Memref sig .tc .vmem S1x256 .f32} {w4 : a4.IsWhole}
    {a5 : Memref sig .tc .vmem S1x256 .f32} {w5 : a5.IsWhole} {a6 : Memref sig .tc .vmem S5000x256 .f32} {w6 : a6.IsWhole}
    (h : Vec F S5000x256 .f32) (mu var g bt : Vec F S1x256 .f32) {K : PUnit → sProp 𝕄} :
    iprop(owns c.tc a1 fullShare h ∗ owns c.tc a2 fullShare mu ∗ owns c.tc a3 fullShare var
        ∗ owns c.tc a4 fullShare g ∗ owns c.tc a5 fullShare bt ∗ (∃ d, owns c.tc a6 fullShare d)
        ∗ (iprop(owns c.tc a1 fullShare h ∗ owns c.tc a2 fullShare mu ∗ owns c.tc a3 fullShare var
            ∗ owns c.tc a4 fullShare g ∗ owns c.tc a5 fullShare bt
            ∗ owns c.tc a6 fullShare (bnRelu h mu var g bt)) -∗ K ⟨⟩))
      ⊢ wp frame (wpE (defs₀ (F := F)) Variants.none c none) E (cc5__bn_relu_kernel i a1 w1 a2 w2 a3 w3 a4 w4 a5 w5 a6 w6) K := by
  simp only [cc5__bn_relu_kernel_eq_skeleton]; unfold cc5__bn_relu_kernel_skel owns
  iintro ⟨⟨%f1, %e1, H1⟩, ⟨%f2, %e2, H2⟩, ⟨%f3, %e3, H3⟩, ⟨%f4, %e4, H4⟩, ⟨%f5, %e5, H5⟩, ⟨%d6, %f6, -, H6⟩, Hk⟩
  subst e1 e2 e3 e4 e5
  sl_exec
  sl_step
  iapply Hk
  isplitl [H1]; iexists f1; isplitr; ipureintro; rfl; iexact H1
  isplitl [H2]; iexists f2; isplitr; ipureintro; rfl; iexact H2
  isplitl [H3]; iexists f3; isplitr; ipureintro; rfl; iexact H3
  isplitl [H4]; iexists f4; isplitr; ipureintro; rfl; iexact H4
  isplitl [H5]; iexists f5; isplitr; ipureintro; rfl; iexact H5
  iexists _; isplitr; swap; iexact H6
  ipureintro; exact View.read_writes_eq_canon _ _ _ (View.cover_of_tiled _ S5000x256.size (by rfl))

end Reg5

/-- The proof data: arrays as found; the body leaves each input block in place and fills the output block; nothing else moves. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => Reg5.bnRelu (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := rfl

/-- An input window holds its block at every point, since the body leaves it in place. -/
theorem Reg5.before (c : Dev nD) (t : Fin cfg5.N) : ∀ w : Fin 6, w ≠ 5 → ∀ d, (dat5 V c).before w t d = (dat5 V c).after w t := by
  intro w; fin_cases w <;> intro h d <;> first
    | exact absurd rfl h
    | exact Dat.before_in_eq_fetched _ _ rfl (fun _ => rfl) (fun _ _ _ => rfl) (fun _ => rfl) t d

/-- At every point the inputs hold their blocks, so the body runs; the invariant and the debts pass through unread. -/
theorem body_obligation5 (c : Dev nD) : BodyObligation (dat5 (F := F) V c) (defs₀ (F := F)) Variants.none () Set.univ := fun t => by
  rw [bigSep_W5, bigSep_W5]
  simp (disch := decide) only [Reg5.before V c t]
  dsimp only [dat5, Dat.bound]
  change _ ⊢ wp _ _ _ (bodyAt5 t) _
  unfold bodyAt5
  iintro ⟨HΦ, Ho, ⟨%d0, H0⟩, ⟨%d1, H1⟩, ⟨%d2, H2⟩, ⟨%d3, H3⟩, ⟨%d4, H4⟩, ⟨%d5, H5⟩⟩
  iapply Reg5.kernel_runs c Set.univ (iblk5 V c 0 t) (iblk5 V c 1 t) (iblk5 V c 2 t) (iblk5 V c 3 t) (iblk5 V c 4 t)
  isplitl [H0]; · iexact H0
  isplitl [H1]; · iexact H1
  isplitl [H2]; · iexact H2
  isplitl [H3]; · iexact H3
  isplitl [H4]; · iexact H4
  isplitl [H5]; · iexists _; iexact H5
  iintro H
  isplitl [HΦ]; · iexact HΦ
  isplitl [Ho]; · iexact Ho
  iexact H

theorem hin5 (c : Dev nD) : Pipeline.ΦA spec5 c ⊢ (dat5 V c).Φ 0 := .rfl

theorem hout5 (c : Dev nD) : (dat5 V c).Φ (Fin.last cfg5.N) ⊢ Pipeline.ΦA spec5 c := .rfl

theorem share5 (c : Dev nD) (w : Fin cfg5.W) : (dat5 V c).q w = fullShare := rfl

theorem owed5 (c : Dev nD) (t : Fin (cfg5.N + 1)) : (dat5 V c).owed t = 0 := rfl

theorem recorded5 (c : Dev nD) (t : Fin (cfg5.N + 1)) : (dat5 V c).recorded t = Set.univ := rfl

end Cert.Kernel.Hand

end
-- ==== Proof.K.Run.lean ====
import proofs.«422945_j10866267259114_2_alg».proof.Proof.Gen.Kernel.Launch
import proofs.«422945_j10866267259114_2_alg».proof.Proof.Gen.Kernel.Skeleton
import proofs.«422945_j10866267259114_2_alg».proof.Proof.Gen.Kernel.Points
import proofs.«422945_j10866267259114_2_alg».proof.Proof.Gen.Kernel.Regions
import proofs.«422945_j10866267259114_2_alg».proof.Proof.K.Reg0
import proofs.«422945_j10866267259114_2_alg».proof.Proof.K.Reg1
import proofs.«422945_j10866267259114_2_alg».proof.Proof.K.Reg2
import proofs.«422945_j10866267259114_2_alg».proof.Proof.K.Reg3
import proofs.«422945_j10866267259114_2_alg».proof.Proof.K.Reg4
import proofs.«422945_j10866267259114_2_alg».proof.Proof.K.Reg5
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev Vr (W : Dev nD → Valuation τ sig (Elt F)) : (c : Dev nD) → (b : Ref sig .tc) → Buf (Elt F) ((c : Thread nD τ).loc b) :=
  fun c b => W c b

def X6 (c : Dev nD) : Valuation τ sig (Elt F) :=
  Pipeline.withArrays spec0 c (Gen.V5 m c) fun w => (dat0 (Vr (Gen.V5 m)) c).arrAt w cfg0.N
def o1 : Gen.Outs (F := F) := fun _ r c => X6 m c (Proc.devRef .tc r)

def X8 (c : Dev nD) : Valuation τ sig (Elt F) :=
  Pipeline.withArrays spec1 c (Gen.V7 m (o1 m) c) fun w => (dat1 (Vr (Gen.V7 m (o1 m))) c).arrAt w cfg1.N
def o2 : Gen.Outs (F := F) := fun J r c => if J ≤ 6 then o1 m J r c else X8 m c (Proc.devRef .tc r)

def X14 (c : Dev nD) : Valuation τ sig (Elt F) :=
  Pipeline.withArrays spec2 c (Gen.V13 m (o2 m) c) fun w => (dat2 (Vr (Gen.V13 m (o2 m))) c).arrAt w cfg2.N
def o3 : Gen.Outs (F := F) := fun J r c => if J ≤ 8 then o2 m J r c else X14 m c (Proc.devRef .tc r)

def X16 (c : Dev nD) : Valuation τ sig (Elt F) :=
  Pipeline.withArrays spec3 c (Gen.V15 m (o3 m) c) fun w => (dat3 (Vr (Gen.V15 m (o3 m))) c).arrAt w cfg3.N
def o4 : Gen.Outs (F := F) := fun J r c => if J ≤ 14 then o3 m J r c else X16 m c (Proc.devRef .tc r)

def X18 (c : Dev nD) : Valuation τ sig (Elt F) :=
  Pipeline.withArrays spec4 c (Gen.V17 m (o4 m) c) fun w => (dat4 (Vr (Gen.V17 m (o4 m))) c).arrAt w cfg4.N
def o5 : Gen.Outs (F := F) := fun J r c => if J ≤ 16 then o4 m J r c else X18 m c (Proc.devRef .tc r)

def X20 (c : Dev nD) : Valuation τ sig (Elt F) :=
  Pipeline.withArrays spec5 c (Gen.V19 m (o5 m) c) fun w => (dat5 (Vr (Gen.V19 m (o5 m))) c).arrAt w cfg5.N
def outs : Gen.Outs (F := F) := fun J r c => if J ≤ 18 then o5 m J r c else X20 m c (Proc.devRef .tc r)

/-- `V` overwritten, at each reference of `rs`, by what `X` holds there. -/
def upd (V X : Valuation τ sig (Elt F)) (rs : List (Ref sig .tc)) : Valuation τ sig (Elt F) :=
  rs.foldl (fun v r => Function.update v r (X r)) V

theorem upd_apply (X : Valuation τ sig (Elt F)) : ∀ (rs : List (Ref sig .tc)) (V : Valuation τ sig (Elt F)) (r : Ref sig .tc),
    upd V X rs r = if r ∈ rs then X r else V r
  | [], V, r => (if_neg List.not_mem_nil).symm
  | a :: rs, V, r => by
    rw [show upd V X (a :: rs) = upd (Function.update V a (X a)) X rs from rfl, upd_apply X rs]
    by_cases h : r ∈ rs
    · rw [if_pos h, if_pos (List.mem_cons_of_mem a h)]
    · rw [if_neg h]
      by_cases e : r = a
      · subst e; rw [if_pos (List.mem_cons.mpr (Or.inl rfl)), Function.update_self]
      · rw [if_neg fun h' => (List.mem_cons.mp h').elim e h, Function.update_of_ne (StableHlo.devRef_ne_of_ne e)]

/-- After the region each array holds its last contents: on `rs` by the overwriting, off `rs` as an input window's, the same at every point. -/
theorem upd_exit {cfg : Cfg sig Λ₀} {c : Dev nD} (dat : Dat τ (Elt F) Unit ℕ (UR sig nD τ) ℕ cfg c)
    (hinj : Function.Injective (Pipeline.arrRef cfg.spec)) (V : Valuation τ sig (Elt F)) (rs : List (Ref sig .tc))
    (hA : ∀ w, dat.A w = V (Pipeline.arrRef cfg.spec w))
    (hio : ∀ w, Pipeline.arrRef cfg.spec w ∉ rs → (cfg.win w).isOut = false) (w : Fin cfg.W) :
    upd V (Pipeline.withArrays cfg.spec c V (dat.arrAt · cfg.N)) rs (Pipeline.arrRef cfg.spec w) = dat.arrAt w cfg.N := by
  rw [upd_apply]; split
  · exact Pipeline.withArrays_arr cfg.spec hinj c V _ w
  · exact ((dat.arrAt_in w (hio w ‹_›) _).trans (hA w)).symm

theorem exit0 (c : Dev nD) (w : Fin cfg0.W) :
    Gen.V6 m (outs m) c (Pipeline.arrRef spec0 w) = (dat0 (Vr (Gen.V5 m)) c).arrAt w cfg0.N :=
  upd_exit (dat0 (Vr (Gen.V5 m)) c) launch0.win.arr_inj (Gen.V5 m c) [main_v14_0, main_v14_1, main_v14_2] (A_eq0 _ c) (by decide) w

theorem exit1 (c : Dev nD) (w : Fin cfg1.W) :
    Gen.V8 m (outs m) c (Pipeline.arrRef spec1 w) = (dat1 (Vr (Gen.V7 m (outs m))) c).arrAt w cfg1.N :=
  upd_exit (dat1 (Vr (Gen.V7 m (outs m))) c) launch1.win.arr_inj (Gen.V7 m (outs m) c) [main_v30] (A_eq1 _ c) (by decide) w

theorem exit2 (c : Dev nD) (w : Fin cfg2.W) :
    Gen.V14 m (outs m) c (Pipeline.arrRef spec2 w) = (dat2 (Vr (Gen.V13 m (outs m))) c).arrAt w cfg2.N :=
  upd_exit (dat2 (Vr (Gen.V13 m (outs m))) c) launch2.win.arr_inj (Gen.V13 m (outs m) c) [main_v45_0, main_v45_1, main_v45_2] (A_eq2 _ c) (by decide) w

theorem exit3 (c : Dev nD) (w : Fin cfg3.W) :
    Gen.V16 m (outs m) c (Pipeline.arrRef spec3 w) = (dat3 (Vr (Gen.V15 m (outs m))) c).arrAt w cfg3.N :=
  upd_exit (dat3 (Vr (Gen.V15 m (outs m))) c) launch3.win.arr_inj (Gen.V15 m (outs m) c) [main_v61] (A_eq3 _ c) (by decide) w

theorem exit4 (c : Dev nD) (w : Fin cfg4.W) :
    Gen.V18 m (outs m) c (Pipeline.arrRef spec4 w) = (dat4 (Vr (Gen.V17 m (outs m))) c).arrAt w cfg4.N :=
  upd_exit (dat4 (Vr (Gen.V17 m (outs m))) c) launch4.win.arr_inj (Gen.V17 m (outs m) c) [main_v66_0, main_v66_1, main_v66_2] (A_eq4 _ c) (by decide) w

theorem exit5 (c : Dev nD) (w : Fin cfg5.W) :
    Gen.V20 m (outs m) c (Pipeline.arrRef spec5 w) = (dat5 (Vr (Gen.V19 m (outs m))) c).arrAt w cfg5.N :=
  upd_exit (dat5 (Vr (Gen.V19 m (outs m))) c) launch5.win.arr_inj (Gen.V19 m (outs m) c) [main_v81] (A_eq5 _ c) (by decide) w

def pdats : (p : Fin 6) → (c : Dev nD) → Dat τ (Elt F) Unit ℕ (UR sig nD τ) ℕ (Pipeline.pin (pcfgs (F := F)) Gen.adm p) c
  | ⟨0, _⟩ => fun c => dat0 (Vr (Gen.V5 m)) c
  | ⟨1, _⟩ => fun c => dat1 (Vr (Gen.V7 m (outs m))) c
  | ⟨2, _⟩ => fun c => dat2 (Vr (Gen.V13 m (outs m))) c
  | ⟨3, _⟩ => fun c => dat3 (Vr (Gen.V15 m (outs m))) c
  | ⟨4, _⟩ => fun c => dat4 (Vr (Gen.V17 m (outs m))) c
  | ⟨5, _⟩ => fun c => dat5 (Vr (Gen.V19 m (outs m))) c

abbrev L : GSem nD τ sig → Finset Unit := fun _ => ∅
abbrev lv : GSem nD τ sig → Unit → ℕ := fun _ _ => 0

/-- The state kept beside the buffers between items: the random-number register at some value, and no dues. -/
abbrev R (c : Dev nD) : sProp 𝕄 := iprop((∃ r, prngReg c r) ∗ ∃ W, owes (c : Thread nD τ) (0 : CellTallies nD τ sig Unit) W)
abbrev E : Fin 7 → Dev nD → sProp 𝕄 := fun _ c => R c

theorem owesAt_of_zero {cfg : Cfg sig Λ₀} {c : Dev nD} (dat : Dat τ (Elt F) Unit ℕ (UR sig nD τ) ℕ cfg c) (t : Fin (cfg.N + 1))
    (ho : dat.owed t = 0) (hr : dat.recorded t = Set.univ) :
    (iprop(∃ W, owes (c : Thread nD τ) (0 : CellTallies nD τ sig Unit) W) : sProp 𝕄) ⊢ dat.owesAt () t := by
  unfold Pipeline.Dat.owesAt Pipeline.owesWithin Pipeline.Dat.bound
  rw [ho, hr]
  iintro ⟨%W, HO⟩; iexists W; isplitr; · ipureintro; exact fun _ _ => Or.inl trivial
  iexact HO

theorem zero_of_owesAt {cfg : Cfg sig Λ₀} {c : Dev nD} (dat : Dat τ (Elt F) Unit ℕ (UR sig nD τ) ℕ cfg c) (t : Fin (cfg.N + 1))
    (ho : dat.owed t = 0) :
    (dat.owesAt () t : sProp 𝕄) ⊢ iprop(∃ W, owes (c : Thread nD τ) (0 : CellTallies nD τ sig Unit) W) := by
  unfold Pipeline.Dat.owesAt Pipeline.owesWithin
  rw [ho]
  iintro ⟨%W, -, HO⟩; iexists W; iexact HO

variable {m} in
set_option backward.isDefEq.respectTransparency.types false in
/-- Pipeline `p`'s region from the unscoped buffers at `V` to them at `V'`: the arrays end at their last contents, `V'` is `V` off the arrays in `rs`, nothing is owed. -/
def regOf (pd : (p : Fin 6) → (c : Dev nD) → Dat τ (Elt F) Unit ℕ (UR sig nD τ) ℕ (Pipeline.pin (pcfgs (F := F)) Gen.adm p) c)
    (p : Fin 6) (V V' : Dev nD → Valuation τ sig (Elt F)) (lf : Pipeline.LaunchFacts (nD := nD) (τ := τ) cfgs p)
    (hb : ∀ c, BodyObligation (pd p c) (defs₀ (F := F)) Variants.none () Set.univ)
    (ho : ∀ c t, (pd p c).owed t = 0) (hr : ∀ c, (pd p c).recorded 0 = Set.univ) (hq : ∀ c w, (pd p c).q w = fullShare)
    (hA : ∀ c w, (pd p c).A w = V c (Pipeline.arrRef (cfgs p).spec w))
    (hi : ∀ c, Pipeline.ΦA (cfgs p).spec c ⊢ (pd p c).Φ 0) (hf : ∀ c, (pd p c).Φ (Fin.last (cfgs p).N) ⊢ Pipeline.ΦA (cfgs p).spec c)
    (hx : ∀ c w, V' c (Pipeline.arrRef (cfgs p).spec w) = (pd p c).arrAt w (cfgs p).N)
    (rs : List (Ref sig .tc)) (hrs : ∀ r ∈ rs, r ∈ Finset.univ.image (Pipeline.arrRef (cfgs p).spec)) (hof : ∀ c r, r ∉ rs → V' c r = V c r) :
    Pipeline.RegionSeg (pcfgs (F := F)) Gen.adm pd () defs₀ Variants.none L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p ho
  pre c := iprop(StableHlo.held (c : Thread nD τ) (Pipeline.ucRefs τ sig) (V c) ∗ R c)
  post c := iprop(StableHlo.held (c : Thread nD τ) (Pipeline.ucRefs τ sig) (V' c) ∗ R c)
  X c := iprop(∃ r, prngReg c r)
  Y c := iprop(∃ r, prngReg c r)
  Z c := Pipeline.unscopedRest (Ix := Unit) (Name := ℕ) (U := UR sig nD τ) (Lvl := ℕ) (cfgs p).spec c (Vr V c)
  hentry c := by
    rw [Pipeline.ownSems0_none]
    have hsplit := Pipeline.arrays_of_unscopedBufs (p := p) (pcfgs (F := F)) Gen.adm pd lf.win lf.arr_whole c
      ((pd p c).share_full (hq c)) (Vr V c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_zero (pd p c) 0 (ho c 0) (hr c)); iexact HO
    isplitl [Hp] <;> iassumption
  hin c := by
    refine BIBase.Entails.trans ?_ (hi c)
    unfold Pipeline.ΦA
    iintro ⟨Hp, -, Hr⟩
    isplitl [Hr] <;> iassumption
  hout c := by
    refine BIBase.Entails.trans (hf c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) Gen.adm (Ix := Unit) (Name := ℕ) (U := UR sig nD τ) (Lvl := ℕ)
      lf.win lf.arr_whole c pd ((pd p c).share_full (hq c))
      (Vr V c) (Vr V' c) ((pd p c).arrAt · (cfgs p).N) (fun w => (hx c w).symm) fun b hb => hof c b fun h => hb (hrs b h)
    rw [Pipeline.unscopedBufs_held] at hjoin
    iintro ⟨Ha, HO, HY, Hrest⟩
    imodintro
    isplitl [Ha Hrest]
    · iapply hjoin; isplitl [Ha] <;> iassumption
    isplitl [HY]; · iexact HY
    iapply (zero_of_owesAt (pd p c) (Fin.last (cfgs p).N) (ho c _)); iexact HO

set_option backward.isDefEq.respectTransparency.types false in
def reg0 : Pipeline.RegionSeg (pcfgs (F := F)) Gen.adm (pdats m) () defs₀ Variants.none L lv 0 :=
  regOf (pdats m) 0 (Gen.V5 m) (Gen.V6 m (outs m)) launch0 (body_obligation0 _) (owed0 _) (recorded0 _ · 0) (share0 _)
    (A_eq0 _) (hin0 _) (hout0 _) (exit0 m) [main_v14_0, main_v14_1, main_v14_2] (by decide) (Gen.V6_of m (outs m))

set_option backward.isDefEq.respectTransparency.types false in
def reg1 : Pipeline.RegionSeg (pcfgs (F := F)) Gen.adm (pdats m) () defs₀ Variants.none L lv 1 :=
  regOf (pdats m) 1 (Gen.V7 m (outs m)) (Gen.V8 m (outs m)) launch1 (body_obligation1 _) (owed1 _) (recorded1 _ · 0) (share1 _)
    (A_eq1 _) (hin1 _) (hout1 _) (exit1 m) [main_v30] (by decide) (Gen.V8_of m (outs m))

set_option backward.isDefEq.respectTransparency.types false in
def reg2 : Pipeline.RegionSeg (pcfgs (F := F)) Gen.adm (pdats m) () defs₀ Variants.none L lv 2 :=
  regOf (pdats m) 2 (Gen.V13 m (outs m)) (Gen.V14 m (outs m)) launch2 (body_obligation2 _) (owed2 _) (recorded2 _ · 0) (share2 _)
    (A_eq2 _) (hin2 _) (hout2 _) (exit2 m) [main_v45_0, main_v45_1, main_v45_2] (by decide) (Gen.V14_of m (outs m))

set_option backward.isDefEq.respectTransparency.types false in
def reg3 : Pipeline.RegionSeg (pcfgs (F := F)) Gen.adm (pdats m) () defs₀ Variants.none L lv 3 :=
  regOf (pdats m) 3 (Gen.V15 m (outs m)) (Gen.V16 m (outs m)) launch3 (body_obligation3 _) (owed3 _) (recorded3 _ · 0) (share3 _)
    (A_eq3 _) (hin3 _) (hout3 _) (exit3 m) [main_v61] (by decide) (Gen.V16_of m (outs m))

set_option backward.isDefEq.respectTransparency.types false in
def reg4 : Pipeline.RegionSeg (pcfgs (F := F)) Gen.adm (pdats m) () defs₀ Variants.none L lv 4 :=
  regOf (pdats m) 4 (Gen.V17 m (outs m)) (Gen.V18 m (outs m)) launch4 (body_obligation4 _) (owed4 _) (recorded4 _ · 0) (share4 _)
    (A_eq4 _) (hin4 _) (hout4 _) (exit4 m) [main_v66_0, main_v66_1, main_v66_2] (by decide) (Gen.V18_of m (outs m))

set_option backward.isDefEq.respectTransparency.types false in
def reg5 : Pipeline.RegionSeg (pcfgs (F := F)) Gen.adm (pdats m) () defs₀ Variants.none L lv 5 :=
  regOf (pdats m) 5 (Gen.V19 m (outs m)) (Gen.V20 m (outs m)) launch5 (body_obligation5 _) (owed5 _) (recorded5 _ · 0) (share5 _)
    (A_eq5 _) (hin5 _) (hout5 _) (exit5 m) [main_v81] (by decide) (Gen.V20_of m (outs m))

theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  rw [BI.bigSep_emp_const]
  iintro Hu; imodintro
  isplitl [Hu]
  · iapply (show (ownU (initOf (Pipeline.cells cfgs cellOf_inj) (Pipeline.launchToks cfgs cellOf_inj)) : sProp 𝕄) ⊢ BI.own (emb₁ (initOf (Pipeline.cells cfgs cellOf_inj) (Pipeline.launchToks cfgs cellOf_inj))) from .rfl)
    iexact Hu
  iempintro

theorem R_owes (c : Dev nD) : (R (F := F) c) ⊢ iprop(∃ W, owes (c : Thread nD τ) (0 : CellTallies nD τ sig Unit) W) := by
  iintro ⟨-, HO⟩; iexact HO

/-- Every argument array ends holding its launch contents. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  Gen.frame_cond m emb₁ () Variants.none L lv (fun _ _ => rfl) ρ (outs m) (pdats m) 0 (fun _ => iprop(emp))
    (initOf (Pipeline.cells cfgs cellOf_inj) (Pipeline.launchToks cfgs cellOf_inj)) hu₀ (E (F := F))
    (Pipeline.initEach L lv fun c => by
      iintro ⟨⟨-, HO, -, Hp, -⟩, -⟩
      imodintro
      isplitl [Hp]; · iexists _; iexact Hp
      iexists ∅; iexact HO)
    R_owes
    (reg0 m) (fun _ => .rfl) (fun _ => .rfl) (reg1 m) (fun _ => .rfl) (fun _ => .rfl) (reg2 m) (fun _ => .rfl) (fun _ => .rfl)
    (reg3 m) (fun _ => .rfl) (fun _ => .rfl) (reg4 m) (fun _ => .rfl) (fun _ => .rfl) (reg5 m) (fun _ => .rfl) (fun _ => .rfl)

end Cert.Kernel.Hand

end
-- ==== Proof.KI.Lin.lean ====
import proofs.«422945_j10866267259114_2_alg».proof.Proof.Gen.KernelIdeal.Launch
import proofs.«422945_j10866267259114_2_alg».proof.Proof.Gen.KernelIdeal.Skeleton
import proofs.«422945_j10866267259114_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

namespace Lin

abbrev atFirst (i : grid0.Coords) : Prop :=
  (Scalar.cmpi .ne (Scalar.extui (Scalar.cmpi .eq (BitVec.ofNat 32 (i 0).val) 0#32)) 0#32) = 1#1
abbrev atLast (i : grid0.Coords) : Prop := k0_cond2 i = 1#1

-- What the stores of a run leave in the five buffers; u stands for the two rows a run does not store into.
def leaves (Llin : List (View.Piece (Elt F) S2000x256 .f32)) (Lacc Lacc2 : List (View.Piece (Elt F) S1x256 .f32)) (u : Vec F S1x256 .f32) : Vec F S2000x256 .f32 × Vec F S1x256 .f32 × Vec F S1x256 .f32 × Vec F S1x256 .f32 × Vec F S1x256 .f32 :=
  (View.canon Llin, u, u, View.canon Lacc, View.canon Lacc2)
def leavesLast (Llin : List (View.Piece (Elt F) S2000x256 .f32)) (Lsum Lsq Lacc Lacc2 : List (View.Piece (Elt F) S1x256 .f32)) : Vec F S2000x256 .f32 × Vec F S1x256 .f32 × Vec F S1x256 .f32 × Vec F S1x256 .f32 × Vec F S1x256 .f32 :=
  (View.canon Llin, View.canon Lsum, View.canon Lsq, View.canon Lacc, View.canon Lacc2)

-- Stores that tile a buffer determine its contents, whatever it held before.
theorem owns_canon {S : Shape} (c : Dev nD) (m : Memref sig .tc .vmem S .f32) (L : List (View.Piece (Elt F) S .f32)) (h : ∀ y, ∃ p ∈ L, y ∈ p.1.set) :
    iprop(∃ f, m.view.loc (c : Thread nD τ) ↦[m.view.set]{fullShare} m.view.writes (Elt F) f L) ⊢ (owns (c : Thread nD τ) m fullShare (View.canon L) : sProp 𝕄) := by
  unfold owns; iintro ⟨%f, H⟩; iexists _; isplitr; swap; · iexact H
  ipureintro; exact View.read_writes_eq_canon _ _ _ h

section Body

variable (c : Dev nD) (i : grid0.Coords)
  (xM : Memref sig .tc .vmem S2000x256 .f32) (hxM : xM.IsWhole)
  (aM : Memref sig .tc .vmem S2000x256 .f32) (haM : aM.IsWhole)
  (sM : Memref sig .tc .vmem S1x256 .f32) (hsM : sM.IsWhole)
  (wM : Memref sig .tc .vmem S256x256 .f32) (hwM : wM.IsWhole)
  (bM : Memref sig .tc .vmem S1x256 .f32) (hbM : bM.IsWhole)
  (linM : Memref sig .tc .vmem S2000x256 .f32) (hlinM : linM.IsWhole)
  (sumM : Memref sig .tc .vmem S1x256 .f32) (hsumM : sumM.IsWhole)
  (sqM : Memref sig .tc .vmem S1x256 .f32) (hsqM : sqM.IsWhole)
  (accM : Memref sig .tc .vmem S1x256 .f32) (haccM : accM.IsWhole)
  (acc2M : Memref sig .tc .vmem S1x256 .f32) (hacc2M : acc2M.IsWhole)
  (x : Vec F S2000x256 .f32) (a : Vec F S2000x256 .f32) (s : Vec F S1x256 .f32) (w : Vec F S256x256 .f32) (b : Vec F S1x256 .f32)

local notation "theBody" => cc0__combine_linear_stats_kernel i xM hxM aM haM sM hsM wM hwM bM hbM linM hlinM sumM hsumM sqM hsqM accM haccM acc2M hacc2M

set_option maxHeartbeats 1000000 in
noncomputable def runFirst (hF : atFirst i) (hL : ¬atLast i) :
    Σ' (Llin : List (View.Piece (Elt F) S2000x256 .f32)) (Lacc : List (View.Piece (Elt F) S1x256 .f32)),
      { Lacc2 : List (View.Piece (Elt F) S1x256 .f32) //
        ∀ (ysum ysq : Vec F S1x256 .f32) (E : Set ℕ) (K : PUnit → sProp 𝕄),
          iprop(owns (c : Thread nD τ) xM fullShare x ∗ owns (c : Thread nD τ) aM fullShare a ∗ owns (c : Thread nD τ) sM fullShare s ∗ owns (c : Thread nD τ) wM fullShare w ∗ owns (c : Thread nD τ) bM fullShare b
              ∗ (∃ d, owns (c : Thread nD τ) linM fullShare d) ∗ owns (c : Thread nD τ) sumM fullShare ysum ∗ owns (c : Thread nD τ) sqM fullShare ysq ∗ (∃ d, owns (c : Thread nD τ) accM fullShare d) ∗ (∃ d, owns (c : Thread nD τ) acc2M fullShare d)
              ∗ (iprop(owns (c : Thread nD τ) xM fullShare x ∗ owns (c : Thread nD τ) aM fullShare a ∗ owns (c : Thread nD τ) sM fullShare s ∗ owns (c : Thread nD τ) wM fullShare w ∗ owns (c : Thread nD τ) bM fullShare b
                  ∗ (∃ f, linM.view.loc (c : Thread nD τ) ↦[linM.view.set]{fullShare} linM.view.writes (Elt F) f Llin) ∗ owns (c : Thread nD τ) sumM fullShare ysum ∗ owns (c : Thread nD τ) sqM fullShare ysq
                  ∗ (∃ f, accM.view.loc (c : Thread nD τ) ↦[accM.view.set]{fullShare} accM.view.writes (Elt F) f Lacc) ∗ (∃ f, acc2M.view.loc (c : Thread nD τ) ↦[acc2M.view.set]{fullShare} acc2M.view.writes (Elt F) f Lacc2)) -∗ K ⟨⟩))
            ⊢ wp frame (wpE (defs₀ (F := F)) Variants.none c none) E theBody K } := by
  refine ⟨?_, ?_, ?_, fun ysum ysq E K => ?run⟩
  case run =>
    simp only [cc0__combine_linear_stats_kernel_eq_skeleton]; unfold cc0__combine_linear_stats_kernel_skel
    simp only [k0_part1_eq_skeleton]; unfold k0_part1_skel
    unfold owns
    iintro ⟨⟨%fx, %hfx, Hx⟩, ⟨%fa, %hfa, Ha⟩, ⟨%fs, %hfs, Hs⟩, ⟨%fw, %hfw, Hw⟩, ⟨%fb, %hfb, Hb⟩, ⟨%dl, %fl, -, Hl⟩, ⟨%f6, %hf6, H6⟩, ⟨%f7, %hf7, H7⟩, ⟨%d9, %f9, -, H9⟩, ⟨%d10, %f10, -, H10⟩, Hk⟩
    obtain rfl := hxM.eq_unread hfx; obtain rfl := haM.eq_unread hfa; obtain rfl := hsM.eq_unread hfs; obtain rfl := hwM.eq_unread hfw; obtain rfl := hbM.eq_unread hfb
    obtain rfl := hsumM.eq_unread hf6; obtain rfl := hsqM.eq_unread hf7
    sl_exec (disch := first | exact hF | exact hL)
    sl_step
    iapply Hk
    isplitl [Hx]
    · iexists _; isplitr; · ipureintro; exact hxM.read_unread _
      iexact Hx
    isplitl [Ha]
    · iexists _; isplitr; · ipureintro; exact haM.read_unread _
      iexact Ha
    isplitl [Hs]
    · iexists _; isplitr; · ipureintro; exact hsM.read_unread _
      iexact Hs
    isplitl [Hw]
    · iexists _; isplitr; · ipureintro; exact hwM.read_unread _
      iexact Hw
    isplitl [Hb]
    · iexists _; isplitr; · ipureintro; exact hbM.read_unread _
      iexact Hb
    isplitl [Hl]; · iexists _; iexact Hl
    isplitl [H6]
    · iexists _; isplitr; · ipureintro; exact hsumM.read_unread _
      iexact H6
    isplitl [H7]
    · iexists _; isplitr; · ipureintro; exact hsqM.read_unread _
      iexact H7
    isplitl [H9]; · iexists _; iexact H9
    iexists _; iexact H10

set_option maxHeartbeats 1000000 in
noncomputable def runMid (hF : ¬atFirst i) (hL : ¬atLast i) (p p2 : Vec F S1x256 .f32) :
    Σ' (Llin : List (View.Piece (Elt F) S2000x256 .f32)) (Lacc : List (View.Piece (Elt F) S1x256 .f32)),
      { Lacc2 : List (View.Piece (Elt F) S1x256 .f32) //
        ∀ (ysum ysq : Vec F S1x256 .f32) (E : Set ℕ) (K : PUnit → sProp 𝕄),
          iprop(owns (c : Thread nD τ) xM fullShare x ∗ owns (c : Thread nD τ) aM fullShare a ∗ owns (c : Thread nD τ) sM fullShare s ∗ owns (c : Thread nD τ) wM fullShare w ∗ owns (c : Thread nD τ) bM fullShare b
              ∗ (∃ d, owns (c : Thread nD τ) linM fullShare d) ∗ owns (c : Thread nD τ) sumM fullShare ysum ∗ owns (c : Thread nD τ) sqM fullShare ysq ∗ owns (c : Thread nD τ) accM fullShare p ∗ owns (c : Thread nD τ) acc2M fullShare p2
              ∗ (iprop(owns (c : Thread nD τ) xM fullShare x ∗ owns (c : Thread nD τ) aM fullShare a ∗ owns (c : Thread nD τ) sM fullShare s ∗ owns (c : Thread nD τ) wM fullShare w ∗ owns (c : Thread nD τ) bM fullShare b
                  ∗ (∃ f, linM.view.loc (c : Thread nD τ) ↦[linM.view.set]{fullShare} linM.view.writes (Elt F) f Llin) ∗ owns (c : Thread nD τ) sumM fullShare ysum ∗ owns (c : Thread nD τ) sqM fullShare ysq
                  ∗ (∃ f, accM.view.loc (c : Thread nD τ) ↦[accM.view.set]{fullShare} accM.view.writes (Elt F) f Lacc) ∗ (∃ f, acc2M.view.loc (c : Thread nD τ) ↦[acc2M.view.set]{fullShare} acc2M.view.writes (Elt F) f Lacc2)) -∗ K ⟨⟩))
            ⊢ wp frame (wpE (defs₀ (F := F)) Variants.none c none) E theBody K } := by
  refine ⟨?_, ?_, ?_, fun ysum ysq E K => ?run⟩
  case run =>
    simp only [cc0__combine_linear_stats_kernel_eq_skeleton]; unfold cc0__combine_linear_stats_kernel_skel
    simp only [k0_part1_eq_skeleton]; unfold k0_part1_skel
    unfold owns
    iintro ⟨⟨%fx, %hfx, Hx⟩, ⟨%fa, %hfa, Ha⟩, ⟨%fs, %hfs, Hs⟩, ⟨%fw, %hfw, Hw⟩, ⟨%fb, %hfb, Hb⟩, ⟨%dl, %fl, -, Hl⟩, ⟨%f6, %hf6, H6⟩, ⟨%f7, %hf7, H7⟩, ⟨%f9, %hf9, H9⟩, ⟨%f10, %hf10, H10⟩, Hk⟩
    obtain rfl := hxM.eq_unread hfx; obtain rfl := haM.eq_unread hfa; obtain rfl := hsM.eq_unread hfs; obtain rfl := hwM.eq_unread hfw; obtain rfl := hbM.eq_unread hfb
    obtain rfl := hsumM.eq_unread hf6; obtain rfl := hsqM.eq_unread hf7
    obtain rfl := haccM.eq_unread hf9; obtain rfl := hacc2M.eq_unread hf10
    sl_exec (disch := first | exact hF | exact hL)
    sl_step
    iapply Hk
    isplitl [Hx]
    · iexists _; isplitr; · ipureintro; exact hxM.read_unread _
      iexact Hx
    isplitl [Ha]
    · iexists _; isplitr; · ipureintro; exact haM.read_unread _
      iexact Ha
    isplitl [Hs]
    · iexists _; isplitr; · ipureintro; exact hsM.read_unread _
      iexact Hs
    isplitl [Hw]
    · iexists _; isplitr; · ipureintro; exact hwM.read_unread _
      iexact Hw
    isplitl [Hb]
    · iexists _; isplitr; · ipureintro; exact hbM.read_unread _
      iexact Hb
    isplitl [Hl]; · iexists _; iexact Hl
    isplitl [H6]
    · iexists _; isplitr; · ipureintro; exact hsumM.read_unread _
      iexact H6
    isplitl [H7]
    · iexists _; isplitr; · ipureintro; exact hsqM.read_unread _
      iexact H7
    isplitl [H9]; · iexists _; iexact H9
    iexists _; iexact H10

set_option maxHeartbeats 1000000 in
noncomputable def runLast (hF : ¬atFirst i) (hL : atLast i) (p p2 : Vec F S1x256 .f32) :
    Σ' (Llin : List (View.Piece (Elt F) S2000x256 .f32)) (Lsum : List (View.Piece (Elt F) S1x256 .f32)) (Lsq : List (View.Piece (Elt F) S1x256 .f32)) (Lacc : List (View.Piece (Elt F) S1x256 .f32)),
      { Lacc2 : List (View.Piece (Elt F) S1x256 .f32) //
        ∀ (E : Set ℕ) (K : PUnit → sProp 𝕄),
          iprop(owns (c : Thread nD τ) xM fullShare x ∗ owns (c : Thread nD τ) aM fullShare a ∗ owns (c : Thread nD τ) sM fullShare s ∗ owns (c : Thread nD τ) wM fullShare w ∗ owns (c : Thread nD τ) bM fullShare b
              ∗ (∃ d, owns (c : Thread nD τ) linM fullShare d) ∗ (∃ d, owns (c : Thread nD τ) sumM fullShare d) ∗ (∃ d, owns (c : Thread nD τ) sqM fullShare d) ∗ owns (c : Thread nD τ) accM fullShare p ∗ owns (c : Thread nD τ) acc2M fullShare p2
              ∗ (iprop(owns (c : Thread nD τ) xM fullShare x ∗ owns (c : Thread nD τ) aM fullShare a ∗ owns (c : Thread nD τ) sM fullShare s ∗ owns (c : Thread nD τ) wM fullShare w ∗ owns (c : Thread nD τ) bM fullShare b
                  ∗ (∃ f, linM.view.loc (c : Thread nD τ) ↦[linM.view.set]{fullShare} linM.view.writes (Elt F) f Llin) ∗ (∃ f, sumM.view.loc (c : Thread nD τ) ↦[sumM.view.set]{fullShare} sumM.view.writes (Elt F) f Lsum) ∗ (∃ f, sqM.view.loc (c : Thread nD τ) ↦[sqM.view.set]{fullShare} sqM.view.writes (Elt F) f Lsq)
                  ∗ (∃ f, accM.view.loc (c : Thread nD τ) ↦[accM.view.set]{fullShare} accM.view.writes (Elt F) f Lacc) ∗ (∃ f, acc2M.view.loc (c : Thread nD τ) ↦[acc2M.view.set]{fullShare} acc2M.view.writes (Elt F) f Lacc2)) -∗ K ⟨⟩))
            ⊢ wp frame (wpE (defs₀ (F := F)) Variants.none c none) E theBody K } := by
  refine ⟨?_, ?_, ?_, ?_, ?_, fun E K => ?run⟩
  case run =>
    simp only [cc0__combine_linear_stats_kernel_eq_skeleton]; unfold cc0__combine_linear_stats_kernel_skel
    simp only [k0_part1_eq_skeleton]; unfold k0_part1_skel
    unfold owns
    iintro ⟨⟨%fx, %hfx, Hx⟩, ⟨%fa, %hfa, Ha⟩, ⟨%fs, %hfs, Hs⟩, ⟨%fw, %hfw, Hw⟩, ⟨%fb, %hfb, Hb⟩, ⟨%dl, %fl, -, Hl⟩, ⟨%d6, %f6, -, H6⟩, ⟨%d7, %f7, -, H7⟩, ⟨%f9, %hf9, H9⟩, ⟨%f10, %hf10, H10⟩, Hk⟩
    obtain rfl := hxM.eq_unread hfx; obtain rfl := haM.eq_unread hfa; obtain rfl := hsM.eq_unread hfs; obtain rfl := hwM.eq_unread hfw; obtain rfl := hbM.eq_unread hfb
    obtain rfl := haccM.eq_unread hf9; obtain rfl := hacc2M.eq_unread hf10
    sl_exec (disch := first | exact hF | exact hL)
    sl_step
    iapply Hk
    isplitl [Hx]
    · iexists _; isplitr; · ipureintro; exact hxM.read_unread _
      iexact Hx
    isplitl [Ha]
    · iexists _; isplitr; · ipureintro; exact haM.read_unread _
      iexact Ha
    isplitl [Hs]
    · iexists _; isplitr; · ipureintro; exact hsM.read_unread _
      iexact Hs
    isplitl [Hw]
    · iexists _; isplitr; · ipureintro; exact hwM.read_unread _
      iexact Hw
    isplitl [Hb]
    · iexists _; isplitr; · ipureintro; exact hbM.read_unread _
      iexact Hb
    isplitl [Hl]; · iexists _; iexact Hl
    isplitl [H6]; · iexists _; iexact H6
    isplitl [H7]; · iexists _; iexact H7
    isplitl [H9]; · iexists _; iexact H9
    iexists _; iexact H10

local notation "firstRun" => runFirst c i xM hxM aM haM sM hsM wM hwM bM hbM linM hlinM sumM hsumM sqM hsqM accM haccM acc2M hacc2M x a s w b
local notation "midRun" => runMid c i xM hxM aM haM sM hsM wM hwM bM hbM linM hlinM sumM hsumM sqM hsqM accM haccM acc2M hacc2M x a s w b
local notation "lastRun" => runLast c i xM hxM aM haM sM hsM wM hwM bM hbM linM hlinM sumM hsumM sqM hsqM accM haccM acc2M hacc2M x a s w b

-- The stores of a run into each buffer tile it.
theorem first_cover (hF : atFirst i) (hL : ¬atLast i) :
    (∀ y, ∃ pc ∈ (firstRun hF hL).1, y ∈ pc.1.set) ∧ (∀ y, ∃ pc ∈ (firstRun hF hL).2.1, y ∈ pc.1.set) ∧ (∀ y, ∃ pc ∈ (firstRun hF hL).2.2.1, y ∈ pc.1.set) :=
  ⟨View.cover_of_tiledL _ S2000x256.size (by sl_kernel_rfl), View.cover_of_tiledL _ S1x256.size (by sl_kernel_rfl), View.cover_of_tiledL _ S1x256.size (by sl_kernel_rfl)⟩
theorem mid_cover (hF : ¬atFirst i) (hL : ¬atLast i) (p p2 : Vec F S1x256 .f32) :
    (∀ y, ∃ pc ∈ (midRun hF hL p p2).1, y ∈ pc.1.set) ∧ (∀ y, ∃ pc ∈ (midRun hF hL p p2).2.1, y ∈ pc.1.set) ∧ (∀ y, ∃ pc ∈ (midRun hF hL p p2).2.2.1, y ∈ pc.1.set) :=
  ⟨View.cover_of_tiledL _ S2000x256.size (by sl_kernel_rfl), View.cover_of_tiledL _ S1x256.size (by sl_kernel_rfl), View.cover_of_tiledL _ S1x256.size (by sl_kernel_rfl)⟩
theorem last_cover (hF : ¬atFirst i) (hL : atLast i) (p p2 : Vec F S1x256 .f32) :
    (∀ y, ∃ pc ∈ (lastRun hF hL p p2).1, y ∈ pc.1.set) ∧ (∀ y, ∃ pc ∈ (lastRun hF hL p p2).2.1, y ∈ pc.1.set) ∧ (∀ y, ∃ pc ∈ (lastRun hF hL p p2).2.2.1, y ∈ pc.1.set) ∧ (∀ y, ∃ pc ∈ (lastRun hF hL p p2).2.2.2.1, y ∈ pc.1.set) ∧ (∀ y, ∃ pc ∈ (lastRun hF hL p p2).2.2.2.2.1, y ∈ pc.1.set) :=
  ⟨View.cover_of_tiledL _ S2000x256.size (by sl_kernel_rfl), View.cover_of_tiledL _ S1x256.size (by sl_kernel_rfl), View.cover_of_tiledL _ S1x256.size (by sl_kernel_rfl), View.cover_of_tiledL _ S1x256.size (by sl_kernel_rfl), View.cover_of_tiledL _ S1x256.size (by sl_kernel_rfl)⟩

end Body

end Lin

end Cert.KernelIdeal.Hand

end
-- ==== Proof.KI.Reg0.lean ====
import proofs.«422945_j10866267259114_2_alg».proof.Proof.KI.Lin

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

open Lin

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

namespace Reg0

theorem atFirst_iff : ∀ t : Fin cfg0.N, atFirst (grid0.coords t) ↔ t.val = 0 :=
  (by decide +kernel : ∀ t : Fin grid0.N, atFirst (grid0.coords t) ↔ t.val = 0)
theorem atLast_iff : ∀ t : Fin cfg0.N, atLast (grid0.coords t) ↔ t.val = 24 :=
  (by decide +kernel : ∀ t : Fin grid0.N, atLast (grid0.coords t) ↔ t.val = 24)

theorem sum_idle : ∀ t : Fin cfg0.N, ¬atLast (grid0.coords t) → cfg0.idle 6 (grid0.coords t) = true := by decide +kernel

theorem sum_noFlush : ∀ t : Fin cfg0.N, ¬atLast (grid0.coords t) → (cfg0.win 6).flush t = false := by decide +kernel

theorem sum_live : ∀ t : Fin cfg0.N, atLast (grid0.coords t) → cfg0.idle 6 (grid0.coords t) = false := by decide +kernel

theorem sq_idle : ∀ t : Fin cfg0.N, ¬atLast (grid0.coords t) → cfg0.idle 7 (grid0.coords t) = true := by decide +kernel
theorem sq_noFlush : ∀ t : Fin cfg0.N, ¬atLast (grid0.coords t) → (cfg0.win 7).flush t = false := by decide +kernel
theorem sq_live : ∀ t : Fin cfg0.N, atLast (grid0.coords t) → cfg0.idle 7 (grid0.coords t) = false := by decide +kernel

abbrev xStg (t : Fin cfg0.N) : Memref sig .tc .vmem S2000x256 .f32 := win0_0.stage (cfg0.slots t 0)
abbrev xStg_whole (t : Fin cfg0.N) : (xStg t).IsWhole := hstage0_0 ((cfg0.slots t 0).cast nbuf0_0)
abbrev aggrStg (t : Fin cfg0.N) : Memref sig .tc .vmem S2000x256 .f32 := win0_1.stage (cfg0.slots t 1)
abbrev aggrStg_whole (t : Fin cfg0.N) : (aggrStg t).IsWhole := hstage0_1 ((cfg0.slots t 1).cast nbuf0_1)
abbrev scaleStg (t : Fin cfg0.N) : Memref sig .tc .vmem S1x256 .f32 := win0_2.stage (cfg0.slots t 2)
abbrev scaleStg_whole (t : Fin cfg0.N) : (scaleStg t).IsWhole := hstage0_2 ((cfg0.slots t 2).cast nbuf0_2)
abbrev wStg (t : Fin cfg0.N) : Memref sig .tc .vmem S256x256 .f32 := win0_3.stage (cfg0.slots t 3)
abbrev wStg_whole (t : Fin cfg0.N) : (wStg t).IsWhole := hstage0_3 ((cfg0.slots t 3).cast nbuf0_3)
abbrev biasStg (t : Fin cfg0.N) : Memref sig .tc .vmem S1x256 .f32 := win0_4.stage (cfg0.slots t 4)
abbrev biasStg_whole (t : Fin cfg0.N) : (biasStg t).IsWhole := hstage0_4 ((cfg0.slots t 4).cast nbuf0_4)
abbrev linStg (t : Fin cfg0.N) : Memref sig .tc .vmem S2000x256 .f32 := win0_5.stage (cfg0.slots t 5)
abbrev linStg_whole (t : Fin cfg0.N) : (linStg t).IsWhole := hstage0_5 ((cfg0.slots t 5).cast nbuf0_5)
abbrev sumStg (t : Fin cfg0.N) : Memref sig .tc .vmem S1x256 .f32 := win0_6.stage (cfg0.slots t 6)
abbrev sumStg_whole (t : Fin cfg0.N) : (sumStg t).IsWhole := hstage0_6 ((cfg0.slots t 6).cast nbuf0_6)
abbrev sqStg (t : Fin cfg0.N) : Memref sig .tc .vmem S1x256 .f32 := win0_7.stage (cfg0.slots t 7)
abbrev sqStg_whole (t : Fin cfg0.N) : (sqStg t).IsWhole := hstage0_7 ((cfg0.slots t 7).cast nbuf0_7)

abbrev accSumM : Memref sig .tc .vmem S1x256 .f32 := Memref.whole cc0_scratch0
abbrev accSqM : Memref sig .tc .vmem S1x256 .f32 := Memref.whole cc0_scratch1
abbrev rowView : View sig .tc .vmem S1x256 .f32 := accSumM.view

theorem PhiA_split (c : Dev nD) :
    (Pipeline.ΦA spec0 c : sProp 𝕄)
      = iprop(iprop(iprop((∃ d, owns (c : Thread nD τ) accSumM fullShare d) ∗ (∃ d, owns (c : Thread nD τ) accSqM fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [accSumM, accSqM, owns_whole]; try rfl

theorem bodyAt_eq (t : Fin cfg0.N) : bodyAt0 (F := F) t = cc0__combine_linear_stats_kernel (grid0.coords t) (xStg t) (xStg_whole t) (aggrStg t) (aggrStg_whole t) (scaleStg t) (scaleStg_whole t) (wStg t) (wStg_whole t) (biasStg t) (biasStg_whole t) (linStg t) (linStg_whole t) (sumStg t) (sumStg_whole t) (sqStg t) (sqStg_whole t) accSumM (Memref.isWhole_whole _) accSqM (Memref.isWhole_whole _) := rfl

abbrev xBlk (c : Dev nD) (t : Fin cfg0.N) : Vec F S2000x256 .f32 := iblk0 V c 0 t
abbrev aggrBlk (c : Dev nD) (t : Fin cfg0.N) : Vec F S2000x256 .f32 := iblk0 V c 1 t
abbrev scaleBlk (c : Dev nD) (t : Fin cfg0.N) : Vec F S1x256 .f32 := iblk0 V c 2 t
abbrev wBlk (c : Dev nD) (t : Fin cfg0.N) : Vec F S256x256 .f32 := iblk0 V c 3 t
abbrev biasBlk (c : Dev nD) (t : Fin cfg0.N) : Vec F S1x256 .f32 := iblk0 V c 4 t

theorem first_of (t : Fin cfg0.N) (h : t.val = 0) : atFirst (grid0.coords t) := (atFirst_iff t).mpr h
theorem notFirst_of (t : Fin cfg0.N) (h : t.val ≠ 0) : ¬atFirst (grid0.coords t) := fun hf => h ((atFirst_iff t).mp hf)
theorem last_of (t : Fin cfg0.N) (h : t.val = 24) : atLast (grid0.coords t) := (atLast_iff t).mpr h
theorem notLast_of (t : Fin cfg0.N) (h : t.val ≠ 24) : ¬atLast (grid0.coords t) := fun hl => h ((atLast_iff t).mp hl)

abbrev Outs (F : FTy → Type) [FloatOps F] : Type :=
  Vec F S2000x256 .f32 × Vec F S1x256 .f32 × Vec F S1x256 .f32 × Vec F S1x256 .f32 × Vec F S1x256 .f32

def unread : Vec F S1x256 .f32 := rowView.read (Elt F) rowView.junk

-- The three runs on the operands of point t.
def firstAt (c : Dev nD) (t : Fin cfg0.N) (h0 : t.val = 0) :=
  runFirst c (grid0.coords t) (xStg t) (xStg_whole t) (aggrStg t) (aggrStg_whole t) (scaleStg t) (scaleStg_whole t) (wStg t) (wStg_whole t) (biasStg t) (biasStg_whole t) (linStg t) (linStg_whole t) (sumStg t) (sumStg_whole t) (sqStg t) (sqStg_whole t) accSumM (Memref.isWhole_whole _) accSqM (Memref.isWhole_whole _) (xBlk V c t) (aggrBlk V c t) (scaleBlk V c t) (wBlk V c t) (biasBlk V c t) (first_of t h0) (notLast_of t (by omega))
def midAt (c : Dev nD) (t : Fin cfg0.N) (h0 : t.val ≠ 0) (h24 : t.val ≠ 24) (p p2 : Vec F S1x256 .f32) :=
  runMid c (grid0.coords t) (xStg t) (xStg_whole t) (aggrStg t) (aggrStg_whole t) (scaleStg t) (scaleStg_whole t) (wStg t) (wStg_whole t) (biasStg t) (biasStg_whole t) (linStg t) (linStg_whole t) (sumStg t) (sumStg_whole t) (sqStg t) (sqStg_whole t) accSumM (Memref.isWhole_whole _) accSqM (Memref.isWhole_whole _) (xBlk V c t) (aggrBlk V c t) (scaleBlk V c t) (wBlk V c t) (biasBlk V c t) (notFirst_of t h0) (notLast_of t h24) p p2
def lastAt (c : Dev nD) (t : Fin cfg0.N) (h24 : t.val = 24) (p p2 : Vec F S1x256 .f32) :=
  runLast c (grid0.coords t) (xStg t) (xStg_whole t) (aggrStg t) (aggrStg_whole t) (scaleStg t) (scaleStg_whole t) (wStg t) (wStg_whole t) (biasStg t) (biasStg_whole t) (linStg t) (linStg_whole t) (sumStg t) (sumStg_whole t) (sqStg t) (sqStg_whole t) accSumM (Memref.isWhole_whole _) accSqM (Memref.isWhole_whole _) (xBlk V c t) (aggrBlk V c t) (scaleBlk V c t) (wBlk V c t) (biasBlk V c t) (notFirst_of t (by omega)) (last_of t h24) p p2

def leftFirst (c : Dev nD) (t : Fin cfg0.N) (h0 : t.val = 0) : Outs F :=
  leaves (firstAt V c t h0).1 (firstAt V c t h0).2.1 (firstAt V c t h0).2.2.1 unread
def leftMid (c : Dev nD) (t : Fin cfg0.N) (h0 : t.val ≠ 0) (h24 : t.val ≠ 24) (p p2 : Vec F S1x256 .f32) : Outs F :=
  leaves (midAt V c t h0 h24 p p2).1 (midAt V c t h0 h24 p p2).2.1 (midAt V c t h0 h24 p p2).2.2.1 unread
def leftLast (c : Dev nD) (t : Fin cfg0.N) (h24 : t.val = 24) (p p2 : Vec F S1x256 .f32) : Outs F :=
  leavesLast (lastAt V c t h24 p p2).1 (lastAt V c t h24 p p2).2.1 (lastAt V c t h24 p p2).2.2.1 (lastAt V c t h24 p p2).2.2.2.1 (lastAt V c t h24 p p2).2.2.2.2.1

def outsAt (c : Dev nD) : (n : ℕ) → n < cfg0.N → Outs F
  | 0, hn => leftFirst V c ⟨0, hn⟩ rfl
  | n + 1, hn =>
    if h24 : n + 1 = 24 then
      leftLast V c ⟨n + 1, hn⟩ h24 (outsAt c n (Nat.lt_of_succ_lt hn)).2.2.2.1 (outsAt c n (Nat.lt_of_succ_lt hn)).2.2.2.2
    else
      leftMid V c ⟨n + 1, hn⟩ (Nat.succ_ne_zero n) h24 (outsAt c n (Nat.lt_of_succ_lt hn)).2.2.2.1 (outsAt c n (Nat.lt_of_succ_lt hn)).2.2.2.2

theorem outsAt_first (c : Dev nD) (t : Fin cfg0.N) (h0 : t.val = 0) : outsAt V c t.val t.isLt = leftFirst V c t h0 := by
  obtain ⟨n, hn⟩ := t
  cases n with
  | zero => rfl
  | succ n => exact absurd h0 (Nat.succ_ne_zero n)

theorem outsAt_mid (c : Dev nD) (t : Fin cfg0.N) (h0 : t.val ≠ 0) (h24 : t.val ≠ 24) :
    outsAt V c t.val t.isLt = leftMid V c t h0 h24 (outsAt V c (t.val - 1) (Nat.lt_of_le_of_lt (Nat.sub_le _ _) t.isLt)).2.2.2.1 (outsAt V c (t.val - 1) (Nat.lt_of_le_of_lt (Nat.sub_le _ _) t.isLt)).2.2.2.2 := by
  obtain ⟨n, hn⟩ := t
  cases n with
  | zero => exact absurd rfl h0
  | succ n => exact (dif_neg h24).trans rfl

theorem outsAt_last (c : Dev nD) (t : Fin cfg0.N) (h24 : t.val = 24) :
    outsAt V c t.val t.isLt = leftLast V c t h24 (outsAt V c (t.val - 1) (Nat.lt_of_le_of_lt (Nat.sub_le _ _) t.isLt)).2.2.2.1 (outsAt V c (t.val - 1) (Nat.lt_of_le_of_lt (Nat.sub_le _ _) t.isLt)).2.2.2.2 := by
  obtain ⟨n, hn⟩ := t
  cases n with
  | zero => exact absurd (show (0 : ℕ) = 24 from h24) (by omega)
  | succ n => exact (dif_pos h24).trans rfl

def PhiS (c : Dev nD) : (n : ℕ) → n ≤ cfg0.N → sProp 𝕄
  | 0, _ => Pipeline.ΦA spec0 c
  | n + 1, hn => iprop(iprop(iprop(owns (c : Thread nD τ) accSumM fullShare (outsAt V c n hn).2.2.2.1 ∗ owns (c : Thread nD τ) accSqM fullShare (outsAt V c n hn).2.2.2.2)
      ∗ Pipeline.scopedRestBut (Ix := Unit) (Name := ℕ) (U := UR sig nD τ) (Lvl := ℕ) (Val := Elt F) spec0 c [cc0_scratch0, cc0_scratch1]) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(iprop(owns (c : Thread nD τ) accSumM fullShare (outsAt V c n hn).2.2.2.1 ∗ owns (c : Thread nD τ) accSqM fullShare (outsAt V c n hn).2.2.2.2)
      ∗ Pipeline.scopedRestBut (Ix := Unit) (Name := ℕ) (U := UR sig nD τ) (Lvl := ℕ) (Val := Elt F) spec0 c [cc0_scratch0, cc0_scratch1]) ∗ (∃ r, prngReg c r)) := rfl

theorem PhiS_pos (c : Dev nD) (n : ℕ) (h : n ≤ cfg0.N) (hz : n ≠ 0) :
    PhiS V c n h = iprop(iprop(iprop(owns (c : Thread nD τ) accSumM fullShare (outsAt V c (n - 1) (by omega)).2.2.2.1 ∗ owns (c : Thread nD τ) accSqM fullShare (outsAt V c (n - 1) (by omega)).2.2.2.2)
      ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

end Reg0

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (Reg0.outsAt V c t.val t.isLt).1
    | ⟨6, _⟩ => (Reg0.outsAt V c t.val t.isLt).2.1
    | ⟨7, _⟩ => (Reg0.outsAt V c t.val t.isLt).2.2.1
  Φ t := Reg0.PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem share0 (c : Dev nD) (w : Fin cfg0.W) : (dat0 V c).q w = fullShare := rfl

theorem owed0 (c : Dev nD) (t : Fin (cfg0.N + 1)) : (dat0 V c).owed t = 0 := rfl

theorem recorded0 (c : Dev nD) (t : Fin (cfg0.N + 1)) : (dat0 V c).recorded t = Set.univ := rfl

namespace Reg0

theorem Phi_castSucc (c : Dev nD) (t : Fin cfg0.N) : (dat0 V c).Φ t.castSucc = PhiS V c t.val (Nat.le_of_lt t.isLt) := by
  dsimp only [dat0]; simp only [Fin.coe_castSucc]

theorem after_x (c : Dev nD) (t : Fin cfg0.N) : (dat0 V c).after 0 t = iblk0 V c 0 t := by dsimp only [dat0]
theorem after_aggr (c : Dev nD) (t : Fin cfg0.N) : (dat0 V c).after 1 t = iblk0 V c 1 t := by dsimp only [dat0]
theorem after_scale (c : Dev nD) (t : Fin cfg0.N) : (dat0 V c).after 2 t = iblk0 V c 2 t := by dsimp only [dat0]
theorem after_w (c : Dev nD) (t : Fin cfg0.N) : (dat0 V c).after 3 t = iblk0 V c 3 t := by dsimp only [dat0]
theorem after_bias (c : Dev nD) (t : Fin cfg0.N) : (dat0 V c).after 4 t = iblk0 V c 4 t := by dsimp only [dat0]
theorem after_lin (c : Dev nD) (t : Fin cfg0.N) : (dat0 V c).after 5 t = (outsAt V c t.val t.isLt).1 := by dsimp only [dat0]
theorem after_sum (c : Dev nD) (t : Fin cfg0.N) : (dat0 V c).after 6 t = (outsAt V c t.val t.isLt).2.1 := by dsimp only [dat0]
theorem after_sq (c : Dev nD) (t : Fin cfg0.N) : (dat0 V c).after 7 t = (outsAt V c t.val t.isLt).2.2.1 := by dsimp only [dat0]

theorem before_x (c : Dev nD) (t : Fin cfg0.N) (d) : (dat0 V c).before 0 t d = iblk0 V c 0 t :=
  ((dat0 V c).before_in_eq_fetched 0 rfl (fun _ => rfl) (fun _ _ _ => rfl)
      (fun t => by rw [after_x]; unfold Dat.blockOf iblk0; rw [A_eq0]; try rfl) t d).trans
    (by unfold Dat.fetched Dat.blockOf iblk0; rw [A_eq0]; try rfl)
theorem before_aggr (c : Dev nD) (t : Fin cfg0.N) (d) : (dat0 V c).before 1 t d = iblk0 V c 1 t :=
  ((dat0 V c).before_in_eq_fetched 1 rfl (fun _ => rfl) (fun _ _ _ => rfl)
      (fun t => by rw [after_aggr]; unfold Dat.blockOf iblk0; rw [A_eq0]; try rfl) t d).trans
    (by unfold Dat.fetched Dat.blockOf iblk0; rw [A_eq0]; try rfl)
theorem before_scale (c : Dev nD) (t : Fin cfg0.N) (d) : (dat0 V c).before 2 t d = iblk0 V c 2 t :=
  ((dat0 V c).before_in_eq_fetched 2 rfl (fun _ => rfl) (fun _ _ _ => rfl)
      (fun t => by rw [after_scale]; unfold Dat.blockOf iblk0; rw [A_eq0]; try rfl) t d).trans
    (by unfold Dat.fetched Dat.blockOf iblk0; rw [A_eq0]; try rfl)
theorem before_w (c : Dev nD) (t : Fin cfg0.N) (d) : (dat0 V c).before 3 t d = iblk0 V c 3 t :=
  ((dat0 V c).before_in_eq_fetched 3 rfl (fun _ => rfl) (fun _ _ _ => rfl)
      (fun t => by rw [after_w]; unfold Dat.blockOf iblk0; rw [A_eq0]; try rfl) t d).trans
    (by unfold Dat.fetched Dat.blockOf iblk0; rw [A_eq0]; try rfl)
theorem before_bias (c : Dev nD) (t : Fin cfg0.N) (d) : (dat0 V c).before 4 t d = iblk0 V c 4 t :=
  ((dat0 V c).before_in_eq_fetched 4 rfl (fun _ => rfl) (fun _ _ _ => rfl)
      (fun t => by rw [after_bias]; unfold Dat.blockOf iblk0; rw [A_eq0]; try rfl) t d).trans
    (by unfold Dat.fetched Dat.blockOf iblk0; rw [A_eq0]; try rfl)

theorem leaves_x (c : Dev nD) (t : Fin cfg0.N) : (dat0 V c).leavesExact 0 t = owns (c : Thread nD τ) (xStg t) fullShare (iblk0 V c 0 t) := by
  rw [← after_x V c t]
theorem leaves_aggr (c : Dev nD) (t : Fin cfg0.N) : (dat0 V c).leavesExact 1 t = owns (c : Thread nD τ) (aggrStg t) fullShare (iblk0 V c 1 t) := by
  rw [← after_aggr V c t]
theorem leaves_scale (c : Dev nD) (t : Fin cfg0.N) : (dat0 V c).leavesExact 2 t = owns (c : Thread nD τ) (scaleStg t) fullShare (iblk0 V c 2 t) := by
  rw [← after_scale V c t]
theorem leaves_w (c : Dev nD) (t : Fin cfg0.N) : (dat0 V c).leavesExact 3 t = owns (c : Thread nD τ) (wStg t) fullShare (iblk0 V c 3 t) := by
  rw [← after_w V c t]
theorem leaves_bias (c : Dev nD) (t : Fin cfg0.N) : (dat0 V c).leavesExact 4 t = owns (c : Thread nD τ) (biasStg t) fullShare (iblk0 V c 4 t) := by
  rw [← after_bias V c t]
theorem leaves_lin (c : Dev nD) (t : Fin cfg0.N) : (dat0 V c).leavesExact 5 t = owns (c : Thread nD τ) (linStg t) fullShare (outsAt V c t.val t.isLt).1 := by
  rw [← after_lin V c t]

def bodyPre (c : Dev nD) (t : Fin cfg0.N) : sProp 𝕄 :=
  iprop((dat0 V c).Φ t.castSucc ∗ (dat0 V c).owesAt () t.castSucc
    ∗ (∃ d, owns (c : Thread nD τ) (xStg t) fullShare ((dat0 V c).before 0 t d))
    ∗ (∃ d, owns (c : Thread nD τ) (aggrStg t) fullShare ((dat0 V c).before 1 t d))
    ∗ (∃ d, owns (c : Thread nD τ) (scaleStg t) fullShare ((dat0 V c).before 2 t d))
    ∗ (∃ d, owns (c : Thread nD τ) (wStg t) fullShare ((dat0 V c).before 3 t d))
    ∗ (∃ d, owns (c : Thread nD τ) (biasStg t) fullShare ((dat0 V c).before 4 t d))
    ∗ (∃ d, owns (c : Thread nD τ) (linStg t) fullShare ((dat0 V c).before 5 t d))
    ∗ (∃ d, owns (c : Thread nD τ) (sumStg t) fullShare ((dat0 V c).before 6 t d))
    ∗ (∃ d, owns (c : Thread nD τ) (sqStg t) fullShare ((dat0 V c).before 7 t d)))

def bodyPost (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t ∗ (dat0 V c).leavesExact 4 t ∗ (dat0 V c).leavesExact 5 t ∗ (dat0 V c).leavesExact 6 t ∗ (dat0 V c).leavesExact 7 t)

set_option maxHeartbeats 4800000 in
theorem sound_body (c : Dev nD) (t : Fin cfg0.N) :
    bodyPre V c t ⊢ wp frame (wpE (defs₀ (F := F)) Variants.none c none) Set.univ (bodyAt0 t) (fun _ => bodyPost V c t) := by
  unfold bodyPre bodyPost; rw [bodyAt_eq]
  simp only [before_x, before_aggr, before_scale, before_w, before_bias]
  rw [show (dat0 V c).owesAt () t.succ = (dat0 V c).owesAt () t.castSucc from rfl]
  rw [show (dat0 V c).Φ t.succ = PhiS V c (t.val + 1) t.isLt from rfl, PhiS_succ]
  rw [leaves_x, leaves_aggr, leaves_scale, leaves_w, leaves_bias, leaves_lin]
  have hN : t.val < 25 := lt_of_lt_of_eq t.isLt (show cfg0.N = 25 from N_0)
  by_cases h0 : t.val = 0
  · rw [Dat.leavesExact_idle (dat0 V c) 6 t (sum_idle t (notLast_of t (by omega))) (sum_noFlush t (notLast_of t (by omega)))]
    rw [Dat.leavesExact_idle (dat0 V c) 7 t (sq_idle t (notLast_of t (by omega))) (sq_noFlush t (notLast_of t (by omega)))]
    rw [outsAt_first V c t h0]
    unfold leftFirst leaves; dsimp only
    rw [Phi_castSucc V c t, PhiS_zero V c _ _ h0, PhiA_split]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((firstAt V c t h0).2.2.2 _ _ Set.univ _)
    iframe H0 H1 H2 H3 H4
    isplitl [H5]; · iexists _; iexact H5
    isplitl [H6]; · iexact H6
    isplitl [H7]; · iexact H7
    isplitl [HS0]; · iexact HS0
    isplitl [HS1]; · iexact HS1
    iintro ⟨H0, H1, H2, H3, H4, H5, H6, H7, HS0, HS1⟩
    isplitl [HS0 HS1 Hrest Hg]
    · isplitl [HS0 HS1 Hrest]
      · isplitl [HS0 HS1]
        · isplitl [HS0]
          · iapply owns_canon _ _ (firstAt V c t h0).2.1 (first_cover ..).2.1; iexact HS0
          iapply owns_canon _ _ (firstAt V c t h0).2.2.1 (first_cover ..).2.2; iexact HS1
        iexact Hrest
      iexact Hg
    iframe Ho H0 H1 H2 H3 H4
    isplitl [H5]
    · iapply owns_canon _ _ (firstAt V c t h0).1 (first_cover ..).1; iexact H5
    isplitl [H6]; · iexists _; iexact H6
    iexists _; iexact H7
  · by_cases h24 : t.val = 24
    · rw [show (dat0 V c).leavesExact 6 t = owns (c : Thread nD τ) (sumStg t) fullShare ((dat0 V c).after 6 t) from by
        unfold Dat.leavesExact; rw [sum_live t (last_of t h24)], after_sum]
      rw [show (dat0 V c).leavesExact 7 t = owns (c : Thread nD τ) (sqStg t) fullShare ((dat0 V c).after 7 t) from by
        unfold Dat.leavesExact; rw [sq_live t (last_of t h24)], after_sq]
      rw [outsAt_last V c t h24]
      unfold leftLast leavesLast; dsimp only
      rw [Phi_castSucc V c t, PhiS_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((lastAt V c t h24 _ _).2.2.2.2.2 Set.univ _)
      iframe H0 H1 H2 H3 H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, H5, H6, H7, HS0, HS1⟩
      isplitl [HS0 HS1 Hrest Hg]
      · isplitl [HS0 HS1 Hrest]
        · isplitl [HS0 HS1]
          · isplitl [HS0]
            · iapply owns_canon _ _ (lastAt V c t h24 _ _).2.2.2.1 (last_cover ..).2.2.2.1; iexact HS0
            iapply owns_canon _ _ (lastAt V c t h24 _ _).2.2.2.2.1 (last_cover ..).2.2.2.2; iexact HS1
          iexact Hrest
        iexact Hg
      iframe Ho H0 H1 H2 H3 H4
      isplitl [H5]
      · iapply owns_canon _ _ (lastAt V c t h24 _ _).1 (last_cover ..).1; iexact H5
      isplitl [H6]
      · iapply owns_canon _ _ (lastAt V c t h24 _ _).2.1 (last_cover ..).2.1; iexact H6
      iapply owns_canon _ _ (lastAt V c t h24 _ _).2.2.1 (last_cover ..).2.2.1; iexact H7
    · rw [Dat.leavesExact_idle (dat0 V c) 6 t (sum_idle t (notLast_of t h24)) (sum_noFlush t (notLast_of t h24))]
      rw [Dat.leavesExact_idle (dat0 V c) 7 t (sq_idle t (notLast_of t h24)) (sq_noFlush t (notLast_of t h24))]
      rw [outsAt_mid V c t h0 h24]
      unfold leftMid leaves; dsimp only
      rw [Phi_castSucc V c t, PhiS_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((midAt V c t h0 h24 _ _).2.2.2 _ _ Set.univ _)
      iframe H0 H1 H2 H3 H4
      isplitl [H5]; · iexists _; iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 Hrest Hg]
      · isplitl [HS0 HS1 Hrest]
        · isplitl [HS0 HS1]
          · isplitl [HS0]
            · iapply owns_canon _ _ (midAt V c t h0 h24 _ _).2.1 (mid_cover ..).2.1; iexact HS0
            iapply owns_canon _ _ (midAt V c t h0 h24 _ _).2.2.1 (mid_cover ..).2.2; iexact HS1
          iexact Hrest
        iexact Hg
      iframe Ho H0 H1 H2 H3 H4
      isplitl [H5]
      · iapply owns_canon _ _ (midAt V c t h0 h24 _ _).1 (mid_cover ..).1; iexact H5
      isplitl [H6]; · iexists _; iexact H6
      iexists _; iexact H7

end Reg0

theorem body_obligation0 (c : Dev nD) : BodyObligation (dat0 (F := F) V c) (defs₀ (F := F)) Variants.none () Set.univ := fun t => by
  rw [bigSep_W0, bigSep_W0]
  exact Reg0.sound_body V c t

theorem hin0 (c : Dev nD) : Pipeline.ΦA spec0 c ⊢ (dat0 V c).Φ 0 := by
  rw [show (dat0 V c).Φ 0 = Reg0.PhiS V c 0 (Nat.zero_le _) from rfl, Reg0.PhiS_zero V c 0 _ rfl]
  try exact Idealize.SL.BI.Entails.refl _

namespace Reg0

theorem Phi_out (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA_split]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg
end Reg0

theorem hout0 (c : Dev nD) : (dat0 V c).Φ (Fin.last cfg0.N) ⊢ Pipeline.ΦA spec0 c :=
  Reg0.Phi_out V c _ (by rw [Fin.val_last]; have : cfg0.N = 25 := N_0; omega)

end Cert.KernelIdeal.Hand

end
-- ==== Proof.KI.Body1.lean ====
import proofs.«422945_j10866267259114_2_alg».proof.Proof.Gen.KernelIdeal.Skeleton
import Idealize.ShloMosaic.Lib.Pipeline.FrameBody
import Idealize.ShloMosaic.Lib.Tactic

noncomputable section

namespace Cert.KernelIdeal.Hand.Body1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

abbrev rowsAll : Rect S5000x256 := Rect.unit (s := S5000x256) ![0, 0] S5000x256.size inb_S5000x256_S5000x256_0_0
abbrev rowAll : Rect S1x256 := Rect.unit (s := S1x256) ![0, 0] S1x256.size inb_S1x256_S1x256_0_0
abbrev weightAll : Rect S256x256 := Rect.unit (s := S256x256) ![0, 0] S256x256.size inb_S256x256_S256x256_0_0

/-- What the body's one store leaves in the output block, from the input blocks in window order. -/
def bnReluLinear (h : Vec F S5000x256 .f32) (mu var g bt : Vec F S1x256 .f32) (W : Vec F S256x256 .f32)
    (b : Vec F S1x256 .f32) : Vec F S5000x256 .f32 :=
  View.canon [⟨rowsAll, k1_pay1 (View.ld h rowsAll) (View.ld g rowAll) (View.ld mu rowAll) (View.ld var rowAll)
    (View.ld bt rowAll) (View.ld W weightAll) (View.ld b rowAll)⟩]

/-- The kernel's second call has the same body as its first. -/
theorem body3_eq : @cc3__bn_relu_linear_kernel F _ = @cc1__bn_relu_linear_kernel F _ := rfl

set_option maxHeartbeats 1000000 in
/-- The body (`k`, either call's) on whole memrefs: the inputs come back as they were, the output holds `bnReluLinear` of them. -/
theorem kernel_runs {k} (hk : k = @cc1__bn_relu_linear_kernel F _) (c : Dev nD) (E : Set ℕ) {i : grid1.Coords}
    {a1 : Memref sig .tc .vmem S5000x256 .f32} {w1 : a1.IsWhole} {a2 : Memref sig .tc .vmem S1x256 .f32} {w2 : a2.IsWhole}
    {a3 : Memref sig .tc .vmem S1x256 .f32} {w3 : a3.IsWhole} {a4 : Memref sig .tc .vmem S1x256 .f32} {w4 : a4.IsWhole}
    {a5 : Memref sig .tc .vmem S1x256 .f32} {w5 : a5.IsWhole} {a6 : Memref sig .tc .vmem S256x256 .f32} {w6 : a6.IsWhole}
    {a7 : Memref sig .tc .vmem S1x256 .f32} {w7 : a7.IsWhole} {a8 : Memref sig .tc .vmem S5000x256 .f32} {w8 : a8.IsWhole}
    (h : Vec F S5000x256 .f32) (mu var g bt : Vec F S1x256 .f32) (W : Vec F S256x256 .f32) (b : Vec F S1x256 .f32)
    {K : PUnit → sProp 𝕄} :
    iprop(owns c.tc a1 fullShare h ∗ owns c.tc a2 fullShare mu ∗ owns c.tc a3 fullShare var
        ∗ owns c.tc a4 fullShare g ∗ owns c.tc a5 fullShare bt ∗ owns c.tc a6 fullShare W
        ∗ owns c.tc a7 fullShare b ∗ (∃ d, owns c.tc a8 fullShare d)
        ∗ (iprop(owns c.tc a1 fullShare h ∗ owns c.tc a2 fullShare mu ∗ owns c.tc a3 fullShare var
            ∗ owns c.tc a4 fullShare g ∗ owns c.tc a5 fullShare bt ∗ owns c.tc a6 fullShare W
            ∗ owns c.tc a7 fullShare b ∗ owns c.tc a8 fullShare (bnReluLinear h mu var g bt W b)) -∗ K ⟨⟩))
      ⊢ wp frame (wpE (defs₀ (F := F)) Variants.none c none) E (k i a1 w1 a2 w2 a3 w3 a4 w4 a5 w5 a6 w6 a7 w7 a8 w8) K := by
  subst hk
  simp only [cc1__bn_relu_linear_kernel_eq_skeleton]; unfold cc1__bn_relu_linear_kernel_skel owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%d8, %f8, -, H8⟩, Hk⟩
  subst e1 e2 e3 e4 e5 e6 e7
  sl_exec
  sl_step
  iapply Hk
  isplitl [H1]; iexists f1; isplitr; ipureintro; rfl; iexact H1
  isplitl [H2]; iexists f2; isplitr; ipureintro; rfl; iexact H2
  isplitl [H3]; iexists f3; isplitr; ipureintro; rfl; iexact H3
  isplitl [H4]; iexists f4; isplitr; ipureintro; rfl; iexact H4
  isplitl [H5]; iexists f5; isplitr; ipureintro; rfl; iexact H5
  isplitl [H6]; iexists f6; isplitr; ipureintro; rfl; iexact H6
  isplitl [H7]; iexists f7; isplitr; ipureintro; rfl; iexact H7
  iexists _; isplitr; swap; iexact H8
  ipureintro; exact View.read_writes_eq_canon _ _ _ (View.cover_of_tiled _ S5000x256.size (by rfl))

end Cert.KernelIdeal.Hand.Body1

end
-- ==== Proof.KI.Reg1.lean ====
import proofs.«422945_j10866267259114_2_alg».proof.Proof.KI.Body1
import proofs.«422945_j10866267259114_2_alg».proof.Proof.Gen.KernelIdeal.Launch
import proofs.«422945_j10866267259114_2_alg».proof.Proof.Gen.KernelIdeal.Points
import Idealize.ShloMosaic.Lib.Pipeline.RegionsLoop
import Idealize.ShloMosaic.Lib.Pipeline.FrameSuffix
import Idealize.ShloMosaic.Lib.Ring

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data: arrays as found; the body leaves each input block in place and fills the output block; nothing else moves. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => Body1.bnReluLinear (iblk1 V c 0 t) (iblk1 V c 1 t) (iblk1 V c 2 t) (iblk1 V c 3 t) (iblk1 V c 4 t)
        (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := rfl

/-- An input window holds its block at every point, since the body leaves it in place. -/
theorem Reg1.before (c : Dev nD) (t : Fin cfg1.N) : ∀ w : Fin 8, w ≠ 7 → ∀ d, (dat1 V c).before w t d = (dat1 V c).after w t := by
  intro w; fin_cases w <;> intro h d <;> first
    | exact absurd rfl h
    | exact Dat.before_in_eq_fetched _ _ rfl (fun _ => rfl) (fun _ _ _ => rfl) (fun _ => rfl) t d

/-- At every point the inputs hold their blocks, so the body runs; the invariant and the debts pass through unread. -/
theorem body_obligation1 (c : Dev nD) : BodyObligation (dat1 (F := F) V c) (defs₀ (F := F)) Variants.none () Set.univ := fun t => by
  rw [bigSep_W1, bigSep_W1]
  simp (disch := decide) only [Reg1.before V c t]
  dsimp only [dat1, Dat.bound]
  change _ ⊢ wp _ _ _ (bodyAt1 t) _
  unfold bodyAt1
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply Body1.kernel_runs rfl c Set.univ (iblk1 V c 0 t) (iblk1 V c 1 t) (iblk1 V c 2 t) (iblk1 V c 3 t) (iblk1 V c 4 t)
    (iblk1 V c 5 t) (iblk1 V c 6 t)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro H
  isplitl [HΦ]; · iexact HΦ
  isplitl [Ho]; · iexact Ho
  iexact H

theorem hin1 (c : Dev nD) : Pipeline.ΦA spec1 c ⊢ (dat1 V c).Φ 0 := .rfl

theorem hout1 (c : Dev nD) : (dat1 V c).Φ (Fin.last cfg1.N) ⊢ Pipeline.ΦA spec1 c := .rfl

theorem share1 (c : Dev nD) (w : Fin cfg1.W) : (dat1 V c).q w = fullShare := rfl

theorem owed1 (c : Dev nD) (t : Fin (cfg1.N + 1)) : (dat1 V c).owed t = 0 := rfl

theorem recorded1 (c : Dev nD) (t : Fin (cfg1.N + 1)) : (dat1 V c).recorded t = Set.univ := rfl

end Cert.KernelIdeal.Hand

end
-- ==== Proof.KI.Reg2.lean ====
import proofs.«422945_j10866267259114_2_alg».proof.Proof.KI.Lin

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

open Lin

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

namespace Reg2

theorem atFirst_iff : ∀ t : Fin cfg2.N, atFirst (grid2.coords t) ↔ t.val = 0 :=
  (by decide +kernel : ∀ t : Fin grid2.N, atFirst (grid2.coords t) ↔ t.val = 0)
theorem atLast_iff : ∀ t : Fin cfg2.N, atLast (grid2.coords t) ↔ t.val = 24 :=
  (by decide +kernel : ∀ t : Fin grid2.N, atLast (grid2.coords t) ↔ t.val = 24)

theorem sum_idle : ∀ t : Fin cfg2.N, ¬atLast (grid2.coords t) → cfg2.idle 6 (grid2.coords t) = true := by decide +kernel

theorem sum_noFlush : ∀ t : Fin cfg2.N, ¬atLast (grid2.coords t) → (cfg2.win 6).flush t = false := by decide +kernel

theorem sum_live : ∀ t : Fin cfg2.N, atLast (grid2.coords t) → cfg2.idle 6 (grid2.coords t) = false := by decide +kernel

theorem sq_idle : ∀ t : Fin cfg2.N, ¬atLast (grid2.coords t) → cfg2.idle 7 (grid2.coords t) = true := by decide +kernel
theorem sq_noFlush : ∀ t : Fin cfg2.N, ¬atLast (grid2.coords t) → (cfg2.win 7).flush t = false := by decide +kernel
theorem sq_live : ∀ t : Fin cfg2.N, atLast (grid2.coords t) → cfg2.idle 7 (grid2.coords t) = false := by decide +kernel

abbrev xStg (t : Fin cfg2.N) : Memref sig .tc .vmem S2000x256 .f32 := win2_0.stage (cfg2.slots t 0)
abbrev xStg_whole (t : Fin cfg2.N) : (xStg t).IsWhole := hstage2_0 ((cfg2.slots t 0).cast nbuf2_0)
abbrev aggrStg (t : Fin cfg2.N) : Memref sig .tc .vmem S2000x256 .f32 := win2_1.stage (cfg2.slots t 1)
abbrev aggrStg_whole (t : Fin cfg2.N) : (aggrStg t).IsWhole := hstage2_1 ((cfg2.slots t 1).cast nbuf2_1)
abbrev scaleStg (t : Fin cfg2.N) : Memref sig .tc .vmem S1x256 .f32 := win2_2.stage (cfg2.slots t 2)
abbrev scaleStg_whole (t : Fin cfg2.N) : (scaleStg t).IsWhole := hstage2_2 ((cfg2.slots t 2).cast nbuf2_2)
abbrev wStg (t : Fin cfg2.N) : Memref sig .tc .vmem S256x256 .f32 := win2_3.stage (cfg2.slots t 3)
abbrev wStg_whole (t : Fin cfg2.N) : (wStg t).IsWhole := hstage2_3 ((cfg2.slots t 3).cast nbuf2_3)
abbrev biasStg (t : Fin cfg2.N) : Memref sig .tc .vmem S1x256 .f32 := win2_4.stage (cfg2.slots t 4)
abbrev biasStg_whole (t : Fin cfg2.N) : (biasStg t).IsWhole := hstage2_4 ((cfg2.slots t 4).cast nbuf2_4)
abbrev linStg (t : Fin cfg2.N) : Memref sig .tc .vmem S2000x256 .f32 := win2_5.stage (cfg2.slots t 5)
abbrev linStg_whole (t : Fin cfg2.N) : (linStg t).IsWhole := hstage2_5 ((cfg2.slots t 5).cast nbuf2_5)
abbrev sumStg (t : Fin cfg2.N) : Memref sig .tc .vmem S1x256 .f32 := win2_6.stage (cfg2.slots t 6)
abbrev sumStg_whole (t : Fin cfg2.N) : (sumStg t).IsWhole := hstage2_6 ((cfg2.slots t 6).cast nbuf2_6)
abbrev sqStg (t : Fin cfg2.N) : Memref sig .tc .vmem S1x256 .f32 := win2_7.stage (cfg2.slots t 7)
abbrev sqStg_whole (t : Fin cfg2.N) : (sqStg t).IsWhole := hstage2_7 ((cfg2.slots t 7).cast nbuf2_7)

abbrev accSumM : Memref sig .tc .vmem S1x256 .f32 := Memref.whole cc2_scratch0
abbrev accSqM : Memref sig .tc .vmem S1x256 .f32 := Memref.whole cc2_scratch1
abbrev rowView : View sig .tc .vmem S1x256 .f32 := accSumM.view

theorem PhiA_split (c : Dev nD) :
    (Pipeline.ΦA spec2 c : sProp 𝕄)
      = iprop(iprop(iprop((∃ d, owns (c : Thread nD τ) accSumM fullShare d) ∗ (∃ d, owns (c : Thread nD τ) accSqM fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [accSumM, accSqM, owns_whole]; try rfl

theorem bodyAt_eq (t : Fin cfg2.N) : bodyAt2 (F := F) t = cc0__combine_linear_stats_kernel (grid2.coords t) (xStg t) (xStg_whole t) (aggrStg t) (aggrStg_whole t) (scaleStg t) (scaleStg_whole t) (wStg t) (wStg_whole t) (biasStg t) (biasStg_whole t) (linStg t) (linStg_whole t) (sumStg t) (sumStg_whole t) (sqStg t) (sqStg_whole t) accSumM (Memref.isWhole_whole _) accSqM (Memref.isWhole_whole _) := rfl

abbrev xBlk (c : Dev nD) (t : Fin cfg2.N) : Vec F S2000x256 .f32 := iblk2 V c 0 t
abbrev aggrBlk (c : Dev nD) (t : Fin cfg2.N) : Vec F S2000x256 .f32 := iblk2 V c 1 t
abbrev scaleBlk (c : Dev nD) (t : Fin cfg2.N) : Vec F S1x256 .f32 := iblk2 V c 2 t
abbrev wBlk (c : Dev nD) (t : Fin cfg2.N) : Vec F S256x256 .f32 := iblk2 V c 3 t
abbrev biasBlk (c : Dev nD) (t : Fin cfg2.N) : Vec F S1x256 .f32 := iblk2 V c 4 t

theorem first_of (t : Fin cfg2.N) (h : t.val = 0) : atFirst (grid2.coords t) := (atFirst_iff t).mpr h
theorem notFirst_of (t : Fin cfg2.N) (h : t.val ≠ 0) : ¬atFirst (grid2.coords t) := fun hf => h ((atFirst_iff t).mp hf)
theorem last_of (t : Fin cfg2.N) (h : t.val = 24) : atLast (grid2.coords t) := (atLast_iff t).mpr h
theorem notLast_of (t : Fin cfg2.N) (h : t.val ≠ 24) : ¬atLast (grid2.coords t) := fun hl => h ((atLast_iff t).mp hl)

abbrev Outs (F : FTy → Type) [FloatOps F] : Type :=
  Vec F S2000x256 .f32 × Vec F S1x256 .f32 × Vec F S1x256 .f32 × Vec F S1x256 .f32 × Vec F S1x256 .f32

def unread : Vec F S1x256 .f32 := rowView.read (Elt F) rowView.junk

-- The three runs on the operands of point t.
def firstAt (c : Dev nD) (t : Fin cfg2.N) (h0 : t.val = 0) :=
  runFirst c (grid2.coords t) (xStg t) (xStg_whole t) (aggrStg t) (aggrStg_whole t) (scaleStg t) (scaleStg_whole t) (wStg t) (wStg_whole t) (biasStg t) (biasStg_whole t) (linStg t) (linStg_whole t) (sumStg t) (sumStg_whole t) (sqStg t) (sqStg_whole t) accSumM (Memref.isWhole_whole _) accSqM (Memref.isWhole_whole _) (xBlk V c t) (aggrBlk V c t) (scaleBlk V c t) (wBlk V c t) (biasBlk V c t) (first_of t h0) (notLast_of t (by omega))
def midAt (c : Dev nD) (t : Fin cfg2.N) (h0 : t.val ≠ 0) (h24 : t.val ≠ 24) (p p2 : Vec F S1x256 .f32) :=
  runMid c (grid2.coords t) (xStg t) (xStg_whole t) (aggrStg t) (aggrStg_whole t) (scaleStg t) (scaleStg_whole t) (wStg t) (wStg_whole t) (biasStg t) (biasStg_whole t) (linStg t) (linStg_whole t) (sumStg t) (sumStg_whole t) (sqStg t) (sqStg_whole t) accSumM (Memref.isWhole_whole _) accSqM (Memref.isWhole_whole _) (xBlk V c t) (aggrBlk V c t) (scaleBlk V c t) (wBlk V c t) (biasBlk V c t) (notFirst_of t h0) (notLast_of t h24) p p2
def lastAt (c : Dev nD) (t : Fin cfg2.N) (h24 : t.val = 24) (p p2 : Vec F S1x256 .f32) :=
  runLast c (grid2.coords t) (xStg t) (xStg_whole t) (aggrStg t) (aggrStg_whole t) (scaleStg t) (scaleStg_whole t) (wStg t) (wStg_whole t) (biasStg t) (biasStg_whole t) (linStg t) (linStg_whole t) (sumStg t) (sumStg_whole t) (sqStg t) (sqStg_whole t) accSumM (Memref.isWhole_whole _) accSqM (Memref.isWhole_whole _) (xBlk V c t) (aggrBlk V c t) (scaleBlk V c t) (wBlk V c t) (biasBlk V c t) (notFirst_of t (by omega)) (last_of t h24) p p2

def leftFirst (c : Dev nD) (t : Fin cfg2.N) (h0 : t.val = 0) : Outs F :=
  leaves (firstAt V c t h0).1 (firstAt V c t h0).2.1 (firstAt V c t h0).2.2.1 unread
def leftMid (c : Dev nD) (t : Fin cfg2.N) (h0 : t.val ≠ 0) (h24 : t.val ≠ 24) (p p2 : Vec F S1x256 .f32) : Outs F :=
  leaves (midAt V c t h0 h24 p p2).1 (midAt V c t h0 h24 p p2).2.1 (midAt V c t h0 h24 p p2).2.2.1 unread
def leftLast (c : Dev nD) (t : Fin cfg2.N) (h24 : t.val = 24) (p p2 : Vec F S1x256 .f32) : Outs F :=
  leavesLast (lastAt V c t h24 p p2).1 (lastAt V c t h24 p p2).2.1 (lastAt V c t h24 p p2).2.2.1 (lastAt V c t h24 p p2).2.2.2.1 (lastAt V c t h24 p p2).2.2.2.2.1

def outsAt (c : Dev nD) : (n : ℕ) → n < cfg2.N → Outs F
  | 0, hn => leftFirst V c ⟨0, hn⟩ rfl
  | n + 1, hn =>
    if h24 : n + 1 = 24 then
      leftLast V c ⟨n + 1, hn⟩ h24 (outsAt c n (Nat.lt_of_succ_lt hn)).2.2.2.1 (outsAt c n (Nat.lt_of_succ_lt hn)).2.2.2.2
    else
      leftMid V c ⟨n + 1, hn⟩ (Nat.succ_ne_zero n) h24 (outsAt c n (Nat.lt_of_succ_lt hn)).2.2.2.1 (outsAt c n (Nat.lt_of_succ_lt hn)).2.2.2.2

theorem outsAt_first (c : Dev nD) (t : Fin cfg2.N) (h0 : t.val = 0) : outsAt V c t.val t.isLt = leftFirst V c t h0 := by
  obtain ⟨n, hn⟩ := t
  cases n with
  | zero => rfl
  | succ n => exact absurd h0 (Nat.succ_ne_zero n)

theorem outsAt_mid (c : Dev nD) (t : Fin cfg2.N) (h0 : t.val ≠ 0) (h24 : t.val ≠ 24) :
    outsAt V c t.val t.isLt = leftMid V c t h0 h24 (outsAt V c (t.val - 1) (Nat.lt_of_le_of_lt (Nat.sub_le _ _) t.isLt)).2.2.2.1 (outsAt V c (t.val - 1) (Nat.lt_of_le_of_lt (Nat.sub_le _ _) t.isLt)).2.2.2.2 := by
  obtain ⟨n, hn⟩ := t
  cases n with
  | zero => exact absurd rfl h0
  | succ n => exact (dif_neg h24).trans rfl

theorem outsAt_last (c : Dev nD) (t : Fin cfg2.N) (h24 : t.val = 24) :
    outsAt V c t.val t.isLt = leftLast V c t h24 (outsAt V c (t.val - 1) (Nat.lt_of_le_of_lt (Nat.sub_le _ _) t.isLt)).2.2.2.1 (outsAt V c (t.val - 1) (Nat.lt_of_le_of_lt (Nat.sub_le _ _) t.isLt)).2.2.2.2 := by
  obtain ⟨n, hn⟩ := t
  cases n with
  | zero => exact absurd (show (0 : ℕ) = 24 from h24) (by omega)
  | succ n => exact (dif_pos h24).trans rfl

def PhiS (c : Dev nD) : (n : ℕ) → n ≤ cfg2.N → sProp 𝕄
  | 0, _ => Pipeline.ΦA spec2 c
  | n + 1, hn => iprop(iprop(iprop(owns (c : Thread nD τ) accSumM fullShare (outsAt V c n hn).2.2.2.1 ∗ owns (c : Thread nD τ) accSqM fullShare (outsAt V c n hn).2.2.2.2)
      ∗ Pipeline.scopedRestBut (Ix := Unit) (Name := ℕ) (U := UR sig nD τ) (Lvl := ℕ) (Val := Elt F) spec2 c [cc2_scratch0, cc2_scratch1]) ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(iprop(iprop(owns (c : Thread nD τ) accSumM fullShare (outsAt V c n hn).2.2.2.1 ∗ owns (c : Thread nD τ) accSqM fullShare (outsAt V c n hn).2.2.2.2)
      ∗ Pipeline.scopedRestBut (Ix := Unit) (Name := ℕ) (U := UR sig nD τ) (Lvl := ℕ) (Val := Elt F) spec2 c [cc2_scratch0, cc2_scratch1]) ∗ (∃ r, prngReg c r)) := rfl

theorem PhiS_pos (c : Dev nD) (n : ℕ) (h : n ≤ cfg2.N) (hz : n ≠ 0) :
    PhiS V c n h = iprop(iprop(iprop(owns (c : Thread nD τ) accSumM fullShare (outsAt V c (n - 1) (by omega)).2.2.2.1 ∗ owns (c : Thread nD τ) accSqM fullShare (outsAt V c (n - 1) (by omega)).2.2.2.2)
      ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact absurd rfl hz
  | succ n => rfl

end Reg2

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (Reg2.outsAt V c t.val t.isLt).1
    | ⟨6, _⟩ => (Reg2.outsAt V c t.val t.isLt).2.1
    | ⟨7, _⟩ => (Reg2.outsAt V c t.val t.isLt).2.2.1
  Φ t := Reg2.PhiS V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem share2 (c : Dev nD) (w : Fin cfg2.W) : (dat2 V c).q w = fullShare := rfl

theorem owed2 (c : Dev nD) (t : Fin (cfg2.N + 1)) : (dat2 V c).owed t = 0 := rfl

theorem recorded2 (c : Dev nD) (t : Fin (cfg2.N + 1)) : (dat2 V c).recorded t = Set.univ := rfl

namespace Reg2

theorem Phi_castSucc (c : Dev nD) (t : Fin cfg2.N) : (dat2 V c).Φ t.castSucc = PhiS V c t.val (Nat.le_of_lt t.isLt) := by
  dsimp only [dat2]; simp only [Fin.coe_castSucc]

theorem after_x (c : Dev nD) (t : Fin cfg2.N) : (dat2 V c).after 0 t = iblk2 V c 0 t := by dsimp only [dat2]
theorem after_aggr (c : Dev nD) (t : Fin cfg2.N) : (dat2 V c).after 1 t = iblk2 V c 1 t := by dsimp only [dat2]
theorem after_scale (c : Dev nD) (t : Fin cfg2.N) : (dat2 V c).after 2 t = iblk2 V c 2 t := by dsimp only [dat2]
theorem after_w (c : Dev nD) (t : Fin cfg2.N) : (dat2 V c).after 3 t = iblk2 V c 3 t := by dsimp only [dat2]
theorem after_bias (c : Dev nD) (t : Fin cfg2.N) : (dat2 V c).after 4 t = iblk2 V c 4 t := by dsimp only [dat2]
theorem after_lin (c : Dev nD) (t : Fin cfg2.N) : (dat2 V c).after 5 t = (outsAt V c t.val t.isLt).1 := by dsimp only [dat2]
theorem after_sum (c : Dev nD) (t : Fin cfg2.N) : (dat2 V c).after 6 t = (outsAt V c t.val t.isLt).2.1 := by dsimp only [dat2]
theorem after_sq (c : Dev nD) (t : Fin cfg2.N) : (dat2 V c).after 7 t = (outsAt V c t.val t.isLt).2.2.1 := by dsimp only [dat2]

theorem before_x (c : Dev nD) (t : Fin cfg2.N) (d) : (dat2 V c).before 0 t d = iblk2 V c 0 t :=
  ((dat2 V c).before_in_eq_fetched 0 rfl (fun _ => rfl) (fun _ _ _ => rfl)
      (fun t => by rw [after_x]; unfold Dat.blockOf iblk2; rw [A_eq2]; try rfl) t d).trans
    (by unfold Dat.fetched Dat.blockOf iblk2; rw [A_eq2]; try rfl)
theorem before_aggr (c : Dev nD) (t : Fin cfg2.N) (d) : (dat2 V c).before 1 t d = iblk2 V c 1 t :=
  ((dat2 V c).before_in_eq_fetched 1 rfl (fun _ => rfl) (fun _ _ _ => rfl)
      (fun t => by rw [after_aggr]; unfold Dat.blockOf iblk2; rw [A_eq2]; try rfl) t d).trans
    (by unfold Dat.fetched Dat.blockOf iblk2; rw [A_eq2]; try rfl)
theorem before_scale (c : Dev nD) (t : Fin cfg2.N) (d) : (dat2 V c).before 2 t d = iblk2 V c 2 t :=
  ((dat2 V c).before_in_eq_fetched 2 rfl (fun _ => rfl) (fun _ _ _ => rfl)
      (fun t => by rw [after_scale]; unfold Dat.blockOf iblk2; rw [A_eq2]; try rfl) t d).trans
    (by unfold Dat.fetched Dat.blockOf iblk2; rw [A_eq2]; try rfl)
theorem before_w (c : Dev nD) (t : Fin cfg2.N) (d) : (dat2 V c).before 3 t d = iblk2 V c 3 t :=
  ((dat2 V c).before_in_eq_fetched 3 rfl (fun _ => rfl) (fun _ _ _ => rfl)
      (fun t => by rw [after_w]; unfold Dat.blockOf iblk2; rw [A_eq2]; try rfl) t d).trans
    (by unfold Dat.fetched Dat.blockOf iblk2; rw [A_eq2]; try rfl)
theorem before_bias (c : Dev nD) (t : Fin cfg2.N) (d) : (dat2 V c).before 4 t d = iblk2 V c 4 t :=
  ((dat2 V c).before_in_eq_fetched 4 rfl (fun _ => rfl) (fun _ _ _ => rfl)
      (fun t => by rw [after_bias]; unfold Dat.blockOf iblk2; rw [A_eq2]; try rfl) t d).trans
    (by unfold Dat.fetched Dat.blockOf iblk2; rw [A_eq2]; try rfl)

theorem leaves_x (c : Dev nD) (t : Fin cfg2.N) : (dat2 V c).leavesExact 0 t = owns (c : Thread nD τ) (xStg t) fullShare (iblk2 V c 0 t) := by
  rw [← after_x V c t]
theorem leaves_aggr (c : Dev nD) (t : Fin cfg2.N) : (dat2 V c).leavesExact 1 t = owns (c : Thread nD τ) (aggrStg t) fullShare (iblk2 V c 1 t) := by
  rw [← after_aggr V c t]
theorem leaves_scale (c : Dev nD) (t : Fin cfg2.N) : (dat2 V c).leavesExact 2 t = owns (c : Thread nD τ) (scaleStg t) fullShare (iblk2 V c 2 t) := by
  rw [← after_scale V c t]
theorem leaves_w (c : Dev nD) (t : Fin cfg2.N) : (dat2 V c).leavesExact 3 t = owns (c : Thread nD τ) (wStg t) fullShare (iblk2 V c 3 t) := by
  rw [← after_w V c t]
theorem leaves_bias (c : Dev nD) (t : Fin cfg2.N) : (dat2 V c).leavesExact 4 t = owns (c : Thread nD τ) (biasStg t) fullShare (iblk2 V c 4 t) := by
  rw [← after_bias V c t]
theorem leaves_lin (c : Dev nD) (t : Fin cfg2.N) : (dat2 V c).leavesExact 5 t = owns (c : Thread nD τ) (linStg t) fullShare (outsAt V c t.val t.isLt).1 := by
  rw [← after_lin V c t]

def bodyPre (c : Dev nD) (t : Fin cfg2.N) : sProp 𝕄 :=
  iprop((dat2 V c).Φ t.castSucc ∗ (dat2 V c).owesAt () t.castSucc
    ∗ (∃ d, owns (c : Thread nD τ) (xStg t) fullShare ((dat2 V c).before 0 t d))
    ∗ (∃ d, owns (c : Thread nD τ) (aggrStg t) fullShare ((dat2 V c).before 1 t d))
    ∗ (∃ d, owns (c : Thread nD τ) (scaleStg t) fullShare ((dat2 V c).before 2 t d))
    ∗ (∃ d, owns (c : Thread nD τ) (wStg t) fullShare ((dat2 V c).before 3 t d))
    ∗ (∃ d, owns (c : Thread nD τ) (biasStg t) fullShare ((dat2 V c).before 4 t d))
    ∗ (∃ d, owns (c : Thread nD τ) (linStg t) fullShare ((dat2 V c).before 5 t d))
    ∗ (∃ d, owns (c : Thread nD τ) (sumStg t) fullShare ((dat2 V c).before 6 t d))
    ∗ (∃ d, owns (c : Thread nD τ) (sqStg t) fullShare ((dat2 V c).before 7 t d)))

def bodyPost (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t ∗ (dat2 V c).leavesExact 3 t ∗ (dat2 V c).leavesExact 4 t ∗ (dat2 V c).leavesExact 5 t ∗ (dat2 V c).leavesExact 6 t ∗ (dat2 V c).leavesExact 7 t)

set_option maxHeartbeats 4800000 in
theorem sound_body (c : Dev nD) (t : Fin cfg2.N) :
    bodyPre V c t ⊢ wp frame (wpE (defs₀ (F := F)) Variants.none c none) Set.univ (bodyAt2 t) (fun _ => bodyPost V c t) := by
  unfold bodyPre bodyPost; rw [bodyAt_eq]
  simp only [before_x, before_aggr, before_scale, before_w, before_bias]
  rw [show (dat2 V c).owesAt () t.succ = (dat2 V c).owesAt () t.castSucc from rfl]
  rw [show (dat2 V c).Φ t.succ = PhiS V c (t.val + 1) t.isLt from rfl, PhiS_succ]
  rw [leaves_x, leaves_aggr, leaves_scale, leaves_w, leaves_bias, leaves_lin]
  have hN : t.val < 25 := lt_of_lt_of_eq t.isLt (show cfg2.N = 25 from N_2)
  by_cases h0 : t.val = 0
  · rw [Dat.leavesExact_idle (dat2 V c) 6 t (sum_idle t (notLast_of t (by omega))) (sum_noFlush t (notLast_of t (by omega)))]
    rw [Dat.leavesExact_idle (dat2 V c) 7 t (sq_idle t (notLast_of t (by omega))) (sq_noFlush t (notLast_of t (by omega)))]
    rw [outsAt_first V c t h0]
    unfold leftFirst leaves; dsimp only
    rw [Phi_castSucc V c t, PhiS_zero V c _ _ h0, PhiA_split]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((firstAt V c t h0).2.2.2 _ _ Set.univ _)
    iframe H0 H1 H2 H3 H4
    isplitl [H5]; · iexists _; iexact H5
    isplitl [H6]; · iexact H6
    isplitl [H7]; · iexact H7
    isplitl [HS0]; · iexact HS0
    isplitl [HS1]; · iexact HS1
    iintro ⟨H0, H1, H2, H3, H4, H5, H6, H7, HS0, HS1⟩
    isplitl [HS0 HS1 Hrest Hg]
    · isplitl [HS0 HS1 Hrest]
      · isplitl [HS0 HS1]
        · isplitl [HS0]
          · iapply owns_canon _ _ (firstAt V c t h0).2.1 (first_cover ..).2.1; iexact HS0
          iapply owns_canon _ _ (firstAt V c t h0).2.2.1 (first_cover ..).2.2; iexact HS1
        iexact Hrest
      iexact Hg
    iframe Ho H0 H1 H2 H3 H4
    isplitl [H5]
    · iapply owns_canon _ _ (firstAt V c t h0).1 (first_cover ..).1; iexact H5
    isplitl [H6]; · iexists _; iexact H6
    iexists _; iexact H7
  · by_cases h24 : t.val = 24
    · rw [show (dat2 V c).leavesExact 6 t = owns (c : Thread nD τ) (sumStg t) fullShare ((dat2 V c).after 6 t) from by
        unfold Dat.leavesExact; rw [sum_live t (last_of t h24)], after_sum]
      rw [show (dat2 V c).leavesExact 7 t = owns (c : Thread nD τ) (sqStg t) fullShare ((dat2 V c).after 7 t) from by
        unfold Dat.leavesExact; rw [sq_live t (last_of t h24)], after_sq]
      rw [outsAt_last V c t h24]
      unfold leftLast leavesLast; dsimp only
      rw [Phi_castSucc V c t, PhiS_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((lastAt V c t h24 _ _).2.2.2.2.2 Set.univ _)
      iframe H0 H1 H2 H3 H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, H5, H6, H7, HS0, HS1⟩
      isplitl [HS0 HS1 Hrest Hg]
      · isplitl [HS0 HS1 Hrest]
        · isplitl [HS0 HS1]
          · isplitl [HS0]
            · iapply owns_canon _ _ (lastAt V c t h24 _ _).2.2.2.1 (last_cover ..).2.2.2.1; iexact HS0
            iapply owns_canon _ _ (lastAt V c t h24 _ _).2.2.2.2.1 (last_cover ..).2.2.2.2; iexact HS1
          iexact Hrest
        iexact Hg
      iframe Ho H0 H1 H2 H3 H4
      isplitl [H5]
      · iapply owns_canon _ _ (lastAt V c t h24 _ _).1 (last_cover ..).1; iexact H5
      isplitl [H6]
      · iapply owns_canon _ _ (lastAt V c t h24 _ _).2.1 (last_cover ..).2.1; iexact H6
      iapply owns_canon _ _ (lastAt V c t h24 _ _).2.2.1 (last_cover ..).2.2.1; iexact H7
    · rw [Dat.leavesExact_idle (dat2 V c) 6 t (sum_idle t (notLast_of t h24)) (sum_noFlush t (notLast_of t h24))]
      rw [Dat.leavesExact_idle (dat2 V c) 7 t (sq_idle t (notLast_of t h24)) (sq_noFlush t (notLast_of t h24))]
      rw [outsAt_mid V c t h0 h24]
      unfold leftMid leaves; dsimp only
      rw [Phi_castSucc V c t, PhiS_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((midAt V c t h0 h24 _ _).2.2.2 _ _ Set.univ _)
      iframe H0 H1 H2 H3 H4
      isplitl [H5]; · iexists _; iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 Hrest Hg]
      · isplitl [HS0 HS1 Hrest]
        · isplitl [HS0 HS1]
          · isplitl [HS0]
            · iapply owns_canon _ _ (midAt V c t h0 h24 _ _).2.1 (mid_cover ..).2.1; iexact HS0
            iapply owns_canon _ _ (midAt V c t h0 h24 _ _).2.2.1 (mid_cover ..).2.2; iexact HS1
          iexact Hrest
        iexact Hg
      iframe Ho H0 H1 H2 H3 H4
      isplitl [H5]
      · iapply owns_canon _ _ (midAt V c t h0 h24 _ _).1 (mid_cover ..).1; iexact H5
      isplitl [H6]; · iexists _; iexact H6
      iexists _; iexact H7

end Reg2

theorem body_obligation2 (c : Dev nD) : BodyObligation (dat2 (F := F) V c) (defs₀ (F := F)) Variants.none () Set.univ := fun t => by
  rw [bigSep_W2, bigSep_W2]
  exact Reg2.sound_body V c t

theorem hin2 (c : Dev nD) : Pipeline.ΦA spec2 c ⊢ (dat2 V c).Φ 0 := by
  rw [show (dat2 V c).Φ 0 = Reg2.PhiS V c 0 (Nat.zero_le _) from rfl, Reg2.PhiS_zero V c 0 _ rfl]
  try exact Idealize.SL.BI.Entails.refl _

namespace Reg2

theorem Phi_out (c : Dev nD) (t : Fin (cfg2.N + 1)) (ht : t.val ≠ 0) : (dat2 V c).Φ t ⊢ Pipeline.ΦA spec2 c := by
  rw [show (dat2 V c).Φ t = PhiS V c t.val (Nat.le_of_lt_succ t.isLt) from rfl, PhiS_pos V c _ _ ht, PhiA_split]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg
end Reg2

theorem hout2 (c : Dev nD) : (dat2 V c).Φ (Fin.last cfg2.N) ⊢ Pipeline.ΦA spec2 c :=
  Reg2.Phi_out V c _ (by rw [Fin.val_last]; have : cfg2.N = 25 := N_2; omega)

end Cert.KernelIdeal.Hand

end
-- ==== Proof.KI.Reg3.lean ====
import proofs.«422945_j10866267259114_2_alg».proof.Proof.KI.Body1
import proofs.«422945_j10866267259114_2_alg».proof.Proof.Gen.KernelIdeal.Launch
import proofs.«422945_j10866267259114_2_alg».proof.Proof.Gen.KernelIdeal.Points
import Idealize.ShloMosaic.Lib.Pipeline.RegionsLoop
import Idealize.ShloMosaic.Lib.Pipeline.FrameSuffix
import Idealize.ShloMosaic.Lib.Ring

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The proof data: arrays as found; the body leaves each input block in place and fills the output block; nothing else moves. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => Body1.bnReluLinear (iblk3 V c 0 t) (iblk3 V c 1 t) (iblk3 V c 2 t) (iblk3 V c 3 t) (iblk3 V c 4 t)
        (iblk3 V c 5 t) (iblk3 V c 6 t)
  Φ _ := Pipeline.ΦA spec3 c
  q _ := fullShare
  owed _ := 0

theorem A_eq3 (c : Dev nD) (w : Fin cfg3.W) : (dat3 V c).A w = V c (Pipeline.arrRef spec3 w) := rfl

/-- An input window holds its block at every point, since the body leaves it in place. -/
theorem Reg3.before (c : Dev nD) (t : Fin cfg3.N) : ∀ w : Fin 8, w ≠ 7 → ∀ d, (dat3 V c).before w t d = (dat3 V c).after w t := by
  intro w; fin_cases w <;> intro h d <;> first
    | exact absurd rfl h
    | exact Dat.before_in_eq_fetched _ _ rfl (fun _ => rfl) (fun _ _ _ => rfl) (fun _ => rfl) t d

/-- At every point the inputs hold their blocks, so the body runs; the invariant and the debts pass through unread. -/
theorem body_obligation3 (c : Dev nD) : BodyObligation (dat3 (F := F) V c) (defs₀ (F := F)) Variants.none () Set.univ := fun t => by
  rw [bigSep_W3, bigSep_W3]
  simp (disch := decide) only [Reg3.before V c t]
  dsimp only [dat3, Dat.bound]
  change _ ⊢ wp _ _ _ (bodyAt3 t) _
  unfold bodyAt3
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply Body1.kernel_runs Body1.body3_eq c Set.univ (iblk3 V c 0 t) (iblk3 V c 1 t) (iblk3 V c 2 t) (iblk3 V c 3 t) (iblk3 V c 4 t)
    (iblk3 V c 5 t) (iblk3 V c 6 t)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro H
  isplitl [HΦ]; · iexact HΦ
  isplitl [Ho]; · iexact Ho
  iexact H

theorem hin3 (c : Dev nD) : Pipeline.ΦA spec3 c ⊢ (dat3 V c).Φ 0 := .rfl

theorem hout3 (c : Dev nD) : (dat3 V c).Φ (Fin.last cfg3.N) ⊢ Pipeline.ΦA spec3 c := .rfl

theorem share3 (c : Dev nD) (w : Fin cfg3.W) : (dat3 V c).q w = fullShare := rfl

theorem owed3 (c : Dev nD) (t : Fin (cfg3.N + 1)) : (dat3 V c).owed t = 0 := rfl

theorem recorded3 (c : Dev nD) (t : Fin (cfg3.N + 1)) : (dat3 V c).recorded t = Set.univ := rfl

end Cert.KernelIdeal.Hand

end
-- ==== Proof.KI.Reg4.lean ====
import proofs.«422945_j10866267259114_2_alg».proof.Proof.Gen.KernelIdeal.Launch
import proofs.«422945_j10866267259114_2_alg».proof.Proof.Gen.KernelIdeal.Skeleton
import proofs.«422945_j10866267259114_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev atFirst4 (i : grid4.Coords) : Prop :=
  (Scalar.cmpi .ne (Scalar.extui (Scalar.cmpi .eq (BitVec.ofNat 32 (i 0).val) 0#32)) 0#32) = 1#1

theorem atFirst4_iff : ∀ t : Fin cfg4.N, atFirst4 (grid4.coords t) ↔ t.val = 0 :=
  (by decide +kernel : ∀ t : Fin grid4.N, atFirst4 (grid4.coords t) ↔ t.val = 0)

abbrev atLast4 (i : grid4.Coords) : Prop := k4_cond2 i = 1#1

theorem atLast4_iff : ∀ t : Fin cfg4.N, atLast4 (grid4.coords t) ↔ t.val = 24 :=
  (by decide +kernel : ∀ t : Fin grid4.N, atLast4 (grid4.coords t) ↔ t.val = 24)

theorem live4_0 : ∀ t : Fin cfg4.N, cfg4.idle 0 (grid4.coords t) = false := by decide +kernel
theorem live4_1 : ∀ t : Fin cfg4.N, cfg4.idle 1 (grid4.coords t) = false := by decide +kernel
theorem live4_2 : ∀ t : Fin cfg4.N, cfg4.idle 2 (grid4.coords t) = false := by decide +kernel
theorem live4_3 : ∀ t : Fin cfg4.N, cfg4.idle 3 (grid4.coords t) = false := by decide +kernel
theorem live4_4 : ∀ t : Fin cfg4.N, cfg4.idle 4 (grid4.coords t) = false := by decide +kernel
theorem live4_5 : ∀ t : Fin cfg4.N, cfg4.idle 5 (grid4.coords t) = false := by decide +kernel

theorem idle4_6 : ∀ t : Fin cfg4.N, ¬atLast4 (grid4.coords t) → cfg4.idle 6 (grid4.coords t) = true := by decide +kernel
theorem keep4_6 : ∀ t : Fin cfg4.N, ¬atLast4 (grid4.coords t) → (cfg4.win 6).flush t = false := by decide +kernel
theorem live4_6 : ∀ t : Fin cfg4.N, atLast4 (grid4.coords t) → cfg4.idle 6 (grid4.coords t) = false := by decide +kernel
theorem idle4_7 : ∀ t : Fin cfg4.N, ¬atLast4 (grid4.coords t) → cfg4.idle 7 (grid4.coords t) = true := by decide +kernel
theorem keep4_7 : ∀ t : Fin cfg4.N, ¬atLast4 (grid4.coords t) → (cfg4.win 7).flush t = false := by decide +kernel
theorem live4_7 : ∀ t : Fin cfg4.N, atLast4 (grid4.coords t) → cfg4.idle 7 (grid4.coords t) = false := by decide +kernel

abbrev ms4_0 (t : Fin cfg4.N) : Memref sig .tc .vmem S2000x256 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S2000x256 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S2000x256 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x256 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x256 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S2000x256 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S1x256 .f32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S1x256 .f32 := win4_7.stage (cfg4.slots t 7)
abbrev hs4_7 (t : Fin cfg4.N) : (ms4_7 t).IsWhole := hstage4_7 ((cfg4.slots t 7).cast nbuf4_7)

abbrev accSum4 : Memref sig .tc .vmem S1x256 .f32 := Memref.whole cc4_scratch0
abbrev accSq4 : Memref sig .tc .vmem S1x256 .f32 := Memref.whole cc4_scratch1

abbrev blkView4 : View sig .tc .vmem S2000x256 .f32 := (Memref.whole cc4_stg5_0 : Memref sig .tc .vmem S2000x256 .f32).view
abbrev rowView4 : View sig .tc .vmem S1x256 .f32 := accSum4.view

abbrev others4 (c : Dev nD) : sProp 𝕄 :=
  Pipeline.scopedRestBut (Ix := Unit) (Name := ℕ) (U := UR sig nD τ) (Lvl := ℕ) (Val := Elt F) spec4 c [cc4_scratch0, cc4_scratch1]

theorem PhiA4_eq (c : Dev nD) :
    (Pipeline.ΦA spec4 c : sProp 𝕄)
      = iprop(iprop(iprop((∃ d, owns (c : Thread nD τ) accSum4 fullShare d) ∗ (∃ d, owns (c : Thread nD τ) accSq4 fullShare d)) ∗ others4 c) ∗ (∃ r, prngReg c r)) := by
  unfold Pipeline.ΦA; rw [scopedRest4_split]; simp only [accSum4, accSq4, owns_whole]; try rfl

def blkLeft4 (L : List (View.Piece (Elt F) S2000x256 .f32)) : Vec F S2000x256 .f32 := blkView4.read (Elt F) (blkView4.writes (Elt F) blkView4.junk L)
def rowLeft4 (L : List (View.Piece (Elt F) S1x256 .f32)) : Vec F S1x256 .f32 := rowView4.read (Elt F) (rowView4.writes (Elt F) rowView4.junk L)

-- What the stores of a run leave in the five buffers it may store into.
def left4 (L5 : List (View.Piece (Elt F) S2000x256 .f32)) (L6 L7 LS0 LS1 : List (View.Piece (Elt F) S1x256 .f32)) : Vec F S2000x256 .f32 × Vec F S1x256 .f32 × Vec F S1x256 .f32 × Vec F S1x256 .f32 × Vec F S1x256 .f32 :=
  (blkLeft4 L5, rowLeft4 L6, rowLeft4 L7, rowLeft4 LS0, rowLeft4 LS1)

-- Stores that tile a buffer determine its contents, whatever it held before.
theorem owns_left4 {S : Shape} (c : Dev nD) (m : Memref sig .tc .vmem S .f32) (v' : View sig .tc .vmem S .f32) (L : List (View.Piece (Elt F) S .f32)) (h : ∀ y, ∃ p ∈ L, y ∈ p.1.set) :
    iprop(∃ f, m.view.loc (c : Thread nD τ) ↦[m.view.set]{fullShare} m.view.writes (Elt F) f L) ⊢ (owns (c : Thread nD τ) m fullShare (v'.read (Elt F) (v'.writes (Elt F) v'.junk L)) : sProp 𝕄) := by
  unfold owns; iintro ⟨%f, H⟩; iexists _; isplitr; swap; · iexact H
  ipureintro; exact View.read_writes_of_cover _ _ _ _ _ h

section Operands
variable (c : Dev nD) (i : grid4.Coords)
  (arg1 : Memref sig .tc .vmem S2000x256 .f32) (harg1 : arg1.IsWhole) (arg2 : Memref sig .tc .vmem S2000x256 .f32) (harg2 : arg2.IsWhole) (arg3 : Memref sig .tc .vmem S2000x256 .f32) (harg3 : arg3.IsWhole) (arg4 : Memref sig .tc .vmem S1x256 .f32) (harg4 : arg4.IsWhole) (arg5 : Memref sig .tc .vmem S1x256 .f32) (harg5 : arg5.IsWhole)
  (arg6 : Memref sig .tc .vmem S2000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole)

section First
variable (hc0 : atFirst4 i) (hc1 : ¬atLast4 i) (x h1 h2 : Vec F S2000x256 .f32) (a1 a2 : Vec F S1x256 .f32)

-- First point: the accumulators start from zero; the two statistics rows are not touched.
set_option maxHeartbeats 4000000 in
noncomputable def runFirst4 :
    Σ' (L5 : List (View.Piece (Elt F) S2000x256 .f32)) (L6 : List (View.Piece (Elt F) S1x256 .f32)) (L7 : List (View.Piece (Elt F) S1x256 .f32)) (LS0 : List (View.Piece (Elt F) S1x256 .f32)), { LS1 : List (View.Piece (Elt F) S1x256 .f32) //
      ∀ (y6 : Vec F S1x256 .f32) (y7 : Vec F S1x256 .f32) (E : Set ℕ) (K : PUnit → sProp 𝕄),
        iprop(owns (c : Thread nD τ) arg1 fullShare x ∗ owns (c : Thread nD τ) arg2 fullShare h1 ∗ owns (c : Thread nD τ) arg3 fullShare h2 ∗ owns (c : Thread nD τ) arg4 fullShare a1 ∗ owns (c : Thread nD τ) arg5 fullShare a2
            ∗ (∃ d, owns (c : Thread nD τ) arg6 fullShare d) ∗ owns (c : Thread nD τ) arg7 fullShare y6 ∗ owns (c : Thread nD τ) arg8 fullShare y7
            ∗ (∃ d, owns (c : Thread nD τ) arg9 fullShare d) ∗ (∃ d, owns (c : Thread nD τ) arg10 fullShare d)
            ∗ (iprop(owns (c : Thread nD τ) arg1 fullShare x ∗ owns (c : Thread nD τ) arg2 fullShare h1 ∗ owns (c : Thread nD τ) arg3 fullShare h2 ∗ owns (c : Thread nD τ) arg4 fullShare a1 ∗ owns (c : Thread nD τ) arg5 fullShare a2
                ∗ (∃ f, arg6.view.loc (c : Thread nD τ) ↦[arg6.view.set]{fullShare} arg6.view.writes (Elt F) f L5) ∗ owns (c : Thread nD τ) arg7 fullShare y6 ∗ owns (c : Thread nD τ) arg8 fullShare y7
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc4__residual_stats_kernel i arg1 harg1 arg2 harg2 arg3 harg3 arg4 harg4 arg5 harg5 arg6 harg6 arg7 harg7 arg8 harg8 arg9 harg9 arg10 harg10) K } := by
  refine ⟨?_, [], [], ?_, ?_, fun y6 y7 E K => ?run⟩
  case run =>
    simp only [cc4__residual_stats_kernel_eq_skeleton]; unfold cc4__residual_stats_kernel_skel
    simp only [k4_part1_eq_skeleton]; unfold k4_part1_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%d9, %f9, -, H9⟩, ⟨%d10, %f10, -, H10⟩, Hk⟩
    obtain rfl := harg1.eq_unread hf1; obtain rfl := harg2.eq_unread hf2; obtain rfl := harg3.eq_unread hf3
    obtain rfl := harg4.eq_unread hf4; obtain rfl := harg5.eq_unread hf5
    obtain rfl := harg7.eq_unread hf7; obtain rfl := harg8.eq_unread hf8
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    iexists _; iexact H10

-- The stores of a run into each buffer tile it.
theorem first_cover4 :
    (∀ y, ∃ pc ∈ (runFirst4 c i arg1 harg1 arg2 harg2 arg3 harg3 arg4 harg4 arg5 harg5 arg6 harg6 arg7 harg7 arg8 harg8 arg9 harg9 arg10 harg10 hc0 hc1 x h1 h2 a1 a2).1, y ∈ pc.1.set)
      ∧ (∀ y, ∃ pc ∈ (runFirst4 c i arg1 harg1 arg2 harg2 arg3 harg3 arg4 harg4 arg5 harg5 arg6 harg6 arg7 harg7 arg8 harg8 arg9 harg9 arg10 harg10 hc0 hc1 x h1 h2 a1 a2).2.2.2.1, y ∈ pc.1.set)
      ∧ (∀ y, ∃ pc ∈ (runFirst4 c i arg1 harg1 arg2 harg2 arg3 harg3 arg4 harg4 arg5 harg5 arg6 harg6 arg7 harg7 arg8 harg8 arg9 harg9 arg10 harg10 hc0 hc1 x h1 h2 a1 a2).2.2.2.2.1, y ∈ pc.1.set) :=
  ⟨View.cover_of_tiledL _ S2000x256.size (by sl_kernel_rfl), View.cover_of_tiledL _ S1x256.size (by sl_kernel_rfl), View.cover_of_tiledL _ S1x256.size (by sl_kernel_rfl)⟩

end First

section Mid
variable (hc0 : ¬atFirst4 i) (hc1 : ¬atLast4 i) (x h1 h2 : Vec F S2000x256 .f32) (a1 a2 s q : Vec F S1x256 .f32)

-- A middle point: the accumulators come in at s, q and are advanced by the point's block.
set_option maxHeartbeats 4000000 in
noncomputable def runMid4 :
    Σ' (L5 : List (View.Piece (Elt F) S2000x256 .f32)) (L6 : List (View.Piece (Elt F) S1x256 .f32)) (L7 : List (View.Piece (Elt F) S1x256 .f32)) (LS0 : List (View.Piece (Elt F) S1x256 .f32)), { LS1 : List (View.Piece (Elt F) S1x256 .f32) //
      ∀ (y6 : Vec F S1x256 .f32) (y7 : Vec F S1x256 .f32) (E : Set ℕ) (K : PUnit → sProp 𝕄),
        iprop(owns (c : Thread nD τ) arg1 fullShare x ∗ owns (c : Thread nD τ) arg2 fullShare h1 ∗ owns (c : Thread nD τ) arg3 fullShare h2 ∗ owns (c : Thread nD τ) arg4 fullShare a1 ∗ owns (c : Thread nD τ) arg5 fullShare a2
            ∗ (∃ d, owns (c : Thread nD τ) arg6 fullShare d) ∗ owns (c : Thread nD τ) arg7 fullShare y6 ∗ owns (c : Thread nD τ) arg8 fullShare y7
            ∗ owns (c : Thread nD τ) arg9 fullShare s ∗ owns (c : Thread nD τ) arg10 fullShare q
            ∗ (iprop(owns (c : Thread nD τ) arg1 fullShare x ∗ owns (c : Thread nD τ) arg2 fullShare h1 ∗ owns (c : Thread nD τ) arg3 fullShare h2 ∗ owns (c : Thread nD τ) arg4 fullShare a1 ∗ owns (c : Thread nD τ) arg5 fullShare a2
                ∗ (∃ f, arg6.view.loc (c : Thread nD τ) ↦[arg6.view.set]{fullShare} arg6.view.writes (Elt F) f L5) ∗ owns (c : Thread nD τ) arg7 fullShare y6 ∗ owns (c : Thread nD τ) arg8 fullShare y7
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc4__residual_stats_kernel i arg1 harg1 arg2 harg2 arg3 harg3 arg4 harg4 arg5 harg5 arg6 harg6 arg7 harg7 arg8 harg8 arg9 harg9 arg10 harg10) K } := by
  refine ⟨?_, [], [], ?_, ?_, fun y6 y7 E K => ?run⟩
  case run =>
    simp only [cc4__residual_stats_kernel_eq_skeleton]; unfold cc4__residual_stats_kernel_skel
    simp only [k4_part1_eq_skeleton]; unfold k4_part1_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, ⟨%f10, %hf10, H10⟩, Hk⟩
    obtain rfl := harg1.eq_unread hf1; obtain rfl := harg2.eq_unread hf2; obtain rfl := harg3.eq_unread hf3
    obtain rfl := harg4.eq_unread hf4; obtain rfl := harg5.eq_unread hf5
    obtain rfl := harg7.eq_unread hf7; obtain rfl := harg8.eq_unread hf8
    obtain rfl := harg9.eq_unread hf9; obtain rfl := harg10.eq_unread hf10
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    iexists _; iexact H10

theorem mid_cover4 :
    (∀ y, ∃ pc ∈ (runMid4 c i arg1 harg1 arg2 harg2 arg3 harg3 arg4 harg4 arg5 harg5 arg6 harg6 arg7 harg7 arg8 harg8 arg9 harg9 arg10 harg10 hc0 hc1 x h1 h2 a1 a2 s q).1, y ∈ pc.1.set)
      ∧ (∀ y, ∃ pc ∈ (runMid4 c i arg1 harg1 arg2 harg2 arg3 harg3 arg4 harg4 arg5 harg5 arg6 harg6 arg7 harg7 arg8 harg8 arg9 harg9 arg10 harg10 hc0 hc1 x h1 h2 a1 a2 s q).2.2.2.1, y ∈ pc.1.set)
      ∧ (∀ y, ∃ pc ∈ (runMid4 c i arg1 harg1 arg2 harg2 arg3 harg3 arg4 harg4 arg5 harg5 arg6 harg6 arg7 harg7 arg8 harg8 arg9 harg9 arg10 harg10 hc0 hc1 x h1 h2 a1 a2 s q).2.2.2.2.1, y ∈ pc.1.set) :=
  ⟨View.cover_of_tiledL _ S2000x256.size (by sl_kernel_rfl), View.cover_of_tiledL _ S1x256.size (by sl_kernel_rfl), View.cover_of_tiledL _ S1x256.size (by sl_kernel_rfl)⟩

end Mid

section Last
variable (hc0 : ¬atFirst4 i) (hc1 : atLast4 i) (x h1 h2 : Vec F S2000x256 .f32) (a1 a2 s q : Vec F S1x256 .f32)

-- Last point: as a middle point, and the advanced accumulators are also stored into the two statistics rows.
set_option maxHeartbeats 4000000 in
noncomputable def runLast4 :
    Σ' (L5 : List (View.Piece (Elt F) S2000x256 .f32)) (L6 : List (View.Piece (Elt F) S1x256 .f32)) (L7 : List (View.Piece (Elt F) S1x256 .f32)) (LS0 : List (View.Piece (Elt F) S1x256 .f32)), { LS1 : List (View.Piece (Elt F) S1x256 .f32) //
      ∀ (E : Set ℕ) (K : PUnit → sProp 𝕄),
        iprop(owns (c : Thread nD τ) arg1 fullShare x ∗ owns (c : Thread nD τ) arg2 fullShare h1 ∗ owns (c : Thread nD τ) arg3 fullShare h2 ∗ owns (c : Thread nD τ) arg4 fullShare a1 ∗ owns (c : Thread nD τ) arg5 fullShare a2
            ∗ (∃ d, owns (c : Thread nD τ) arg6 fullShare d) ∗ (∃ d, owns (c : Thread nD τ) arg7 fullShare d) ∗ (∃ d, owns (c : Thread nD τ) arg8 fullShare d)
            ∗ owns (c : Thread nD τ) arg9 fullShare s ∗ owns (c : Thread nD τ) arg10 fullShare q
            ∗ (iprop(owns (c : Thread nD τ) arg1 fullShare x ∗ owns (c : Thread nD τ) arg2 fullShare h1 ∗ owns (c : Thread nD τ) arg3 fullShare h2 ∗ owns (c : Thread nD τ) arg4 fullShare a1 ∗ owns (c : Thread nD τ) arg5 fullShare a2
                ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc4__residual_stats_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc4__residual_stats_kernel_eq_skeleton]; unfold cc4__residual_stats_kernel_skel
    simp only [k4_part1_eq_skeleton]; unfold k4_part1_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, Hk⟩
    obtain rfl := harg1.eq_unread hf1; obtain rfl := harg2.eq_unread hf2; obtain rfl := harg3.eq_unread hf3
    obtain rfl := harg4.eq_unread hf4; obtain rfl := harg5.eq_unread hf5
    obtain rfl := harg9.eq_unread hf9; obtain rfl := harg10.eq_unread hf10
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    isplitl [H9]; · iexists _; iexact H9
    iexists _; iexact H10

theorem last_cover4 :
    (∀ y, ∃ pc ∈ (runLast4 c i arg1 harg1 arg2 harg2 arg3 harg3 arg4 harg4 arg5 harg5 arg6 harg6 arg7 harg7 arg8 harg8 arg9 harg9 arg10 harg10 hc0 hc1 x h1 h2 a1 a2 s q).1, y ∈ pc.1.set)
      ∧ (∀ y, ∃ pc ∈ (runLast4 c i arg1 harg1 arg2 harg2 arg3 harg3 arg4 harg4 arg5 harg5 arg6 harg6 arg7 harg7 arg8 harg8 arg9 harg9 arg10 harg10 hc0 hc1 x h1 h2 a1 a2 s q).2.1, y ∈ pc.1.set)
      ∧ (∀ y, ∃ pc ∈ (runLast4 c i arg1 harg1 arg2 harg2 arg3 harg3 arg4 harg4 arg5 harg5 arg6 harg6 arg7 harg7 arg8 harg8 arg9 harg9 arg10 harg10 hc0 hc1 x h1 h2 a1 a2 s q).2.2.1, y ∈ pc.1.set)
      ∧ (∀ y, ∃ pc ∈ (runLast4 c i arg1 harg1 arg2 harg2 arg3 harg3 arg4 harg4 arg5 harg5 arg6 harg6 arg7 harg7 arg8 harg8 arg9 harg9 arg10 harg10 hc0 hc1 x h1 h2 a1 a2 s q).2.2.2.1, y ∈ pc.1.set)
      ∧ (∀ y, ∃ pc ∈ (runLast4 c i arg1 harg1 arg2 harg2 arg3 harg3 arg4 harg4 arg5 harg5 arg6 harg6 arg7 harg7 arg8 harg8 arg9 harg9 arg10 harg10 hc0 hc1 x h1 h2 a1 a2 s q).2.2.2.2.1, y ∈ pc.1.set) :=
  ⟨View.cover_of_tiledL _ S2000x256.size (by sl_kernel_rfl), View.cover_of_tiledL _ S1x256.size (by sl_kernel_rfl), View.cover_of_tiledL _ S1x256.size (by sl_kernel_rfl), View.cover_of_tiledL _ S1x256.size (by sl_kernel_rfl), View.cover_of_tiledL _ S1x256.size (by sl_kernel_rfl)⟩

end Last

end Operands

theorem notFirst4_of_ne (t : Fin cfg4.N) (h : t.val ≠ 0) : ¬atFirst4 (grid4.coords t) := fun h' => h ((atFirst4_iff t).mp h')
theorem notLast4_of_ne (t : Fin cfg4.N) (h : t.val ≠ 24) : ¬atLast4 (grid4.coords t) := fun h' => h ((atLast4_iff t).mp h')

def iblk4 (V : (c : Dev nD) → (b : Ref sig .tc) → Buf (Elt F) ((c : Thread nD τ).loc b)) (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

variable (V : (c : Dev nD) → (b : Ref sig .tc) → Buf (Elt F) ((c : Thread nD τ).loc b))

section AtPoint
variable (c : Dev nD) (t : Fin cfg4.N)

-- The three runs on the operands of point t, and what each leaves.
def firstAt4 (hc0 : atFirst4 (grid4.coords t)) (hc1 : ¬atLast4 (grid4.coords t)) :=
  runFirst4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) accSum4 (Memref.isWhole_whole _) accSq4 (Memref.isWhole_whole _) hc0 hc1 (iblk4 V c 0 t) (iblk4 V c 1 t) (iblk4 V c 2 t) (iblk4 V c 3 t) (iblk4 V c 4 t)
def midAt4 (hc0 : ¬atFirst4 (grid4.coords t)) (hc1 : ¬atLast4 (grid4.coords t)) (s q : Vec F S1x256 .f32) :=
  runMid4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) accSum4 (Memref.isWhole_whole _) accSq4 (Memref.isWhole_whole _) hc0 hc1 (iblk4 V c 0 t) (iblk4 V c 1 t) (iblk4 V c 2 t) (iblk4 V c 3 t) (iblk4 V c 4 t) s q
def lastAt4 (hc0 : ¬atFirst4 (grid4.coords t)) (hc1 : atLast4 (grid4.coords t)) (s q : Vec F S1x256 .f32) :=
  runLast4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) accSum4 (Memref.isWhole_whole _) accSq4 (Memref.isWhole_whole _) hc0 hc1 (iblk4 V c 0 t) (iblk4 V c 1 t) (iblk4 V c 2 t) (iblk4 V c 3 t) (iblk4 V c 4 t) s q

def leftFirst4 (hc0 : atFirst4 (grid4.coords t)) (hc1 : ¬atLast4 (grid4.coords t)) : Vec F S2000x256 .f32 × Vec F S1x256 .f32 × Vec F S1x256 .f32 × Vec F S1x256 .f32 × Vec F S1x256 .f32 :=
  left4 (firstAt4 V c t hc0 hc1).1 (firstAt4 V c t hc0 hc1).2.1 (firstAt4 V c t hc0 hc1).2.2.1 (firstAt4 V c t hc0 hc1).2.2.2.1 (firstAt4 V c t hc0 hc1).2.2.2.2.1
def leftMid4 (hc0 : ¬atFirst4 (grid4.coords t)) (hc1 : ¬atLast4 (grid4.coords t)) (s q : Vec F S1x256 .f32) : Vec F S2000x256 .f32 × Vec F S1x256 .f32 × Vec F S1x256 .f32 × Vec F S1x256 .f32 × Vec F S1x256 .f32 :=
  left4 (midAt4 V c t hc0 hc1 s q).1 (midAt4 V c t hc0 hc1 s q).2.1 (midAt4 V c t hc0 hc1 s q).2.2.1 (midAt4 V c t hc0 hc1 s q).2.2.2.1 (midAt4 V c t hc0 hc1 s q).2.2.2.2.1
def leftLast4 (hc0 : ¬atFirst4 (grid4.coords t)) (hc1 : atLast4 (grid4.coords t)) (s q : Vec F S1x256 .f32) : Vec F S2000x256 .f32 × Vec F S1x256 .f32 × Vec F S1x256 .f32 × Vec F S1x256 .f32 × Vec F S1x256 .f32 :=
  left4 (lastAt4 V c t hc0 hc1 s q).1 (lastAt4 V c t hc0 hc1 s q).2.1 (lastAt4 V c t hc0 hc1 s q).2.2.1 (lastAt4 V c t hc0 hc1 s q).2.2.2.1 (lastAt4 V c t hc0 hc1 s q).2.2.2.2.1

end AtPoint

-- The accumulation: what the point at position n leaves, from what the point before left in the accumulators.
def outsAt4 (c : Dev nD) : (n : ℕ) → n < cfg4.N → Vec F S2000x256 .f32 × Vec F S1x256 .f32 × Vec F S1x256 .f32 × Vec F S1x256 .f32 × Vec F S1x256 .f32
  | 0, hn => leftFirst4 V c ⟨0, hn⟩ ((atFirst4_iff ⟨0, hn⟩).mpr rfl) (notLast4_of_ne ⟨0, hn⟩ (show (0 : ℕ) ≠ 24 by decide))
  | n + 1, hn =>
    if h : n + 1 = 24 then
      leftLast4 V c ⟨n + 1, hn⟩ (notFirst4_of_ne ⟨n + 1, hn⟩ (Nat.succ_ne_zero n)) ((atLast4_iff ⟨n + 1, hn⟩).mpr h) (outsAt4 c n (Nat.lt_of_succ_lt hn)).2.2.2.1 (outsAt4 c n (Nat.lt_of_succ_lt hn)).2.2.2.2
    else
      leftMid4 V c ⟨n + 1, hn⟩ (notFirst4_of_ne ⟨n + 1, hn⟩ (Nat.succ_ne_zero n)) (notLast4_of_ne ⟨n + 1, hn⟩ h) (outsAt4 c n (Nat.lt_of_succ_lt hn)).2.2.2.1 (outsAt4 c n (Nat.lt_of_succ_lt hn)).2.2.2.2

theorem outsAt4_first (c : Dev nD) (t : Fin cfg4.N) (h : t.val = 0) :
    outsAt4 V c t.val t.isLt = leftFirst4 V c t ((atFirst4_iff t).mpr h) (notLast4_of_ne t (by omega)) := by
  obtain ⟨n, hn⟩ := t
  cases n with
  | zero => rfl
  | succ n => exact absurd h (Nat.succ_ne_zero n)

theorem outsAt4_mid (c : Dev nD) (t : Fin cfg4.N) (h0 : t.val ≠ 0) (h1 : t.val ≠ 24) :
    outsAt4 V c t.val t.isLt = leftMid4 V c t (notFirst4_of_ne t h0) (notLast4_of_ne t h1) (outsAt4 V c (t.val - 1) (Nat.lt_of_le_of_lt (Nat.sub_le _ _) t.isLt)).2.2.2.1 (outsAt4 V c (t.val - 1) (Nat.lt_of_le_of_lt (Nat.sub_le _ _) t.isLt)).2.2.2.2 := by
  obtain ⟨n, hn⟩ := t
  cases n with
  | zero => exact absurd rfl h0
  | succ n => exact (dif_neg h1).trans rfl

theorem outsAt4_last (c : Dev nD) (t : Fin cfg4.N) (h0 : t.val ≠ 0) (h1 : t.val = 24) :
    outsAt4 V c t.val t.isLt = leftLast4 V c t (notFirst4_of_ne t h0) ((atLast4_iff t).mpr h1) (outsAt4 V c (t.val - 1) (Nat.lt_of_le_of_lt (Nat.sub_le _ _) t.isLt)).2.2.2.1 (outsAt4 V c (t.val - 1) (Nat.lt_of_le_of_lt (Nat.sub_le _ _) t.isLt)).2.2.2.2 := by
  obtain ⟨n, hn⟩ := t
  cases n with
  | zero => exact absurd rfl h0
  | succ n => exact (dif_pos h1).trans rfl

-- The invariant: before the first point anything; afterwards the accumulators at what the point before left.
def PhiS4 (c : Dev nD) : (n : ℕ) → n ≤ cfg4.N → sProp 𝕄
  | 0, _ => Pipeline.ΦA spec4 c
  | n + 1, hn => iprop(iprop(iprop(owns (c : Thread nD τ) accSum4 fullShare ((outsAt4 V c n hn).2.2.2.1) ∗ owns (c : Thread nD τ) accSq4 fullShare ((outsAt4 V c n hn).2.2.2.2)) ∗ others4 c) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) accSum4 fullShare ((outsAt4 V c n hn).2.2.2.1) ∗ owns (c : Thread nD τ) accSq4 fullShare ((outsAt4 V c n hn).2.2.2.2)) ∗ others4 c) ∗ (∃ r, prngReg c r)) := rfl

theorem PhiS4_pos (c : Dev nD) (n : ℕ) (h : n ≤ cfg4.N) (hz : n ≠ 0) :
    PhiS4 V c n h = iprop(iprop(iprop(owns (c : Thread nD τ) accSum4 fullShare ((outsAt4 V c (n - 1) (by omega)).2.2.2.1) ∗ owns (c : Thread nD τ) accSq4 fullShare ((outsAt4 V c (n - 1) (by omega)).2.2.2.2)) ∗ others4 c) ∗ (∃ r, prngReg c r)) := by
  cases n with
  | zero => exact absurd rfl hz
  | succ n => rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => (outsAt4 V c t.val t.isLt).1
    | ⟨6, _⟩ => (outsAt4 V c t.val t.isLt).2.1
    | ⟨7, _⟩ => (outsAt4 V c t.val t.isLt).2.2.1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem share4 (c : Dev nD) (w : Fin cfg4.W) : (dat4 V c).q w = fullShare := by
  dsimp only [dat4]

theorem owed4 (c : Dev nD) (t : Fin (cfg4.N + 1)) : (dat4 V c).owed t = 0 := by
  dsimp only [dat4]

theorem recorded4 (c : Dev nD) (t : Fin (cfg4.N + 1)) : (dat4 V c).recorded t = Set.univ := rfl

theorem Phi4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = (outsAt4 V c t.val t.isLt).1 := by dsimp only [dat4]
theorem after4_6 (c : Dev nD) (t : Fin cfg4.N) : (dat4 V c).after 6 t = (outsAt4 V c t.val t.isLt).2.1 := by dsimp only [dat4]
theorem after4_7 (c : Dev nD) (t : Fin cfg4.N) : (dat4 V c).after 7 t = (outsAt4 V c t.val t.isLt).2.2.1 := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl)
      (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl)
      (fun t => by rw [after4_1]; unfold Dat.blockOf iblk4; rw [A_eq4]; try rfl) t d).trans
    (by unfold Dat.fetched Dat.blockOf iblk4; rw [A_eq4]; try rfl)
theorem before4_2 (c : Dev nD) (t : Fin cfg4.N) (d) : (dat4 V c).before 2 t d = iblk4 V c 2 t :=
  ((dat4 V c).before_in_eq_fetched 2 rfl (fun _ => rfl) (fun _ _ _ => rfl)
      (fun t => by rw [after4_2]; unfold Dat.blockOf iblk4; rw [A_eq4]; try rfl) t d).trans
    (by unfold Dat.fetched Dat.blockOf iblk4; rw [A_eq4]; try rfl)
theorem before4_3 (c : Dev nD) (t : Fin cfg4.N) (d) : (dat4 V c).before 3 t d = iblk4 V c 3 t :=
  ((dat4 V c).before_in_eq_fetched 3 rfl (fun _ => rfl) (fun _ _ _ => rfl)
      (fun t => by rw [after4_3]; unfold Dat.blockOf iblk4; rw [A_eq4]; try rfl) t d).trans
    (by unfold Dat.fetched Dat.blockOf iblk4; rw [A_eq4]; try rfl)
theorem before4_4 (c : Dev nD) (t : Fin cfg4.N) (d) : (dat4 V c).before 4 t d = iblk4 V c 4 t :=
  ((dat4 V c).before_in_eq_fetched 4 rfl (fun _ => rfl) (fun _ _ _ => rfl)
      (fun t => by rw [after4_4]; unfold Dat.blockOf iblk4; rw [A_eq4]; try rfl) t d).trans
    (by unfold Dat.fetched Dat.blockOf iblk4; rw [A_eq4]; try rfl)

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d))
    ∗ (∃ d, owns (c : Thread nD τ) (ms4_7 t) fullShare ((dat4 V c).before 7 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t
    ∗ (dat4 V c).leavesExact 7 t)

-- The body at any point: by position it is one of the three runs, and the stores of that run determine each buffer it stores into.
set_option maxHeartbeats 8000000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).owesAt () t.succ = (dat4 V c).owesAt () t.castSucc from rfl]
  rw [show (dat4 V c).Φ t.succ = PhiS4 V c (t.val + 1) t.isLt from rfl, PhiS4_succ]
  have hN : t.val < 25 := lt_of_lt_of_eq t.isLt (show cfg4.N = 25 from N_4)
  rw [show (dat4 V c).leavesExact 0 t = owns (c : Thread nD τ) (ms4_0 t) fullShare ((dat4 V c).after 0 t) from by
    unfold Dat.leavesExact; rw [live4_0 t], after4_0]
  rw [show (dat4 V c).leavesExact 1 t = owns (c : Thread nD τ) (ms4_1 t) fullShare ((dat4 V c).after 1 t) from by
    unfold Dat.leavesExact; rw [live4_1 t], after4_1]
  rw [show (dat4 V c).leavesExact 2 t = owns (c : Thread nD τ) (ms4_2 t) fullShare ((dat4 V c).after 2 t) from by
    unfold Dat.leavesExact; rw [live4_2 t], after4_2]
  rw [show (dat4 V c).leavesExact 3 t = owns (c : Thread nD τ) (ms4_3 t) fullShare ((dat4 V c).after 3 t) from by
    unfold Dat.leavesExact; rw [live4_3 t], after4_3]
  rw [show (dat4 V c).leavesExact 4 t = owns (c : Thread nD τ) (ms4_4 t) fullShare ((dat4 V c).after 4 t) from by
    unfold Dat.leavesExact; rw [live4_4 t], after4_4]
  rw [show (dat4 V c).leavesExact 5 t = owns (c : Thread nD τ) (ms4_5 t) fullShare ((dat4 V c).after 5 t) from by
    unfold Dat.leavesExact; rw [live4_5 t], after4_5]
  by_cases hz : t.val = 0
  ·
    have hc0 : atFirst4 (grid4.coords t) := (atFirst4_iff t).mpr hz
    have hc1 : ¬atLast4 (grid4.coords t) := notLast4_of_ne t (by omega)
    rw [Dat.leavesExact_idle (dat4 V c) 6 t (idle4_6 t hc1) (keep4_6 t hc1), Dat.leavesExact_idle (dat4 V c) 7 t (idle4_7 t hc1) (keep4_7 t hc1)]
    rw [outsAt4_first V c t hz]
    unfold leftFirst4 left4 blkLeft4 rowLeft4; dsimp only
    rw [Phi4_castSucc V c t, PhiS4_zero V c _ _ hz, PhiA4_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((firstAt4 V c t hc0 hc1).2.2.2.2.2 _ _ Set.univ _)
    iframe H0 H1 H2 H3 H4
    isplitl [H5]; · iexists _; iexact H5
    isplitl [H6]; · iexact H6
    isplitl [H7]; · iexact H7
    isplitl [HS0]; · iexact HS0
    isplitl [HS1]; · iexact HS1
    iintro ⟨H0, H1, H2, H3, H4, H5, H6, H7, HS0, HS1⟩
    isplitl [HS0 HS1 Hrest Hg]
    · isplitl [HS0 HS1 Hrest]
      · isplitl [HS0 HS1]
        · isplitl [HS0]
          · iapply owns_left4 _ _ rowView4 (firstAt4 V c t hc0 hc1).2.2.2.1 (first_cover4 ..).2.1; iexact HS0
          · iapply owns_left4 _ _ rowView4 (firstAt4 V c t hc0 hc1).2.2.2.2.1 (first_cover4 ..).2.2; iexact HS1
        · iexact Hrest
      · iexact Hg
    iframe Ho H0 H1 H2 H3 H4
    isplitl [H5]
    · iapply owns_left4 _ _ blkView4 (firstAt4 V c t hc0 hc1).1 (first_cover4 ..).1; iexact H5
    isplitl [H6]; · iexists _; iexact H6
    iexists _; iexact H7
  · by_cases hl : t.val = 24
    ·
      have hc0 : ¬atFirst4 (grid4.coords t) := notFirst4_of_ne t hz
      have hc1 : atLast4 (grid4.coords t) := (atLast4_iff t).mpr hl
      rw [show (dat4 V c).leavesExact 6 t = owns (c : Thread nD τ) (ms4_6 t) fullShare ((dat4 V c).after 6 t) from by
        unfold Dat.leavesExact; rw [live4_6 t hc1], after4_6]
      rw [show (dat4 V c).leavesExact 7 t = owns (c : Thread nD τ) (ms4_7 t) fullShare ((dat4 V c).after 7 t) from by
        unfold Dat.leavesExact; rw [live4_7 t hc1], after4_7]
      rw [outsAt4_last V c t hz hl]
      unfold leftLast4 left4 blkLeft4 rowLeft4; dsimp only
      rw [Phi4_castSucc V c t, PhiS4_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((lastAt4 V c t hc0 hc1 _ _).2.2.2.2.2 Set.univ _)
      iframe H0 H1 H2 H3 H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, H5, H6, H7, HS0, HS1⟩
      isplitl [HS0 HS1 Hrest Hg]
      · isplitl [HS0 HS1 Hrest]
        · isplitl [HS0 HS1]
          · isplitl [HS0]
            · iapply owns_left4 _ _ rowView4 (lastAt4 V c t hc0 hc1 _ _).2.2.2.1 (last_cover4 ..).2.2.2.1; iexact HS0
            · iapply owns_left4 _ _ rowView4 (lastAt4 V c t hc0 hc1 _ _).2.2.2.2.1 (last_cover4 ..).2.2.2.2; iexact HS1
          · iexact Hrest
        · iexact Hg
      iframe Ho H0 H1 H2 H3 H4
      isplitl [H5]
      · iapply owns_left4 _ _ blkView4 (lastAt4 V c t hc0 hc1 _ _).1 (last_cover4 ..).1; iexact H5
      isplitl [H6]
      · iapply owns_left4 _ _ rowView4 (lastAt4 V c t hc0 hc1 _ _).2.1 (last_cover4 ..).2.1; iexact H6
      iapply owns_left4 _ _ rowView4 (lastAt4 V c t hc0 hc1 _ _).2.2.1 (last_cover4 ..).2.2.1; iexact H7
    ·
      have hc0 : ¬atFirst4 (grid4.coords t) := notFirst4_of_ne t hz
      have hc1 : ¬atLast4 (grid4.coords t) := notLast4_of_ne t hl
      rw [Dat.leavesExact_idle (dat4 V c) 6 t (idle4_6 t hc1) (keep4_6 t hc1), Dat.leavesExact_idle (dat4 V c) 7 t (idle4_7 t hc1) (keep4_7 t hc1)]
      rw [outsAt4_mid V c t hz hl]
      unfold leftMid4 left4 blkLeft4 rowLeft4; dsimp only
      rw [Phi4_castSucc V c t, PhiS4_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((midAt4 V c t hc0 hc1 _ _).2.2.2.2.2 _ _ Set.univ _)
      iframe H0 H1 H2 H3 H4
      isplitl [H5]; · iexists _; iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 Hrest Hg]
      · isplitl [HS0 HS1 Hrest]
        · isplitl [HS0 HS1]
          · isplitl [HS0]
            · iapply owns_left4 _ _ rowView4 (midAt4 V c t hc0 hc1 _ _).2.2.2.1 (mid_cover4 ..).2.1; iexact HS0
            · iapply owns_left4 _ _ rowView4 (midAt4 V c t hc0 hc1 _ _).2.2.2.2.1 (mid_cover4 ..).2.2; iexact HS1
          · iexact Hrest
        · iexact Hg
      iframe Ho H0 H1 H2 H3 H4
      isplitl [H5]
      · iapply owns_left4 _ _ blkView4 (midAt4 V c t hc0 hc1 _ _).1 (mid_cover4 ..).1; iexact H5
      isplitl [H6]; · iexists _; iexact H6
      iexists _; iexact H7

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

theorem Phi4_out (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨⟨HS0, HS1⟩, Hrest⟩, Hg⟩
  isplitl [HS0 HS1 Hrest]
  · isplitl [HS0 HS1]
    · isplitl [HS0]
      · iexists _; iexact HS0
      · iexists _; iexact HS1
    · iexact Hrest
  · iexact Hg

theorem hout4 (c : Dev nD) : (dat4 V c).Φ (Fin.last cfg4.N) ⊢ Pipeline.ΦA spec4 c :=
  Phi4_out V c _ (by rw [Fin.val_last]; have : cfg4.N = 25 := N_4; omega)

end Cert.KernelIdeal.Hand

end
-- ==== Proof.KI.Reg5.lean ====
import proofs.«422945_j10866267259114_2_alg».proof.Proof.Gen.KernelIdeal.Launch
import proofs.«422945_j10866267259114_2_alg».proof.Proof.Gen.KernelIdeal.Skeleton
import proofs.«422945_j10866267259114_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

namespace Reg5

abbrev rowsAll : Rect S5000x256 := Rect.unit (s := S5000x256) ![0, 0] S5000x256.size inb_S5000x256_S5000x256_0_0
abbrev rowAll : Rect S1x256 := Rect.unit (s := S1x256) ![0, 0] S1x256.size inb_S1x256_S1x256_0_0

/-- What the body's one store leaves in the output block, from the input blocks in window order. -/
def bnRelu (h : Vec F S5000x256 .f32) (mu var g bt : Vec F S1x256 .f32) : Vec F S5000x256 .f32 :=
  View.canon [⟨rowsAll, k5_pay1 (View.ld h rowsAll) (View.ld g rowAll) (View.ld mu rowAll) (View.ld var rowAll)
    (View.ld bt rowAll)⟩]

set_option maxHeartbeats 1000000 in
/-- The body on whole memrefs: the inputs come back as they were, the output holds `bnRelu` of them. -/
theorem kernel_runs (c : Dev nD) (E : Set ℕ) {i : grid5.Coords}
    {a1 : Memref sig .tc .vmem S5000x256 .f32} {w1 : a1.IsWhole} {a2 : Memref sig .tc .vmem S1x256 .f32} {w2 : a2.IsWhole}
    {a3 : Memref sig .tc .vmem S1x256 .f32} {w3 : a3.IsWhole} {a4 : Memref sig .tc .vmem S1x256 .f32} {w4 : a4.IsWhole}
    {a5 : Memref sig .tc .vmem S1x256 .f32} {w5 : a5.IsWhole} {a6 : Memref sig .tc .vmem S5000x256 .f32} {w6 : a6.IsWhole}
    (h : Vec F S5000x256 .f32) (mu var g bt : Vec F S1x256 .f32) {K : PUnit → sProp 𝕄} :
    iprop(owns c.tc a1 fullShare h ∗ owns c.tc a2 fullShare mu ∗ owns c.tc a3 fullShare var
        ∗ owns c.tc a4 fullShare g ∗ owns c.tc a5 fullShare bt ∗ (∃ d, owns c.tc a6 fullShare d)
        ∗ (iprop(owns c.tc a1 fullShare h ∗ owns c.tc a2 fullShare mu ∗ owns c.tc a3 fullShare var
            ∗ owns c.tc a4 fullShare g ∗ owns c.tc a5 fullShare bt
            ∗ owns c.tc a6 fullShare (bnRelu h mu var g bt)) -∗ K ⟨⟩))
      ⊢ wp frame (wpE (defs₀ (F := F)) Variants.none c none) E (cc5__bn_relu_kernel i a1 w1 a2 w2 a3 w3 a4 w4 a5 w5 a6 w6) K := by
  simp only [cc5__bn_relu_kernel_eq_skeleton]; unfold cc5__bn_relu_kernel_skel owns
  iintro ⟨⟨%f1, %e1, H1⟩, ⟨%f2, %e2, H2⟩, ⟨%f3, %e3, H3⟩, ⟨%f4, %e4, H4⟩, ⟨%f5, %e5, H5⟩, ⟨%d6, %f6, -, H6⟩, Hk⟩
  subst e1 e2 e3 e4 e5
  sl_exec
  sl_step
  iapply Hk
  isplitl [H1]; iexists f1; isplitr; ipureintro; rfl; iexact H1
  isplitl [H2]; iexists f2; isplitr; ipureintro; rfl; iexact H2
  isplitl [H3]; iexists f3; isplitr; ipureintro; rfl; iexact H3
  isplitl [H4]; iexists f4; isplitr; ipureintro; rfl; iexact H4
  isplitl [H5]; iexists f5; isplitr; ipureintro; rfl; iexact H5
  iexists _; isplitr; swap; iexact H6
  ipureintro; exact View.read_writes_eq_canon _ _ _ (View.cover_of_tiled _ S5000x256.size (by rfl))

end Reg5

/-- The proof data: arrays as found; the body leaves each input block in place and fills the output block; nothing else moves. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => Reg5.bnRelu (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := rfl

/-- An input window holds its block at every point, since the body leaves it in place. -/
theorem Reg5.before (c : Dev nD) (t : Fin cfg5.N) : ∀ w : Fin 6, w ≠ 5 → ∀ d, (dat5 V c).before w t d = (dat5 V c).after w t := by
  intro w; fin_cases w <;> intro h d <;> first
    | exact absurd rfl h
    | exact Dat.before_in_eq_fetched _ _ rfl (fun _ => rfl) (fun _ _ _ => rfl) (fun _ => rfl) t d

/-- At every point the inputs hold their blocks, so the body runs; the invariant and the debts pass through unread. -/
theorem body_obligation5 (c : Dev nD) : BodyObligation (dat5 (F := F) V c) (defs₀ (F := F)) Variants.none () Set.univ := fun t => by
  rw [bigSep_W5, bigSep_W5]
  simp (disch := decide) only [Reg5.before V c t]
  dsimp only [dat5, Dat.bound]
  change _ ⊢ wp _ _ _ (bodyAt5 t) _
  unfold bodyAt5
  iintro ⟨HΦ, Ho, ⟨%d0, H0⟩, ⟨%d1, H1⟩, ⟨%d2, H2⟩, ⟨%d3, H3⟩, ⟨%d4, H4⟩, ⟨%d5, H5⟩⟩
  iapply Reg5.kernel_runs c Set.univ (iblk5 V c 0 t) (iblk5 V c 1 t) (iblk5 V c 2 t) (iblk5 V c 3 t) (iblk5 V c 4 t)
  isplitl [H0]; · iexact H0
  isplitl [H1]; · iexact H1
  isplitl [H2]; · iexact H2
  isplitl [H3]; · iexact H3
  isplitl [H4]; · iexact H4
  isplitl [H5]; · iexists _; iexact H5
  iintro H
  isplitl [HΦ]; · iexact HΦ
  isplitl [Ho]; · iexact Ho
  iexact H

theorem hin5 (c : Dev nD) : Pipeline.ΦA spec5 c ⊢ (dat5 V c).Φ 0 := .rfl

theorem hout5 (c : Dev nD) : (dat5 V c).Φ (Fin.last cfg5.N) ⊢ Pipeline.ΦA spec5 c := .rfl

theorem share5 (c : Dev nD) (w : Fin cfg5.W) : (dat5 V c).q w = fullShare := rfl

theorem owed5 (c : Dev nD) (t : Fin (cfg5.N + 1)) : (dat5 V c).owed t = 0 := rfl

theorem recorded5 (c : Dev nD) (t : Fin (cfg5.N + 1)) : (dat5 V c).recorded t = Set.univ := rfl

end Cert.KernelIdeal.Hand

end
-- ==== Proof.KI.Run.lean ====
import proofs.«422945_j10866267259114_2_alg».proof.Proof.Gen.KernelIdeal.Launch
import proofs.«422945_j10866267259114_2_alg».proof.Proof.Gen.KernelIdeal.Skeleton
import proofs.«422945_j10866267259114_2_alg».proof.Proof.Gen.KernelIdeal.Points
import proofs.«422945_j10866267259114_2_alg».proof.Proof.Gen.KernelIdeal.Regions
import proofs.«422945_j10866267259114_2_alg».proof.Proof.KI.Reg0
import proofs.«422945_j10866267259114_2_alg».proof.Proof.KI.Reg1
import proofs.«422945_j10866267259114_2_alg».proof.Proof.KI.Reg2
import proofs.«422945_j10866267259114_2_alg».proof.Proof.KI.Reg3
import proofs.«422945_j10866267259114_2_alg».proof.Proof.KI.Reg4
import proofs.«422945_j10866267259114_2_alg».proof.Proof.KI.Reg5
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev Vr (W : Dev nD → Valuation τ sig (Elt F)) : (c : Dev nD) → (b : Ref sig .tc) → Buf (Elt F) ((c : Thread nD τ).loc b) :=
  fun c b => W c b

def X6 (c : Dev nD) : Valuation τ sig (Elt F) :=
  Pipeline.withArrays spec0 c (Gen.V5 m c) fun w => (dat0 (Vr (Gen.V5 m)) c).arrAt w cfg0.N
def o1 : Gen.Outs (F := F) := fun _ r c => X6 m c (Proc.devRef .tc r)

def X8 (c : Dev nD) : Valuation τ sig (Elt F) :=
  Pipeline.withArrays spec1 c (Gen.V7 m (o1 m) c) fun w => (dat1 (Vr (Gen.V7 m (o1 m))) c).arrAt w cfg1.N
def o2 : Gen.Outs (F := F) := fun J r c => if J ≤ 6 then o1 m J r c else X8 m c (Proc.devRef .tc r)

def X14 (c : Dev nD) : Valuation τ sig (Elt F) :=
  Pipeline.withArrays spec2 c (Gen.V13 m (o2 m) c) fun w => (dat2 (Vr (Gen.V13 m (o2 m))) c).arrAt w cfg2.N
def o3 : Gen.Outs (F := F) := fun J r c => if J ≤ 8 then o2 m J r c else X14 m c (Proc.devRef .tc r)

def X16 (c : Dev nD) : Valuation τ sig (Elt F) :=
  Pipeline.withArrays spec3 c (Gen.V15 m (o3 m) c) fun w => (dat3 (Vr (Gen.V15 m (o3 m))) c).arrAt w cfg3.N
def o4 : Gen.Outs (F := F) := fun J r c => if J ≤ 14 then o3 m J r c else X16 m c (Proc.devRef .tc r)

def X18 (c : Dev nD) : Valuation τ sig (Elt F) :=
  Pipeline.withArrays spec4 c (Gen.V17 m (o4 m) c) fun w => (dat4 (Vr (Gen.V17 m (o4 m))) c).arrAt w cfg4.N
def o5 : Gen.Outs (F := F) := fun J r c => if J ≤ 16 then o4 m J r c else X18 m c (Proc.devRef .tc r)

def X20 (c : Dev nD) : Valuation τ sig (Elt F) :=
  Pipeline.withArrays spec5 c (Gen.V19 m (o5 m) c) fun w => (dat5 (Vr (Gen.V19 m (o5 m))) c).arrAt w cfg5.N
def outs : Gen.Outs (F := F) := fun J r c => if J ≤ 18 then o5 m J r c else X20 m c (Proc.devRef .tc r)

/-- `V` overwritten, at each reference of `rs`, by what `X` holds there. -/
def upd (V X : Valuation τ sig (Elt F)) (rs : List (Ref sig .tc)) : Valuation τ sig (Elt F) :=
  rs.foldl (fun v r => Function.update v r (X r)) V

theorem upd_apply (X : Valuation τ sig (Elt F)) : ∀ (rs : List (Ref sig .tc)) (V : Valuation τ sig (Elt F)) (r : Ref sig .tc),
    upd V X rs r = if r ∈ rs then X r else V r
  | [], V, r => (if_neg List.not_mem_nil).symm
  | a :: rs, V, r => by
    rw [show upd V X (a :: rs) = upd (Function.update V a (X a)) X rs from rfl, upd_apply X rs]
    by_cases h : r ∈ rs
    · rw [if_pos h, if_pos (List.mem_cons_of_mem a h)]
    · rw [if_neg h]
      by_cases e : r = a
      · subst e; rw [if_pos (List.mem_cons.mpr (Or.inl rfl)), Function.update_self]
      · rw [if_neg fun h' => (List.mem_cons.mp h').elim e h, Function.update_of_ne (StableHlo.devRef_ne_of_ne e)]

/-- After the region each array holds its last contents: on `rs` by the overwriting, off `rs` as an input window's, the same at every point. -/
theorem upd_exit {cfg : Cfg sig Λ₀} {c : Dev nD} (dat : Dat τ (Elt F) Unit ℕ (UR sig nD τ) ℕ cfg c)
    (hinj : Function.Injective (Pipeline.arrRef cfg.spec)) (V : Valuation τ sig (Elt F)) (rs : List (Ref sig .tc))
    (hA : ∀ w, dat.A w = V (Pipeline.arrRef cfg.spec w))
    (hio : ∀ w, Pipeline.arrRef cfg.spec w ∉ rs → (cfg.win w).isOut = false) (w : Fin cfg.W) :
    upd V (Pipeline.withArrays cfg.spec c V (dat.arrAt · cfg.N)) rs (Pipeline.arrRef cfg.spec w) = dat.arrAt w cfg.N := by
  rw [upd_apply]; split
  · exact Pipeline.withArrays_arr cfg.spec hinj c V _ w
  · exact ((dat.arrAt_in w (hio w ‹_›) _).trans (hA w)).symm

theorem exit0 (c : Dev nD) (w : Fin cfg0.W) :
    Gen.V6 m (outs m) c (Pipeline.arrRef spec0 w) = (dat0 (Vr (Gen.V5 m)) c).arrAt w cfg0.N :=
  upd_exit (dat0 (Vr (Gen.V5 m)) c) launch0.win.arr_inj (Gen.V5 m c) [main_v14_0, main_v14_1, main_v14_2] (A_eq0 _ c) (by decide) w

theorem exit1 (c : Dev nD) (w : Fin cfg1.W) :
    Gen.V8 m (outs m) c (Pipeline.arrRef spec1 w) = (dat1 (Vr (Gen.V7 m (outs m))) c).arrAt w cfg1.N :=
  upd_exit (dat1 (Vr (Gen.V7 m (outs m))) c) launch1.win.arr_inj (Gen.V7 m (outs m) c) [main_v30] (A_eq1 _ c) (by decide) w

theorem exit2 (c : Dev nD) (w : Fin cfg2.W) :
    Gen.V14 m (outs m) c (Pipeline.arrRef spec2 w) = (dat2 (Vr (Gen.V13 m (outs m))) c).arrAt w cfg2.N :=
  upd_exit (dat2 (Vr (Gen.V13 m (outs m))) c) launch2.win.arr_inj (Gen.V13 m (outs m) c) [main_v45_0, main_v45_1, main_v45_2] (A_eq2 _ c) (by decide) w

theorem exit3 (c : Dev nD) (w : Fin cfg3.W) :
    Gen.V16 m (outs m) c (Pipeline.arrRef spec3 w) = (dat3 (Vr (Gen.V15 m (outs m))) c).arrAt w cfg3.N :=
  upd_exit (dat3 (Vr (Gen.V15 m (outs m))) c) launch3.win.arr_inj (Gen.V15 m (outs m) c) [main_v61] (A_eq3 _ c) (by decide) w

theorem exit4 (c : Dev nD) (w : Fin cfg4.W) :
    Gen.V18 m (outs m) c (Pipeline.arrRef spec4 w) = (dat4 (Vr (Gen.V17 m (outs m))) c).arrAt w cfg4.N :=
  upd_exit (dat4 (Vr (Gen.V17 m (outs m))) c) launch4.win.arr_inj (Gen.V17 m (outs m) c) [main_v66_0, main_v66_1, main_v66_2] (A_eq4 _ c) (by decide) w

theorem exit5 (c : Dev nD) (w : Fin cfg5.W) :
    Gen.V20 m (outs m) c (Pipeline.arrRef spec5 w) = (dat5 (Vr (Gen.V19 m (outs m))) c).arrAt w cfg5.N :=
  upd_exit (dat5 (Vr (Gen.V19 m (outs m))) c) launch5.win.arr_inj (Gen.V19 m (outs m) c) [main_v81] (A_eq5 _ c) (by decide) w

def pdats : (p : Fin 6) → (c : Dev nD) → Dat τ (Elt F) Unit ℕ (UR sig nD τ) ℕ (Pipeline.pin (pcfgs (F := F)) Gen.adm p) c
  | ⟨0, _⟩ => fun c => dat0 (Vr (Gen.V5 m)) c
  | ⟨1, _⟩ => fun c => dat1 (Vr (Gen.V7 m (outs m))) c
  | ⟨2, _⟩ => fun c => dat2 (Vr (Gen.V13 m (outs m))) c
  | ⟨3, _⟩ => fun c => dat3 (Vr (Gen.V15 m (outs m))) c
  | ⟨4, _⟩ => fun c => dat4 (Vr (Gen.V17 m (outs m))) c
  | ⟨5, _⟩ => fun c => dat5 (Vr (Gen.V19 m (outs m))) c

abbrev L : GSem nD τ sig → Finset Unit := fun _ => ∅
abbrev lv : GSem nD τ sig → Unit → ℕ := fun _ _ => 0

/-- The state kept beside the buffers between items: the random-number register at some value, and no dues. -/
abbrev R (c : Dev nD) : sProp 𝕄 := iprop((∃ r, prngReg c r) ∗ ∃ W, owes (c : Thread nD τ) (0 : CellTallies nD τ sig Unit) W)
abbrev E : Fin 7 → Dev nD → sProp 𝕄 := fun _ c => R c

theorem owesAt_of_zero {cfg : Cfg sig Λ₀} {c : Dev nD} (dat : Dat τ (Elt F) Unit ℕ (UR sig nD τ) ℕ cfg c) (t : Fin (cfg.N + 1))
    (ho : dat.owed t = 0) (hr : dat.recorded t = Set.univ) :
    (iprop(∃ W, owes (c : Thread nD τ) (0 : CellTallies nD τ sig Unit) W) : sProp 𝕄) ⊢ dat.owesAt () t := by
  unfold Pipeline.Dat.owesAt Pipeline.owesWithin Pipeline.Dat.bound
  rw [ho, hr]
  iintro ⟨%W, HO⟩; iexists W; isplitr; · ipureintro; exact fun _ _ => Or.inl trivial
  iexact HO

theorem zero_of_owesAt {cfg : Cfg sig Λ₀} {c : Dev nD} (dat : Dat τ (Elt F) Unit ℕ (UR sig nD τ) ℕ cfg c) (t : Fin (cfg.N + 1))
    (ho : dat.owed t = 0) :
    (dat.owesAt () t : sProp 𝕄) ⊢ iprop(∃ W, owes (c : Thread nD τ) (0 : CellTallies nD τ sig Unit) W) := by
  unfold Pipeline.Dat.owesAt Pipeline.owesWithin
  rw [ho]
  iintro ⟨%W, -, HO⟩; iexists W; iexact HO

variable {m} in
set_option backward.isDefEq.respectTransparency.types false in
/-- Pipeline `p`'s region from the unscoped buffers at `V` to them at `V'`: the arrays end at their last contents, `V'` is `V` off the arrays in `rs`, nothing is owed. -/
def regOf (pd : (p : Fin 6) → (c : Dev nD) → Dat τ (Elt F) Unit ℕ (UR sig nD τ) ℕ (Pipeline.pin (pcfgs (F := F)) Gen.adm p) c)
    (p : Fin 6) (V V' : Dev nD → Valuation τ sig (Elt F)) (lf : Pipeline.LaunchFacts (nD := nD) (τ := τ) cfgs p)
    (hb : ∀ c, BodyObligation (pd p c) (defs₀ (F := F)) Variants.none () Set.univ)
    (ho : ∀ c t, (pd p c).owed t = 0) (hr : ∀ c, (pd p c).recorded 0 = Set.univ) (hq : ∀ c w, (pd p c).q w = fullShare)
    (hA : ∀ c w, (pd p c).A w = V c (Pipeline.arrRef (cfgs p).spec w))
    (hi : ∀ c, Pipeline.ΦA (cfgs p).spec c ⊢ (pd p c).Φ 0) (hf : ∀ c, (pd p c).Φ (Fin.last (cfgs p).N) ⊢ Pipeline.ΦA (cfgs p).spec c)
    (hx : ∀ c w, V' c (Pipeline.arrRef (cfgs p).spec w) = (pd p c).arrAt w (cfgs p).N)
    (rs : List (Ref sig .tc)) (hrs : ∀ r ∈ rs, r ∈ Finset.univ.image (Pipeline.arrRef (cfgs p).spec)) (hof : ∀ c r, r ∉ rs → V' c r = V c r) :
    Pipeline.RegionSeg (pcfgs (F := F)) Gen.adm pd () defs₀ Variants.none L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p ho
  pre c := iprop(StableHlo.held (c : Thread nD τ) (Pipeline.ucRefs τ sig) (V c) ∗ R c)
  post c := iprop(StableHlo.held (c : Thread nD τ) (Pipeline.ucRefs τ sig) (V' c) ∗ R c)
  X c := iprop(∃ r, prngReg c r)
  Y c := iprop(∃ r, prngReg c r)
  Z c := Pipeline.unscopedRest (Ix := Unit) (Name := ℕ) (U := UR sig nD τ) (Lvl := ℕ) (cfgs p).spec c (Vr V c)
  hentry c := by
    rw [Pipeline.ownSems0_none]
    have hsplit := Pipeline.arrays_of_unscopedBufs (p := p) (pcfgs (F := F)) Gen.adm pd lf.win lf.arr_whole c
      ((pd p c).share_full (hq c)) (Vr V c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_zero (pd p c) 0 (ho c 0) (hr c)); iexact HO
    isplitl [Hp] <;> iassumption
  hin c := by
    refine BIBase.Entails.trans ?_ (hi c)
    unfold Pipeline.ΦA
    iintro ⟨Hp, -, Hr⟩
    isplitl [Hr] <;> iassumption
  hout c := by
    refine BIBase.Entails.trans (hf c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) Gen.adm (Ix := Unit) (Name := ℕ) (U := UR sig nD τ) (Lvl := ℕ)
      lf.win lf.arr_whole c pd ((pd p c).share_full (hq c))
      (Vr V c) (Vr V' c) ((pd p c).arrAt · (cfgs p).N) (fun w => (hx c w).symm) fun b hb => hof c b fun h => hb (hrs b h)
    rw [Pipeline.unscopedBufs_held] at hjoin
    iintro ⟨Ha, HO, HY, Hrest⟩
    imodintro
    isplitl [Ha Hrest]
    · iapply hjoin; isplitl [Ha] <;> iassumption
    isplitl [HY]; · iexact HY
    iapply (zero_of_owesAt (pd p c) (Fin.last (cfgs p).N) (ho c _)); iexact HO

set_option backward.isDefEq.respectTransparency.types false in
def reg0 : Pipeline.RegionSeg (pcfgs (F := F)) Gen.adm (pdats m) () defs₀ Variants.none L lv 0 :=
  regOf (pdats m) 0 (Gen.V5 m) (Gen.V6 m (outs m)) launch0 (body_obligation0 _) (owed0 _) (recorded0 _ · 0) (share0 _)
    (A_eq0 _) (hin0 _) (hout0 _) (exit0 m) [main_v14_0, main_v14_1, main_v14_2] (by decide) (Gen.V6_of m (outs m))

set_option backward.isDefEq.respectTransparency.types false in
def reg1 : Pipeline.RegionSeg (pcfgs (F := F)) Gen.adm (pdats m) () defs₀ Variants.none L lv 1 :=
  regOf (pdats m) 1 (Gen.V7 m (outs m)) (Gen.V8 m (outs m)) launch1 (body_obligation1 _) (owed1 _) (recorded1 _ · 0) (share1 _)
    (A_eq1 _) (hin1 _) (hout1 _) (exit1 m) [main_v30] (by decide) (Gen.V8_of m (outs m))

set_option backward.isDefEq.respectTransparency.types false in
def reg2 : Pipeline.RegionSeg (pcfgs (F := F)) Gen.adm (pdats m) () defs₀ Variants.none L lv 2 :=
  regOf (pdats m) 2 (Gen.V13 m (outs m)) (Gen.V14 m (outs m)) launch2 (body_obligation2 _) (owed2 _) (recorded2 _ · 0) (share2 _)
    (A_eq2 _) (hin2 _) (hout2 _) (exit2 m) [main_v45_0, main_v45_1, main_v45_2] (by decide) (Gen.V14_of m (outs m))

set_option backward.isDefEq.respectTransparency.types false in
def reg3 : Pipeline.RegionSeg (pcfgs (F := F)) Gen.adm (pdats m) () defs₀ Variants.none L lv 3 :=
  regOf (pdats m) 3 (Gen.V15 m (outs m)) (Gen.V16 m (outs m)) launch3 (body_obligation3 _) (owed3 _) (recorded3 _ · 0) (share3 _)
    (A_eq3 _) (hin3 _) (hout3 _) (exit3 m) [main_v61] (by decide) (Gen.V16_of m (outs m))

set_option backward.isDefEq.respectTransparency.types false in
def reg4 : Pipeline.RegionSeg (pcfgs (F := F)) Gen.adm (pdats m) () defs₀ Variants.none L lv 4 :=
  regOf (pdats m) 4 (Gen.V17 m (outs m)) (Gen.V18 m (outs m)) launch4 (body_obligation4 _) (owed4 _) (recorded4 _ · 0) (share4 _)
    (A_eq4 _) (hin4 _) (hout4 _) (exit4 m) [main_v66_0, main_v66_1, main_v66_2] (by decide) (Gen.V18_of m (outs m))

set_option backward.isDefEq.respectTransparency.types false in
def reg5 : Pipeline.RegionSeg (pcfgs (F := F)) Gen.adm (pdats m) () defs₀ Variants.none L lv 5 :=
  regOf (pdats m) 5 (Gen.V19 m (outs m)) (Gen.V20 m (outs m)) launch5 (body_obligation5 _) (owed5 _) (recorded5 _ · 0) (share5 _)
    (A_eq5 _) (hin5 _) (hout5 _) (exit5 m) [main_v81] (by decide) (Gen.V20_of m (outs m))

theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  rw [BI.bigSep_emp_const]
  iintro Hu; imodintro
  isplitl [Hu]
  · iapply (show (ownU (initOf (Pipeline.cells cfgs cellOf_inj) (Pipeline.launchToks cfgs cellOf_inj)) : sProp 𝕄) ⊢ BI.own (emb₁ (initOf (Pipeline.cells cfgs cellOf_inj) (Pipeline.launchToks cfgs cellOf_inj))) from .rfl)
    iexact Hu
  iempintro

theorem R_owes (c : Dev nD) : (R (F := F) c) ⊢ iprop(∃ W, owes (c : Thread nD τ) (0 : CellTallies nD τ sig Unit) W) := by
  iintro ⟨-, HO⟩; iexact HO

set_option backward.isDefEq.respectTransparency.types false in
/-- Every weakly fair execution of @main from zero counters terminates with every unscoped buffer at the last valuation's contents. -/
theorem run (ρ : Dev nD → PrngReg) : θ_run defs (onTc (τ := τ) (main (F := F))) ⟨m, fun _ => 0, ρ⟩
    (fun r => ∀ c : Dev nD, ∀ b ∈ Pipeline.ucRefs τ sig, r.2.mem ((c : Thread nD τ).1, b) = Gen.V20 m (outs m) c b) := by
  refine Pipeline.θ_run_regions_kit_dev (pcfgs (F := F)) Gen.adm (pdats m) () cellOf_inj emb₁ defs₀ Variants.none L lv m ρ main
    (Gen.segs m (outs m) Variants.none L lv (E (F := F)) () (pdats m) (reg0 m) (reg1 m) (reg2 m) (reg3 m) (reg4 m) (reg5 m))
    (fun c Q => by
      rewrite [show main (F := F) c = Pipeline.Seg.run (Gen.segs m (outs m) Variants.none L lv (E (F := F)) () (pdats m) (reg0 m) (reg1 m) (reg2 m) (reg3 m) (reg4 m) (reg5 m) c)
        from (by rewrite [Pipeline.Seg.run_eq_chain]; exact main_chain c)]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj)) (hu₀ := hu₀)
    (T₀ := fun c => iprop(StableHlo.held (c : Thread nD τ) (Pipeline.ucRefs τ sig) (Gen.V0 m c) ∗ E (F := F) 0 c))
    (Tₙ := fun c => StableHlo.held (c : Thread nD τ) (Pipeline.ucRefs τ sig) (Gen.V20 m (outs m) c))
    (hch := fun c => ⟨.rfl, .rfl, .rfl, .rfl, .rfl, .rfl, .rfl, .rfl, .rfl, .rfl, .rfl, .rfl, .rfl, .rfl, .rfl, .rfl, .rfl, .rfl, .rfl, .rfl, sep_mono .rfl (R_owes c)⟩)
    (hinit := ?_)
    (QY := fun c s => ∀ b ∈ Pipeline.ucRefs τ sig, s.mem ((c : Thread nD τ).1, b) = Gen.V20 m (outs m) c b)
    (hfin := fun c s' => ?_) (hQ := fun _ h => h)
  · refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · iintro ⟨Hh, HSI⟩
    unfold StableHlo.held
    imodintro
    iapply (pointsTo_read_all (Pipeline.ucRefs τ sig) (fun b => ((c : Thread nD τ).1, b)) (Gen.V20 m (outs m) c) s')
    isplitl [Hh] <;> iassumption

/-- Every argument array ends holding its launch contents. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  Gen.frame_cond m emb₁ () Variants.none L lv (fun _ _ => rfl) ρ (outs m) (pdats m) 0 (fun _ => iprop(emp))
    (initOf (Pipeline.cells cfgs cellOf_inj) (Pipeline.launchToks cfgs cellOf_inj)) hu₀ (E (F := F))
    (Pipeline.initEach L lv fun c => by
      iintro ⟨⟨-, HO, -, Hp, -⟩, -⟩
      imodintro
      isplitl [Hp]; · iexists _; iexact Hp
      iexists ∅; iexact HO)
    R_owes
    (reg0 m) (fun _ => .rfl) (fun _ => .rfl) (reg1 m) (fun _ => .rfl) (fun _ => .rfl) (reg2 m) (fun _ => .rfl) (fun _ => .rfl)
    (reg3 m) (fun _ => .rfl) (fun _ => .rfl) (reg4 m) (fun _ => .rfl) (fun _ => .rfl) (reg5 m) (fun _ => .rfl) (fun _ => .rfl)

end Cert.KernelIdeal.Hand

end
-- ==== Proof.KI.LinVal.lean ====
import proofs.«422945_j10866267259114_2_alg».proof.Proof.KI.Lin

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

namespace Lin

section Body

variable (c : Dev nD) (i : grid0.Coords)
  (xM : Memref sig .tc .vmem S2000x256 .f32) (hxM : xM.IsWhole)
  (aM : Memref sig .tc .vmem S2000x256 .f32) (haM : aM.IsWhole)
  (sM : Memref sig .tc .vmem S1x256 .f32) (hsM : sM.IsWhole)
  (wM : Memref sig .tc .vmem S256x256 .f32) (hwM : wM.IsWhole)
  (bM : Memref sig .tc .vmem S1x256 .f32) (hbM : bM.IsWhole)
  (linM : Memref sig .tc .vmem S2000x256 .f32) (hlinM : linM.IsWhole)
  (sumM : Memref sig .tc .vmem S1x256 .f32) (hsumM : sumM.IsWhole)
  (sqM : Memref sig .tc .vmem S1x256 .f32) (hsqM : sqM.IsWhole)
  (accM : Memref sig .tc .vmem S1x256 .f32) (haccM : accM.IsWhole)
  (acc2M : Memref sig .tc .vmem S1x256 .f32) (hacc2M : acc2M.IsWhole)
  (x : Vec F S2000x256 .f32) (a : Vec F S2000x256 .f32) (s : Vec F S1x256 .f32) (w : Vec F S256x256 .f32) (b : Vec F S1x256 .f32)

theorem zeroOff : (![0, 0] : Fin 2 → ℕ) = fun _ => 0 := by funext k; fin_cases k <;> rfl

-- Every store covers its whole buffer, so what remains is the last store's payload.
theorem first_eq (hF : atFirst i) (hL : ¬atLast i) (u : Vec F S1x256 .f32) :
    leaves (runFirst c i xM hxM aM haM sM hsM wM hwM bM hbM linM hlinM sumM hsumM sqM hsqM accM haccM acc2M hacc2M x a s w b hF hL).1 (runFirst c i xM hxM aM haM sM hsM wM hwM bM hbM linM hlinM sumM hsumM sqM hsqM accM haccM acc2M hacc2M x a s w b hF hL).2.1 (runFirst c i xM hxM aM haM sM hsM wM hwM bM hbM linM hlinM sumM hsumM sqM hsqM accM haccM acc2M hacc2M x a s w b hF hL).2.2.1 u
      = (k0_pay4 s x a w b, u, u, k0_pay5 s x a w b (k0_pay2 (F := F)), k0_pay1 (k0_pay6 s x a w b (k0_pay3 (F := F)))) := by
  unfold leaves runFirst; dsimp only; sl_unfold_words
  simp only [View.canon_cons_unit_zero (S := S1x256) zeroOff, View.canon_cons_unit_zero (S := S2000x256) zeroOff,
    View.readCov_unit_zero (S := S1x256) _ zeroOff, View.readAt_eq_ld, hxM.read_unread, haM.read_unread, hsM.read_unread,
    hwM.read_unread, hbM.read_unread, haccM.read_unread, hacc2M.read_unread, View.ld_unit_zero (S := S1x256) zeroOff,
    View.ld_unit_zero (S := S2000x256) zeroOff, View.ld_unit_zero (S := S256x256) zeroOff]

theorem mid_eq (hF : ¬atFirst i) (hL : ¬atLast i) (p p2 u : Vec F S1x256 .f32) :
    leaves (runMid c i xM hxM aM haM sM hsM wM hwM bM hbM linM hlinM sumM hsumM sqM hsqM accM haccM acc2M hacc2M x a s w b hF hL p p2).1 (runMid c i xM hxM aM haM sM hsM wM hwM bM hbM linM hlinM sumM hsumM sqM hsqM accM haccM acc2M hacc2M x a s w b hF hL p p2).2.1 (runMid c i xM hxM aM haM sM hsM wM hwM bM hbM linM hlinM sumM hsumM sqM hsqM accM haccM acc2M hacc2M x a s w b hF hL p p2).2.2.1 u
      = (k0_pay4 s x a w b, u, u, k0_pay5 s x a w b p, k0_pay1 (k0_pay6 s x a w b p2)) := by
  unfold leaves runMid; dsimp only; sl_unfold_words
  simp only [View.canon_cons_unit_zero (S := S1x256) zeroOff, View.canon_cons_unit_zero (S := S2000x256) zeroOff,
    View.readCov_unit_zero (S := S1x256) _ zeroOff, View.readAt_eq_ld, hxM.read_unread, haM.read_unread, hsM.read_unread,
    hwM.read_unread, hbM.read_unread, haccM.read_unread, hacc2M.read_unread, View.ld_unit_zero (S := S1x256) zeroOff,
    View.ld_unit_zero (S := S2000x256) zeroOff, View.ld_unit_zero (S := S256x256) zeroOff]

theorem last_eq (hF : ¬atFirst i) (hL : atLast i) (p p2 : Vec F S1x256 .f32) :
    leavesLast (runLast c i xM hxM aM haM sM hsM wM hwM bM hbM linM hlinM sumM hsumM sqM hsqM accM haccM acc2M hacc2M x a s w b hF hL p p2).1 (runLast c i xM hxM aM haM sM hsM wM hwM bM hbM linM hlinM sumM hsumM sqM hsqM accM haccM acc2M hacc2M x a s w b hF hL p p2).2.1 (runLast c i xM hxM aM haM sM hsM wM hwM bM hbM linM hlinM sumM hsumM sqM hsqM accM haccM acc2M hacc2M x a s w b hF hL p p2).2.2.1 (runLast c i xM hxM aM haM sM hsM wM hwM bM hbM linM hlinM sumM hsumM sqM hsqM accM haccM acc2M hacc2M x a s w b hF hL p p2).2.2.2.1 (runLast c i xM hxM aM haM sM hsM wM hwM bM hbM linM hlinM sumM hsumM sqM hsqM accM haccM acc2M hacc2M x a s w b hF hL p p2).2.2.2.2.1
      = (k0_pay4 s x a w b, k0_pay5 s x a w b p, k0_pay1 (k0_pay6 s x a w b p2), k0_pay5 s x a w b p, k0_pay1 (k0_pay6 s x a w b p2)) := by
  unfold leavesLast runLast; dsimp only; sl_unfold_words
  simp only [View.canon_cons_unit_zero (S := S1x256) zeroOff, View.canon_cons_unit_zero (S := S2000x256) zeroOff,
    View.readCov_unit_zero (S := S1x256) _ zeroOff, View.readAt_eq_ld, hxM.read_unread, haM.read_unread, hsM.read_unread,
    hwM.read_unread, hbM.read_unread, haccM.read_unread, hacc2M.read_unread, View.ld_unit_zero (S := S1x256) zeroOff,
    View.ld_unit_zero (S := S2000x256) zeroOff, View.ld_unit_zero (S := S256x256) zeroOff]

end Body

end Lin

end Cert.KernelIdeal.Hand

end
-- ==== Proof.KI.Reg0Val.lean ====
import proofs.«422945_j10866267259114_2_alg».proof.Proof.KI.Reg0
import proofs.«422945_j10866267259114_2_alg».proof.Proof.KI.LinVal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

open Lin

namespace Reg0

abbrev linAt (c : Dev nD) (t : Fin cfg0.N) : Vec F S2000x256 .f32 := k0_pay4 (scaleBlk V c t) (xBlk V c t) (aggrBlk V c t) (wBlk V c t) (biasBlk V c t)

abbrev sumStep (c : Dev nD) (t : Fin cfg0.N) (p : Vec F S1x256 .f32) : Vec F S1x256 .f32 := k0_pay5 (scaleBlk V c t) (xBlk V c t) (aggrBlk V c t) (wBlk V c t) (biasBlk V c t) p

abbrev sqStep (c : Dev nD) (t : Fin cfg0.N) (p2 : Vec F S1x256 .f32) : Vec F S1x256 .f32 := k0_pay1 (k0_pay6 (scaleBlk V c t) (xBlk V c t) (aggrBlk V c t) (wBlk V c t) (biasBlk V c t) p2)

theorem leftFirst_eq (c : Dev nD) (t : Fin cfg0.N) (h0 : t.val = 0) :
    leftFirst V c t h0 = (linAt V c t, unread, unread, sumStep V c t (k0_pay2 (F := F)), sqStep V c t (k0_pay3 (F := F))) := by
  unfold leftFirst firstAt; exact first_eq ..

theorem leftMid_eq (c : Dev nD) (t : Fin cfg0.N) (h0 : t.val ≠ 0) (h24 : t.val ≠ 24) (p p2 : Vec F S1x256 .f32) :
    leftMid V c t h0 h24 p p2 = (linAt V c t, unread, unread, sumStep V c t p, sqStep V c t p2) := by
  unfold leftMid midAt; exact mid_eq ..

theorem leftLast_eq (c : Dev nD) (t : Fin cfg0.N) (h24 : t.val = 24) (p p2 : Vec F S1x256 .f32) :
    leftLast V c t h24 p p2 = (linAt V c t, sumStep V c t p, sqStep V c t p2, sumStep V c t p, sqStep V c t p2) := by
  unfold leftLast lastAt; exact last_eq ..

theorem outsAt_first_eq (c : Dev nD) (t : Fin cfg0.N) (h0 : t.val = 0) :
    outsAt V c t.val t.isLt = (linAt V c t, unread, unread, sumStep V c t (k0_pay2 (F := F)), sqStep V c t (k0_pay3 (F := F))) :=
  (outsAt_first V c t h0).trans (leftFirst_eq V c t h0)

theorem outsAt_mid_eq (c : Dev nD) (t : Fin cfg0.N) (h0 : t.val ≠ 0) (h24 : t.val ≠ 24) :
    outsAt V c t.val t.isLt = (linAt V c t, unread, unread, sumStep V c t (outsAt V c (t.val - 1) (Nat.lt_of_le_of_lt (Nat.sub_le _ _) t.isLt)).2.2.2.1, sqStep V c t (outsAt V c (t.val - 1) (Nat.lt_of_le_of_lt (Nat.sub_le _ _) t.isLt)).2.2.2.2) :=
  (outsAt_mid V c t h0 h24).trans (leftMid_eq V c t h0 h24 _ _)

theorem outsAt_last_eq (c : Dev nD) (t : Fin cfg0.N) (h24 : t.val = 24) :
    outsAt V c t.val t.isLt = (linAt V c t, sumStep V c t (outsAt V c (t.val - 1) (Nat.lt_of_le_of_lt (Nat.sub_le _ _) t.isLt)).2.2.2.1, sqStep V c t (outsAt V c (t.val - 1) (Nat.lt_of_le_of_lt (Nat.sub_le _ _) t.isLt)).2.2.2.2,
      sumStep V c t (outsAt V c (t.val - 1) (Nat.lt_of_le_of_lt (Nat.sub_le _ _) t.isLt)).2.2.2.1, sqStep V c t (outsAt V c (t.val - 1) (Nat.lt_of_le_of_lt (Nat.sub_le _ _) t.isLt)).2.2.2.2) :=
  (outsAt_last V c t h24).trans (leftLast_eq V c t h24 _ _)

end Reg0

end Cert.KernelIdeal.Hand

end
-- ==== Proof.KI.Pay.lean ====
import proofs.«422945_j10866267259114_2_alg».proof.Proof.Gen.KernelIdeal.Skeleton
import proofs.«422945_j10866267259114_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.ValueIdx
open scoped BigOperators

theorem k0_pay1_eq (v : FVec Ideal S1x256 .f32) : k0_pay1 v = v := by
  unfold k0_pay1
  exact shapeCast_self v _

theorem k0_pay2_apply (q : Fin 256) : (k0_pay2 (F := Ideal)) (ix2 (0 : Fin 1) q) = 0 := by
  unfold k0_pay2
  simp only [shapeCast_self, broadcast_apply]
  exact Ideal.ofBits_zero_f32

theorem k0_pay3_apply (q : Fin 256) : (k0_pay3 (F := Ideal)) (ix2 (0 : Fin 1) q) = 0 := by
  unfold k0_pay3
  simp only [shapeCast_self, broadcast_apply]
  exact Ideal.ofBits_zero_f32

theorem k4_pay1_eq (v : FVec Ideal S1x256 .f32) : k4_pay1 v = v := by
  unfold k4_pay1
  exact shapeCast_self v _

theorem k4_pay2_apply (q : Fin 256) : (k4_pay2 (F := Ideal)) (ix2 (0 : Fin 1) q) = 0 := by
  unfold k4_pay2
  simp only [shapeCast_self, broadcast_apply]
  exact Ideal.ofBits_zero_f32

theorem k4_pay3_apply (q : Fin 256) : (k4_pay3 (F := Ideal)) (ix2 (0 : Fin 1) q) = 0 := by
  unfold k4_pay3
  simp only [shapeCast_self, broadcast_apply]
  exact Ideal.ofBits_zero_f32

theorem k4_pay4_apply (x : Vec Ideal S2000x256 .f32) (a1 : Vec Ideal S1x256 .f32) (hd : Vec Ideal S2000x256 .f32)
    (a2 : Vec Ideal S1x256 .f32) (hu : Vec Ideal S2000x256 .f32) (p : Fin 2000) (q : Fin 256) :
    k4_pay4 x a1 hd a2 hu (ix2 p q)
      = x (ix2 p q) + a1 (ix2 (0 : Fin 1) q) * hd (ix2 p q) + a2 (ix2 (0 : Fin 1) q) * hu (ix2 p q) := by
  unfold k4_pay4
  simp only [shapeCast_self, addf_apply, mulf_apply, broadcastTo_1b_ab_apply]

theorem k5_pay1_apply (h : Vec Ideal S5000x256 .f32) (g mu var bt : Vec Ideal S1x256 .f32) (p : Fin 5000) (q : Fin 256) :
    k5_pay1 h g mu var bt (ix2 p q)
      = max (g (ix2 (0 : Fin 1) q) * (h (ix2 p q) - mu (ix2 (0 : Fin 1) q))
            * Ideal.rsqrt (var (ix2 (0 : Fin 1) q) + Spec.epsW) + bt (ix2 (0 : Fin 1) q)) Spec.zeroW := by
  unfold k5_pay1
  simp only [shapeCast_self, maximumf_apply, addf_apply, mulf_apply, subf_apply, broadcastTo_1b_ab_apply, broadcast_apply]
  rfl

theorem lhs_rows2000_0 (i : S2000x256.Idx) (c : dot_S2000x256_S256x256_S2000x256_1_0_0_1_n_n.contr.Idx) :
    (dot_S2000x256_S256x256_S2000x256_1_0_0_1_n_n.lhsIdx i c 0).val = (i 0).val := by
  unfold DotDims.lhsIdx
  rw [dif_neg (show ¬(0 : Fin S2000x256.rank) ∈ dot_S2000x256_S256x256_S2000x256_1_0_0_1_n_n.lhsBatch by decide),
    dif_pos (show (0 : Fin S2000x256.rank) ∈ dot_S2000x256_S256x256_S2000x256_1_0_0_1_n_n.lhsNonContracting by decide)]
  rfl

theorem lhs_rows2000_1 (i : S2000x256.Idx) (c : dot_S2000x256_S256x256_S2000x256_1_0_0_1_n_n.contr.Idx) :
    (dot_S2000x256_S256x256_S2000x256_1_0_0_1_n_n.lhsIdx i c 1).val = (c ⟨0, by decide⟩).val :=
  dot_S2000x256_S256x256_S2000x256_1_0_0_1_n_n.lhsIdx_val_of_single rfl i c

theorem rhs_rows2000_0 (i : S2000x256.Idx) (c : dot_S2000x256_S256x256_S2000x256_1_0_0_1_n_n.contr.Idx) :
    (dot_S2000x256_S256x256_S2000x256_1_0_0_1_n_n.rhsIdx i c 0).val = (c ⟨0, by decide⟩).val :=
  dot_S2000x256_S256x256_S2000x256_1_0_0_1_n_n.rhsIdx_val_of_single rfl i c

theorem rhs_rows2000_1 (i : S2000x256.Idx) (c : dot_S2000x256_S256x256_S2000x256_1_0_0_1_n_n.contr.Idx) :
    (dot_S2000x256_S256x256_S2000x256_1_0_0_1_n_n.rhsIdx i c 1).val = (i 1).val := by
  unfold DotDims.rhsIdx
  rw [dif_neg (show ¬(1 : Fin S256x256.rank) ∈ dot_S2000x256_S256x256_S2000x256_1_0_0_1_n_n.rhsBatch by decide),
    dif_pos (show (1 : Fin S256x256.rank) ∈ dot_S2000x256_S256x256_S2000x256_1_0_0_1_n_n.rhsNonContracting by decide)]
  rfl

theorem matmul_rows2000_apply (A : FVec Ideal S2000x256 .bf16) (B : FVec Ideal S256x256 .bf16) (p : Fin 2000) (q : Fin 256) :
    matmul dot_S2000x256_S256x256_S2000x256_1_0_0_1_n_n none A B (constant (F := Ideal) S2000x256 .f32 0x00000000#32) (ix2 p q)
      = ∑ k : Fin 256, A (ix2 p k) * B (ix2 k q) := by
  simp only [matmul]
  rw [Ideal.matmul_constant_zero_apply, ← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p q) ((contrEquiv1 dot_S2000x256_S256x256_S2000x256_1_0_0_1_n_n 256 rfl rfl).symm k) = ix2 p k :=
    funext fun a => Fin.ext (by
      match a with
      | ⟨0, _⟩ => exact lhs_rows2000_0 _ _
      | ⟨1, _⟩ => exact (lhs_rows2000_1 _ _).trans hk)
  have er : dot_S2000x256_S256x256_S2000x256_1_0_0_1_n_n.rhsIdx (ix2 p q) ((contrEquiv1 dot_S2000x256_S256x256_S2000x256_1_0_0_1_n_n 256 rfl rfl).symm k) = ix2 k q :=
    funext fun a => Fin.ext (by
      match a with
      | ⟨0, _⟩ => exact (rhs_rows2000_0 _ _).trans hk
      | ⟨1, _⟩ => exact rhs_rows2000_1 _ _)
  rw [el, er]

theorem lhs_rows5000_0 (i : S5000x256.Idx) (c : dot_S5000x256_S256x256_S5000x256_1_0_0_1_n_n.contr.Idx) :
    (dot_S5000x256_S256x256_S5000x256_1_0_0_1_n_n.lhsIdx i c 0).val = (i 0).val := by
  unfold DotDims.lhsIdx
  rw [dif_neg (show ¬(0 : Fin S5000x256.rank) ∈ dot_S5000x256_S256x256_S5000x256_1_0_0_1_n_n.lhsBatch by decide),
    dif_pos (show (0 : Fin S5000x256.rank) ∈ dot_S5000x256_S256x256_S5000x256_1_0_0_1_n_n.lhsNonContracting by decide)]
  rfl

theorem lhs_rows5000_1 (i : S5000x256.Idx) (c : dot_S5000x256_S256x256_S5000x256_1_0_0_1_n_n.contr.Idx) :
    (dot_S5000x256_S256x256_S5000x256_1_0_0_1_n_n.lhsIdx i c 1).val = (c ⟨0, by decide⟩).val :=
  dot_S5000x256_S256x256_S5000x256_1_0_0_1_n_n.lhsIdx_val_of_single rfl i c

theorem rhs_rows5000_0 (i : S5000x256.Idx) (c : dot_S5000x256_S256x256_S5000x256_1_0_0_1_n_n.contr.Idx) :
    (dot_S5000x256_S256x256_S5000x256_1_0_0_1_n_n.rhsIdx i c 0).val = (c ⟨0, by decide⟩).val :=
  dot_S5000x256_S256x256_S5000x256_1_0_0_1_n_n.rhsIdx_val_of_single rfl i c

theorem rhs_rows5000_1 (i : S5000x256.Idx) (c : dot_S5000x256_S256x256_S5000x256_1_0_0_1_n_n.contr.Idx) :
    (dot_S5000x256_S256x256_S5000x256_1_0_0_1_n_n.rhsIdx i c 1).val = (i 1).val := by
  unfold DotDims.rhsIdx
  rw [dif_neg (show ¬(1 : Fin S256x256.rank) ∈ dot_S5000x256_S256x256_S5000x256_1_0_0_1_n_n.rhsBatch by decide),
    dif_pos (show (1 : Fin S256x256.rank) ∈ dot_S5000x256_S256x256_S5000x256_1_0_0_1_n_n.rhsNonContracting by decide)]
  rfl

theorem matmul_rows5000_apply (A : FVec Ideal S5000x256 .bf16) (B : FVec Ideal S256x256 .bf16) (p : Fin 5000) (q : Fin 256) :
    matmul dot_S5000x256_S256x256_S5000x256_1_0_0_1_n_n none A B (constant (F := Ideal) S5000x256 .f32 0x00000000#32) (ix2 p q)
      = ∑ k : Fin 256, A (ix2 p k) * B (ix2 k q) := by
  simp only [matmul]
  rw [Ideal.matmul_constant_zero_apply, ← Equiv.sum_comp (contrEquiv1 dot_S5000x256_S256x256_S5000x256_1_0_0_1_n_n 256 rfl rfl).symm]
  refine Finset.sum_congr rfl fun k _ => ?_
  have hk := contrEquiv1_symm_val dot_S5000x256_S256x256_S5000x256_1_0_0_1_n_n 256 rfl rfl k
  have el : dot_S5000x256_S256x256_S5000x256_1_0_0_1_n_n.lhsIdx (ix2 p q) ((contrEquiv1 dot_S5000x256_S256x256_S5000x256_1_0_0_1_n_n 256 rfl rfl).symm k) = ix2 p k :=
    funext fun a => Fin.ext (by
      match a with
      | ⟨0, _⟩ => exact lhs_rows5000_0 _ _
      | ⟨1, _⟩ => exact (lhs_rows5000_1 _ _).trans hk)
  have er : dot_S5000x256_S256x256_S5000x256_1_0_0_1_n_n.rhsIdx (ix2 p q) ((contrEquiv1 dot_S5000x256_S256x256_S5000x256_1_0_0_1_n_n 256 rfl rfl).symm k) = ix2 k q :=
    funext fun a => Fin.ext (by
      match a with
      | ⟨0, _⟩ => exact (rhs_rows5000_0 _ _).trans hk
      | ⟨1, _⟩ => exact rhs_rows5000_1 _ _)
  rw [el, er]

theorem k0_pay4_apply (s : Vec Ideal S1x256 .f32) (x a : Vec Ideal S2000x256 .f32) (W : Vec Ideal S256x256 .f32)
    (b : Vec Ideal S1x256 .f32) (p : Fin 2000) (q : Fin 256) :
    k0_pay4 s x a W b (ix2 p q)
      = (∑ k : Fin 256, (s (ix2 (0 : Fin 1) k) * x (ix2 p k) + a (ix2 p k)) * W (ix2 k q)) + b (ix2 (0 : Fin 1) q) := by
  unfold k0_pay4
  simp only [shapeCast_self, addf_apply, matmul_rows2000_apply, truncf_apply, mulf_apply, broadcastTo_1b_ab_apply]

theorem k1_pay1_apply (h : Vec Ideal S5000x256 .f32) (g mu var bt : Vec Ideal S1x256 .f32) (W : Vec Ideal S256x256 .f32)
    (b : Vec Ideal S1x256 .f32) (p : Fin 5000) (q : Fin 256) :
    k1_pay1 h g mu var bt W b (ix2 p q)
      = (∑ k : Fin 256, max (g (ix2 (0 : Fin 1) k) * (h (ix2 p k) - mu (ix2 (0 : Fin 1) k))
            * Ideal.rsqrt (var (ix2 (0 : Fin 1) k) + Spec.epsW) + bt (ix2 (0 : Fin 1) k)) Spec.zeroW * W (ix2 k q))
        + b (ix2 (0 : Fin 1) q) := by
  unfold k1_pay1
  simp only [shapeCast_self, addf_apply, matmul_rows5000_apply, truncf_apply, maximumf_apply, mulf_apply, subf_apply,
    broadcastTo_1b_ab_apply, broadcast_apply]
  rfl

theorem colsum_rows2000_apply (src : FVec Ideal S2000x256 .f32) (q : Fin 256) :
    shapeCast S1x256
        (multiReduction (F := Ideal) .add [0] S256 src 0x00000000#32 reduces_S2000x256_S256 (.inl rfl) rfl)
        shapeCasts_S256_S1x256 (ix2 (0 : Fin 1) q)
      = ∑ p : Fin 2000, src (ix2 p q) := by
  rw [shapeCast_a_1a_apply]
  refine (Ideal.multiReduction_add_single src 0x00000000#32 reduces_S2000x256_S256 (.inl rfl) rfl (ix1 q)).trans ?_
  refine Finset.sum_congr rfl fun p _ => congrArg src (funext fun a => Fin.ext ?_)
  match a with
  | ⟨0, _⟩ => rfl
  | ⟨1, _⟩ => rfl

theorem k0_pay5_apply (s : Vec Ideal S1x256 .f32) (x a : Vec Ideal S2000x256 .f32) (W : Vec Ideal S256x256 .f32)
    (b acc : Vec Ideal S1x256 .f32) (q : Fin 256) :
    k0_pay5 s x a W b acc (ix2 (0 : Fin 1) q)
      = acc (ix2 (0 : Fin 1) q) + ∑ p : Fin 2000, k0_pay4 s x a W b (ix2 p q) := by
  unfold k0_pay5
  simp only [shapeCast_self, addf_apply]
  exact congrArg (acc (ix2 (0 : Fin 1) q) + ·) (colsum_rows2000_apply _ q)

theorem k0_pay6_apply (s : Vec Ideal S1x256 .f32) (x a : Vec Ideal S2000x256 .f32) (W : Vec Ideal S256x256 .f32)
    (b acc : Vec Ideal S1x256 .f32) (q : Fin 256) :
    k0_pay6 s x a W b acc (ix2 (0 : Fin 1) q)
      = acc (ix2 (0 : Fin 1) q) + ∑ p : Fin 2000, k0_pay4 s x a W b (ix2 p q) * k0_pay4 s x a W b (ix2 p q) := by
  unfold k0_pay6
  simp only [addf_apply]
  refine congrArg (acc (ix2 (0 : Fin 1) q) + ·) ((colsum_rows2000_apply _ q).trans ?_)
  exact Finset.sum_congr rfl fun p _ => mulf_apply _ _ _

theorem k4_pay5_apply (x : Vec Ideal S2000x256 .f32) (a1 : Vec Ideal S1x256 .f32) (hd : Vec Ideal S2000x256 .f32)
    (a2 : Vec Ideal S1x256 .f32) (hu : Vec Ideal S2000x256 .f32) (acc : Vec Ideal S1x256 .f32) (q : Fin 256) :
    k4_pay5 x a1 hd a2 hu acc (ix2 (0 : Fin 1) q)
      = acc (ix2 (0 : Fin 1) q) + ∑ p : Fin 2000, k4_pay4 x a1 hd a2 hu (ix2 p q) := by
  unfold k4_pay5
  simp only [shapeCast_self, addf_apply]
  exact congrArg (acc (ix2 (0 : Fin 1) q) + ·) (colsum_rows2000_apply _ q)

theorem k4_pay6_apply (x : Vec Ideal S2000x256 .f32) (a1 : Vec Ideal S1x256 .f32) (hd : Vec Ideal S2000x256 .f32)
    (a2 : Vec Ideal S1x256 .f32) (hu : Vec Ideal S2000x256 .f32) (acc : Vec Ideal S1x256 .f32) (q : Fin 256) :
    k4_pay6 x a1 hd a2 hu acc (ix2 (0 : Fin 1) q)
      = acc (ix2 (0 : Fin 1) q) + ∑ p : Fin 2000, k4_pay4 x a1 hd a2 hu (ix2 p q) * k4_pay4 x a1 hd a2 hu (ix2 p q) := by
  unfold k4_pay6
  simp only [addf_apply]
  refine congrArg (acc (ix2 (0 : Fin 1) q) + ·) ((colsum_rows2000_apply _ q).trans ?_)
  exact Finset.sum_congr rfl fun p _ => mulf_apply _ _ _

end Cert.KernelIdeal.Hand

end
-- ==== Proof.Alg.BlockSum.lean ====
import Mathlib.Algebra.BigOperators.Group.Finset.Basic
import Mathlib.Data.Fintype.BigOperators
import Mathlib.Logic.Equiv.Fin.Basic

namespace Cert.Alg.BlockSum

open scoped BigOperators

variable {M : Type*} [AddCommMonoid M]

theorem blk_lt {N m n : ℕ} (h : m * n = N) (t : Fin m) (p : Fin n) : n * t.1 + p.1 < N := by
  have h1 : n * (t.1 + 1) ≤ n * m := Nat.mul_le_mul_left n (Nat.succ_le_of_lt t.2)
  rw [Nat.mul_succ] at h1
  have h2 : p.1 < n := p.2
  have h3 : n * m = N := by rw [Nat.mul_comm]; exact h
  omega

theorem sum_blocks {N m n : ℕ} (h : m * n = N) (f : Fin N → M) :
    ∑ r : Fin N, f r = ∑ t : Fin m, ∑ p : Fin n, f ⟨n * t.1 + p.1, blk_lt h t p⟩ := by
  subst h
  calc ∑ r : Fin (m * n), f r
      = ∑ x : Fin m × Fin n, f (finProdFinEquiv x) :=
        (Fintype.sum_equiv finProdFinEquiv (fun x => f (finProdFinEquiv x)) f (fun _ => rfl)).symm
    _ = ∑ t : Fin m, ∑ p : Fin n, f (finProdFinEquiv (t, p)) := Fintype.sum_prod_type _
    _ = ∑ t : Fin m, ∑ p : Fin n, f ⟨n * t.1 + p.1, blk_lt rfl t p⟩ :=
        Finset.sum_congr rfl (fun t _ => Finset.sum_congr rfl (fun p _ =>
          congrArg f (Fin.ext (by simp [Nat.add_comm]))))

theorem fold_range (z : M) (g acc : ℕ → M) (n : ℕ) (h0 : acc 0 = z + g 0)
    (hs : ∀ t, t < n → acc (t + 1) = acc t + g (t + 1)) :
    acc n = z + ∑ t ∈ Finset.range (n + 1), g t := by
  induction n with
  | zero => simpa using h0
  | succ k ih =>
    rw [hs k (Nat.lt_succ_self k), ih (fun t ht => hs t (Nat.lt_succ_of_lt ht)),
      Finset.sum_range_succ g (k + 1), add_assoc]

theorem fold_fin (z : M) (g acc : ℕ → M) (n : ℕ) (h0 : acc 0 = z + g 0)
    (hs : ∀ t, t < n → acc (t + 1) = acc t + g (t + 1)) :
    acc n = z + ∑ t : Fin (n + 1), g t.1 := by
  rw [Fin.sum_univ_eq_sum_range g (n + 1)]
  exact fold_range z g acc n h0 hs

theorem fold_fin' (z : M) (n : ℕ) (g : Fin (n + 1) → M) (acc : ℕ → M)
    (h0 : acc 0 = z + g ⟨0, Nat.succ_pos n⟩)
    (hs : ∀ t (ht : t + 1 < n + 1), acc (t + 1) = acc t + g ⟨t + 1, ht⟩) :
    acc n = z + ∑ t : Fin (n + 1), g t := by
  have key := fold_fin z (fun t => if ht : t < n + 1 then g ⟨t, ht⟩ else 0) acc n
    (by rw [h0, dif_pos (Nat.succ_pos n)])
    (fun t ht => by rw [hs t (Nat.succ_lt_succ ht), dif_pos (Nat.succ_lt_succ ht)])
  rw [key]
  exact congrArg (z + ·) (Finset.sum_congr rfl (fun t _ => by rw [dif_pos t.2]))

theorem fold_blocks {N n k : ℕ} (h : (k + 1) * n = N) (z : M) (f : Fin N → M) (g : Fin (k + 1) → M)
    (hg : ∀ t : Fin (k + 1), g t = ∑ p : Fin n, f ⟨n * t.1 + p.1, blk_lt h t p⟩) (acc : ℕ → M)
    (h0 : acc 0 = z + g ⟨0, Nat.succ_pos k⟩)
    (hs : ∀ t (ht : t + 1 < k + 1), acc (t + 1) = acc t + g ⟨t + 1, ht⟩) :
    acc k = z + ∑ r : Fin N, f r := by
  rw [fold_fin' z k g acc h0 hs, sum_blocks h f]
  exact congrArg (z + ·) (Finset.sum_congr rfl (fun t _ => hg t))

theorem fold_25x2000 (z : M) (f : Fin 50000 → M) (g : Fin 25 → M)
    (hg : ∀ t : Fin 25, g t = ∑ p : Fin 2000, f ⟨2000 * t.1 + p.1, blk_lt (m := 25) (n := 2000) rfl t p⟩)
    (acc : ℕ → M) (h0 : acc 0 = z + g ⟨0, by omega⟩)
    (hs : ∀ t (ht : t + 1 < 25), acc (t + 1) = acc t + g ⟨t + 1, ht⟩) :
    acc 24 = z + ∑ r : Fin 50000, f r :=
  fold_blocks (k := 24) (n := 2000) rfl z f g hg acc h0 hs

end Cert.Alg.BlockSum
-- ==== Proof.KI.ValAcc.lean ====
import proofs.«422945_j10866267259114_2_alg».proof.Proof.Spec
import proofs.«422945_j10866267259114_2_alg».proof.Proof.Alg.BlockSum
import Idealize.ShloMosaic.Lib.Pipeline.Value

noncomputable section

namespace Cert.Acc

open Idealize.ShloMosaic Idealize.ShloMosaic.ValueIdx
open scoped BigOperators
open Cert.Alg.BlockSum

/-- A row of 256 reals, and a block of 2000 rows. -/
abbrev Row : Type := (⟨2, ![1, 256]⟩ : Shape).Idx → EReal
abbrev Blk : Type := (⟨2, ![2000, 256]⟩ : Shape).Idx → EReal

/-- Two one-row contents read through index maps with equal columns agree when the rows do: the row index can only be 0. -/
theorem row_read_eq {α : Type} {S : Shape} (X G : (⟨2, ![1, 256]⟩ : Shape).Idx → α) (e e' : S.Idx → (⟨2, ![1, 256]⟩ : Shape).Idx)
    (he : ∀ y, ((e y) 1).val = ((e' y) 1).val) (h : ∀ q : Fin 256, X (ix2 (0 : Fin 1) q) = G (ix2 (0 : Fin 1) q)) (y : S.Idx) :
    X (e y) = G (e' y) := by
  have r : ∀ j : (⟨2, ![1, 256]⟩ : Shape).Idx, j = ix2 (0 : Fin 1) (j 1) := fun j =>
    Shape.idx_ext₂ (by have h1 : (j 0).val < 1 := (j 0).isLt; show (j 0).val = 0; omega) rfl
  rw [r (e y), r (e' y), show (e' y) 1 = (e y) 1 from Fin.ext (he y).symm]
  exact h _

/-- A block read through `e` is the array read through `e'` when `e'` is `e` moved down `T` blocks of 2000 rows and the block is the array's block `T`. -/
theorem blk_read_eq {α : Type} {S : Shape} (X : (⟨2, ![2000, 256]⟩ : Shape).Idx → α) (A : (⟨2, ![50000, 256]⟩ : Shape).Idx → α)
    (e : S.Idx → (⟨2, ![2000, 256]⟩ : Shape).Idx) (e' : S.Idx → (⟨2, ![50000, 256]⟩ : Shape).Idx) (T : ℕ)
    (he0 : ∀ y, ((e' y) 0).val = 2000 * T + ((e y) 0).val) (he1 : ∀ y, ((e' y) 1).val = ((e y) 1).val)
    (h : ∀ (p : Fin 2000) (q : Fin 256) (r : Fin 50000), r.val = 2000 * T + p.val → X (ix2 p q) = A (ix2 r q)) (y : S.Idx) :
    X (e y) = A (e' y) := by
  rw [eq_ix2 (e y), eq_ix2 (e' y), show (e' y) 1 = (e y) 1 from Fin.ext (he1 y)]
  exact h _ _ _ (he0 y)

variable {N : ℕ} (hN : N = 25) (s : (n : ℕ) → n < N → Row) (step : Fin N → Row → Row) (z : Row)
  (hfirst : ∀ t : Fin N, t.val = 0 → s t.val t.isLt = step t z)
  (hstep : ∀ t : Fin N, t.val ≠ 0 → s t.val t.isLt = step t (s (t.val - 1) (Nat.lt_of_le_of_lt (Nat.sub_le _ _) t.isLt)))
  (hz : ∀ q : Fin 256, z (ix2 (0 : Fin 1) q) = 0) (g : Fin N → Blk) (H : Spec.Arr Spec.SND)
  (hg : ∀ (t : Fin N) (p : Fin 2000) (q : Fin 256) (r : Fin 50000), r.val = 2000 * t.val + p.val → g t (ix2 p q) = H (ix2 r q))

include hN hfirst hstep hz hg in
/-- Rows from `step 0 z` (`z` zero), each next the `step` of the one before, `step t` adding block `t`'s column sums of `H`: row 24 holds `H`'s column sums. -/
theorem colsum_last (happ : ∀ t acc (q : Fin 256), step t acc (ix2 (0 : Fin 1) q) = acc (ix2 (0 : Fin 1) q) + ∑ p : Fin 2000, g t (ix2 p q))
    (t : Fin N) (h24 : t.val = 24) (q : Fin 256) : s t.val t.isLt (ix2 (0 : Fin 1) q) = Spec.colsum H (ix1 q) := by
  subst hN
  have key := fold_25x2000 (0 : EReal) (fun r : Fin 50000 => H (ix2 r q)) (fun t : Fin 25 => ∑ p : Fin 2000, g t (ix2 p q))
    (fun t => Finset.sum_congr rfl fun p _ => hg t p q ⟨2000 * t.1 + p.1, blk_lt (m := 25) (n := 2000) rfl t p⟩ rfl)
    (fun n => if h : n < 25 then s n h (ix2 (0 : Fin 1) q) else 0)
    (by rw [dif_pos (by omega)]
        exact (congrFun (hfirst ⟨0, by omega⟩ rfl) _).trans ((happ _ _ q).trans (by rw [hz])))
    (fun n h => by
      rw [dif_pos h, dif_pos (by omega)]
      exact (congrFun (hstep ⟨n + 1, h⟩ (Nat.succ_ne_zero n)) _).trans (happ _ _ q))
  obtain ⟨n, hn⟩ := t
  obtain rfl : n = 24 := h24
  rw [dif_pos hn, zero_add] at key
  exact key

include hN hfirst hstep hz hg in
/-- The same for a `step` that adds the column sums of the squares. -/
theorem colsumsq_last (happ : ∀ t acc (q : Fin 256), step t acc (ix2 (0 : Fin 1) q) = acc (ix2 (0 : Fin 1) q) + ∑ p : Fin 2000, g t (ix2 p q) * g t (ix2 p q))
    (t : Fin N) (h24 : t.val = 24) (q : Fin 256) : s t.val t.isLt (ix2 (0 : Fin 1) q) = Spec.colsum (fun i => H i * H i) (ix1 q) :=
  colsum_last hN s step z hfirst hstep hz (fun t i => g t i * g t i) (fun i => H i * H i)
    (fun t p q r hr => congrArg₂ (· * ·) (hg t p q r hr) (hg t p q r hr)) happ t h24 q

end Cert.Acc

end
-- ==== Proof.KI.ValReg0.lean ====
import proofs.«422945_j10866267259114_2_alg».proof.Proof.KI.Reg0Val
import proofs.«422945_j10866267259114_2_alg».proof.Proof.Spec
import proofs.«422945_j10866267259114_2_alg».proof.Proof.KI.Pay
import proofs.«422945_j10866267259114_2_alg».proof.Proof.KI.ValAcc
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat Cfg Window)

section Generic
variable {F : FTy → Type} [FloatOps F]
variable (V : (c : Dev nD) → (b : Ref sig .tc) → Buf (Elt F) ((c : Thread nD τ).loc b))

theorem idx0_0 : ∀ t : Fin grid0.N, win0_0.index t 0 = t.val ∧ win0_0.index t 1 = 0 := by decide +kernel
theorem idx0_1 : ∀ t : Fin grid0.N, win0_1.index t 0 = t.val ∧ win0_1.index t 1 = 0 := by decide +kernel
theorem idx0_2 : ∀ t : Fin grid0.N, win0_2.index t 0 = 0 ∧ win0_2.index t 1 = 0 := by decide +kernel
theorem idx0_3 : ∀ t : Fin grid0.N, win0_3.index t 0 = 0 ∧ win0_3.index t 1 = 0 := by decide +kernel
theorem idx0_4 : ∀ t : Fin grid0.N, win0_4.index t 0 = 0 ∧ win0_4.index t 1 = 0 := by decide +kernel

theorem iblk0_0_apply (c : Dev nD) (t : Fin cfg0.N) (x : S2000x256.Idx) (k : S50000x256.Idx)
    (hk0 : (k 0).val = 2000 * t.val + (x 0).val) (hk1 : (k 1).val = (x 1).val) :
    (iblk0 V c 0 t : Vec F S2000x256 .f32) x = (V c main_arg0 : S50000x256.Idx → Elt F .f32) k := by
  have hi := idx0_0 t
  unfold iblk0
  rw [View.read_apply]
  refine congrArg (V c main_arg0 : S50000x256.Idx → Elt F .f32) (Shape.idx_ext₂ ?_ ?_)
  · show win0_0.index t 0 * 2000 + 1 * (x 0).val = (k 0).val; rw [hi.1, hk0]; omega
  · show win0_0.index t 1 * 256 + 1 * (x 1).val = (k 1).val; rw [hi.2, hk1]; omega

theorem iblk0_1_apply (c : Dev nD) (t : Fin cfg0.N) (x : S2000x256.Idx) (k : S50000x256.Idx)
    (hk0 : (k 0).val = 2000 * t.val + (x 0).val) (hk1 : (k 1).val = (x 1).val) :
    (iblk0 V c 1 t : Vec F S2000x256 .f32) x = (V c main_v9 : S50000x256.Idx → Elt F .f32) k := by
  have hi := idx0_1 t
  unfold iblk0
  rw [View.read_apply]
  refine congrArg (V c main_v9 : S50000x256.Idx → Elt F .f32) (Shape.idx_ext₂ ?_ ?_)
  · show win0_1.index t 0 * 2000 + 1 * (x 0).val = (k 0).val; rw [hi.1, hk0]; omega
  · show win0_1.index t 1 * 256 + 1 * (x 1).val = (k 1).val; rw [hi.2, hk1]; omega

theorem iblk0_2_eq (c : Dev nD) (t : Fin cfg0.N) :
    (iblk0 V c 2 t : Vec F S1x256 .f32) = (V c main_v12 : S1x256.Idx → Elt F .f32) := by
  have hi := idx0_2 t
  funext x
  unfold iblk0
  rw [View.read_apply]
  refine congrArg (V c main_v12 : S1x256.Idx → Elt F .f32) (Shape.idx_ext₂ ?_ ?_)
  · show win0_2.index t 0 * 1 + 1 * (x 0).val = (x 0).val; rw [hi.1]; omega
  · show win0_2.index t 1 * 256 + 1 * (x 1).val = (x 1).val; rw [hi.2]; omega

theorem iblk0_3_eq (c : Dev nD) (t : Fin cfg0.N) :
    (iblk0 V c 3 t : Vec F S256x256 .f32) = (V c main_arg6 : S256x256.Idx → Elt F .f32) := by
  have hi := idx0_3 t
  funext x
  unfold iblk0
  rw [View.read_apply]
  refine congrArg (V c main_arg6 : S256x256.Idx → Elt F .f32) (Shape.idx_ext₂ ?_ ?_)
  · show win0_3.index t 0 * 256 + 1 * (x 0).val = (x 0).val; rw [hi.1]; omega
  · show win0_3.index t 1 * 256 + 1 * (x 1).val = (x 1).val; rw [hi.2]; omega

theorem iblk0_4_eq (c : Dev nD) (t : Fin cfg0.N) :
    (iblk0 V c 4 t : Vec F S1x256 .f32) = (V c main_v13 : S1x256.Idx → Elt F .f32) := by
  have hi := idx0_4 t
  funext x
  unfold iblk0
  rw [View.read_apply]
  refine congrArg (V c main_v13 : S1x256.Idx → Elt F .f32) (Shape.idx_ext₂ ?_ ?_)
  · show win0_4.index t 0 * 1 + 1 * (x 0).val = (x 0).val; rw [hi.1]; omega
  · show win0_4.index t 1 * 256 + 1 * (x 1).val = (x 1).val; rw [hi.2]; omega

theorem idx0_5 : ∀ t : Fin grid0.N, win0_5.index t 0 = t.val ∧ win0_5.index t 1 = 0
    ∧ win0_5.xsize (grid0.coords t) 0 = 2000 ∧ win0_5.xsize (grid0.coords t) 1 = 256 := by decide +kernel
theorem idx0_6 : ∀ t : Fin grid0.N, win0_6.index t 0 = 0 ∧ win0_6.index t 1 = 0
    ∧ win0_6.xsize (grid0.coords t) 0 = 1 ∧ win0_6.xsize (grid0.coords t) 1 = 256 := by decide +kernel
theorem idx0_7 : ∀ t : Fin grid0.N, win0_7.index t 0 = 0 ∧ win0_7.index t 1 = 0
    ∧ win0_7.xsize (grid0.coords t) 0 = 1 ∧ win0_7.xsize (grid0.coords t) 1 = 256 := by decide +kernel

def tLast0 : Fin cfg0.N := ⟨24, by rw [show cfg0.N = 25 from N_0]; decide⟩

theorem cover0_5 (c : Dev nD) (i : ((cfg0.win 5).arr.view.loc (c.tc : Thread nD τ)).2.ty.Idx) :
    ∃ t : Fin cfg0.N, (cfg0.win 5).flush t = true ∧ i ∈ ((cfg0.win 5).blk t).view.set := by
  have hr : (i 0 : Nat) < 50000 := (i 0).isLt
  have hq : (i 1 : Nat) < 256 := (i 1).isLt
  have hN : cfg0.N = 25 := N_0
  obtain ⟨T, hT⟩ : ∃ T : Fin cfg0.N, T.val = (i 0 : Nat) / 2000 := ⟨⟨(i 0 : Nat) / 2000, by rw [hN]; omega⟩, rfl⟩
  refine ⟨T, flush0_5 T, ?_⟩
  obtain ⟨h0, h1, hx0, hx1⟩ := idx0_5 T
  show i ∈ ((View.whole main_v14_0).slice (win0_5.rect T)).set
  rw [View.set_slice_whole, Rect.mem_set_unit]
  intro a
  match a with
  | ⟨0, _⟩ =>
    show win0_5.index T 0 * win0_5.size 0 ≤ (i 0 : Nat) ∧ (i 0 : Nat) < win0_5.index T 0 * win0_5.size 0 + win0_5.xsize (grid0.coords T) 0
    rw [h0, hx0, hT, show win0_5.size 0 = 2000 from rfl]; omega
  | ⟨1, _⟩ =>
    show win0_5.index T 1 * win0_5.size 1 ≤ (i 1 : Nat) ∧ (i 1 : Nat) < win0_5.index T 1 * win0_5.size 1 + win0_5.xsize (grid0.coords T) 1
    rw [h1, hx1, show win0_5.size 1 = 256 from rfl]; omega

theorem cover0_6 (c : Dev nD) (i : ((cfg0.win 6).arr.view.loc (c.tc : Thread nD τ)).2.ty.Idx) :
    ∃ t : Fin cfg0.N, (cfg0.win 6).flush t = true ∧ i ∈ ((cfg0.win 6).blk t).view.set := by
  have hr : (i 0 : Nat) < 1 := (i 0).isLt
  have hq : (i 1 : Nat) < 256 := (i 1).isLt
  refine ⟨tLast0, (flush0_6 tLast0).mpr rfl, ?_⟩
  obtain ⟨h0, h1, hx0, hx1⟩ := idx0_6 tLast0
  show i ∈ ((View.whole main_v14_1).slice (win0_6.rect tLast0)).set
  rw [View.set_slice_whole, Rect.mem_set_unit]
  intro a
  match a with
  | ⟨0, _⟩ =>
    show win0_6.index tLast0 0 * win0_6.size 0 ≤ (i 0 : Nat) ∧ (i 0 : Nat) < win0_6.index tLast0 0 * win0_6.size 0 + win0_6.xsize (grid0.coords tLast0) 0
    rw [h0, hx0]; omega
  | ⟨1, _⟩ =>
    show win0_6.index tLast0 1 * win0_6.size 1 ≤ (i 1 : Nat) ∧ (i 1 : Nat) < win0_6.index tLast0 1 * win0_6.size 1 + win0_6.xsize (grid0.coords tLast0) 1
    rw [h1, hx1]; omega

theorem cover0_7 (c : Dev nD) (i : ((cfg0.win 7).arr.view.loc (c.tc : Thread nD τ)).2.ty.Idx) :
    ∃ t : Fin cfg0.N, (cfg0.win 7).flush t = true ∧ i ∈ ((cfg0.win 7).blk t).view.set := by
  have hr : (i 0 : Nat) < 1 := (i 0).isLt
  have hq : (i 1 : Nat) < 256 := (i 1).isLt
  refine ⟨tLast0, (flush0_7 tLast0).mpr rfl, ?_⟩
  obtain ⟨h0, h1, hx0, hx1⟩ := idx0_7 tLast0
  show i ∈ ((View.whole main_v14_2).slice (win0_7.rect tLast0)).set
  rw [View.set_slice_whole, Rect.mem_set_unit]
  intro a
  match a with
  | ⟨0, _⟩ =>
    show win0_7.index tLast0 0 * win0_7.size 0 ≤ (i 0 : Nat) ∧ (i 0 : Nat) < win0_7.index tLast0 0 * win0_7.size 0 + win0_7.xsize (grid0.coords tLast0) 0
    rw [h0, hx0]; omega
  | ⟨1, _⟩ =>
    show win0_7.index tLast0 1 * win0_7.size 1 ≤ (i 1 : Nat) ∧ (i 1 : Nat) < win0_7.index tLast0 1 * win0_7.size 1 + win0_7.xsize (grid0.coords tLast0) 1
    rw [h1, hx1]; omega

end Generic

section AtIdeal

variable (V : (c : Dev nD) → (b : Ref sig .tc) → Buf (Elt Ideal) ((c : Thread nD τ).loc b))

open scoped BigOperators

abbrev h1_0 (c : Dev nD) : Spec.Arr Spec.SND :=
  Spec.lin (Spec.combRow (Spec.ofRow (V c main_v12 : Spec.S1D.Idx → EReal)) (V c main_arg0 : Spec.SND.Idx → EReal)
      (V c main_v9 : Spec.SND.Idx → EReal)) (V c main_arg6 : Spec.SDD.Idx → EReal) (Spec.ofRow (V c main_v13 : Spec.S1D.Idx → EReal))

theorem pay4_blocks0 (c : Dev nD) (t : Fin cfg0.N) (p : Fin 2000) (q : Fin 256) (r : Fin 50000)
    (hr : r.val = 2000 * t.val + p.val) :
    k0_pay4 (iblk0 V c 2 t) (iblk0 V c 0 t) (iblk0 V c 1 t) (iblk0 V c 3 t) (iblk0 V c 4 t) (ix2 p q)
      = h1_0 V c (ix2 r q) := by
  refine (k0_pay4_apply (iblk0 V c 2 t) (iblk0 V c 0 t) (iblk0 V c 1 t) (iblk0 V c 3 t) (iblk0 V c 4 t) p q).trans ?_
  have e2 := iblk0_2_eq V c t
  have e3 := iblk0_3_eq V c t
  have e4 := iblk0_4_eq V c t
  have e0 : ∀ k : Fin 256, (iblk0 V c 0 t : Vec Ideal S2000x256 .f32) (ix2 p k)
      = (V c main_arg0 : S50000x256.Idx → Elt Ideal .f32) (ix2 r k) :=
    fun k => iblk0_0_apply V c t (ix2 p k) (ix2 r k) hr rfl
  have e1 : ∀ k : Fin 256, (iblk0 V c 1 t : Vec Ideal S2000x256 .f32) (ix2 p k)
      = (V c main_v9 : S50000x256.Idx → Elt Ideal .f32) (ix2 r k) :=
    fun k => iblk0_1_apply V c t (ix2 p k) (ix2 r k) hr rfl
  rw [e2, e3, e4]
  simp only [e0, e1]
  rfl

abbrev blkPay0 (c : Dev nD) (t : Fin cfg0.N) : Vec Ideal S2000x256 .f32 :=
  k0_pay4 (iblk0 V c 2 t) (iblk0 V c 0 t) (iblk0 V c 1 t) (iblk0 V c 3 t) (iblk0 V c 4 t)

end AtIdeal

section AtIdealCut
variable (V : (c : Dev nD) → (b : Ref sig .tc) → Buf (Elt Ideal) ((c : Thread nD τ).loc b))

theorem cut5_blkPay0 (c : Dev nD) (t : Fin cfg0.N) :
    (cfg0.win 5).cut (grid0.coords t) (blkPay0 V c t)
      = ((cfg0.win 5).blk t).view.read (Elt Ideal) (h1_0 V c) := by
  funext y
  rw [View.read_apply]
  exact Acc.blk_read_eq (blkPay0 V c t) (h1_0 V c) ((cfg0.win 5).xinj (grid0.coords t)) ((cfg0.win 5).blk t).view.emb t.val
    (fun y => show win0_5.index t 0 * 2000 + 1 * (y 0).val = 2000 * t.val + (y 0).val by rw [(idx0_5 t).1]; omega)
    (fun y => show win0_5.index t 1 * 256 + 1 * (y 1).val = (y 1).val by rw [(idx0_5 t).2.1]; omega)
    (pay4_blocks0 V c t) y

theorem cut6_row0 (c : Dev nD) (X : Vec Ideal S1x256 .f32)
    (G : Buf (Elt Ideal) ((cfg0.win 6).arr.view.loc (c.tc : Thread nD τ)))
    (h : ∀ q : Fin 256, X (ix2 (0 : Fin 1) q) = (G : S1x256.Idx → EReal) (ix2 (0 : Fin 1) q)) :
    (cfg0.win 6).cut (grid0.coords tLast0) X = ((cfg0.win 6).blk tLast0).view.read (Elt Ideal) G := by
  funext y
  rw [View.read_apply]
  exact Acc.row_read_eq X (G : S1x256.Idx → EReal) ((cfg0.win 6).xinj (grid0.coords tLast0)) ((cfg0.win 6).blk tLast0).view.emb
    (fun y => show (y 1).val = win0_6.index tLast0 1 * 256 + 1 * (y 1).val by rw [(idx0_6 tLast0).2.1]; omega) h y

theorem cut7_row0 (c : Dev nD) (X : Vec Ideal S1x256 .f32)
    (G : Buf (Elt Ideal) ((cfg0.win 7).arr.view.loc (c.tc : Thread nD τ)))
    (h : ∀ q : Fin 256, X (ix2 (0 : Fin 1) q) = (G : S1x256.Idx → EReal) (ix2 (0 : Fin 1) q)) :
    (cfg0.win 7).cut (grid0.coords tLast0) X = ((cfg0.win 7).blk tLast0).view.read (Elt Ideal) G := by
  funext y
  rw [View.read_apply]
  exact Acc.row_read_eq X (G : S1x256.Idx → EReal) ((cfg0.win 7).xinj (grid0.coords tLast0)) ((cfg0.win 7).blk tLast0).view.emb
    (fun y => show (y 1).val = win0_7.index tLast0 1 * 256 + 1 * (y 1).val by rw [(idx0_7 tLast0).2.1]; omega) h y

end AtIdealCut

section AtIdealRun

variable (V : (c : Dev nD) → (b : Ref sig .tc) → Buf (Elt Ideal) ((c : Thread nD τ).loc b))

open scoped BigOperators

theorem lin_at0 (c : Dev nD) (t : Fin cfg0.N) : (Reg0.outsAt V c t.val t.isLt).1 = blkPay0 V c t := by
  by_cases h0 : t.val = 0
  · exact congrArg (fun o : Reg0.Outs Ideal => o.1) (Reg0.outsAt_first_eq V c t h0)
  · by_cases h24 : t.val = 24
    · exact congrArg (fun o : Reg0.Outs Ideal => o.1) (Reg0.outsAt_last_eq V c t h24)
    · exact congrArg (fun o : Reg0.Outs Ideal => o.1) (Reg0.outsAt_mid_eq V c t h0 h24)

theorem accSum_first0 (c : Dev nD) (t : Fin cfg0.N) (h0 : t.val = 0) :
    (Reg0.outsAt V c t.val t.isLt).2.2.2.1 = Reg0.sumStep V c t (k0_pay2 (F := Ideal)) :=
  congrArg (fun o : Reg0.Outs Ideal => o.2.2.2.1) (Reg0.outsAt_first_eq V c t h0)
theorem accSq_first0 (c : Dev nD) (t : Fin cfg0.N) (h0 : t.val = 0) :
    (Reg0.outsAt V c t.val t.isLt).2.2.2.2 = Reg0.sqStep V c t (k0_pay3 (F := Ideal)) :=
  congrArg (fun o : Reg0.Outs Ideal => o.2.2.2.2) (Reg0.outsAt_first_eq V c t h0)

theorem accSum_step0 (c : Dev nD) (t : Fin cfg0.N) (h0 : t.val ≠ 0) :
    (Reg0.outsAt V c t.val t.isLt).2.2.2.1
      = Reg0.sumStep V c t (Reg0.outsAt V c (t.val - 1) (Nat.lt_of_le_of_lt (Nat.sub_le _ _) t.isLt)).2.2.2.1 := by
  by_cases h24 : t.val = 24
  · exact congrArg (fun o : Reg0.Outs Ideal => o.2.2.2.1) (Reg0.outsAt_last_eq V c t h24)
  · exact congrArg (fun o : Reg0.Outs Ideal => o.2.2.2.1) (Reg0.outsAt_mid_eq V c t h0 h24)
theorem accSq_step0 (c : Dev nD) (t : Fin cfg0.N) (h0 : t.val ≠ 0) :
    (Reg0.outsAt V c t.val t.isLt).2.2.2.2
      = Reg0.sqStep V c t (Reg0.outsAt V c (t.val - 1) (Nat.lt_of_le_of_lt (Nat.sub_le _ _) t.isLt)).2.2.2.2 := by
  by_cases h24 : t.val = 24
  · exact congrArg (fun o : Reg0.Outs Ideal => o.2.2.2.2) (Reg0.outsAt_last_eq V c t h24)
  · exact congrArg (fun o : Reg0.Outs Ideal => o.2.2.2.2) (Reg0.outsAt_mid_eq V c t h0 h24)

theorem sumOut_last0 (c : Dev nD) (t : Fin cfg0.N) (h24 : t.val = 24) :
    (Reg0.outsAt V c t.val t.isLt).2.1 = (Reg0.outsAt V c t.val t.isLt).2.2.2.1 :=
  (congrArg (fun o : Reg0.Outs Ideal => o.2.1) (Reg0.outsAt_last_eq V c t h24)).trans
    (congrArg (fun o : Reg0.Outs Ideal => o.2.2.2.1) (Reg0.outsAt_last_eq V c t h24)).symm
theorem sqOut_last0 (c : Dev nD) (t : Fin cfg0.N) (h24 : t.val = 24) :
    (Reg0.outsAt V c t.val t.isLt).2.2.1 = (Reg0.outsAt V c t.val t.isLt).2.2.2.2 :=
  (congrArg (fun o : Reg0.Outs Ideal => o.2.2.1) (Reg0.outsAt_last_eq V c t h24)).trans
    (congrArg (fun o : Reg0.Outs Ideal => o.2.2.2.2) (Reg0.outsAt_last_eq V c t h24)).symm

theorem sumStep_apply0 (c : Dev nD) (t : Fin cfg0.N) (acc : Vec Ideal S1x256 .f32) (q : Fin 256) :
    Reg0.sumStep V c t acc (ix2 (0 : Fin 1) q)
      = acc (ix2 (0 : Fin 1) q) + ∑ p : Fin 2000, blkPay0 V c t (ix2 p q) :=
  k0_pay5_apply (iblk0 V c 2 t) (iblk0 V c 0 t) (iblk0 V c 1 t) (iblk0 V c 3 t) (iblk0 V c 4 t) acc q

theorem sqStep_apply0 (c : Dev nD) (t : Fin cfg0.N) (acc : Vec Ideal S1x256 .f32) (q : Fin 256) :
    Reg0.sqStep V c t acc (ix2 (0 : Fin 1) q)
      = acc (ix2 (0 : Fin 1) q) + ∑ p : Fin 2000, blkPay0 V c t (ix2 p q) * blkPay0 V c t (ix2 p q) :=
  (congrFun (k0_pay1_eq (k0_pay6 (iblk0 V c 2 t) (iblk0 V c 0 t) (iblk0 V c 1 t) (iblk0 V c 3 t) (iblk0 V c 4 t) acc))
      (ix2 (0 : Fin 1) q)).trans
    (k0_pay6_apply (iblk0 V c 2 t) (iblk0 V c 0 t) (iblk0 V c 1 t) (iblk0 V c 3 t) (iblk0 V c 4 t) acc q)

theorem sumOut0 (c : Dev nD) (q : Fin 256) (t : Fin cfg0.N) (h24 : t.val = 24) :
    (Reg0.outsAt V c t.val t.isLt).2.1 (ix2 (0 : Fin 1) q) = Spec.colsum (h1_0 V c) (ix1 q) :=
  (congrFun (sumOut_last0 V c t h24) _).trans
    (Acc.colsum_last (N := cfg0.N) N_0 (fun n h => (Reg0.outsAt V c n h).2.2.2.1) (Reg0.sumStep V c) (k0_pay2 (F := Ideal)) (accSum_first0 V c)
      (accSum_step0 V c) k0_pay2_apply (blkPay0 V c) (h1_0 V c) (pay4_blocks0 V c) (sumStep_apply0 V c) t h24 q)

theorem sqOut0 (c : Dev nD) (q : Fin 256) (t : Fin cfg0.N) (h24 : t.val = 24) :
    (Reg0.outsAt V c t.val t.isLt).2.2.1 (ix2 (0 : Fin 1) q)
      = Spec.colsum (fun i => h1_0 V c i * h1_0 V c i) (ix1 q) :=
  (congrFun (sqOut_last0 V c t h24) _).trans
    (Acc.colsumsq_last (N := cfg0.N) N_0 (fun n h => (Reg0.outsAt V c n h).2.2.2.2) (Reg0.sqStep V c) (k0_pay3 (F := Ideal)) (accSq_first0 V c)
      (accSq_step0 V c) k0_pay3_apply (blkPay0 V c) (h1_0 V c) (pay4_blocks0 V c) (sqStep_apply0 V c) t h24 q)

theorem flushed0_5 (c : Dev nD) (t : Fin cfg0.N) :
    (dat0 V c).flushed 5 t = ((cfg0.win 5).blk t).view.read (Elt Ideal) (h1_0 V c) := by
  show (cfg0.win 5).cut (grid0.coords t) ((dat0 V c).after 5 t) = _
  rw [Reg0.after_lin V c t, lin_at0 V c t]
  exact cut5_blkPay0 V c t

theorem flushed0_6 (c : Dev nD) (t : Fin cfg0.N) (hf : (cfg0.win 6).flush t = true) :
    (dat0 V c).flushed 6 t = ((cfg0.win 6).blk t).view.read (Elt Ideal) (Spec.toRow (Spec.colsum (h1_0 V c))) := by
  have hN : cfg0.N = 25 := N_0
  have h24 : t.val = 24 := by have := (flush0_6 t).mp hf; have := t.isLt; omega
  obtain rfl : t = tLast0 := Fin.ext h24
  show (cfg0.win 6).cut (grid0.coords tLast0) ((dat0 V c).after 6 tLast0) = _
  rw [Reg0.after_sum V c tLast0]
  exact cut6_row0 c _ (Spec.toRow (Spec.colsum (h1_0 V c))) (fun q => sumOut0 V c q tLast0 rfl)

theorem flushed0_7 (c : Dev nD) (t : Fin cfg0.N) (hf : (cfg0.win 7).flush t = true) :
    (dat0 V c).flushed 7 t
      = ((cfg0.win 7).blk t).view.read (Elt Ideal) (Spec.toRow (Spec.colsum (fun i => h1_0 V c i * h1_0 V c i))) := by
  have hN : cfg0.N = 25 := N_0
  have h24 : t.val = 24 := by have := (flush0_7 t).mp hf; have := t.isLt; omega
  obtain rfl : t = tLast0 := Fin.ext h24
  show (cfg0.win 7).cut (grid0.coords tLast0) ((dat0 V c).after 7 tLast0) = _
  rw [Reg0.after_sq V c tLast0]
  exact cut7_row0 c _ (Spec.toRow (Spec.colsum (fun i => h1_0 V c i * h1_0 V c i))) (fun q => sqOut0 V c q tLast0 rfl)

theorem arr0_5 (c : Dev nD) : (dat0 (F := Ideal) V c).arrAt 5 cfg0.N = h1_0 V c :=
  (dat0 V c).arrAt_eq_of_cover 5 (h1_0 V c) (fun t _ => flushed0_5 V c t) (cover0_5 c)

theorem arr0_6 (c : Dev nD) : Spec.ofRow ((dat0 (F := Ideal) V c).arrAt 6 cfg0.N) = Spec.colsum (h1_0 V c) :=
  (congrArg Spec.ofRow ((dat0 V c).arrAt_eq_of_cover 6 (Spec.toRow (Spec.colsum (h1_0 V c)))
    (fun t hf => flushed0_6 V c t hf) (cover0_6 c))).trans (Spec.ofRow_toRow _)

theorem arr0_7 (c : Dev nD) :
    Spec.ofRow ((dat0 (F := Ideal) V c).arrAt 7 cfg0.N) = Spec.colsum (fun i => h1_0 V c i * h1_0 V c i) :=
  (congrArg Spec.ofRow ((dat0 V c).arrAt_eq_of_cover 7 (Spec.toRow (Spec.colsum (fun i => h1_0 V c i * h1_0 V c i)))
    (fun t hf => flushed0_7 V c t hf) (cover0_7 c))).trans (Spec.ofRow_toRow _)

end AtIdealRun

end Cert.KernelIdeal.Hand
end
-- ==== Proof.KI.ValReg1.lean ====
import proofs.«422945_j10866267259114_2_alg».proof.Proof.KI.Reg1
import proofs.«422945_j10866267259114_2_alg».proof.Proof.KI.Pay
import proofs.«422945_j10866267259114_2_alg».proof.Proof.Spec
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

variable (V : (c : Dev nD) → (b : Ref sig .tc) → Buf (Elt Ideal) ((c : Thread nD τ).loc b))

namespace Val1

theorem offsets_zero : (![0, 0] : Fin 2 → Nat) = fun _ => 0 := funext fun a => by fin_cases a <;> rfl

/-- The layer's second half on the whole array: every row normalised with the column statistics, rectified, multiplied by the weight, the bias added. -/
abbrev whole (H : S50000x256.Idx → EReal) (mu var g bt : S1x256.Idx → EReal) (W : S256x256.Idx → EReal)
    (b : S1x256.Idx → EReal) : S50000x256.Idx → EReal :=
  Cert.Spec.lin (Cert.Spec.bnRelu H (Cert.Spec.ofRow mu) (Cert.Spec.ofRow var) (Cert.Spec.ofRow g) (Cert.Spec.ofRow bt)) W
    (Cert.Spec.ofRow b)

/-- The payload at row `p` of a block whose row `p` is row `r` of the array is the whole-array function at row `r`. -/
theorem pay_at (h : Vec Ideal S5000x256 .f32) (H : S50000x256.Idx → EReal) (mu var g bt : Vec Ideal S1x256 .f32)
    (W : Vec Ideal S256x256 .f32) (b : Vec Ideal S1x256 .f32) (p : Fin 5000) (q : Fin 256) (r : Fin 50000)
    (hh : ∀ k : Fin 256, h (ix2 p k) = H (ix2 r k)) :
    k1_pay1 h g mu var bt W b (ix2 p q) = whole H mu var g bt W b (ix2 r q) := by
  rw [k1_pay1_apply]
  show _ = (∑ k : Fin 256, max (g (ix2 (0 : Fin 1) k) * (H (ix2 r k) - mu (ix2 (0 : Fin 1) k))
            * Ideal.rsqrt (var (ix2 (0 : Fin 1) k) + Cert.Spec.epsW) + bt (ix2 (0 : Fin 1) k)) Cert.Spec.zeroW * W (ix2 k q))
        + b (ix2 (0 : Fin 1) q)
  simp only [hh]

/-- The activations' window and the output's move down the rows with the point. -/
theorem idx_moving : ∀ t : Fin cfg1.N,
    (win1_0.index t (0 : Fin 2) = t.val ∧ win1_0.index t (1 : Fin 2) = 0)
    ∧ (win1_7.index t (0 : Fin 2) = t.val ∧ win1_7.index t (1 : Fin 2) = 0) :=
  (by decide +kernel : ∀ t : Fin grid1.N, _)

/-- Every other window stays at block (0, 0). -/
theorem idx_still : ∀ t : Fin cfg1.N, ∀ w : Fin 8, w ≠ 0 → w ≠ 7 → ∀ a, (cfg1.win w).index t a = 0 :=
  (by decide +kernel : ∀ t : Fin grid1.N, _)

/-- Row `p` of the activations' block at point `t` is row `5000·t + p` of the array. -/
theorem act_block (c : Dev nD) (t : Fin cfg1.N) (p : Fin 5000) (k : Fin 256) (r : Fin 50000)
    (hr : r.val = t.val * 5000 + p.val) :
    (iblk1 V c 0 t : Vec Ideal S5000x256 .f32) (ix2 p k) = (V c main_v14_0 : S50000x256.Idx → EReal) (ix2 r k) := by
  obtain ⟨⟨e0, e1⟩, -⟩ := idx_moving t
  unfold iblk1
  rw [View.read_apply]
  show V c main_v14_0 _ = V c main_v14_0 _
  congr 1
  funext a
  apply Fin.ext
  match a with
  | ⟨0, _⟩ => show win1_0.index t (0 : Fin 2) * 5000 + 1 * p.val = r.val; rw [e0, hr]; omega
  | ⟨1, _⟩ => show win1_0.index t (1 : Fin 2) * 256 + 1 * k.val = k.val; rw [e1]; omega

/-- A window that stays at block (0, 0) holds its whole array at every point: the rows of statistics, the weight, the bias. -/
theorem still_blocks (c : Dev nD) (t : Fin cfg1.N) :
    (iblk1 V c 1 t : Vec Ideal S1x256 .f32) = V c main_v25 ∧ (iblk1 V c 2 t : Vec Ideal S1x256 .f32) = V c main_v26
    ∧ (iblk1 V c 3 t : Vec Ideal S1x256 .f32) = V c main_v27 ∧ (iblk1 V c 4 t : Vec Ideal S1x256 .f32) = V c main_v28
    ∧ (iblk1 V c 5 t : Vec Ideal S256x256 .f32) = V c main_arg10 ∧ (iblk1 V c 6 t : Vec Ideal S1x256 .f32) = V c main_v29 := by
  refine ⟨?_, ?_, ?_, ?_, ?_, ?_⟩ <;> (funext j; unfold iblk1; rw [View.read_apply])
  · exact congrArg (V c _) (funext fun a => Fin.ext ((cfg1.win 1).rect_emb_val_of_index_zero t a (idx_still t 1 (by decide) (by decide) a) j))
  · exact congrArg (V c _) (funext fun a => Fin.ext ((cfg1.win 2).rect_emb_val_of_index_zero t a (idx_still t 2 (by decide) (by decide) a) j))
  · exact congrArg (V c _) (funext fun a => Fin.ext ((cfg1.win 3).rect_emb_val_of_index_zero t a (idx_still t 3 (by decide) (by decide) a) j))
  · exact congrArg (V c _) (funext fun a => Fin.ext ((cfg1.win 4).rect_emb_val_of_index_zero t a (idx_still t 4 (by decide) (by decide) a) j))
  · exact congrArg (V c _) (funext fun a => Fin.ext ((cfg1.win 5).rect_emb_val_of_index_zero t a (idx_still t 5 (by decide) (by decide) a) j))
  · exact congrArg (V c _) (funext fun a => Fin.ext ((cfg1.win 6).rect_emb_val_of_index_zero t a (idx_still t 6 (by decide) (by decide) a) j))

/-- What the region leaves in its output array, as one function of the arrays it finds. -/
abbrev G (c : Dev nD) : S50000x256.Idx → EReal :=
  whole (V c main_v14_0) (V c main_v25) (V c main_v26) (V c main_v27) (V c main_v28) (V c main_arg10) (V c main_v29)

/-- What point `t` writes back is block `t` of that function. -/
theorem flushed_eq (c : Dev nD) (t : Fin cfg1.N) :
    (dat1 V c).flushed 7 t = ((cfg1.win 7).blk t).view.read (Elt Ideal) (G V c) := by
  show (cfg1.win 7).cut (grid1.coords t) ((dat1 V c).after 7 t) = _
  dsimp only [dat1]
  unfold Body1.bnReluLinear
  rw [View.canon_unit_zero offsets_zero]
  simp only [View.ld_unit_zero (S := S5000x256) offsets_zero, View.ld_unit_zero (S := S1x256) offsets_zero,
    View.ld_unit_zero (S := S256x256) offsets_zero]
  obtain ⟨h1, h2, h3, h4, h5, h6⟩ := still_blocks V c t
  rw [h1, h2, h3, h4, h5, h6]
  obtain ⟨-, e0, e1⟩ := idx_moving t
  have ht : t.val < 10 := lt_of_lt_of_eq t.isLt (N_1 : cfg1.N = 10)
  funext j
  obtain ⟨p, q, rfl⟩ : ∃ (p : Fin 5000) (q : Fin 256), j = ix2 p q := ⟨j 0, j 1, eq_ix2 j⟩
  have hp : p.val < 5000 := p.isLt
  show k1_pay1 (iblk1 V c 0 t) (V c main_v27) (V c main_v25) (V c main_v26) (V c main_v28) (V c main_arg10) (V c main_v29) (ix2 p q)
    = G V c (((cfg1.win 7).blk t).view.emb (ix2 p q))
  have hemb : ((cfg1.win 7).blk t).view.emb (ix2 p q) = ix2 (⟨t.val * 5000 + p.val, by omega⟩ : Fin 50000) q := by
    funext a
    apply Fin.ext
    match a with
    | ⟨0, _⟩ => show win1_7.index t (0 : Fin 2) * 5000 + 1 * p.val = t.val * 5000 + p.val; rw [e0]; omega
    | ⟨1, _⟩ => show win1_7.index t (1 : Fin 2) * 256 + 1 * q.val = q.val; rw [e1]; omega
  rw [hemb]
  exact pay_at (iblk1 V c 0 t) (V c main_v14_0) (V c main_v25) (V c main_v26) (V c main_v27) (V c main_v28) (V c main_arg10)
    (V c main_v29) p q ⟨t.val * 5000 + p.val, by omega⟩ (fun k => act_block V c t p k _ rfl)

theorem mem_blk (t : Fin cfg1.N) (i : S50000x256.Idx) :
    i ∈ ((cfg1.win 7).blk t).view.set ↔ ∀ a : Fin 2, win1_7.index t a * S5000x256.size a ≤ (i a).val
      ∧ (i a).val < win1_7.index t a * S5000x256.size a + S5000x256.size a := by
  show i ∈ ((View.whole main_v30).slice (win1_7.rect t)).set ↔ _
  rw [View.set_slice_whole, Rect.mem_set_unit]
  exact Iff.rfl

/-- Row `r` of the array is in the block of point `r / 5000`, and every point writes back. -/
theorem cover (i : S50000x256.Idx) :
    ∃ t : Fin cfg1.N, (cfg1.win 7).flush t = true ∧ i ∈ ((cfg1.win 7).blk t).view.set := by
  have hi0 : (i 0).val < 50000 := idx2_lt0 i
  have hi1 : (i 1).val < 256 := idx2_lt1 i
  have hN : cfg1.N = 10 := N_1
  obtain ⟨t, htv⟩ : ∃ t : Fin cfg1.N, t.val = (i 0).val / 5000 := ⟨⟨(i 0).val / 5000, by rw [hN]; omega⟩, rfl⟩
  obtain ⟨-, e0, e1⟩ := idx_moving t
  refine ⟨t, flush1_7 t, ?_⟩
  rw [mem_blk]
  intro a
  match a with
  | ⟨0, _⟩ =>
    show win1_7.index t (0 : Fin 2) * 5000 ≤ (i 0).val ∧ (i 0).val < win1_7.index t (0 : Fin 2) * 5000 + 5000
    rw [e0, htv]; omega
  | ⟨1, _⟩ =>
    show win1_7.index t (1 : Fin 2) * 256 ≤ (i 1).val ∧ (i 1).val < win1_7.index t (1 : Fin 2) * 256 + 256
    rw [e1]; omega

end Val1

/-- The output array of region 1 after the region: the second half of a layer of the arrays the region finds. -/
theorem arr1 (c : Dev nD) : (dat1 (F := Ideal) V c).arrAt 7 cfg1.N
    = Cert.Spec.lin (Cert.Spec.bnRelu (V c main_v14_0) (Cert.Spec.ofRow (V c main_v25)) (Cert.Spec.ofRow (V c main_v26))
        (Cert.Spec.ofRow (V c main_v27)) (Cert.Spec.ofRow (V c main_v28))) (V c main_arg10) (Cert.Spec.ofRow (V c main_v29)) :=
  (dat1 V c).arrAt_eq_of_cover 7 (Val1.G V c) (fun t _ => Val1.flushed_eq V c t) Val1.cover

end Cert.KernelIdeal.Hand

end
-- ==== Proof.KI.Reg2Val.lean ====
import proofs.«422945_j10866267259114_2_alg».proof.Proof.KI.Reg2
import proofs.«422945_j10866267259114_2_alg».proof.Proof.KI.LinVal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

open Lin

namespace Reg2

abbrev linAt (c : Dev nD) (t : Fin cfg2.N) : Vec F S2000x256 .f32 := k0_pay4 (scaleBlk V c t) (xBlk V c t) (aggrBlk V c t) (wBlk V c t) (biasBlk V c t)

abbrev sumStep (c : Dev nD) (t : Fin cfg2.N) (p : Vec F S1x256 .f32) : Vec F S1x256 .f32 := k0_pay5 (scaleBlk V c t) (xBlk V c t) (aggrBlk V c t) (wBlk V c t) (biasBlk V c t) p

abbrev sqStep (c : Dev nD) (t : Fin cfg2.N) (p2 : Vec F S1x256 .f32) : Vec F S1x256 .f32 := k0_pay1 (k0_pay6 (scaleBlk V c t) (xBlk V c t) (aggrBlk V c t) (wBlk V c t) (biasBlk V c t) p2)

theorem leftFirst_eq (c : Dev nD) (t : Fin cfg2.N) (h0 : t.val = 0) :
    leftFirst V c t h0 = (linAt V c t, unread, unread, sumStep V c t (k0_pay2 (F := F)), sqStep V c t (k0_pay3 (F := F))) := by
  unfold leftFirst firstAt; exact first_eq ..

theorem leftMid_eq (c : Dev nD) (t : Fin cfg2.N) (h0 : t.val ≠ 0) (h24 : t.val ≠ 24) (p p2 : Vec F S1x256 .f32) :
    leftMid V c t h0 h24 p p2 = (linAt V c t, unread, unread, sumStep V c t p, sqStep V c t p2) := by
  unfold leftMid midAt; exact mid_eq ..

theorem leftLast_eq (c : Dev nD) (t : Fin cfg2.N) (h24 : t.val = 24) (p p2 : Vec F S1x256 .f32) :
    leftLast V c t h24 p p2 = (linAt V c t, sumStep V c t p, sqStep V c t p2, sumStep V c t p, sqStep V c t p2) := by
  unfold leftLast lastAt; exact last_eq ..

theorem outsAt_first_eq (c : Dev nD) (t : Fin cfg2.N) (h0 : t.val = 0) :
    outsAt V c t.val t.isLt = (linAt V c t, unread, unread, sumStep V c t (k0_pay2 (F := F)), sqStep V c t (k0_pay3 (F := F))) :=
  (outsAt_first V c t h0).trans (leftFirst_eq V c t h0)

theorem outsAt_mid_eq (c : Dev nD) (t : Fin cfg2.N) (h0 : t.val ≠ 0) (h24 : t.val ≠ 24) :
    outsAt V c t.val t.isLt = (linAt V c t, unread, unread, sumStep V c t (outsAt V c (t.val - 1) (Nat.lt_of_le_of_lt (Nat.sub_le _ _) t.isLt)).2.2.2.1, sqStep V c t (outsAt V c (t.val - 1) (Nat.lt_of_le_of_lt (Nat.sub_le _ _) t.isLt)).2.2.2.2) :=
  (outsAt_mid V c t h0 h24).trans (leftMid_eq V c t h0 h24 _ _)

theorem outsAt_last_eq (c : Dev nD) (t : Fin cfg2.N) (h24 : t.val = 24) :
    outsAt V c t.val t.isLt = (linAt V c t, sumStep V c t (outsAt V c (t.val - 1) (Nat.lt_of_le_of_lt (Nat.sub_le _ _) t.isLt)).2.2.2.1, sqStep V c t (outsAt V c (t.val - 1) (Nat.lt_of_le_of_lt (Nat.sub_le _ _) t.isLt)).2.2.2.2,
      sumStep V c t (outsAt V c (t.val - 1) (Nat.lt_of_le_of_lt (Nat.sub_le _ _) t.isLt)).2.2.2.1, sqStep V c t (outsAt V c (t.val - 1) (Nat.lt_of_le_of_lt (Nat.sub_le _ _) t.isLt)).2.2.2.2) :=
  (outsAt_last V c t h24).trans (leftLast_eq V c t h24 _ _)

end Reg2

end Cert.KernelIdeal.Hand

end
-- ==== Proof.KI.ValReg2.lean ====
import proofs.«422945_j10866267259114_2_alg».proof.Proof.KI.Reg2Val
import proofs.«422945_j10866267259114_2_alg».proof.Proof.Spec
import proofs.«422945_j10866267259114_2_alg».proof.Proof.KI.Pay
import proofs.«422945_j10866267259114_2_alg».proof.Proof.KI.ValAcc
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat Cfg Window)

section Generic
variable {F : FTy → Type} [FloatOps F]
variable (V : (c : Dev nD) → (b : Ref sig .tc) → Buf (Elt F) ((c : Thread nD τ).loc b))

theorem idx2_0 : ∀ t : Fin grid2.N, win2_0.index t 0 = t.val ∧ win2_0.index t 1 = 0 := by decide +kernel
theorem idx2_1 : ∀ t : Fin grid2.N, win2_1.index t 0 = t.val ∧ win2_1.index t 1 = 0 := by decide +kernel
theorem idx2_2 : ∀ t : Fin grid2.N, win2_2.index t 0 = 0 ∧ win2_2.index t 1 = 0 := by decide +kernel
theorem idx2_3 : ∀ t : Fin grid2.N, win2_3.index t 0 = 0 ∧ win2_3.index t 1 = 0 := by decide +kernel
theorem idx2_4 : ∀ t : Fin grid2.N, win2_4.index t 0 = 0 ∧ win2_4.index t 1 = 0 := by decide +kernel

theorem iblk2_0_apply (c : Dev nD) (t : Fin cfg2.N) (x : S2000x256.Idx) (k : S50000x256.Idx)
    (hk0 : (k 0).val = 2000 * t.val + (x 0).val) (hk1 : (k 1).val = (x 1).val) :
    (iblk2 V c 0 t : Vec F S2000x256 .f32) x = (V c main_arg0 : S50000x256.Idx → Elt F .f32) k := by
  have hi := idx2_0 t
  unfold iblk2
  rw [View.read_apply]
  refine congrArg (V c main_arg0 : S50000x256.Idx → Elt F .f32) (Shape.idx_ext₂ ?_ ?_)
  · show win2_0.index t 0 * 2000 + 1 * (x 0).val = (k 0).val; rw [hi.1, hk0]; omega
  · show win2_0.index t 1 * 256 + 1 * (x 1).val = (k 1).val; rw [hi.2, hk1]; omega

theorem iblk2_1_apply (c : Dev nD) (t : Fin cfg2.N) (x : S2000x256.Idx) (k : S50000x256.Idx)
    (hk0 : (k 0).val = 2000 * t.val + (x 0).val) (hk1 : (k 1).val = (x 1).val) :
    (iblk2 V c 1 t : Vec F S2000x256 .f32) x = (V c main_v40 : S50000x256.Idx → Elt F .f32) k := by
  have hi := idx2_1 t
  unfold iblk2
  rw [View.read_apply]
  refine congrArg (V c main_v40 : S50000x256.Idx → Elt F .f32) (Shape.idx_ext₂ ?_ ?_)
  · show win2_1.index t 0 * 2000 + 1 * (x 0).val = (k 0).val; rw [hi.1, hk0]; omega
  · show win2_1.index t 1 * 256 + 1 * (x 1).val = (k 1).val; rw [hi.2, hk1]; omega

theorem iblk2_2_eq (c : Dev nD) (t : Fin cfg2.N) :
    (iblk2 V c 2 t : Vec F S1x256 .f32) = (V c main_v43 : S1x256.Idx → Elt F .f32) := by
  have hi := idx2_2 t
  funext x
  unfold iblk2
  rw [View.read_apply]
  refine congrArg (V c main_v43 : S1x256.Idx → Elt F .f32) (Shape.idx_ext₂ ?_ ?_)
  · show win2_2.index t 0 * 1 + 1 * (x 0).val = (x 0).val; rw [hi.1]; omega
  · show win2_2.index t 1 * 256 + 1 * (x 1).val = (x 1).val; rw [hi.2]; omega

theorem iblk2_3_eq (c : Dev nD) (t : Fin cfg2.N) :
    (iblk2 V c 3 t : Vec F S256x256 .f32) = (V c main_arg13 : S256x256.Idx → Elt F .f32) := by
  have hi := idx2_3 t
  funext x
  unfold iblk2
  rw [View.read_apply]
  refine congrArg (V c main_arg13 : S256x256.Idx → Elt F .f32) (Shape.idx_ext₂ ?_ ?_)
  · show win2_3.index t 0 * 256 + 1 * (x 0).val = (x 0).val; rw [hi.1]; omega
  · show win2_3.index t 1 * 256 + 1 * (x 1).val = (x 1).val; rw [hi.2]; omega

theorem iblk2_4_eq (c : Dev nD) (t : Fin cfg2.N) :
    (iblk2 V c 4 t : Vec F S1x256 .f32) = (V c main_v44 : S1x256.Idx → Elt F .f32) := by
  have hi := idx2_4 t
  funext x
  unfold iblk2
  rw [View.read_apply]
  refine congrArg (V c main_v44 : S1x256.Idx → Elt F .f32) (Shape.idx_ext₂ ?_ ?_)
  · show win2_4.index t 0 * 1 + 1 * (x 0).val = (x 0).val; rw [hi.1]; omega
  · show win2_4.index t 1 * 256 + 1 * (x 1).val = (x 1).val; rw [hi.2]; omega

theorem idx2_5 : ∀ t : Fin grid2.N, win2_5.index t 0 = t.val ∧ win2_5.index t 1 = 0
    ∧ win2_5.xsize (grid2.coords t) 0 = 2000 ∧ win2_5.xsize (grid2.coords t) 1 = 256 := by decide +kernel
theorem idx2_6 : ∀ t : Fin grid2.N, win2_6.index t 0 = 0 ∧ win2_6.index t 1 = 0
    ∧ win2_6.xsize (grid2.coords t) 0 = 1 ∧ win2_6.xsize (grid2.coords t) 1 = 256 := by decide +kernel
theorem idx2_7 : ∀ t : Fin grid2.N, win2_7.index t 0 = 0 ∧ win2_7.index t 1 = 0
    ∧ win2_7.xsize (grid2.coords t) 0 = 1 ∧ win2_7.xsize (grid2.coords t) 1 = 256 := by decide +kernel

def tLast2 : Fin cfg2.N := ⟨24, by rw [show cfg2.N = 25 from N_2]; decide⟩

theorem cover2_5 (c : Dev nD) (i : ((cfg2.win 5).arr.view.loc (c.tc : Thread nD τ)).2.ty.Idx) :
    ∃ t : Fin cfg2.N, (cfg2.win 5).flush t = true ∧ i ∈ ((cfg2.win 5).blk t).view.set := by
  have hr : (i 0 : Nat) < 50000 := (i 0).isLt
  have hq : (i 1 : Nat) < 256 := (i 1).isLt
  have hN : cfg2.N = 25 := N_2
  obtain ⟨T, hT⟩ : ∃ T : Fin cfg2.N, T.val = (i 0 : Nat) / 2000 := ⟨⟨(i 0 : Nat) / 2000, by rw [hN]; omega⟩, rfl⟩
  refine ⟨T, flush2_5 T, ?_⟩
  obtain ⟨h0, h1, hx0, hx1⟩ := idx2_5 T
  show i ∈ ((View.whole main_v45_0).slice (win2_5.rect T)).set
  rw [View.set_slice_whole, Rect.mem_set_unit]
  intro a
  match a with
  | ⟨0, _⟩ =>
    show win2_5.index T 0 * win2_5.size 0 ≤ (i 0 : Nat) ∧ (i 0 : Nat) < win2_5.index T 0 * win2_5.size 0 + win2_5.xsize (grid2.coords T) 0
    rw [h0, hx0, hT, show win2_5.size 0 = 2000 from rfl]; omega
  | ⟨1, _⟩ =>
    show win2_5.index T 1 * win2_5.size 1 ≤ (i 1 : Nat) ∧ (i 1 : Nat) < win2_5.index T 1 * win2_5.size 1 + win2_5.xsize (grid2.coords T) 1
    rw [h1, hx1, show win2_5.size 1 = 256 from rfl]; omega

theorem cover2_6 (c : Dev nD) (i : ((cfg2.win 6).arr.view.loc (c.tc : Thread nD τ)).2.ty.Idx) :
    ∃ t : Fin cfg2.N, (cfg2.win 6).flush t = true ∧ i ∈ ((cfg2.win 6).blk t).view.set := by
  have hr : (i 0 : Nat) < 1 := (i 0).isLt
  have hq : (i 1 : Nat) < 256 := (i 1).isLt
  refine ⟨tLast2, (flush2_6 tLast2).mpr rfl, ?_⟩
  obtain ⟨h0, h1, hx0, hx1⟩ := idx2_6 tLast2
  show i ∈ ((View.whole main_v45_1).slice (win2_6.rect tLast2)).set
  rw [View.set_slice_whole, Rect.mem_set_unit]
  intro a
  match a with
  | ⟨0, _⟩ =>
    show win2_6.index tLast2 0 * win2_6.size 0 ≤ (i 0 : Nat) ∧ (i 0 : Nat) < win2_6.index tLast2 0 * win2_6.size 0 + win2_6.xsize (grid2.coords tLast2) 0
    rw [h0, hx0]; omega
  | ⟨1, _⟩ =>
    show win2_6.index tLast2 1 * win2_6.size 1 ≤ (i 1 : Nat) ∧ (i 1 : Nat) < win2_6.index tLast2 1 * win2_6.size 1 + win2_6.xsize (grid2.coords tLast2) 1
    rw [h1, hx1]; omega

theorem cover2_7 (c : Dev nD) (i : ((cfg2.win 7).arr.view.loc (c.tc : Thread nD τ)).2.ty.Idx) :
    ∃ t : Fin cfg2.N, (cfg2.win 7).flush t = true ∧ i ∈ ((cfg2.win 7).blk t).view.set := by
  have hr : (i 0 : Nat) < 1 := (i 0).isLt
  have hq : (i 1 : Nat) < 256 := (i 1).isLt
  refine ⟨tLast2, (flush2_7 tLast2).mpr rfl, ?_⟩
  obtain ⟨h0, h1, hx0, hx1⟩ := idx2_7 tLast2
  show i ∈ ((View.whole main_v45_2).slice (win2_7.rect tLast2)).set
  rw [View.set_slice_whole, Rect.mem_set_unit]
  intro a
  match a with
  | ⟨0, _⟩ =>
    show win2_7.index tLast2 0 * win2_7.size 0 ≤ (i 0 : Nat) ∧ (i 0 : Nat) < win2_7.index tLast2 0 * win2_7.size 0 + win2_7.xsize (grid2.coords tLast2) 0
    rw [h0, hx0]; omega
  | ⟨1, _⟩ =>
    show win2_7.index tLast2 1 * win2_7.size 1 ≤ (i 1 : Nat) ∧ (i 1 : Nat) < win2_7.index tLast2 1 * win2_7.size 1 + win2_7.xsize (grid2.coords tLast2) 1
    rw [h1, hx1]; omega

end Generic

section AtIdeal

variable (V : (c : Dev nD) → (b : Ref sig .tc) → Buf (Elt Ideal) ((c : Thread nD τ).loc b))

open scoped BigOperators

abbrev h1_2 (c : Dev nD) : Spec.Arr Spec.SND :=
  Spec.lin (Spec.combRow (Spec.ofRow (V c main_v43 : Spec.S1D.Idx → EReal)) (V c main_arg0 : Spec.SND.Idx → EReal)
      (V c main_v40 : Spec.SND.Idx → EReal)) (V c main_arg13 : Spec.SDD.Idx → EReal) (Spec.ofRow (V c main_v44 : Spec.S1D.Idx → EReal))

theorem pay4_blocks2 (c : Dev nD) (t : Fin cfg2.N) (p : Fin 2000) (q : Fin 256) (r : Fin 50000)
    (hr : r.val = 2000 * t.val + p.val) :
    k0_pay4 (iblk2 V c 2 t) (iblk2 V c 0 t) (iblk2 V c 1 t) (iblk2 V c 3 t) (iblk2 V c 4 t) (ix2 p q)
      = h1_2 V c (ix2 r q) := by
  refine (k0_pay4_apply (iblk2 V c 2 t) (iblk2 V c 0 t) (iblk2 V c 1 t) (iblk2 V c 3 t) (iblk2 V c 4 t) p q).trans ?_
  have e2 := iblk2_2_eq V c t
  have e3 := iblk2_3_eq V c t
  have e4 := iblk2_4_eq V c t
  have e0 : ∀ k : Fin 256, (iblk2 V c 0 t : Vec Ideal S2000x256 .f32) (ix2 p k)
      = (V c main_arg0 : S50000x256.Idx → Elt Ideal .f32) (ix2 r k) :=
    fun k => iblk2_0_apply V c t (ix2 p k) (ix2 r k) hr rfl
  have e1 : ∀ k : Fin 256, (iblk2 V c 1 t : Vec Ideal S2000x256 .f32) (ix2 p k)
      = (V c main_v40 : S50000x256.Idx → Elt Ideal .f32) (ix2 r k) :=
    fun k => iblk2_1_apply V c t (ix2 p k) (ix2 r k) hr rfl
  rw [e2, e3, e4]
  simp only [e0, e1]
  rfl

abbrev blkPay2 (c : Dev nD) (t : Fin cfg2.N) : Vec Ideal S2000x256 .f32 :=
  k0_pay4 (iblk2 V c 2 t) (iblk2 V c 0 t) (iblk2 V c 1 t) (iblk2 V c 3 t) (iblk2 V c 4 t)

end AtIdeal

section AtIdealCut
variable (V : (c : Dev nD) → (b : Ref sig .tc) → Buf (Elt Ideal) ((c : Thread nD τ).loc b))

theorem cut5_blkPay2 (c : Dev nD) (t : Fin cfg2.N) :
    (cfg2.win 5).cut (grid2.coords t) (blkPay2 V c t)
      = ((cfg2.win 5).blk t).view.read (Elt Ideal) (h1_2 V c) := by
  funext y
  rw [View.read_apply]
  exact Acc.blk_read_eq (blkPay2 V c t) (h1_2 V c) ((cfg2.win 5).xinj (grid2.coords t)) ((cfg2.win 5).blk t).view.emb t.val
    (fun y => show win2_5.index t 0 * 2000 + 1 * (y 0).val = 2000 * t.val + (y 0).val by rw [(idx2_5 t).1]; omega)
    (fun y => show win2_5.index t 1 * 256 + 1 * (y 1).val = (y 1).val by rw [(idx2_5 t).2.1]; omega)
    (pay4_blocks2 V c t) y

theorem cut6_row2 (c : Dev nD) (X : Vec Ideal S1x256 .f32)
    (G : Buf (Elt Ideal) ((cfg2.win 6).arr.view.loc (c.tc : Thread nD τ)))
    (h : ∀ q : Fin 256, X (ix2 (0 : Fin 1) q) = (G : S1x256.Idx → EReal) (ix2 (0 : Fin 1) q)) :
    (cfg2.win 6).cut (grid2.coords tLast2) X = ((cfg2.win 6).blk tLast2).view.read (Elt Ideal) G := by
  funext y
  rw [View.read_apply]
  exact Acc.row_read_eq X (G : S1x256.Idx → EReal) ((cfg2.win 6).xinj (grid2.coords tLast2)) ((cfg2.win 6).blk tLast2).view.emb
    (fun y => show (y 1).val = win2_6.index tLast2 1 * 256 + 1 * (y 1).val by rw [(idx2_6 tLast2).2.1]; omega) h y

theorem cut7_row2 (c : Dev nD) (X : Vec Ideal S1x256 .f32)
    (G : Buf (Elt Ideal) ((cfg2.win 7).arr.view.loc (c.tc : Thread nD τ)))
    (h : ∀ q : Fin 256, X (ix2 (0 : Fin 1) q) = (G : S1x256.Idx → EReal) (ix2 (0 : Fin 1) q)) :
    (cfg2.win 7).cut (grid2.coords tLast2) X = ((cfg2.win 7).blk tLast2).view.read (Elt Ideal) G := by
  funext y
  rw [View.read_apply]
  exact Acc.row_read_eq X (G : S1x256.Idx → EReal) ((cfg2.win 7).xinj (grid2.coords tLast2)) ((cfg2.win 7).blk tLast2).view.emb
    (fun y => show (y 1).val = win2_7.index tLast2 1 * 256 + 1 * (y 1).val by rw [(idx2_7 tLast2).2.1]; omega) h y

end AtIdealCut

section AtIdealRun

variable (V : (c : Dev nD) → (b : Ref sig .tc) → Buf (Elt Ideal) ((c : Thread nD τ).loc b))

open scoped BigOperators

theorem lin_at2 (c : Dev nD) (t : Fin cfg2.N) : (Reg2.outsAt V c t.val t.isLt).1 = blkPay2 V c t := by
  by_cases h0 : t.val = 0
  · exact congrArg (fun o : Reg2.Outs Ideal => o.1) (Reg2.outsAt_first_eq V c t h0)
  · by_cases h24 : t.val = 24
    · exact congrArg (fun o : Reg2.Outs Ideal => o.1) (Reg2.outsAt_last_eq V c t h24)
    · exact congrArg (fun o : Reg2.Outs Ideal => o.1) (Reg2.outsAt_mid_eq V c t h0 h24)

theorem accSum_first2 (c : Dev nD) (t : Fin cfg2.N) (h0 : t.val = 0) :
    (Reg2.outsAt V c t.val t.isLt).2.2.2.1 = Reg2.sumStep V c t (k0_pay2 (F := Ideal)) :=
  congrArg (fun o : Reg2.Outs Ideal => o.2.2.2.1) (Reg2.outsAt_first_eq V c t h0)
theorem accSq_first2 (c : Dev nD) (t : Fin cfg2.N) (h0 : t.val = 0) :
    (Reg2.outsAt V c t.val t.isLt).2.2.2.2 = Reg2.sqStep V c t (k0_pay3 (F := Ideal)) :=
  congrArg (fun o : Reg2.Outs Ideal => o.2.2.2.2) (Reg2.outsAt_first_eq V c t h0)

theorem accSum_step2 (c : Dev nD) (t : Fin cfg2.N) (h0 : t.val ≠ 0) :
    (Reg2.outsAt V c t.val t.isLt).2.2.2.1
      = Reg2.sumStep V c t (Reg2.outsAt V c (t.val - 1) (Nat.lt_of_le_of_lt (Nat.sub_le _ _) t.isLt)).2.2.2.1 := by
  by_cases h24 : t.val = 24
  · exact congrArg (fun o : Reg2.Outs Ideal => o.2.2.2.1) (Reg2.outsAt_last_eq V c t h24)
  · exact congrArg (fun o : Reg2.Outs Ideal => o.2.2.2.1) (Reg2.outsAt_mid_eq V c t h0 h24)
theorem accSq_step2 (c : Dev nD) (t : Fin cfg2.N) (h0 : t.val ≠ 0) :
    (Reg2.outsAt V c t.val t.isLt).2.2.2.2
      = Reg2.sqStep V c t (Reg2.outsAt V c (t.val - 1) (Nat.lt_of_le_of_lt (Nat.sub_le _ _) t.isLt)).2.2.2.2 := by
  by_cases h24 : t.val = 24
  · exact congrArg (fun o : Reg2.Outs Ideal => o.2.2.2.2) (Reg2.outsAt_last_eq V c t h24)
  · exact congrArg (fun o : Reg2.Outs Ideal => o.2.2.2.2) (Reg2.outsAt_mid_eq V c t h0 h24)

theorem sumOut_last2 (c : Dev nD) (t : Fin cfg2.N) (h24 : t.val = 24) :
    (Reg2.outsAt V c t.val t.isLt).2.1 = (Reg2.outsAt V c t.val t.isLt).2.2.2.1 :=
  (congrArg (fun o : Reg2.Outs Ideal => o.2.1) (Reg2.outsAt_last_eq V c t h24)).trans
    (congrArg (fun o : Reg2.Outs Ideal => o.2.2.2.1) (Reg2.outsAt_last_eq V c t h24)).symm
theorem sqOut_last2 (c : Dev nD) (t : Fin cfg2.N) (h24 : t.val = 24) :
    (Reg2.outsAt V c t.val t.isLt).2.2.1 = (Reg2.outsAt V c t.val t.isLt).2.2.2.2 :=
  (congrArg (fun o : Reg2.Outs Ideal => o.2.2.1) (Reg2.outsAt_last_eq V c t h24)).trans
    (congrArg (fun o : Reg2.Outs Ideal => o.2.2.2.2) (Reg2.outsAt_last_eq V c t h24)).symm

theorem sumStep_apply2 (c : Dev nD) (t : Fin cfg2.N) (acc : Vec Ideal S1x256 .f32) (q : Fin 256) :
    Reg2.sumStep V c t acc (ix2 (0 : Fin 1) q)
      = acc (ix2 (0 : Fin 1) q) + ∑ p : Fin 2000, blkPay2 V c t (ix2 p q) :=
  k0_pay5_apply (iblk2 V c 2 t) (iblk2 V c 0 t) (iblk2 V c 1 t) (iblk2 V c 3 t) (iblk2 V c 4 t) acc q

theorem sqStep_apply2 (c : Dev nD) (t : Fin cfg2.N) (acc : Vec Ideal S1x256 .f32) (q : Fin 256) :
    Reg2.sqStep V c t acc (ix2 (0 : Fin 1) q)
      = acc (ix2 (0 : Fin 1) q) + ∑ p : Fin 2000, blkPay2 V c t (ix2 p q) * blkPay2 V c t (ix2 p q) :=
  (congrFun (k0_pay1_eq (k0_pay6 (iblk2 V c 2 t) (iblk2 V c 0 t) (iblk2 V c 1 t) (iblk2 V c 3 t) (iblk2 V c 4 t) acc))
      (ix2 (0 : Fin 1) q)).trans
    (k0_pay6_apply (iblk2 V c 2 t) (iblk2 V c 0 t) (iblk2 V c 1 t) (iblk2 V c 3 t) (iblk2 V c 4 t) acc q)

theorem sumOut2 (c : Dev nD) (q : Fin 256) (t : Fin cfg2.N) (h24 : t.val = 24) :
    (Reg2.outsAt V c t.val t.isLt).2.1 (ix2 (0 : Fin 1) q) = Spec.colsum (h1_2 V c) (ix1 q) :=
  (congrFun (sumOut_last2 V c t h24) _).trans
    (Acc.colsum_last (N := cfg2.N) N_2 (fun n h => (Reg2.outsAt V c n h).2.2.2.1) (Reg2.sumStep V c) (k0_pay2 (F := Ideal)) (accSum_first2 V c)
      (accSum_step2 V c) k0_pay2_apply (blkPay2 V c) (h1_2 V c) (pay4_blocks2 V c) (sumStep_apply2 V c) t h24 q)

theorem sqOut2 (c : Dev nD) (q : Fin 256) (t : Fin cfg2.N) (h24 : t.val = 24) :
    (Reg2.outsAt V c t.val t.isLt).2.2.1 (ix2 (0 : Fin 1) q)
      = Spec.colsum (fun i => h1_2 V c i * h1_2 V c i) (ix1 q) :=
  (congrFun (sqOut_last2 V c t h24) _).trans
    (Acc.colsumsq_last (N := cfg2.N) N_2 (fun n h => (Reg2.outsAt V c n h).2.2.2.2) (Reg2.sqStep V c) (k0_pay3 (F := Ideal)) (accSq_first2 V c)
      (accSq_step2 V c) k0_pay3_apply (blkPay2 V c) (h1_2 V c) (pay4_blocks2 V c) (sqStep_apply2 V c) t h24 q)

theorem flushed2_5 (c : Dev nD) (t : Fin cfg2.N) :
    (dat2 V c).flushed 5 t = ((cfg2.win 5).blk t).view.read (Elt Ideal) (h1_2 V c) := by
  show (cfg2.win 5).cut (grid2.coords t) ((dat2 V c).after 5 t) = _
  rw [Reg2.after_lin V c t, lin_at2 V c t]
  exact cut5_blkPay2 V c t

theorem flushed2_6 (c : Dev nD) (t : Fin cfg2.N) (hf : (cfg2.win 6).flush t = true) :
    (dat2 V c).flushed 6 t = ((cfg2.win 6).blk t).view.read (Elt Ideal) (Spec.toRow (Spec.colsum (h1_2 V c))) := by
  have hN : cfg2.N = 25 := N_2
  have h24 : t.val = 24 := by have := (flush2_6 t).mp hf; have := t.isLt; omega
  obtain rfl : t = tLast2 := Fin.ext h24
  show (cfg2.win 6).cut (grid2.coords tLast2) ((dat2 V c).after 6 tLast2) = _
  rw [Reg2.after_sum V c tLast2]
  exact cut6_row2 c _ (Spec.toRow (Spec.colsum (h1_2 V c))) (fun q => sumOut2 V c q tLast2 rfl)

theorem flushed2_7 (c : Dev nD) (t : Fin cfg2.N) (hf : (cfg2.win 7).flush t = true) :
    (dat2 V c).flushed 7 t
      = ((cfg2.win 7).blk t).view.read (Elt Ideal) (Spec.toRow (Spec.colsum (fun i => h1_2 V c i * h1_2 V c i))) := by
  have hN : cfg2.N = 25 := N_2
  have h24 : t.val = 24 := by have := (flush2_7 t).mp hf; have := t.isLt; omega
  obtain rfl : t = tLast2 := Fin.ext h24
  show (cfg2.win 7).cut (grid2.coords tLast2) ((dat2 V c).after 7 tLast2) = _
  rw [Reg2.after_sq V c tLast2]
  exact cut7_row2 c _ (Spec.toRow (Spec.colsum (fun i => h1_2 V c i * h1_2 V c i))) (fun q => sqOut2 V c q tLast2 rfl)

theorem arr2_5 (c : Dev nD) : (dat2 (F := Ideal) V c).arrAt 5 cfg2.N = h1_2 V c :=
  (dat2 V c).arrAt_eq_of_cover 5 (h1_2 V c) (fun t _ => flushed2_5 V c t) (cover2_5 c)

theorem arr2_6 (c : Dev nD) : Spec.ofRow ((dat2 (F := Ideal) V c).arrAt 6 cfg2.N) = Spec.colsum (h1_2 V c) :=
  (congrArg Spec.ofRow ((dat2 V c).arrAt_eq_of_cover 6 (Spec.toRow (Spec.colsum (h1_2 V c)))
    (fun t hf => flushed2_6 V c t hf) (cover2_6 c))).trans (Spec.ofRow_toRow _)

theorem arr2_7 (c : Dev nD) :
    Spec.ofRow ((dat2 (F := Ideal) V c).arrAt 7 cfg2.N) = Spec.colsum (fun i => h1_2 V c i * h1_2 V c i) :=
  (congrArg Spec.ofRow ((dat2 V c).arrAt_eq_of_cover 7 (Spec.toRow (Spec.colsum (fun i => h1_2 V c i * h1_2 V c i)))
    (fun t hf => flushed2_7 V c t hf) (cover2_7 c))).trans (Spec.ofRow_toRow _)

end AtIdealRun

end Cert.KernelIdeal.Hand
end
-- ==== Proof.KI.ValReg3.lean ====
import proofs.«422945_j10866267259114_2_alg».proof.Proof.KI.Reg3
import proofs.«422945_j10866267259114_2_alg».proof.Proof.KI.Pay
import proofs.«422945_j10866267259114_2_alg».proof.Proof.Spec
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

variable (V : (c : Dev nD) → (b : Ref sig .tc) → Buf (Elt Ideal) ((c : Thread nD τ).loc b))

namespace Val3

theorem offsets_zero : (![0, 0] : Fin 2 → Nat) = fun _ => 0 := funext fun a => by fin_cases a <;> rfl

/-- The layer's second half on the whole array: every row normalised with the column statistics, rectified, multiplied by the weight, the bias added. -/
abbrev whole (H : S50000x256.Idx → EReal) (mu var g bt : S1x256.Idx → EReal) (W : S256x256.Idx → EReal)
    (b : S1x256.Idx → EReal) : S50000x256.Idx → EReal :=
  Cert.Spec.lin (Cert.Spec.bnRelu H (Cert.Spec.ofRow mu) (Cert.Spec.ofRow var) (Cert.Spec.ofRow g) (Cert.Spec.ofRow bt)) W
    (Cert.Spec.ofRow b)

/-- The payload at row `p` of a block whose row `p` is row `r` of the array is the whole-array function at row `r`. -/
theorem pay_at (h : Vec Ideal S5000x256 .f32) (H : S50000x256.Idx → EReal) (mu var g bt : Vec Ideal S1x256 .f32)
    (W : Vec Ideal S256x256 .f32) (b : Vec Ideal S1x256 .f32) (p : Fin 5000) (q : Fin 256) (r : Fin 50000)
    (hh : ∀ k : Fin 256, h (ix2 p k) = H (ix2 r k)) :
    k1_pay1 h g mu var bt W b (ix2 p q) = whole H mu var g bt W b (ix2 r q) := by
  rw [k1_pay1_apply]
  show _ = (∑ k : Fin 256, max (g (ix2 (0 : Fin 1) k) * (H (ix2 r k) - mu (ix2 (0 : Fin 1) k))
            * Ideal.rsqrt (var (ix2 (0 : Fin 1) k) + Cert.Spec.epsW) + bt (ix2 (0 : Fin 1) k)) Cert.Spec.zeroW * W (ix2 k q))
        + b (ix2 (0 : Fin 1) q)
  simp only [hh]

/-- The activations' window and the output's move down the rows with the point. -/
theorem idx_moving : ∀ t : Fin cfg3.N,
    (win3_0.index t (0 : Fin 2) = t.val ∧ win3_0.index t (1 : Fin 2) = 0)
    ∧ (win3_7.index t (0 : Fin 2) = t.val ∧ win3_7.index t (1 : Fin 2) = 0) :=
  (by decide +kernel : ∀ t : Fin grid3.N, _)

/-- Every other window stays at block (0, 0). -/
theorem idx_still : ∀ t : Fin cfg3.N, ∀ w : Fin 8, w ≠ 0 → w ≠ 7 → ∀ a, (cfg3.win w).index t a = 0 :=
  (by decide +kernel : ∀ t : Fin grid3.N, _)

/-- Row `p` of the activations' block at point `t` is row `5000·t + p` of the array. -/
theorem act_block (c : Dev nD) (t : Fin cfg3.N) (p : Fin 5000) (k : Fin 256) (r : Fin 50000)
    (hr : r.val = t.val * 5000 + p.val) :
    (iblk3 V c 0 t : Vec Ideal S5000x256 .f32) (ix2 p k) = (V c main_v45_0 : S50000x256.Idx → EReal) (ix2 r k) := by
  obtain ⟨⟨e0, e1⟩, -⟩ := idx_moving t
  unfold iblk3
  rw [View.read_apply]
  show V c main_v45_0 _ = V c main_v45_0 _
  congr 1
  funext a
  apply Fin.ext
  match a with
  | ⟨0, _⟩ => show win3_0.index t (0 : Fin 2) * 5000 + 1 * p.val = r.val; rw [e0, hr]; omega
  | ⟨1, _⟩ => show win3_0.index t (1 : Fin 2) * 256 + 1 * k.val = k.val; rw [e1]; omega

/-- A window that stays at block (0, 0) holds its whole array at every point: the rows of statistics, the weight, the bias. -/
theorem still_blocks (c : Dev nD) (t : Fin cfg3.N) :
    (iblk3 V c 1 t : Vec Ideal S1x256 .f32) = V c main_v56 ∧ (iblk3 V c 2 t : Vec Ideal S1x256 .f32) = V c main_v57
    ∧ (iblk3 V c 3 t : Vec Ideal S1x256 .f32) = V c main_v58 ∧ (iblk3 V c 4 t : Vec Ideal S1x256 .f32) = V c main_v59
    ∧ (iblk3 V c 5 t : Vec Ideal S256x256 .f32) = V c main_arg17 ∧ (iblk3 V c 6 t : Vec Ideal S1x256 .f32) = V c main_v60 := by
  refine ⟨?_, ?_, ?_, ?_, ?_, ?_⟩ <;> (funext j; unfold iblk3; rw [View.read_apply])
  · exact congrArg (V c _) (funext fun a => Fin.ext ((cfg3.win 1).rect_emb_val_of_index_zero t a (idx_still t 1 (by decide) (by decide) a) j))
  · exact congrArg (V c _) (funext fun a => Fin.ext ((cfg3.win 2).rect_emb_val_of_index_zero t a (idx_still t 2 (by decide) (by decide) a) j))
  · exact congrArg (V c _) (funext fun a => Fin.ext ((cfg3.win 3).rect_emb_val_of_index_zero t a (idx_still t 3 (by decide) (by decide) a) j))
  · exact congrArg (V c _) (funext fun a => Fin.ext ((cfg3.win 4).rect_emb_val_of_index_zero t a (idx_still t 4 (by decide) (by decide) a) j))
  · exact congrArg (V c _) (funext fun a => Fin.ext ((cfg3.win 5).rect_emb_val_of_index_zero t a (idx_still t 5 (by decide) (by decide) a) j))
  · exact congrArg (V c _) (funext fun a => Fin.ext ((cfg3.win 6).rect_emb_val_of_index_zero t a (idx_still t 6 (by decide) (by decide) a) j))

/-- What the region leaves in its output array, as one function of the arrays it finds. -/
abbrev G (c : Dev nD) : S50000x256.Idx → EReal :=
  whole (V c main_v45_0) (V c main_v56) (V c main_v57) (V c main_v58) (V c main_v59) (V c main_arg17) (V c main_v60)

/-- What point `t` writes back is block `t` of that function. -/
theorem flushed_eq (c : Dev nD) (t : Fin cfg3.N) :
    (dat3 V c).flushed 7 t = ((cfg3.win 7).blk t).view.read (Elt Ideal) (G V c) := by
  show (cfg3.win 7).cut (grid3.coords t) ((dat3 V c).after 7 t) = _
  dsimp only [dat3]
  unfold Body1.bnReluLinear
  rw [View.canon_unit_zero offsets_zero]
  simp only [View.ld_unit_zero (S := S5000x256) offsets_zero, View.ld_unit_zero (S := S1x256) offsets_zero,
    View.ld_unit_zero (S := S256x256) offsets_zero]
  obtain ⟨h1, h2, h3, h4, h5, h6⟩ := still_blocks V c t
  rw [h1, h2, h3, h4, h5, h6]
  obtain ⟨-, e0, e1⟩ := idx_moving t
  have ht : t.val < 10 := lt_of_lt_of_eq t.isLt (N_3 : cfg3.N = 10)
  funext j
  obtain ⟨p, q, rfl⟩ : ∃ (p : Fin 5000) (q : Fin 256), j = ix2 p q := ⟨j 0, j 1, eq_ix2 j⟩
  have hp : p.val < 5000 := p.isLt
  show k1_pay1 (iblk3 V c 0 t) (V c main_v58) (V c main_v56) (V c main_v57) (V c main_v59) (V c main_arg17) (V c main_v60) (ix2 p q)
    = G V c (((cfg3.win 7).blk t).view.emb (ix2 p q))
  have hemb : ((cfg3.win 7).blk t).view.emb (ix2 p q) = ix2 (⟨t.val * 5000 + p.val, by omega⟩ : Fin 50000) q := by
    funext a
    apply Fin.ext
    match a with
    | ⟨0, _⟩ => show win3_7.index t (0 : Fin 2) * 5000 + 1 * p.val = t.val * 5000 + p.val; rw [e0]; omega
    | ⟨1, _⟩ => show win3_7.index t (1 : Fin 2) * 256 + 1 * q.val = q.val; rw [e1]; omega
  rw [hemb]
  exact pay_at (iblk3 V c 0 t) (V c main_v45_0) (V c main_v56) (V c main_v57) (V c main_v58) (V c main_v59) (V c main_arg17)
    (V c main_v60) p q ⟨t.val * 5000 + p.val, by omega⟩ (fun k => act_block V c t p k _ rfl)

theorem mem_blk (t : Fin cfg3.N) (i : S50000x256.Idx) :
    i ∈ ((cfg3.win 7).blk t).view.set ↔ ∀ a : Fin 2, win3_7.index t a * S5000x256.size a ≤ (i a).val
      ∧ (i a).val < win3_7.index t a * S5000x256.size a + S5000x256.size a := by
  show i ∈ ((View.whole main_v61).slice (win3_7.rect t)).set ↔ _
  rw [View.set_slice_whole, Rect.mem_set_unit]
  exact Iff.rfl

/-- Row `r` of the array is in the block of point `r / 5000`, and every point writes back. -/
theorem cover (i : S50000x256.Idx) :
    ∃ t : Fin cfg3.N, (cfg3.win 7).flush t = true ∧ i ∈ ((cfg3.win 7).blk t).view.set := by
  have hi0 : (i 0).val < 50000 := idx2_lt0 i
  have hi1 : (i 1).val < 256 := idx2_lt1 i
  have hN : cfg3.N = 10 := N_3
  obtain ⟨t, htv⟩ : ∃ t : Fin cfg3.N, t.val = (i 0).val / 5000 := ⟨⟨(i 0).val / 5000, by rw [hN]; omega⟩, rfl⟩
  obtain ⟨-, e0, e1⟩ := idx_moving t
  refine ⟨t, flush3_7 t, ?_⟩
  rw [mem_blk]
  intro a
  match a with
  | ⟨0, _⟩ =>
    show win3_7.index t (0 : Fin 2) * 5000 ≤ (i 0).val ∧ (i 0).val < win3_7.index t (0 : Fin 2) * 5000 + 5000
    rw [e0, htv]; omega
  | ⟨1, _⟩ =>
    show win3_7.index t (1 : Fin 2) * 256 ≤ (i 1).val ∧ (i 1).val < win3_7.index t (1 : Fin 2) * 256 + 256
    rw [e1]; omega

end Val3

/-- The output array of region 1 after the region: the second half of a layer of the arrays the region finds. -/
theorem arr3 (c : Dev nD) : (dat3 (F := Ideal) V c).arrAt 7 cfg3.N
    = Cert.Spec.lin (Cert.Spec.bnRelu (V c main_v45_0) (Cert.Spec.ofRow (V c main_v56)) (Cert.Spec.ofRow (V c main_v57))
        (Cert.Spec.ofRow (V c main_v58)) (Cert.Spec.ofRow (V c main_v59))) (V c main_arg17) (Cert.Spec.ofRow (V c main_v60)) :=
  (dat3 V c).arrAt_eq_of_cover 7 (Val3.G V c) (fun t _ => Val3.flushed_eq V c t) Val3.cover

end Cert.KernelIdeal.Hand

end
-- ==== Proof.KI.Reg4Val.lean ====
import proofs.«422945_j10866267259114_2_alg».proof.Proof.KI.Reg4

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem zeroOff4 : (![0, 0] : Fin 2 → Nat) = fun _ => 0 := by funext a; fin_cases a <;> rfl

-- Every store covers its whole buffer, so what a point leaves there is the last store's payload.
section Operands
variable (c : Dev nD) (i : grid4.Coords)
  (arg1 : Memref sig .tc .vmem S2000x256 .f32) (harg1 : arg1.IsWhole) (arg2 : Memref sig .tc .vmem S2000x256 .f32) (harg2 : arg2.IsWhole) (arg3 : Memref sig .tc .vmem S2000x256 .f32) (harg3 : arg3.IsWhole) (arg4 : Memref sig .tc .vmem S1x256 .f32) (harg4 : arg4.IsWhole) (arg5 : Memref sig .tc .vmem S1x256 .f32) (harg5 : arg5.IsWhole)
  (arg6 : Memref sig .tc .vmem S2000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole)

section First
variable (hc0 : atFirst4 i) (hc1 : ¬atLast4 i) (x h1 h2 : Vec F S2000x256 .f32) (a1 a2 : Vec F S1x256 .f32)

theorem residFirst4_eq :
    blkLeft4 (runFirst4 c i arg1 harg1 arg2 harg2 arg3 harg3 arg4 harg4 arg5 harg5 arg6 harg6 arg7 harg7 arg8 harg8 arg9 harg9 arg10 harg10 hc0 hc1 x h1 h2 a1 a2).1 = k4_pay4 x a1 h1 a2 h2 := by
  unfold blkLeft4
  rw [View.read_writes_eq_canon _ _ _ (first_cover4 c i arg1 harg1 arg2 harg2 arg3 harg3 arg4 harg4 arg5 harg5 arg6 harg6 arg7 harg7 arg8 harg8 arg9 harg9 arg10 harg10 hc0 hc1 x h1 h2 a1 a2).1]
  unfold runFirst4; dsimp only; sl_unfold_words
  rw [View.canon_unit_zero zeroOff4]
  simp only [View.readAt_eq_ld, harg1.read_unread, harg2.read_unread, harg3.read_unread, harg4.read_unread, harg5.read_unread, harg9.read_unread, harg10.read_unread, View.ld_unit_zero (S := S2000x256) zeroOff4, View.ld_unit_zero (S := S1x256) zeroOff4, View.readCov_unit_zero (S := S1x256) _ zeroOff4]

theorem sumFirst4_eq :
    rowLeft4 (runFirst4 c i arg1 harg1 arg2 harg2 arg3 harg3 arg4 harg4 arg5 harg5 arg6 harg6 arg7 harg7 arg8 harg8 arg9 harg9 arg10 harg10 hc0 hc1 x h1 h2 a1 a2).2.2.2.1 = k4_pay5 x a1 h1 a2 h2 (k4_pay2 (F := F)) := by
  unfold rowLeft4
  rw [View.read_writes_eq_canon _ _ _ (first_cover4 c i arg1 harg1 arg2 harg2 arg3 harg3 arg4 harg4 arg5 harg5 arg6 harg6 arg7 harg7 arg8 harg8 arg9 harg9 arg10 harg10 hc0 hc1 x h1 h2 a1 a2).2.1]
  unfold runFirst4; dsimp only; sl_unfold_words
  rw [View.canon_cons_unit_zero (S := S1x256) zeroOff4]
  simp only [View.readAt_eq_ld, harg1.read_unread, harg2.read_unread, harg3.read_unread, harg4.read_unread, harg5.read_unread, harg9.read_unread, harg10.read_unread, View.ld_unit_zero (S := S2000x256) zeroOff4, View.ld_unit_zero (S := S1x256) zeroOff4, View.readCov_unit_zero (S := S1x256) _ zeroOff4]

theorem sqFirst4_eq :
    rowLeft4 (runFirst4 c i arg1 harg1 arg2 harg2 arg3 harg3 arg4 harg4 arg5 harg5 arg6 harg6 arg7 harg7 arg8 harg8 arg9 harg9 arg10 harg10 hc0 hc1 x h1 h2 a1 a2).2.2.2.2.1 = k4_pay1 (k4_pay6 x a1 h1 a2 h2 (k4_pay3 (F := F))) := by
  unfold rowLeft4
  rw [View.read_writes_eq_canon _ _ _ (first_cover4 c i arg1 harg1 arg2 harg2 arg3 harg3 arg4 harg4 arg5 harg5 arg6 harg6 arg7 harg7 arg8 harg8 arg9 harg9 arg10 harg10 hc0 hc1 x h1 h2 a1 a2).2.2]
  unfold runFirst4; dsimp only; sl_unfold_words
  rw [View.canon_cons_unit_zero (S := S1x256) zeroOff4]
  simp only [View.readAt_eq_ld, harg1.read_unread, harg2.read_unread, harg3.read_unread, harg4.read_unread, harg5.read_unread, harg9.read_unread, harg10.read_unread, View.ld_unit_zero (S := S2000x256) zeroOff4, View.ld_unit_zero (S := S1x256) zeroOff4, View.readCov_unit_zero (S := S1x256) _ zeroOff4]

end First

section Mid
variable (hc0 : ¬atFirst4 i) (hc1 : ¬atLast4 i) (x h1 h2 : Vec F S2000x256 .f32) (a1 a2 s q : Vec F S1x256 .f32)

theorem residMid4_eq :
    blkLeft4 (runMid4 c i arg1 harg1 arg2 harg2 arg3 harg3 arg4 harg4 arg5 harg5 arg6 harg6 arg7 harg7 arg8 harg8 arg9 harg9 arg10 harg10 hc0 hc1 x h1 h2 a1 a2 s q).1 = k4_pay4 x a1 h1 a2 h2 := by
  unfold blkLeft4
  rw [View.read_writes_eq_canon _ _ _ (mid_cover4 c i arg1 harg1 arg2 harg2 arg3 harg3 arg4 harg4 arg5 harg5 arg6 harg6 arg7 harg7 arg8 harg8 arg9 harg9 arg10 harg10 hc0 hc1 x h1 h2 a1 a2 s q).1]
  unfold runMid4; dsimp only; sl_unfold_words
  rw [View.canon_unit_zero zeroOff4]
  simp only [View.readAt_eq_ld, harg1.read_unread, harg2.read_unread, harg3.read_unread, harg4.read_unread, harg5.read_unread, harg9.read_unread, harg10.read_unread, View.ld_unit_zero (S := S2000x256) zeroOff4, View.ld_unit_zero (S := S1x256) zeroOff4, View.readCov_unit_zero (S := S1x256) _ zeroOff4]

theorem sumMid4_eq :
    rowLeft4 (runMid4 c i arg1 harg1 arg2 harg2 arg3 harg3 arg4 harg4 arg5 harg5 arg6 harg6 arg7 harg7 arg8 harg8 arg9 harg9 arg10 harg10 hc0 hc1 x h1 h2 a1 a2 s q).2.2.2.1 = k4_pay5 x a1 h1 a2 h2 s := by
  unfold rowLeft4
  rw [View.read_writes_eq_canon _ _ _ (mid_cover4 c i arg1 harg1 arg2 harg2 arg3 harg3 arg4 harg4 arg5 harg5 arg6 harg6 arg7 harg7 arg8 harg8 arg9 harg9 arg10 harg10 hc0 hc1 x h1 h2 a1 a2 s q).2.1]
  unfold runMid4; dsimp only; sl_unfold_words
  rw [View.canon_unit_zero zeroOff4]
  simp only [View.readAt_eq_ld, harg1.read_unread, harg2.read_unread, harg3.read_unread, harg4.read_unread, harg5.read_unread, harg9.read_unread, harg10.read_unread, View.ld_unit_zero (S := S2000x256) zeroOff4, View.ld_unit_zero (S := S1x256) zeroOff4, View.readCov_unit_zero (S := S1x256) _ zeroOff4]

theorem sqMid4_eq :
    rowLeft4 (runMid4 c i arg1 harg1 arg2 harg2 arg3 harg3 arg4 harg4 arg5 harg5 arg6 harg6 arg7 harg7 arg8 harg8 arg9 harg9 arg10 harg10 hc0 hc1 x h1 h2 a1 a2 s q).2.2.2.2.1 = k4_pay1 (k4_pay6 x a1 h1 a2 h2 q) := by
  unfold rowLeft4
  rw [View.read_writes_eq_canon _ _ _ (mid_cover4 c i arg1 harg1 arg2 harg2 arg3 harg3 arg4 harg4 arg5 harg5 arg6 harg6 arg7 harg7 arg8 harg8 arg9 harg9 arg10 harg10 hc0 hc1 x h1 h2 a1 a2 s q).2.2]
  unfold runMid4; dsimp only; sl_unfold_words
  rw [View.canon_unit_zero zeroOff4]
  simp only [View.readAt_eq_ld, harg1.read_unread, harg2.read_unread, harg3.read_unread, harg4.read_unread, harg5.read_unread, harg9.read_unread, harg10.read_unread, View.ld_unit_zero (S := S2000x256) zeroOff4, View.ld_unit_zero (S := S1x256) zeroOff4, View.readCov_unit_zero (S := S1x256) _ zeroOff4]

end Mid

section Last
variable (hc0 : ¬atFirst4 i) (hc1 : atLast4 i) (x h1 h2 : Vec F S2000x256 .f32) (a1 a2 s q : Vec F S1x256 .f32)

theorem residLast4_eq :
    blkLeft4 (runLast4 c i arg1 harg1 arg2 harg2 arg3 harg3 arg4 harg4 arg5 harg5 arg6 harg6 arg7 harg7 arg8 harg8 arg9 harg9 arg10 harg10 hc0 hc1 x h1 h2 a1 a2 s q).1 = k4_pay4 x a1 h1 a2 h2 := by
  unfold blkLeft4
  rw [View.read_writes_eq_canon _ _ _ (last_cover4 c i arg1 harg1 arg2 harg2 arg3 harg3 arg4 harg4 arg5 harg5 arg6 harg6 arg7 harg7 arg8 harg8 arg9 harg9 arg10 harg10 hc0 hc1 x h1 h2 a1 a2 s q).1]
  unfold runLast4; dsimp only; sl_unfold_words
  rw [View.canon_unit_zero zeroOff4]
  simp only [View.readAt_eq_ld, harg1.read_unread, harg2.read_unread, harg3.read_unread, harg4.read_unread, harg5.read_unread, harg9.read_unread, harg10.read_unread, View.ld_unit_zero (S := S2000x256) zeroOff4, View.ld_unit_zero (S := S1x256) zeroOff4, View.readCov_unit_zero (S := S1x256) _ zeroOff4]

theorem outSumLast4_eq :
    rowLeft4 (runLast4 c i arg1 harg1 arg2 harg2 arg3 harg3 arg4 harg4 arg5 harg5 arg6 harg6 arg7 harg7 arg8 harg8 arg9 harg9 arg10 harg10 hc0 hc1 x h1 h2 a1 a2 s q).2.1 = k4_pay5 x a1 h1 a2 h2 s := by
  unfold rowLeft4
  rw [View.read_writes_eq_canon _ _ _ (last_cover4 c i arg1 harg1 arg2 harg2 arg3 harg3 arg4 harg4 arg5 harg5 arg6 harg6 arg7 harg7 arg8 harg8 arg9 harg9 arg10 harg10 hc0 hc1 x h1 h2 a1 a2 s q).2.1]
  unfold runLast4; dsimp only; sl_unfold_words
  rw [View.canon_unit_zero zeroOff4]
  simp only [View.readAt_eq_ld, harg1.read_unread, harg2.read_unread, harg3.read_unread, harg4.read_unread, harg5.read_unread, harg9.read_unread, harg10.read_unread, View.ld_unit_zero (S := S2000x256) zeroOff4, View.ld_unit_zero (S := S1x256) zeroOff4, View.readCov_unit_zero (S := S1x256) _ zeroOff4]

theorem outSqLast4_eq :
    rowLeft4 (runLast4 c i arg1 harg1 arg2 harg2 arg3 harg3 arg4 harg4 arg5 harg5 arg6 harg6 arg7 harg7 arg8 harg8 arg9 harg9 arg10 harg10 hc0 hc1 x h1 h2 a1 a2 s q).2.2.1 = k4_pay1 (k4_pay6 x a1 h1 a2 h2 q) := by
  unfold rowLeft4
  rw [View.read_writes_eq_canon _ _ _ (last_cover4 c i arg1 harg1 arg2 harg2 arg3 harg3 arg4 harg4 arg5 harg5 arg6 harg6 arg7 harg7 arg8 harg8 arg9 harg9 arg10 harg10 hc0 hc1 x h1 h2 a1 a2 s q).2.2.1]
  unfold runLast4; dsimp only; sl_unfold_words
  rw [View.canon_unit_zero zeroOff4]
  simp only [View.readAt_eq_ld, harg1.read_unread, harg2.read_unread, harg3.read_unread, harg4.read_unread, harg5.read_unread, harg9.read_unread, harg10.read_unread, View.ld_unit_zero (S := S2000x256) zeroOff4, View.ld_unit_zero (S := S1x256) zeroOff4, View.readCov_unit_zero (S := S1x256) _ zeroOff4]

theorem sumLast4_eq :
    rowLeft4 (runLast4 c i arg1 harg1 arg2 harg2 arg3 harg3 arg4 harg4 arg5 harg5 arg6 harg6 arg7 harg7 arg8 harg8 arg9 harg9 arg10 harg10 hc0 hc1 x h1 h2 a1 a2 s q).2.2.2.1 = k4_pay5 x a1 h1 a2 h2 s := by
  unfold rowLeft4
  rw [View.read_writes_eq_canon _ _ _ (last_cover4 c i arg1 harg1 arg2 harg2 arg3 harg3 arg4 harg4 arg5 harg5 arg6 harg6 arg7 harg7 arg8 harg8 arg9 harg9 arg10 harg10 hc0 hc1 x h1 h2 a1 a2 s q).2.2.2.1]
  unfold runLast4; dsimp only; sl_unfold_words
  rw [View.canon_unit_zero zeroOff4]
  simp only [View.readAt_eq_ld, harg1.read_unread, harg2.read_unread, harg3.read_unread, harg4.read_unread, harg5.read_unread, harg9.read_unread, harg10.read_unread, View.ld_unit_zero (S := S2000x256) zeroOff4, View.ld_unit_zero (S := S1x256) zeroOff4, View.readCov_unit_zero (S := S1x256) _ zeroOff4]

theorem sqLast4_eq :
    rowLeft4 (runLast4 c i arg1 harg1 arg2 harg2 arg3 harg3 arg4 harg4 arg5 harg5 arg6 harg6 arg7 harg7 arg8 harg8 arg9 harg9 arg10 harg10 hc0 hc1 x h1 h2 a1 a2 s q).2.2.2.2.1 = k4_pay1 (k4_pay6 x a1 h1 a2 h2 q) := by
  unfold rowLeft4
  rw [View.read_writes_eq_canon _ _ _ (last_cover4 c i arg1 harg1 arg2 harg2 arg3 harg3 arg4 harg4 arg5 harg5 arg6 harg6 arg7 harg7 arg8 harg8 arg9 harg9 arg10 harg10 hc0 hc1 x h1 h2 a1 a2 s q).2.2.2.2]
  unfold runLast4; dsimp only; sl_unfold_words
  rw [View.canon_unit_zero zeroOff4]
  simp only [View.readAt_eq_ld, harg1.read_unread, harg2.read_unread, harg3.read_unread, harg4.read_unread, harg5.read_unread, harg9.read_unread, harg10.read_unread, View.ld_unit_zero (S := S2000x256) zeroOff4, View.ld_unit_zero (S := S1x256) zeroOff4, View.readCov_unit_zero (S := S1x256) _ zeroOff4]

end Last

end Operands

end Cert.KernelIdeal.Hand

end
-- ==== Proof.SpecRow.lean ====
import proofs.«422945_j10866267259114_2_alg».proof.Proof.Spec

noncomputable section

namespace Cert.Spec

open Idealize.ShloMosaic Idealize.ShloMosaic.ValueIdx

def residRow (x hd hu : Arr SND) (a1 a2 : Arr SD) : Arr SND :=
  fun i => x i + a1 (ix1 (i 1)) * hd i + a2 (ix1 (i 1)) * hu i

theorem residRow_const (x hd hu : Arr SND) (a1 a2 : EReal) :
    residRow x hd hu (fun _ => a1) (fun _ => a2) = resid x hd hu a1 a2 := rfl

end Cert.Spec

end
-- ==== Proof.KI.ValReg4.lean ====
import proofs.«422945_j10866267259114_2_alg».proof.Proof.KI.Reg4Val
import proofs.«422945_j10866267259114_2_alg».proof.Proof.Spec
import proofs.«422945_j10866267259114_2_alg».proof.Proof.SpecRow
import proofs.«422945_j10866267259114_2_alg».proof.Proof.KI.Pay
import proofs.«422945_j10866267259114_2_alg».proof.Proof.KI.ValAcc
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat Cfg Window)

namespace Val4

section Generic
variable {F : FTy → Type} [FloatOps F]
variable (V : (c : Dev nD) → (b : Ref sig .tc) → Buf (Elt F) ((c : Thread nD τ).loc b))

theorem idx4_0 : ∀ t : Fin grid4.N, win4_0.index t 0 = t.val ∧ win4_0.index t 1 = 0 := by decide +kernel
theorem idx4_1 : ∀ t : Fin grid4.N, win4_1.index t 0 = t.val ∧ win4_1.index t 1 = 0 := by decide +kernel
theorem idx4_2 : ∀ t : Fin grid4.N, win4_2.index t 0 = t.val ∧ win4_2.index t 1 = 0 := by decide +kernel
theorem idx4_3 : ∀ t : Fin grid4.N, win4_3.index t 0 = 0 ∧ win4_3.index t 1 = 0 := by decide +kernel
theorem idx4_4 : ∀ t : Fin grid4.N, win4_4.index t 0 = 0 ∧ win4_4.index t 1 = 0 := by decide +kernel

theorem iblk4_0_apply (c : Dev nD) (t : Fin cfg4.N) (x : S2000x256.Idx) (k : S50000x256.Idx)
    (hk0 : (k 0).val = 2000 * t.val + (x 0).val) (hk1 : (k 1).val = (x 1).val) :
    (iblk4 V c 0 t : Vec F S2000x256 .f32) x = (V c main_arg0 : S50000x256.Idx → Elt F .f32) k := by
  have hi := idx4_0 t
  unfold iblk4
  rw [View.read_apply]
  refine congrArg (V c main_arg0 : S50000x256.Idx → Elt F .f32) (Shape.idx_ext₂ ?_ ?_)
  · show win4_0.index t 0 * 2000 + 1 * (x 0).val = (k 0).val; rw [hi.1, hk0]; omega
  · show win4_0.index t 1 * 256 + 1 * (x 1).val = (k 1).val; rw [hi.2, hk1]; omega

theorem iblk4_1_apply (c : Dev nD) (t : Fin cfg4.N) (x : S2000x256.Idx) (k : S50000x256.Idx)
    (hk0 : (k 0).val = 2000 * t.val + (x 0).val) (hk1 : (k 1).val = (x 1).val) :
    (iblk4 V c 1 t : Vec F S2000x256 .f32) x = (V c main_v30 : S50000x256.Idx → Elt F .f32) k := by
  have hi := idx4_1 t
  unfold iblk4
  rw [View.read_apply]
  refine congrArg (V c main_v30 : S50000x256.Idx → Elt F .f32) (Shape.idx_ext₂ ?_ ?_)
  · show win4_1.index t 0 * 2000 + 1 * (x 0).val = (k 0).val; rw [hi.1, hk0]; omega
  · show win4_1.index t 1 * 256 + 1 * (x 1).val = (k 1).val; rw [hi.2, hk1]; omega

theorem iblk4_2_apply (c : Dev nD) (t : Fin cfg4.N) (x : S2000x256.Idx) (k : S50000x256.Idx)
    (hk0 : (k 0).val = 2000 * t.val + (x 0).val) (hk1 : (k 1).val = (x 1).val) :
    (iblk4 V c 2 t : Vec F S2000x256 .f32) x = (V c main_v61 : S50000x256.Idx → Elt F .f32) k := by
  have hi := idx4_2 t
  unfold iblk4
  rw [View.read_apply]
  refine congrArg (V c main_v61 : S50000x256.Idx → Elt F .f32) (Shape.idx_ext₂ ?_ ?_)
  · show win4_2.index t 0 * 2000 + 1 * (x 0).val = (k 0).val; rw [hi.1, hk0]; omega
  · show win4_2.index t 1 * 256 + 1 * (x 1).val = (k 1).val; rw [hi.2, hk1]; omega

theorem iblk4_3_eq (c : Dev nD) (t : Fin cfg4.N) :
    (iblk4 V c 3 t : Vec F S1x256 .f32) = (V c main_v63 : S1x256.Idx → Elt F .f32) := by
  have hi := idx4_3 t
  funext x
  unfold iblk4
  rw [View.read_apply]
  refine congrArg (V c main_v63 : S1x256.Idx → Elt F .f32) (Shape.idx_ext₂ ?_ ?_)
  · show win4_3.index t 0 * 1 + 1 * (x 0).val = (x 0).val; rw [hi.1]; omega
  · show win4_3.index t 1 * 256 + 1 * (x 1).val = (x 1).val; rw [hi.2]; omega

theorem iblk4_4_eq (c : Dev nD) (t : Fin cfg4.N) :
    (iblk4 V c 4 t : Vec F S1x256 .f32) = (V c main_v65 : S1x256.Idx → Elt F .f32) := by
  have hi := idx4_4 t
  funext x
  unfold iblk4
  rw [View.read_apply]
  refine congrArg (V c main_v65 : S1x256.Idx → Elt F .f32) (Shape.idx_ext₂ ?_ ?_)
  · show win4_4.index t 0 * 1 + 1 * (x 0).val = (x 0).val; rw [hi.1]; omega
  · show win4_4.index t 1 * 256 + 1 * (x 1).val = (x 1).val; rw [hi.2]; omega

theorem idx4_5 : ∀ t : Fin grid4.N, win4_5.index t 0 = t.val ∧ win4_5.index t 1 = 0
    ∧ win4_5.xsize (grid4.coords t) 0 = 2000 ∧ win4_5.xsize (grid4.coords t) 1 = 256 := by decide +kernel
theorem idx4_6 : ∀ t : Fin grid4.N, win4_6.index t 0 = 0 ∧ win4_6.index t 1 = 0
    ∧ win4_6.xsize (grid4.coords t) 0 = 1 ∧ win4_6.xsize (grid4.coords t) 1 = 256 := by decide +kernel
theorem idx4_7 : ∀ t : Fin grid4.N, win4_7.index t 0 = 0 ∧ win4_7.index t 1 = 0
    ∧ win4_7.xsize (grid4.coords t) 0 = 1 ∧ win4_7.xsize (grid4.coords t) 1 = 256 := by decide +kernel

def tLast4 : Fin cfg4.N := ⟨24, by rw [show cfg4.N = 25 from N_4]; decide⟩

theorem cover4_5 (c : Dev nD) (i : ((cfg4.win 5).arr.view.loc (c.tc : Thread nD τ)).2.ty.Idx) :
    ∃ t : Fin cfg4.N, (cfg4.win 5).flush t = true ∧ i ∈ ((cfg4.win 5).blk t).view.set := by
  have hr : (i 0 : Nat) < 50000 := (i 0).isLt
  have hq : (i 1 : Nat) < 256 := (i 1).isLt
  have hN : cfg4.N = 25 := N_4
  obtain ⟨T, hT⟩ : ∃ T : Fin cfg4.N, T.val = (i 0 : Nat) / 2000 := ⟨⟨(i 0 : Nat) / 2000, by rw [hN]; omega⟩, rfl⟩
  refine ⟨T, flush4_5 T, ?_⟩
  obtain ⟨h0, h1, hx0, hx1⟩ := idx4_5 T
  show i ∈ ((View.whole main_v66_0).slice (win4_5.rect T)).set
  rw [View.set_slice_whole, Rect.mem_set_unit]
  intro a
  match a with
  | ⟨0, _⟩ =>
    show win4_5.index T 0 * win4_5.size 0 ≤ (i 0 : Nat) ∧ (i 0 : Nat) < win4_5.index T 0 * win4_5.size 0 + win4_5.xsize (grid4.coords T) 0
    rw [h0, hx0, hT, show win4_5.size 0 = 2000 from rfl]; omega
  | ⟨1, _⟩ =>
    show win4_5.index T 1 * win4_5.size 1 ≤ (i 1 : Nat) ∧ (i 1 : Nat) < win4_5.index T 1 * win4_5.size 1 + win4_5.xsize (grid4.coords T) 1
    rw [h1, hx1, show win4_5.size 1 = 256 from rfl]; omega

theorem cover4_6 (c : Dev nD) (i : ((cfg4.win 6).arr.view.loc (c.tc : Thread nD τ)).2.ty.Idx) :
    ∃ t : Fin cfg4.N, (cfg4.win 6).flush t = true ∧ i ∈ ((cfg4.win 6).blk t).view.set := by
  have hr : (i 0 : Nat) < 1 := (i 0).isLt
  have hq : (i 1 : Nat) < 256 := (i 1).isLt
  refine ⟨tLast4, (flush4_6 tLast4).mpr rfl, ?_⟩
  obtain ⟨h0, h1, hx0, hx1⟩ := idx4_6 tLast4
  show i ∈ ((View.whole main_v66_1).slice (win4_6.rect tLast4)).set
  rw [View.set_slice_whole, Rect.mem_set_unit]
  intro a
  match a with
  | ⟨0, _⟩ =>
    show win4_6.index tLast4 0 * win4_6.size 0 ≤ (i 0 : Nat) ∧ (i 0 : Nat) < win4_6.index tLast4 0 * win4_6.size 0 + win4_6.xsize (grid4.coords tLast4) 0
    rw [h0, hx0]; omega
  | ⟨1, _⟩ =>
    show win4_6.index tLast4 1 * win4_6.size 1 ≤ (i 1 : Nat) ∧ (i 1 : Nat) < win4_6.index tLast4 1 * win4_6.size 1 + win4_6.xsize (grid4.coords tLast4) 1
    rw [h1, hx1]; omega

theorem cover4_7 (c : Dev nD) (i : ((cfg4.win 7).arr.view.loc (c.tc : Thread nD τ)).2.ty.Idx) :
    ∃ t : Fin cfg4.N, (cfg4.win 7).flush t = true ∧ i ∈ ((cfg4.win 7).blk t).view.set := by
  have hr : (i 0 : Nat) < 1 := (i 0).isLt
  have hq : (i 1 : Nat) < 256 := (i 1).isLt
  refine ⟨tLast4, (flush4_7 tLast4).mpr rfl, ?_⟩
  obtain ⟨h0, h1, hx0, hx1⟩ := idx4_7 tLast4
  show i ∈ ((View.whole main_v66_2).slice (win4_7.rect tLast4)).set
  rw [View.set_slice_whole, Rect.mem_set_unit]
  intro a
  match a with
  | ⟨0, _⟩ =>
    show win4_7.index tLast4 0 * win4_7.size 0 ≤ (i 0 : Nat) ∧ (i 0 : Nat) < win4_7.index tLast4 0 * win4_7.size 0 + win4_7.xsize (grid4.coords tLast4) 0
    rw [h0, hx0]; omega
  | ⟨1, _⟩ =>
    show win4_7.index tLast4 1 * win4_7.size 1 ≤ (i 1 : Nat) ∧ (i 1 : Nat) < win4_7.index tLast4 1 * win4_7.size 1 + win4_7.xsize (grid4.coords tLast4) 1
    rw [h1, hx1]; omega

end Generic

end Val4

section AtIdeal

variable (V : (c : Dev nD) → (b : Ref sig .tc) → Buf (Elt Ideal) ((c : Thread nD τ).loc b))

open scoped BigOperators

abbrev mix_4 (c : Dev nD) : Spec.Arr Spec.SND :=
  Spec.residRow (V c main_arg0 : Spec.SND.Idx → EReal) (V c main_v30 : Spec.SND.Idx → EReal) (V c main_v61 : Spec.SND.Idx → EReal)
    (Spec.ofRow (V c main_v63 : Spec.S1D.Idx → EReal)) (Spec.ofRow (V c main_v65 : Spec.S1D.Idx → EReal))

namespace Val4

abbrev blkPay4 (c : Dev nD) (t : Fin cfg4.N) : Vec Ideal S2000x256 .f32 :=
  k4_pay4 (iblk4 V c 0 t) (iblk4 V c 3 t) (iblk4 V c 1 t) (iblk4 V c 4 t) (iblk4 V c 2 t)

theorem pay4_blocks4 (c : Dev nD) (t : Fin cfg4.N) (p : Fin 2000) (q : Fin 256) (r : Fin 50000)
    (hr : r.val = 2000 * t.val + p.val) :
    blkPay4 V c t (ix2 p q) = mix_4 V c (ix2 r q) := by
  refine (k4_pay4_apply (iblk4 V c 0 t) (iblk4 V c 3 t) (iblk4 V c 1 t) (iblk4 V c 4 t) (iblk4 V c 2 t) p q).trans ?_
  have e3 := iblk4_3_eq V c t
  have e4 := iblk4_4_eq V c t
  have e0 : (iblk4 V c 0 t : Vec Ideal S2000x256 .f32) (ix2 p q)
      = (V c main_arg0 : S50000x256.Idx → Elt Ideal .f32) (ix2 r q) := iblk4_0_apply V c t (ix2 p q) (ix2 r q) hr rfl
  have e1 : (iblk4 V c 1 t : Vec Ideal S2000x256 .f32) (ix2 p q)
      = (V c main_v30 : S50000x256.Idx → Elt Ideal .f32) (ix2 r q) := iblk4_1_apply V c t (ix2 p q) (ix2 r q) hr rfl
  have e2 : (iblk4 V c 2 t : Vec Ideal S2000x256 .f32) (ix2 p q)
      = (V c main_v61 : S50000x256.Idx → Elt Ideal .f32) (ix2 r q) := iblk4_2_apply V c t (ix2 p q) (ix2 r q) hr rfl
  rw [e3, e4, e0, e1, e2]
  rfl

theorem emb4_5 (t : Fin cfg4.N) (p : Fin 2000) (q : Fin 256) (r : Fin 50000) (hr : r.val = 2000 * t.val + p.val) :
    ((cfg4.win 5).blk t).view.emb (ix2 p q) = (ix2 r q : S50000x256.Idx) := by
  obtain ⟨h0, h1, -, -⟩ := idx4_5 t
  funext a
  apply Fin.ext
  match a with
  | ⟨0, _⟩ => show win4_5.index t 0 * 2000 + 1 * p.val = r.val; rw [h0, hr]; omega
  | ⟨1, _⟩ => show win4_5.index t 1 * 256 + 1 * q.val = q.val; rw [h1]; omega

theorem arr5_of (c : Dev nD) (h5 : ∀ t, (dat4 (F := Ideal) V c).after 5 t = blkPay4 V c t) :
    (dat4 (F := Ideal) V c).arrAt 5 cfg4.N = mix_4 V c := by
  refine (dat4 V c).arrAt_eq_of_cover 5 (mix_4 V c) (fun t _ => ?_) (cover4_5 c)
  show (cfg4.win 5).cut (grid4.coords t) ((dat4 V c).after 5 t) = _
  rw [h5 t]
  have ht : t.val < 25 := lt_of_lt_of_eq t.isLt (N_4 : cfg4.N = 25)
  funext j
  obtain ⟨p, q, rfl⟩ : ∃ (p : Fin 2000) (q : Fin 256), j = ix2 p q := ⟨j 0, j 1, eq_ix2 j⟩
  have hp : p.val < 2000 := p.isLt
  rw [View.read_apply, emb4_5 t p q ⟨2000 * t.val + p.val, by omega⟩ rfl]
  exact pay4_blocks4 V c t p q ⟨2000 * t.val + p.val, by omega⟩ rfl

theorem last_of_flush4_6 (t : Fin cfg4.N) (hf : (cfg4.win 6).flush t = true) : t.val = 24 := by
  have ht : t.val < 25 := lt_of_lt_of_eq t.isLt (N_4 : cfg4.N = 25)
  have h := (flush4_6 t).mp hf
  omega
theorem last_of_flush4_7 (t : Fin cfg4.N) (hf : (cfg4.win 7).flush t = true) : t.val = 24 := by
  have ht : t.val < 25 := lt_of_lt_of_eq t.isLt (N_4 : cfg4.N = 25)
  have h := (flush4_7 t).mp hf
  omega

theorem emb4_6 (t : Fin cfg4.N) (q : Fin 256) :
    ((cfg4.win 6).blk t).view.emb (ix2 (0 : Fin 1) q) = (ix2 (0 : Fin 1) q : S1x256.Idx) := by
  obtain ⟨h0, h1, -, -⟩ := idx4_6 t
  funext a
  apply Fin.ext
  match a with
  | ⟨0, _⟩ => show win4_6.index t 0 * 1 + 1 * 0 = 0; rw [h0]
  | ⟨1, _⟩ => show win4_6.index t 1 * 256 + 1 * q.val = q.val; rw [h1]; omega
theorem emb4_7 (t : Fin cfg4.N) (q : Fin 256) :
    ((cfg4.win 7).blk t).view.emb (ix2 (0 : Fin 1) q) = (ix2 (0 : Fin 1) q : S1x256.Idx) := by
  obtain ⟨h0, h1, -, -⟩ := idx4_7 t
  funext a
  apply Fin.ext
  match a with
  | ⟨0, _⟩ => show win4_7.index t 0 * 1 + 1 * 0 = 0; rw [h0]
  | ⟨1, _⟩ => show win4_7.index t 1 * 256 + 1 * q.val = q.val; rw [h1]; omega

theorem toRow_entry (a : Spec.Arr Spec.SD) (q : Fin 256) : Spec.toRow a (ix2 (0 : Fin 1) q) = a (ix1 q) := rfl

theorem arr6_row (c : Dev nD) (R : S1x256.Idx → EReal)
    (h : ∀ t : Fin cfg4.N, t.val = 24 → ∀ q : Fin 256, (dat4 (F := Ideal) V c).after 6 t (ix2 (0 : Fin 1) q) = R (ix2 (0 : Fin 1) q)) :
    (dat4 (F := Ideal) V c).arrAt 6 cfg4.N = R := by
  refine (dat4 V c).arrAt_eq_of_cover 6 R (fun t hf => ?_) (cover4_6 c)
  have h24 := last_of_flush4_6 t hf
  show (cfg4.win 6).cut (grid4.coords t) ((dat4 V c).after 6 t) = _
  funext j
  obtain ⟨p, q, rfl⟩ : ∃ (p : Fin 1) (q : Fin 256), j = ix2 p q := ⟨j 0, j 1, eq_ix2 j⟩
  obtain rfl : p = 0 := Subsingleton.elim _ _
  rw [View.read_apply, emb4_6 t q]
  exact h t h24 q

theorem arr7_row (c : Dev nD) (R : S1x256.Idx → EReal)
    (h : ∀ t : Fin cfg4.N, t.val = 24 → ∀ q : Fin 256, (dat4 (F := Ideal) V c).after 7 t (ix2 (0 : Fin 1) q) = R (ix2 (0 : Fin 1) q)) :
    (dat4 (F := Ideal) V c).arrAt 7 cfg4.N = R := by
  refine (dat4 V c).arrAt_eq_of_cover 7 R (fun t hf => ?_) (cover4_7 c)
  have h24 := last_of_flush4_7 t hf
  show (cfg4.win 7).cut (grid4.coords t) ((dat4 V c).after 7 t) = _
  funext j
  obtain ⟨p, q, rfl⟩ : ∃ (p : Fin 1) (q : Fin 256), j = ix2 p q := ⟨j 0, j 1, eq_ix2 j⟩
  obtain rfl : p = 0 := Subsingleton.elim _ _
  rw [View.read_apply, emb4_7 t q]
  exact h t h24 q

theorem arr6_of (c : Dev nD) (h6 : ∀ t : Fin cfg4.N, t.val = 24 → ∀ q : Fin 256,
      (dat4 (F := Ideal) V c).after 6 t (ix2 (0 : Fin 1) q) = Spec.colsum (mix_4 V c) (ix1 q)) :
    Spec.ofRow ((dat4 (F := Ideal) V c).arrAt 6 cfg4.N) = Spec.colsum (mix_4 V c) := by
  rw [arr6_row V c (Spec.toRow (Spec.colsum (mix_4 V c))) (fun t h q => (h6 t h q).trans (toRow_entry _ q).symm)]
  exact Spec.ofRow_toRow _

theorem arr7_of (c : Dev nD) (h7 : ∀ t : Fin cfg4.N, t.val = 24 → ∀ q : Fin 256,
      (dat4 (F := Ideal) V c).after 7 t (ix2 (0 : Fin 1) q) = Spec.colsum (fun i => mix_4 V c i * mix_4 V c i) (ix1 q)) :
    Spec.ofRow ((dat4 (F := Ideal) V c).arrAt 7 cfg4.N) = Spec.colsum (fun i => mix_4 V c i * mix_4 V c i) := by
  rw [arr7_row V c (Spec.toRow (Spec.colsum (fun i => mix_4 V c i * mix_4 V c i))) (fun t h q => (h7 t h q).trans (toRow_entry _ q).symm)]
  exact Spec.ofRow_toRow _

theorem out5_at (c : Dev nD) (t : Fin cfg4.N) : (outsAt4 (F := Ideal) V c t.val t.isLt).1 = blkPay4 V c t := by
  by_cases h0 : t.val = 0
  · rw [outsAt4_first V c t h0]; unfold leftFirst4 firstAt4 left4; dsimp only; exact residFirst4_eq (F := Ideal) ..
  · by_cases h1 : t.val = 24
    · rw [outsAt4_last V c t h0 h1]; unfold leftLast4 lastAt4 left4; dsimp only; exact residLast4_eq (F := Ideal) ..
    · rw [outsAt4_mid V c t h0 h1]; unfold leftMid4 midAt4 left4; dsimp only; exact residMid4_eq (F := Ideal) ..

theorem sum_first (c : Dev nD) (t : Fin cfg4.N) (h : t.val = 0) :
    (outsAt4 (F := Ideal) V c t.val t.isLt).2.2.2.1 = k4_pay5 (iblk4 V c 0 t) (iblk4 V c 3 t) (iblk4 V c 1 t) (iblk4 V c 4 t) (iblk4 V c 2 t) (k4_pay2 (F := Ideal)) := by
  rw [outsAt4_first V c t h]; unfold leftFirst4 firstAt4 left4; dsimp only; exact sumFirst4_eq (F := Ideal) ..

theorem sum_later (c : Dev nD) (t : Fin cfg4.N) (h : t.val ≠ 0) :
    (outsAt4 (F := Ideal) V c t.val t.isLt).2.2.2.1 = k4_pay5 (iblk4 V c 0 t) (iblk4 V c 3 t) (iblk4 V c 1 t) (iblk4 V c 4 t) (iblk4 V c 2 t) (outsAt4 (F := Ideal) V c (t.val - 1) (Nat.lt_of_le_of_lt (Nat.sub_le _ _) t.isLt)).2.2.2.1 := by
  by_cases h1 : t.val = 24
  · rw [outsAt4_last V c t h h1]; unfold leftLast4 lastAt4 left4; dsimp only; exact sumLast4_eq (F := Ideal) ..
  · rw [outsAt4_mid V c t h h1]; unfold leftMid4 midAt4 left4; dsimp only; exact sumMid4_eq (F := Ideal) ..

theorem sq_first (c : Dev nD) (t : Fin cfg4.N) (h : t.val = 0) :
    (outsAt4 (F := Ideal) V c t.val t.isLt).2.2.2.2 = k4_pay6 (iblk4 V c 0 t) (iblk4 V c 3 t) (iblk4 V c 1 t) (iblk4 V c 4 t) (iblk4 V c 2 t) (k4_pay3 (F := Ideal)) := by
  rw [outsAt4_first V c t h]; unfold leftFirst4 firstAt4 left4; dsimp only; exact (sqFirst4_eq (F := Ideal) ..).trans (k4_pay1_eq _)

theorem sq_later (c : Dev nD) (t : Fin cfg4.N) (h : t.val ≠ 0) :
    (outsAt4 (F := Ideal) V c t.val t.isLt).2.2.2.2 = k4_pay6 (iblk4 V c 0 t) (iblk4 V c 3 t) (iblk4 V c 1 t) (iblk4 V c 4 t) (iblk4 V c 2 t) (outsAt4 (F := Ideal) V c (t.val - 1) (Nat.lt_of_le_of_lt (Nat.sub_le _ _) t.isLt)).2.2.2.2 := by
  by_cases h1 : t.val = 24
  · rw [outsAt4_last V c t h h1]; unfold leftLast4 lastAt4 left4; dsimp only; exact (sqLast4_eq (F := Ideal) ..).trans (k4_pay1_eq _)
  · rw [outsAt4_mid V c t h h1]; unfold leftMid4 midAt4 left4; dsimp only; exact (sqMid4_eq (F := Ideal) ..).trans (k4_pay1_eq _)

theorem out6_last (c : Dev nD) (t : Fin cfg4.N) (h24 : t.val = 24) :
    (outsAt4 (F := Ideal) V c t.val t.isLt).2.1 = (outsAt4 (F := Ideal) V c t.val t.isLt).2.2.2.1 := by
  have h0 : t.val ≠ 0 := by omega
  rw [sum_later V c t h0, outsAt4_last V c t h0 h24]
  unfold leftLast4 lastAt4 left4
  dsimp only
  exact outSumLast4_eq (F := Ideal) ..

theorem out7_last (c : Dev nD) (t : Fin cfg4.N) (h24 : t.val = 24) :
    (outsAt4 (F := Ideal) V c t.val t.isLt).2.2.1 = (outsAt4 (F := Ideal) V c t.val t.isLt).2.2.2.2 := by
  have h0 : t.val ≠ 0 := by omega
  rw [sq_later V c t h0, outsAt4_last V c t h0 h24]
  unfold leftLast4 lastAt4 left4
  dsimp only
  exact (outSqLast4_eq (F := Ideal) ..).trans (k4_pay1_eq _)

theorem after6_last (c : Dev nD) (t : Fin cfg4.N) (h24 : t.val = 24) (q : Fin 256) :
    (dat4 (F := Ideal) V c).after 6 t (ix2 (0 : Fin 1) q) = Spec.colsum (mix_4 V c) (ix1 q) := by
  rw [after4_6, out6_last V c t h24]
  exact Acc.colsum_last (N := cfg4.N) N_4 (fun n h => (outsAt4 (F := Ideal) V c n h).2.2.2.1)
    (fun t acc => k4_pay5 (iblk4 V c 0 t) (iblk4 V c 3 t) (iblk4 V c 1 t) (iblk4 V c 4 t) (iblk4 V c 2 t) acc) (k4_pay2 (F := Ideal))
    (sum_first V c) (sum_later V c) k4_pay2_apply (blkPay4 V c) (mix_4 V c) (pay4_blocks4 V c)
    (fun t acc q => k4_pay5_apply _ _ _ _ _ acc q) t h24 q

theorem after7_last (c : Dev nD) (t : Fin cfg4.N) (h24 : t.val = 24) (q : Fin 256) :
    (dat4 (F := Ideal) V c).after 7 t (ix2 (0 : Fin 1) q) = Spec.colsum (fun i => mix_4 V c i * mix_4 V c i) (ix1 q) := by
  rw [after4_7, out7_last V c t h24]
  exact Acc.colsumsq_last (N := cfg4.N) N_4 (fun n h => (outsAt4 (F := Ideal) V c n h).2.2.2.2)
    (fun t acc => k4_pay6 (iblk4 V c 0 t) (iblk4 V c 3 t) (iblk4 V c 1 t) (iblk4 V c 4 t) (iblk4 V c 2 t) acc) (k4_pay3 (F := Ideal))
    (sq_first V c) (sq_later V c) k4_pay3_apply (blkPay4 V c) (mix_4 V c) (pay4_blocks4 V c)
    (fun t acc q => k4_pay6_apply _ _ _ _ _ acc q) t h24 q

end Val4

theorem arr4_5 (c : Dev nD) : (dat4 (F := Ideal) V c).arrAt 5 cfg4.N = mix_4 V c :=
  Val4.arr5_of V c (fun t => (after4_5 V c t).trans (Val4.out5_at V c t))

theorem arr4_6 (c : Dev nD) : Spec.ofRow ((dat4 (F := Ideal) V c).arrAt 6 cfg4.N) = Spec.colsum (mix_4 V c) :=
  Val4.arr6_of V c (Val4.after6_last V c)

theorem arr4_7 (c : Dev nD) :
    Spec.ofRow ((dat4 (F := Ideal) V c).arrAt 7 cfg4.N) = Spec.colsum (fun i => mix_4 V c i * mix_4 V c i) :=
  Val4.arr7_of V c (Val4.after7_last V c)

end AtIdeal

end Cert.KernelIdeal.Hand
end
-- ==== Proof.KI.ValReg5.lean ====
import proofs.«422945_j10866267259114_2_alg».proof.Proof.KI.Reg5
import proofs.«422945_j10866267259114_2_alg».proof.Proof.KI.Pay
import proofs.«422945_j10866267259114_2_alg».proof.Proof.Spec
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

variable (V : (c : Dev nD) → (b : Ref sig .tc) → Buf (Elt Ideal) ((c : Thread nD τ).loc b))

namespace Val5

theorem offsets_zero : (![0, 0] : Fin 2 → Nat) = fun _ => 0 := funext fun a => by fin_cases a <;> rfl

/-- Batch normalisation with the column statistics, then the rectifier, on the whole array. -/
abbrev whole (H : S50000x256.Idx → EReal) (mu var g bt : S1x256.Idx → EReal) : S50000x256.Idx → EReal :=
  Cert.Spec.bnRelu H (Cert.Spec.ofRow mu) (Cert.Spec.ofRow var) (Cert.Spec.ofRow g) (Cert.Spec.ofRow bt)

/-- The payload at row `p` of a block whose row `p` is row `r` of the array is the whole-array function at row `r`. -/
theorem pay_at (h : Vec Ideal S5000x256 .f32) (H : S50000x256.Idx → EReal) (mu var g bt : Vec Ideal S1x256 .f32)
    (p : Fin 5000) (q : Fin 256) (r : Fin 50000) (hh : h (ix2 p q) = H (ix2 r q)) :
    k5_pay1 h g mu var bt (ix2 p q) = whole H mu var g bt (ix2 r q) := by
  rw [k5_pay1_apply, hh]
  rfl

/-- The input's window and the output's move down the rows with the point. -/
theorem idx_moving : ∀ t : Fin cfg5.N,
    (win5_0.index t (0 : Fin 2) = t.val ∧ win5_0.index t (1 : Fin 2) = 0)
    ∧ (win5_5.index t (0 : Fin 2) = t.val ∧ win5_5.index t (1 : Fin 2) = 0) :=
  (by decide +kernel : ∀ t : Fin grid5.N, _)

/-- Every other window stays at block (0, 0). -/
theorem idx_still : ∀ t : Fin cfg5.N, ∀ w : Fin 6, w ≠ 0 → w ≠ 5 → ∀ a, (cfg5.win w).index t a = 0 :=
  (by decide +kernel : ∀ t : Fin grid5.N, _)

/-- Row `p` of the input's block at point `t` is row `5000·t + p` of the array. -/
theorem act_block (c : Dev nD) (t : Fin cfg5.N) (p : Fin 5000) (k : Fin 256) (r : Fin 50000)
    (hr : r.val = t.val * 5000 + p.val) :
    (iblk5 V c 0 t : Vec Ideal S5000x256 .f32) (ix2 p k) = (V c main_v66_0 : S50000x256.Idx → EReal) (ix2 r k) := by
  obtain ⟨⟨e0, e1⟩, -⟩ := idx_moving t
  unfold iblk5
  rw [View.read_apply]
  show V c main_v66_0 _ = V c main_v66_0 _
  congr 1
  funext a
  apply Fin.ext
  match a with
  | ⟨0, _⟩ => show win5_0.index t (0 : Fin 2) * 5000 + 1 * p.val = r.val; rw [e0, hr]; omega
  | ⟨1, _⟩ => show win5_0.index t (1 : Fin 2) * 256 + 1 * k.val = k.val; rw [e1]; omega

/-- A window that stays at block (0, 0) holds its whole array at every point: the rows of statistics. -/
theorem still_blocks (c : Dev nD) (t : Fin cfg5.N) :
    (iblk5 V c 1 t : Vec Ideal S1x256 .f32) = V c main_v77 ∧ (iblk5 V c 2 t : Vec Ideal S1x256 .f32) = V c main_v78
    ∧ (iblk5 V c 3 t : Vec Ideal S1x256 .f32) = V c main_v79 ∧ (iblk5 V c 4 t : Vec Ideal S1x256 .f32) = V c main_v80 := by
  refine ⟨?_, ?_, ?_, ?_⟩ <;> (funext j; unfold iblk5; rw [View.read_apply])
  · exact congrArg (V c _) (funext fun a => Fin.ext ((cfg5.win 1).rect_emb_val_of_index_zero t a (idx_still t 1 (by decide) (by decide) a) j))
  · exact congrArg (V c _) (funext fun a => Fin.ext ((cfg5.win 2).rect_emb_val_of_index_zero t a (idx_still t 2 (by decide) (by decide) a) j))
  · exact congrArg (V c _) (funext fun a => Fin.ext ((cfg5.win 3).rect_emb_val_of_index_zero t a (idx_still t 3 (by decide) (by decide) a) j))
  · exact congrArg (V c _) (funext fun a => Fin.ext ((cfg5.win 4).rect_emb_val_of_index_zero t a (idx_still t 4 (by decide) (by decide) a) j))

/-- What the region leaves in its output array, as one function of the arrays it finds. -/
abbrev G (c : Dev nD) : S50000x256.Idx → EReal :=
  whole (V c main_v66_0) (V c main_v77) (V c main_v78) (V c main_v79) (V c main_v80)

/-- What point `t` writes back is block `t` of that function. -/
theorem flushed_eq (c : Dev nD) (t : Fin cfg5.N) :
    (dat5 V c).flushed 5 t = ((cfg5.win 5).blk t).view.read (Elt Ideal) (G V c) := by
  show (cfg5.win 5).cut (grid5.coords t) ((dat5 V c).after 5 t) = _
  dsimp only [dat5]
  unfold Reg5.bnRelu
  rw [View.canon_unit_zero offsets_zero]
  simp only [View.ld_unit_zero (S := S5000x256) offsets_zero, View.ld_unit_zero (S := S1x256) offsets_zero]
  obtain ⟨h1, h2, h3, h4⟩ := still_blocks V c t
  rw [h1, h2, h3, h4]
  obtain ⟨-, e0, e1⟩ := idx_moving t
  have ht : t.val < 10 := lt_of_lt_of_eq t.isLt (N_5 : cfg5.N = 10)
  funext j
  obtain ⟨p, q, rfl⟩ : ∃ (p : Fin 5000) (q : Fin 256), j = ix2 p q := ⟨j 0, j 1, eq_ix2 j⟩
  have hp : p.val < 5000 := p.isLt
  show k5_pay1 (iblk5 V c 0 t) (V c main_v79) (V c main_v77) (V c main_v78) (V c main_v80) (ix2 p q)
    = G V c (((cfg5.win 5).blk t).view.emb (ix2 p q))
  have hemb : ((cfg5.win 5).blk t).view.emb (ix2 p q) = ix2 (⟨t.val * 5000 + p.val, by omega⟩ : Fin 50000) q := by
    funext a
    apply Fin.ext
    match a with
    | ⟨0, _⟩ => show win5_5.index t (0 : Fin 2) * 5000 + 1 * p.val = t.val * 5000 + p.val; rw [e0]; omega
    | ⟨1, _⟩ => show win5_5.index t (1 : Fin 2) * 256 + 1 * q.val = q.val; rw [e1]; omega
  rw [hemb]
  exact pay_at (iblk5 V c 0 t) (V c main_v66_0) (V c main_v77) (V c main_v78) (V c main_v79) (V c main_v80)
    p q ⟨t.val * 5000 + p.val, by omega⟩ (act_block V c t p q _ rfl)

theorem mem_blk (t : Fin cfg5.N) (i : S50000x256.Idx) :
    i ∈ ((cfg5.win 5).blk t).view.set ↔ ∀ a : Fin 2, win5_5.index t a * S5000x256.size a ≤ (i a).val
      ∧ (i a).val < win5_5.index t a * S5000x256.size a + S5000x256.size a := by
  show i ∈ ((View.whole main_v81).slice (win5_5.rect t)).set ↔ _
  rw [View.set_slice_whole, Rect.mem_set_unit]
  exact Iff.rfl

/-- Row `r` of the array is in the block of point `r / 5000`, and every point writes back. -/
theorem cover (i : S50000x256.Idx) :
    ∃ t : Fin cfg5.N, (cfg5.win 5).flush t = true ∧ i ∈ ((cfg5.win 5).blk t).view.set := by
  have hi0 : (i 0).val < 50000 := idx2_lt0 i
  have hi1 : (i 1).val < 256 := idx2_lt1 i
  have hN : cfg5.N = 10 := N_5
  obtain ⟨t, htv⟩ : ∃ t : Fin cfg5.N, t.val = (i 0).val / 5000 := ⟨⟨(i 0).val / 5000, by rw [hN]; omega⟩, rfl⟩
  obtain ⟨-, e0, e1⟩ := idx_moving t
  refine ⟨t, flush5_5 t, ?_⟩
  rw [mem_blk]
  intro a
  match a with
  | ⟨0, _⟩ =>
    show win5_5.index t (0 : Fin 2) * 5000 ≤ (i 0).val ∧ (i 0).val < win5_5.index t (0 : Fin 2) * 5000 + 5000
    rw [e0, htv]; omega
  | ⟨1, _⟩ =>
    show win5_5.index t (1 : Fin 2) * 256 ≤ (i 1).val ∧ (i 1).val < win5_5.index t (1 : Fin 2) * 256 + 256
    rw [e1]; omega

end Val5

/-- The output array of region 5 after the region: batch normalisation and the rectifier of the array the region finds. -/
theorem arr5 (c : Dev nD) : (dat5 (F := Ideal) V c).arrAt 5 cfg5.N
    = Cert.Spec.bnRelu (V c main_v66_0) (Cert.Spec.ofRow (V c main_v77)) (Cert.Spec.ofRow (V c main_v78))
        (Cert.Spec.ofRow (V c main_v79)) (Cert.Spec.ofRow (V c main_v80)) :=
  (dat5 V c).arrAt_eq_of_cover 5 (Val5.G V c) (fun t _ => Val5.flushed_eq V c t) Val5.cover

end Cert.KernelIdeal.Hand

end
-- ==== Proof.KI.Carry.lean ====
import proofs.«422945_j10866267259114_2_alg».proof.Proof.Gen.KernelIdeal.Regions

noncomputable section

namespace Cert.KernelIdeal.Hand

open Cert.KernelIdeal
open Idealize.ShloMosaic Idealize.ShloMosaic.TcCoe
open Idealize.SL.Sem

variable {F : FTy → Type} [FloatOps F]
variable (m : (ℓ : Loc nD τ sig) → Buf (Elt F) ℓ) (outs : Gen.Outs (F := F))

/-- The references each of the twenty items of the program may write, in the program's order. -/
abbrev written : List (List (Ref sig .tc)) :=
  [Gen.hostOps0_W, Gen.hostOps0_1_W, Gen.hostOps0_2_W, Gen.hostOps0_3_W, Gen.hostOps0_4_W, [main_v14_0, main_v14_1, main_v14_2],
   Gen.hostOps1_W, [main_v30], Gen.hostOps2_W, Gen.hostOps2_1_W, Gen.hostOps2_2_W, Gen.hostOps2_3_W, Gen.hostOps2_4_W,
   [main_v45_0, main_v45_1, main_v45_2], Gen.hostOps3_W, [main_v61], Gen.hostOps4_W, [main_v66_0, main_v66_1, main_v66_2],
   Gen.hostOps5_W, [main_v81]]

/-- No item writes `b` (every argument array is such a buffer). -/
abbrev Kept (b : Ref sig .tc) : Prop := ∀ W ∈ written, b ∉ W

theorem Kept.at {b : Ref sig .tc} (hb : Kept b) (j : ℕ) (hj : j < written.length := by decide) : b ∉ written[j] :=
  hb _ (List.getElem_mem hj)

/-! A buffer no item writes reads its launch contents at every valuation: one step per item crossed. -/

variable (b : Ref sig .tc)

theorem V1_arg (c : Dev nD) (hb : Kept b := by decide) : Gen.V1 m c b = m ((c : Thread nD τ).loc b) := Gen.V1_of m c b (hb.at 0)
theorem V2_arg (c : Dev nD) (hb : Kept b := by decide) : Gen.V2 m c b = m ((c : Thread nD τ).loc b) :=
  (Gen.V2_of m c b (hb.at 1)).trans (V1_arg m b c hb)
theorem V3_arg (c : Dev nD) (hb : Kept b := by decide) : Gen.V3 m c b = m ((c : Thread nD τ).loc b) :=
  (Gen.V3_of m c b (hb.at 2)).trans (V2_arg m b c hb)
theorem V4_arg (c : Dev nD) (hb : Kept b := by decide) : Gen.V4 m c b = m ((c : Thread nD τ).loc b) :=
  (Gen.V4_of m c b (hb.at 3)).trans (V3_arg m b c hb)
theorem V5_arg (c : Dev nD) (hb : Kept b := by decide) : Gen.V5 m c b = m ((c : Thread nD τ).loc b) :=
  (Gen.V5_of m c b (hb.at 4)).trans (V4_arg m b c hb)
theorem V6_arg (c : Dev nD) (hb : Kept b := by decide) : Gen.V6 m outs c b = m ((c : Thread nD τ).loc b) :=
  (Gen.V6_of m outs c b (hb.at 5)).trans (V5_arg m b c hb)
theorem V7_arg (c : Dev nD) (hb : Kept b := by decide) : Gen.V7 m outs c b = m ((c : Thread nD τ).loc b) :=
  (Gen.V7_of m outs c b (hb.at 6)).trans (V6_arg m outs b c hb)
theorem V8_arg (c : Dev nD) (hb : Kept b := by decide) : Gen.V8 m outs c b = m ((c : Thread nD τ).loc b) :=
  (Gen.V8_of m outs c b (hb.at 7)).trans (V7_arg m outs b c hb)
theorem V9_arg (c : Dev nD) (hb : Kept b := by decide) : Gen.V9 m outs c b = m ((c : Thread nD τ).loc b) :=
  (Gen.V9_of m outs c b (hb.at 8)).trans (V8_arg m outs b c hb)
theorem V10_arg (c : Dev nD) (hb : Kept b := by decide) : Gen.V10 m outs c b = m ((c : Thread nD τ).loc b) :=
  (Gen.V10_of m outs c b (hb.at 9)).trans (V9_arg m outs b c hb)
theorem V11_arg (c : Dev nD) (hb : Kept b := by decide) : Gen.V11 m outs c b = m ((c : Thread nD τ).loc b) :=
  (Gen.V11_of m outs c b (hb.at 10)).trans (V10_arg m outs b c hb)
theorem V12_arg (c : Dev nD) (hb : Kept b := by decide) : Gen.V12 m outs c b = m ((c : Thread nD τ).loc b) :=
  (Gen.V12_of m outs c b (hb.at 11)).trans (V11_arg m outs b c hb)
theorem V13_arg (c : Dev nD) (hb : Kept b := by decide) : Gen.V13 m outs c b = m ((c : Thread nD τ).loc b) :=
  (Gen.V13_of m outs c b (hb.at 12)).trans (V12_arg m outs b c hb)
theorem V14_arg (c : Dev nD) (hb : Kept b := by decide) : Gen.V14 m outs c b = m ((c : Thread nD τ).loc b) :=
  (Gen.V14_of m outs c b (hb.at 13)).trans (V13_arg m outs b c hb)
theorem V15_arg (c : Dev nD) (hb : Kept b := by decide) : Gen.V15 m outs c b = m ((c : Thread nD τ).loc b) :=
  (Gen.V15_of m outs c b (hb.at 14)).trans (V14_arg m outs b c hb)
theorem V16_arg (c : Dev nD) (hb : Kept b := by decide) : Gen.V16 m outs c b = m ((c : Thread nD τ).loc b) :=
  (Gen.V16_of m outs c b (hb.at 15)).trans (V15_arg m outs b c hb)
theorem V17_arg (c : Dev nD) (hb : Kept b := by decide) : Gen.V17 m outs c b = m ((c : Thread nD τ).loc b) :=
  (Gen.V17_of m outs c b (hb.at 16)).trans (V16_arg m outs b c hb)
theorem V18_arg (c : Dev nD) (hb : Kept b := by decide) : Gen.V18 m outs c b = m ((c : Thread nD τ).loc b) :=
  (Gen.V18_of m outs c b (hb.at 17)).trans (V17_arg m outs b c hb)
theorem V19_arg (c : Dev nD) (hb : Kept b := by decide) : Gen.V19 m outs c b = m ((c : Thread nD τ).loc b) :=
  (Gen.V19_of m outs c b (hb.at 18)).trans (V18_arg m outs b c hb)
theorem V20_arg (c : Dev nD) (hb : Kept b := by decide) : Gen.V20 m outs c b = m ((c : Thread nD τ).loc b) :=
  (Gen.V20_of m outs c b (hb.at 19)).trans (V19_arg m outs b c hb)

/-! An array reaches the items that read it as the item that produced it left it. -/

theorem V7_v14_0_of_V6 (c : Dev nD) : Gen.V7 m outs c main_v14_0 = Gen.V6 m outs c main_v14_0 :=
  (Gen.V7_of m outs c main_v14_0 (by decide))

theorem V13_v30_of_V8 (c : Dev nD) : Gen.V13 m outs c main_v30 = Gen.V8 m outs c main_v30 :=
  (Gen.V13_of m outs c main_v30 (by decide)).trans <| (Gen.V12_of m outs c main_v30 (by decide)).trans <| (Gen.V11_of m outs c main_v30 (by decide)).trans <| (Gen.V10_of m outs c main_v30 (by decide)).trans <| (Gen.V9_of m outs c main_v30 (by decide))

theorem V17_v30_of_V8 (c : Dev nD) : Gen.V17 m outs c main_v30 = Gen.V8 m outs c main_v30 :=
  (Gen.V17_of m outs c main_v30 (by decide)).trans <| (Gen.V16_of m outs c main_v30 (by decide)).trans <| (Gen.V15_of m outs c main_v30 (by decide)).trans <| (Gen.V14_of m outs c main_v30 (by decide)).trans (V13_v30_of_V8 m outs c)

theorem V15_v45_0_of_V14 (c : Dev nD) : Gen.V15 m outs c main_v45_0 = Gen.V14 m outs c main_v45_0 :=
  (Gen.V15_of m outs c main_v45_0 (by decide))

theorem V17_v61_of_V16 (c : Dev nD) : Gen.V17 m outs c main_v61 = Gen.V16 m outs c main_v61 :=
  (Gen.V17_of m outs c main_v61 (by decide))

theorem V19_v66_0_of_V18 (c : Dev nD) : Gen.V19 m outs c main_v66_0 = Gen.V18 m outs c main_v66_0 :=
  (Gen.V19_of m outs c main_v66_0 (by decide))

end Cert.KernelIdeal.Hand

end
-- ==== Proof.KI.AggrRead.lean ====
import proofs.«422945_j10866267259114_2_alg».proof.Proof.Gen.KernelIdeal.Regions
import proofs.«422945_j10866267259114_2_alg».proof.Proof.KI.AggrK
import proofs.«422945_j10866267259114_2_alg».proof.Proof.KI.Carry
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL.Sem

variable {F : FTy → Type} [FloatOps F]

theorem host0_v1 (W : Valuation τ sig (Elt F)) :
    (StableHlo.after hostOps0 W (Proc.devRef .tc main_v1) : IVec S300000 32)
      = fun i => shapeCast S300000 (extractStridedSlice S1x300000 ![0, 0] (W (Proc.devRef .tc main_arg1)) slices_S2x300000_S1x300000_0_0) shapeCasts_S1x300000_S300000 i := by
  after_results
  rfl

set_option maxHeartbeats 4000000 in

theorem host0_1_v2 (W : Valuation τ sig (Elt F)) :
    (StableHlo.after hostOps0_1 W (Proc.devRef .tc main_v2) : FVec F S300000x256 .f32)
      = takeK300 (W (Proc.devRef .tc main_arg0)) (W (Proc.devRef .tc main_v1)) := by
  after_results_simp
  simp only [TRef.ofBuf, TRef.toBuf, cast_eq]
  rfl

theorem host0_2_v3 (W : Valuation τ sig (Elt F)) :
    (StableHlo.after hostOps0_2 W (Proc.devRef .tc main_v3) : FVec F S300000x256 .f32)
      = addf (W (Proc.devRef .tc main_v2)) (W (Proc.devRef .tc main_arg2)) := by
  after_results

theorem host0_3_v4 (W : Valuation τ sig (Elt F)) :
    (StableHlo.after hostOps0_3 W (Proc.devRef .tc main_v4) : FVec F S300000x256 .f32)
      = maximumf (W (Proc.devRef .tc main_v3)) (broadcastInDim S300000x256 ![] bcast_S_S300000x256 (constant (F := F) S_ .f32 0x00000000#32)) := by
  after_results
  rfl

theorem host0_4_v9 (W : Valuation τ sig (Elt F)) :
    (StableHlo.after hostOps0_4 W (Proc.devRef .tc main_v9) : FVec F S50000x256 .f32)
      = Host.scatterAdd scatter_S50000x256_S300000x1_S300000x256_1_0_0_1
          (broadcastInDim S50000x256 ![] bcast_S_S50000x256 (constant (F := F) S_ .f32 0x00000000#32))
          (broadcastInDim S300000x1 ![0] bcast_S300000_S300000x1_0
            (fun i => shapeCast S300000 (extractStridedSlice S1x300000 ![1, 0] (W (Proc.devRef .tc main_arg1)) slices_S2x300000_S1x300000_1_0) shapeCasts_S1x300000_S300000 i))
          (W (Proc.devRef .tc main_v4)) := by
  after_results
  rfl

theorem host2_v32 (W : Valuation τ sig (Elt F)) :
    (StableHlo.after hostOps2 W (Proc.devRef .tc main_v32) : IVec S100000 32)
      = fun i => shapeCast S100000 (extractStridedSlice S1x100000 ![0, 0] (W (Proc.devRef .tc main_arg3)) slices_S2x100000_S1x100000_0_0) shapeCasts_S1x100000_S100000 i := by
  after_results
  rfl

set_option maxHeartbeats 4000000 in

theorem host2_1_v33 (W : Valuation τ sig (Elt F)) :
    (StableHlo.after hostOps2_1 W (Proc.devRef .tc main_v33) : FVec F S100000x256 .f32)
      = takeK100 (W (Proc.devRef .tc main_arg0)) (W (Proc.devRef .tc main_v32)) := by
  after_results_simp
  simp only [TRef.ofBuf, TRef.toBuf, cast_eq]
  rfl

theorem host2_2_v34 (W : Valuation τ sig (Elt F)) :
    (StableHlo.after hostOps2_2 W (Proc.devRef .tc main_v34) : FVec F S100000x256 .f32)
      = addf (W (Proc.devRef .tc main_v33)) (W (Proc.devRef .tc main_arg4)) := by
  after_results

theorem host2_3_v35 (W : Valuation τ sig (Elt F)) :
    (StableHlo.after hostOps2_3 W (Proc.devRef .tc main_v35) : FVec F S100000x256 .f32)
      = maximumf (W (Proc.devRef .tc main_v34)) (broadcastInDim S100000x256 ![] bcast_S_S100000x256 (constant (F := F) S_ .f32 0x00000000#32)) := by
  after_results
  rfl

theorem host2_4_v40 (W : Valuation τ sig (Elt F)) :
    (StableHlo.after hostOps2_4 W (Proc.devRef .tc main_v40) : FVec F S50000x256 .f32)
      = Host.scatterAdd scatter_S50000x256_S100000x1_S100000x256_1_0_0_1
          (broadcastInDim S50000x256 ![] bcast_S_S50000x256 (constant (F := F) S_ .f32 0x00000000#32))
          (broadcastInDim S100000x1 ![0] bcast_S100000_S100000x1_0
            (fun i => shapeCast S100000 (extractStridedSlice S1x100000 ![1, 0] (W (Proc.devRef .tc main_arg3)) slices_S2x100000_S1x100000_1_0) shapeCasts_S1x100000_S100000 i))
          (W (Proc.devRef .tc main_v35)) := by
  after_results
  rfl

variable (m : (ℓ : Loc nD τ sig) → Buf (Elt F) ℓ) (outs : Gen.Outs (F := F))

theorem v9_eq (c : Dev nD) :
    (Gen.V5 m c main_v9 : FVec F S50000x256 .f32)
      = aggrK300 (m ((c : Thread nD τ).loc main_arg0)) (m ((c : Thread nD τ).loc main_arg1)) (m ((c : Thread nD τ).loc main_arg2)) := by
  have h1 := host0_v1 (Gen.V0 m c)
  have h2 := host0_1_v2 (Gen.V1 m c)
  have h3 := host0_2_v3 (Gen.V2 m c)
  have h4 := host0_3_v4 (Gen.V3 m c)
  have h5 := host0_4_v9 (Gen.V4 m c)
  rw [V1_arg m main_arg0 c] at h2
  rw [V2_arg m main_arg2 c] at h3
  rw [V4_arg m main_arg1 c] at h5
  refine h5.trans ?_
  rw [show Gen.V4 m c (Proc.devRef .tc main_v4) = _ from h4, show Gen.V3 m c (Proc.devRef .tc main_v3) = _ from h3,
    show Gen.V2 m c (Proc.devRef .tc main_v2) = _ from h2, show Gen.V1 m c (Proc.devRef .tc main_v1) = _ from h1]
  rfl

theorem v40_eq (c : Dev nD) :
    (Gen.V13 m outs c main_v40 : FVec F S50000x256 .f32)
      = aggrK100 (m ((c : Thread nD τ).loc main_arg0)) (m ((c : Thread nD τ).loc main_arg3)) (m ((c : Thread nD τ).loc main_arg4)) := by
  have h1 := host2_v32 (Gen.V8 m outs c)
  have h2 := host2_1_v33 (Gen.V9 m outs c)
  have h3 := host2_2_v34 (Gen.V10 m outs c)
  have h4 := host2_3_v35 (Gen.V11 m outs c)
  have h5 := host2_4_v40 (Gen.V12 m outs c)
  rw [V8_arg m outs main_arg3 c] at h1
  rw [V9_arg m outs main_arg0 c] at h2
  rw [V10_arg m outs main_arg4 c] at h3
  rw [V12_arg m outs main_arg3 c] at h5
  refine h5.trans ?_
  rw [show Gen.V12 m outs c (Proc.devRef .tc main_v35) = _ from h4, show Gen.V11 m outs c (Proc.devRef .tc main_v34) = _ from h3,
    show Gen.V10 m outs c (Proc.devRef .tc main_v33) = _ from h2, show Gen.V9 m outs c (Proc.devRef .tc main_v32) = _ from h1]
  rfl

end Cert.KernelIdeal.Hand

end
-- ==== Proof.KI.ValHost.lean ====
import proofs.«422945_j10866267259114_2_alg».proof.Proof.Gen.KernelIdeal.Launch
import proofs.«422945_j10866267259114_2_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.Lib.IdealHost

set_option maxRecDepth 16384

noncomputable section

namespace Cert.KernelIdeal.Hand

open Cert.KernelIdeal Cert.KernelIdeal.Gen
open Idealize.ShloMosaic Idealize.ShloMosaic.TcCoe Idealize.ShloMosaic.StableHlo Idealize.ShloMosaic.ValueIdx

variable {F : FTy → Type} [FloatOps F]

def rowOfScalar (e : FVec F S_ .f32) : FVec F S1x256 .f32 :=
  broadcastInDim S1x256 ![0, 1] bcast_S1x1_S1x256_0_1 (shapeCast S1x1 e shapeCasts_S_S1x1)

def onePlusRow (e : FVec F S_ .f32) : FVec F S1x256 .f32 :=
  rowOfScalar (addf (constant (F := F) S_ .f32 0x3F800000#32) e)

def rowOfVec (a : FVec F S256 .f32) : FVec F S1x256 .f32 := shapeCast S1x256 a shapeCasts_S256_S1x256

def vecOfRow (a : FVec F S1x256 .f32) : FVec F S256 .f32 := shapeCast S256 a shapeCasts_S1x256_S256

def meanVec (s : FVec F S1x256 .f32) : FVec F S256 .f32 :=
  Host.divf (vecOfRow s) (broadcastInDim S256 ![] bcast_S_S256 (constant (F := F) S_ .f32 0x47435000#32))

def varVec (s q : FVec F S1x256 .f32) : FVec F S256 .f32 :=
  maximumf
    (subf (Host.divf (vecOfRow q) (broadcastInDim S256 ![] bcast_S_S256 (constant (F := F) S_ .f32 0x47435000#32)))
      (mulf (meanVec s) (meanVec s)))
    (broadcastInDim S256 ![] bcast_S_S256 (constant (F := F) S_ .f32 0x00000000#32))

theorem rowOfScalar_apply (e : FVec F S_ .f32) (u : Fin 1) (k : Fin 256) : rowOfScalar e (ix2 u k) = e ix0 := by
  unfold rowOfScalar
  rw [broadcastInDim_apply _ _ _ _ (ix2 (0 : Fin 1) (0 : Fin 1)) (fun a => by
        match a with
        | ⟨0, _⟩ => rfl
        | ⟨1, _⟩ => rfl)]
  exact shapeCast_apply e _ _ ix0 (by rw [Shape.rowMajor_val_two]; rfl)

theorem host0_4_v12 (W : Valuation τ sig (Elt F)) :
    (StableHlo.after hostOps0_4 W (Proc.devRef .tc main_v12) : FVec F S1x256 .f32) = onePlusRow (W (Proc.devRef .tc main_arg5)) := by
  after_results
  rfl

theorem host0_4_v13 (W : Valuation τ sig (Elt F)) :
    (StableHlo.after hostOps0_4 W (Proc.devRef .tc main_v13) : FVec F S1x256 .f32) = rowOfVec (W (Proc.devRef .tc main_arg7)) := by
  after_results
  rfl

theorem host1_v25 (W : Valuation τ sig (Elt F)) :
    (StableHlo.after hostOps1 W (Proc.devRef .tc main_v25) : FVec F S1x256 .f32) = rowOfVec (meanVec (W (Proc.devRef .tc main_v14_1))) := by
  after_results
  rfl

theorem host1_v26 (W : Valuation τ sig (Elt F)) :
    (StableHlo.after hostOps1 W (Proc.devRef .tc main_v26) : FVec F S1x256 .f32)
      = rowOfVec (varVec (W (Proc.devRef .tc main_v14_1)) (W (Proc.devRef .tc main_v14_2))) := by
  after_results
  rfl

theorem host1_v27 (W : Valuation τ sig (Elt F)) :
    (StableHlo.after hostOps1 W (Proc.devRef .tc main_v27) : FVec F S1x256 .f32) = rowOfVec (W (Proc.devRef .tc main_arg8)) := by
  after_results
  rfl

theorem host1_v28 (W : Valuation τ sig (Elt F)) :
    (StableHlo.after hostOps1 W (Proc.devRef .tc main_v28) : FVec F S1x256 .f32) = rowOfVec (W (Proc.devRef .tc main_arg9)) := by
  after_results
  rfl

theorem host1_v29 (W : Valuation τ sig (Elt F)) :
    (StableHlo.after hostOps1 W (Proc.devRef .tc main_v29) : FVec F S1x256 .f32) = rowOfVec (W (Proc.devRef .tc main_arg11)) := by
  after_results
  rfl

theorem host2_4_v43 (W : Valuation τ sig (Elt F)) :
    (StableHlo.after hostOps2_4 W (Proc.devRef .tc main_v43) : FVec F S1x256 .f32) = onePlusRow (W (Proc.devRef .tc main_arg12)) := by
  after_results
  rfl

theorem host2_4_v44 (W : Valuation τ sig (Elt F)) :
    (StableHlo.after hostOps2_4 W (Proc.devRef .tc main_v44) : FVec F S1x256 .f32) = rowOfVec (W (Proc.devRef .tc main_arg14)) := by
  after_results
  rfl

theorem host3_v56 (W : Valuation τ sig (Elt F)) :
    (StableHlo.after hostOps3 W (Proc.devRef .tc main_v56) : FVec F S1x256 .f32) = rowOfVec (meanVec (W (Proc.devRef .tc main_v45_1))) := by
  after_results
  rfl

theorem host3_v57 (W : Valuation τ sig (Elt F)) :
    (StableHlo.after hostOps3 W (Proc.devRef .tc main_v57) : FVec F S1x256 .f32)
      = rowOfVec (varVec (W (Proc.devRef .tc main_v45_1)) (W (Proc.devRef .tc main_v45_2))) := by
  after_results
  rfl

theorem host3_v58 (W : Valuation τ sig (Elt F)) :
    (StableHlo.after hostOps3 W (Proc.devRef .tc main_v58) : FVec F S1x256 .f32) = rowOfVec (W (Proc.devRef .tc main_arg15)) := by
  after_results
  rfl

theorem host3_v59 (W : Valuation τ sig (Elt F)) :
    (StableHlo.after hostOps3 W (Proc.devRef .tc main_v59) : FVec F S1x256 .f32) = rowOfVec (W (Proc.devRef .tc main_arg16)) := by
  after_results
  rfl

theorem host3_v60 (W : Valuation τ sig (Elt F)) :
    (StableHlo.after hostOps3 W (Proc.devRef .tc main_v60) : FVec F S1x256 .f32) = rowOfVec (W (Proc.devRef .tc main_arg18)) := by
  after_results
  rfl

theorem host4_v63 (W : Valuation τ sig (Elt F)) :
    (StableHlo.after hostOps4 W (Proc.devRef .tc main_v63) : FVec F S1x256 .f32) = rowOfScalar (W (Proc.devRef .tc main_arg21)) := by
  after_results
  rfl

theorem host4_v65 (W : Valuation τ sig (Elt F)) :
    (StableHlo.after hostOps4 W (Proc.devRef .tc main_v65) : FVec F S1x256 .f32) = rowOfScalar (W (Proc.devRef .tc main_arg22)) := by
  after_results
  rfl

theorem host5_v77 (W : Valuation τ sig (Elt F)) :
    (StableHlo.after hostOps5 W (Proc.devRef .tc main_v77) : FVec F S1x256 .f32) = rowOfVec (meanVec (W (Proc.devRef .tc main_v66_1))) := by
  after_results
  rfl

theorem host5_v78 (W : Valuation τ sig (Elt F)) :
    (StableHlo.after hostOps5 W (Proc.devRef .tc main_v78) : FVec F S1x256 .f32)
      = rowOfVec (varVec (W (Proc.devRef .tc main_v66_1)) (W (Proc.devRef .tc main_v66_2))) := by
  after_results
  rfl

theorem host5_v79 (W : Valuation τ sig (Elt F)) :
    (StableHlo.after hostOps5 W (Proc.devRef .tc main_v79) : FVec F S1x256 .f32) = rowOfVec (W (Proc.devRef .tc main_arg19)) := by
  after_results
  rfl

theorem host5_v80 (W : Valuation τ sig (Elt F)) :
    (StableHlo.after hostOps5 W (Proc.devRef .tc main_v80) : FVec F S1x256 .f32) = rowOfVec (W (Proc.devRef .tc main_arg20)) := by
  after_results
  rfl

section AtIdeal

theorem ofRow_rowOfVec (a : FVec Ideal S256 .f32) : Spec.ofRow (rowOfVec a) = a := by
  funext j
  obtain ⟨k, rfl⟩ : ∃ k : Fin 256, j = ix1 k := ⟨j 0, eq_ix1 j⟩
  exact shapeCast_a_1a_apply a _ 0 k

theorem vecOfRow_eq (s : FVec Ideal S1x256 .f32) : vecOfRow s = Spec.ofRow s := by
  funext j
  obtain ⟨k, rfl⟩ : ∃ k : Fin 256, j = ix1 k := ⟨j 0, eq_ix1 j⟩
  exact shapeCast_1a_a_apply s _ k

theorem ofRow_rowOfScalar (e : FVec Ideal S_ .f32) : Spec.ofRow (rowOfScalar e) = fun _ => e ix0 := by
  funext j
  exact rowOfScalar_apply e 0 (j 0)

theorem ofRow_onePlusRow (e : FVec Ideal S_ .f32) : Spec.ofRow (onePlusRow e) = fun _ => Spec.oneW + e ix0 := by
  unfold onePlusRow
  rw [ofRow_rowOfScalar]
  rfl

theorem meanVec_eq (s : FVec Ideal S1x256 .f32) (h : Spec.Arr Spec.SND) (hs : Spec.ofRow s = Spec.colsum h) :
    meanVec s = Spec.mean h := by
  funext j
  show Ideal.div (vecOfRow s j) Spec.nW = Ideal.div (Spec.colsum h j) Spec.nW
  rw [vecOfRow_eq, hs]

theorem varVec_eq (s q : FVec Ideal S1x256 .f32) (h : Spec.Arr Spec.SND) (hs : Spec.ofRow s = Spec.colsum h)
    (hq : Spec.ofRow q = Spec.colsum (fun i => h i * h i)) : varVec s q = Spec.varK h := by
  funext j
  show max (Ideal.div (vecOfRow q j) Spec.nW - meanVec s j * meanVec s j) Spec.zeroW
      = max (Ideal.div (Spec.colsum (fun i => h i * h i) j) Spec.nW - Spec.mean h j * Spec.mean h j) Spec.zeroW
  rw [vecOfRow_eq, hq, meanVec_eq s h hs]

variable (W : Valuation τ sig (Elt Ideal))

theorem val0_v12 :
    Spec.ofRow (StableHlo.after hostOps0_4 W (Proc.devRef .tc main_v12)) = fun _ => Spec.oneW + W (Proc.devRef .tc main_arg5) ix0 := by
  rw [host0_4_v12, ofRow_onePlusRow]

theorem val0_v13 : Spec.ofRow (StableHlo.after hostOps0_4 W (Proc.devRef .tc main_v13)) = W (Proc.devRef .tc main_arg7) := by
  rw [host0_4_v13, ofRow_rowOfVec]

theorem val1_v25 (h : Spec.Arr Spec.SND) (hs : Spec.ofRow (W (Proc.devRef .tc main_v14_1)) = Spec.colsum h) :
    Spec.ofRow (StableHlo.after hostOps1 W (Proc.devRef .tc main_v25)) = Spec.mean h := by
  rw [host1_v25, ofRow_rowOfVec]; exact meanVec_eq _ h hs

theorem val1_v26 (h : Spec.Arr Spec.SND) (hs : Spec.ofRow (W (Proc.devRef .tc main_v14_1)) = Spec.colsum h)
    (hq : Spec.ofRow (W (Proc.devRef .tc main_v14_2)) = Spec.colsum (fun i => h i * h i)) :
    Spec.ofRow (StableHlo.after hostOps1 W (Proc.devRef .tc main_v26)) = Spec.varK h := by
  rw [host1_v26, ofRow_rowOfVec]; exact varVec_eq _ _ h hs hq

theorem val1_v27 : Spec.ofRow (StableHlo.after hostOps1 W (Proc.devRef .tc main_v27)) = W (Proc.devRef .tc main_arg8) := by
  rw [host1_v27, ofRow_rowOfVec]

theorem val1_v28 : Spec.ofRow (StableHlo.after hostOps1 W (Proc.devRef .tc main_v28)) = W (Proc.devRef .tc main_arg9) := by
  rw [host1_v28, ofRow_rowOfVec]

theorem val1_v29 : Spec.ofRow (StableHlo.after hostOps1 W (Proc.devRef .tc main_v29)) = W (Proc.devRef .tc main_arg11) := by
  rw [host1_v29, ofRow_rowOfVec]

theorem val2_v43 :
    Spec.ofRow (StableHlo.after hostOps2_4 W (Proc.devRef .tc main_v43)) = fun _ => Spec.oneW + W (Proc.devRef .tc main_arg12) ix0 := by
  rw [host2_4_v43, ofRow_onePlusRow]

theorem val2_v44 : Spec.ofRow (StableHlo.after hostOps2_4 W (Proc.devRef .tc main_v44)) = W (Proc.devRef .tc main_arg14) := by
  rw [host2_4_v44, ofRow_rowOfVec]

theorem val3_v56 (h : Spec.Arr Spec.SND) (hs : Spec.ofRow (W (Proc.devRef .tc main_v45_1)) = Spec.colsum h) :
    Spec.ofRow (StableHlo.after hostOps3 W (Proc.devRef .tc main_v56)) = Spec.mean h := by
  rw [host3_v56, ofRow_rowOfVec]; exact meanVec_eq _ h hs

theorem val3_v57 (h : Spec.Arr Spec.SND) (hs : Spec.ofRow (W (Proc.devRef .tc main_v45_1)) = Spec.colsum h)
    (hq : Spec.ofRow (W (Proc.devRef .tc main_v45_2)) = Spec.colsum (fun i => h i * h i)) :
    Spec.ofRow (StableHlo.after hostOps3 W (Proc.devRef .tc main_v57)) = Spec.varK h := by
  rw [host3_v57, ofRow_rowOfVec]; exact varVec_eq _ _ h hs hq

theorem val3_v58 : Spec.ofRow (StableHlo.after hostOps3 W (Proc.devRef .tc main_v58)) = W (Proc.devRef .tc main_arg15) := by
  rw [host3_v58, ofRow_rowOfVec]

theorem val3_v59 : Spec.ofRow (StableHlo.after hostOps3 W (Proc.devRef .tc main_v59)) = W (Proc.devRef .tc main_arg16) := by
  rw [host3_v59, ofRow_rowOfVec]

theorem val3_v60 : Spec.ofRow (StableHlo.after hostOps3 W (Proc.devRef .tc main_v60)) = W (Proc.devRef .tc main_arg18) := by
  rw [host3_v60, ofRow_rowOfVec]

theorem val4_v63 : Spec.ofRow (StableHlo.after hostOps4 W (Proc.devRef .tc main_v63)) = fun _ => W (Proc.devRef .tc main_arg21) ix0 := by
  rw [host4_v63, ofRow_rowOfScalar]

theorem val4_v65 : Spec.ofRow (StableHlo.after hostOps4 W (Proc.devRef .tc main_v65)) = fun _ => W (Proc.devRef .tc main_arg22) ix0 := by
  rw [host4_v65, ofRow_rowOfScalar]

theorem val5_v77 (h : Spec.Arr Spec.SND) (hs : Spec.ofRow (W (Proc.devRef .tc main_v66_1)) = Spec.colsum h) :
    Spec.ofRow (StableHlo.after hostOps5 W (Proc.devRef .tc main_v77)) = Spec.mean h := by
  rw [host5_v77, ofRow_rowOfVec]; exact meanVec_eq _ h hs

theorem val5_v78 (h : Spec.Arr Spec.SND) (hs : Spec.ofRow (W (Proc.devRef .tc main_v66_1)) = Spec.colsum h)
    (hq : Spec.ofRow (W (Proc.devRef .tc main_v66_2)) = Spec.colsum (fun i => h i * h i)) :
    Spec.ofRow (StableHlo.after hostOps5 W (Proc.devRef .tc main_v78)) = Spec.varK h := by
  rw [host5_v78, ofRow_rowOfVec]; exact varVec_eq _ _ h hs hq

theorem val5_v79 : Spec.ofRow (StableHlo.after hostOps5 W (Proc.devRef .tc main_v79)) = W (Proc.devRef .tc main_arg19) := by
  rw [host5_v79, ofRow_rowOfVec]

theorem val5_v80 : Spec.ofRow (StableHlo.after hostOps5 W (Proc.devRef .tc main_v80)) = W (Proc.devRef .tc main_arg20) := by
  rw [host5_v80, ofRow_rowOfVec]

end AtIdeal

end Cert.KernelIdeal.Hand

end
-- ==== Proof.KI.ValFinal.lean ====
import proofs.«422945_j10866267259114_2_alg».proof.Proof.KI.Run
import proofs.«422945_j10866267259114_2_alg».proof.Proof.KI.ValReg0
import proofs.«422945_j10866267259114_2_alg».proof.Proof.KI.ValReg1
import proofs.«422945_j10866267259114_2_alg».proof.Proof.KI.ValReg2
import proofs.«422945_j10866267259114_2_alg».proof.Proof.KI.ValReg3
import proofs.«422945_j10866267259114_2_alg».proof.Proof.KI.ValReg4
import proofs.«422945_j10866267259114_2_alg».proof.Proof.KI.ValReg5
import proofs.«422945_j10866267259114_2_alg».proof.Proof.KI.AggrRead
import proofs.«422945_j10866267259114_2_alg».proof.Proof.KI.ValHost
import proofs.«422945_j10866267259114_2_alg».proof.Proof.KI.AggrK
import proofs.«422945_j10866267259114_2_alg».proof.Proof.Spec
import proofs.«422945_j10866267259114_2_alg».proof.Proof.SpecRow
import proofs.«422945_j10866267259114_2_alg».proof.Proof.KI.Carry

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.Spec

section Chain
variable (m : (ℓ : Loc nD τ sig) → Buf (Elt Ideal) ℓ) (c : Dev nD)

abbrev aggD : Arr SND := aggrK300 (F := Ideal) (m ((c : Thread nD τ).loc main_arg0)) (m ((c : Thread nD τ).loc main_arg1)) (m ((c : Thread nD τ).loc main_arg2))

abbrev aggU : Arr SND := aggrK100 (F := Ideal) (m ((c : Thread nD τ).loc main_arg0)) (m ((c : Thread nD τ).loc main_arg3)) (m ((c : Thread nD τ).loc main_arg4))

abbrev h1d : Arr SND := lin (comb ((m ((c : Thread nD τ).loc main_arg5)) ix0) (m ((c : Thread nD τ).loc main_arg0)) (aggD m c)) (m ((c : Thread nD τ).loc main_arg6)) (m ((c : Thread nD τ).loc main_arg7))

abbrev ld : Arr SND :=
  layer varK (m ((c : Thread nD τ).loc main_arg0)) (aggD m c) ((m ((c : Thread nD τ).loc main_arg5)) ix0) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

abbrev h1u : Arr SND := lin (comb ((m ((c : Thread nD τ).loc main_arg12)) ix0) (m ((c : Thread nD τ).loc main_arg0)) (aggU m c)) (m ((c : Thread nD τ).loc main_arg13)) (m ((c : Thread nD τ).loc main_arg14))

abbrev lu : Arr SND :=
  layer varK (m ((c : Thread nD τ).loc main_arg0)) (aggU m c) ((m ((c : Thread nD τ).loc main_arg12)) ix0) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))

abbrev mixr : Arr SND := resid (m ((c : Thread nD τ).loc main_arg0)) (ld m c) (lu m c) ((m ((c : Thread nD τ).loc main_arg21)) ix0) ((m ((c : Thread nD τ).loc main_arg22)) ix0)

theorem h1d_entry :
    lin (combRow (ofRow (Gen.V5 m c main_v12)) (Gen.V5 m c main_arg0) (Gen.V5 m c main_v9)) (Gen.V5 m c main_arg6)
        (ofRow (Gen.V5 m c main_v13)) = h1d m c := by
  have e12 : ofRow (Gen.V5 m c main_v12) = fun _ => oneW + (m ((c : Thread nD τ).loc main_arg5)) ix0 :=
    (val0_v12 (Gen.V4 m c)).trans (by rw [V4_arg m main_arg5 c])
  have e13 : ofRow (Gen.V5 m c main_v13) = m ((c : Thread nD τ).loc main_arg7) := (val0_v13 (Gen.V4 m c)).trans (V4_arg m main_arg7 c)
  rw [e12, e13, V5_arg m main_arg0 c, V5_arg m main_arg6 c, v9_eq m c, combRow_const]

theorem V6_v14_0 : (Gen.V6 m (outs m) c main_v14_0 : Arr SND) = h1d m c :=
  (exit0 m c 5).trans ((arr0_5 (Vr (Gen.V5 m)) c).trans (h1d_entry m c))

theorem V6_v14_1 : ofRow (Gen.V6 m (outs m) c main_v14_1) = colsum (h1d m c) :=
  (congrArg ofRow (exit0 m c 6)).trans ((arr0_6 (Vr (Gen.V5 m)) c).trans (congrArg colsum (h1d_entry m c)))

theorem V6_v14_2 : ofRow (Gen.V6 m (outs m) c main_v14_2) = colsum (fun i => h1d m c i * h1d m c i) :=
  (congrArg ofRow (exit0 m c 7)).trans ((arr0_7 (Vr (Gen.V5 m)) c).trans
    (congrArg (fun X : Arr SND => colsum (fun i => X i * X i)) (h1d_entry m c)))

theorem V7_v25 : ofRow (Gen.V7 m (outs m) c main_v25) = mean (h1d m c) :=
  val1_v25 (Gen.V6 m (outs m) c) (h1d m c) (V6_v14_1 m c)
theorem V7_v26 : ofRow (Gen.V7 m (outs m) c main_v26) = varK (h1d m c) :=
  val1_v26 (Gen.V6 m (outs m) c) (h1d m c) (V6_v14_1 m c) (V6_v14_2 m c)
theorem V7_v27 : ofRow (Gen.V7 m (outs m) c main_v27) = m ((c : Thread nD τ).loc main_arg8) :=
  (val1_v27 (Gen.V6 m (outs m) c)).trans (V6_arg m (outs m) main_arg8 c)
theorem V7_v28 : ofRow (Gen.V7 m (outs m) c main_v28) = m ((c : Thread nD τ).loc main_arg9) :=
  (val1_v28 (Gen.V6 m (outs m) c)).trans (V6_arg m (outs m) main_arg9 c)
theorem V7_v29 : ofRow (Gen.V7 m (outs m) c main_v29) = m ((c : Thread nD τ).loc main_arg11) :=
  (val1_v29 (Gen.V6 m (outs m) c)).trans (V6_arg m (outs m) main_arg11 c)

theorem V8_v30 : (Gen.V8 m (outs m) c main_v30 : Arr SND) = ld m c := by
  refine (exit1 m c 7).trans ((arr1 (Vr (Gen.V7 m (outs m))) c).trans ?_)
  show lin (bnRelu (Gen.V7 m (outs m) c main_v14_0) (ofRow (Gen.V7 m (outs m) c main_v25)) (ofRow (Gen.V7 m (outs m) c main_v26))
          (ofRow (Gen.V7 m (outs m) c main_v27)) (ofRow (Gen.V7 m (outs m) c main_v28)))
        (Gen.V7 m (outs m) c main_arg10) (ofRow (Gen.V7 m (outs m) c main_v29)) = _
  rw [V7_v25 m c, V7_v26 m c, V7_v27 m c, V7_v28 m c, V7_v29 m c, V7_arg m (outs m) main_arg10 c, V7_v14_0_of_V6 m (outs m) c,
    V6_v14_0 m c]
  rfl

theorem h1u_entry :
    lin (combRow (ofRow (Gen.V13 m (outs m) c main_v43)) (Gen.V13 m (outs m) c main_arg0) (Gen.V13 m (outs m) c main_v40))
        (Gen.V13 m (outs m) c main_arg13) (ofRow (Gen.V13 m (outs m) c main_v44)) = h1u m c := by
  have e43 : ofRow (Gen.V13 m (outs m) c main_v43) = fun _ => oneW + (m ((c : Thread nD τ).loc main_arg12)) ix0 :=
    (val2_v43 (Gen.V12 m (outs m) c)).trans (by rw [V12_arg m (outs m) main_arg12 c])
  have e44 : ofRow (Gen.V13 m (outs m) c main_v44) = m ((c : Thread nD τ).loc main_arg14) :=
    (val2_v44 (Gen.V12 m (outs m) c)).trans (V12_arg m (outs m) main_arg14 c)
  rw [e43, e44, V13_arg m (outs m) main_arg0 c, V13_arg m (outs m) main_arg13 c, v40_eq m (outs m) c, combRow_const]

theorem V14_v45_0 : (Gen.V14 m (outs m) c main_v45_0 : Arr SND) = h1u m c :=
  (exit2 m c 5).trans ((arr2_5 (Vr (Gen.V13 m (outs m))) c).trans (h1u_entry m c))

theorem V14_v45_1 : ofRow (Gen.V14 m (outs m) c main_v45_1) = colsum (h1u m c) :=
  (congrArg ofRow (exit2 m c 6)).trans ((arr2_6 (Vr (Gen.V13 m (outs m))) c).trans (congrArg colsum (h1u_entry m c)))

theorem V14_v45_2 : ofRow (Gen.V14 m (outs m) c main_v45_2) = colsum (fun i => h1u m c i * h1u m c i) :=
  (congrArg ofRow (exit2 m c 7)).trans ((arr2_7 (Vr (Gen.V13 m (outs m))) c).trans
    (congrArg (fun X : Arr SND => colsum (fun i => X i * X i)) (h1u_entry m c)))

theorem V15_v56 : ofRow (Gen.V15 m (outs m) c main_v56) = mean (h1u m c) :=
  val3_v56 (Gen.V14 m (outs m) c) (h1u m c) (V14_v45_1 m c)
theorem V15_v57 : ofRow (Gen.V15 m (outs m) c main_v57) = varK (h1u m c) :=
  val3_v57 (Gen.V14 m (outs m) c) (h1u m c) (V14_v45_1 m c) (V14_v45_2 m c)
theorem V15_v58 : ofRow (Gen.V15 m (outs m) c main_v58) = m ((c : Thread nD τ).loc main_arg15) :=
  (val3_v58 (Gen.V14 m (outs m) c)).trans (V14_arg m (outs m) main_arg15 c)
theorem V15_v59 : ofRow (Gen.V15 m (outs m) c main_v59) = m ((c : Thread nD τ).loc main_arg16) :=
  (val3_v59 (Gen.V14 m (outs m) c)).trans (V14_arg m (outs m) main_arg16 c)
theorem V15_v60 : ofRow (Gen.V15 m (outs m) c main_v60) = m ((c : Thread nD τ).loc main_arg18) :=
  (val3_v60 (Gen.V14 m (outs m) c)).trans (V14_arg m (outs m) main_arg18 c)

theorem V16_v61 : (Gen.V16 m (outs m) c main_v61 : Arr SND) = lu m c := by
  refine (exit3 m c 7).trans ((arr3 (Vr (Gen.V15 m (outs m))) c).trans ?_)
  show lin (bnRelu (Gen.V15 m (outs m) c main_v45_0) (ofRow (Gen.V15 m (outs m) c main_v56)) (ofRow (Gen.V15 m (outs m) c main_v57))
          (ofRow (Gen.V15 m (outs m) c main_v58)) (ofRow (Gen.V15 m (outs m) c main_v59)))
        (Gen.V15 m (outs m) c main_arg17) (ofRow (Gen.V15 m (outs m) c main_v60)) = _
  rw [V15_v56 m c, V15_v57 m c, V15_v58 m c, V15_v59 m c, V15_v60 m c, V15_arg m (outs m) main_arg17 c, V15_v45_0_of_V14 m (outs m) c,
    V14_v45_0 m c]
  rfl

theorem V17_v63 : ofRow (Gen.V17 m (outs m) c main_v63) = fun _ => (m ((c : Thread nD τ).loc main_arg21)) ix0 :=
  (val4_v63 (Gen.V16 m (outs m) c)).trans (by rw [V16_arg m (outs m) main_arg21 c])
theorem V17_v65 : ofRow (Gen.V17 m (outs m) c main_v65) = fun _ => (m ((c : Thread nD τ).loc main_arg22)) ix0 :=
  (val4_v65 (Gen.V16 m (outs m) c)).trans (by rw [V16_arg m (outs m) main_arg22 c])

theorem mixr_entry :
    residRow (Gen.V17 m (outs m) c main_arg0) (Gen.V17 m (outs m) c main_v30) (Gen.V17 m (outs m) c main_v61)
        (ofRow (Gen.V17 m (outs m) c main_v63)) (ofRow (Gen.V17 m (outs m) c main_v65)) = mixr m c := by
  rw [V17_v63 m c, V17_v65 m c, V17_arg m (outs m) main_arg0 c, V17_v30_of_V8 m (outs m) c, V8_v30 m c, V17_v61_of_V16 m (outs m) c,
    V16_v61 m c, residRow_const]

theorem V18_v66_0 : (Gen.V18 m (outs m) c main_v66_0 : Arr SND) = mixr m c :=
  (exit4 m c 5).trans ((arr4_5 (Vr (Gen.V17 m (outs m))) c).trans (mixr_entry m c))

theorem V18_v66_1 : ofRow (Gen.V18 m (outs m) c main_v66_1) = colsum (mixr m c) :=
  (congrArg ofRow (exit4 m c 6)).trans ((arr4_6 (Vr (Gen.V17 m (outs m))) c).trans (congrArg colsum (mixr_entry m c)))

theorem V18_v66_2 : ofRow (Gen.V18 m (outs m) c main_v66_2) = colsum (fun i => mixr m c i * mixr m c i) :=
  (congrArg ofRow (exit4 m c 7)).trans ((arr4_7 (Vr (Gen.V17 m (outs m))) c).trans
    (congrArg (fun X : Arr SND => colsum (fun i => X i * X i)) (mixr_entry m c)))

theorem V19_v77 : ofRow (Gen.V19 m (outs m) c main_v77) = mean (mixr m c) :=
  val5_v77 (Gen.V18 m (outs m) c) (mixr m c) (V18_v66_1 m c)
theorem V19_v78 : ofRow (Gen.V19 m (outs m) c main_v78) = varK (mixr m c) :=
  val5_v78 (Gen.V18 m (outs m) c) (mixr m c) (V18_v66_1 m c) (V18_v66_2 m c)
theorem V19_v79 : ofRow (Gen.V19 m (outs m) c main_v79) = m ((c : Thread nD τ).loc main_arg19) :=
  (val5_v79 (Gen.V18 m (outs m) c)).trans (V18_arg m (outs m) main_arg19 c)
theorem V19_v80 : ofRow (Gen.V19 m (outs m) c main_v80) = m ((c : Thread nD τ).loc main_arg20) :=
  (val5_v80 (Gen.V18 m (outs m) c)).trans (V18_arg m (outs m) main_arg20 c)

theorem v81_eq :
    (Gen.V20 m (outs m) c main_v81 : S50000x256.Idx → EReal)
      = Cert.Spec.out Cert.Spec.varK (m ((c : Thread nD τ).loc main_arg0))
          (aggrK300 (F := Ideal) (m ((c : Thread nD τ).loc main_arg0)) (m ((c : Thread nD τ).loc main_arg1)) (m ((c : Thread nD τ).loc main_arg2)))
          (aggrK100 (F := Ideal) (m ((c : Thread nD τ).loc main_arg0)) (m ((c : Thread nD τ).loc main_arg3)) (m ((c : Thread nD τ).loc main_arg4)))
          ((m ((c : Thread nD τ).loc main_arg5)) ix0) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
          ((m ((c : Thread nD τ).loc main_arg12)) ix0) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))
          (m ((c : Thread nD τ).loc main_arg19)) (m ((c : Thread nD τ).loc main_arg20)) ((m ((c : Thread nD τ).loc main_arg21)) ix0) ((m ((c : Thread nD τ).loc main_arg22)) ix0) := by
  refine (exit5 m c 5).trans ((arr5 (Vr (Gen.V19 m (outs m))) c).trans ?_)
  show bnRelu (Gen.V19 m (outs m) c main_v66_0) (ofRow (Gen.V19 m (outs m) c main_v77)) (ofRow (Gen.V19 m (outs m) c main_v78))
        (ofRow (Gen.V19 m (outs m) c main_v79)) (ofRow (Gen.V19 m (outs m) c main_v80)) = _
  rw [V19_v77 m c, V19_v78 m c, V19_v79 m c, V19_v80 m c, V19_v66_0_of_V18 m (outs m) c, V18_v66_0 m c]
  rfl

end Chain

end Cert.KernelIdeal.Hand

end
-- ==== Proof.Assemble.lean ====
import proofs.«422945_j10866267259114_2_alg».proof.Defs
import proofs.«422945_j10866267259114_2_alg».proof.Proof.Gen.Kernel
import proofs.«422945_j10866267259114_2_alg».proof.Proof.Gen.KernelIdeal
import proofs.«422945_j10866267259114_2_alg».proof.Proof.Gen.KernelIdeal.Regions
import proofs.«422945_j10866267259114_2_alg».proof.Proof.Gen.ReferenceIdeal
import proofs.«422945_j10866267259114_2_alg».proof.Proof.Gen.Pre_finite_inputs
import proofs.«422945_j10866267259114_2_alg».proof.Proof.KI.AggrK
import proofs.«422945_j10866267259114_2_alg».proof.Proof.RI.AggrR
import proofs.«422945_j10866267259114_2_alg».proof.Proof.RI.Run
import proofs.«422945_j10866267259114_2_alg».proof.Proof.RI.Res
import proofs.«422945_j10866267259114_2_alg».proof.Proof.RI.Read
import proofs.«422945_j10866267259114_2_alg».proof.Proof.Alg.PreDecode
import proofs.«422945_j10866267259114_2_alg».proof.Proof.Alg.Main
import proofs.«422945_j10866267259114_2_alg».proof.Proof.K.Run
import proofs.«422945_j10866267259114_2_alg».proof.Proof.KI.Run
import proofs.«422945_j10866267259114_2_alg».proof.Proof.KI.ValFinal

noncomputable section

namespace Cert.Proof.Assemble

open Idealize.ShloMosaic Idealize.ShloMosaic.TcCoe Idealize.SL.Sem

theorem value_eq {a0 : FVec Ideal Cert.ReferenceIdeal.S50000x256 .f32} {a1 : IVec Cert.ReferenceIdeal.S2x300000 32} {a2 : FVec Ideal Cert.ReferenceIdeal.S300000x256 .f32} {a3 : IVec Cert.ReferenceIdeal.S2x100000 32} {a4 : FVec Ideal Cert.ReferenceIdeal.S100000x256 .f32} {a5 : FVec Ideal Cert.ReferenceIdeal.S_ .f32} {a6 : FVec Ideal Cert.ReferenceIdeal.S256x256 .f32} {a7 : FVec Ideal Cert.ReferenceIdeal.S256 .f32} {a8 : FVec Ideal Cert.ReferenceIdeal.S256 .f32} {a9 : FVec Ideal Cert.ReferenceIdeal.S256 .f32} {a10 : FVec Ideal Cert.ReferenceIdeal.S256x256 .f32} {a11 : FVec Ideal Cert.ReferenceIdeal.S256 .f32} {a12 : FVec Ideal Cert.ReferenceIdeal.S_ .f32} {a13 : FVec Ideal Cert.ReferenceIdeal.S256x256 .f32} {a14 : FVec Ideal Cert.ReferenceIdeal.S256 .f32} {a15 : FVec Ideal Cert.ReferenceIdeal.S256 .f32} {a16 : FVec Ideal Cert.ReferenceIdeal.S256 .f32} {a17 : FVec Ideal Cert.ReferenceIdeal.S256x256 .f32} {a18 : FVec Ideal Cert.ReferenceIdeal.S256 .f32} {a19 : FVec Ideal Cert.ReferenceIdeal.S256 .f32} {a20 : FVec Ideal Cert.ReferenceIdeal.S256 .f32} {a21 : FVec Ideal Cert.ReferenceIdeal.S_ .f32} {a22 : FVec Ideal Cert.ReferenceIdeal.S_ .f32}
    {b0 : FVec Ideal Cert.ReferenceIdeal.S50000x256 .f32} {b1 : IVec Cert.ReferenceIdeal.S2x300000 32} {b2 : FVec Ideal Cert.ReferenceIdeal.S300000x256 .f32} {b3 : IVec Cert.ReferenceIdeal.S2x100000 32} {b4 : FVec Ideal Cert.ReferenceIdeal.S100000x256 .f32} {b5 : FVec Ideal Cert.ReferenceIdeal.S_ .f32} {b6 : FVec Ideal Cert.ReferenceIdeal.S256x256 .f32} {b7 : FVec Ideal Cert.ReferenceIdeal.S256 .f32} {b8 : FVec Ideal Cert.ReferenceIdeal.S256 .f32} {b9 : FVec Ideal Cert.ReferenceIdeal.S256 .f32} {b10 : FVec Ideal Cert.ReferenceIdeal.S256x256 .f32} {b11 : FVec Ideal Cert.ReferenceIdeal.S256 .f32} {b12 : FVec Ideal Cert.ReferenceIdeal.S_ .f32} {b13 : FVec Ideal Cert.ReferenceIdeal.S256x256 .f32} {b14 : FVec Ideal Cert.ReferenceIdeal.S256 .f32} {b15 : FVec Ideal Cert.ReferenceIdeal.S256 .f32} {b16 : FVec Ideal Cert.ReferenceIdeal.S256 .f32} {b17 : FVec Ideal Cert.ReferenceIdeal.S256x256 .f32} {b18 : FVec Ideal Cert.ReferenceIdeal.S256 .f32} {b19 : FVec Ideal Cert.ReferenceIdeal.S256 .f32} {b20 : FVec Ideal Cert.ReferenceIdeal.S256 .f32} {b21 : FVec Ideal Cert.ReferenceIdeal.S_ .f32} {b22 : FVec Ideal Cert.ReferenceIdeal.S_ .f32}
    (e0 : b0 = a0) (e1 : b1 = a1) (e2 : b2 = a2) (e3 : b3 = a3) (e4 : b4 = a4) (e5 : b5 = a5) (e6 : b6 = a6) (e7 : b7 = a7) (e8 : b8 = a8) (e9 : b9 = a9) (e10 : b10 = a10) (e11 : b11 = a11) (e12 : b12 = a12) (e13 : b13 = a13) (e14 : b14 = a14) (e15 : b15 = a15) (e16 : b16 = a16) (e17 : b17 = a17) (e18 : b18 = a18) (e19 : b19 = a19) (e20 : b20 = a20) (e21 : b21 = a21) (e22 : b22 = a22)
    (pf : Cert.Alg.PreFacts a0 a1 a2 a3 a4 a5 a6 a7 a8 a9 a10 a11 a12 a13 a14 a15 a16 a17 a18 a19 a20 a21 a22) :
    Cert.ReferenceIdeal.Hand.finalR b0 (Cert.ReferenceIdeal.Hand.layerR b0 (Cert.ReferenceIdeal.Hand.aggrR300 b0 b1 b2) b5 b6 b7 b8 b9 b10 b11) (Cert.ReferenceIdeal.Hand.layerR b0 (Cert.ReferenceIdeal.Hand.aggrR100 b0 b3 b4) b12 b13 b14 b15 b16 b17 b18) b21 b22 b19 b20
      = Cert.Spec.out Cert.Spec.varK a0 (Cert.KernelIdeal.Hand.aggrK300 a0 a1 a2) (Cert.KernelIdeal.Hand.aggrK100 a0 a3 a4) (a5 ValueIdx.ix0) a6 a7 a8 a9 a10 a11 (a12 ValueIdx.ix0) a13 a14 a15 a16 a17 a18 a19 a20 (a21 ValueIdx.ix0) (a22 ValueIdx.ix0) := by
  subst e0 e1 e2 e3 e4 e5 e6 e7 e8 e9 e10 e11 e12 e13 e14 e15 e16 e17 e18 e19 e20 e21 e22
  rw [Cert.ReferenceIdeal.Hand.finalR_eq, Cert.ReferenceIdeal.Hand.layerR_eq, Cert.ReferenceIdeal.Hand.layerR_eq]
  exact (Cert.Alg.outK_eq_outR _ _ _ _ _ _ _ _ _ _ _ _ _ _ _ _ _ _ _ _ _ _ _ pf).symm

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Hand.run (F := Ideal) m ρ)

theorem preserves : Cert.preserves_Kernel_KernelIdeal := trivial

theorem algebraic : Cert.algebraic_KernelIdeal_ReferenceIdeal := by
  intro m ρ m' ρ' hpre hagree
  refine ⟨fun c => Cert.KernelIdeal.Gen.V20 m (Cert.KernelIdeal.Hand.outs m) c Cert.KernelIdeal.main_v81, ?_, ?_⟩
  · refine (θ_run Cert.KernelIdeal.defs _ _).mono (fun r h c => ?_) (Cert.KernelIdeal.Hand.run m ρ)
    have arg : ∀ (b : Ref Cert.KernelIdeal.sig .tc) (hs : ¬(Proc.devRef .tc b : DevRef Cert.KernelIdeal.τ Cert.KernelIdeal.sig).isScoped := by decide)
        (hb : Cert.KernelIdeal.Hand.Kept b := by decide),
        r.2.mem ((c.tc : Thread Cert.KernelIdeal.nD Cert.KernelIdeal.τ).loc b) = m ((c.tc : Thread Cert.KernelIdeal.nD Cert.KernelIdeal.τ).loc b) := fun b hs hb =>
      (h c (Proc.devRef .tc b) (Finset.mem_filter.mpr ⟨StableHlo.devRef_mem_tcRefs b, hs⟩)).trans (Cert.KernelIdeal.Hand.V20_arg m _ b c hb)
    exact ⟨(h c (Proc.devRef .tc Cert.KernelIdeal.main_v81) (Finset.mem_filter.mpr ⟨StableHlo.devRef_mem_tcRefs Cert.KernelIdeal.main_v81, by decide⟩)),
      arg Cert.KernelIdeal.main_arg0, arg Cert.KernelIdeal.main_arg1, arg Cert.KernelIdeal.main_arg2, arg Cert.KernelIdeal.main_arg3, arg Cert.KernelIdeal.main_arg4, arg Cert.KernelIdeal.main_arg5, arg Cert.KernelIdeal.main_arg6, arg Cert.KernelIdeal.main_arg7,
      arg Cert.KernelIdeal.main_arg8, arg Cert.KernelIdeal.main_arg9, arg Cert.KernelIdeal.main_arg10, arg Cert.KernelIdeal.main_arg11, arg Cert.KernelIdeal.main_arg12, arg Cert.KernelIdeal.main_arg13, arg Cert.KernelIdeal.main_arg14, arg Cert.KernelIdeal.main_arg15,
      arg Cert.KernelIdeal.main_arg16, arg Cert.KernelIdeal.main_arg17, arg Cert.KernelIdeal.main_arg18, arg Cert.KernelIdeal.main_arg19, arg Cert.KernelIdeal.main_arg20, arg Cert.KernelIdeal.main_arg21, arg Cert.KernelIdeal.main_arg22⟩
  · refine (θ_run Cert.ReferenceIdeal.defs _ _).mono (fun r h c => ⟨?_, (h c).2⟩) (Cert.ReferenceIdeal.Hand.run (F := Ideal) m' ρ')
    obtain ⟨e0, e1, e2, e3, e4, e5, e6, e7, e8, e9, e10, e11, e12, e13, e14, e15, e16, e17, e18, e19, e20, e21, e22⟩ := hagree c
    exact (h c).1.trans <| (Cert.ReferenceIdeal.Hand.result_eq (F := Ideal) _).trans <|
      (value_eq e0 e1 e2 e3 e4 e5 e6 e7 e8 e9 e10 e11 e12 e13 e14 e15 e16 e17 e18 e19 e20 e21 e22
        (Cert.Alg.pre_decode _ _ _ _ _ _ _ _ _ _ _ _ _ _ _ _ _ _ _ _ _ _ _ (hpre c))).trans (Cert.KernelIdeal.Hand.v81_eq m c).symm

end Cert.Proof.Assemble

end
-- ==== Proof.lean ====
import proofs.«422945_j10866267259114_2_alg».proof.Defs
import proofs.«422945_j10866267259114_2_alg».proof.Proof.Gen.Kernel
import proofs.«422945_j10866267259114_2_alg».proof.Proof.Gen.Kernel.Skeleton
import proofs.«422945_j10866267259114_2_alg».proof.Proof.Gen.Kernel.Launch
import proofs.«422945_j10866267259114_2_alg».proof.Proof.Gen.Kernel.Regions
import proofs.«422945_j10866267259114_2_alg».proof.Proof.Gen.Kernel.Points
import proofs.«422945_j10866267259114_2_alg».proof.Proof.Gen.KernelIdeal
import proofs.«422945_j10866267259114_2_alg».proof.Proof.Gen.KernelIdeal.Skeleton
import proofs.«422945_j10866267259114_2_alg».proof.Proof.Gen.KernelIdeal.Launch
import proofs.«422945_j10866267259114_2_alg».proof.Proof.Gen.KernelIdeal.Regions
import proofs.«422945_j10866267259114_2_alg».proof.Proof.Gen.KernelIdeal.Points
import proofs.«422945_j10866267259114_2_alg».proof.Proof.Gen.ReferenceIdeal
import proofs.«422945_j10866267259114_2_alg».proof.Proof.Gen.Pre_finite_inputs
import proofs.«422945_j10866267259114_2_alg».proof.Proof.Assemble
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Assemble.frame_k, Assemble.frame_ki, Assemble.frame_ri, Assemble.preserves, Assemble.algebraic⟩

end Cert.Proof

end
